-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v138)) (v1 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_v284) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S100000 32) (main_v32 : IVec S_ 1) (main_c_12 : IVec S_ 32) : IVec S_ 1 :=
  let main_v33 : IVec S100000 32 := broadcastInDim S100000 ![] bcast_S_S100000 main_c_12
  let main_v34 : IVec S100000 1 := cmpi .slt main_arg2 main_v33
  let main_c_13 : IVec S_ 1 := constantI S_ 1 1#1
  let main_v35 : IVec S_ 1 := (fun x v => Host.reduce IntOp.andi x v reducesTo_S100000_S_d0 h_S_) main_v34 main_c_13
  let main_v36 : IVec S_ 1 := andi main_v32 main_v35
  main_v36

def fn_part1 {F : FTy → Type} [FloatOps F] (main_arg2 : IVec S100000 32) (main_arg6 : FVec F S3x128 .f32) (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_c_10 : IVec S_ 32 := constantI S_ 32 0#32
  let main_v29 : IVec S100000 32 := broadcastInDim S100000 ![] bcast_S_S100000 main_c_10
  let main_v30 : IVec S100000 1 := cmpi .sge main_arg2 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v28 main_v31
  let main_c_12 : IVec S_ 32 := constantI S_ 32 64#32
  fn_part2 (F := F) main_arg2 main_v32 main_c_12

def fn {F : FTy → Type} [FloatOps F] (main_arg0 : FVec F S100000x128 .f32) (main_arg1 : IVec S2x1000000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg2 main_arg6 main_arg7 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S3x128x128 : Shape := ⟨3, ![3, 128, 128]⟩
abbrev S3x128 : Shape := ⟨2, ![3, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S64 : Shape := ⟨1, ![64]⟩
abbrev S64x1 : Shape := ⟨2, ![64, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S1000000x128 : Shape := ⟨2, ![1000000, 128]⟩
abbrev S2x64x128 : Shape := ⟨3, ![2, 64, 128]⟩
abbrev S2000x128 : Shape := ⟨2, ![2000, 128]⟩
abbrev S2000x1 : Shape := ⟨2, ![2000, 1]⟩
abbrev S1x64x128 : Shape := ⟨3, ![1, 64, 128]⟩
abbrev S64x128 : Shape := ⟨2, ![64, 128]⟩
abbrev S2000x64 : Shape := ⟨2, ![2000, 64]⟩
abbrev S5000x64 : Shape := ⟨2, ![5000, 64]⟩
abbrev S1x100000x128 : Shape := ⟨3, ![1, 100000, 128]⟩
abbrev S3x100000x128 : Shape := ⟨3, ![3, 100000, 128]⟩

abbrev nBuf : Space → Nat
  | .hbm => 182
  | .vmem => 114
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S1x1000000, .i32⟩
  | 9 => ⟨S1000000, .i32⟩
  | 10 => ⟨S1x1000000, .i32⟩
  | 11 => ⟨S1000000, .i32⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S64x1, .f32⟩
  | 36 => ⟨S100000x1, .i32⟩
  | 37 => ⟨S1x128, .f32⟩
  | 38 => ⟨S128, .f32⟩
  | 39 => ⟨S1x128, .f32⟩
  | 40 => ⟨S1x128x128, .f32⟩
  | 41 => ⟨S128x128, .f32⟩
  | 42 => ⟨S100000x128, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x128, .f32⟩
  | 52 => ⟨S_, .f32⟩
  | 53 => ⟨S100000x128, .f32⟩
  | 54 => ⟨S1000000x1, .i32⟩
  | 55 => ⟨S100000x128, .f32⟩
  | 56 => ⟨S100000x128, .f32⟩
  | 57 => ⟨S2x64x128, .f32⟩
  | 58 => ⟨S_, .f32⟩
  | 59 => ⟨S64x128, .f32⟩
  | 60 => ⟨S64x128, .f32⟩
  | 61 => ⟨S64x128, .f32⟩
  | 62 => ⟨S1x128, .f32⟩
  | 63 => ⟨S128, .f32⟩
  | 64 => ⟨S1x128, .f32⟩
  | 65 => ⟨S100000x128, .f32⟩
  | 66 => ⟨S2x64x128, .f32⟩
  | 67 => ⟨S_, .f32⟩
  | 68 => ⟨S64x128, .f32⟩
  | 69 => ⟨S64x128, .f32⟩
  | 70 => ⟨S64x128, .f32⟩
  | 71 => ⟨S1x128, .f32⟩
  | 72 => ⟨S128, .f32⟩
  | 73 => ⟨S1x128, .f32⟩
  | 74 => ⟨S1x128, .f32⟩
  | 75 => ⟨S128, .f32⟩
  | 76 => ⟨S1x128, .f32⟩
  | 77 => ⟨S_, .f32⟩
  | 78 => ⟨S64x128, .f32⟩
  | 79 => ⟨S64x128, .f32⟩
  | 80 => ⟨S64x128, .f32⟩
  | 81 => ⟨S64x128, .f32⟩
  | 82 => ⟨S64x128, .f32⟩
  | 83 => ⟨S100000x128, .f32⟩
  | 84 => ⟨S1x128, .f32⟩
  | 85 => ⟨S128, .f32⟩
  | 86 => ⟨S1x128, .f32⟩
  | 87 => ⟨S1x128x128, .f32⟩
  | 88 => ⟨S128x128, .f32⟩
  | 89 => ⟨S100000x128, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x128, .f32⟩
  | 99 => ⟨S_, .f32⟩
  | 100 => ⟨S100000x128, .f32⟩
  | 101 => ⟨S1000000x1, .i32⟩
  | 102 => ⟨S100000x128, .f32⟩
  | 103 => ⟨S100000x128, .f32⟩
  | 104 => ⟨S2x64x128, .f32⟩
  | 105 => ⟨S_, .f32⟩
  | 106 => ⟨S64x128, .f32⟩
  | 107 => ⟨S64x128, .f32⟩
  | 108 => ⟨S64x128, .f32⟩
  | 109 => ⟨S1x128, .f32⟩
  | 110 => ⟨S128, .f32⟩
  | 111 => ⟨S1x128, .f32⟩
  | 112 => ⟨S100000x128, .f32⟩
  | 113 => ⟨S2x64x128, .f32⟩
  | 114 => ⟨S_, .f32⟩
  | 115 => ⟨S64x128, .f32⟩
  | 116 => ⟨S64x128, .f32⟩
  | 117 => ⟨S64x128, .f32⟩
  | 118 => ⟨S1x128, .f32⟩
  | 119 => ⟨S128, .f32⟩
  | 120 => ⟨S1x128, .f32⟩
  | 121 => ⟨S1x128, .f32⟩
  | 122 => ⟨S128, .f32⟩
  | 123 => ⟨S1x128, .f32⟩
  | 124 => ⟨S_, .f32⟩
  | 125 => ⟨S64x128, .f32⟩
  | 126 => ⟨S64x128, .f32⟩
  | 127 => ⟨S64x128, .f32⟩
  | _ => ⟨S100000x128, .f32⟩

abbrev hbmTy0_1 (i : Nat) : BufTy := match i % 128 with
  | 0 => ⟨S64x128, .f32⟩
  | 1 => ⟨S64x128, .f32⟩
  | 2 => ⟨S100000x128, .f32⟩
  | 3 => ⟨S1x128, .f32⟩
  | 4 => ⟨S128, .f32⟩
  | 5 => ⟨S1x128, .f32⟩
  | 6 => ⟨S1x128x128, .f32⟩
  | 7 => ⟨S128x128, .f32⟩
  | 8 => ⟨S100000x128, .f32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x128, .f32⟩
  | 18 => ⟨S_, .f32⟩
  | 19 => ⟨S100000x128, .f32⟩
  | 20 => ⟨S1000000x1, .i32⟩
  | 21 => ⟨S100000x128, .f32⟩
  | 22 => ⟨S100000x128, .f32⟩
  | 23 => ⟨S2x64x128, .f32⟩
  | 24 => ⟨S_, .f32⟩
  | 25 => ⟨S64x128, .f32⟩
  | 26 => ⟨S64x128, .f32⟩
  | 27 => ⟨S64x128, .f32⟩
  | 28 => ⟨S1x128, .f32⟩
  | 29 => ⟨S128, .f32⟩
  | 30 => ⟨S1x128, .f32⟩
  | 31 => ⟨S100000x128, .f32⟩
  | 32 => ⟨S2x64x128, .f32⟩
  | 33 => ⟨S_, .f32⟩
  | 34 => ⟨S64x128, .f32⟩
  | 35 => ⟨S64x128, .f32⟩
  | 36 => ⟨S64x128, .f32⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S_, .f32⟩
  | 44 => ⟨S64x128, .f32⟩
  | 45 => ⟨S64x128, .f32⟩
  | 46 => ⟨S64x128, .f32⟩
  | 47 => ⟨S64x128, .f32⟩
  | 48 => ⟨S64x128, .f32⟩
  | 49 => ⟨S100000x128, .f32⟩
  | 50 => ⟨S1x100000x128, .f32⟩
  | 51 => ⟨S1x100000x128, .f32⟩
  | 52 => ⟨S1x100000x128, .f32⟩
  | 53 => ⟨S3x100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x1, .i32⟩
  | .local _ .vmem, ⟨15, _⟩ => ⟨S2000x1, .i32⟩
  | .local _ .vmem, ⟨16, _⟩ => ⟨S2000x128, .f32⟩
  | .local _ .vmem, ⟨17, _⟩ => ⟨S2000x128, .f32⟩
  | .local _ .vmem, ⟨18, _⟩ => ⟨S1x64x128, .f32⟩
  | .local _ .vmem, ⟨19, _⟩ => ⟨S1x64x128, .f32⟩
  | .local _ .vmem, ⟨20, _⟩ => ⟨S2000x128, .f32⟩
  | .local _ .vmem, ⟨21, _⟩ => ⟨S2000x128, .f32⟩
  | .local _ .vmem, ⟨22, _⟩ => ⟨S2000x1, .i32⟩
  | .local _ .vmem, ⟨23, _⟩ => ⟨S2000x1, .i32⟩
  | .local _ .vmem, ⟨24, _⟩ => ⟨S64x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x64x128, .f32⟩
  | .local _ .vmem, ⟨29, _⟩ => ⟨S1x64x128, .f32⟩
  | .local _ .vmem, ⟨30, _⟩ => ⟨S5000x128, .f32⟩
  | .local _ .vmem, ⟨31, _⟩ => ⟨S5000x128, .f32⟩
  | .local _ .vmem, ⟨32, _⟩ => ⟨S5000x1, .i32⟩
  | .local _ .vmem, ⟨33, _⟩ => ⟨S5000x1, .i32⟩
  | .local _ .vmem, ⟨34, _⟩ => ⟨S64x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x1, .f32⟩
  | .local _ .vmem, ⟨42, _⟩ => ⟨S5000x1, .f32⟩
  | .local _ .vmem, ⟨43, _⟩ => ⟨S5000x128, .f32⟩
  | .local _ .vmem, ⟨44, _⟩ => ⟨S5000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x1, .f32⟩
  | .local _ .vmem, ⟨50, _⟩ => ⟨S2000x1, .f32⟩
  | .local _ .vmem, ⟨51, _⟩ => ⟨S1x128, .f32⟩
  | .local _ .vmem, ⟨52, _⟩ => ⟨S2000x1, .i32⟩
  | .local _ .vmem, ⟨53, _⟩ => ⟨S2000x1, .i32⟩
  | .local _ .vmem, ⟨54, _⟩ => ⟨S2000x128, .f32⟩
  | .local _ .vmem, ⟨55, _⟩ => ⟨S2000x128, .f32⟩
  | .local _ .vmem, ⟨56, _⟩ => ⟨S1x64x128, .f32⟩
  | .local _ .vmem, ⟨57, _⟩ => ⟨S1x64x128, .f32⟩
  | .local _ .vmem, ⟨58, _⟩ => ⟨S2000x128, .f32⟩
  | .local _ .vmem, ⟨59, _⟩ => ⟨S2000x128, .f32⟩
  | .local _ .vmem, ⟨60, _⟩ => ⟨S2000x1, .i32⟩
  | .local _ .vmem, ⟨61, _⟩ => ⟨S2000x1, .i32⟩
  | .local _ .vmem, ⟨62, _⟩ => ⟨S64x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S1x64x128, .f32⟩
  | .local _ .vmem, ⟨67, _⟩ => ⟨S1x64x128, .f32⟩
  | .local _ .vmem, ⟨68, _⟩ => ⟨S5000x128, .f32⟩
  | .local _ .vmem, ⟨69, _⟩ => ⟨S5000x128, .f32⟩
  | .local _ .vmem, ⟨70, _⟩ => ⟨S5000x1, .i32⟩
  | .local _ .vmem, ⟨71, _⟩ => ⟨S5000x1, .i32⟩
  | .local _ .vmem, ⟨72, _⟩ => ⟨S64x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S128x128, .f32⟩
  | .local _ .vmem, ⟨79, _⟩ => ⟨S5000x1, .f32⟩
  | .local _ .vmem, ⟨80, _⟩ => ⟨S5000x1, .f32⟩
  | .local _ .vmem, ⟨81, _⟩ => ⟨S5000x128, .f32⟩
  | .local _ .vmem, ⟨82, _⟩ => ⟨S5000x128, .f32⟩
  | .local _ .vmem, ⟨83, _⟩ => ⟨S2000x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x1, .f32⟩
  | .local _ .vmem, ⟨88, _⟩ => ⟨S2000x1, .f32⟩
  | .local _ .vmem, ⟨89, _⟩ => ⟨S1x128, .f32⟩
  | .local _ .vmem, ⟨90, _⟩ => ⟨S2000x1, .i32⟩
  | .local _ .vmem, ⟨91, _⟩ => ⟨S2000x1, .i32⟩
  | .local _ .vmem, ⟨92, _⟩ => ⟨S2000x128, .f32⟩
  | .local _ .vmem, ⟨93, _⟩ => ⟨S2000x128, .f32⟩
  | .local _ .vmem, ⟨94, _⟩ => ⟨S1x64x128, .f32⟩
  | .local _ .vmem, ⟨95, _⟩ => ⟨S1x64x128, .f32⟩
  | .local _ .vmem, ⟨96, _⟩ => ⟨S2000x128, .f32⟩
  | .local _ .vmem, ⟨97, _⟩ => ⟨S2000x128, .f32⟩
  | .local _ .vmem, ⟨98, _⟩ => ⟨S2000x1, .i32⟩
  | .local _ .vmem, ⟨99, _⟩ => ⟨S2000x1, .i32⟩
  | .local _ .vmem, ⟨100, _⟩ => ⟨S64x128, .f32⟩
  | .local _ .vmem, ⟨101, _⟩ => ⟨S1x128, .f32⟩
  | .local _ .vmem, ⟨102, _⟩ => ⟨S2000x128, .f32⟩
  | .local _ .vmem, ⟨103, _⟩ => ⟨S2000x128, .f32⟩
  | .local _ .vmem, ⟨104, _⟩ => ⟨S1x64x128, .f32⟩
  | .local _ .vmem, ⟨105, _⟩ => ⟨S1x64x128, .f32⟩
  | .local _ .vmem, ⟨106, _⟩ => ⟨S5000x128, .f32⟩
  | .local _ .vmem, ⟨107, _⟩ => ⟨S5000x128, .f32⟩
  | .local _ .vmem, ⟨108, _⟩ => ⟨S5000x1, .i32⟩
  | .local _ .vmem, ⟨109, _⟩ => ⟨S5000x1, .i32⟩
  | .local _ .vmem, ⟨110, _⟩ => ⟨S64x128, .f32⟩
  | .local _ .vmem, ⟨111, _⟩ => ⟨S1x128, .f32⟩
  | .local _ .vmem, ⟨112, _⟩ => ⟨S5000x128, .f32⟩
  | .local _ .vmem, ⟨113, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_11 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77_0 : Ref sig .tc := ⟨.hbm, 103, rfl⟩
abbrev main_v77_1 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_16 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_17 : Ref sig .tc := ⟨.hbm, 137, rfl⟩
abbrev main_v106 : Ref sig .tc := ⟨.hbm, 138, rfl⟩
abbrev main_v107 : Ref sig .tc := ⟨.hbm, 139, rfl⟩
abbrev main_c_18 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_19 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116_0 : Ref sig .tc := ⟨.hbm, 150, rfl⟩
abbrev main_v116_1 : Ref sig .tc := ⟨.hbm, 151, rfl⟩
abbrev main_cst_20 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123_0 : Ref sig .tc := ⟨.hbm, 159, rfl⟩
abbrev main_v123_1 : Ref sig .tc := ⟨.hbm, 160, rfl⟩
abbrev main_cst_21 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_22 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg5_1 : Ref sig .tc := ⟨.vmem, 55, rfl⟩
abbrev cc5_stg6_0 : Ref sig .tc := ⟨.vmem, 56, rfl⟩
abbrev cc5_stg6_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg1_1 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg5_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg4_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg2_1 : Ref sig .tc := ⟨.vmem, 80, rfl⟩
abbrev cc8_stg3_0 : Ref sig .tc := ⟨.vmem, 81, rfl⟩
abbrev cc8_stg3_1 : Ref sig .tc := ⟨.vmem, 82, rfl⟩
abbrev cc9_stg0_0 : Ref sig .tc := ⟨.vmem, 83, rfl⟩
abbrev cc9_stg0_1 : Ref sig .tc := ⟨.vmem, 84, rfl⟩
abbrev cc9_stg1_0 : Ref sig .tc := ⟨.vmem, 85, rfl⟩
abbrev cc9_stg1_1 : Ref sig .tc := ⟨.vmem, 86, rfl⟩
abbrev cc9_stg2_0 : Ref sig .tc := ⟨.vmem, 87, rfl⟩
abbrev cc9_stg2_1 : Ref sig .tc := ⟨.vmem, 88, rfl⟩
abbrev cc9_stg3_0 : Ref sig .tc := ⟨.vmem, 89, rfl⟩
abbrev cc9_stg4_0 : Ref sig .tc := ⟨.vmem, 90, rfl⟩
abbrev cc9_stg4_1 : Ref sig .tc := ⟨.vmem, 91, rfl⟩
abbrev cc9_stg5_0 : Ref sig .tc := ⟨.vmem, 92, rfl⟩
abbrev cc9_stg5_1 : Ref sig .tc := ⟨.vmem, 93, rfl⟩
abbrev cc9_stg6_0 : Ref sig .tc := ⟨.vmem, 94, rfl⟩
abbrev cc9_stg6_1 : Ref sig .tc := ⟨.vmem, 95, rfl⟩
abbrev cc10_stg0_0 : Ref sig .tc := ⟨.vmem, 96, rfl⟩
abbrev cc10_stg0_1 : Ref sig .tc := ⟨.vmem, 97, rfl⟩
abbrev cc10_stg1_0 : Ref sig .tc := ⟨.vmem, 98, rfl⟩
abbrev cc10_stg1_1 : Ref sig .tc := ⟨.vmem, 99, rfl⟩
abbrev cc10_stg2_0 : Ref sig .tc := ⟨.vmem, 100, rfl⟩
abbrev cc10_stg3_0 : Ref sig .tc := ⟨.vmem, 101, rfl⟩
abbrev cc10_stg4_0 : Ref sig .tc := ⟨.vmem, 102, rfl⟩
abbrev cc10_stg4_1 : Ref sig .tc := ⟨.vmem, 103, rfl⟩
abbrev cc10_stg5_0 : Ref sig .tc := ⟨.vmem, 104, rfl⟩
abbrev cc10_stg5_1 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg1_1 : Ref sig .tc := ⟨.vmem, 109, rfl⟩
abbrev cc11_stg2_0 : Ref sig .tc := ⟨.vmem, 110, rfl⟩
abbrev cc11_stg3_0 : Ref sig .tc := ⟨.vmem, 111, rfl⟩
abbrev cc11_stg4_0 : Ref sig .tc := ⟨.vmem, 112, rfl⟩
abbrev cc11_stg4_1 : Ref sig .tc := ⟨.vmem, 113, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc5_sem5_0 : DmaSem sig := 54
abbrev cc5_sem5_1 : DmaSem sig := 55
abbrev cc5_sem6_0 : DmaSem sig := 56
abbrev cc5_sem6_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem4_0 : DmaSem sig := 64
abbrev cc6_sem4_1 : DmaSem sig := 65
abbrev cc6_sem5_0 : DmaSem sig := 66
abbrev cc6_sem5_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem4_1 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem2_1 : DmaSem sig := 80
abbrev cc8_sem3_0 : DmaSem sig := 81
abbrev cc8_sem3_1 : DmaSem sig := 82
abbrev cc9_sem0_0 : DmaSem sig := 83
abbrev cc9_sem0_1 : DmaSem sig := 84
abbrev cc9_sem1_0 : DmaSem sig := 85
abbrev cc9_sem1_1 : DmaSem sig := 86
abbrev cc9_sem2_0 : DmaSem sig := 87
abbrev cc9_sem2_1 : DmaSem sig := 88
abbrev cc9_sem3_0 : DmaSem sig := 89
abbrev cc9_sem4_0 : DmaSem sig := 90
abbrev cc9_sem4_1 : DmaSem sig := 91
abbrev cc9_sem5_0 : DmaSem sig := 92
abbrev cc9_sem5_1 : DmaSem sig := 93
abbrev cc9_sem6_0 : DmaSem sig := 94
abbrev cc9_sem6_1 : DmaSem sig := 95
abbrev cc10_sem0_0 : DmaSem sig := 96
abbrev cc10_sem0_1 : DmaSem sig := 97
abbrev cc10_sem1_0 : DmaSem sig := 98
abbrev cc10_sem1_1 : DmaSem sig := 99
abbrev cc10_sem2_0 : DmaSem sig := 100
abbrev cc10_sem3_0 : DmaSem sig := 101
abbrev cc10_sem4_0 : DmaSem sig := 102
abbrev cc10_sem4_1 : DmaSem sig := 103
abbrev cc10_sem5_0 : DmaSem sig := 104
abbrev cc10_sem5_1 : DmaSem sig := 105
abbrev cc11_sem0_0 : DmaSem sig := 106
abbrev cc11_sem0_1 : DmaSem sig := 107
abbrev cc11_sem1_0 : DmaSem sig := 108
abbrev cc11_sem1_1 : DmaSem sig := 109
abbrev cc11_sem2_0 : DmaSem sig := 110
abbrev cc11_sem3_0 : DmaSem sig := 111
abbrev cc11_sem4_0 : DmaSem sig := 112
abbrev cc11_sem4_1 : DmaSem sig := 113

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x64x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![2, 25], ![false, false]⟩

def cc5_transform_0 (i : grid5.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc5_transform_2 (i : grid5.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc5_transform_5 (i : grid5.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S2000x1 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x64x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev grid6 : Pipeline.Grid := ⟨2, ![2, 25], ![false, false]⟩

def cc6_transform_0 (i : grid6.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x64x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨2, ![2, 25], ![false, false]⟩

def cc9_transform_0 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_1 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_2 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_5 (i : grid9.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc9_transform_6 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S2000x1 .i32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]

abbrev stage9_6 : Fin 2 → Memref sig .tc .vmem S1x64x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true, false]

abbrev grid10 : Pipeline.Grid := ⟨2, ![2, 25], ![false, false]⟩

def cc10_transform_0 (i : grid10.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc10_transform_1 (i : grid10.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc10_transform_5 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S2000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 1 → Memref sig .tc .vmem S64x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false, false]

abbrev stage10_4 : Fin 2 → Memref sig .tc .vmem S2000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev stage10_5 : Fin 2 → Memref sig .tc .vmem S1x64x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x1 .i32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  iota_S2000x64_d1_w32 : S2000x64.Iotas .tc 32 [1]
  broadcasts_S2000x1_S2000x64 : S2000x1.Broadcasts S2000x64
  natLt_1_32 : 1 < 32
  reducesTo_S2x64x128_S64x128_d0 : S2x64x128.ReducesTo [0] S64x128
  h_S_ : 0 < S_.numel
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bcast_S_S64x128 : S_.BroadcastsInDim S64x128 (![] : Fin 0 → Fin S64x128.rank)
  bcast_S1x128_S64x128_0_1 : S1x128.BroadcastsInDim S64x128 (![0, 1] : Fin 2 → Fin S64x128.rank)
  iota_S5000x64_d1_w32 : S5000x64.Iotas .tc 32 [1]
  broadcasts_S5000x1_S5000x64 : S5000x1.Broadcasts S5000x64
  shapeCasts_S5000x128_S5000x128 : S5000x128.ShapeCasts S5000x128
  broadcasts_S1x128_S5000x128 : S1x128.Broadcasts S5000x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  scatter_S100000_S1000000x1_S1000000_n_0_0_1_wf : ScatterDims.WF S100000 S1000000x1 S1000000 [] [0] [0] 1
  scatter_S64_S100000x1_S100000_n_0_0_1_wf : ScatterDims.WF S64 S100000x1 S100000 [] [0] [0] 1
  dot_S5000x128_S128x128_S5000x128_1_0_0_1_n_n_wf : DotDims.WF S5000x128 S128x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x64_S2000x128_S64x128_0_0_1_1_n_n_wf : DotDims.WF S2000x64 S2000x128 S64x128 [0] [0] [1] [1] [] []
  dot_S2000x64_S64x128_S2000x128_1_0_0_1_n_n_wf : DotDims.WF S2000x64 S64x128 S2000x128 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .i32 = 32 ∨ (Rect.block (s := S100000x1) S2000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x128.size a ≤ S2x64x128.size a
  hwx1_6 : ∀ i : grid1.Coords, EltTy.bits .f32 = 32 ∨ (Rect.block (s := S2x64x128) S1x64x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x64x128.size a ≤ S2x64x128.size a
  hwx2_5 : ∀ i : grid2.Coords, EltTy.bits .f32 = 32 ∨ (Rect.block (s := S2x64x128) S1x64x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S100000x128.size a
  hwx5_1 : ∀ i : grid5.Coords, EltTy.bits .f32 = 32 ∨ (Rect.block (s := S100000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x1.size a ≤ S100000x1.size a
  hwx5_4 : ∀ i : grid5.Coords, EltTy.bits .i32 = 32 ∨ (Rect.block (s := S100000x1) S2000x1.size (cc5_transform_4 i) (hinb5_4 i)).WholeWords (EltTy.packing .i32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x64x128.size a ≤ S2x64x128.size a
  hwx5_6 : ∀ i : grid5.Coords, EltTy.bits .f32 = 32 ∨ (Rect.block (s := S2x64x128) S1x64x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S100000x128.size a
  hwx6_4 : ∀ i : grid6.Coords, EltTy.bits .f32 = 32 ∨ (Rect.block (s := S100000x128) S2000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x64x128.size a ≤ S2x64x128.size a
  hwx6_5 : ∀ i : grid6.Coords, EltTy.bits .f32 = 32 ∨ (Rect.block (s := S2x64x128) S1x64x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .i32 = 32 ∨ (Rect.block (s := S100000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x128.size a ≤ S64x128.size a
  hwx7_2 : ∀ i : grid7.Coords, EltTy.bits .f32 = 32 ∨ (Rect.block (s := S64x128) S64x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S100000x128.size a
  hwx9_1 : ∀ i : grid9.Coords, EltTy.bits .f32 = 32 ∨ (Rect.block (s := S100000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S100000x1.size a
  hwx9_2 : ∀ i : grid9.Coords, EltTy.bits .f32 = 32 ∨ (Rect.block (s := S100000x1) S2000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x1.size a ≤ S100000x1.size a
  hwx9_4 : ∀ i : grid9.Coords, EltTy.bits .i32 = 32 ∨ (Rect.block (s := S100000x1) S2000x1.size (cc9_transform_4 i) (hinb9_4 i)).WholeWords (EltTy.packing .i32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S100000x128.size a
  hwx9_5 : ∀ i : grid9.Coords, EltTy.bits .f32 = 32 ∨ (Rect.block (s := S100000x128) S2000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x64x128.size a ≤ S2x64x128.size a
  hwx9_6 : ∀ i : grid9.Coords, EltTy.bits .f32 = 32 ∨ (Rect.block (s := S2x64x128) S1x64x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S100000x1.size a
  hwx10_1 : ∀ i : grid10.Coords, EltTy.bits .i32 = 32 ∨ (Rect.block (s := S100000x1) S2000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x128.size a ≤ S64x128.size a
  hwx10_2 : ∀ i : grid10.Coords, EltTy.bits .f32 = 32 ∨ (Rect.block (s := S64x128) S64x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x128.size a ≤ S100000x128.size a
  hwx10_4 : ∀ i : grid10.Coords, EltTy.bits .f32 = 32 ∨ (Rect.block (s := S100000x128) S2000x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1x64x128.size a ≤ S2x64x128.size a
  hwx10_5 : ∀ i : grid10.Coords, EltTy.bits .f32 = 32 ∨ (Rect.block (s := S2x64x128) S1x64x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x1.size a ≤ S100000x1.size a
  hwx11_1 : ∀ i : grid11.Coords, EltTy.bits .i32 = 32 ∨ (Rect.block (s := S100000x1) S5000x1.size (cc11_transform_1 i) (hinb11_1 i)).WholeWords (EltTy.packing .i32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x128.size a ≤ S64x128.size a
  hwx11_2 : ∀ i : grid11.Coords, EltTy.bits .f32 = 32 ∨ (Rect.block (s := S64x128) S64x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x128.size a ≤ S100000x128.size a
  hwx11_4 : ∀ i : grid11.Coords, EltTy.bits .f32 = 32 ∨ (Rect.block (s := S100000x128) S5000x128.size (cc11_transform_4 i) (hinb11_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_1) S1x64x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45_1) S1x64x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v21) S2000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v77_0) S2000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v77_1) S1x64x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v77_0) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v21) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v80) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v83) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84_0) S2000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v84_1) S1x64x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v84_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v98) S64x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v93) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v99) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v99) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v11) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v105) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v115) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v105) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v11) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v102) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v21) S2000x1.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v116_0) S2000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v116_1) S1x64x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v116_0) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v21) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v119) S64x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v122) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v123_0) S2000x128.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v123_1) S1x64x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v123_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v21) S5000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v137) S64x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v132) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v138) S5000x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S3x128x128 : Shape := ⟨3, ![3, 128, 128]⟩
abbrev S3x128 : Shape := ⟨2, ![3, 128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S64 : Shape := ⟨1, ![64]⟩
abbrev S100000x1 : Shape := ⟨2, ![100000, 1]⟩
abbrev S64x1 : Shape := ⟨2, ![64, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000000x128 : Shape := ⟨2, ![1000000, 128]⟩
abbrev S64x128 : Shape := ⟨2, ![64, 128]⟩
abbrev S1x100000x128 : Shape := ⟨3, ![1, 100000, 128]⟩
abbrev S3x100000x128 : Shape := ⟨3, ![3, 100000, 128]⟩

abbrev nBuf : Space → Nat
  | .hbm => 363
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S1x1000000, .i32⟩
  | 9 => ⟨S1000000, .i32⟩
  | 10 => ⟨S1x1000000, .i32⟩
  | 11 => ⟨S1000000, .i32⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .f32⟩
  | 23 => ⟨S100000, .f32⟩
  | 24 => ⟨S_, .f32⟩
  | 25 => ⟨S64, .f32⟩
  | 26 => ⟨S100000x1, .i32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S64x1, .f32⟩
  | 35 => ⟨S1x128x128, .f32⟩
  | 36 => ⟨S128x128, .f32⟩
  | 37 => ⟨S1x128, .f32⟩
  | 38 => ⟨S128, .f32⟩
  | 39 => ⟨S100000x128, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000x128, .f32⟩
  | 68 => ⟨S1000000x1, .f32⟩
  | 69 => ⟨S1000000x128, .f32⟩
  | 70 => ⟨S1000000x128, .f32⟩
  | 71 => ⟨S_, .f32⟩
  | 72 => ⟨S100000x128, .f32⟩
  | 73 => ⟨S1000000x1, .i32⟩
  | 74 => ⟨S100000x128, .f32⟩
  | 75 => ⟨S100000, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S_, .f32⟩
  | 90 => ⟨S64x128, .f32⟩
  | 91 => ⟨S100000x1, .i32⟩
  | 92 => ⟨S64x128, .f32⟩
  | 93 => ⟨S64x128, .f32⟩
  | 94 => ⟨S64x128, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x128, .f32⟩
  | 104 => ⟨S1x128, .f32⟩
  | 105 => ⟨S100000x128, .f32⟩
  | 106 => ⟨S100000x128, .f32⟩
  | 107 => ⟨S100000x128, .f32⟩
  | 108 => ⟨S100000x128, .f32⟩
  | 109 => ⟨S_, .f32⟩
  | 110 => ⟨S64x128, .f32⟩
  | 111 => ⟨S100000x1, .i32⟩
  | 112 => ⟨S64x128, .f32⟩
  | 113 => ⟨S64x128, .f32⟩
  | 114 => ⟨S64x128, .f32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x128, .f32⟩
  | 124 => ⟨S_, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S_, .f32⟩
  | 9 => ⟨S100000x128, .f32⟩
  | 10 => ⟨S100000x128, .i1⟩
  | 11 => ⟨S_, .f32⟩
  | 12 => ⟨S100000x128, .f32⟩
  | 13 => ⟨S100000x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S100000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000, .f32⟩
  | 38 => ⟨S1000000, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x128, .f32⟩
  | 48 => ⟨S1000000x1, .f32⟩
  | 49 => ⟨S1000000x128, .f32⟩
  | 50 => ⟨S1000000x128, .f32⟩
  | 51 => ⟨S_, .f32⟩
  | 52 => ⟨S100000x128, .f32⟩
  | 53 => ⟨S1000000x1, .i32⟩
  | 54 => ⟨S100000x128, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S_, .f32⟩
  | 70 => ⟨S64x128, .f32⟩
  | 71 => ⟨S100000x1, .i32⟩
  | 72 => ⟨S64x128, .f32⟩
  | 73 => ⟨S64x128, .f32⟩
  | 74 => ⟨S64x128, .f32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S64x128, .f32⟩
  | 91 => ⟨S100000x1, .i32⟩
  | 92 => ⟨S64x128, .f32⟩
  | 93 => ⟨S64x128, .f32⟩
  | 94 => ⟨S64x128, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S_, .f32⟩
  | 117 => ⟨S100000x128, .f32⟩
  | 118 => ⟨S100000x128, .i1⟩
  | 119 => ⟨S_, .f32⟩
  | 120 => ⟨S100000x128, .f32⟩
  | 121 => ⟨S100000x128, .f32⟩
  | 122 => ⟨S100000x128, .f32⟩
  | 123 => ⟨S1x128x128, .f32⟩
  | 124 => ⟨S128x128, .f32⟩
  | 125 => ⟨S1x128, .f32⟩
  | 126 => ⟨S128, .f32⟩
  | 127 => ⟨S100000x128, .f32⟩
  | _ => ⟨S100000x128, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000, .f32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000, .f32⟩
  | 18 => ⟨S1000000, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S1000000x1, .f32⟩
  | 29 => ⟨S1000000x128, .f32⟩
  | 30 => ⟨S1000000x128, .f32⟩
  | 31 => ⟨S_, .f32⟩
  | 32 => ⟨S100000x128, .f32⟩
  | 33 => ⟨S1000000x1, .i32⟩
  | 34 => ⟨S100000x128, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S_, .f32⟩
  | 50 => ⟨S64x128, .f32⟩
  | 51 => ⟨S100000x1, .i32⟩
  | 52 => ⟨S64x128, .f32⟩
  | 53 => ⟨S64x128, .f32⟩
  | 54 => ⟨S64x128, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000x128, .f32⟩
  | 64 => ⟨S1x128, .f32⟩
  | 65 => ⟨S100000x128, .f32⟩
  | 66 => ⟨S100000x128, .f32⟩
  | 67 => ⟨S100000x128, .f32⟩
  | 68 => ⟨S100000x128, .f32⟩
  | 69 => ⟨S_, .f32⟩
  | 70 => ⟨S64x128, .f32⟩
  | 71 => ⟨S100000x1, .i32⟩
  | 72 => ⟨S64x128, .f32⟩
  | 73 => ⟨S64x128, .f32⟩
  | 74 => ⟨S64x128, .f32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S_, .f32⟩
  | 97 => ⟨S100000x128, .f32⟩
  | 98 => ⟨S100000x128, .i1⟩
  | 99 => ⟨S_, .f32⟩
  | 100 => ⟨S100000x128, .f32⟩
  | 101 => ⟨S100000x128, .f32⟩
  | 102 => ⟨S100000x128, .f32⟩
  | 103 => ⟨S1x100000x128, .f32⟩
  | 104 => ⟨S1x100000x128, .f32⟩
  | 105 => ⟨S1x100000x128, .f32⟩
  | 106 => ⟨S3x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_13 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_16 : Ref sig .tc := ⟨.hbm, 115, rfl⟩
abbrev main_v89 : Ref sig .tc := ⟨.hbm, 116, rfl⟩
abbrev main_v90 : Ref sig .tc := ⟨.hbm, 117, rfl⟩
abbrev main_c_17 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_19 : Ref sig .tc := ⟨.hbm, 135, rfl⟩
abbrev main_call0_cst : Ref sig .tc := ⟨.hbm, 136, rfl⟩
abbrev main_call0_v0 : Ref sig .tc := ⟨.hbm, 137, rfl⟩
abbrev main_call0_v1 : Ref sig .tc := ⟨.hbm, 138, rfl⟩
abbrev main_call0_v2 : Ref sig .tc := ⟨.hbm, 139, rfl⟩
abbrev main_call0_v3 : Ref sig .tc := ⟨.hbm, 140, rfl⟩
abbrev main_call0_v4 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_20 : Ref sig .tc := ⟨.hbm, 148, rfl⟩
abbrev main_v112 : Ref sig .tc := ⟨.hbm, 149, rfl⟩
abbrev main_v113 : Ref sig .tc := ⟨.hbm, 150, rfl⟩
abbrev main_c_21 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_22 : Ref sig .tc := ⟨.hbm, 157, rfl⟩
abbrev main_v119 : Ref sig .tc := ⟨.hbm, 158, rfl⟩
abbrev main_v120 : Ref sig .tc := ⟨.hbm, 159, rfl⟩
abbrev main_c_23 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_c_24 : Ref sig .tc := ⟨.hbm, 167, rfl⟩
abbrev main_v127 : Ref sig .tc := ⟨.hbm, 168, rfl⟩
abbrev main_v128 : Ref sig .tc := ⟨.hbm, 169, rfl⟩
abbrev main_c_25 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_26 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_27 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_c_28 : Ref sig .tc := ⟨.hbm, 203, rfl⟩
abbrev main_v159 : Ref sig .tc := ⟨.hbm, 204, rfl⟩
abbrev main_v160 : Ref sig .tc := ⟨.hbm, 205, rfl⟩
abbrev main_c_29 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_30 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_31 : Ref sig .tc := ⟨.hbm, 223, rfl⟩
abbrev main_v176 : Ref sig .tc := ⟨.hbm, 224, rfl⟩
abbrev main_v177 : Ref sig .tc := ⟨.hbm, 225, rfl⟩
abbrev main_c_32 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_33 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_cst_34 : Ref sig .tc := ⟨.hbm, 243, rfl⟩
abbrev main_call1_cst : Ref sig .tc := ⟨.hbm, 244, rfl⟩
abbrev main_call1_v0 : Ref sig .tc := ⟨.hbm, 245, rfl⟩
abbrev main_call1_v1 : Ref sig .tc := ⟨.hbm, 246, rfl⟩
abbrev main_call1_v2 : Ref sig .tc := ⟨.hbm, 247, rfl⟩
abbrev main_call1_v3 : Ref sig .tc := ⟨.hbm, 248, rfl⟩
abbrev main_call1_v4 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_c_35 : Ref sig .tc := ⟨.hbm, 256, rfl⟩
abbrev main_v199 : Ref sig .tc := ⟨.hbm, 257, rfl⟩
abbrev main_v200 : Ref sig .tc := ⟨.hbm, 258, rfl⟩
abbrev main_c_36 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_c_37 : Ref sig .tc := ⟨.hbm, 265, rfl⟩
abbrev main_v206 : Ref sig .tc := ⟨.hbm, 266, rfl⟩
abbrev main_v207 : Ref sig .tc := ⟨.hbm, 267, rfl⟩
abbrev main_c_38 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_c_39 : Ref sig .tc := ⟨.hbm, 275, rfl⟩
abbrev main_v214 : Ref sig .tc := ⟨.hbm, 276, rfl⟩
abbrev main_v215 : Ref sig .tc := ⟨.hbm, 277, rfl⟩
abbrev main_c_40 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_cst_41 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_cst_42 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_c_43 : Ref sig .tc := ⟨.hbm, 311, rfl⟩
abbrev main_v246 : Ref sig .tc := ⟨.hbm, 312, rfl⟩
abbrev main_v247 : Ref sig .tc := ⟨.hbm, 313, rfl⟩
abbrev main_c_44 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_cst_45 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_c_46 : Ref sig .tc := ⟨.hbm, 331, rfl⟩
abbrev main_v263 : Ref sig .tc := ⟨.hbm, 332, rfl⟩
abbrev main_v264 : Ref sig .tc := ⟨.hbm, 333, rfl⟩
abbrev main_c_47 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_cst_48 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_cst_49 : Ref sig .tc := ⟨.hbm, 351, rfl⟩
abbrev main_call2_cst : Ref sig .tc := ⟨.hbm, 352, rfl⟩
abbrev main_call2_v0 : Ref sig .tc := ⟨.hbm, 353, rfl⟩
abbrev main_call2_v1 : Ref sig .tc := ⟨.hbm, 354, rfl⟩
abbrev main_call2_v2 : Ref sig .tc := ⟨.hbm, 355, rfl⟩
abbrev main_call2_v3 : Ref sig .tc := ⟨.hbm, 356, rfl⟩
abbrev main_call2_v4 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  scatter_S100000_S1000000x1_S1000000_n_0_0_1_wf : ScatterDims.WF S100000 S1000000x1 S1000000 [] [0] [0] 1
  scatter_S64_S100000x1_S100000_n_0_0_1_wf : ScatterDims.WF S64 S100000x1 S100000 [] [0] [0] 1
  dot_S100000x128_S128x128_S100000x128_1_0_0_1_n_n_wf : DotDims.WF S100000x128 S128x128 S100000x128 [1] [0] [0] [1] [] []
  gather_S100000_S1000000x1_S1000000_n_0_n_n_0_1_1_wf : GatherDims.WF S100000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S64x128_S100000x1_S100000x128_1_0_0_1_wf : ScatterDims.WF S64x128 S100000x1 S100000x128 [1] [0] [0] 1
  gather_S64x128_S100000x1_S100000x128_1_0_n_n_0_1_1128_wf : GatherDims.WF S64x128 S100000x1 S100000x128 [1] [0] [] [0] [] 1 ![1, 128]

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf

class Facts : Prop extends Facts₀ where

variable [Facts]
-- ==== Proof.K.R0.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t) : (dat0 V c).Φ t = Pipeline.ΦA spec0 c := by dsimp only [dat0]
theorem owed_eq0 (c : Dev nD) (t) : (dat0 V c).owed t = 0 := by dsimp only [dat0]
theorem q_eq0 (c : Dev nD) (w) : (dat0 V c).q w = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.R1.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev VO1_5 : View sig .tc .vmem S2000x128 .f32 := (Memref.whole cc1_stg5_0 : Memref sig .tc .vmem S2000x128 .f32).view
abbrev VO1_6 : View sig .tc .vmem S1x64x128 .f32 := (Memref.whole cc1_stg6_0 : Memref sig .tc .vmem S1x64x128 .f32).view

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x128 .f32 := win1_6.stage (cfg1.slots t 6)
abbrev hs1_6 (t : Fin cfg1.N) : (ms1_6 t).IsWhole := hstage1_6 ((cfg1.slots t 6).cast nbuf1_6)

section
variable (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S2000x128 .f32) (harg7 : arg7.IsWhole) (arg8 : Memref sig .tc .vmem S1x64x128 .f32) (harg8 : arg8.IsWhole) (hc0 : cond1_0 i) (x0 : Vec F S2000x128 .f32) (x1 : Vec F S2000x128 .f32) (x2 : Vec F S2000x1 .f32) (x3 : Vec F S1x128 .f32) (x4 : Vec F S2000x1 .i32)

set_option maxHeartbeats 4000000 in

noncomputable def kernelRun1_A :
    Σ' (L5 : List (View.Piece (Elt F) S2000x128 .f32)), { L6 : List (View.Piece (Elt F) S1x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__combine_reduce_kernel i arg2 harg2 arg3 harg3 arg4 harg4 arg5 harg5 arg6 harg6 arg7 harg7 arg8 harg8) K } := by
  refine ⟨?_, ?_, fun E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem cover1_A_5 (y : S2000x128.Idx) :
    ∃ pc ∈ (kernelRun1_A c i arg2 harg2 arg3 harg3 arg4 harg4 arg5 harg5 arg6 harg6 arg7 harg7 arg8 harg8 hc0 x0 x1 x2 x3 x4).1, y ∈ pc.1.set :=
  View.cover_of_tiledL (kernelRun1_A c i arg2 harg2 arg3 harg3 arg4 harg4 arg5 harg5 arg6 harg6 arg7 harg7 arg8 harg8 hc0 x0 x1 x2 x3 x4).1 S2000x128.size (by sl_kernel_rfl) y

def out1_A_5 : Vec F S2000x128 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3 x4).1)

theorem cover1_A_6 (y : S1x64x128.Idx) :
    ∃ pc ∈ (kernelRun1_A c i arg2 harg2 arg3 harg3 arg4 harg4 arg5 harg5 arg6 harg6 arg7 harg7 arg8 harg8 hc0 x0 x1 x2 x3 x4).2.1, y ∈ pc.1.set :=
  View.cover_of_tiledL (kernelRun1_A c i arg2 harg2 arg3 harg3 arg4 harg4 arg5 harg5 arg6 harg6 arg7 harg7 arg8 harg8 hc0 x0 x1 x2 x3 x4).2.1 S1x64x128.size (by sl_kernel_rfl) y

def out1_A_6 : Vec F S1x64x128 .f32 :=
  VO1_6.read (Elt F) (VO1_6.writes (Elt F) VO1_6.junk (kernelRun1_A c i arg2 harg2 arg3 harg3 arg4 harg4 arg5 harg5 arg6 harg6 arg7 harg7 arg8 harg8 hc0 x0 x1 x2 x3 x4).2.1)

end

section
variable (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S2000x128 .f32) (harg7 : arg7.IsWhole) (arg8 : Memref sig .tc .vmem S1x64x128 .f32) (harg8 : arg8.IsWhole) (hc0 : ¬cond1_0 i) (x0 : Vec F S2000x128 .f32) (x1 : Vec F S2000x128 .f32) (x2 : Vec F S2000x1 .f32) (x3 : Vec F S1x128 .f32) (x4 : Vec F S2000x1 .i32) (xo6 : Vec F S1x64x128 .f32)

set_option maxHeartbeats 4000000 in

noncomputable def kernelRun1_B :
    Σ' (L5 : List (View.Piece (Elt F) S2000x128 .f32)), { L6 : List (View.Piece (Elt F) S1x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__combine_reduce_kernel i arg2 harg2 arg3 harg3 arg4 harg4 arg5 harg5 arg6 harg6 arg7 harg7 arg8 harg8) K } := by
  refine ⟨?_, ?_, fun E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem cover1_B_5 (y : S2000x128.Idx) :
    ∃ pc ∈ (kernelRun1_B c i arg2 harg2 arg3 harg3 arg4 harg4 arg5 harg5 arg6 harg6 arg7 harg7 arg8 harg8 hc0 x0 x1 x2 x3 x4 xo6).1, y ∈ pc.1.set :=
  View.cover_of_tiledL (kernelRun1_B c i arg2 harg2 arg3 harg3 arg4 harg4 arg5 harg5 arg6 harg6 arg7 harg7 arg8 harg8 hc0 x0 x1 x2 x3 x4 xo6).1 S2000x128.size (by sl_kernel_rfl) y

def out1_B_5 : Vec F S2000x128 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 x4 xo6).1)

theorem cover1_B_6 (y : S1x64x128.Idx) :
    ∃ pc ∈ (kernelRun1_B c i arg2 harg2 arg3 harg3 arg4 harg4 arg5 harg5 arg6 harg6 arg7 harg7 arg8 harg8 hc0 x0 x1 x2 x3 x4 xo6).2.1, y ∈ pc.1.set :=
  View.cover_of_tiledL (kernelRun1_B c i arg2 harg2 arg3 harg3 arg4 harg4 arg5 harg5 arg6 harg6 arg7 harg7 arg8 harg8 hc0 x0 x1 x2 x3 x4 xo6).2.1 S1x64x128.size (by sl_kernel_rfl) y

def out1_B_6 : Vec F S1x64x128 .f32 :=
  VO1_6.read (Elt F) (VO1_6.writes (Elt F) VO1_6.junk (kernelRun1_B c i arg2 harg2 arg3 harg3 arg4 harg4 arg5 harg5 arg6 harg6 arg7 harg7 arg8 harg8 hc0 x0 x1 x2 x3 x4 xo6).2.1)

end

def outsAt1 (c : Dev nD) : (n : ℕ) → n < cfg1.N → Vec F S2000x128 .f32 × Vec F S1x64x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 25 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 25 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_B (c : Dev nD) (t : Fin cfg1.N) (h0 : ¬t.val % 25 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (t) : (dat1 V c).Φ t = Pipeline.ΦA spec1 c := by dsimp only [dat1]
theorem owed_eq1 (c : Dev nD) (t) : (dat1 V c).owed t = 0 := by dsimp only [dat1]
theorem q_eq1 (c : Dev nD) (w) : (dat1 V c).q w = fullShare := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_6_B (c : Dev nD) (t : Fin cfg1.N) (h0 : ¬t.val % 25 = 0) (d) :
    (dat1 V c).before 6 t d = (outsAt1 V c (t.val - 1) (Nat.lt_of_le_of_lt (Nat.sub_le _ _) t.isLt)).2 := by
  have hN : t.val < 50 := lt_of_lt_of_eq t.isLt (show cfg1.N = 50 from N_1)
  rw [Dat.before_out_kept _ 6 rfl t (by omega) (Bool.eq_false_iff.mpr fun h => by have := (flush1_6 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 50 := lt_of_lt_of_eq t.isLt (show cfg1.N = 50 from N_1)
  by_cases h0 : t.val % 25 = 0
  · rw [outsAt1_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt1_B V c t h0]
    simp only [before1_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.R2.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 25 = 0 :=
  (by decide +kernel : ∀ t : Fin grid2.N, cond2_0 (grid2.coords t) ↔ t.val % 25 = 0)

abbrev VO2_4 : View sig .tc .vmem S2000x128 .f32 := (Memref.whole cc2_stg4_0 : Memref sig .tc .vmem S2000x128 .f32).view
abbrev VO2_5 : View sig .tc .vmem S1x64x128 .f32 := (Memref.whole cc2_stg5_0 : Memref sig .tc .vmem S1x64x128 .f32).view

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64x128 .f32 := win2_5.stage (cfg2.slots t 5)
abbrev hs2_5 (t : Fin cfg2.N) : (ms2_5 t).IsWhole := hstage2_5 ((cfg2.slots t 5).cast nbuf2_5)

section
variable (c : Dev nD) (i : grid2.Coords) (arg2 : Memref sig .tc .vmem S2000x128 .f32) (harg2 : arg2.IsWhole) (arg3 : Memref sig .tc .vmem S2000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x64x128 .f32) (harg7 : arg7.IsWhole) (hc0 : cond2_0 i)

set_option maxHeartbeats 4000000 in

noncomputable def kernelRun2_A (x0 : Vec F S2000x128 .f32) (x1 : Vec F S2000x1 .i32) (x2 : Vec F S64x128 .f32) (x3 : Vec F S1x128 .f32) :
    Σ' (L4 : List (View.Piece (Elt F) S2000x128 .f32)), { L5 : List (View.Piece (Elt F) S1x64x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc2__center_kernel i arg2 harg2 arg3 harg3 arg4 harg4 arg5 harg5 arg6 harg6 arg7 harg7) K } := by
  refine ⟨?_, ?_, fun E K => ?run⟩
  case run =>
    simp only [cc2__center_kernel_eq_skeleton]; unfold cc2__center_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

theorem cover2_A_4 (x0 : Vec F S2000x128 .f32) (x1 : Vec F S2000x1 .i32) (x2 : Vec F S64x128 .f32) (x3 : Vec F S1x128 .f32) (y : S2000x128.Idx) :
    ∃ pc ∈ (kernelRun2_A c i arg2 harg2 arg3 harg3 arg4 harg4 arg5 harg5 arg6 harg6 arg7 harg7 hc0 x0 x1 x2 x3).1, y ∈ pc.1.set :=
  View.cover_of_tiledL (kernelRun2_A c i arg2 harg2 arg3 harg3 arg4 harg4 arg5 harg5 arg6 harg6 arg7 harg7 hc0 x0 x1 x2 x3).1 S2000x128.size (by sl_kernel_rfl) y

def out2_A_4 (x0 : Vec F S2000x128 .f32) (x1 : Vec F S2000x1 .i32) (x2 : Vec F S64x128 .f32) (x3 : Vec F S1x128 .f32) : Vec F S2000x128 .f32 :=
  VO2_4.read (Elt F) (VO2_4.writes (Elt F) VO2_4.junk (kernelRun2_A c i arg2 harg2 arg3 harg3 arg4 harg4 arg5 harg5 arg6 harg6 arg7 harg7 hc0 x0 x1 x2 x3).1)

theorem cover2_A_5 (x0 : Vec F S2000x128 .f32) (x1 : Vec F S2000x1 .i32) (x2 : Vec F S64x128 .f32) (x3 : Vec F S1x128 .f32) (y : S1x64x128.Idx) :
    ∃ pc ∈ (kernelRun2_A c i arg2 harg2 arg3 harg3 arg4 harg4 arg5 harg5 arg6 harg6 arg7 harg7 hc0 x0 x1 x2 x3).2.1, y ∈ pc.1.set :=
  View.cover_of_tiledL (kernelRun2_A c i arg2 harg2 arg3 harg3 arg4 harg4 arg5 harg5 arg6 harg6 arg7 harg7 hc0 x0 x1 x2 x3).2.1 S1x64x128.size (by sl_kernel_rfl) y

def out2_A_5 (x0 : Vec F S2000x128 .f32) (x1 : Vec F S2000x1 .i32) (x2 : Vec F S64x128 .f32) (x3 : Vec F S1x128 .f32) : Vec F S1x64x128 .f32 :=
  VO2_5.read (Elt F) (VO2_5.writes (Elt F) VO2_5.junk (kernelRun2_A c i arg2 harg2 arg3 harg3 arg4 harg4 arg5 harg5 arg6 harg6 arg7 harg7 hc0 x0 x1 x2 x3).2.1)

end

section
variable (c : Dev nD) (i : grid2.Coords) (arg2 : Memref sig .tc .vmem S2000x128 .f32) (harg2 : arg2.IsWhole) (arg3 : Memref sig .tc .vmem S2000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x64x128 .f32) (harg7 : arg7.IsWhole) (hc0 : ¬cond2_0 i)

set_option maxHeartbeats 4000000 in

noncomputable def kernelRun2_B (x0 : Vec F S2000x128 .f32) (x1 : Vec F S2000x1 .i32) (x2 : Vec F S64x128 .f32) (x3 : Vec F S1x128 .f32) (xo5 : Vec F S1x64x128 .f32) :
    Σ' (L4 : List (View.Piece (Elt F) S2000x128 .f32)), { L5 : List (View.Piece (Elt F) S1x64x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc2__center_kernel i arg2 harg2 arg3 harg3 arg4 harg4 arg5 harg5 arg6 harg6 arg7 harg7) K } := by
  refine ⟨?_, ?_, fun E K => ?run⟩
  case run =>
    simp only [cc2__center_kernel_eq_skeleton]; unfold cc2__center_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1
    obtain rfl := harg4.eq_unread hf2; obtain rfl := harg5.eq_unread hf3
    obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

theorem cover2_B_4 (x0 : Vec F S2000x128 .f32) (x1 : Vec F S2000x1 .i32) (x2 : Vec F S64x128 .f32) (x3 : Vec F S1x128 .f32) (xo5 : Vec F S1x64x128 .f32) (y : S2000x128.Idx) :
    ∃ pc ∈ (kernelRun2_B c i arg2 harg2 arg3 harg3 arg4 harg4 arg5 harg5 arg6 harg6 arg7 harg7 hc0 x0 x1 x2 x3 xo5).1, y ∈ pc.1.set :=
  View.cover_of_tiledL (kernelRun2_B c i arg2 harg2 arg3 harg3 arg4 harg4 arg5 harg5 arg6 harg6 arg7 harg7 hc0 x0 x1 x2 x3 xo5).1 S2000x128.size (by sl_kernel_rfl) y

def out2_B_4 (x0 : Vec F S2000x128 .f32) (x1 : Vec F S2000x1 .i32) (x2 : Vec F S64x128 .f32) (x3 : Vec F S1x128 .f32) (xo5 : Vec F S1x64x128 .f32) : Vec F S2000x128 .f32 :=
  VO2_4.read (Elt F) (VO2_4.writes (Elt F) VO2_4.junk (kernelRun2_B c i arg2 harg2 arg3 harg3 arg4 harg4 arg5 harg5 arg6 harg6 arg7 harg7 hc0 x0 x1 x2 x3 xo5).1)

theorem cover2_B_5 (x0 : Vec F S2000x128 .f32) (x1 : Vec F S2000x1 .i32) (x2 : Vec F S64x128 .f32) (x3 : Vec F S1x128 .f32) (xo5 : Vec F S1x64x128 .f32) (y : S1x64x128.Idx) :
    ∃ pc ∈ (kernelRun2_B c i arg2 harg2 arg3 harg3 arg4 harg4 arg5 harg5 arg6 harg6 arg7 harg7 hc0 x0 x1 x2 x3 xo5).2.1, y ∈ pc.1.set :=
  View.cover_of_tiledL (kernelRun2_B c i arg2 harg2 arg3 harg3 arg4 harg4 arg5 harg5 arg6 harg6 arg7 harg7 hc0 x0 x1 x2 x3 xo5).2.1 S1x64x128.size (by sl_kernel_rfl) y

def out2_B_5 (x0 : Vec F S2000x128 .f32) (x1 : Vec F S2000x1 .i32) (x2 : Vec F S64x128 .f32) (x3 : Vec F S1x128 .f32) (xo5 : Vec F S1x64x128 .f32) : Vec F S1x64x128 .f32 :=
  VO2_5.read (Elt F) (VO2_5.writes (Elt F) VO2_5.junk (kernelRun2_B c i arg2 harg2 arg3 harg3 arg4 harg4 arg5 harg5 arg6 harg6 arg7 harg7 hc0 x0 x1 x2 x3 xo5).2.1)

end

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outsAt2 (c : Dev nD) : (n : ℕ) → n < cfg2.N → Vec F S2000x128 .f32 × Vec F S1x64x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 25 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 25 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_B (c : Dev nD) (t : Fin cfg2.N) (h0 : ¬t.val % 25 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]
theorem Phi_eq2 (c : Dev nD) (t) : (dat2 V c).Φ t = Pipeline.ΦA spec2 c := by
  dsimp only [dat2]
theorem owed_eq2 (c : Dev nD) (t) : (dat2 V c).owed t = 0 := by
  dsimp only [dat2]
theorem q_eq2 (c : Dev nD) (w) : (dat2 V c).q w = fullShare := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_5_B (c : Dev nD) (t : Fin cfg2.N) (h0 : ¬t.val % 25 = 0) (d) :
    (dat2 V c).before 5 t d = (outsAt2 V c (t.val - 1) (Nat.lt_of_le_of_lt (Nat.sub_le _ _) t.isLt)).2 := by
  have hN : t.val < 50 := lt_of_lt_of_eq t.isLt (show cfg2.N = 50 from N_2)
  rw [Dat.before_out_kept _ 5 rfl t (by omega) (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 50 := lt_of_lt_of_eq t.isLt (show cfg2.N = 50 from N_2)
  by_cases h0 : t.val % 25 = 0
  · rw [outsAt2_A V c t h0]
    dsimp only
    unfold out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt2_B V c t h0]
    dsimp only
    simp only [before2_5_B V c t h0]
    unfold out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Region

end Cert.Kernel.H

end
-- ==== Proof.K.R3.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0
abbrev r3_2 : Rect S64x128 := Rect.unit (s := S64x128) ![0, 0] S64x128.size inb_S64x128_S64x128_0_0
abbrev r3_3 : Rect S1x128 := Rect.unit (s := S1x128) ![0, 0] S1x128.size inb_S1x128_S1x128_0_0

def out3_4 (x0 : Vec F S5000x128 .f32) (x1 : Vec F S5000x1 .i32) (x2 : Vec F S64x128 .f32) (x3 : Vec F S1x128 .f32) : Vec F S5000x128 .f32 :=
  View.canon [⟨r3_0, k3_pay1 (View.ld x1 r3_1) (View.ld x2 r3_2) (View.ld x0 r3_0) (View.ld x3 r3_3)⟩]

theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .i32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem Phi_eq3 (c : Dev nD) (t) : (dat3 V c).Φ t = Pipeline.ΦA spec3 c := by
  dsimp only [dat3]
theorem owed_eq3 (c : Dev nD) (t) : (dat3 V c).owed t = 0 := by
  dsimp only [dat3]
theorem q_eq3 (c : Dev nD) (w) : (dat3 V c).q w = fullShare := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.H

end
-- ==== Proof.K.R4.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x1 := Rect.unit (s := S5000x1) ![0, 0] S5000x1.size inb_S5000x1_S5000x1_0_0

def out4_3 (x0 : Vec F S5000x128 .f32) (x1 : Vec F S128x128 .f32) (x2 : Vec F S5000x1 .f32) : Vec F S5000x128 .f32 :=
  View.canon [⟨r4_0, k4_pay1 (View.ld x0 r4_0) (View.ld x1 r4_1) (View.ld x2 r4_2)⟩]

theorem cover4_3 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 1000000 in

theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (t) : (dat4 V c).Φ t = Pipeline.ΦA spec4 c := by dsimp only [dat4]
theorem owed_eq4 (c : Dev nD) (t) : (dat4 V c).owed t = 0 := by dsimp only [dat4]
theorem q_eq4 (c : Dev nD) (w) : (dat4 V c).q w = fullShare := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.H

end
-- ==== Proof.K.R5.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R1

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 25 = 0 :=
  (by decide +kernel : ∀ t : Fin grid5.N, cond5_0 (grid5.coords t) ↔ t.val % 25 = 0)

abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2000x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2000x1 .i32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2000x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x64x128 .f32 := win5_6.stage (cfg5.slots t 6)
abbrev hs5_6 (t : Fin cfg5.N) : (ms5_6 t).IsWhole := hstage5_6 ((cfg5.slots t 6).cast nbuf5_6)

def outsAt5 (c : Dev nD) : (n : ℕ) → n < cfg5.N → Vec F S2000x128 .f32 × Vec F S1x64x128 .f32
  | 0, hn => (out1_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩), out1_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 25 = 0 then
      (out1_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out1_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      (out1_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, out1_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

theorem outsAt5_A (c : Dev nD) (t : Fin cfg5.N) (h0 : t.val % 25 = 0) :
    outsAt5 V c t.val t.isLt = (out1_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t), out1_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans rfl

theorem outsAt5_B (c : Dev nD) (t : Fin cfg5.N) (h0 : ¬t.val % 25 = 0) :
    outsAt5 V c t.val t.isLt = (out1_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, out1_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2
  Φ _ := Pipeline.ΦA spec5 c
  q _ := fullShare
  owed _ := 0

theorem A_eq5 (c : Dev nD) (w : Fin cfg5.W) : (dat5 V c).A w = V c (Pipeline.arrRef spec5 w) := by
  dsimp only [dat5]
theorem Phi_eq5 (c : Dev nD) (t) : (dat5 V c).Φ t = Pipeline.ΦA spec5 c := by dsimp only [dat5]
theorem owed_eq5 (c : Dev nD) (t) : (dat5 V c).owed t = 0 := by dsimp only [dat5]
theorem q_eq5 (c : Dev nD) (w) : (dat5 V c).q w = fullShare := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_6_B (c : Dev nD) (t : Fin cfg5.N) (h0 : ¬t.val % 25 = 0) (d) :
    (dat5 V c).before 6 t d = (outsAt5 V c (t.val - 1) (Nat.lt_of_le_of_lt (Nat.sub_le _ _) t.isLt)).2 := by
  have hN : t.val < 50 := lt_of_lt_of_eq t.isLt (show cfg5.N = 50 from N_5)
  rw [Dat.before_out_kept _ 6 rfl t (by omega) (Bool.eq_false_iff.mpr fun h => by have := (flush5_6 _).mp h; dsimp only at this; omega)
    (fun _ => rfl) (fun _ _ => rfl)]
  dsimp only [dat5]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 4000000 in

theorem cc5_eq : @cc5__combine_reduce_kernel = @cc1__combine_reduce_kernel := rfl

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  have hN : t.val < 50 := lt_of_lt_of_eq t.isLt (show cfg5.N = 50 from N_5)
  by_cases h0 : t.val % 25 = 0
  · rw [outsAt5_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid5.coords t) _ _ _ _ _ _ _ _ _ _ _ _ _ _ ((hcond5_0 t).mpr h0) (iblk5 V c 0 t) (iblk5 V c 1 t) (iblk5 V c 2 t) (iblk5 V c 3 t) (iblk5 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt5_B V c t h0]
    simp only [before5_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid5.coords t) _ _ _ _ _ _ _ _ _ _ _ _ _ _ (fun h => h0 ((hcond5_0 t).mp h)) (iblk5 V c 0 t) (iblk5 V c 1 t) (iblk5 V c 2 t) (iblk5 V c 3 t) (iblk5 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

end Cert.Kernel.H

end
-- ==== Proof.K.R6.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R2

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 1).val) 0#32)) 0#32) = 1#1

theorem hcond6_0 : ∀ t : Fin cfg6.N, cond6_0 (grid6.coords t) ↔ t.val % 25 = 0 :=
  (by decide +kernel : ∀ t : Fin grid6.N, cond6_0 (grid6.coords t) ↔ t.val % 25 = 0)

abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2000x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x64x128 .f32 := win6_5.stage (cfg6.slots t 5)
abbrev hs6_5 (t : Fin cfg6.N) : (ms6_5 t).IsWhole := hstage6_5 ((cfg6.slots t 5).cast nbuf6_5)

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def outsAt6 (c : Dev nD) : (n : ℕ) → n < cfg6.N → Vec F S2000x128 .f32 × Vec F S1x64x128 .f32
  | 0, hn => (out2_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩), out2_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩))
  | n + 1, hn =>
    if h0 : (n + 1) % 25 = 0 then
      (out2_A_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩), out2_A_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩))
    else
      (out2_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2, out2_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2)

theorem outsAt6_A (c : Dev nD) (t : Fin cfg6.N) (h0 : t.val % 25 = 0) :
    outsAt6 V c t.val t.isLt = (out2_A_4 c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t) (iblk6 V c 3 t), out2_A_5 c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t) (iblk6 V c 3 t)) := by
  obtain ⟨n, hn⟩ := t
  cases n with
  | zero => exact rfl
  | succ n => exact (dif_pos h0).trans rfl

theorem outsAt6_B (c : Dev nD) (t : Fin cfg6.N) (h0 : ¬t.val % 25 = 0) :
    outsAt6 V c t.val t.isLt = (out2_B_4 c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2, out2_B_5 c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2
  Φ _ := Pipeline.ΦA spec6 c
  q _ := fullShare
  owed _ := 0

theorem A_eq6 (c : Dev nD) (w : Fin cfg6.W) : (dat6 V c).A w = V c (Pipeline.arrRef spec6 w) := by
  dsimp only [dat6]
theorem Phi_eq6 (c : Dev nD) (t) : (dat6 V c).Φ t = Pipeline.ΦA spec6 c := by
  dsimp only [dat6]
theorem owed_eq6 (c : Dev nD) (t) : (dat6 V c).owed t = 0 := by
  dsimp only [dat6]
theorem q_eq6 (c : Dev nD) (w) : (dat6 V c).q w = fullShare := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_5_B (c : Dev nD) (t : Fin cfg6.N) (h0 : ¬t.val % 25 = 0) (d) :
    (dat6 V c).before 5 t d = (outsAt6 V c (t.val - 1) (Nat.lt_of_le_of_lt (Nat.sub_le _ _) t.isLt)).2 := by
  have hN : t.val < 50 := lt_of_lt_of_eq t.isLt (show cfg6.N = 50 from N_6)
  rw [Dat.before_out_kept _ 5 rfl t (by omega) (Bool.eq_false_iff.mpr fun h => by have := (flush6_5 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t))

set_option maxHeartbeats 4000000 in

theorem cc6_eq : @cc6__center_kernel = @cc2__center_kernel := rfl

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6_eq]
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  have hN : t.val < 50 := lt_of_lt_of_eq t.isLt (show cfg6.N = 50 from N_6)
  by_cases h0 : t.val % 25 = 0
  · rw [outsAt6_A V c t h0]
    dsimp only
    unfold out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid6.coords t) _ _ _ _ _ _ _ _ _ _ _ _ ((hcond6_0 t).mpr h0) (iblk6 V c 0 t) (iblk6 V c 1 t) (iblk6 V c 2 t) (iblk6 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt6_B V c t h0]
    dsimp only
    simp only [before6_5_B V c t h0]
    unfold out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid6.coords t) _ _ _ _ _ _ _ _ _ _ _ _ (fun h => h0 ((hcond6_0 t).mp h)) (iblk6 V c 0 t) (iblk6 V c 1 t) (iblk6 V c 2 t) (iblk6 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

end Region

end Cert.Kernel.H

end
-- ==== Proof.K.R7.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R3

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out3_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem Phi_eq7 (c : Dev nD) (t) : (dat7 V c).Φ t = Pipeline.ΦA spec7 c := by
  dsimp only [dat7]
theorem owed_eq7 (c : Dev nD) (t) : (dat7 V c).owed t = 0 := by
  dsimp only [dat7]
theorem q_eq7 (c : Dev nD) (w) : (dat7 V c).q w = fullShare := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out3_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem cc7_eq : @cc7__finalize_kernel = @cc3__finalize_kernel := rfl

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq]
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.H

end
-- ==== Proof.K.R8.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R4

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out4_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem Phi_eq8 (c : Dev nD) (t) : (dat8 V c).Φ t = Pipeline.ΦA spec8 c := by dsimp only [dat8]
theorem owed_eq8 (c : Dev nD) (t) : (dat8 V c).owed t = 0 := by dsimp only [dat8]
theorem q_eq8 (c : Dev nD) (w) : (dat8 V c).q w = fullShare := by dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out4_3 (iblk8 V c 0 t) (iblk8 V c 1 t) (iblk8 V c 2 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem cc8_eq : @cc8__linear_kernel = @cc4__linear_kernel := rfl

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel4 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.H

end
-- ==== Proof.K.R9.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R1

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 1).val) 0#32)) 0#32) = 1#1

theorem hcond9_0 : ∀ t : Fin cfg9.N, cond9_0 (grid9.coords t) ↔ t.val % 25 = 0 :=
  (by decide +kernel : ∀ t : Fin grid9.N, cond9_0 (grid9.coords t) ↔ t.val % 25 = 0)

abbrev ms9_0 (t : Fin cfg9.N) : Memref sig .tc .vmem S2000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2000x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2000x1 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S2000x1 .i32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S2000x128 .f32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S1x64x128 .f32 := win9_6.stage (cfg9.slots t 6)
abbrev hs9_6 (t : Fin cfg9.N) : (ms9_6 t).IsWhole := hstage9_6 ((cfg9.slots t 6).cast nbuf9_6)

def outsAt9 (c : Dev nD) : (n : ℕ) → n < cfg9.N → Vec F S2000x128 .f32 × Vec F S1x64x128 .f32
  | 0, hn => (out1_A_5 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) ((hcond9_0 ⟨0, hn⟩).mpr (Nat.zero_mod _)) (iblk9 V c 0 ⟨0, hn⟩) (iblk9 V c 1 ⟨0, hn⟩) (iblk9 V c 2 ⟨0, hn⟩) (iblk9 V c 3 ⟨0, hn⟩) (iblk9 V c 4 ⟨0, hn⟩), out1_A_6 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) ((hcond9_0 ⟨0, hn⟩).mpr (Nat.zero_mod _)) (iblk9 V c 0 ⟨0, hn⟩) (iblk9 V c 1 ⟨0, hn⟩) (iblk9 V c 2 ⟨0, hn⟩) (iblk9 V c 3 ⟨0, hn⟩) (iblk9 V c 4 ⟨0, hn⟩))
  | n + 1, hn =>
    if h0 : (n + 1) % 25 = 0 then
      (out1_A_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) ((hcond9_0 ⟨n + 1, hn⟩).mpr h0) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩), out1_A_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) ((hcond9_0 ⟨n + 1, hn⟩).mpr h0) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩))
    else
      (out1_B_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (outsAt9 c n (Nat.lt_of_succ_lt hn)).2, out1_B_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (outsAt9 c n (Nat.lt_of_succ_lt hn)).2)

theorem outsAt9_A (c : Dev nD) (t : Fin cfg9.N) (h0 : t.val % 25 = 0) :
    outsAt9 V c t.val t.isLt = (out1_A_5 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t) (iblk9 V c 4 t), out1_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t) (iblk9 V c 4 t)) := by
  obtain ⟨n, hn⟩ := t
  cases n with
  | zero => exact rfl
  | succ n => exact (dif_pos h0).trans rfl

theorem outsAt9_B (c : Dev nD) (t : Fin cfg9.N) (h0 : ¬t.val % 25 = 0) :
    outsAt9 V c t.val t.isLt = (out1_B_5 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (iblk9 V c 4 t) (outsAt9 V c (t.val - 1) (Nat.lt_of_le_of_lt (Nat.sub_le _ _) t.isLt)).2, out1_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (iblk9 V c 4 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => (outsAt9 V c t.val t.isLt).1
    | ⟨6, _⟩ => (outsAt9 V c t.val t.isLt).2
  Φ _ := Pipeline.ΦA spec9 c
  q _ := fullShare
  owed _ := 0

theorem A_eq9 (c : Dev nD) (w : Fin cfg9.W) : (dat9 V c).A w = V c (Pipeline.arrRef spec9 w) := by
  dsimp only [dat9]
theorem Phi_eq9 (c : Dev nD) (t) : (dat9 V c).Φ t = Pipeline.ΦA spec9 c := by dsimp only [dat9]
theorem owed_eq9 (c : Dev nD) (t) : (dat9 V c).owed t = 0 := by dsimp only [dat9]
theorem q_eq9 (c : Dev nD) (w) : (dat9 V c).q w = fullShare := by dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = (outsAt9 V c t.val t.isLt).1 := by dsimp only [dat9]
theorem after9_6 (c : Dev nD) (t : Fin cfg9.N) : (dat9 V c).after 6 t = (outsAt9 V c t.val t.isLt).2 := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_6_B (c : Dev nD) (t : Fin cfg9.N) (h0 : ¬t.val % 25 = 0) (d) :
    (dat9 V c).before 6 t d = (outsAt9 V c (t.val - 1) (Nat.lt_of_le_of_lt (Nat.sub_le _ _) t.isLt)).2 := by
  have hN : t.val < 50 := lt_of_lt_of_eq t.isLt (show cfg9.N = 50 from N_9)
  rw [Dat.before_out_kept _ 6 rfl t (by omega) (Bool.eq_false_iff.mpr fun h => by have := (flush9_6 _).mp h; dsimp only at this; omega)
    (fun _ => rfl) (fun _ _ => rfl)]
  dsimp only [dat9]

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

set_option maxHeartbeats 4000000 in

theorem cc9_eq : @cc9__combine_reduce_kernel = @cc1__combine_reduce_kernel := rfl

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [cc9_eq]
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  have hN : t.val < 50 := lt_of_lt_of_eq t.isLt (show cfg9.N = 50 from N_9)
  by_cases h0 : t.val % 25 = 0
  · rw [outsAt9_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid9.coords t) _ _ _ _ _ _ _ _ _ _ _ _ _ _ ((hcond9_0 t).mpr h0) (iblk9 V c 0 t) (iblk9 V c 1 t) (iblk9 V c 2 t) (iblk9 V c 3 t) (iblk9 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt9_B V c t h0]
    simp only [before9_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid9.coords t) _ _ _ _ _ _ _ _ _ _ _ _ _ _ (fun h => h0 ((hcond9_0 t).mp h)) (iblk9 V c 0 t) (iblk9 V c 1 t) (iblk9 V c 2 t) (iblk9 V c 3 t) (iblk9 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

theorem body_obligation9 (c : Dev nD) : BodyObligation (dat9 (F := F) V c) (defs₀ (F := F)) Variants.none () Set.univ := fun t => by
  rw [bigSep_W9, bigSep_W9]
  exact sound_body9 V c t

end Cert.Kernel.H

end
-- ==== Proof.K.R10.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R2

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond10_0 (i : grid10.Coords) : Prop := (Scalar.cmpi .ne (Scalar.extui (Scalar.cmpi .eq (BitVec.ofNat 32 (i 1).val) 0#32)) 0#32) = 1#1

theorem hcond10_0 : ∀ t : Fin cfg10.N, cond10_0 (grid10.coords t) ↔ t.val % 25 = 0 :=
  (by decide +kernel : ∀ t : Fin grid10.N, cond10_0 (grid10.coords t) ↔ t.val % 25 = 0)

abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2000x1 .i32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S64x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S2000x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x64x128 .f32 := win10_5.stage (cfg10.slots t 5)
abbrev hs10_5 (t : Fin cfg10.N) : (ms10_5 t).IsWhole := hstage10_5 ((cfg10.slots t 5).cast nbuf10_5)

section Region
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def outsAt10 (c : Dev nD) : (n : ℕ) → n < cfg10.N → Vec F S2000x128 .f32 × Vec F S1x64x128 .f32
  | 0, hn => (out2_A_4 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩), out2_A_5 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩))
  | n + 1, hn =>
    if h0 : (n + 1) % 25 = 0 then
      (out2_A_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩), out2_A_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩))
    else
      (out2_B_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2, out2_B_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2)

theorem outsAt10_A (c : Dev nD) (t : Fin cfg10.N) (h0 : t.val % 25 = 0) :
    outsAt10 V c t.val t.isLt = (out2_A_4 c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (iblk10 V c 0 t) (iblk10 V c 1 t) (iblk10 V c 2 t) (iblk10 V c 3 t), out2_A_5 c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (iblk10 V c 0 t) (iblk10 V c 1 t) (iblk10 V c 2 t) (iblk10 V c 3 t)) := by
  obtain ⟨n, hn⟩ := t
  cases n with
  | zero => exact rfl
  | succ n => exact (dif_pos h0).trans rfl

theorem outsAt10_B (c : Dev nD) (t : Fin cfg10.N) (h0 : ¬t.val % 25 = 0) :
    outsAt10 V c t.val t.isLt = (out2_B_4 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (iblk10 V c 0 t) (iblk10 V c 1 t) (iblk10 V c 2 t) (iblk10 V c 3 t) (outsAt10 V c (t.val - 1) (Nat.lt_of_le_of_lt (Nat.sub_le _ _) t.isLt)).2, out2_B_5 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (iblk10 V c 0 t) (iblk10 V c 1 t) (iblk10 V c 2 t) (iblk10 V c 3 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => (outsAt10 V c t.val t.isLt).1
    | ⟨5, _⟩ => (outsAt10 V c t.val t.isLt).2
  Φ _ := Pipeline.ΦA spec10 c
  q _ := fullShare
  owed _ := 0

theorem A_eq10 (c : Dev nD) (w : Fin cfg10.W) : (dat10 V c).A w = V c (Pipeline.arrRef spec10 w) := by
  dsimp only [dat10]
theorem Phi_eq10 (c : Dev nD) (t) : (dat10 V c).Φ t = Pipeline.ΦA spec10 c := by
  dsimp only [dat10]
theorem owed_eq10 (c : Dev nD) (t) : (dat10 V c).owed t = 0 := by
  dsimp only [dat10]
theorem q_eq10 (c : Dev nD) (w) : (dat10 V c).q w = fullShare := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = (outsAt10 V c t.val t.isLt).1 := by dsimp only [dat10]
theorem after10_5 (c : Dev nD) (t : Fin cfg10.N) : (dat10 V c).after 5 t = (outsAt10 V c t.val t.isLt).2 := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl
theorem before10_2 (c : Dev nD) (t : Fin cfg10.N) (d) : (dat10 V c).before 2 t d = iblk10 V c 2 t :=
  ((dat10 V c).before_in_eq_fetched 2 rfl (fun _ => rfl) (fun _ _ _ => rfl) (fun _ => rfl) t d).trans rfl
theorem before10_3 (c : Dev nD) (t : Fin cfg10.N) (d) : (dat10 V c).before 3 t d = iblk10 V c 3 t :=
  ((dat10 V c).before_in_eq_fetched 3 rfl (fun _ => rfl) (fun _ _ _ => rfl) (fun _ => rfl) t d).trans rfl
theorem before10_5_B (c : Dev nD) (t : Fin cfg10.N) (h0 : ¬t.val % 25 = 0) (d) :
    (dat10 V c).before 5 t d = (outsAt10 V c (t.val - 1) (Nat.lt_of_le_of_lt (Nat.sub_le _ _) t.isLt)).2 := by
  have hN : t.val < 50 := lt_of_lt_of_eq t.isLt (show cfg10.N = 50 from N_10)
  rw [Dat.before_out_kept _ 5 rfl t (by omega) (Bool.eq_false_iff.mpr fun h => by have := (flush10_5 _).mp h; dsimp only at this; omega)
    (fun _ => rfl) (fun _ _ => rfl)]
  dsimp only [dat10]

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t))

set_option maxHeartbeats 4000000 in

theorem cc10_eq : @cc10__center_kernel = @cc2__center_kernel := rfl

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [cc10_eq]
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4, after10_5]
  have hN : t.val < 50 := lt_of_lt_of_eq t.isLt (show cfg10.N = 50 from N_10)
  by_cases h0 : t.val % 25 = 0
  · rw [outsAt10_A V c t h0]
    dsimp only
    unfold out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid10.coords t) _ _ _ _ _ _ _ _ _ _ _ _ ((hcond10_0 t).mpr h0) (iblk10 V c 0 t) (iblk10 V c 1 t) (iblk10 V c 2 t) (iblk10 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt10_B V c t h0]
    dsimp only
    simp only [before10_5_B V c t h0]
    unfold out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid10.coords t) _ _ _ _ _ _ _ _ _ _ _ _ (fun h => h0 ((hcond10_0 t).mp h)) (iblk10 V c 0 t) (iblk10 V c 1 t) (iblk10 V c 2 t) (iblk10 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem body_obligation10 (c : Dev nD) : BodyObligation (dat10 (F := F) V c) (defs₀ (F := F)) Variants.none () Set.univ := fun t => by
  rw [bigSep_W10, bigSep_W10]
  exact sound_body10 V c t

end Region

end Cert.Kernel.H

end
-- ==== Proof.K.R11.lean ====
import proofs.«402146_j32049045962863_2_alg».proof.Proof.Gen.Kernel.Launch
import proofs.«402146_j32049045962863_2_alg».proof.Proof.Gen.Kernel.Skeleton
import proofs.«402146_j32049045962863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.K.R3

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

set_option maxHeartbeats 1000000 in

theorem sound_kernel11 (c : Dev nD) (E : Set ℕ) (i : grid11.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .i32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc11__finalize_kernel i arg1 harg1 arg2 harg2 arg3 harg3 arg4 harg4 arg5 harg5) K := by
  simp only [cc11__finalize_kernel_eq_skeleton]; unfold cc11__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out3_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem Phi_eq11 (c : Dev nD) (t) : (dat11 V c).Φ t = Pipeline.ΦA spec11 c := by
  dsimp only [dat11]
theorem owed_eq11 (c : Dev nD) (t) : (dat11 V c).owed t = 0 := by
  dsimp only [dat11]
theorem q_eq11 (c : Dev nD) (w) : (dat11 V c).q w = fullShare := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = out3_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl
theorem before11_2 (c : Dev nD) (t : Fin cfg11.N) (d) : (dat11 V c).before 2 t d = iblk11 V c 2 t :=
  ((dat11 V c).before_in_eq_fetched 2 rfl (fun _ => rfl) (fun _ _ _ => rfl) (fun _ => rfl) t d).trans rfl
theorem before11_3 (c : Dev nD) (t : Fin cfg11.N) (d) : (dat11 V c).before 3 t d = iblk11 V c 3 t :=
  ((dat11 V c).before_in_eq_fetched 3 rfl (fun _ => rfl) (fun _ _ _ => rfl) (fun _ => rfl) t d).trans rfl
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation11 (c : Dev nD) : BodyObligation (dat11 (F := F) V c) (defs₀ (F := F)) Variants.none () Set.univ := fun t => by
  rw [bigSep_W11, bigSep_W11]
  exact sound_body11 V c t

end Cert.Kernel.H

end
-- ==== Proof.K.Pdats.lean ====
import proofs.«402146_j32049045962863_2_alg».proof.Proof.Gen.Kernel.Regions
import proofs.«402146_j32049045962863_2_alg».proof.Proof.K.R0
import proofs.«402146_j32049045962863_2_alg».proof.Proof.K.R1
import proofs.«402146_j32049045962863_2_alg».proof.Proof.K.R2
import proofs.«402146_j32049045962863_2_alg».proof.Proof.K.R3
import proofs.«402146_j32049045962863_2_alg».proof.Proof.K.R4
import proofs.«402146_j32049045962863_2_alg».proof.Proof.K.R5
import proofs.«402146_j32049045962863_2_alg».proof.Proof.K.R6
import proofs.«402146_j32049045962863_2_alg».proof.Proof.K.R7
import proofs.«402146_j32049045962863_2_alg».proof.Proof.K.R8
import proofs.«402146_j32049045962863_2_alg».proof.Proof.K.R9
import proofs.«402146_j32049045962863_2_alg».proof.Proof.K.R10
import proofs.«402146_j32049045962863_2_alg».proof.Proof.K.R11

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

variable (m : (ℓ : Loc nD τ sig) → Buf (Elt F) ℓ)

abbrev VR1 : (c : Dev nD) → (b : Ref sig .tc) → Buf (Elt F) ((c : Thread nD τ).loc b) := fun c b => V1 m c b

abbrev VR2 (outs : Outs (F := F)) : (c : Dev nD) → (b : Ref sig .tc) → Buf (Elt F) ((c : Thread nD τ).loc b) := fun c b => V2 m outs c b

abbrev VR3 (outs : Outs (F := F)) : (c : Dev nD) → (b : Ref sig .tc) → Buf (Elt F) ((c : Thread nD τ).loc b) := fun c b => V3 m outs c b

abbrev VR4 (outs : Outs (F := F)) : (c : Dev nD) → (b : Ref sig .tc) → Buf (Elt F) ((c : Thread nD τ).loc b) := fun c b => V4 m outs c b

abbrev VR5 (outs : Outs (F := F)) : (c : Dev nD) → (b : Ref sig .tc) → Buf (Elt F) ((c : Thread nD τ).loc b) := fun c b => V5 m outs c b

abbrev VR6 (outs : Outs (F := F)) : (c : Dev nD) → (b : Ref sig .tc) → Buf (Elt F) ((c : Thread nD τ).loc b) := fun c b => V6 m outs c b

abbrev VR7 (outs : Outs (F := F)) : (c : Dev nD) → (b : Ref sig .tc) → Buf (Elt F) ((c : Thread nD τ).loc b) := fun c b => V7 m outs c b

abbrev VR8 (outs : Outs (F := F)) : (c : Dev nD) → (b : Ref sig .tc) → Buf (Elt F) ((c : Thread nD τ).loc b) := fun c b => V8 m outs c b

abbrev VR9 (outs : Outs (F := F)) : (c : Dev nD) → (b : Ref sig .tc) → Buf (Elt F) ((c : Thread nD τ).loc b) := fun c b => V9 m outs c b

abbrev VR10 (outs : Outs (F := F)) : (c : Dev nD) → (b : Ref sig .tc) → Buf (Elt F) ((c : Thread nD τ).loc b) := fun c b => V10 m outs c b

abbrev VR11 (outs : Outs (F := F)) : (c : Dev nD) → (b : Ref sig .tc) → Buf (Elt F) ((c : Thread nD τ).loc b) := fun c b => V11 m outs c b

abbrev VR12 (outs : Outs (F := F)) : (c : Dev nD) → (b : Ref sig .tc) → Buf (Elt F) ((c : Thread nD τ).loc b) := fun c b => V12 m outs c b

abbrev VR13 (outs : Outs (F := F)) : (c : Dev nD) → (b : Ref sig .tc) → Buf (Elt F) ((c : Thread nD τ).loc b) := fun c b => V13 m outs c b

abbrev VR14 (outs : Outs (F := F)) : (c : Dev nD) → (b : Ref sig .tc) → Buf (Elt F) ((c : Thread nD τ).loc b) := fun c b => V14 m outs c b

abbrev VR15 (outs : Outs (F := F)) : (c : Dev nD) → (b : Ref sig .tc) → Buf (Elt F) ((c : Thread nD τ).loc b) := fun c b => V15 m outs c b

abbrev VR16 (outs : Outs (F := F)) : (c : Dev nD) → (b : Ref sig .tc) → Buf (Elt F) ((c : Thread nD τ).loc b) := fun c b => V16 m outs c b

abbrev VR17 (outs : Outs (F := F)) : (c : Dev nD) → (b : Ref sig .tc) → Buf (Elt F) ((c : Thread nD τ).loc b) := fun c b => V17 m outs c b

abbrev VR18 (outs : Outs (F := F)) : (c : Dev nD) → (b : Ref sig .tc) → Buf (Elt F) ((c : Thread nD τ).loc b) := fun c b => V18 m outs c b

abbrev VR19 (outs : Outs (F := F)) : (c : Dev nD) → (b : Ref sig .tc) → Buf (Elt F) ((c : Thread nD τ).loc b) := fun c b => V19 m outs c b

abbrev VR20 (outs : Outs (F := F)) : (c : Dev nD) → (b : Ref sig .tc) → Buf (Elt F) ((c : Thread nD τ).loc b) := fun c b => V20 m outs c b

abbrev VR21 (outs : Outs (F := F)) : (c : Dev nD) → (b : Ref sig .tc) → Buf (Elt F) ((c : Thread nD τ).loc b) := fun c b => V21 m outs c b

abbrev VR22 (outs : Outs (F := F)) : (c : Dev nD) → (b : Ref sig .tc) → Buf (Elt F) ((c : Thread nD τ).loc b) := fun c b => V22 m outs c b

abbrev VR23 (outs : Outs (F := F)) : (c : Dev nD) → (b : Ref sig .tc) → Buf (Elt F) ((c : Thread nD τ).loc b) := fun c b => V23 m outs c b

abbrev VR24 (outs : Outs (F := F)) : (c : Dev nD) → (b : Ref sig .tc) → Buf (Elt F) ((c : Thread nD τ).loc b) := fun c b => V24 m outs c b

structure OutsOk (outs : Outs (F := F)) : Prop where
  o0 : ∀ c, outs 2 main_v27 c = (dat0 (VR1 m) c).arrAt 3 cfg0.N
  o1a : ∀ c, outs 4 main_v38_0 c = (dat1 (VR3 m outs) c).arrAt 5 cfg1.N
  o1b : ∀ c, outs 4 main_v38_1 c = (dat1 (VR3 m outs) c).arrAt 6 cfg1.N
  o2a : ∀ c, outs 6 main_v45_0 c = (dat2 (VR5 m outs) c).arrAt 4 cfg2.N
  o2b : ∀ c, outs 6 main_v45_1 c = (dat2 (VR5 m outs) c).arrAt 5 cfg2.N
  o3 : ∀ c, outs 8 main_v60 c = (dat3 (VR7 m outs) c).arrAt 4 cfg3.N
  o4 : ∀ c, outs 10 main_v66 c = (dat4 (VR9 m outs) c).arrAt 3 cfg4.N
  o5a : ∀ c, outs 12 main_v77_0 c = (dat5 (VR11 m outs) c).arrAt 5 cfg5.N
  o5b : ∀ c, outs 12 main_v77_1 c = (dat5 (VR11 m outs) c).arrAt 6 cfg5.N
  o6a : ∀ c, outs 14 main_v84_0 c = (dat6 (VR13 m outs) c).arrAt 4 cfg6.N
  o6b : ∀ c, outs 14 main_v84_1 c = (dat6 (VR13 m outs) c).arrAt 5 cfg6.N
  o7 : ∀ c, outs 16 main_v99 c = (dat7 (VR15 m outs) c).arrAt 4 cfg7.N
  o8 : ∀ c, outs 18 main_v105 c = (dat8 (VR17 m outs) c).arrAt 3 cfg8.N
  o9a : ∀ c, outs 20 main_v116_0 c = (dat9 (VR19 m outs) c).arrAt 5 cfg9.N
  o9b : ∀ c, outs 20 main_v116_1 c = (dat9 (VR19 m outs) c).arrAt 6 cfg9.N
  o10a : ∀ c, outs 22 main_v123_0 c = (dat10 (VR21 m outs) c).arrAt 4 cfg10.N
  o10b : ∀ c, outs 22 main_v123_1 c = (dat10 (VR21 m outs) c).arrAt 5 cfg10.N
  o11 : ∀ c, outs 24 main_v138 c = (dat11 (VR23 m outs) c).arrAt 4 cfg11.N

def pdats (outs : Outs (F := F)) : (p : Fin 12) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m outs) c
  | ⟨2, _⟩ => fun c => dat2 (VR5 m outs) c
  | ⟨3, _⟩ => fun c => dat3 (VR7 m outs) c
  | ⟨4, _⟩ => fun c => dat4 (VR9 m outs) c
  | ⟨5, _⟩ => fun c => dat5 (VR11 m outs) c
  | ⟨6, _⟩ => fun c => dat6 (VR13 m outs) c
  | ⟨7, _⟩ => fun c => dat7 (VR15 m outs) c
  | ⟨8, _⟩ => fun c => dat8 (VR17 m outs) c
  | ⟨9, _⟩ => fun c => dat9 (VR19 m outs) c
  | ⟨10, _⟩ => fun c => dat10 (VR21 m outs) c
  | ⟨11, _⟩ => fun c => dat11 (VR23 m outs) c

end Cert.Kernel.H

end
-- ==== Proof.K.Outs.lean ====
import proofs.«402146_j32049045962863_2_alg».proof.Proof.K.Pdats

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem V2_agree {o o' : Outs (F := F)} (h : ∀ K, K ≤ 2 → o K = o' K) (c : Dev nD) : V2 m o c = V2 m o' c := by
  unfold V2; rw [h 2 (Nat.le_refl _)]
theorem V3_agree {o o' : Outs (F := F)} (h : ∀ K, K ≤ 3 → o K = o' K) (c : Dev nD) : V3 m o c = V3 m o' c := by
  unfold V3; rw [V2_agree m (fun K hK => h K (by omega)) c]
theorem V4_agree {o o' : Outs (F := F)} (h : ∀ K, K ≤ 4 → o K = o' K) (c : Dev nD) : V4 m o c = V4 m o' c := by
  unfold V4; rw [h 4 (Nat.le_refl _), V3_agree m (fun K hK => h K (by omega)) c]
theorem V5_agree {o o' : Outs (F := F)} (h : ∀ K, K ≤ 5 → o K = o' K) (c : Dev nD) : V5 m o c = V5 m o' c := by
  unfold V5; rw [V4_agree m (fun K hK => h K (by omega)) c]
theorem V6_agree {o o' : Outs (F := F)} (h : ∀ K, K ≤ 6 → o K = o' K) (c : Dev nD) : V6 m o c = V6 m o' c := by
  unfold V6; rw [h 6 (Nat.le_refl _), V5_agree m (fun K hK => h K (by omega)) c]
theorem V7_agree {o o' : Outs (F := F)} (h : ∀ K, K ≤ 7 → o K = o' K) (c : Dev nD) : V7 m o c = V7 m o' c := by
  unfold V7; rw [V6_agree m (fun K hK => h K (by omega)) c]
theorem V8_agree {o o' : Outs (F := F)} (h : ∀ K, K ≤ 8 → o K = o' K) (c : Dev nD) : V8 m o c = V8 m o' c := by
  unfold V8; rw [h 8 (Nat.le_refl _), V7_agree m (fun K hK => h K (by omega)) c]
theorem V9_agree {o o' : Outs (F := F)} (h : ∀ K, K ≤ 9 → o K = o' K) (c : Dev nD) : V9 m o c = V9 m o' c := by
  unfold V9; rw [V8_agree m (fun K hK => h K (by omega)) c]
theorem V10_agree {o o' : Outs (F := F)} (h : ∀ K, K ≤ 10 → o K = o' K) (c : Dev nD) : V10 m o c = V10 m o' c := by
  unfold V10; rw [h 10 (Nat.le_refl _), V9_agree m (fun K hK => h K (by omega)) c]
theorem V11_agree {o o' : Outs (F := F)} (h : ∀ K, K ≤ 11 → o K = o' K) (c : Dev nD) : V11 m o c = V11 m o' c := by
  unfold V11; rw [V10_agree m (fun K hK => h K (by omega)) c]
theorem V12_agree {o o' : Outs (F := F)} (h : ∀ K, K ≤ 12 → o K = o' K) (c : Dev nD) : V12 m o c = V12 m o' c := by
  unfold V12; rw [h 12 (Nat.le_refl _), V11_agree m (fun K hK => h K (by omega)) c]
theorem V13_agree {o o' : Outs (F := F)} (h : ∀ K, K ≤ 13 → o K = o' K) (c : Dev nD) : V13 m o c = V13 m o' c := by
  unfold V13; rw [V12_agree m (fun K hK => h K (by omega)) c]
theorem V14_agree {o o' : Outs (F := F)} (h : ∀ K, K ≤ 14 → o K = o' K) (c : Dev nD) : V14 m o c = V14 m o' c := by
  unfold V14; rw [h 14 (Nat.le_refl _), V13_agree m (fun K hK => h K (by omega)) c]
theorem V15_agree {o o' : Outs (F := F)} (h : ∀ K, K ≤ 15 → o K = o' K) (c : Dev nD) : V15 m o c = V15 m o' c := by
  unfold V15; rw [V14_agree m (fun K hK => h K (by omega)) c]
theorem V16_agree {o o' : Outs (F := F)} (h : ∀ K, K ≤ 16 → o K = o' K) (c : Dev nD) : V16 m o c = V16 m o' c := by
  unfold V16; rw [h 16 (Nat.le_refl _), V15_agree m (fun K hK => h K (by omega)) c]
theorem V17_agree {o o' : Outs (F := F)} (h : ∀ K, K ≤ 17 → o K = o' K) (c : Dev nD) : V17 m o c = V17 m o' c := by
  unfold V17; rw [V16_agree m (fun K hK => h K (by omega)) c]
theorem V18_agree {o o' : Outs (F := F)} (h : ∀ K, K ≤ 18 → o K = o' K) (c : Dev nD) : V18 m o c = V18 m o' c := by
  unfold V18; rw [h 18 (Nat.le_refl _), V17_agree m (fun K hK => h K (by omega)) c]
theorem V19_agree {o o' : Outs (F := F)} (h : ∀ K, K ≤ 19 → o K = o' K) (c : Dev nD) : V19 m o c = V19 m o' c := by
  unfold V19; rw [V18_agree m (fun K hK => h K (by omega)) c]
theorem V20_agree {o o' : Outs (F := F)} (h : ∀ K, K ≤ 20 → o K = o' K) (c : Dev nD) : V20 m o c = V20 m o' c := by
  unfold V20; rw [h 20 (Nat.le_refl _), V19_agree m (fun K hK => h K (by omega)) c]
theorem V21_agree {o o' : Outs (F := F)} (h : ∀ K, K ≤ 21 → o K = o' K) (c : Dev nD) : V21 m o c = V21 m o' c := by
  unfold V21; rw [V20_agree m (fun K hK => h K (by omega)) c]
theorem V22_agree {o o' : Outs (F := F)} (h : ∀ K, K ≤ 22 → o K = o' K) (c : Dev nD) : V22 m o c = V22 m o' c := by
  unfold V22; rw [h 22 (Nat.le_refl _), V21_agree m (fun K hK => h K (by omega)) c]
theorem V23_agree {o o' : Outs (F := F)} (h : ∀ K, K ≤ 23 → o K = o' K) (c : Dev nD) : V23 m o c = V23 m o' c := by
  unfold V23; rw [V22_agree m (fun K hK => h K (by omega)) c]
theorem V24_agree {o o' : Outs (F := F)} (h : ∀ K, K ≤ 24 → o K = o' K) (c : Dev nD) : V24 m o c = V24 m o' c := by
  unfold V24; rw [h 24 (Nat.le_refl _), V23_agree m (fun K hK => h K (by omega)) c]
theorem VR3_agree {o o' : Outs (F := F)} (h : ∀ K, K ≤ 3 → o K = o' K) : VR3 m o = VR3 m o' :=
  funext fun c => funext fun b => congrFun (V3_agree m h c) _
theorem VR5_agree {o o' : Outs (F := F)} (h : ∀ K, K ≤ 5 → o K = o' K) : VR5 m o = VR5 m o' :=
  funext fun c => funext fun b => congrFun (V5_agree m h c) _
theorem VR7_agree {o o' : Outs (F := F)} (h : ∀ K, K ≤ 7 → o K = o' K) : VR7 m o = VR7 m o' :=
  funext fun c => funext fun b => congrFun (V7_agree m h c) _
theorem VR9_agree {o o' : Outs (F := F)} (h : ∀ K, K ≤ 9 → o K = o' K) : VR9 m o = VR9 m o' :=
  funext fun c => funext fun b => congrFun (V9_agree m h c) _
theorem VR11_agree {o o' : Outs (F := F)} (h : ∀ K, K ≤ 11 → o K = o' K) : VR11 m o = VR11 m o' :=
  funext fun c => funext fun b => congrFun (V11_agree m h c) _
theorem VR13_agree {o o' : Outs (F := F)} (h : ∀ K, K ≤ 13 → o K = o' K) : VR13 m o = VR13 m o' :=
  funext fun c => funext fun b => congrFun (V13_agree m h c) _
theorem VR15_agree {o o' : Outs (F := F)} (h : ∀ K, K ≤ 15 → o K = o' K) : VR15 m o = VR15 m o' :=
  funext fun c => funext fun b => congrFun (V15_agree m h c) _
theorem VR17_agree {o o' : Outs (F := F)} (h : ∀ K, K ≤ 17 → o K = o' K) : VR17 m o = VR17 m o' :=
  funext fun c => funext fun b => congrFun (V17_agree m h c) _
theorem VR19_agree {o o' : Outs (F := F)} (h : ∀ K, K ≤ 19 → o K = o' K) : VR19 m o = VR19 m o' :=
  funext fun c => funext fun b => congrFun (V19_agree m h c) _
theorem VR21_agree {o o' : Outs (F := F)} (h : ∀ K, K ≤ 21 → o K = o' K) : VR21 m o = VR21 m o' :=
  funext fun c => funext fun b => congrFun (V21_agree m h c) _
theorem VR23_agree {o o' : Outs (F := F)} (h : ∀ K, K ≤ 23 → o K = o' K) : VR23 m o = VR23 m o' :=
  funext fun c => funext fun b => congrFun (V23_agree m h c) _

def stage (J₀ : ℕ) (r₀ : Ref sig .tc) (v : (c : Dev nD) → Buf (Elt F) ((c : Thread nD τ).loc r₀)) (o : Outs (F := F)) : Outs (F := F) :=
  fun J => if J = J₀ then fun r c => Function.update (fun r => o J r c) r₀ (v c) r else o J

theorem stage_self (J₀ : ℕ) (r₀ : Ref sig .tc) (v : (c : Dev nD) → Buf (Elt F) ((c : Thread nD τ).loc r₀)) (o : Outs (F := F)) (c : Dev nD) :
    stage J₀ r₀ v o J₀ r₀ c = v c := by
  unfold stage; rw [if_pos rfl]; exact Function.update_self _ _ _
theorem stage_of_ne_ref (J₀ : ℕ) (r₀ : Ref sig .tc) (v : (c : Dev nD) → Buf (Elt F) ((c : Thread nD τ).loc r₀)) (o : Outs (F := F)) (c : Dev nD)
    {r : Ref sig .tc} (hr : r ≠ r₀) : stage J₀ r₀ v o J₀ r c = o J₀ r c := by
  unfold stage; rw [if_pos rfl]; exact Function.update_of_ne hr _ _
theorem stage_of_ne_item (J₀ : ℕ) (r₀ : Ref sig .tc) (v : (c : Dev nD) → Buf (Elt F) ((c : Thread nD τ).loc r₀)) (o : Outs (F := F))
    {J : ℕ} (hJ : J ≠ J₀) : stage J₀ r₀ v o J = o J := by
  unfold stage; rw [if_neg hJ]

def outs0 : Outs (F := F) := fun _ r c => m ((c : Thread nD τ).loc r)

def outs1 : Outs (F := F) := stage 2 main_v27 (fun c => (dat0 (VR1 m) c).arrAt 3 cfg0.N) (outs0 m)
theorem outs1_below (K : ℕ) (hK : K ≤ 1) : outs1 m K = outs0 m K := by
  unfold outs1; rw [stage_of_ne_item _ _ _ _ (by omega)]
theorem outs1_main_v27 (c : Dev nD) : outs1 m 2 main_v27 c = (dat0 (VR1 m) c).arrAt 3 cfg0.N := by
  unfold outs1; exact stage_self _ _ _ _ c

def outs2 : Outs (F := F) := stage 4 main_v38_1 (fun c => (dat1 (VR3 m (outs1 m)) c).arrAt 6 cfg1.N) (stage 4 main_v38_0 (fun c => (dat1 (VR3 m (outs1 m)) c).arrAt 5 cfg1.N) (outs1 m))
theorem outs2_below (K : ℕ) (hK : K ≤ 3) : outs2 m K = outs1 m K := by
  unfold outs2; rw [stage_of_ne_item _ _ _ _ (by omega), stage_of_ne_item _ _ _ _ (by omega)]
theorem outs2_main_v38_0 (c : Dev nD) : outs2 m 4 main_v38_0 c = (dat1 (VR3 m (outs1 m)) c).arrAt 5 cfg1.N := by
  unfold outs2; exact (stage_of_ne_ref _ _ _ _ c (by decide)).trans (stage_self _ _ _ _ c)
theorem outs2_main_v38_1 (c : Dev nD) : outs2 m 4 main_v38_1 c = (dat1 (VR3 m (outs1 m)) c).arrAt 6 cfg1.N := by
  unfold outs2; exact stage_self _ _ _ _ c

def outs3 : Outs (F := F) := stage 6 main_v45_1 (fun c => (dat2 (VR5 m (outs2 m)) c).arrAt 5 cfg2.N) (stage 6 main_v45_0 (fun c => (dat2 (VR5 m (outs2 m)) c).arrAt 4 cfg2.N) (outs2 m))
theorem outs3_below (K : ℕ) (hK : K ≤ 5) : outs3 m K = outs2 m K := by
  unfold outs3; rw [stage_of_ne_item _ _ _ _ (by omega), stage_of_ne_item _ _ _ _ (by omega)]
theorem outs3_main_v45_0 (c : Dev nD) : outs3 m 6 main_v45_0 c = (dat2 (VR5 m (outs2 m)) c).arrAt 4 cfg2.N := by
  unfold outs3; exact (stage_of_ne_ref _ _ _ _ c (by decide)).trans (stage_self _ _ _ _ c)
theorem outs3_main_v45_1 (c : Dev nD) : outs3 m 6 main_v45_1 c = (dat2 (VR5 m (outs2 m)) c).arrAt 5 cfg2.N := by
  unfold outs3; exact stage_self _ _ _ _ c

def outs4 : Outs (F := F) := stage 8 main_v60 (fun c => (dat3 (VR7 m (outs3 m)) c).arrAt 4 cfg3.N) (outs3 m)
theorem outs4_below (K : ℕ) (hK : K ≤ 7) : outs4 m K = outs3 m K := by
  unfold outs4; rw [stage_of_ne_item _ _ _ _ (by omega)]
theorem outs4_main_v60 (c : Dev nD) : outs4 m 8 main_v60 c = (dat3 (VR7 m (outs3 m)) c).arrAt 4 cfg3.N := by
  unfold outs4; exact stage_self _ _ _ _ c

def outs5 : Outs (F := F) := stage 10 main_v66 (fun c => (dat4 (VR9 m (outs4 m)) c).arrAt 3 cfg4.N) (outs4 m)
theorem outs5_below (K : ℕ) (hK : K ≤ 9) : outs5 m K = outs4 m K := by
  unfold outs5; rw [stage_of_ne_item _ _ _ _ (by omega)]
theorem outs5_main_v66 (c : Dev nD) : outs5 m 10 main_v66 c = (dat4 (VR9 m (outs4 m)) c).arrAt 3 cfg4.N := by
  unfold outs5; exact stage_self _ _ _ _ c

def outs6 : Outs (F := F) := stage 12 main_v77_1 (fun c => (dat5 (VR11 m (outs5 m)) c).arrAt 6 cfg5.N) (stage 12 main_v77_0 (fun c => (dat5 (VR11 m (outs5 m)) c).arrAt 5 cfg5.N) (outs5 m))
theorem outs6_below (K : ℕ) (hK : K ≤ 11) : outs6 m K = outs5 m K := by
  unfold outs6; rw [stage_of_ne_item _ _ _ _ (by omega), stage_of_ne_item _ _ _ _ (by omega)]
theorem outs6_main_v77_0 (c : Dev nD) : outs6 m 12 main_v77_0 c = (dat5 (VR11 m (outs5 m)) c).arrAt 5 cfg5.N := by
  unfold outs6; exact (stage_of_ne_ref _ _ _ _ c (by decide)).trans (stage_self _ _ _ _ c)
theorem outs6_main_v77_1 (c : Dev nD) : outs6 m 12 main_v77_1 c = (dat5 (VR11 m (outs5 m)) c).arrAt 6 cfg5.N := by
  unfold outs6; exact stage_self _ _ _ _ c

def outs7 : Outs (F := F) := stage 14 main_v84_1 (fun c => (dat6 (VR13 m (outs6 m)) c).arrAt 5 cfg6.N) (stage 14 main_v84_0 (fun c => (dat6 (VR13 m (outs6 m)) c).arrAt 4 cfg6.N) (outs6 m))
theorem outs7_below (K : ℕ) (hK : K ≤ 13) : outs7 m K = outs6 m K := by
  unfold outs7; rw [stage_of_ne_item _ _ _ _ (by omega), stage_of_ne_item _ _ _ _ (by omega)]
theorem outs7_main_v84_0 (c : Dev nD) : outs7 m 14 main_v84_0 c = (dat6 (VR13 m (outs6 m)) c).arrAt 4 cfg6.N := by
  unfold outs7; exact (stage_of_ne_ref _ _ _ _ c (by decide)).trans (stage_self _ _ _ _ c)
theorem outs7_main_v84_1 (c : Dev nD) : outs7 m 14 main_v84_1 c = (dat6 (VR13 m (outs6 m)) c).arrAt 5 cfg6.N := by
  unfold outs7; exact stage_self _ _ _ _ c

def outs8 : Outs (F := F) := stage 16 main_v99 (fun c => (dat7 (VR15 m (outs7 m)) c).arrAt 4 cfg7.N) (outs7 m)
theorem outs8_below (K : ℕ) (hK : K ≤ 15) : outs8 m K = outs7 m K := by
  unfold outs8; rw [stage_of_ne_item _ _ _ _ (by omega)]
theorem outs8_main_v99 (c : Dev nD) : outs8 m 16 main_v99 c = (dat7 (VR15 m (outs7 m)) c).arrAt 4 cfg7.N := by
  unfold outs8; exact stage_self _ _ _ _ c

def outs9 : Outs (F := F) := stage 18 main_v105 (fun c => (dat8 (VR17 m (outs8 m)) c).arrAt 3 cfg8.N) (outs8 m)
theorem outs9_below (K : ℕ) (hK : K ≤ 17) : outs9 m K = outs8 m K := by
  unfold outs9; rw [stage_of_ne_item _ _ _ _ (by omega)]
theorem outs9_main_v105 (c : Dev nD) : outs9 m 18 main_v105 c = (dat8 (VR17 m (outs8 m)) c).arrAt 3 cfg8.N := by
  unfold outs9; exact stage_self _ _ _ _ c

def outs10 : Outs (F := F) := stage 20 main_v116_1 (fun c => (dat9 (VR19 m (outs9 m)) c).arrAt 6 cfg9.N) (stage 20 main_v116_0 (fun c => (dat9 (VR19 m (outs9 m)) c).arrAt 5 cfg9.N) (outs9 m))
theorem outs10_below (K : ℕ) (hK : K ≤ 19) : outs10 m K = outs9 m K := by
  unfold outs10; rw [stage_of_ne_item _ _ _ _ (by omega), stage_of_ne_item _ _ _ _ (by omega)]
theorem outs10_main_v116_0 (c : Dev nD) : outs10 m 20 main_v116_0 c = (dat9 (VR19 m (outs9 m)) c).arrAt 5 cfg9.N := by
  unfold outs10; exact (stage_of_ne_ref _ _ _ _ c (by decide)).trans (stage_self _ _ _ _ c)
theorem outs10_main_v116_1 (c : Dev nD) : outs10 m 20 main_v116_1 c = (dat9 (VR19 m (outs9 m)) c).arrAt 6 cfg9.N := by
  unfold outs10; exact stage_self _ _ _ _ c

def outs11 : Outs (F := F) := stage 22 main_v123_1 (fun c => (dat10 (VR21 m (outs10 m)) c).arrAt 5 cfg10.N) (stage 22 main_v123_0 (fun c => (dat10 (VR21 m (outs10 m)) c).arrAt 4 cfg10.N) (outs10 m))
theorem outs11_below (K : ℕ) (hK : K ≤ 21) : outs11 m K = outs10 m K := by
  unfold outs11; rw [stage_of_ne_item _ _ _ _ (by omega), stage_of_ne_item _ _ _ _ (by omega)]
theorem outs11_main_v123_0 (c : Dev nD) : outs11 m 22 main_v123_0 c = (dat10 (VR21 m (outs10 m)) c).arrAt 4 cfg10.N := by
  unfold outs11; exact (stage_of_ne_ref _ _ _ _ c (by decide)).trans (stage_self _ _ _ _ c)
theorem outs11_main_v123_1 (c : Dev nD) : outs11 m 22 main_v123_1 c = (dat10 (VR21 m (outs10 m)) c).arrAt 5 cfg10.N := by
  unfold outs11; exact stage_self _ _ _ _ c

def outs12 : Outs (F := F) := stage 24 main_v138 (fun c => (dat11 (VR23 m (outs11 m)) c).arrAt 4 cfg11.N) (outs11 m)
theorem outs12_below (K : ℕ) (hK : K ≤ 23) : outs12 m K = outs11 m K := by
  unfold outs12; rw [stage_of_ne_item _ _ _ _ (by omega)]
theorem outs12_main_v138 (c : Dev nD) : outs12 m 24 main_v138 c = (dat11 (VR23 m (outs11 m)) c).arrAt 4 cfg11.N := by
  unfold outs12; exact stage_self _ _ _ _ c

theorem outs12_eq11 (K : ℕ) (hK : K ≤ 23) : outs12 m K = outs11 m K :=
  outs12_below m K hK
theorem outs12_eq10 (K : ℕ) (hK : K ≤ 21) : outs12 m K = outs10 m K :=
  (outs12_eq11 m K (by omega)).trans (outs11_below m K hK)
theorem outs12_eq9 (K : ℕ) (hK : K ≤ 19) : outs12 m K = outs9 m K :=
  (outs12_eq10 m K (by omega)).trans (outs10_below m K hK)
theorem outs12_eq8 (K : ℕ) (hK : K ≤ 17) : outs12 m K = outs8 m K :=
  (outs12_eq9 m K (by omega)).trans (outs9_below m K hK)
theorem outs12_eq7 (K : ℕ) (hK : K ≤ 15) : outs12 m K = outs7 m K :=
  (outs12_eq8 m K (by omega)).trans (outs8_below m K hK)
theorem outs12_eq6 (K : ℕ) (hK : K ≤ 13) : outs12 m K = outs6 m K :=
  (outs12_eq7 m K (by omega)).trans (outs7_below m K hK)
theorem outs12_eq5 (K : ℕ) (hK : K ≤ 11) : outs12 m K = outs5 m K :=
  (outs12_eq6 m K (by omega)).trans (outs6_below m K hK)
theorem outs12_eq4 (K : ℕ) (hK : K ≤ 9) : outs12 m K = outs4 m K :=
  (outs12_eq5 m K (by omega)).trans (outs5_below m K hK)
theorem outs12_eq3 (K : ℕ) (hK : K ≤ 7) : outs12 m K = outs3 m K :=
  (outs12_eq4 m K (by omega)).trans (outs4_below m K hK)
theorem outs12_eq2 (K : ℕ) (hK : K ≤ 5) : outs12 m K = outs2 m K :=
  (outs12_eq3 m K (by omega)).trans (outs3_below m K hK)
theorem outs12_eq1 (K : ℕ) (hK : K ≤ 3) : outs12 m K = outs1 m K :=
  (outs12_eq2 m K (by omega)).trans (outs2_below m K hK)

theorem ok_o0 (c : Dev nD) : outs12 m 2 main_v27 c = (dat0 (VR1 m) c).arrAt 3 cfg0.N := by
  rw [outs12_eq1 m 2 (by decide)]
  exact outs1_main_v27 m c
theorem ok_o1a (c : Dev nD) : outs12 m 4 main_v38_0 c = (dat1 (VR3 m (outs12 m)) c).arrAt 5 cfg1.N := by
  rw [VR3_agree m (outs12_eq1 m)]
  rw [outs12_eq2 m 4 (by decide)]
  exact outs2_main_v38_0 m c
theorem ok_o1b (c : Dev nD) : outs12 m 4 main_v38_1 c = (dat1 (VR3 m (outs12 m)) c).arrAt 6 cfg1.N := by
  rw [VR3_agree m (outs12_eq1 m)]
  rw [outs12_eq2 m 4 (by decide)]
  exact outs2_main_v38_1 m c
theorem ok_o2a (c : Dev nD) : outs12 m 6 main_v45_0 c = (dat2 (VR5 m (outs12 m)) c).arrAt 4 cfg2.N := by
  rw [VR5_agree m (outs12_eq2 m)]
  rw [outs12_eq3 m 6 (by decide)]
  exact outs3_main_v45_0 m c
theorem ok_o2b (c : Dev nD) : outs12 m 6 main_v45_1 c = (dat2 (VR5 m (outs12 m)) c).arrAt 5 cfg2.N := by
  rw [VR5_agree m (outs12_eq2 m)]
  rw [outs12_eq3 m 6 (by decide)]
  exact outs3_main_v45_1 m c
theorem ok_o3 (c : Dev nD) : outs12 m 8 main_v60 c = (dat3 (VR7 m (outs12 m)) c).arrAt 4 cfg3.N := by
  rw [VR7_agree m (outs12_eq3 m)]
  rw [outs12_eq4 m 8 (by decide)]
  exact outs4_main_v60 m c
theorem ok_o4 (c : Dev nD) : outs12 m 10 main_v66 c = (dat4 (VR9 m (outs12 m)) c).arrAt 3 cfg4.N := by
  rw [VR9_agree m (outs12_eq4 m)]
  rw [outs12_eq5 m 10 (by decide)]
  exact outs5_main_v66 m c
theorem ok_o5a (c : Dev nD) : outs12 m 12 main_v77_0 c = (dat5 (VR11 m (outs12 m)) c).arrAt 5 cfg5.N := by
  rw [VR11_agree m (outs12_eq5 m)]
  rw [outs12_eq6 m 12 (by decide)]
  exact outs6_main_v77_0 m c
theorem ok_o5b (c : Dev nD) : outs12 m 12 main_v77_1 c = (dat5 (VR11 m (outs12 m)) c).arrAt 6 cfg5.N := by
  rw [VR11_agree m (outs12_eq5 m)]
  rw [outs12_eq6 m 12 (by decide)]
  exact outs6_main_v77_1 m c
theorem ok_o6a (c : Dev nD) : outs12 m 14 main_v84_0 c = (dat6 (VR13 m (outs12 m)) c).arrAt 4 cfg6.N := by
  rw [VR13_agree m (outs12_eq6 m)]
  rw [outs12_eq7 m 14 (by decide)]
  exact outs7_main_v84_0 m c
theorem ok_o6b (c : Dev nD) : outs12 m 14 main_v84_1 c = (dat6 (VR13 m (outs12 m)) c).arrAt 5 cfg6.N := by
  rw [VR13_agree m (outs12_eq6 m)]
  rw [outs12_eq7 m 14 (by decide)]
  exact outs7_main_v84_1 m c
theorem ok_o7 (c : Dev nD) : outs12 m 16 main_v99 c = (dat7 (VR15 m (outs12 m)) c).arrAt 4 cfg7.N := by
  rw [VR15_agree m (outs12_eq7 m)]
  rw [outs12_eq8 m 16 (by decide)]
  exact outs8_main_v99 m c
theorem ok_o8 (c : Dev nD) : outs12 m 18 main_v105 c = (dat8 (VR17 m (outs12 m)) c).arrAt 3 cfg8.N := by
  rw [VR17_agree m (outs12_eq8 m)]
  rw [outs12_eq9 m 18 (by decide)]
  exact outs9_main_v105 m c
theorem ok_o9a (c : Dev nD) : outs12 m 20 main_v116_0 c = (dat9 (VR19 m (outs12 m)) c).arrAt 5 cfg9.N := by
  rw [VR19_agree m (outs12_eq9 m)]
  rw [outs12_eq10 m 20 (by decide)]
  exact outs10_main_v116_0 m c
theorem ok_o9b (c : Dev nD) : outs12 m 20 main_v116_1 c = (dat9 (VR19 m (outs12 m)) c).arrAt 6 cfg9.N := by
  rw [VR19_agree m (outs12_eq9 m)]
  rw [outs12_eq10 m 20 (by decide)]
  exact outs10_main_v116_1 m c
theorem ok_o10a (c : Dev nD) : outs12 m 22 main_v123_0 c = (dat10 (VR21 m (outs12 m)) c).arrAt 4 cfg10.N := by
  rw [VR21_agree m (outs12_eq10 m)]
  rw [outs12_eq11 m 22 (by decide)]
  exact outs11_main_v123_0 m c
theorem ok_o10b (c : Dev nD) : outs12 m 22 main_v123_1 c = (dat10 (VR21 m (outs12 m)) c).arrAt 5 cfg10.N := by
  rw [VR21_agree m (outs12_eq10 m)]
  rw [outs12_eq11 m 22 (by decide)]
  exact outs11_main_v123_1 m c
theorem ok_o11 (c : Dev nD) : outs12 m 24 main_v138 c = (dat11 (VR23 m (outs12 m)) c).arrAt 4 cfg11.N := by
  rw [VR23_agree m (outs12_eq11 m)]
  exact outs12_main_v138 m c

theorem exists_outs : ∃ outs : Outs (F := F), OutsOk m outs :=
  ⟨outs12 m, ⟨ok_o0 m, ok_o1a m, ok_o1b m, ok_o2a m, ok_o2b m, ok_o3 m, ok_o4 m, ok_o5a m, ok_o5b m, ok_o6a m, ok_o6b m, ok_o7 m, ok_o8 m, ok_o9a m, ok_o9b m, ok_o10a m, ok_o10b m, ok_o11 m⟩⟩

end Cert.Kernel.H

end
-- ==== Proof.K.RegLib.lean ====
import proofs.«402146_j32049045962863_2_alg».proof.Proof.K.Pdats

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- The four entailments of a region's protocol need only that it owes nothing, holds its arrays at the full share and keeps the generator register: so they are proved once, for every region. -/
def regOf (p : Fin 12) (launch : Pipeline.LaunchFacts (nD := nD) (τ := τ) cfgs p) (Wi Wo : Dev nD → Valuation τ sig (Elt F))
    (hbody : ∀ c, BodyObligation (pdats m outs p c) (defs₀ (F := F)) Variants.none () Set.univ)
    (howed : ∀ c t, (pdats m outs p c).owed t = 0)
    (hrec : ∀ c t, (pdats m outs p c).recorded t = Set.univ) (hq : ∀ c w, (pdats m outs p c).q w = fullShare)
    (hA : ∀ c w, (pdats m outs p c).A w = Wi c (Pipeline.arrRef (cfgs p).spec w))
    (hΦ : ∀ c t, (pdats m outs p c).Φ t = Pipeline.ΦA (cfgs p).spec c)
    (hF : ∀ c w, (pdats m outs p c).arrAt w (cfgs p).N = Wo c (Pipeline.arrRef (cfgs p).spec w))
    (hrest : ∀ c (b : Ref sig .tc), b ∉ Finset.univ.image (Pipeline.arrRef (cfgs p).spec) → Wo c b = Wi c b) :
    Pipeline.RegionSeg (pcfgs (F := F)) adm (pdats m outs) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m outs) launch.win launch.arr_whole c
      ((pdats m outs p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m outs) ((pdats m outs p c).share_full (hq c))
      (fun b => Wi c b) (fun b => Wo c b) ((pdats m outs p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.H

end
-- ==== Proof.K.Reg0.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF0 (h : OutsOk m outs) (c : Dev nD) : ∀ w : Fin cfg0.W, (dat0 (VR1 m) c).arrAt w cfg0.N = VR2 m outs c (Pipeline.arrRef spec0 w)
  | 0 => ((dat0 (VR1 m) c).arrAt_in 0 rfl _).trans ((A_eq0 (VR1 m) c 0).trans (V2_of m outs c main_arg0 (by decide)).symm)
  | 1 => ((dat0 (VR1 m) c).arrAt_in 1 rfl _).trans ((A_eq0 (VR1 m) c 1).trans (V2_of m outs c main_v26 (by decide)).symm)
  | 2 => ((dat0 (VR1 m) c).arrAt_in 2 rfl _).trans ((A_eq0 (VR1 m) c 2).trans (V2_of m outs c main_v11 (by decide)).symm)
  | 3 => (h.o0 c).symm.trans (by
      show outs 2 main_v27 c = V2 m outs c main_v27
      simp only [V2, Function.update_self])
  | ⟨_ + 4, hh⟩ => absurd hh (Nat.not_lt.2 (Nat.le_add_left _ _))

theorem hrest0 (c : Dev nD) : ∀ b, b ∉ Finset.univ.image (Pipeline.arrRef spec0) → VR2 m outs c b = VR1 m c b :=
  fun b hb => V2_of m outs c b fun hm =>
    hb (Finset.mem_image.mpr ⟨3, Finset.mem_univ _, (List.mem_singleton.mp hm).symm⟩)

def reg0 (h : OutsOk m outs) : Pipeline.RegionSeg (pcfgs (F := F)) adm (pdats m outs) () defs₀ Variants.none L lv 0 :=
  regOf m outs 0 launch0 (V1 m) (V2 m outs) (body_obligation0 (VR1 m)) (owed_eq0 (VR1 m)) (fun _ _ => rfl) (q_eq0 (VR1 m))
    (A_eq0 (VR1 m)) (Phi_eq0 (VR1 m)) (hF0 m outs h) (hrest0 m outs)

end Cert.Kernel.H

end
-- ==== Proof.K.Reg1.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF1 (h : OutsOk m outs) (c : Dev nD) : ∀ w : Fin cfg1.W, (dat1 (VR3 m outs) c).arrAt w cfg1.N = VR4 m outs c (Pipeline.arrRef spec1 w)
  | 0 => ((dat1 (VR3 m outs) c).arrAt_in 0 rfl _).trans ((A_eq1 (VR3 m outs) c 0).trans (V4_of m outs c main_v37 (by decide)).symm)
  | 1 => ((dat1 (VR3 m outs) c).arrAt_in 1 rfl _).trans ((A_eq1 (VR3 m outs) c 1).trans (V4_of m outs c main_v27 (by decide)).symm)
  | 2 => ((dat1 (VR3 m outs) c).arrAt_in 2 rfl _).trans ((A_eq1 (VR3 m outs) c 2).trans (V4_of m outs c main_v11 (by decide)).symm)
  | 3 => ((dat1 (VR3 m outs) c).arrAt_in 3 rfl _).trans ((A_eq1 (VR3 m outs) c 3).trans (V4_of m outs c main_v24 (by decide)).symm)
  | 4 => ((dat1 (VR3 m outs) c).arrAt_in 4 rfl _).trans ((A_eq1 (VR3 m outs) c 4).trans (V4_of m outs c main_v21 (by decide)).symm)
  | 5 => (h.o1a c).symm.trans (by
      show outs 4 main_v38_0 c = V4 m outs c main_v38_0
      simp only [V4, Function.update_of_ne (StableHlo.devRef_ne_of_ne (by decide) : (Proc.devRef .tc main_v38_0 : DevRef τ sig) ≠ Proc.devRef .tc main_v38_1), Function.update_self])
  | 6 => (h.o1b c).symm.trans (by
      show outs 4 main_v38_1 c = V4 m outs c main_v38_1
      simp only [V4, Function.update_self])
  | ⟨_ + 7, hh⟩ => absurd hh (Nat.not_lt.2 (Nat.le_add_left _ _))

theorem hrest1 (c : Dev nD) : ∀ b, b ∉ Finset.univ.image (Pipeline.arrRef spec1) → VR4 m outs c b = VR3 m outs c b :=
  fun b hb => V4_of m outs c b fun hm =>
    (List.mem_cons.mp hm).elim (fun e => hb (Finset.mem_image.mpr ⟨5, Finset.mem_univ _, e.symm⟩))
      fun hm' => hb (Finset.mem_image.mpr ⟨6, Finset.mem_univ _, (List.mem_singleton.mp hm').symm⟩)

def reg1 (h : OutsOk m outs) : Pipeline.RegionSeg (pcfgs (F := F)) adm (pdats m outs) () defs₀ Variants.none L lv 1 :=
  regOf m outs 1 launch1 (V3 m outs) (V4 m outs) (body_obligation1 (VR3 m outs)) (owed_eq1 (VR3 m outs)) (fun _ _ => rfl) (q_eq1 (VR3 m outs))
    (A_eq1 (VR3 m outs)) (Phi_eq1 (VR3 m outs)) (hF1 m outs h) (hrest1 m outs)

end Cert.Kernel.H

end
-- ==== Proof.K.Reg2.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF2 (h : OutsOk m outs) (c : Dev nD) : ∀ w : Fin cfg2.W, (dat2 (VR5 m outs) c).arrAt w cfg2.N = VR6 m outs c (Pipeline.arrRef spec2 w)
  | 0 => ((dat2 (VR5 m outs) c).arrAt_in 0 rfl _).trans ((A_eq2 (VR5 m outs) c 0).trans (V6_of m outs c main_v38_0 (by decide)).symm)
  | 1 => ((dat2 (VR5 m outs) c).arrAt_in 1 rfl _).trans ((A_eq2 (VR5 m outs) c 1).trans (V6_of m outs c main_v21 (by decide)).symm)
  | 2 => ((dat2 (VR5 m outs) c).arrAt_in 2 rfl _).trans ((A_eq2 (VR5 m outs) c 2).trans (V6_of m outs c main_v41 (by decide)).symm)
  | 3 => ((dat2 (VR5 m outs) c).arrAt_in 3 rfl _).trans ((A_eq2 (VR5 m outs) c 3).trans (V6_of m outs c main_v44 (by decide)).symm)
  | 4 => (h.o2a c).symm.trans (by
      show outs 6 main_v45_0 c = V6 m outs c main_v45_0
      simp only [V6, Function.update_of_ne (StableHlo.devRef_ne_of_ne (by decide) : (Proc.devRef .tc main_v45_0 : DevRef τ sig) ≠ Proc.devRef .tc main_v45_1), Function.update_self])
  | 5 => (h.o2b c).symm.trans (by
      show outs 6 main_v45_1 c = V6 m outs c main_v45_1
      simp only [V6, Function.update_self])
  | ⟨_ + 6, hh⟩ => absurd hh (Nat.not_lt.2 (Nat.le_add_left _ _))

theorem hrest2 (c : Dev nD) : ∀ b, b ∉ Finset.univ.image (Pipeline.arrRef spec2) → VR6 m outs c b = VR5 m outs c b :=
  fun b hb => V6_of m outs c b fun hm =>
    (List.mem_cons.mp hm).elim (fun e => hb (Finset.mem_image.mpr ⟨4, Finset.mem_univ _, e.symm⟩))
      fun hm' => hb (Finset.mem_image.mpr ⟨5, Finset.mem_univ _, (List.mem_singleton.mp hm').symm⟩)

def reg2 (h : OutsOk m outs) : Pipeline.RegionSeg (pcfgs (F := F)) adm (pdats m outs) () defs₀ Variants.none L lv 2 :=
  regOf m outs 2 launch2 (V5 m outs) (V6 m outs) (body_obligation2 (VR5 m outs)) (owed_eq2 (VR5 m outs)) (fun _ _ => rfl) (q_eq2 (VR5 m outs))
    (A_eq2 (VR5 m outs)) (Phi_eq2 (VR5 m outs)) (hF2 m outs h) (hrest2 m outs)

end Cert.Kernel.H

end
-- ==== Proof.K.Reg3.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF3 (h : OutsOk m outs) (c : Dev nD) : ∀ w : Fin cfg3.W, (dat3 (VR7 m outs) c).arrAt w cfg3.N = VR8 m outs c (Pipeline.arrRef spec3 w)
  | 0 => ((dat3 (VR7 m outs) c).arrAt_in 0 rfl _).trans ((A_eq3 (VR7 m outs) c 0).trans (V8_of m outs c main_v45_0 (by decide)).symm)
  | 1 => ((dat3 (VR7 m outs) c).arrAt_in 1 rfl _).trans ((A_eq3 (VR7 m outs) c 1).trans (V8_of m outs c main_v21 (by decide)).symm)
  | 2 => ((dat3 (VR7 m outs) c).arrAt_in 2 rfl _).trans ((A_eq3 (VR7 m outs) c 2).trans (V8_of m outs c main_v59 (by decide)).symm)
  | 3 => ((dat3 (VR7 m outs) c).arrAt_in 3 rfl _).trans ((A_eq3 (VR7 m outs) c 3).trans (V8_of m outs c main_v54 (by decide)).symm)
  | 4 => (h.o3 c).symm.trans (by
      show outs 8 main_v60 c = V8 m outs c main_v60
      simp only [V8, Function.update_self])
  | ⟨_ + 5, hh⟩ => absurd hh (Nat.not_lt.2 (Nat.le_add_left _ _))

theorem hrest3 (c : Dev nD) : ∀ b, b ∉ Finset.univ.image (Pipeline.arrRef spec3) → VR8 m outs c b = VR7 m outs c b :=
  fun b hb => V8_of m outs c b fun hm =>
    hb (Finset.mem_image.mpr ⟨4, Finset.mem_univ _, (List.mem_singleton.mp hm).symm⟩)

def reg3 (h : OutsOk m outs) : Pipeline.RegionSeg (pcfgs (F := F)) adm (pdats m outs) () defs₀ Variants.none L lv 3 :=
  regOf m outs 3 launch3 (V7 m outs) (V8 m outs) (body_obligation3 (VR7 m outs)) (owed_eq3 (VR7 m outs)) (fun _ _ => rfl) (q_eq3 (VR7 m outs))
    (A_eq3 (VR7 m outs)) (Phi_eq3 (VR7 m outs)) (hF3 m outs h) (hrest3 m outs)

end Cert.Kernel.H

end
-- ==== Proof.K.Reg4.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF4 (h : OutsOk m outs) (c : Dev nD) : ∀ w : Fin cfg4.W, (dat4 (VR9 m outs) c).arrAt w cfg4.N = VR10 m outs c (Pipeline.arrRef spec4 w)
  | 0 => ((dat4 (VR9 m outs) c).arrAt_in 0 rfl _).trans ((A_eq4 (VR9 m outs) c 0).trans (V10_of m outs c main_v60 (by decide)).symm)
  | 1 => ((dat4 (VR9 m outs) c).arrAt_in 1 rfl _).trans ((A_eq4 (VR9 m outs) c 1).trans (V10_of m outs c main_v65 (by decide)).symm)
  | 2 => ((dat4 (VR9 m outs) c).arrAt_in 2 rfl _).trans ((A_eq4 (VR9 m outs) c 2).trans (V10_of m outs c main_v11 (by decide)).symm)
  | 3 => (h.o4 c).symm.trans (by
      show outs 10 main_v66 c = V10 m outs c main_v66
      simp only [V10, Function.update_self])
  | ⟨_ + 4, hh⟩ => absurd hh (Nat.not_lt.2 (Nat.le_add_left _ _))

theorem hrest4 (c : Dev nD) : ∀ b, b ∉ Finset.univ.image (Pipeline.arrRef spec4) → VR10 m outs c b = VR9 m outs c b :=
  fun b hb => V10_of m outs c b fun hm =>
    hb (Finset.mem_image.mpr ⟨3, Finset.mem_univ _, (List.mem_singleton.mp hm).symm⟩)

def reg4 (h : OutsOk m outs) : Pipeline.RegionSeg (pcfgs (F := F)) adm (pdats m outs) () defs₀ Variants.none L lv 4 :=
  regOf m outs 4 launch4 (V9 m outs) (V10 m outs) (body_obligation4 (VR9 m outs)) (owed_eq4 (VR9 m outs)) (fun _ _ => rfl) (q_eq4 (VR9 m outs))
    (A_eq4 (VR9 m outs)) (Phi_eq4 (VR9 m outs)) (hF4 m outs h) (hrest4 m outs)

end Cert.Kernel.H

end
-- ==== Proof.K.Reg5.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF5_0 (c : Dev nD) : (dat5 (VR11 m outs) c).arrAt 0 cfg5.N = VR12 m outs c (Pipeline.arrRef spec5 0) :=
  ((dat5 (VR11 m outs) c).arrAt_in 0 rfl _).trans ((A_eq5 (VR11 m outs) c 0).trans (V12_of m outs c main_v76 (by decide)).symm)
theorem hF5_1 (c : Dev nD) : (dat5 (VR11 m outs) c).arrAt 1 cfg5.N = VR12 m outs c (Pipeline.arrRef spec5 1) :=
  ((dat5 (VR11 m outs) c).arrAt_in 1 rfl _).trans ((A_eq5 (VR11 m outs) c 1).trans (V12_of m outs c main_v66 (by decide)).symm)
theorem hF5_2 (c : Dev nD) : (dat5 (VR11 m outs) c).arrAt 2 cfg5.N = VR12 m outs c (Pipeline.arrRef spec5 2) :=
  ((dat5 (VR11 m outs) c).arrAt_in 2 rfl _).trans ((A_eq5 (VR11 m outs) c 2).trans (V12_of m outs c main_v11 (by decide)).symm)
theorem hF5_3 (c : Dev nD) : (dat5 (VR11 m outs) c).arrAt 3 cfg5.N = VR12 m outs c (Pipeline.arrRef spec5 3) :=
  ((dat5 (VR11 m outs) c).arrAt_in 3 rfl _).trans ((A_eq5 (VR11 m outs) c 3).trans (V12_of m outs c main_v63 (by decide)).symm)
theorem hF5_4 (c : Dev nD) : (dat5 (VR11 m outs) c).arrAt 4 cfg5.N = VR12 m outs c (Pipeline.arrRef spec5 4) :=
  ((dat5 (VR11 m outs) c).arrAt_in 4 rfl _).trans ((A_eq5 (VR11 m outs) c 4).trans (V12_of m outs c main_v21 (by decide)).symm)
theorem hF5_5 (h : OutsOk m outs) (c : Dev nD) : (dat5 (VR11 m outs) c).arrAt 5 cfg5.N = VR12 m outs c (Pipeline.arrRef spec5 5) :=
  (h.o5a c).symm.trans (by
    show outs 12 main_v77_0 c = V12 m outs c main_v77_0
    simp only [V12, Function.update_of_ne (StableHlo.devRef_ne_of_ne (by decide) : (Proc.devRef .tc main_v77_0 : DevRef τ sig) ≠ Proc.devRef .tc main_v77_1), Function.update_self])
theorem hF5_6 (h : OutsOk m outs) (c : Dev nD) : (dat5 (VR11 m outs) c).arrAt 6 cfg5.N = VR12 m outs c (Pipeline.arrRef spec5 6) :=
  (h.o5b c).symm.trans (by
    show outs 12 main_v77_1 c = V12 m outs c main_v77_1
    simp only [V12, Function.update_self])
theorem hF5 (h : OutsOk m outs) (c : Dev nD) : ∀ w : Fin cfg5.W, (dat5 (VR11 m outs) c).arrAt w cfg5.N = VR12 m outs c (Pipeline.arrRef spec5 w)
  | 0 => hF5_0 m outs c
  | 1 => hF5_1 m outs c
  | 2 => hF5_2 m outs c
  | 3 => hF5_3 m outs c
  | 4 => hF5_4 m outs c
  | 5 => hF5_5 m outs h c
  | 6 => hF5_6 m outs h c
  | ⟨_ + 7, hh⟩ => absurd hh (Nat.not_lt.2 (Nat.le_add_left _ _))

theorem hrest5 (c : Dev nD) : ∀ b, b ∉ Finset.univ.image (Pipeline.arrRef spec5) → VR12 m outs c b = VR11 m outs c b :=
  fun b hb => V12_of m outs c b fun hm =>
    (List.mem_cons.mp hm).elim (fun e => hb (Finset.mem_image.mpr ⟨5, Finset.mem_univ _, e.symm⟩))
      fun hm' => hb (Finset.mem_image.mpr ⟨6, Finset.mem_univ _, (List.mem_singleton.mp hm').symm⟩)

def reg5 (h : OutsOk m outs) : Pipeline.RegionSeg (pcfgs (F := F)) adm (pdats m outs) () defs₀ Variants.none L lv 5 :=
  regOf m outs 5 launch5 (V11 m outs) (V12 m outs) (body_obligation5 (VR11 m outs)) (owed_eq5 (VR11 m outs)) (fun _ _ => rfl) (q_eq5 (VR11 m outs))
    (A_eq5 (VR11 m outs)) (Phi_eq5 (VR11 m outs)) (hF5 m outs h) (hrest5 m outs)

end Cert.Kernel.H

end
-- ==== Proof.K.Reg6.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF6_0 (c : Dev nD) : (dat6 (VR13 m outs) c).arrAt 0 cfg6.N = VR14 m outs c (Pipeline.arrRef spec6 0) :=
  ((dat6 (VR13 m outs) c).arrAt_in 0 rfl _).trans ((A_eq6 (VR13 m outs) c 0).trans (V14_of m outs c main_v77_0 (by decide)).symm)
theorem hF6_1 (c : Dev nD) : (dat6 (VR13 m outs) c).arrAt 1 cfg6.N = VR14 m outs c (Pipeline.arrRef spec6 1) :=
  ((dat6 (VR13 m outs) c).arrAt_in 1 rfl _).trans ((A_eq6 (VR13 m outs) c 1).trans (V14_of m outs c main_v21 (by decide)).symm)
theorem hF6_2 (c : Dev nD) : (dat6 (VR13 m outs) c).arrAt 2 cfg6.N = VR14 m outs c (Pipeline.arrRef spec6 2) :=
  ((dat6 (VR13 m outs) c).arrAt_in 2 rfl _).trans ((A_eq6 (VR13 m outs) c 2).trans (V14_of m outs c main_v80 (by decide)).symm)
theorem hF6_3 (c : Dev nD) : (dat6 (VR13 m outs) c).arrAt 3 cfg6.N = VR14 m outs c (Pipeline.arrRef spec6 3) :=
  ((dat6 (VR13 m outs) c).arrAt_in 3 rfl _).trans ((A_eq6 (VR13 m outs) c 3).trans (V14_of m outs c main_v83 (by decide)).symm)
theorem hF6_4 (h : OutsOk m outs) (c : Dev nD) : (dat6 (VR13 m outs) c).arrAt 4 cfg6.N = VR14 m outs c (Pipeline.arrRef spec6 4) :=
  (h.o6a c).symm.trans (by
    show outs 14 main_v84_0 c = V14 m outs c main_v84_0
    simp only [V14, Function.update_of_ne (StableHlo.devRef_ne_of_ne (by decide) : (Proc.devRef .tc main_v84_0 : DevRef τ sig) ≠ Proc.devRef .tc main_v84_1), Function.update_self])
theorem hF6_5 (h : OutsOk m outs) (c : Dev nD) : (dat6 (VR13 m outs) c).arrAt 5 cfg6.N = VR14 m outs c (Pipeline.arrRef spec6 5) :=
  (h.o6b c).symm.trans (by
    show outs 14 main_v84_1 c = V14 m outs c main_v84_1
    simp only [V14, Function.update_self])
theorem hF6 (h : OutsOk m outs) (c : Dev nD) : ∀ w : Fin cfg6.W, (dat6 (VR13 m outs) c).arrAt w cfg6.N = VR14 m outs c (Pipeline.arrRef spec6 w)
  | 0 => hF6_0 m outs c
  | 1 => hF6_1 m outs c
  | 2 => hF6_2 m outs c
  | 3 => hF6_3 m outs c
  | 4 => hF6_4 m outs h c
  | 5 => hF6_5 m outs h c
  | ⟨_ + 6, hh⟩ => absurd hh (Nat.not_lt.2 (Nat.le_add_left _ _))

theorem hrest6 (c : Dev nD) : ∀ b, b ∉ Finset.univ.image (Pipeline.arrRef spec6) → VR14 m outs c b = VR13 m outs c b :=
  fun b hb => V14_of m outs c b fun hm =>
    (List.mem_cons.mp hm).elim (fun e => hb (Finset.mem_image.mpr ⟨4, Finset.mem_univ _, e.symm⟩))
      fun hm' => hb (Finset.mem_image.mpr ⟨5, Finset.mem_univ _, (List.mem_singleton.mp hm').symm⟩)

def reg6 (h : OutsOk m outs) : Pipeline.RegionSeg (pcfgs (F := F)) adm (pdats m outs) () defs₀ Variants.none L lv 6 :=
  regOf m outs 6 launch6 (V13 m outs) (V14 m outs) (body_obligation6 (VR13 m outs)) (owed_eq6 (VR13 m outs)) (fun _ _ => rfl) (q_eq6 (VR13 m outs))
    (A_eq6 (VR13 m outs)) (Phi_eq6 (VR13 m outs)) (hF6 m outs h) (hrest6 m outs)

end Cert.Kernel.H

end
-- ==== Proof.K.Reg7.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF7 (h : OutsOk m outs) (c : Dev nD) : ∀ w : Fin cfg7.W, (dat7 (VR15 m outs) c).arrAt w cfg7.N = VR16 m outs c (Pipeline.arrRef spec7 w)
  | 0 => ((dat7 (VR15 m outs) c).arrAt_in 0 rfl _).trans ((A_eq7 (VR15 m outs) c 0).trans (V16_of m outs c main_v84_0 (by decide)).symm)
  | 1 => ((dat7 (VR15 m outs) c).arrAt_in 1 rfl _).trans ((A_eq7 (VR15 m outs) c 1).trans (V16_of m outs c main_v21 (by decide)).symm)
  | 2 => ((dat7 (VR15 m outs) c).arrAt_in 2 rfl _).trans ((A_eq7 (VR15 m outs) c 2).trans (V16_of m outs c main_v98 (by decide)).symm)
  | 3 => ((dat7 (VR15 m outs) c).arrAt_in 3 rfl _).trans ((A_eq7 (VR15 m outs) c 3).trans (V16_of m outs c main_v93 (by decide)).symm)
  | 4 => (h.o7 c).symm.trans (by
      show outs 16 main_v99 c = V16 m outs c main_v99
      simp only [V16, Function.update_self])
  | ⟨_ + 5, hh⟩ => absurd hh (Nat.not_lt.2 (Nat.le_add_left _ _))

theorem hrest7 (c : Dev nD) : ∀ b, b ∉ Finset.univ.image (Pipeline.arrRef spec7) → VR16 m outs c b = VR15 m outs c b :=
  fun b hb => V16_of m outs c b fun hm =>
    hb (Finset.mem_image.mpr ⟨4, Finset.mem_univ _, (List.mem_singleton.mp hm).symm⟩)

def reg7 (h : OutsOk m outs) : Pipeline.RegionSeg (pcfgs (F := F)) adm (pdats m outs) () defs₀ Variants.none L lv 7 :=
  regOf m outs 7 launch7 (V15 m outs) (V16 m outs) (body_obligation7 (VR15 m outs)) (owed_eq7 (VR15 m outs)) (fun _ _ => rfl) (q_eq7 (VR15 m outs))
    (A_eq7 (VR15 m outs)) (Phi_eq7 (VR15 m outs)) (hF7 m outs h) (hrest7 m outs)

end Cert.Kernel.H

end
-- ==== Proof.K.Reg8.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF8 (h : OutsOk m outs) (c : Dev nD) : ∀ w : Fin cfg8.W, (dat8 (VR17 m outs) c).arrAt w cfg8.N = VR18 m outs c (Pipeline.arrRef spec8 w)
  | 0 => ((dat8 (VR17 m outs) c).arrAt_in 0 rfl _).trans ((A_eq8 (VR17 m outs) c 0).trans (V18_of m outs c main_v99 (by decide)).symm)
  | 1 => ((dat8 (VR17 m outs) c).arrAt_in 1 rfl _).trans ((A_eq8 (VR17 m outs) c 1).trans (V18_of m outs c main_v104 (by decide)).symm)
  | 2 => ((dat8 (VR17 m outs) c).arrAt_in 2 rfl _).trans ((A_eq8 (VR17 m outs) c 2).trans (V18_of m outs c main_v11 (by decide)).symm)
  | 3 => (h.o8 c).symm.trans (by
      show outs 18 main_v105 c = V18 m outs c main_v105
      simp only [V18, Function.update_self])
  | ⟨_ + 4, hh⟩ => absurd hh (Nat.not_lt.2 (Nat.le_add_left _ _))

theorem hrest8 (c : Dev nD) : ∀ b, b ∉ Finset.univ.image (Pipeline.arrRef spec8) → VR18 m outs c b = VR17 m outs c b :=
  fun b hb => V18_of m outs c b fun hm =>
    hb (Finset.mem_image.mpr ⟨3, Finset.mem_univ _, (List.mem_singleton.mp hm).symm⟩)

def reg8 (h : OutsOk m outs) : Pipeline.RegionSeg (pcfgs (F := F)) adm (pdats m outs) () defs₀ Variants.none L lv 8 :=
  regOf m outs 8 launch8 (V17 m outs) (V18 m outs) (body_obligation8 (VR17 m outs)) (owed_eq8 (VR17 m outs)) (fun _ _ => rfl) (q_eq8 (VR17 m outs))
    (A_eq8 (VR17 m outs)) (Phi_eq8 (VR17 m outs)) (hF8 m outs h) (hrest8 m outs)

end Cert.Kernel.H

end
-- ==== Proof.K.Reg9.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF9 (h : OutsOk m outs) (c : Dev nD) : ∀ w : Fin cfg9.W, (dat9 (VR19 m outs) c).arrAt w cfg9.N = VR20 m outs c (Pipeline.arrRef spec9 w)
  | 0 => ((dat9 (VR19 m outs) c).arrAt_in 0 rfl _).trans ((A_eq9 (VR19 m outs) c 0).trans (V20_of m outs c main_v115 (by decide)).symm)
  | 1 => ((dat9 (VR19 m outs) c).arrAt_in 1 rfl _).trans ((A_eq9 (VR19 m outs) c 1).trans (V20_of m outs c main_v105 (by decide)).symm)
  | 2 => ((dat9 (VR19 m outs) c).arrAt_in 2 rfl _).trans ((A_eq9 (VR19 m outs) c 2).trans (V20_of m outs c main_v11 (by decide)).symm)
  | 3 => ((dat9 (VR19 m outs) c).arrAt_in 3 rfl _).trans ((A_eq9 (VR19 m outs) c 3).trans (V20_of m outs c main_v102 (by decide)).symm)
  | 4 => ((dat9 (VR19 m outs) c).arrAt_in 4 rfl _).trans ((A_eq9 (VR19 m outs) c 4).trans (V20_of m outs c main_v21 (by decide)).symm)
  | 5 => (h.o9a c).symm.trans (by
      show outs 20 main_v116_0 c = V20 m outs c main_v116_0
      simp only [V20, Function.update_of_ne (StableHlo.devRef_ne_of_ne (by decide) : (Proc.devRef .tc main_v116_0 : DevRef τ sig) ≠ Proc.devRef .tc main_v116_1), Function.update_self])
  | 6 => (h.o9b c).symm.trans (by
      show outs 20 main_v116_1 c = V20 m outs c main_v116_1
      simp only [V20, Function.update_self])
  | ⟨_ + 7, hh⟩ => absurd hh (Nat.not_lt.2 (Nat.le_add_left _ _))

theorem hrest9 (c : Dev nD) : ∀ b, b ∉ Finset.univ.image (Pipeline.arrRef spec9) → VR20 m outs c b = VR19 m outs c b :=
  fun b hb => V20_of m outs c b fun hm =>
    (List.mem_cons.mp hm).elim (fun e => hb (Finset.mem_image.mpr ⟨5, Finset.mem_univ _, e.symm⟩))
      fun hm' => hb (Finset.mem_image.mpr ⟨6, Finset.mem_univ _, (List.mem_singleton.mp hm').symm⟩)

def reg9 (h : OutsOk m outs) : Pipeline.RegionSeg (pcfgs (F := F)) adm (pdats m outs) () defs₀ Variants.none L lv 9 :=
  regOf m outs 9 launch9 (V19 m outs) (V20 m outs) (body_obligation9 (VR19 m outs)) (owed_eq9 (VR19 m outs)) (fun _ _ => rfl) (q_eq9 (VR19 m outs))
    (A_eq9 (VR19 m outs)) (Phi_eq9 (VR19 m outs)) (hF9 m outs h) (hrest9 m outs)

end Cert.Kernel.H

end
-- ==== Proof.K.Reg10.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF10 (h : OutsOk m outs) (c : Dev nD) : ∀ w : Fin cfg10.W, (dat10 (VR21 m outs) c).arrAt w cfg10.N = VR22 m outs c (Pipeline.arrRef spec10 w)
  | 0 => ((dat10 (VR21 m outs) c).arrAt_in 0 rfl _).trans ((A_eq10 (VR21 m outs) c 0).trans (V22_of m outs c main_v116_0 (by decide)).symm)
  | 1 => ((dat10 (VR21 m outs) c).arrAt_in 1 rfl _).trans ((A_eq10 (VR21 m outs) c 1).trans (V22_of m outs c main_v21 (by decide)).symm)
  | 2 => ((dat10 (VR21 m outs) c).arrAt_in 2 rfl _).trans ((A_eq10 (VR21 m outs) c 2).trans (V22_of m outs c main_v119 (by decide)).symm)
  | 3 => ((dat10 (VR21 m outs) c).arrAt_in 3 rfl _).trans ((A_eq10 (VR21 m outs) c 3).trans (V22_of m outs c main_v122 (by decide)).symm)
  | 4 => (h.o10a c).symm.trans (by
      show outs 22 main_v123_0 c = V22 m outs c main_v123_0
      simp only [V22, Function.update_of_ne (StableHlo.devRef_ne_of_ne (by decide) : (Proc.devRef .tc main_v123_0 : DevRef τ sig) ≠ Proc.devRef .tc main_v123_1), Function.update_self])
  | 5 => (h.o10b c).symm.trans (by
      show outs 22 main_v123_1 c = V22 m outs c main_v123_1
      simp only [V22, Function.update_self])
  | ⟨_ + 6, hh⟩ => absurd hh (Nat.not_lt.2 (Nat.le_add_left _ _))

theorem hrest10 (c : Dev nD) : ∀ b, b ∉ Finset.univ.image (Pipeline.arrRef spec10) → VR22 m outs c b = VR21 m outs c b :=
  fun b hb => V22_of m outs c b fun hm =>
    (List.mem_cons.mp hm).elim (fun e => hb (Finset.mem_image.mpr ⟨4, Finset.mem_univ _, e.symm⟩))
      fun hm' => hb (Finset.mem_image.mpr ⟨5, Finset.mem_univ _, (List.mem_singleton.mp hm').symm⟩)

def reg10 (h : OutsOk m outs) : Pipeline.RegionSeg (pcfgs (F := F)) adm (pdats m outs) () defs₀ Variants.none L lv 10 :=
  regOf m outs 10 launch10 (V21 m outs) (V22 m outs) (body_obligation10 (VR21 m outs)) (owed_eq10 (VR21 m outs)) (fun _ _ => rfl) (q_eq10 (VR21 m outs))
    (A_eq10 (VR21 m outs)) (Phi_eq10 (VR21 m outs)) (hF10 m outs h) (hrest10 m outs)

end Cert.Kernel.H

end
-- ==== Proof.K.Reg11.lean ====
import proofs.«402146_j32049045962863_2_alg».proof.Proof.K.RegLib

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF11 (h : OutsOk m outs) (c : Dev nD) : ∀ w : Fin cfg11.W, (dat11 (VR23 m outs) c).arrAt w cfg11.N = VR24 m outs c (Pipeline.arrRef spec11 w)
  | 0 => ((dat11 (VR23 m outs) c).arrAt_in 0 rfl _).trans ((A_eq11 (VR23 m outs) c 0).trans (V24_of m outs c main_v123_0 (by decide)).symm)
  | 1 => ((dat11 (VR23 m outs) c).arrAt_in 1 rfl _).trans ((A_eq11 (VR23 m outs) c 1).trans (V24_of m outs c main_v21 (by decide)).symm)
  | 2 => ((dat11 (VR23 m outs) c).arrAt_in 2 rfl _).trans ((A_eq11 (VR23 m outs) c 2).trans (V24_of m outs c main_v137 (by decide)).symm)
  | 3 => ((dat11 (VR23 m outs) c).arrAt_in 3 rfl _).trans ((A_eq11 (VR23 m outs) c 3).trans (V24_of m outs c main_v132 (by decide)).symm)
  | 4 => (h.o11 c).symm.trans (by
      show outs 24 main_v138 c = V24 m outs c main_v138
      simp only [V24, Function.update_self])
  | ⟨_ + 5, hh⟩ => absurd hh (Nat.not_lt.2 (Nat.le_add_left _ _))

theorem hrest11 (c : Dev nD) : ∀ b, b ∉ Finset.univ.image (Pipeline.arrRef spec11) → VR24 m outs c b = VR23 m outs c b :=
  fun b hb => V24_of m outs c b fun hm =>
    hb (Finset.mem_image.mpr ⟨4, Finset.mem_univ _, (List.mem_singleton.mp hm).symm⟩)

def reg11 (h : OutsOk m outs) : Pipeline.RegionSeg (pcfgs (F := F)) adm (pdats m outs) () defs₀ Variants.none L lv 11 :=
  regOf m outs 11 launch11 (V23 m outs) (V24 m outs) (body_obligation11 (VR23 m outs)) (owed_eq11 (VR23 m outs)) (fun _ _ => rfl) (q_eq11 (VR23 m outs))
    (A_eq11 (VR23 m outs)) (Phi_eq11 (VR23 m outs)) (hF11 m outs h) (hrest11 m outs)

end Cert.Kernel.H

end
-- ==== Proof.K.Run.lean ====
import proofs.«402146_j32049045962863_2_alg».proof.Proof.K.RunCond
import proofs.«402146_j32049045962863_2_alg».proof.Proof.K.Outs
import proofs.«402146_j32049045962863_2_alg».proof.Proof.K.Reg0
import proofs.«402146_j32049045962863_2_alg».proof.Proof.K.Reg1
import proofs.«402146_j32049045962863_2_alg».proof.Proof.K.Reg2
import proofs.«402146_j32049045962863_2_alg».proof.Proof.K.Reg3
import proofs.«402146_j32049045962863_2_alg».proof.Proof.K.Reg4
import proofs.«402146_j32049045962863_2_alg».proof.Proof.K.Reg5
import proofs.«402146_j32049045962863_2_alg».proof.Proof.K.Reg6
import proofs.«402146_j32049045962863_2_alg».proof.Proof.K.Reg7
import proofs.«402146_j32049045962863_2_alg».proof.Proof.K.Reg8
import proofs.«402146_j32049045962863_2_alg».proof.Proof.K.Reg9
import proofs.«402146_j32049045962863_2_alg».proof.Proof.K.Reg10
import proofs.«402146_j32049045962863_2_alg».proof.Proof.K.Reg11

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run (outs : Outs (F := F)) (h : OutsOk m outs) :
    θ_run defs (onTc (τ := τ) (main (F := F))) ⟨m, fun _ => 0, ρ⟩ (fun r => ∀ c : Dev nD,
      r.2.mem ((c.tc : Thread nD τ).loc main_v138) = V25 m outs c main_v138
      ∧ r.2.mem ((c.tc : Thread nD τ).loc main_v142) = V25 m outs c main_v142
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m emb₁ () Variants.none L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m outs h) (fun _ => .rfl) (fun _ => .rfl)
    (reg1 m outs h) (fun _ => .rfl) (fun _ => .rfl)
    (reg2 m outs h) (fun _ => .rfl) (fun _ => .rfl)
    (reg3 m outs h) (fun _ => .rfl) (fun _ => .rfl)
    (reg4 m outs h) (fun _ => .rfl) (fun _ => .rfl)
    (reg5 m outs h) (fun _ => .rfl) (fun _ => .rfl)
    (reg6 m outs h) (fun _ => .rfl) (fun _ => .rfl)
    (reg7 m outs h) (fun _ => .rfl) (fun _ => .rfl)
    (reg8 m outs h) (fun _ => .rfl) (fun _ => .rfl)
    (reg9 m outs h) (fun _ => .rfl) (fun _ => .rfl)
    (reg10 m outs h) (fun _ => .rfl) (fun _ => .rfl)
    (reg11 m outs h) (fun _ => .rfl) (fun _ => .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  obtain ⟨outs, h⟩ := exists_outs m
  exact (θ_run defs _ _).mono (fun r hr c => (hr c).2.2) (run m ρ outs h)

end Cert.Kernel.H

end
-- ==== Proof.KI.R0.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t) : (dat0 V c).Φ t = Pipeline.ΦA spec0 c := by dsimp only [dat0]
theorem owed_eq0 (c : Dev nD) (t) : (dat0 V c).owed t = 0 := by dsimp only [dat0]
theorem q_eq0 (c : Dev nD) (w) : (dat0 V c).q w = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.R1.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev VO1_5 : View sig .tc .vmem S2000x128 .f32 := (Memref.whole cc1_stg5_0 : Memref sig .tc .vmem S2000x128 .f32).view
abbrev VO1_6 : View sig .tc .vmem S1x64x128 .f32 := (Memref.whole cc1_stg6_0 : Memref sig .tc .vmem S1x64x128 .f32).view

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x1 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x128 .f32 := win1_6.stage (cfg1.slots t 6)
abbrev hs1_6 (t : Fin cfg1.N) : (ms1_6 t).IsWhole := hstage1_6 ((cfg1.slots t 6).cast nbuf1_6)

section
variable (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S2000x128 .f32) (harg7 : arg7.IsWhole) (arg8 : Memref sig .tc .vmem S1x64x128 .f32) (harg8 : arg8.IsWhole) (hc0 : cond1_0 i) (x0 : Vec F S2000x128 .f32) (x1 : Vec F S2000x128 .f32) (x2 : Vec F S2000x1 .f32) (x3 : Vec F S1x128 .f32) (x4 : Vec F S2000x1 .i32)

set_option maxHeartbeats 4000000 in

noncomputable def kernelRun1_A :
    Σ' (L5 : List (View.Piece (Elt F) S2000x128 .f32)), { L6 : List (View.Piece (Elt F) S1x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__combine_reduce_kernel i arg2 harg2 arg3 harg3 arg4 harg4 arg5 harg5 arg6 harg6 arg7 harg7 arg8 harg8) K } := by
  refine ⟨?_, ?_, fun E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem cover1_A_5 (y : S2000x128.Idx) :
    ∃ pc ∈ (kernelRun1_A c i arg2 harg2 arg3 harg3 arg4 harg4 arg5 harg5 arg6 harg6 arg7 harg7 arg8 harg8 hc0 x0 x1 x2 x3 x4).1, y ∈ pc.1.set :=
  View.cover_of_tiledL (kernelRun1_A c i arg2 harg2 arg3 harg3 arg4 harg4 arg5 harg5 arg6 harg6 arg7 harg7 arg8 harg8 hc0 x0 x1 x2 x3 x4).1 S2000x128.size (by sl_kernel_rfl) y

def out1_A_5 : Vec F S2000x128 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3 x4).1)

theorem cover1_A_6 (y : S1x64x128.Idx) :
    ∃ pc ∈ (kernelRun1_A c i arg2 harg2 arg3 harg3 arg4 harg4 arg5 harg5 arg6 harg6 arg7 harg7 arg8 harg8 hc0 x0 x1 x2 x3 x4).2.1, y ∈ pc.1.set :=
  View.cover_of_tiledL (kernelRun1_A c i arg2 harg2 arg3 harg3 arg4 harg4 arg5 harg5 arg6 harg6 arg7 harg7 arg8 harg8 hc0 x0 x1 x2 x3 x4).2.1 S1x64x128.size (by sl_kernel_rfl) y

def out1_A_6 : Vec F S1x64x128 .f32 :=
  VO1_6.read (Elt F) (VO1_6.writes (Elt F) VO1_6.junk (kernelRun1_A c i arg2 harg2 arg3 harg3 arg4 harg4 arg5 harg5 arg6 harg6 arg7 harg7 arg8 harg8 hc0 x0 x1 x2 x3 x4).2.1)

end

section
variable (c : Dev nD) (i : grid1.Coords) (arg2 : Memref sig .tc .vmem S2000x128 .f32) (harg2 : arg2.IsWhole) (arg3 : Memref sig .tc .vmem S2000x128 .f32) (harg3 : arg3.IsWhole) (arg4 : Memref sig .tc .vmem S2000x1 .f32) (harg4 : arg4.IsWhole) (arg5 : Memref sig .tc .vmem S1x128 .f32) (harg5 : arg5.IsWhole) (arg6 : Memref sig .tc .vmem S2000x1 .i32) (harg6 : arg6.IsWhole) (arg7 : Memref sig .tc .vmem S2000x128 .f32) (harg7 : arg7.IsWhole) (arg8 : Memref sig .tc .vmem S1x64x128 .f32) (harg8 : arg8.IsWhole) (hc0 : ¬cond1_0 i) (x0 : Vec F S2000x128 .f32) (x1 : Vec F S2000x128 .f32) (x2 : Vec F S2000x1 .f32) (x3 : Vec F S1x128 .f32) (x4 : Vec F S2000x1 .i32) (xo6 : Vec F S1x64x128 .f32)

set_option maxHeartbeats 4000000 in

noncomputable def kernelRun1_B :
    Σ' (L5 : List (View.Piece (Elt F) S2000x128 .f32)), { L6 : List (View.Piece (Elt F) S1x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc1__combine_reduce_kernel i arg2 harg2 arg3 harg3 arg4 harg4 arg5 harg5 arg6 harg6 arg7 harg7 arg8 harg8) K } := by
  refine ⟨?_, ?_, fun E K => ?run⟩
  case run =>
    simp only [cc1__combine_reduce_kernel_eq_skeleton]; unfold cc1__combine_reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem cover1_B_5 (y : S2000x128.Idx) :
    ∃ pc ∈ (kernelRun1_B c i arg2 harg2 arg3 harg3 arg4 harg4 arg5 harg5 arg6 harg6 arg7 harg7 arg8 harg8 hc0 x0 x1 x2 x3 x4 xo6).1, y ∈ pc.1.set :=
  View.cover_of_tiledL (kernelRun1_B c i arg2 harg2 arg3 harg3 arg4 harg4 arg5 harg5 arg6 harg6 arg7 harg7 arg8 harg8 hc0 x0 x1 x2 x3 x4 xo6).1 S2000x128.size (by sl_kernel_rfl) y

def out1_B_5 : Vec F S2000x128 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 x4 xo6).1)

theorem cover1_B_6 (y : S1x64x128.Idx) :
    ∃ pc ∈ (kernelRun1_B c i arg2 harg2 arg3 harg3 arg4 harg4 arg5 harg5 arg6 harg6 arg7 harg7 arg8 harg8 hc0 x0 x1 x2 x3 x4 xo6).2.1, y ∈ pc.1.set :=
  View.cover_of_tiledL (kernelRun1_B c i arg2 harg2 arg3 harg3 arg4 harg4 arg5 harg5 arg6 harg6 arg7 harg7 arg8 harg8 hc0 x0 x1 x2 x3 x4 xo6).2.1 S1x64x128.size (by sl_kernel_rfl) y

def out1_B_6 : Vec F S1x64x128 .f32 :=
  VO1_6.read (Elt F) (VO1_6.writes (Elt F) VO1_6.junk (kernelRun1_B c i arg2 harg2 arg3 harg3 arg4 harg4 arg5 harg5 arg6 harg6 arg7 harg7 arg8 harg8 hc0 x0 x1 x2 x3 x4 xo6).2.1)

end

def outsAt1 (c : Dev nD) : (n : ℕ) → n < cfg1.N → Vec F S2000x128 .f32 × Vec F S1x64x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 25 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 25 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

theorem outsAt1_B (c : Dev nD) (t : Fin cfg1.N) (h0 : ¬t.val % 25 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem Phi_eq1 (c : Dev nD) (t) : (dat1 V c).Φ t = Pipeline.ΦA spec1 c := by dsimp only [dat1]
theorem owed_eq1 (c : Dev nD) (t) : (dat1 V c).owed t = 0 := by dsimp only [dat1]
theorem q_eq1 (c : Dev nD) (w) : (dat1 V c).q w = fullShare := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_6_B (c : Dev nD) (t : Fin cfg1.N) (h0 : ¬t.val % 25 = 0) (d) :
    (dat1 V c).before 6 t d = (outsAt1 V c (t.val - 1) (Nat.lt_of_le_of_lt (Nat.sub_le _ _) t.isLt)).2 := by
  have hN : t.val < 50 := lt_of_lt_of_eq t.isLt (show cfg1.N = 50 from N_1)
  rw [Dat.before_out_kept _ 6 rfl t (by omega) (Bool.eq_false_iff.mpr fun h => by have := (flush1_6 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 50 := lt_of_lt_of_eq t.isLt (show cfg1.N = 50 from N_1)
  by_cases h0 : t.val % 25 = 0
  · rw [outsAt1_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt1_B V c t h0]
    simp only [before1_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.R2.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 25 = 0 :=
  (by decide +kernel : ∀ t : Fin grid2.N, cond2_0 (grid2.coords t) ↔ t.val % 25 = 0)

abbrev VO2_4 : View sig .tc .vmem S2000x128 .f32 := (Memref.whole cc2_stg4_0 : Memref sig .tc .vmem S2000x128 .f32).view
abbrev VO2_5 : View sig .tc .vmem S1x64x128 .f32 := (Memref.whole cc2_stg5_0 : Memref sig .tc .vmem S1x64x128 .f32).view

abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64x128 .f32 := win2_5.stage (cfg2.slots t 5)
abbrev hs2_5 (t : Fin cfg2.N) : (ms2_5 t).IsWhole := hstage2_5 ((cfg2.slots t 5).cast nbuf2_5)

section
variable (c : Dev nD) (i : grid2.Coords) (arg2 : Memref sig .tc .vmem S2000x128 .f32) (harg2 : arg2.IsWhole) (arg3 : Memref sig .tc .vmem S2000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x64x128 .f32) (harg7 : arg7.IsWhole) (hc0 : cond2_0 i)

set_option maxHeartbeats 4000000 in

noncomputable def kernelRun2_A (x0 : Vec F S2000x128 .f32) (x1 : Vec F S2000x1 .i32) (x2 : Vec F S64x128 .f32) (x3 : Vec F S1x128 .f32) :
    Σ' (L4 : List (View.Piece (Elt F) S2000x128 .f32)), { L5 : List (View.Piece (Elt F) S1x64x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc2__center_kernel i arg2 harg2 arg3 harg3 arg4 harg4 arg5 harg5 arg6 harg6 arg7 harg7) K } := by
  refine ⟨?_, ?_, fun E K => ?run⟩
  case run =>
    simp only [cc2__center_kernel_eq_skeleton]; unfold cc2__center_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

theorem cover2_A_4 (x0 : Vec F S2000x128 .f32) (x1 : Vec F S2000x1 .i32) (x2 : Vec F S64x128 .f32) (x3 : Vec F S1x128 .f32) (y : S2000x128.Idx) :
    ∃ pc ∈ (kernelRun2_A c i arg2 harg2 arg3 harg3 arg4 harg4 arg5 harg5 arg6 harg6 arg7 harg7 hc0 x0 x1 x2 x3).1, y ∈ pc.1.set :=
  View.cover_of_tiledL (kernelRun2_A c i arg2 harg2 arg3 harg3 arg4 harg4 arg5 harg5 arg6 harg6 arg7 harg7 hc0 x0 x1 x2 x3).1 S2000x128.size (by sl_kernel_rfl) y

def out2_A_4 (x0 : Vec F S2000x128 .f32) (x1 : Vec F S2000x1 .i32) (x2 : Vec F S64x128 .f32) (x3 : Vec F S1x128 .f32) : Vec F S2000x128 .f32 :=
  VO2_4.read (Elt F) (VO2_4.writes (Elt F) VO2_4.junk (kernelRun2_A c i arg2 harg2 arg3 harg3 arg4 harg4 arg5 harg5 arg6 harg6 arg7 harg7 hc0 x0 x1 x2 x3).1)

theorem cover2_A_5 (x0 : Vec F S2000x128 .f32) (x1 : Vec F S2000x1 .i32) (x2 : Vec F S64x128 .f32) (x3 : Vec F S1x128 .f32) (y : S1x64x128.Idx) :
    ∃ pc ∈ (kernelRun2_A c i arg2 harg2 arg3 harg3 arg4 harg4 arg5 harg5 arg6 harg6 arg7 harg7 hc0 x0 x1 x2 x3).2.1, y ∈ pc.1.set :=
  View.cover_of_tiledL (kernelRun2_A c i arg2 harg2 arg3 harg3 arg4 harg4 arg5 harg5 arg6 harg6 arg7 harg7 hc0 x0 x1 x2 x3).2.1 S1x64x128.size (by sl_kernel_rfl) y

def out2_A_5 (x0 : Vec F S2000x128 .f32) (x1 : Vec F S2000x1 .i32) (x2 : Vec F S64x128 .f32) (x3 : Vec F S1x128 .f32) : Vec F S1x64x128 .f32 :=
  VO2_5.read (Elt F) (VO2_5.writes (Elt F) VO2_5.junk (kernelRun2_A c i arg2 harg2 arg3 harg3 arg4 harg4 arg5 harg5 arg6 harg6 arg7 harg7 hc0 x0 x1 x2 x3).2.1)

end

section
variable (c : Dev nD) (i : grid2.Coords) (arg2 : Memref sig .tc .vmem S2000x128 .f32) (harg2 : arg2.IsWhole) (arg3 : Memref sig .tc .vmem S2000x1 .i32) (harg3 : arg3.IsWhole) (arg4 : Memref sig .tc .vmem S64x128 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S1x64x128 .f32) (harg7 : arg7.IsWhole) (hc0 : ¬cond2_0 i)

set_option maxHeartbeats 4000000 in

noncomputable def kernelRun2_B (x0 : Vec F S2000x128 .f32) (x1 : Vec F S2000x1 .i32) (x2 : Vec F S64x128 .f32) (x3 : Vec F S1x128 .f32) (xo5 : Vec F S1x64x128 .f32) :
    Σ' (L4 : List (View.Piece (Elt F) S2000x128 .f32)), { L5 : List (View.Piece (Elt F) S1x64x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ owns (c : Thread nD τ) arg7 fullShare xo5
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc2__center_kernel i arg2 harg2 arg3 harg3 arg4 harg4 arg5 harg5 arg6 harg6 arg7 harg7) K } := by
  refine ⟨?_, ?_, fun E K => ?run⟩
  case run =>
    simp only [cc2__center_kernel_eq_skeleton]; unfold cc2__center_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1
    obtain rfl := harg4.eq_unread hf2; obtain rfl := harg5.eq_unread hf3
    obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

theorem cover2_B_4 (x0 : Vec F S2000x128 .f32) (x1 : Vec F S2000x1 .i32) (x2 : Vec F S64x128 .f32) (x3 : Vec F S1x128 .f32) (xo5 : Vec F S1x64x128 .f32) (y : S2000x128.Idx) :
    ∃ pc ∈ (kernelRun2_B c i arg2 harg2 arg3 harg3 arg4 harg4 arg5 harg5 arg6 harg6 arg7 harg7 hc0 x0 x1 x2 x3 xo5).1, y ∈ pc.1.set :=
  View.cover_of_tiledL (kernelRun2_B c i arg2 harg2 arg3 harg3 arg4 harg4 arg5 harg5 arg6 harg6 arg7 harg7 hc0 x0 x1 x2 x3 xo5).1 S2000x128.size (by sl_kernel_rfl) y

def out2_B_4 (x0 : Vec F S2000x128 .f32) (x1 : Vec F S2000x1 .i32) (x2 : Vec F S64x128 .f32) (x3 : Vec F S1x128 .f32) (xo5 : Vec F S1x64x128 .f32) : Vec F S2000x128 .f32 :=
  VO2_4.read (Elt F) (VO2_4.writes (Elt F) VO2_4.junk (kernelRun2_B c i arg2 harg2 arg3 harg3 arg4 harg4 arg5 harg5 arg6 harg6 arg7 harg7 hc0 x0 x1 x2 x3 xo5).1)

theorem cover2_B_5 (x0 : Vec F S2000x128 .f32) (x1 : Vec F S2000x1 .i32) (x2 : Vec F S64x128 .f32) (x3 : Vec F S1x128 .f32) (xo5 : Vec F S1x64x128 .f32) (y : S1x64x128.Idx) :
    ∃ pc ∈ (kernelRun2_B c i arg2 harg2 arg3 harg3 arg4 harg4 arg5 harg5 arg6 harg6 arg7 harg7 hc0 x0 x1 x2 x3 xo5).2.1, y ∈ pc.1.set :=
  View.cover_of_tiledL (kernelRun2_B c i arg2 harg2 arg3 harg3 arg4 harg4 arg5 harg5 arg6 harg6 arg7 harg7 hc0 x0 x1 x2 x3 xo5).2.1 S1x64x128.size (by sl_kernel_rfl) y

def out2_B_5 (x0 : Vec F S2000x128 .f32) (x1 : Vec F S2000x1 .i32) (x2 : Vec F S64x128 .f32) (x3 : Vec F S1x128 .f32) (xo5 : Vec F S1x64x128 .f32) : Vec F S1x64x128 .f32 :=
  VO2_5.read (Elt F) (VO2_5.writes (Elt F) VO2_5.junk (kernelRun2_B c i arg2 harg2 arg3 harg3 arg4 harg4 arg5 harg5 arg6 harg6 arg7 harg7 hc0 x0 x1 x2 x3 xo5).2.1)

end

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def outsAt2 (c : Dev nD) : (n : ℕ) → n < cfg2.N → Vec F S2000x128 .f32 × Vec F S1x64x128 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 25 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 25 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_B (c : Dev nD) (t : Fin cfg2.N) (h0 : ¬t.val % 25 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]
theorem Phi_eq2 (c : Dev nD) (t) : (dat2 V c).Φ t = Pipeline.ΦA spec2 c := by
  dsimp only [dat2]
theorem owed_eq2 (c : Dev nD) (t) : (dat2 V c).owed t = 0 := by
  dsimp only [dat2]
theorem q_eq2 (c : Dev nD) (w) : (dat2 V c).q w = fullShare := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_5_B (c : Dev nD) (t : Fin cfg2.N) (h0 : ¬t.val % 25 = 0) (d) :
    (dat2 V c).before 5 t d = (outsAt2 V c (t.val - 1) (Nat.lt_of_le_of_lt (Nat.sub_le _ _) t.isLt)).2 := by
  have hN : t.val < 50 := lt_of_lt_of_eq t.isLt (show cfg2.N = 50 from N_2)
  rw [Dat.before_out_kept _ 5 rfl t (by omega) (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 50 := lt_of_lt_of_eq t.isLt (show cfg2.N = 50 from N_2)
  by_cases h0 : t.val % 25 = 0
  · rw [outsAt2_A V c t h0]
    dsimp only
    unfold out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt2_B V c t h0]
    dsimp only
    simp only [before2_5_B V c t h0]
    unfold out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Region

end Cert.KernelIdeal.H

end
-- ==== Proof.KI.R3.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0
abbrev r3_1 : Rect S5000x1 := Rect.unit (s := S5000x1) ![0, 0] S5000x1.size inb_S5000x1_S5000x1_0_0
abbrev r3_2 : Rect S64x128 := Rect.unit (s := S64x128) ![0, 0] S64x128.size inb_S64x128_S64x128_0_0
abbrev r3_3 : Rect S1x128 := Rect.unit (s := S1x128) ![0, 0] S1x128.size inb_S1x128_S1x128_0_0

def out3_4 (x0 : Vec F S5000x128 .f32) (x1 : Vec F S5000x1 .i32) (x2 : Vec F S64x128 .f32) (x3 : Vec F S1x128 .f32) : Vec F S5000x128 .f32 :=
  View.canon [⟨r3_0, k3_pay1 (View.ld x1 r3_1) (View.ld x2 r3_2) (View.ld x0 r3_0) (View.ld x3 r3_3)⟩]

theorem cover3_4 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .i32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem Phi_eq3 (c : Dev nD) (t) : (dat3 V c).Φ t = Pipeline.ΦA spec3 c := by
  dsimp only [dat3]
theorem owed_eq3 (c : Dev nD) (t) : (dat3 V c).owed t = 0 := by
  dsimp only [dat3]
theorem q_eq3 (c : Dev nD) (w) : (dat3 V c).q w = fullShare := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.H

end
-- ==== Proof.KI.R4.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S128x128 := Rect.unit (s := S128x128) ![0, 0] S128x128.size inb_S128x128_S128x128_0_0
abbrev r4_2 : Rect S5000x1 := Rect.unit (s := S5000x1) ![0, 0] S5000x1.size inb_S5000x1_S5000x1_0_0

def out4_3 (x0 : Vec F S5000x128 .f32) (x1 : Vec F S128x128 .f32) (x2 : Vec F S5000x1 .f32) : Vec F S5000x128 .f32 :=
  View.canon [⟨r4_0, k4_pay1 (View.ld x0 r4_0) (View.ld x1 r4_1) (View.ld x2 r4_2)⟩]

theorem cover4_3 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

set_option maxHeartbeats 1000000 in

theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem Phi_eq4 (c : Dev nD) (t) : (dat4 V c).Φ t = Pipeline.ΦA spec4 c := by dsimp only [dat4]
theorem owed_eq4 (c : Dev nD) (t) : (dat4 V c).owed t = 0 := by dsimp only [dat4]
theorem q_eq4 (c : Dev nD) (w) : (dat4 V c).q w = fullShare := by dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.H

end
-- ==== Proof.KI.R5.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R1

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 25 = 0 :=
  (by decide +kernel : ∀ t : Fin grid5.N, cond5_0 (grid5.coords t) ↔ t.val % 25 = 0)

abbrev ms5_0 (t : Fin cfg5.N) : Memref sig .tc .vmem S2000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2000x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S2000x1 .i32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S2000x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x64x128 .f32 := win5_6.stage (cfg5.slots t 6)
abbrev hs5_6 (t : Fin cfg5.N) : (ms5_6 t).IsWhole := hstage5_6 ((cfg5.slots t 6).cast nbuf5_6)

def outsAt5 (c : Dev nD) : (n : ℕ) → n < cfg5.N → Vec F S2000x128 .f32 × Vec F S1x64x128 .f32
  | 0, hn => (out1_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩), out1_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 25 = 0 then
      (out1_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out1_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      (out1_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, out1_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)

theorem outsAt5_A (c : Dev nD) (t : Fin cfg5.N) (h0 : t.val % 25 = 0) :
    outsAt5 V c t.val t.isLt = (out1_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t), out1_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans rfl

theorem outsAt5_B (c : Dev nD) (t : Fin cfg5.N) (h0 : ¬t.val % 25 = 0) :
    outsAt5 V c t.val t.isLt = (out1_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2, out1_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2
  Φ _ := Pipeline.ΦA spec5 c
  q _ := fullShare
  owed _ := 0

theorem A_eq5 (c : Dev nD) (w : Fin cfg5.W) : (dat5 V c).A w = V c (Pipeline.arrRef spec5 w) := by
  dsimp only [dat5]
theorem Phi_eq5 (c : Dev nD) (t) : (dat5 V c).Φ t = Pipeline.ΦA spec5 c := by dsimp only [dat5]
theorem owed_eq5 (c : Dev nD) (t) : (dat5 V c).owed t = 0 := by dsimp only [dat5]
theorem q_eq5 (c : Dev nD) (w) : (dat5 V c).q w = fullShare := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_6_B (c : Dev nD) (t : Fin cfg5.N) (h0 : ¬t.val % 25 = 0) (d) :
    (dat5 V c).before 6 t d = (outsAt5 V c (t.val - 1) (Nat.lt_of_le_of_lt (Nat.sub_le _ _) t.isLt)).2 := by
  have hN : t.val < 50 := lt_of_lt_of_eq t.isLt (show cfg5.N = 50 from N_5)
  rw [Dat.before_out_kept _ 6 rfl t (by omega) (Bool.eq_false_iff.mpr fun h => by have := (flush5_6 _).mp h; dsimp only at this; omega)
    (fun _ => rfl) (fun _ _ => rfl)]
  dsimp only [dat5]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 4000000 in

theorem cc5_eq : @cc5__combine_reduce_kernel = @cc1__combine_reduce_kernel := rfl

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  have hN : t.val < 50 := lt_of_lt_of_eq t.isLt (show cfg5.N = 50 from N_5)
  by_cases h0 : t.val % 25 = 0
  · rw [outsAt5_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid5.coords t) _ _ _ _ _ _ _ _ _ _ _ _ _ _ ((hcond5_0 t).mpr h0) (iblk5 V c 0 t) (iblk5 V c 1 t) (iblk5 V c 2 t) (iblk5 V c 3 t) (iblk5 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt5_B V c t h0]
    simp only [before5_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid5.coords t) _ _ _ _ _ _ _ _ _ _ _ _ _ _ (fun h => h0 ((hcond5_0 t).mp h)) (iblk5 V c 0 t) (iblk5 V c 1 t) (iblk5 V c 2 t) (iblk5 V c 3 t) (iblk5 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

end Cert.KernelIdeal.H

end
-- ==== Proof.KI.R6.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R2

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 1).val) 0#32)) 0#32) = 1#1

theorem hcond6_0 : ∀ t : Fin cfg6.N, cond6_0 (grid6.coords t) ↔ t.val % 25 = 0 :=
  (by decide +kernel : ∀ t : Fin grid6.N, cond6_0 (grid6.coords t) ↔ t.val % 25 = 0)

abbrev ms6_0 (t : Fin cfg6.N) : Memref sig .tc .vmem S2000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x1 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S64x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S2000x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x64x128 .f32 := win6_5.stage (cfg6.slots t 5)
abbrev hs6_5 (t : Fin cfg6.N) : (ms6_5 t).IsWhole := hstage6_5 ((cfg6.slots t 5).cast nbuf6_5)

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def outsAt6 (c : Dev nD) : (n : ℕ) → n < cfg6.N → Vec F S2000x128 .f32 × Vec F S1x64x128 .f32
  | 0, hn => (out2_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩), out2_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩))
  | n + 1, hn =>
    if h0 : (n + 1) % 25 = 0 then
      (out2_A_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩), out2_A_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩))
    else
      (out2_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2, out2_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (outsAt6 c n (Nat.lt_of_succ_lt hn)).2)

theorem outsAt6_A (c : Dev nD) (t : Fin cfg6.N) (h0 : t.val % 25 = 0) :
    outsAt6 V c t.val t.isLt = (out2_A_4 c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t) (iblk6 V c 3 t), out2_A_5 c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t) (iblk6 V c 3 t)) := by
  obtain ⟨n, hn⟩ := t
  cases n with
  | zero => exact rfl
  | succ n => exact (dif_pos h0).trans rfl

theorem outsAt6_B (c : Dev nD) (t : Fin cfg6.N) (h0 : ¬t.val % 25 = 0) :
    outsAt6 V c t.val t.isLt = (out2_B_4 c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2, out2_B_5 c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (iblk6 V c 3 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
    | ⟨5, _⟩ => (outsAt6 V c t.val t.isLt).2
  Φ _ := Pipeline.ΦA spec6 c
  q _ := fullShare
  owed _ := 0

theorem A_eq6 (c : Dev nD) (w : Fin cfg6.W) : (dat6 V c).A w = V c (Pipeline.arrRef spec6 w) := by
  dsimp only [dat6]
theorem Phi_eq6 (c : Dev nD) (t) : (dat6 V c).Φ t = Pipeline.ΦA spec6 c := by
  dsimp only [dat6]
theorem owed_eq6 (c : Dev nD) (t) : (dat6 V c).owed t = 0 := by
  dsimp only [dat6]
theorem q_eq6 (c : Dev nD) (w) : (dat6 V c).q w = fullShare := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = (outsAt6 V c t.val t.isLt).1 := by dsimp only [dat6]
theorem after6_5 (c : Dev nD) (t : Fin cfg6.N) : (dat6 V c).after 5 t = (outsAt6 V c t.val t.isLt).2 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_5_B (c : Dev nD) (t : Fin cfg6.N) (h0 : ¬t.val % 25 = 0) (d) :
    (dat6 V c).before 5 t d = (outsAt6 V c (t.val - 1) (Nat.lt_of_le_of_lt (Nat.sub_le _ _) t.isLt)).2 := by
  have hN : t.val < 50 := lt_of_lt_of_eq t.isLt (show cfg6.N = 50 from N_6)
  rw [Dat.before_out_kept _ 5 rfl t (by omega) (Bool.eq_false_iff.mpr fun h => by have := (flush6_5 _).mp h; dsimp only at this; omega)
    (fun _ => rfl) (fun _ _ => rfl)]
  dsimp only [dat6]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t))

set_option maxHeartbeats 4000000 in

theorem cc6_eq : @cc6__center_kernel = @cc2__center_kernel := rfl

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6_eq]
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  have hN : t.val < 50 := lt_of_lt_of_eq t.isLt (show cfg6.N = 50 from N_6)
  by_cases h0 : t.val % 25 = 0
  · rw [outsAt6_A V c t h0]
    dsimp only
    unfold out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid6.coords t) _ _ _ _ _ _ _ _ _ _ _ _ ((hcond6_0 t).mpr h0) (iblk6 V c 0 t) (iblk6 V c 1 t) (iblk6 V c 2 t) (iblk6 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt6_B V c t h0]
    dsimp only
    simp only [before6_5_B V c t h0]
    unfold out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid6.coords t) _ _ _ _ _ _ _ _ _ _ _ _ (fun h => h0 ((hcond6_0 t).mp h)) (iblk6 V c 0 t) (iblk6 V c 1 t) (iblk6 V c 2 t) (iblk6 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

end Region

end Cert.KernelIdeal.H

end
-- ==== Proof.KI.R7.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R3

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out3_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem Phi_eq7 (c : Dev nD) (t) : (dat7 V c).Φ t = Pipeline.ΦA spec7 c := by
  dsimp only [dat7]
theorem owed_eq7 (c : Dev nD) (t) : (dat7 V c).owed t = 0 := by
  dsimp only [dat7]
theorem q_eq7 (c : Dev nD) (w) : (dat7 V c).q w = fullShare := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out3_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem cc7_eq : @cc7__finalize_kernel = @cc3__finalize_kernel := rfl

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq]
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.H

end
-- ==== Proof.KI.R8.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R4

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out4_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem Phi_eq8 (c : Dev nD) (t) : (dat8 V c).Φ t = Pipeline.ΦA spec8 c := by dsimp only [dat8]
theorem owed_eq8 (c : Dev nD) (t) : (dat8 V c).owed t = 0 := by dsimp only [dat8]
theorem q_eq8 (c : Dev nD) (w) : (dat8 V c).q w = fullShare := by dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out4_3 (iblk8 V c 0 t) (iblk8 V c 1 t) (iblk8 V c 2 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem cc8_eq : @cc8__linear_kernel = @cc4__linear_kernel := rfl

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel4 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.H

end
-- ==== Proof.KI.R9.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R1

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 1).val) 0#32)) 0#32) = 1#1

theorem hcond9_0 : ∀ t : Fin cfg9.N, cond9_0 (grid9.coords t) ↔ t.val % 25 = 0 :=
  (by decide +kernel : ∀ t : Fin grid9.N, cond9_0 (grid9.coords t) ↔ t.val % 25 = 0)

abbrev ms9_0 (t : Fin cfg9.N) : Memref sig .tc .vmem S2000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S2000x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S2000x1 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S2000x1 .i32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S2000x128 .f32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S1x64x128 .f32 := win9_6.stage (cfg9.slots t 6)
abbrev hs9_6 (t : Fin cfg9.N) : (ms9_6 t).IsWhole := hstage9_6 ((cfg9.slots t 6).cast nbuf9_6)

def outsAt9 (c : Dev nD) : (n : ℕ) → n < cfg9.N → Vec F S2000x128 .f32 × Vec F S1x64x128 .f32
  | 0, hn => (out1_A_5 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) ((hcond9_0 ⟨0, hn⟩).mpr (Nat.zero_mod _)) (iblk9 V c 0 ⟨0, hn⟩) (iblk9 V c 1 ⟨0, hn⟩) (iblk9 V c 2 ⟨0, hn⟩) (iblk9 V c 3 ⟨0, hn⟩) (iblk9 V c 4 ⟨0, hn⟩), out1_A_6 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) ((hcond9_0 ⟨0, hn⟩).mpr (Nat.zero_mod _)) (iblk9 V c 0 ⟨0, hn⟩) (iblk9 V c 1 ⟨0, hn⟩) (iblk9 V c 2 ⟨0, hn⟩) (iblk9 V c 3 ⟨0, hn⟩) (iblk9 V c 4 ⟨0, hn⟩))
  | n + 1, hn =>
    if h0 : (n + 1) % 25 = 0 then
      (out1_A_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) ((hcond9_0 ⟨n + 1, hn⟩).mpr h0) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩), out1_A_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) ((hcond9_0 ⟨n + 1, hn⟩).mpr h0) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩))
    else
      (out1_B_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (outsAt9 c n (Nat.lt_of_succ_lt hn)).2, out1_B_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) (fun h => h0 ((hcond9_0 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (outsAt9 c n (Nat.lt_of_succ_lt hn)).2)

theorem outsAt9_A (c : Dev nD) (t : Fin cfg9.N) (h0 : t.val % 25 = 0) :
    outsAt9 V c t.val t.isLt = (out1_A_5 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t) (iblk9 V c 4 t), out1_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t) (iblk9 V c 4 t)) := by
  obtain ⟨n, hn⟩ := t
  cases n with
  | zero => exact rfl
  | succ n => exact (dif_pos h0).trans rfl

theorem outsAt9_B (c : Dev nD) (t : Fin cfg9.N) (h0 : ¬t.val % 25 = 0) :
    outsAt9 V c t.val t.isLt = (out1_B_5 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (iblk9 V c 4 t) (outsAt9 V c (t.val - 1) (Nat.lt_of_le_of_lt (Nat.sub_le _ _) t.isLt)).2, out1_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (iblk9 V c 4 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => (outsAt9 V c t.val t.isLt).1
    | ⟨6, _⟩ => (outsAt9 V c t.val t.isLt).2
  Φ _ := Pipeline.ΦA spec9 c
  q _ := fullShare
  owed _ := 0

theorem A_eq9 (c : Dev nD) (w : Fin cfg9.W) : (dat9 V c).A w = V c (Pipeline.arrRef spec9 w) := by
  dsimp only [dat9]
theorem Phi_eq9 (c : Dev nD) (t) : (dat9 V c).Φ t = Pipeline.ΦA spec9 c := by dsimp only [dat9]
theorem owed_eq9 (c : Dev nD) (t) : (dat9 V c).owed t = 0 := by dsimp only [dat9]
theorem q_eq9 (c : Dev nD) (w) : (dat9 V c).q w = fullShare := by dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = (outsAt9 V c t.val t.isLt).1 := by dsimp only [dat9]
theorem after9_6 (c : Dev nD) (t : Fin cfg9.N) : (dat9 V c).after 6 t = (outsAt9 V c t.val t.isLt).2 := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_6_B (c : Dev nD) (t : Fin cfg9.N) (h0 : ¬t.val % 25 = 0) (d) :
    (dat9 V c).before 6 t d = (outsAt9 V c (t.val - 1) (Nat.lt_of_le_of_lt (Nat.sub_le _ _) t.isLt)).2 := by
  have hN : t.val < 50 := lt_of_lt_of_eq t.isLt (show cfg9.N = 50 from N_9)
  rw [Dat.before_out_kept _ 6 rfl t (by omega) (Bool.eq_false_iff.mpr fun h => by have := (flush9_6 _).mp h; dsimp only at this; omega)
    (fun _ => rfl) (fun _ _ => rfl)]
  dsimp only [dat9]

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

set_option maxHeartbeats 4000000 in

theorem cc9_eq : @cc9__combine_reduce_kernel = @cc1__combine_reduce_kernel := rfl

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [cc9_eq]
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  have hN : t.val < 50 := lt_of_lt_of_eq t.isLt (show cfg9.N = 50 from N_9)
  by_cases h0 : t.val % 25 = 0
  · rw [outsAt9_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid9.coords t) _ _ _ _ _ _ _ _ _ _ _ _ _ _ ((hcond9_0 t).mpr h0) (iblk9 V c 0 t) (iblk9 V c 1 t) (iblk9 V c 2 t) (iblk9 V c 3 t) (iblk9 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt9_B V c t h0]
    simp only [before9_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid9.coords t) _ _ _ _ _ _ _ _ _ _ _ _ _ _ (fun h => h0 ((hcond9_0 t).mp h)) (iblk9 V c 0 t) (iblk9 V c 1 t) (iblk9 V c 2 t) (iblk9 V c 3 t) (iblk9 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; exact View.read_writes_of_cover _ _ _ _ _ (cover1_B_6 c _ _ _ _ _ _ _ _ _ _ _ _ _ _ _ _ _ _ _ _ _ _)

theorem body_obligation9 (c : Dev nD) : BodyObligation (dat9 (F := F) V c) (defs₀ (F := F)) Variants.none () Set.univ := fun t => by
  rw [bigSep_W9, bigSep_W9]
  exact sound_body9 V c t

end Cert.KernelIdeal.H

end
-- ==== Proof.KI.R10.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R2

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond10_0 (i : grid10.Coords) : Prop := (Scalar.cmpi .ne (Scalar.extui (Scalar.cmpi .eq (BitVec.ofNat 32 (i 1).val) 0#32)) 0#32) = 1#1

theorem hcond10_0 : ∀ t : Fin cfg10.N, cond10_0 (grid10.coords t) ↔ t.val % 25 = 0 :=
  (by decide +kernel : ∀ t : Fin grid10.N, cond10_0 (grid10.coords t) ↔ t.val % 25 = 0)

abbrev ms10_0 (t : Fin cfg10.N) : Memref sig .tc .vmem S2000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S2000x1 .i32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S64x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S2000x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x64x128 .f32 := win10_5.stage (cfg10.slots t 5)
abbrev hs10_5 (t : Fin cfg10.N) : (ms10_5 t).IsWhole := hstage10_5 ((cfg10.slots t 5).cast nbuf10_5)

section Region
variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def outsAt10 (c : Dev nD) : (n : ℕ) → n < cfg10.N → Vec F S2000x128 .f32 × Vec F S1x64x128 .f32
  | 0, hn => (out2_A_4 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩), out2_A_5 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) ((hcond10_0 ⟨0, hn⟩).mpr (Nat.zero_mod _)) (iblk10 V c 0 ⟨0, hn⟩) (iblk10 V c 1 ⟨0, hn⟩) (iblk10 V c 2 ⟨0, hn⟩) (iblk10 V c 3 ⟨0, hn⟩))
  | n + 1, hn =>
    if h0 : (n + 1) % 25 = 0 then
      (out2_A_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩), out2_A_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) ((hcond10_0 ⟨n + 1, hn⟩).mpr h0) (iblk10 V c 0 ⟨n + 1, hn⟩) (iblk10 V c 1 ⟨n + 1, hn⟩) (iblk10 V c 2 ⟨n + 1, hn⟩) (iblk10 V c 3 ⟨n + 1, hn⟩))
    else
      (out2_B_4 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2, out2_B_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => h0 ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (outsAt10 c n (Nat.lt_of_succ_lt hn)).2)

theorem outsAt10_A (c : Dev nD) (t : Fin cfg10.N) (h0 : t.val % 25 = 0) :
    outsAt10 V c t.val t.isLt = (out2_A_4 c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (iblk10 V c 0 t) (iblk10 V c 1 t) (iblk10 V c 2 t) (iblk10 V c 3 t), out2_A_5 c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (iblk10 V c 0 t) (iblk10 V c 1 t) (iblk10 V c 2 t) (iblk10 V c 3 t)) := by
  obtain ⟨n, hn⟩ := t
  cases n with
  | zero => exact rfl
  | succ n => exact (dif_pos h0).trans rfl

theorem outsAt10_B (c : Dev nD) (t : Fin cfg10.N) (h0 : ¬t.val % 25 = 0) :
    outsAt10 V c t.val t.isLt = (out2_B_4 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (iblk10 V c 0 t) (iblk10 V c 1 t) (iblk10 V c 2 t) (iblk10 V c 3 t) (outsAt10 V c (t.val - 1) (Nat.lt_of_le_of_lt (Nat.sub_le _ _) t.isLt)).2, out2_B_5 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (iblk10 V c 0 t) (iblk10 V c 1 t) (iblk10 V c 2 t) (iblk10 V c 3 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => (outsAt10 V c t.val t.isLt).1
    | ⟨5, _⟩ => (outsAt10 V c t.val t.isLt).2
  Φ _ := Pipeline.ΦA spec10 c
  q _ := fullShare
  owed _ := 0

theorem A_eq10 (c : Dev nD) (w : Fin cfg10.W) : (dat10 V c).A w = V c (Pipeline.arrRef spec10 w) := by
  dsimp only [dat10]
theorem Phi_eq10 (c : Dev nD) (t) : (dat10 V c).Φ t = Pipeline.ΦA spec10 c := by
  dsimp only [dat10]
theorem owed_eq10 (c : Dev nD) (t) : (dat10 V c).owed t = 0 := by
  dsimp only [dat10]
theorem q_eq10 (c : Dev nD) (w) : (dat10 V c).q w = fullShare := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = (outsAt10 V c t.val t.isLt).1 := by dsimp only [dat10]
theorem after10_5 (c : Dev nD) (t : Fin cfg10.N) : (dat10 V c).after 5 t = (outsAt10 V c t.val t.isLt).2 := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl
theorem before10_2 (c : Dev nD) (t : Fin cfg10.N) (d) : (dat10 V c).before 2 t d = iblk10 V c 2 t :=
  ((dat10 V c).before_in_eq_fetched 2 rfl (fun _ => rfl) (fun _ _ _ => rfl) (fun _ => rfl) t d).trans rfl
theorem before10_3 (c : Dev nD) (t : Fin cfg10.N) (d) : (dat10 V c).before 3 t d = iblk10 V c 3 t :=
  ((dat10 V c).before_in_eq_fetched 3 rfl (fun _ => rfl) (fun _ _ _ => rfl) (fun _ => rfl) t d).trans rfl
theorem before10_5_B (c : Dev nD) (t : Fin cfg10.N) (h0 : ¬t.val % 25 = 0) (d) :
    (dat10 V c).before 5 t d = (outsAt10 V c (t.val - 1) (Nat.lt_of_le_of_lt (Nat.sub_le _ _) t.isLt)).2 := by
  have hN : t.val < 50 := lt_of_lt_of_eq t.isLt (show cfg10.N = 50 from N_10)
  rw [Dat.before_out_kept _ 5 rfl t (by omega) (Bool.eq_false_iff.mpr fun h => by have := (flush10_5 _).mp h; dsimp only at this; omega)
    (fun _ => rfl) (fun _ _ => rfl)]
  dsimp only [dat10]

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t))

set_option maxHeartbeats 4000000 in

theorem cc10_eq : @cc10__center_kernel = @cc2__center_kernel := rfl

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [cc10_eq]
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4, after10_5]
  have hN : t.val < 50 := lt_of_lt_of_eq t.isLt (show cfg10.N = 50 from N_10)
  by_cases h0 : t.val % 25 = 0
  · rw [outsAt10_A V c t h0]
    dsimp only
    unfold out2_A_4 out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid10.coords t) _ _ _ _ _ _ _ _ _ _ _ _ ((hcond10_0 t).mpr h0) (iblk10 V c 0 t) (iblk10 V c 1 t) (iblk10 V c 2 t) (iblk10 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt10_B V c t h0]
    dsimp only
    simp only [before10_5_B V c t h0]
    unfold out2_B_4 out2_B_5
    iintro ⟨HΦ, Ho, ⟨%d0, H0⟩, ⟨%d1, H1⟩, ⟨%d2, H2⟩, ⟨%d3, H3⟩, ⟨%d4, H4⟩, ⟨%d5, H5⟩⟩
    iapply ((kernelRun2_B c (grid10.coords t) _ _ _ _ _ _ _ _ _ _ _ _ (fun h => h0 ((hcond10_0 t).mp h)) (iblk10 V c 0 t) (iblk10 V c 1 t) (iblk10 V c 2 t) (iblk10 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem body_obligation10 (c : Dev nD) : BodyObligation (dat10 (F := F) V c) (defs₀ (F := F)) Variants.none () Set.univ := fun t => by
  rw [bigSep_W10, bigSep_W10]
  exact sound_body10 V c t

end Region

end Cert.KernelIdeal.H

end
-- ==== Proof.KI.R11.lean ====
import proofs.«402146_j32049045962863_2_alg».proof.Proof.Gen.KernelIdeal.Launch
import proofs.«402146_j32049045962863_2_alg».proof.Proof.Gen.KernelIdeal.Skeleton
import proofs.«402146_j32049045962863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«402146_j32049045962863_2_alg».proof.Proof.KI.R3

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

set_option maxHeartbeats 1000000 in

theorem sound_kernel11 (c : Dev nD) (E : Set ℕ) (i : grid11.Coords) (arg1 : Memref sig .tc .vmem S5000x128 .f32) (harg1 : arg1.IsWhole) (arg2 : Memref sig .tc .vmem S5000x1 .i32) (harg2 : arg2.IsWhole) (arg3 : Memref sig .tc .vmem S64x128 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x1 .i32) (x2 : Vec F S64x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc11__finalize_kernel i arg1 harg1 arg2 harg2 arg3 harg3 arg4 harg4 arg5 harg5) K := by
  simp only [cc11__finalize_kernel_eq_skeleton]; unfold cc11__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out3_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem Phi_eq11 (c : Dev nD) (t) : (dat11 V c).Φ t = Pipeline.ΦA spec11 c := by
  dsimp only [dat11]
theorem owed_eq11 (c : Dev nD) (t) : (dat11 V c).owed t = 0 := by
  dsimp only [dat11]
theorem q_eq11 (c : Dev nD) (w) : (dat11 V c).q w = fullShare := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = out3_4 (iblk11 V c 0 t) (iblk11 V c 1 t) (iblk11 V c 2 t) (iblk11 V c 3 t) := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl
theorem before11_2 (c : Dev nD) (t : Fin cfg11.N) (d) : (dat11 V c).before 2 t d = iblk11 V c 2 t :=
  ((dat11 V c).before_in_eq_fetched 2 rfl (fun _ => rfl) (fun _ _ _ => rfl) (fun _ => rfl) t d).trans rfl
theorem before11_3 (c : Dev nD) (t : Fin cfg11.N) (d) : (dat11 V c).before 3 t d = iblk11 V c 3 t :=
  ((dat11 V c).before_in_eq_fetched 3 rfl (fun _ => rfl) (fun _ _ _ => rfl) (fun _ => rfl) t d).trans rfl
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation11 (c : Dev nD) : BodyObligation (dat11 (F := F) V c) (defs₀ (F := F)) Variants.none () Set.univ := fun t => by
  rw [bigSep_W11, bigSep_W11]
  exact sound_body11 V c t

end Cert.KernelIdeal.H

end
-- ==== Proof.KI.Pdats.lean ====
import proofs.«402146_j32049045962863_2_alg».proof.Proof.Gen.KernelIdeal.Regions
import proofs.«402146_j32049045962863_2_alg».proof.Proof.KI.R0
import proofs.«402146_j32049045962863_2_alg».proof.Proof.KI.R1
import proofs.«402146_j32049045962863_2_alg».proof.Proof.KI.R2
import proofs.«402146_j32049045962863_2_alg».proof.Proof.KI.R3
import proofs.«402146_j32049045962863_2_alg».proof.Proof.KI.R4
import proofs.«402146_j32049045962863_2_alg».proof.Proof.KI.R5
import proofs.«402146_j32049045962863_2_alg».proof.Proof.KI.R6
import proofs.«402146_j32049045962863_2_alg».proof.Proof.KI.R7
import proofs.«402146_j32049045962863_2_alg».proof.Proof.KI.R8
import proofs.«402146_j32049045962863_2_alg».proof.Proof.KI.R9
import proofs.«402146_j32049045962863_2_alg».proof.Proof.KI.R10
import proofs.«402146_j32049045962863_2_alg».proof.Proof.KI.R11

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

variable (m : (ℓ : Loc nD τ sig) → Buf (Elt F) ℓ)

abbrev VR1 : (c : Dev nD) → (b : Ref sig .tc) → Buf (Elt F) ((c : Thread nD τ).loc b) := fun c b => V1 m c b

abbrev VR2 (outs : Outs (F := F)) : (c : Dev nD) → (b : Ref sig .tc) → Buf (Elt F) ((c : Thread nD τ).loc b) := fun c b => V2 m outs c b

abbrev VR3 (outs : Outs (F := F)) : (c : Dev nD) → (b : Ref sig .tc) → Buf (Elt F) ((c : Thread nD τ).loc b) := fun c b => V3 m outs c b

abbrev VR4 (outs : Outs (F := F)) : (c : Dev nD) → (b : Ref sig .tc) → Buf (Elt F) ((c : Thread nD τ).loc b) := fun c b => V4 m outs c b

abbrev VR5 (outs : Outs (F := F)) : (c : Dev nD) → (b : Ref sig .tc) → Buf (Elt F) ((c : Thread nD τ).loc b) := fun c b => V5 m outs c b

abbrev VR6 (outs : Outs (F := F)) : (c : Dev nD) → (b : Ref sig .tc) → Buf (Elt F) ((c : Thread nD τ).loc b) := fun c b => V6 m outs c b

abbrev VR7 (outs : Outs (F := F)) : (c : Dev nD) → (b : Ref sig .tc) → Buf (Elt F) ((c : Thread nD τ).loc b) := fun c b => V7 m outs c b

abbrev VR8 (outs : Outs (F := F)) : (c : Dev nD) → (b : Ref sig .tc) → Buf (Elt F) ((c : Thread nD τ).loc b) := fun c b => V8 m outs c b

abbrev VR9 (outs : Outs (F := F)) : (c : Dev nD) → (b : Ref sig .tc) → Buf (Elt F) ((c : Thread nD τ).loc b) := fun c b => V9 m outs c b

abbrev VR10 (outs : Outs (F := F)) : (c : Dev nD) → (b : Ref sig .tc) → Buf (Elt F) ((c : Thread nD τ).loc b) := fun c b => V10 m outs c b

abbrev VR11 (outs : Outs (F := F)) : (c : Dev nD) → (b : Ref sig .tc) → Buf (Elt F) ((c : Thread nD τ).loc b) := fun c b => V11 m outs c b

abbrev VR12 (outs : Outs (F := F)) : (c : Dev nD) → (b : Ref sig .tc) → Buf (Elt F) ((c : Thread nD τ).loc b) := fun c b => V12 m outs c b

abbrev VR13 (outs : Outs (F := F)) : (c : Dev nD) → (b : Ref sig .tc) → Buf (Elt F) ((c : Thread nD τ).loc b) := fun c b => V13 m outs c b

abbrev VR14 (outs : Outs (F := F)) : (c : Dev nD) → (b : Ref sig .tc) → Buf (Elt F) ((c : Thread nD τ).loc b) := fun c b => V14 m outs c b

abbrev VR15 (outs : Outs (F := F)) : (c : Dev nD) → (b : Ref sig .tc) → Buf (Elt F) ((c : Thread nD τ).loc b) := fun c b => V15 m outs c b

abbrev VR16 (outs : Outs (F := F)) : (c : Dev nD) → (b : Ref sig .tc) → Buf (Elt F) ((c : Thread nD τ).loc b) := fun c b => V16 m outs c b

abbrev VR17 (outs : Outs (F := F)) : (c : Dev nD) → (b : Ref sig .tc) → Buf (Elt F) ((c : Thread nD τ).loc b) := fun c b => V17 m outs c b

abbrev VR18 (outs : Outs (F := F)) : (c : Dev nD) → (b : Ref sig .tc) → Buf (Elt F) ((c : Thread nD τ).loc b) := fun c b => V18 m outs c b

abbrev VR19 (outs : Outs (F := F)) : (c : Dev nD) → (b : Ref sig .tc) → Buf (Elt F) ((c : Thread nD τ).loc b) := fun c b => V19 m outs c b

abbrev VR20 (outs : Outs (F := F)) : (c : Dev nD) → (b : Ref sig .tc) → Buf (Elt F) ((c : Thread nD τ).loc b) := fun c b => V20 m outs c b

abbrev VR21 (outs : Outs (F := F)) : (c : Dev nD) → (b : Ref sig .tc) → Buf (Elt F) ((c : Thread nD τ).loc b) := fun c b => V21 m outs c b

abbrev VR22 (outs : Outs (F := F)) : (c : Dev nD) → (b : Ref sig .tc) → Buf (Elt F) ((c : Thread nD τ).loc b) := fun c b => V22 m outs c b

abbrev VR23 (outs : Outs (F := F)) : (c : Dev nD) → (b : Ref sig .tc) → Buf (Elt F) ((c : Thread nD τ).loc b) := fun c b => V23 m outs c b

abbrev VR24 (outs : Outs (F := F)) : (c : Dev nD) → (b : Ref sig .tc) → Buf (Elt F) ((c : Thread nD τ).loc b) := fun c b => V24 m outs c b

structure OutsOk (outs : Outs (F := F)) : Prop where
  o0 : ∀ c, outs 2 main_v27 c = (dat0 (VR1 m) c).arrAt 3 cfg0.N
  o1a : ∀ c, outs 4 main_v38_0 c = (dat1 (VR3 m outs) c).arrAt 5 cfg1.N
  o1b : ∀ c, outs 4 main_v38_1 c = (dat1 (VR3 m outs) c).arrAt 6 cfg1.N
  o2a : ∀ c, outs 6 main_v45_0 c = (dat2 (VR5 m outs) c).arrAt 4 cfg2.N
  o2b : ∀ c, outs 6 main_v45_1 c = (dat2 (VR5 m outs) c).arrAt 5 cfg2.N
  o3 : ∀ c, outs 8 main_v60 c = (dat3 (VR7 m outs) c).arrAt 4 cfg3.N
  o4 : ∀ c, outs 10 main_v66 c = (dat4 (VR9 m outs) c).arrAt 3 cfg4.N
  o5a : ∀ c, outs 12 main_v77_0 c = (dat5 (VR11 m outs) c).arrAt 5 cfg5.N
  o5b : ∀ c, outs 12 main_v77_1 c = (dat5 (VR11 m outs) c).arrAt 6 cfg5.N
  o6a : ∀ c, outs 14 main_v84_0 c = (dat6 (VR13 m outs) c).arrAt 4 cfg6.N
  o6b : ∀ c, outs 14 main_v84_1 c = (dat6 (VR13 m outs) c).arrAt 5 cfg6.N
  o7 : ∀ c, outs 16 main_v99 c = (dat7 (VR15 m outs) c).arrAt 4 cfg7.N
  o8 : ∀ c, outs 18 main_v105 c = (dat8 (VR17 m outs) c).arrAt 3 cfg8.N
  o9a : ∀ c, outs 20 main_v116_0 c = (dat9 (VR19 m outs) c).arrAt 5 cfg9.N
  o9b : ∀ c, outs 20 main_v116_1 c = (dat9 (VR19 m outs) c).arrAt 6 cfg9.N
  o10a : ∀ c, outs 22 main_v123_0 c = (dat10 (VR21 m outs) c).arrAt 4 cfg10.N
  o10b : ∀ c, outs 22 main_v123_1 c = (dat10 (VR21 m outs) c).arrAt 5 cfg10.N
  o11 : ∀ c, outs 24 main_v138 c = (dat11 (VR23 m outs) c).arrAt 4 cfg11.N

def pdats (outs : Outs (F := F)) : (p : Fin 12) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m outs) c
  | ⟨2, _⟩ => fun c => dat2 (VR5 m outs) c
  | ⟨3, _⟩ => fun c => dat3 (VR7 m outs) c
  | ⟨4, _⟩ => fun c => dat4 (VR9 m outs) c
  | ⟨5, _⟩ => fun c => dat5 (VR11 m outs) c
  | ⟨6, _⟩ => fun c => dat6 (VR13 m outs) c
  | ⟨7, _⟩ => fun c => dat7 (VR15 m outs) c
  | ⟨8, _⟩ => fun c => dat8 (VR17 m outs) c
  | ⟨9, _⟩ => fun c => dat9 (VR19 m outs) c
  | ⟨10, _⟩ => fun c => dat10 (VR21 m outs) c
  | ⟨11, _⟩ => fun c => dat11 (VR23 m outs) c

end Cert.KernelIdeal.H

end
-- ==== Proof.KI.Outs.lean ====
import proofs.«402146_j32049045962863_2_alg».proof.Proof.KI.Pdats

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem V2_agree {o o' : Outs (F := F)} (h : ∀ K, K ≤ 2 → o K = o' K) (c : Dev nD) : V2 m o c = V2 m o' c := by
  unfold V2; rw [h 2 (Nat.le_refl _)]
theorem V3_agree {o o' : Outs (F := F)} (h : ∀ K, K ≤ 3 → o K = o' K) (c : Dev nD) : V3 m o c = V3 m o' c := by
  unfold V3; rw [V2_agree m (fun K hK => h K (by omega)) c]
theorem V4_agree {o o' : Outs (F := F)} (h : ∀ K, K ≤ 4 → o K = o' K) (c : Dev nD) : V4 m o c = V4 m o' c := by
  unfold V4; rw [h 4 (Nat.le_refl _), V3_agree m (fun K hK => h K (by omega)) c]
theorem V5_agree {o o' : Outs (F := F)} (h : ∀ K, K ≤ 5 → o K = o' K) (c : Dev nD) : V5 m o c = V5 m o' c := by
  unfold V5; rw [V4_agree m (fun K hK => h K (by omega)) c]
theorem V6_agree {o o' : Outs (F := F)} (h : ∀ K, K ≤ 6 → o K = o' K) (c : Dev nD) : V6 m o c = V6 m o' c := by
  unfold V6; rw [h 6 (Nat.le_refl _), V5_agree m (fun K hK => h K (by omega)) c]
theorem V7_agree {o o' : Outs (F := F)} (h : ∀ K, K ≤ 7 → o K = o' K) (c : Dev nD) : V7 m o c = V7 m o' c := by
  unfold V7; rw [V6_agree m (fun K hK => h K (by omega)) c]
theorem V8_agree {o o' : Outs (F := F)} (h : ∀ K, K ≤ 8 → o K = o' K) (c : Dev nD) : V8 m o c = V8 m o' c := by
  unfold V8; rw [h 8 (Nat.le_refl _), V7_agree m (fun K hK => h K (by omega)) c]
theorem V9_agree {o o' : Outs (F := F)} (h : ∀ K, K ≤ 9 → o K = o' K) (c : Dev nD) : V9 m o c = V9 m o' c := by
  unfold V9; rw [V8_agree m (fun K hK => h K (by omega)) c]
theorem V10_agree {o o' : Outs (F := F)} (h : ∀ K, K ≤ 10 → o K = o' K) (c : Dev nD) : V10 m o c = V10 m o' c := by
  unfold V10; rw [h 10 (Nat.le_refl _), V9_agree m (fun K hK => h K (by omega)) c]
theorem V11_agree {o o' : Outs (F := F)} (h : ∀ K, K ≤ 11 → o K = o' K) (c : Dev nD) : V11 m o c = V11 m o' c := by
  unfold V11; rw [V10_agree m (fun K hK => h K (by omega)) c]
theorem V12_agree {o o' : Outs (F := F)} (h : ∀ K, K ≤ 12 → o K = o' K) (c : Dev nD) : V12 m o c = V12 m o' c := by
  unfold V12; rw [h 12 (Nat.le_refl _), V11_agree m (fun K hK => h K (by omega)) c]
theorem V13_agree {o o' : Outs (F := F)} (h : ∀ K, K ≤ 13 → o K = o' K) (c : Dev nD) : V13 m o c = V13 m o' c := by
  unfold V13; rw [V12_agree m (fun K hK => h K (by omega)) c]
theorem V14_agree {o o' : Outs (F := F)} (h : ∀ K, K ≤ 14 → o K = o' K) (c : Dev nD) : V14 m o c = V14 m o' c := by
  unfold V14; rw [h 14 (Nat.le_refl _), V13_agree m (fun K hK => h K (by omega)) c]
theorem V15_agree {o o' : Outs (F := F)} (h : ∀ K, K ≤ 15 → o K = o' K) (c : Dev nD) : V15 m o c = V15 m o' c := by
  unfold V15; rw [V14_agree m (fun K hK => h K (by omega)) c]
theorem V16_agree {o o' : Outs (F := F)} (h : ∀ K, K ≤ 16 → o K = o' K) (c : Dev nD) : V16 m o c = V16 m o' c := by
  unfold V16; rw [h 16 (Nat.le_refl _), V15_agree m (fun K hK => h K (by omega)) c]
theorem V17_agree {o o' : Outs (F := F)} (h : ∀ K, K ≤ 17 → o K = o' K) (c : Dev nD) : V17 m o c = V17 m o' c := by
  unfold V17; rw [V16_agree m (fun K hK => h K (by omega)) c]
theorem V18_agree {o o' : Outs (F := F)} (h : ∀ K, K ≤ 18 → o K = o' K) (c : Dev nD) : V18 m o c = V18 m o' c := by
  unfold V18; rw [h 18 (Nat.le_refl _), V17_agree m (fun K hK => h K (by omega)) c]
theorem V19_agree {o o' : Outs (F := F)} (h : ∀ K, K ≤ 19 → o K = o' K) (c : Dev nD) : V19 m o c = V19 m o' c := by
  unfold V19; rw [V18_agree m (fun K hK => h K (by omega)) c]
theorem V20_agree {o o' : Outs (F := F)} (h : ∀ K, K ≤ 20 → o K = o' K) (c : Dev nD) : V20 m o c = V20 m o' c := by
  unfold V20; rw [h 20 (Nat.le_refl _), V19_agree m (fun K hK => h K (by omega)) c]
theorem V21_agree {o o' : Outs (F := F)} (h : ∀ K, K ≤ 21 → o K = o' K) (c : Dev nD) : V21 m o c = V21 m o' c := by
  unfold V21; rw [V20_agree m (fun K hK => h K (by omega)) c]
theorem V22_agree {o o' : Outs (F := F)} (h : ∀ K, K ≤ 22 → o K = o' K) (c : Dev nD) : V22 m o c = V22 m o' c := by
  unfold V22; rw [h 22 (Nat.le_refl _), V21_agree m (fun K hK => h K (by omega)) c]
theorem V23_agree {o o' : Outs (F := F)} (h : ∀ K, K ≤ 23 → o K = o' K) (c : Dev nD) : V23 m o c = V23 m o' c := by
  unfold V23; rw [V22_agree m (fun K hK => h K (by omega)) c]
theorem V24_agree {o o' : Outs (F := F)} (h : ∀ K, K ≤ 24 → o K = o' K) (c : Dev nD) : V24 m o c = V24 m o' c := by
  unfold V24; rw [h 24 (Nat.le_refl _), V23_agree m (fun K hK => h K (by omega)) c]
theorem VR3_agree {o o' : Outs (F := F)} (h : ∀ K, K ≤ 3 → o K = o' K) : VR3 m o = VR3 m o' :=
  funext fun c => funext fun b => congrFun (V3_agree m h c) _
theorem VR5_agree {o o' : Outs (F := F)} (h : ∀ K, K ≤ 5 → o K = o' K) : VR5 m o = VR5 m o' :=
  funext fun c => funext fun b => congrFun (V5_agree m h c) _
theorem VR7_agree {o o' : Outs (F := F)} (h : ∀ K, K ≤ 7 → o K = o' K) : VR7 m o = VR7 m o' :=
  funext fun c => funext fun b => congrFun (V7_agree m h c) _
theorem VR9_agree {o o' : Outs (F := F)} (h : ∀ K, K ≤ 9 → o K = o' K) : VR9 m o = VR9 m o' :=
  funext fun c => funext fun b => congrFun (V9_agree m h c) _
theorem VR11_agree {o o' : Outs (F := F)} (h : ∀ K, K ≤ 11 → o K = o' K) : VR11 m o = VR11 m o' :=
  funext fun c => funext fun b => congrFun (V11_agree m h c) _
theorem VR13_agree {o o' : Outs (F := F)} (h : ∀ K, K ≤ 13 → o K = o' K) : VR13 m o = VR13 m o' :=
  funext fun c => funext fun b => congrFun (V13_agree m h c) _
theorem VR15_agree {o o' : Outs (F := F)} (h : ∀ K, K ≤ 15 → o K = o' K) : VR15 m o = VR15 m o' :=
  funext fun c => funext fun b => congrFun (V15_agree m h c) _
theorem VR17_agree {o o' : Outs (F := F)} (h : ∀ K, K ≤ 17 → o K = o' K) : VR17 m o = VR17 m o' :=
  funext fun c => funext fun b => congrFun (V17_agree m h c) _
theorem VR19_agree {o o' : Outs (F := F)} (h : ∀ K, K ≤ 19 → o K = o' K) : VR19 m o = VR19 m o' :=
  funext fun c => funext fun b => congrFun (V19_agree m h c) _
theorem VR21_agree {o o' : Outs (F := F)} (h : ∀ K, K ≤ 21 → o K = o' K) : VR21 m o = VR21 m o' :=
  funext fun c => funext fun b => congrFun (V21_agree m h c) _
theorem VR23_agree {o o' : Outs (F := F)} (h : ∀ K, K ≤ 23 → o K = o' K) : VR23 m o = VR23 m o' :=
  funext fun c => funext fun b => congrFun (V23_agree m h c) _

def stage (J₀ : ℕ) (r₀ : Ref sig .tc) (v : (c : Dev nD) → Buf (Elt F) ((c : Thread nD τ).loc r₀)) (o : Outs (F := F)) : Outs (F := F) :=
  fun J => if J = J₀ then fun r c => Function.update (fun r => o J r c) r₀ (v c) r else o J

theorem stage_self (J₀ : ℕ) (r₀ : Ref sig .tc) (v : (c : Dev nD) → Buf (Elt F) ((c : Thread nD τ).loc r₀)) (o : Outs (F := F)) (c : Dev nD) :
    stage J₀ r₀ v o J₀ r₀ c = v c := by
  unfold stage; rw [if_pos rfl]; exact Function.update_self _ _ _
theorem stage_of_ne_ref (J₀ : ℕ) (r₀ : Ref sig .tc) (v : (c : Dev nD) → Buf (Elt F) ((c : Thread nD τ).loc r₀)) (o : Outs (F := F)) (c : Dev nD)
    {r : Ref sig .tc} (hr : r ≠ r₀) : stage J₀ r₀ v o J₀ r c = o J₀ r c := by
  unfold stage; rw [if_pos rfl]; exact Function.update_of_ne hr _ _
theorem stage_of_ne_item (J₀ : ℕ) (r₀ : Ref sig .tc) (v : (c : Dev nD) → Buf (Elt F) ((c : Thread nD τ).loc r₀)) (o : Outs (F := F))
    {J : ℕ} (hJ : J ≠ J₀) : stage J₀ r₀ v o J = o J := by
  unfold stage; rw [if_neg hJ]

def outs0 : Outs (F := F) := fun _ r c => m ((c : Thread nD τ).loc r)

def outs1 : Outs (F := F) := stage 2 main_v27 (fun c => (dat0 (VR1 m) c).arrAt 3 cfg0.N) (outs0 m)
theorem outs1_below (K : ℕ) (hK : K ≤ 1) : outs1 m K = outs0 m K := by
  unfold outs1; rw [stage_of_ne_item _ _ _ _ (by omega)]
theorem outs1_main_v27 (c : Dev nD) : outs1 m 2 main_v27 c = (dat0 (VR1 m) c).arrAt 3 cfg0.N := by
  unfold outs1; exact stage_self _ _ _ _ c

def outs2 : Outs (F := F) := stage 4 main_v38_1 (fun c => (dat1 (VR3 m (outs1 m)) c).arrAt 6 cfg1.N) (stage 4 main_v38_0 (fun c => (dat1 (VR3 m (outs1 m)) c).arrAt 5 cfg1.N) (outs1 m))
theorem outs2_below (K : ℕ) (hK : K ≤ 3) : outs2 m K = outs1 m K := by
  unfold outs2; rw [stage_of_ne_item _ _ _ _ (by omega), stage_of_ne_item _ _ _ _ (by omega)]
theorem outs2_main_v38_0 (c : Dev nD) : outs2 m 4 main_v38_0 c = (dat1 (VR3 m (outs1 m)) c).arrAt 5 cfg1.N := by
  unfold outs2; exact (stage_of_ne_ref _ _ _ _ c (by decide)).trans (stage_self _ _ _ _ c)
theorem outs2_main_v38_1 (c : Dev nD) : outs2 m 4 main_v38_1 c = (dat1 (VR3 m (outs1 m)) c).arrAt 6 cfg1.N := by
  unfold outs2; exact stage_self _ _ _ _ c

def outs3 : Outs (F := F) := stage 6 main_v45_1 (fun c => (dat2 (VR5 m (outs2 m)) c).arrAt 5 cfg2.N) (stage 6 main_v45_0 (fun c => (dat2 (VR5 m (outs2 m)) c).arrAt 4 cfg2.N) (outs2 m))
theorem outs3_below (K : ℕ) (hK : K ≤ 5) : outs3 m K = outs2 m K := by
  unfold outs3; rw [stage_of_ne_item _ _ _ _ (by omega), stage_of_ne_item _ _ _ _ (by omega)]
theorem outs3_main_v45_0 (c : Dev nD) : outs3 m 6 main_v45_0 c = (dat2 (VR5 m (outs2 m)) c).arrAt 4 cfg2.N := by
  unfold outs3; exact (stage_of_ne_ref _ _ _ _ c (by decide)).trans (stage_self _ _ _ _ c)
theorem outs3_main_v45_1 (c : Dev nD) : outs3 m 6 main_v45_1 c = (dat2 (VR5 m (outs2 m)) c).arrAt 5 cfg2.N := by
  unfold outs3; exact stage_self _ _ _ _ c

def outs4 : Outs (F := F) := stage 8 main_v60 (fun c => (dat3 (VR7 m (outs3 m)) c).arrAt 4 cfg3.N) (outs3 m)
theorem outs4_below (K : ℕ) (hK : K ≤ 7) : outs4 m K = outs3 m K := by
  unfold outs4; rw [stage_of_ne_item _ _ _ _ (by omega)]
theorem outs4_main_v60 (c : Dev nD) : outs4 m 8 main_v60 c = (dat3 (VR7 m (outs3 m)) c).arrAt 4 cfg3.N := by
  unfold outs4; exact stage_self _ _ _ _ c

def outs5 : Outs (F := F) := stage 10 main_v66 (fun c => (dat4 (VR9 m (outs4 m)) c).arrAt 3 cfg4.N) (outs4 m)
theorem outs5_below (K : ℕ) (hK : K ≤ 9) : outs5 m K = outs4 m K := by
  unfold outs5; rw [stage_of_ne_item _ _ _ _ (by omega)]
theorem outs5_main_v66 (c : Dev nD) : outs5 m 10 main_v66 c = (dat4 (VR9 m (outs4 m)) c).arrAt 3 cfg4.N := by
  unfold outs5; exact stage_self _ _ _ _ c

def outs6 : Outs (F := F) := stage 12 main_v77_1 (fun c => (dat5 (VR11 m (outs5 m)) c).arrAt 6 cfg5.N) (stage 12 main_v77_0 (fun c => (dat5 (VR11 m (outs5 m)) c).arrAt 5 cfg5.N) (outs5 m))
theorem outs6_below (K : ℕ) (hK : K ≤ 11) : outs6 m K = outs5 m K := by
  unfold outs6; rw [stage_of_ne_item _ _ _ _ (by omega), stage_of_ne_item _ _ _ _ (by omega)]
theorem outs6_main_v77_0 (c : Dev nD) : outs6 m 12 main_v77_0 c = (dat5 (VR11 m (outs5 m)) c).arrAt 5 cfg5.N := by
  unfold outs6; exact (stage_of_ne_ref _ _ _ _ c (by decide)).trans (stage_self _ _ _ _ c)
theorem outs6_main_v77_1 (c : Dev nD) : outs6 m 12 main_v77_1 c = (dat5 (VR11 m (outs5 m)) c).arrAt 6 cfg5.N := by
  unfold outs6; exact stage_self _ _ _ _ c

def outs7 : Outs (F := F) := stage 14 main_v84_1 (fun c => (dat6 (VR13 m (outs6 m)) c).arrAt 5 cfg6.N) (stage 14 main_v84_0 (fun c => (dat6 (VR13 m (outs6 m)) c).arrAt 4 cfg6.N) (outs6 m))
theorem outs7_below (K : ℕ) (hK : K ≤ 13) : outs7 m K = outs6 m K := by
  unfold outs7; rw [stage_of_ne_item _ _ _ _ (by omega), stage_of_ne_item _ _ _ _ (by omega)]
theorem outs7_main_v84_0 (c : Dev nD) : outs7 m 14 main_v84_0 c = (dat6 (VR13 m (outs6 m)) c).arrAt 4 cfg6.N := by
  unfold outs7; exact (stage_of_ne_ref _ _ _ _ c (by decide)).trans (stage_self _ _ _ _ c)
theorem outs7_main_v84_1 (c : Dev nD) : outs7 m 14 main_v84_1 c = (dat6 (VR13 m (outs6 m)) c).arrAt 5 cfg6.N := by
  unfold outs7; exact stage_self _ _ _ _ c

def outs8 : Outs (F := F) := stage 16 main_v99 (fun c => (dat7 (VR15 m (outs7 m)) c).arrAt 4 cfg7.N) (outs7 m)
theorem outs8_below (K : ℕ) (hK : K ≤ 15) : outs8 m K = outs7 m K := by
  unfold outs8; rw [stage_of_ne_item _ _ _ _ (by omega)]
theorem outs8_main_v99 (c : Dev nD) : outs8 m 16 main_v99 c = (dat7 (VR15 m (outs7 m)) c).arrAt 4 cfg7.N := by
  unfold outs8; exact stage_self _ _ _ _ c

def outs9 : Outs (F := F) := stage 18 main_v105 (fun c => (dat8 (VR17 m (outs8 m)) c).arrAt 3 cfg8.N) (outs8 m)
theorem outs9_below (K : ℕ) (hK : K ≤ 17) : outs9 m K = outs8 m K := by
  unfold outs9; rw [stage_of_ne_item _ _ _ _ (by omega)]
theorem outs9_main_v105 (c : Dev nD) : outs9 m 18 main_v105 c = (dat8 (VR17 m (outs8 m)) c).arrAt 3 cfg8.N := by
  unfold outs9; exact stage_self _ _ _ _ c

def outs10 : Outs (F := F) := stage 20 main_v116_1 (fun c => (dat9 (VR19 m (outs9 m)) c).arrAt 6 cfg9.N) (stage 20 main_v116_0 (fun c => (dat9 (VR19 m (outs9 m)) c).arrAt 5 cfg9.N) (outs9 m))
theorem outs10_below (K : ℕ) (hK : K ≤ 19) : outs10 m K = outs9 m K := by
  unfold outs10; rw [stage_of_ne_item _ _ _ _ (by omega), stage_of_ne_item _ _ _ _ (by omega)]
theorem outs10_main_v116_0 (c : Dev nD) : outs10 m 20 main_v116_0 c = (dat9 (VR19 m (outs9 m)) c).arrAt 5 cfg9.N := by
  unfold outs10; exact (stage_of_ne_ref _ _ _ _ c (by decide)).trans (stage_self _ _ _ _ c)
theorem outs10_main_v116_1 (c : Dev nD) : outs10 m 20 main_v116_1 c = (dat9 (VR19 m (outs9 m)) c).arrAt 6 cfg9.N := by
  unfold outs10; exact stage_self _ _ _ _ c

def outs11 : Outs (F := F) := stage 22 main_v123_1 (fun c => (dat10 (VR21 m (outs10 m)) c).arrAt 5 cfg10.N) (stage 22 main_v123_0 (fun c => (dat10 (VR21 m (outs10 m)) c).arrAt 4 cfg10.N) (outs10 m))
theorem outs11_below (K : ℕ) (hK : K ≤ 21) : outs11 m K = outs10 m K := by
  unfold outs11; rw [stage_of_ne_item _ _ _ _ (by omega), stage_of_ne_item _ _ _ _ (by omega)]
theorem outs11_main_v123_0 (c : Dev nD) : outs11 m 22 main_v123_0 c = (dat10 (VR21 m (outs10 m)) c).arrAt 4 cfg10.N := by
  unfold outs11; exact (stage_of_ne_ref _ _ _ _ c (by decide)).trans (stage_self _ _ _ _ c)
theorem outs11_main_v123_1 (c : Dev nD) : outs11 m 22 main_v123_1 c = (dat10 (VR21 m (outs10 m)) c).arrAt 5 cfg10.N := by
  unfold outs11; exact stage_self _ _ _ _ c

def outs12 : Outs (F := F) := stage 24 main_v138 (fun c => (dat11 (VR23 m (outs11 m)) c).arrAt 4 cfg11.N) (outs11 m)
theorem outs12_below (K : ℕ) (hK : K ≤ 23) : outs12 m K = outs11 m K := by
  unfold outs12; rw [stage_of_ne_item _ _ _ _ (by omega)]
theorem outs12_main_v138 (c : Dev nD) : outs12 m 24 main_v138 c = (dat11 (VR23 m (outs11 m)) c).arrAt 4 cfg11.N := by
  unfold outs12; exact stage_self _ _ _ _ c

theorem outs12_eq11 (K : ℕ) (hK : K ≤ 23) : outs12 m K = outs11 m K :=
  outs12_below m K hK
theorem outs12_eq10 (K : ℕ) (hK : K ≤ 21) : outs12 m K = outs10 m K :=
  (outs12_eq11 m K (by omega)).trans (outs11_below m K hK)
theorem outs12_eq9 (K : ℕ) (hK : K ≤ 19) : outs12 m K = outs9 m K :=
  (outs12_eq10 m K (by omega)).trans (outs10_below m K hK)
theorem outs12_eq8 (K : ℕ) (hK : K ≤ 17) : outs12 m K = outs8 m K :=
  (outs12_eq9 m K (by omega)).trans (outs9_below m K hK)
theorem outs12_eq7 (K : ℕ) (hK : K ≤ 15) : outs12 m K = outs7 m K :=
  (outs12_eq8 m K (by omega)).trans (outs8_below m K hK)
theorem outs12_eq6 (K : ℕ) (hK : K ≤ 13) : outs12 m K = outs6 m K :=
  (outs12_eq7 m K (by omega)).trans (outs7_below m K hK)
theorem outs12_eq5 (K : ℕ) (hK : K ≤ 11) : outs12 m K = outs5 m K :=
  (outs12_eq6 m K (by omega)).trans (outs6_below m K hK)
theorem outs12_eq4 (K : ℕ) (hK : K ≤ 9) : outs12 m K = outs4 m K :=
  (outs12_eq5 m K (by omega)).trans (outs5_below m K hK)
theorem outs12_eq3 (K : ℕ) (hK : K ≤ 7) : outs12 m K = outs3 m K :=
  (outs12_eq4 m K (by omega)).trans (outs4_below m K hK)
theorem outs12_eq2 (K : ℕ) (hK : K ≤ 5) : outs12 m K = outs2 m K :=
  (outs12_eq3 m K (by omega)).trans (outs3_below m K hK)
theorem outs12_eq1 (K : ℕ) (hK : K ≤ 3) : outs12 m K = outs1 m K :=
  (outs12_eq2 m K (by omega)).trans (outs2_below m K hK)

theorem ok_o0 (c : Dev nD) : outs12 m 2 main_v27 c = (dat0 (VR1 m) c).arrAt 3 cfg0.N := by
  rw [outs12_eq1 m 2 (by decide)]
  exact outs1_main_v27 m c
theorem ok_o1a (c : Dev nD) : outs12 m 4 main_v38_0 c = (dat1 (VR3 m (outs12 m)) c).arrAt 5 cfg1.N := by
  rw [VR3_agree m (outs12_eq1 m)]
  rw [outs12_eq2 m 4 (by decide)]
  exact outs2_main_v38_0 m c
theorem ok_o1b (c : Dev nD) : outs12 m 4 main_v38_1 c = (dat1 (VR3 m (outs12 m)) c).arrAt 6 cfg1.N := by
  rw [VR3_agree m (outs12_eq1 m)]
  rw [outs12_eq2 m 4 (by decide)]
  exact outs2_main_v38_1 m c
theorem ok_o2a (c : Dev nD) : outs12 m 6 main_v45_0 c = (dat2 (VR5 m (outs12 m)) c).arrAt 4 cfg2.N := by
  rw [VR5_agree m (outs12_eq2 m)]
  rw [outs12_eq3 m 6 (by decide)]
  exact outs3_main_v45_0 m c
theorem ok_o2b (c : Dev nD) : outs12 m 6 main_v45_1 c = (dat2 (VR5 m (outs12 m)) c).arrAt 5 cfg2.N := by
  rw [VR5_agree m (outs12_eq2 m)]
  rw [outs12_eq3 m 6 (by decide)]
  exact outs3_main_v45_1 m c
theorem ok_o3 (c : Dev nD) : outs12 m 8 main_v60 c = (dat3 (VR7 m (outs12 m)) c).arrAt 4 cfg3.N := by
  rw [VR7_agree m (outs12_eq3 m)]
  rw [outs12_eq4 m 8 (by decide)]
  exact outs4_main_v60 m c
theorem ok_o4 (c : Dev nD) : outs12 m 10 main_v66 c = (dat4 (VR9 m (outs12 m)) c).arrAt 3 cfg4.N := by
  rw [VR9_agree m (outs12_eq4 m)]
  rw [outs12_eq5 m 10 (by decide)]
  exact outs5_main_v66 m c
theorem ok_o5a (c : Dev nD) : outs12 m 12 main_v77_0 c = (dat5 (VR11 m (outs12 m)) c).arrAt 5 cfg5.N := by
  rw [VR11_agree m (outs12_eq5 m)]
  rw [outs12_eq6 m 12 (by decide)]
  exact outs6_main_v77_0 m c
theorem ok_o5b (c : Dev nD) : outs12 m 12 main_v77_1 c = (dat5 (VR11 m (outs12 m)) c).arrAt 6 cfg5.N := by
  rw [VR11_agree m (outs12_eq5 m)]
  rw [outs12_eq6 m 12 (by decide)]
  exact outs6_main_v77_1 m c
theorem ok_o6a (c : Dev nD) : outs12 m 14 main_v84_0 c = (dat6 (VR13 m (outs12 m)) c).arrAt 4 cfg6.N := by
  rw [VR13_agree m (outs12_eq6 m)]
  rw [outs12_eq7 m 14 (by decide)]
  exact outs7_main_v84_0 m c
theorem ok_o6b (c : Dev nD) : outs12 m 14 main_v84_1 c = (dat6 (VR13 m (outs12 m)) c).arrAt 5 cfg6.N := by
  rw [VR13_agree m (outs12_eq6 m)]
  rw [outs12_eq7 m 14 (by decide)]
  exact outs7_main_v84_1 m c
theorem ok_o7 (c : Dev nD) : outs12 m 16 main_v99 c = (dat7 (VR15 m (outs12 m)) c).arrAt 4 cfg7.N := by
  rw [VR15_agree m (outs12_eq7 m)]
  rw [outs12_eq8 m 16 (by decide)]
  exact outs8_main_v99 m c
theorem ok_o8 (c : Dev nD) : outs12 m 18 main_v105 c = (dat8 (VR17 m (outs12 m)) c).arrAt 3 cfg8.N := by
  rw [VR17_agree m (outs12_eq8 m)]
  rw [outs12_eq9 m 18 (by decide)]
  exact outs9_main_v105 m c
theorem ok_o9a (c : Dev nD) : outs12 m 20 main_v116_0 c = (dat9 (VR19 m (outs12 m)) c).arrAt 5 cfg9.N := by
  rw [VR19_agree m (outs12_eq9 m)]
  rw [outs12_eq10 m 20 (by decide)]
  exact outs10_main_v116_0 m c
theorem ok_o9b (c : Dev nD) : outs12 m 20 main_v116_1 c = (dat9 (VR19 m (outs12 m)) c).arrAt 6 cfg9.N := by
  rw [VR19_agree m (outs12_eq9 m)]
  rw [outs12_eq10 m 20 (by decide)]
  exact outs10_main_v116_1 m c
theorem ok_o10a (c : Dev nD) : outs12 m 22 main_v123_0 c = (dat10 (VR21 m (outs12 m)) c).arrAt 4 cfg10.N := by
  rw [VR21_agree m (outs12_eq10 m)]
  rw [outs12_eq11 m 22 (by decide)]
  exact outs11_main_v123_0 m c
theorem ok_o10b (c : Dev nD) : outs12 m 22 main_v123_1 c = (dat10 (VR21 m (outs12 m)) c).arrAt 5 cfg10.N := by
  rw [VR21_agree m (outs12_eq10 m)]
  rw [outs12_eq11 m 22 (by decide)]
  exact outs11_main_v123_1 m c
theorem ok_o11 (c : Dev nD) : outs12 m 24 main_v138 c = (dat11 (VR23 m (outs12 m)) c).arrAt 4 cfg11.N := by
  rw [VR23_agree m (outs12_eq11 m)]
  exact outs12_main_v138 m c

theorem exists_outs : ∃ outs : Outs (F := F), OutsOk m outs :=
  ⟨outs12 m, ⟨ok_o0 m, ok_o1a m, ok_o1b m, ok_o2a m, ok_o2b m, ok_o3 m, ok_o4 m, ok_o5a m, ok_o5b m, ok_o6a m, ok_o6b m, ok_o7 m, ok_o8 m, ok_o9a m, ok_o9b m, ok_o10a m, ok_o10b m, ok_o11 m⟩⟩

end Cert.KernelIdeal.H

end
-- ==== Proof.KI.RegLib.lean ====
import proofs.«402146_j32049045962863_2_alg».proof.Proof.KI.Pdats

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- The four entailments of a region's protocol need only that it owes nothing, holds its arrays at the full share and keeps the generator register: so they are proved once, for every region. -/
def regOf (p : Fin 12) (launch : Pipeline.LaunchFacts (nD := nD) (τ := τ) cfgs p) (Wi Wo : Dev nD → Valuation τ sig (Elt F))
    (hbody : ∀ c, BodyObligation (pdats m outs p c) (defs₀ (F := F)) Variants.none () Set.univ)
    (howed : ∀ c t, (pdats m outs p c).owed t = 0)
    (hrec : ∀ c t, (pdats m outs p c).recorded t = Set.univ) (hq : ∀ c w, (pdats m outs p c).q w = fullShare)
    (hA : ∀ c w, (pdats m outs p c).A w = Wi c (Pipeline.arrRef (cfgs p).spec w))
    (hΦ : ∀ c t, (pdats m outs p c).Φ t = Pipeline.ΦA (cfgs p).spec c)
    (hF : ∀ c w, (pdats m outs p c).arrAt w (cfgs p).N = Wo c (Pipeline.arrRef (cfgs p).spec w))
    (hrest : ∀ c (b : Ref sig .tc), b ∉ Finset.univ.image (Pipeline.arrRef (cfgs p).spec) → Wo c b = Wi c b) :
    Pipeline.RegionSeg (pcfgs (F := F)) adm (pdats m outs) () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m outs) launch.win launch.arr_whole c
      ((pdats m outs p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m outs) ((pdats m outs p c).share_full (hq c))
      (fun b => Wi c b) (fun b => Wo c b) ((pdats m outs p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.H

end
-- ==== Proof.KI.Reg0.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF0 (h : OutsOk m outs) (c : Dev nD) : ∀ w : Fin cfg0.W, (dat0 (VR1 m) c).arrAt w cfg0.N = VR2 m outs c (Pipeline.arrRef spec0 w)
  | 0 => ((dat0 (VR1 m) c).arrAt_in 0 rfl _).trans ((A_eq0 (VR1 m) c 0).trans (V2_of m outs c main_arg0 (by decide)).symm)
  | 1 => ((dat0 (VR1 m) c).arrAt_in 1 rfl _).trans ((A_eq0 (VR1 m) c 1).trans (V2_of m outs c main_v26 (by decide)).symm)
  | 2 => ((dat0 (VR1 m) c).arrAt_in 2 rfl _).trans ((A_eq0 (VR1 m) c 2).trans (V2_of m outs c main_v11 (by decide)).symm)
  | 3 => (h.o0 c).symm.trans (by
      show outs 2 main_v27 c = V2 m outs c main_v27
      simp only [V2, Function.update_self])
  | ⟨_ + 4, hh⟩ => absurd hh (Nat.not_lt.2 (Nat.le_add_left _ _))

theorem hrest0 (c : Dev nD) : ∀ b, b ∉ Finset.univ.image (Pipeline.arrRef spec0) → VR2 m outs c b = VR1 m c b :=
  fun b hb => V2_of m outs c b fun hm =>
    hb (Finset.mem_image.mpr ⟨3, Finset.mem_univ _, (List.mem_singleton.mp hm).symm⟩)

def reg0 (h : OutsOk m outs) : Pipeline.RegionSeg (pcfgs (F := F)) adm (pdats m outs) () defs₀ Variants.none L lv 0 :=
  regOf m outs 0 launch0 (V1 m) (V2 m outs) (body_obligation0 (VR1 m)) (owed_eq0 (VR1 m)) (fun _ _ => rfl) (q_eq0 (VR1 m))
    (A_eq0 (VR1 m)) (Phi_eq0 (VR1 m)) (hF0 m outs h) (hrest0 m outs)

end Cert.KernelIdeal.H

end
-- ==== Proof.KI.Reg1.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF1 (h : OutsOk m outs) (c : Dev nD) : ∀ w : Fin cfg1.W, (dat1 (VR3 m outs) c).arrAt w cfg1.N = VR4 m outs c (Pipeline.arrRef spec1 w)
  | 0 => ((dat1 (VR3 m outs) c).arrAt_in 0 rfl _).trans ((A_eq1 (VR3 m outs) c 0).trans (V4_of m outs c main_v37 (by decide)).symm)
  | 1 => ((dat1 (VR3 m outs) c).arrAt_in 1 rfl _).trans ((A_eq1 (VR3 m outs) c 1).trans (V4_of m outs c main_v27 (by decide)).symm)
  | 2 => ((dat1 (VR3 m outs) c).arrAt_in 2 rfl _).trans ((A_eq1 (VR3 m outs) c 2).trans (V4_of m outs c main_v11 (by decide)).symm)
  | 3 => ((dat1 (VR3 m outs) c).arrAt_in 3 rfl _).trans ((A_eq1 (VR3 m outs) c 3).trans (V4_of m outs c main_v24 (by decide)).symm)
  | 4 => ((dat1 (VR3 m outs) c).arrAt_in 4 rfl _).trans ((A_eq1 (VR3 m outs) c 4).trans (V4_of m outs c main_v21 (by decide)).symm)
  | 5 => (h.o1a c).symm.trans (by
      show outs 4 main_v38_0 c = V4 m outs c main_v38_0
      simp only [V4, Function.update_of_ne (StableHlo.devRef_ne_of_ne (by decide) : (Proc.devRef .tc main_v38_0 : DevRef τ sig) ≠ Proc.devRef .tc main_v38_1), Function.update_self])
  | 6 => (h.o1b c).symm.trans (by
      show outs 4 main_v38_1 c = V4 m outs c main_v38_1
      simp only [V4, Function.update_self])
  | ⟨_ + 7, hh⟩ => absurd hh (Nat.not_lt.2 (Nat.le_add_left _ _))

theorem hrest1 (c : Dev nD) : ∀ b, b ∉ Finset.univ.image (Pipeline.arrRef spec1) → VR4 m outs c b = VR3 m outs c b :=
  fun b hb => V4_of m outs c b fun hm =>
    (List.mem_cons.mp hm).elim (fun e => hb (Finset.mem_image.mpr ⟨5, Finset.mem_univ _, e.symm⟩))
      fun hm' => hb (Finset.mem_image.mpr ⟨6, Finset.mem_univ _, (List.mem_singleton.mp hm').symm⟩)

def reg1 (h : OutsOk m outs) : Pipeline.RegionSeg (pcfgs (F := F)) adm (pdats m outs) () defs₀ Variants.none L lv 1 :=
  regOf m outs 1 launch1 (V3 m outs) (V4 m outs) (body_obligation1 (VR3 m outs)) (owed_eq1 (VR3 m outs)) (fun _ _ => rfl) (q_eq1 (VR3 m outs))
    (A_eq1 (VR3 m outs)) (Phi_eq1 (VR3 m outs)) (hF1 m outs h) (hrest1 m outs)

end Cert.KernelIdeal.H

end
-- ==== Proof.KI.Reg2.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF2 (h : OutsOk m outs) (c : Dev nD) : ∀ w : Fin cfg2.W, (dat2 (VR5 m outs) c).arrAt w cfg2.N = VR6 m outs c (Pipeline.arrRef spec2 w)
  | 0 => ((dat2 (VR5 m outs) c).arrAt_in 0 rfl _).trans ((A_eq2 (VR5 m outs) c 0).trans (V6_of m outs c main_v38_0 (by decide)).symm)
  | 1 => ((dat2 (VR5 m outs) c).arrAt_in 1 rfl _).trans ((A_eq2 (VR5 m outs) c 1).trans (V6_of m outs c main_v21 (by decide)).symm)
  | 2 => ((dat2 (VR5 m outs) c).arrAt_in 2 rfl _).trans ((A_eq2 (VR5 m outs) c 2).trans (V6_of m outs c main_v41 (by decide)).symm)
  | 3 => ((dat2 (VR5 m outs) c).arrAt_in 3 rfl _).trans ((A_eq2 (VR5 m outs) c 3).trans (V6_of m outs c main_v44 (by decide)).symm)
  | 4 => (h.o2a c).symm.trans (by
      show outs 6 main_v45_0 c = V6 m outs c main_v45_0
      simp only [V6, Function.update_of_ne (StableHlo.devRef_ne_of_ne (by decide) : (Proc.devRef .tc main_v45_0 : DevRef τ sig) ≠ Proc.devRef .tc main_v45_1), Function.update_self])
  | 5 => (h.o2b c).symm.trans (by
      show outs 6 main_v45_1 c = V6 m outs c main_v45_1
      simp only [V6, Function.update_self])
  | ⟨_ + 6, hh⟩ => absurd hh (Nat.not_lt.2 (Nat.le_add_left _ _))

theorem hrest2 (c : Dev nD) : ∀ b, b ∉ Finset.univ.image (Pipeline.arrRef spec2) → VR6 m outs c b = VR5 m outs c b :=
  fun b hb => V6_of m outs c b fun hm =>
    (List.mem_cons.mp hm).elim (fun e => hb (Finset.mem_image.mpr ⟨4, Finset.mem_univ _, e.symm⟩))
      fun hm' => hb (Finset.mem_image.mpr ⟨5, Finset.mem_univ _, (List.mem_singleton.mp hm').symm⟩)

def reg2 (h : OutsOk m outs) : Pipeline.RegionSeg (pcfgs (F := F)) adm (pdats m outs) () defs₀ Variants.none L lv 2 :=
  regOf m outs 2 launch2 (V5 m outs) (V6 m outs) (body_obligation2 (VR5 m outs)) (owed_eq2 (VR5 m outs)) (fun _ _ => rfl) (q_eq2 (VR5 m outs))
    (A_eq2 (VR5 m outs)) (Phi_eq2 (VR5 m outs)) (hF2 m outs h) (hrest2 m outs)

end Cert.KernelIdeal.H

end
-- ==== Proof.KI.Reg3.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF3 (h : OutsOk m outs) (c : Dev nD) : ∀ w : Fin cfg3.W, (dat3 (VR7 m outs) c).arrAt w cfg3.N = VR8 m outs c (Pipeline.arrRef spec3 w)
  | 0 => ((dat3 (VR7 m outs) c).arrAt_in 0 rfl _).trans ((A_eq3 (VR7 m outs) c 0).trans (V8_of m outs c main_v45_0 (by decide)).symm)
  | 1 => ((dat3 (VR7 m outs) c).arrAt_in 1 rfl _).trans ((A_eq3 (VR7 m outs) c 1).trans (V8_of m outs c main_v21 (by decide)).symm)
  | 2 => ((dat3 (VR7 m outs) c).arrAt_in 2 rfl _).trans ((A_eq3 (VR7 m outs) c 2).trans (V8_of m outs c main_v59 (by decide)).symm)
  | 3 => ((dat3 (VR7 m outs) c).arrAt_in 3 rfl _).trans ((A_eq3 (VR7 m outs) c 3).trans (V8_of m outs c main_v54 (by decide)).symm)
  | 4 => (h.o3 c).symm.trans (by
      show outs 8 main_v60 c = V8 m outs c main_v60
      simp only [V8, Function.update_self])
  | ⟨_ + 5, hh⟩ => absurd hh (Nat.not_lt.2 (Nat.le_add_left _ _))

theorem hrest3 (c : Dev nD) : ∀ b, b ∉ Finset.univ.image (Pipeline.arrRef spec3) → VR8 m outs c b = VR7 m outs c b :=
  fun b hb => V8_of m outs c b fun hm =>
    hb (Finset.mem_image.mpr ⟨4, Finset.mem_univ _, (List.mem_singleton.mp hm).symm⟩)

def reg3 (h : OutsOk m outs) : Pipeline.RegionSeg (pcfgs (F := F)) adm (pdats m outs) () defs₀ Variants.none L lv 3 :=
  regOf m outs 3 launch3 (V7 m outs) (V8 m outs) (body_obligation3 (VR7 m outs)) (owed_eq3 (VR7 m outs)) (fun _ _ => rfl) (q_eq3 (VR7 m outs))
    (A_eq3 (VR7 m outs)) (Phi_eq3 (VR7 m outs)) (hF3 m outs h) (hrest3 m outs)

end Cert.KernelIdeal.H

end
-- ==== Proof.KI.Reg4.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF4 (h : OutsOk m outs) (c : Dev nD) : ∀ w : Fin cfg4.W, (dat4 (VR9 m outs) c).arrAt w cfg4.N = VR10 m outs c (Pipeline.arrRef spec4 w)
  | 0 => ((dat4 (VR9 m outs) c).arrAt_in 0 rfl _).trans ((A_eq4 (VR9 m outs) c 0).trans (V10_of m outs c main_v60 (by decide)).symm)
  | 1 => ((dat4 (VR9 m outs) c).arrAt_in 1 rfl _).trans ((A_eq4 (VR9 m outs) c 1).trans (V10_of m outs c main_v65 (by decide)).symm)
  | 2 => ((dat4 (VR9 m outs) c).arrAt_in 2 rfl _).trans ((A_eq4 (VR9 m outs) c 2).trans (V10_of m outs c main_v11 (by decide)).symm)
  | 3 => (h.o4 c).symm.trans (by
      show outs 10 main_v66 c = V10 m outs c main_v66
      simp only [V10, Function.update_self])
  | ⟨_ + 4, hh⟩ => absurd hh (Nat.not_lt.2 (Nat.le_add_left _ _))

theorem hrest4 (c : Dev nD) : ∀ b, b ∉ Finset.univ.image (Pipeline.arrRef spec4) → VR10 m outs c b = VR9 m outs c b :=
  fun b hb => V10_of m outs c b fun hm =>
    hb (Finset.mem_image.mpr ⟨3, Finset.mem_univ _, (List.mem_singleton.mp hm).symm⟩)

def reg4 (h : OutsOk m outs) : Pipeline.RegionSeg (pcfgs (F := F)) adm (pdats m outs) () defs₀ Variants.none L lv 4 :=
  regOf m outs 4 launch4 (V9 m outs) (V10 m outs) (body_obligation4 (VR9 m outs)) (owed_eq4 (VR9 m outs)) (fun _ _ => rfl) (q_eq4 (VR9 m outs))
    (A_eq4 (VR9 m outs)) (Phi_eq4 (VR9 m outs)) (hF4 m outs h) (hrest4 m outs)

end Cert.KernelIdeal.H

end
-- ==== Proof.KI.Reg5.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF5_0 (c : Dev nD) : (dat5 (VR11 m outs) c).arrAt 0 cfg5.N = VR12 m outs c (Pipeline.arrRef spec5 0) :=
  ((dat5 (VR11 m outs) c).arrAt_in 0 rfl _).trans ((A_eq5 (VR11 m outs) c 0).trans (V12_of m outs c main_v76 (by decide)).symm)
theorem hF5_1 (c : Dev nD) : (dat5 (VR11 m outs) c).arrAt 1 cfg5.N = VR12 m outs c (Pipeline.arrRef spec5 1) :=
  ((dat5 (VR11 m outs) c).arrAt_in 1 rfl _).trans ((A_eq5 (VR11 m outs) c 1).trans (V12_of m outs c main_v66 (by decide)).symm)
theorem hF5_2 (c : Dev nD) : (dat5 (VR11 m outs) c).arrAt 2 cfg5.N = VR12 m outs c (Pipeline.arrRef spec5 2) :=
  ((dat5 (VR11 m outs) c).arrAt_in 2 rfl _).trans ((A_eq5 (VR11 m outs) c 2).trans (V12_of m outs c main_v11 (by decide)).symm)
theorem hF5_3 (c : Dev nD) : (dat5 (VR11 m outs) c).arrAt 3 cfg5.N = VR12 m outs c (Pipeline.arrRef spec5 3) :=
  ((dat5 (VR11 m outs) c).arrAt_in 3 rfl _).trans ((A_eq5 (VR11 m outs) c 3).trans (V12_of m outs c main_v63 (by decide)).symm)
theorem hF5_4 (c : Dev nD) : (dat5 (VR11 m outs) c).arrAt 4 cfg5.N = VR12 m outs c (Pipeline.arrRef spec5 4) :=
  ((dat5 (VR11 m outs) c).arrAt_in 4 rfl _).trans ((A_eq5 (VR11 m outs) c 4).trans (V12_of m outs c main_v21 (by decide)).symm)
theorem hF5_5 (h : OutsOk m outs) (c : Dev nD) : (dat5 (VR11 m outs) c).arrAt 5 cfg5.N = VR12 m outs c (Pipeline.arrRef spec5 5) :=
  (h.o5a c).symm.trans (by
    show outs 12 main_v77_0 c = V12 m outs c main_v77_0
    simp only [V12, Function.update_of_ne (StableHlo.devRef_ne_of_ne (by decide) : (Proc.devRef .tc main_v77_0 : DevRef τ sig) ≠ Proc.devRef .tc main_v77_1), Function.update_self])
theorem hF5_6 (h : OutsOk m outs) (c : Dev nD) : (dat5 (VR11 m outs) c).arrAt 6 cfg5.N = VR12 m outs c (Pipeline.arrRef spec5 6) :=
  (h.o5b c).symm.trans (by
    show outs 12 main_v77_1 c = V12 m outs c main_v77_1
    simp only [V12, Function.update_self])
theorem hF5 (h : OutsOk m outs) (c : Dev nD) : ∀ w : Fin cfg5.W, (dat5 (VR11 m outs) c).arrAt w cfg5.N = VR12 m outs c (Pipeline.arrRef spec5 w)
  | 0 => hF5_0 m outs c
  | 1 => hF5_1 m outs c
  | 2 => hF5_2 m outs c
  | 3 => hF5_3 m outs c
  | 4 => hF5_4 m outs c
  | 5 => hF5_5 m outs h c
  | 6 => hF5_6 m outs h c
  | ⟨_ + 7, hh⟩ => absurd hh (Nat.not_lt.2 (Nat.le_add_left _ _))

theorem hrest5 (c : Dev nD) : ∀ b, b ∉ Finset.univ.image (Pipeline.arrRef spec5) → VR12 m outs c b = VR11 m outs c b :=
  fun b hb => V12_of m outs c b fun hm =>
    (List.mem_cons.mp hm).elim (fun e => hb (Finset.mem_image.mpr ⟨5, Finset.mem_univ _, e.symm⟩))
      fun hm' => hb (Finset.mem_image.mpr ⟨6, Finset.mem_univ _, (List.mem_singleton.mp hm').symm⟩)

def reg5 (h : OutsOk m outs) : Pipeline.RegionSeg (pcfgs (F := F)) adm (pdats m outs) () defs₀ Variants.none L lv 5 :=
  regOf m outs 5 launch5 (V11 m outs) (V12 m outs) (body_obligation5 (VR11 m outs)) (owed_eq5 (VR11 m outs)) (fun _ _ => rfl) (q_eq5 (VR11 m outs))
    (A_eq5 (VR11 m outs)) (Phi_eq5 (VR11 m outs)) (hF5 m outs h) (hrest5 m outs)

end Cert.KernelIdeal.H

end
-- ==== Proof.KI.Reg6.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF6_0 (c : Dev nD) : (dat6 (VR13 m outs) c).arrAt 0 cfg6.N = VR14 m outs c (Pipeline.arrRef spec6 0) :=
  ((dat6 (VR13 m outs) c).arrAt_in 0 rfl _).trans ((A_eq6 (VR13 m outs) c 0).trans (V14_of m outs c main_v77_0 (by decide)).symm)
theorem hF6_1 (c : Dev nD) : (dat6 (VR13 m outs) c).arrAt 1 cfg6.N = VR14 m outs c (Pipeline.arrRef spec6 1) :=
  ((dat6 (VR13 m outs) c).arrAt_in 1 rfl _).trans ((A_eq6 (VR13 m outs) c 1).trans (V14_of m outs c main_v21 (by decide)).symm)
theorem hF6_2 (c : Dev nD) : (dat6 (VR13 m outs) c).arrAt 2 cfg6.N = VR14 m outs c (Pipeline.arrRef spec6 2) :=
  ((dat6 (VR13 m outs) c).arrAt_in 2 rfl _).trans ((A_eq6 (VR13 m outs) c 2).trans (V14_of m outs c main_v80 (by decide)).symm)
theorem hF6_3 (c : Dev nD) : (dat6 (VR13 m outs) c).arrAt 3 cfg6.N = VR14 m outs c (Pipeline.arrRef spec6 3) :=
  ((dat6 (VR13 m outs) c).arrAt_in 3 rfl _).trans ((A_eq6 (VR13 m outs) c 3).trans (V14_of m outs c main_v83 (by decide)).symm)
theorem hF6_4 (h : OutsOk m outs) (c : Dev nD) : (dat6 (VR13 m outs) c).arrAt 4 cfg6.N = VR14 m outs c (Pipeline.arrRef spec6 4) :=
  (h.o6a c).symm.trans (by
    show outs 14 main_v84_0 c = V14 m outs c main_v84_0
    simp only [V14, Function.update_of_ne (StableHlo.devRef_ne_of_ne (by decide) : (Proc.devRef .tc main_v84_0 : DevRef τ sig) ≠ Proc.devRef .tc main_v84_1), Function.update_self])
theorem hF6_5 (h : OutsOk m outs) (c : Dev nD) : (dat6 (VR13 m outs) c).arrAt 5 cfg6.N = VR14 m outs c (Pipeline.arrRef spec6 5) :=
  (h.o6b c).symm.trans (by
    show outs 14 main_v84_1 c = V14 m outs c main_v84_1
    simp only [V14, Function.update_self])
theorem hF6 (h : OutsOk m outs) (c : Dev nD) : ∀ w : Fin cfg6.W, (dat6 (VR13 m outs) c).arrAt w cfg6.N = VR14 m outs c (Pipeline.arrRef spec6 w)
  | 0 => hF6_0 m outs c
  | 1 => hF6_1 m outs c
  | 2 => hF6_2 m outs c
  | 3 => hF6_3 m outs c
  | 4 => hF6_4 m outs h c
  | 5 => hF6_5 m outs h c
  | ⟨_ + 6, hh⟩ => absurd hh (Nat.not_lt.2 (Nat.le_add_left _ _))

theorem hrest6 (c : Dev nD) : ∀ b, b ∉ Finset.univ.image (Pipeline.arrRef spec6) → VR14 m outs c b = VR13 m outs c b :=
  fun b hb => V14_of m outs c b fun hm =>
    (List.mem_cons.mp hm).elim (fun e => hb (Finset.mem_image.mpr ⟨4, Finset.mem_univ _, e.symm⟩))
      fun hm' => hb (Finset.mem_image.mpr ⟨5, Finset.mem_univ _, (List.mem_singleton.mp hm').symm⟩)

def reg6 (h : OutsOk m outs) : Pipeline.RegionSeg (pcfgs (F := F)) adm (pdats m outs) () defs₀ Variants.none L lv 6 :=
  regOf m outs 6 launch6 (V13 m outs) (V14 m outs) (body_obligation6 (VR13 m outs)) (owed_eq6 (VR13 m outs)) (fun _ _ => rfl) (q_eq6 (VR13 m outs))
    (A_eq6 (VR13 m outs)) (Phi_eq6 (VR13 m outs)) (hF6 m outs h) (hrest6 m outs)

end Cert.KernelIdeal.H

end
-- ==== Proof.KI.Reg7.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF7 (h : OutsOk m outs) (c : Dev nD) : ∀ w : Fin cfg7.W, (dat7 (VR15 m outs) c).arrAt w cfg7.N = VR16 m outs c (Pipeline.arrRef spec7 w)
  | 0 => ((dat7 (VR15 m outs) c).arrAt_in 0 rfl _).trans ((A_eq7 (VR15 m outs) c 0).trans (V16_of m outs c main_v84_0 (by decide)).symm)
  | 1 => ((dat7 (VR15 m outs) c).arrAt_in 1 rfl _).trans ((A_eq7 (VR15 m outs) c 1).trans (V16_of m outs c main_v21 (by decide)).symm)
  | 2 => ((dat7 (VR15 m outs) c).arrAt_in 2 rfl _).trans ((A_eq7 (VR15 m outs) c 2).trans (V16_of m outs c main_v98 (by decide)).symm)
  | 3 => ((dat7 (VR15 m outs) c).arrAt_in 3 rfl _).trans ((A_eq7 (VR15 m outs) c 3).trans (V16_of m outs c main_v93 (by decide)).symm)
  | 4 => (h.o7 c).symm.trans (by
      show outs 16 main_v99 c = V16 m outs c main_v99
      simp only [V16, Function.update_self])
  | ⟨_ + 5, hh⟩ => absurd hh (Nat.not_lt.2 (Nat.le_add_left _ _))

theorem hrest7 (c : Dev nD) : ∀ b, b ∉ Finset.univ.image (Pipeline.arrRef spec7) → VR16 m outs c b = VR15 m outs c b :=
  fun b hb => V16_of m outs c b fun hm =>
    hb (Finset.mem_image.mpr ⟨4, Finset.mem_univ _, (List.mem_singleton.mp hm).symm⟩)

def reg7 (h : OutsOk m outs) : Pipeline.RegionSeg (pcfgs (F := F)) adm (pdats m outs) () defs₀ Variants.none L lv 7 :=
  regOf m outs 7 launch7 (V15 m outs) (V16 m outs) (body_obligation7 (VR15 m outs)) (owed_eq7 (VR15 m outs)) (fun _ _ => rfl) (q_eq7 (VR15 m outs))
    (A_eq7 (VR15 m outs)) (Phi_eq7 (VR15 m outs)) (hF7 m outs h) (hrest7 m outs)

end Cert.KernelIdeal.H

end
-- ==== Proof.KI.Reg8.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF8 (h : OutsOk m outs) (c : Dev nD) : ∀ w : Fin cfg8.W, (dat8 (VR17 m outs) c).arrAt w cfg8.N = VR18 m outs c (Pipeline.arrRef spec8 w)
  | 0 => ((dat8 (VR17 m outs) c).arrAt_in 0 rfl _).trans ((A_eq8 (VR17 m outs) c 0).trans (V18_of m outs c main_v99 (by decide)).symm)
  | 1 => ((dat8 (VR17 m outs) c).arrAt_in 1 rfl _).trans ((A_eq8 (VR17 m outs) c 1).trans (V18_of m outs c main_v104 (by decide)).symm)
  | 2 => ((dat8 (VR17 m outs) c).arrAt_in 2 rfl _).trans ((A_eq8 (VR17 m outs) c 2).trans (V18_of m outs c main_v11 (by decide)).symm)
  | 3 => (h.o8 c).symm.trans (by
      show outs 18 main_v105 c = V18 m outs c main_v105
      simp only [V18, Function.update_self])
  | ⟨_ + 4, hh⟩ => absurd hh (Nat.not_lt.2 (Nat.le_add_left _ _))

theorem hrest8 (c : Dev nD) : ∀ b, b ∉ Finset.univ.image (Pipeline.arrRef spec8) → VR18 m outs c b = VR17 m outs c b :=
  fun b hb => V18_of m outs c b fun hm =>
    hb (Finset.mem_image.mpr ⟨3, Finset.mem_univ _, (List.mem_singleton.mp hm).symm⟩)

def reg8 (h : OutsOk m outs) : Pipeline.RegionSeg (pcfgs (F := F)) adm (pdats m outs) () defs₀ Variants.none L lv 8 :=
  regOf m outs 8 launch8 (V17 m outs) (V18 m outs) (body_obligation8 (VR17 m outs)) (owed_eq8 (VR17 m outs)) (fun _ _ => rfl) (q_eq8 (VR17 m outs))
    (A_eq8 (VR17 m outs)) (Phi_eq8 (VR17 m outs)) (hF8 m outs h) (hrest8 m outs)

end Cert.KernelIdeal.H

end
-- ==== Proof.KI.Reg9.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF9 (h : OutsOk m outs) (c : Dev nD) : ∀ w : Fin cfg9.W, (dat9 (VR19 m outs) c).arrAt w cfg9.N = VR20 m outs c (Pipeline.arrRef spec9 w)
  | 0 => ((dat9 (VR19 m outs) c).arrAt_in 0 rfl _).trans ((A_eq9 (VR19 m outs) c 0).trans (V20_of m outs c main_v115 (by decide)).symm)
  | 1 => ((dat9 (VR19 m outs) c).arrAt_in 1 rfl _).trans ((A_eq9 (VR19 m outs) c 1).trans (V20_of m outs c main_v105 (by decide)).symm)
  | 2 => ((dat9 (VR19 m outs) c).arrAt_in 2 rfl _).trans ((A_eq9 (VR19 m outs) c 2).trans (V20_of m outs c main_v11 (by decide)).symm)
  | 3 => ((dat9 (VR19 m outs) c).arrAt_in 3 rfl _).trans ((A_eq9 (VR19 m outs) c 3).trans (V20_of m outs c main_v102 (by decide)).symm)
  | 4 => ((dat9 (VR19 m outs) c).arrAt_in 4 rfl _).trans ((A_eq9 (VR19 m outs) c 4).trans (V20_of m outs c main_v21 (by decide)).symm)
  | 5 => (h.o9a c).symm.trans (by
      show outs 20 main_v116_0 c = V20 m outs c main_v116_0
      simp only [V20, Function.update_of_ne (StableHlo.devRef_ne_of_ne (by decide) : (Proc.devRef .tc main_v116_0 : DevRef τ sig) ≠ Proc.devRef .tc main_v116_1), Function.update_self])
  | 6 => (h.o9b c).symm.trans (by
      show outs 20 main_v116_1 c = V20 m outs c main_v116_1
      simp only [V20, Function.update_self])
  | ⟨_ + 7, hh⟩ => absurd hh (Nat.not_lt.2 (Nat.le_add_left _ _))

theorem hrest9 (c : Dev nD) : ∀ b, b ∉ Finset.univ.image (Pipeline.arrRef spec9) → VR20 m outs c b = VR19 m outs c b :=
  fun b hb => V20_of m outs c b fun hm =>
    (List.mem_cons.mp hm).elim (fun e => hb (Finset.mem_image.mpr ⟨5, Finset.mem_univ _, e.symm⟩))
      fun hm' => hb (Finset.mem_image.mpr ⟨6, Finset.mem_univ _, (List.mem_singleton.mp hm').symm⟩)

def reg9 (h : OutsOk m outs) : Pipeline.RegionSeg (pcfgs (F := F)) adm (pdats m outs) () defs₀ Variants.none L lv 9 :=
  regOf m outs 9 launch9 (V19 m outs) (V20 m outs) (body_obligation9 (VR19 m outs)) (owed_eq9 (VR19 m outs)) (fun _ _ => rfl) (q_eq9 (VR19 m outs))
    (A_eq9 (VR19 m outs)) (Phi_eq9 (VR19 m outs)) (hF9 m outs h) (hrest9 m outs)

end Cert.KernelIdeal.H

end
-- ==== Proof.KI.Reg10.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF10 (h : OutsOk m outs) (c : Dev nD) : ∀ w : Fin cfg10.W, (dat10 (VR21 m outs) c).arrAt w cfg10.N = VR22 m outs c (Pipeline.arrRef spec10 w)
  | 0 => ((dat10 (VR21 m outs) c).arrAt_in 0 rfl _).trans ((A_eq10 (VR21 m outs) c 0).trans (V22_of m outs c main_v116_0 (by decide)).symm)
  | 1 => ((dat10 (VR21 m outs) c).arrAt_in 1 rfl _).trans ((A_eq10 (VR21 m outs) c 1).trans (V22_of m outs c main_v21 (by decide)).symm)
  | 2 => ((dat10 (VR21 m outs) c).arrAt_in 2 rfl _).trans ((A_eq10 (VR21 m outs) c 2).trans (V22_of m outs c main_v119 (by decide)).symm)
  | 3 => ((dat10 (VR21 m outs) c).arrAt_in 3 rfl _).trans ((A_eq10 (VR21 m outs) c 3).trans (V22_of m outs c main_v122 (by decide)).symm)
  | 4 => (h.o10a c).symm.trans (by
      show outs 22 main_v123_0 c = V22 m outs c main_v123_0
      simp only [V22, Function.update_of_ne (StableHlo.devRef_ne_of_ne (by decide) : (Proc.devRef .tc main_v123_0 : DevRef τ sig) ≠ Proc.devRef .tc main_v123_1), Function.update_self])
  | 5 => (h.o10b c).symm.trans (by
      show outs 22 main_v123_1 c = V22 m outs c main_v123_1
      simp only [V22, Function.update_self])
  | ⟨_ + 6, hh⟩ => absurd hh (Nat.not_lt.2 (Nat.le_add_left _ _))

theorem hrest10 (c : Dev nD) : ∀ b, b ∉ Finset.univ.image (Pipeline.arrRef spec10) → VR22 m outs c b = VR21 m outs c b :=
  fun b hb => V22_of m outs c b fun hm =>
    (List.mem_cons.mp hm).elim (fun e => hb (Finset.mem_image.mpr ⟨4, Finset.mem_univ _, e.symm⟩))
      fun hm' => hb (Finset.mem_image.mpr ⟨5, Finset.mem_univ _, (List.mem_singleton.mp hm').symm⟩)

def reg10 (h : OutsOk m outs) : Pipeline.RegionSeg (pcfgs (F := F)) adm (pdats m outs) () defs₀ Variants.none L lv 10 :=
  regOf m outs 10 launch10 (V21 m outs) (V22 m outs) (body_obligation10 (VR21 m outs)) (owed_eq10 (VR21 m outs)) (fun _ _ => rfl) (q_eq10 (VR21 m outs))
    (A_eq10 (VR21 m outs)) (Phi_eq10 (VR21 m outs)) (hF10 m outs h) (hrest10 m outs)

end Cert.KernelIdeal.H

end
-- ==== Proof.KI.Reg11.lean ====
import proofs.«402146_j32049045962863_2_alg».proof.Proof.KI.RegLib

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

theorem hF11 (h : OutsOk m outs) (c : Dev nD) : ∀ w : Fin cfg11.W, (dat11 (VR23 m outs) c).arrAt w cfg11.N = VR24 m outs c (Pipeline.arrRef spec11 w)
  | 0 => ((dat11 (VR23 m outs) c).arrAt_in 0 rfl _).trans ((A_eq11 (VR23 m outs) c 0).trans (V24_of m outs c main_v123_0 (by decide)).symm)
  | 1 => ((dat11 (VR23 m outs) c).arrAt_in 1 rfl _).trans ((A_eq11 (VR23 m outs) c 1).trans (V24_of m outs c main_v21 (by decide)).symm)
  | 2 => ((dat11 (VR23 m outs) c).arrAt_in 2 rfl _).trans ((A_eq11 (VR23 m outs) c 2).trans (V24_of m outs c main_v137 (by decide)).symm)
  | 3 => ((dat11 (VR23 m outs) c).arrAt_in 3 rfl _).trans ((A_eq11 (VR23 m outs) c 3).trans (V24_of m outs c main_v132 (by decide)).symm)
  | 4 => (h.o11 c).symm.trans (by
      show outs 24 main_v138 c = V24 m outs c main_v138
      simp only [V24, Function.update_self])
  | ⟨_ + 5, hh⟩ => absurd hh (Nat.not_lt.2 (Nat.le_add_left _ _))

theorem hrest11 (c : Dev nD) : ∀ b, b ∉ Finset.univ.image (Pipeline.arrRef spec11) → VR24 m outs c b = VR23 m outs c b :=
  fun b hb => V24_of m outs c b fun hm =>
    hb (Finset.mem_image.mpr ⟨4, Finset.mem_univ _, (List.mem_singleton.mp hm).symm⟩)

def reg11 (h : OutsOk m outs) : Pipeline.RegionSeg (pcfgs (F := F)) adm (pdats m outs) () defs₀ Variants.none L lv 11 :=
  regOf m outs 11 launch11 (V23 m outs) (V24 m outs) (body_obligation11 (VR23 m outs)) (owed_eq11 (VR23 m outs)) (fun _ _ => rfl) (q_eq11 (VR23 m outs))
    (A_eq11 (VR23 m outs)) (Phi_eq11 (VR23 m outs)) (hF11 m outs h) (hrest11 m outs)

end Cert.KernelIdeal.H

end
-- ==== Proof.KI.Run.lean ====
import proofs.«402146_j32049045962863_2_alg».proof.Proof.KI.RunCond
import proofs.«402146_j32049045962863_2_alg».proof.Proof.KI.Outs
import proofs.«402146_j32049045962863_2_alg».proof.Proof.KI.Reg0
import proofs.«402146_j32049045962863_2_alg».proof.Proof.KI.Reg1
import proofs.«402146_j32049045962863_2_alg».proof.Proof.KI.Reg2
import proofs.«402146_j32049045962863_2_alg».proof.Proof.KI.Reg3
import proofs.«402146_j32049045962863_2_alg».proof.Proof.KI.Reg4
import proofs.«402146_j32049045962863_2_alg».proof.Proof.KI.Reg5
import proofs.«402146_j32049045962863_2_alg».proof.Proof.KI.Reg6
import proofs.«402146_j32049045962863_2_alg».proof.Proof.KI.Reg7
import proofs.«402146_j32049045962863_2_alg».proof.Proof.KI.Reg8
import proofs.«402146_j32049045962863_2_alg».proof.Proof.KI.Reg9
import proofs.«402146_j32049045962863_2_alg».proof.Proof.KI.Reg10
import proofs.«402146_j32049045962863_2_alg».proof.Proof.KI.Reg11

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in

theorem run (outs : Outs (F := F)) (h : OutsOk m outs) :
    θ_run defs (onTc (τ := τ) (main (F := F))) ⟨m, fun _ => 0, ρ⟩ (fun r => ∀ c : Dev nD,
      r.2.mem ((c.tc : Thread nD τ).loc main_v138) = V25 m outs c main_v138
      ∧ r.2.mem ((c.tc : Thread nD τ).loc main_v142) = V25 m outs c main_v142
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m emb₁ () Variants.none L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m outs h) (fun _ => .rfl) (fun _ => .rfl)
    (reg1 m outs h) (fun _ => .rfl) (fun _ => .rfl)
    (reg2 m outs h) (fun _ => .rfl) (fun _ => .rfl)
    (reg3 m outs h) (fun _ => .rfl) (fun _ => .rfl)
    (reg4 m outs h) (fun _ => .rfl) (fun _ => .rfl)
    (reg5 m outs h) (fun _ => .rfl) (fun _ => .rfl)
    (reg6 m outs h) (fun _ => .rfl) (fun _ => .rfl)
    (reg7 m outs h) (fun _ => .rfl) (fun _ => .rfl)
    (reg8 m outs h) (fun _ => .rfl) (fun _ => .rfl)
    (reg9 m outs h) (fun _ => .rfl) (fun _ => .rfl)
    (reg10 m outs h) (fun _ => .rfl) (fun _ => .rfl)
    (reg11 m outs h) (fun _ => .rfl) (fun _ => .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  obtain ⟨outs, h⟩ := exists_outs m
  exact (θ_run defs _ _).mono (fun r hr c => (hr c).2.2) (run m ρ outs h)

end Cert.KernelIdeal.H

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SNC : Shape := ⟨2, ![100000, 128]⟩
abbrev SN1 : Shape := ⟨2, ![100000, 1]⟩
abbrev SN  : Shape := ⟨1, ![100000]⟩
abbrev SCC : Shape := ⟨2, ![128, 128]⟩
abbrev S1C : Shape := ⟨2, ![1, 128]⟩
abbrev SGC : Shape := ⟨2, ![64, 128]⟩
abbrev SG1 : Shape := ⟨2, ![64, 1]⟩
abbrev S2GC : Shape := ⟨3, ![2, 64, 128]⟩
abbrev SEC : Shape := ⟨2, ![1000000, 128]⟩

def rowOf (h : Fin 2) (q : Fin 50000) : Fin 100000 := ⟨h.val * 50000 + q.val, by have := h.isLt; have := q.isLt; omega⟩

def oneHot (batch : Fin 100000 → BitVec 32) (n : Fin 100000) (g : Fin 64) : EReal :=
  if batch n = BitVec.ofNat 32 g.val then 1 else 0

def linA (x : SNC.Idx → EReal) (w : SCC.Idx → EReal) (d : SN1.Idx → EReal) : SNC.Idx → EReal :=
  fun i => (∑ k : Fin 128, x (ix2 (i 0 : Fin 100000) k) * w (ix2 k (i 1 : Fin 128))) * d (ix2 (i 0 : Fin 100000) (0 : Fin 1))

def combA (agg xws : SNC.Idx → EReal) (d : SN1.Idx → EReal) (b : S1C.Idx → EReal) : SNC.Idx → EReal :=
  fun i => d (ix2 (i 0 : Fin 100000) (0 : Fin 1)) * (agg i + xws i) + b (ix2 (0 : Fin 1) (i 1 : Fin 128))

def partA (batch : Fin 100000 → BitVec 32) (v : SNC.Idx → EReal) : S2GC.Idx → EReal :=
  fun j => ∑ q : Fin 50000, oneHot batch (rowOf (j 0 : Fin 2) q) (j 1 : Fin 64) * v (ix2 (rowOf (j 0 : Fin 2) q) (j 2 : Fin 128))

def selA (batch : Fin 100000 → BitVec 32) (t : SGC.Idx → EReal) : SNC.Idx → EReal :=
  fun i => ∑ g : Fin 64, oneHot batch (i 0 : Fin 100000) g * t (ix2 g (i 1 : Fin 128))

def cenA (batch : Fin 100000 → BitVec 32) (gcn : SNC.Idx → EReal) (mean : SGC.Idx → EReal) (ms : S1C.Idx → EReal) : SNC.Idx → EReal :=
  fun i => gcn i - selA batch mean i * ms (ix2 (0 : Fin 1) (i 1 : Fin 128))

def sqA (o : SNC.Idx → EReal) : SNC.Idx → EReal := fun i => o i * o i

def lreluK (slope v : EReal) : EReal := if 0 < v then v else v * slope

def finA (batch : Fin 100000 → BitVec 32) (o : SNC.Idx → EReal) (scale : SGC.Idx → EReal) (gb : S1C.Idx → EReal) (slope : EReal) : SNC.Idx → EReal :=
  fun i => lreluK slope (o i * selA batch scale i + gb (ix2 (0 : Fin 1) (i 1 : Fin 128)))

def clampIdx (n : Nat) (hn : 0 < n) (v : BitVec 32) : Fin n := ⟨min v.toInt.toNat (n - 1), by omega⟩

def hitIdx (n : Nat) (v : BitVec 32) : Option (Fin n) :=
  if h : 0 ≤ v.toInt ∧ v.toInt < n then some ⟨v.toInt.toNat, by omega⟩ else none

def wrapIdx (n : BitVec 32) (v : BitVec 32) : BitVec 32 := if v.toInt < 0 then v + n else v

structure Shared where
  src : Fin 1000000 → BitVec 32
  dst : Fin 1000000 → BitVec 32
  batch : Fin 100000 → BitVec 32
  d : Fin 100000 → EReal
  ci : Fin 64 → EReal
  eps : EReal
  slope : EReal

structure Layer where
  w : SCC.Idx → EReal
  b : Fin 128 → EReal
  gw : Fin 128 → EReal
  gb : Fin 128 → EReal
  ms : Fin 128 → EReal

namespace Shared
variable (P : Shared)

def sg (e : Fin 1000000) : Fin 100000 := clampIdx 100000 (by decide) (wrapIdx 100000#32 (P.src e))

def dg (e : Fin 1000000) : Fin 100000 := clampIdx 100000 (by decide) (wrapIdx 100000#32 (P.dst e))

def dh (e : Fin 1000000) : Option (Fin 100000) := hitIdx 100000 (P.dst e)

def bg (n : Fin 100000) : Fin 64 := clampIdx 64 (by decide) (wrapIdx 64#32 (P.batch n))

def bh (n : Fin 100000) : Option (Fin 64) := hitIdx 64 (P.batch n)
end Shared

open Classical in

def layerK (P : Shared) (L : Layer) (x : SNC.Idx → EReal) : SNC.Idx → EReal :=
  let dcol : SN1.Idx → EReal := fun i => P.d (i 0 : Fin 100000)
  let xws := linA x L.w dcol
  let agg : SNC.Idx → EReal := fun i =>
    0 + ∑ e ∈ Finset.univ.filter (fun e => P.dh e = some (i 0 : Fin 100000)), xws (ix2 (P.sg e) (i 1 : Fin 128))
  let gcn := combA agg xws dcol (fun i => L.b (i 1 : Fin 128))
  let mean : SGC.Idx → EReal := fun j =>
    (0 + ∑ h : Fin 2, partA P.batch gcn (ix3 h (j 0 : Fin 64) (j 1 : Fin 128))) * P.ci (j 0 : Fin 64)
  let o := cenA P.batch gcn mean (fun i => L.ms (i 1 : Fin 128))
  let var : SGC.Idx → EReal := fun j =>
    (0 + ∑ h : Fin 2, partA P.batch (sqA o) (ix3 h (j 0 : Fin 64) (j 1 : Fin 128))) * P.ci (j 0 : Fin 64)
  let scale : SGC.Idx → EReal := fun j => Ideal.rsqrt (var j + P.eps) * L.gw (j 1 : Fin 128)
  finA P.batch o scale (fun i => L.gb (i 1 : Fin 128)) P.slope

def lreluR (slope v : EReal) : EReal := if 0 ≤ v then v else slope * v

open Classical in

def layerR (P : Shared) (L : Layer) (x : SNC.Idx → EReal) : SNC.Idx → EReal :=
  let xw : SNC.Idx → EReal := fun i => ∑ k : Fin 128, x (ix2 (i 0 : Fin 100000) k) * L.w (ix2 k (i 1 : Fin 128))
  let agg : SNC.Idx → EReal := fun i =>
    0 + ∑ e ∈ Finset.univ.filter (fun e => P.dh e = some (i 0 : Fin 100000)),
      xw (ix2 (P.sg e) (i 1 : Fin 128)) * (P.d (P.sg e) * P.d (P.dg e))
  let gcn : SNC.Idx → EReal := fun i =>
    (agg i + xw i * (P.d (i 0 : Fin 100000) * P.d (i 0 : Fin 100000))) + L.b (i 1 : Fin 128)
  let seg (v : SNC.Idx → EReal) : SGC.Idx → EReal := fun j =>
    0 + ∑ n ∈ Finset.univ.filter (fun n => P.bh n = some (j 0 : Fin 64)), v (ix2 n (j 1 : Fin 128))
  let mean : SGC.Idx → EReal := fun j => seg gcn j * P.ci (j 0 : Fin 64)
  let o : SNC.Idx → EReal := fun i => gcn i - mean (ix2 (P.bg (i 0 : Fin 100000)) (i 1 : Fin 128)) * L.ms (i 1 : Fin 128)
  let var : SGC.Idx → EReal := fun j => seg (fun i => o i * o i) j * P.ci (j 0 : Fin 64)
  fun i => lreluR P.slope
    (o i * Ideal.rsqrt (var (ix2 (P.bg (i 0 : Fin 100000)) (i 1 : Fin 128)) + P.eps) * L.gw (i 1 : Fin 128) + L.gb (i 1 : Fin 128))

structure Shared.Ok (P : Shared) : Prop where
  d_nonneg : ∀ n, 0 ≤ P.d n
  d_ne_top : ∀ n, P.d n ≠ ⊤
  batch_lo : ∀ n, 0 ≤ (P.batch n).toInt
  batch_hi : ∀ n, (P.batch n).toInt < 64

abbrev S2E : Shape := ⟨2, ![2, 1000000]⟩
abbrev S3CC : Shape := ⟨3, ![3, 128, 128]⟩
abbrev S3C : Shape := ⟨2, ![3, 128]⟩

def zeroW : EReal := Ideal.ofBits .f32 0x00000000#32
def oneW : EReal := Ideal.ofBits .f32 0x3F800000#32
def epsW : EReal := Ideal.ofBits .f32 0x3727C5AC#32
def slopeW : EReal := Ideal.ofBits .f32 0x3C23D70A#32

open Classical in

def dOf (dst : Fin 1000000 → BitVec 32) (n : Fin 100000) : EReal :=
  Ideal.rsqrt ((zeroW + ∑ e ∈ Finset.univ.filter (fun e => hitIdx 100000 (dst e) = some n), oneW) + oneW)

open Classical in

def ciOf (batch : Fin 100000 → BitVec 32) (g : Fin 64) : EReal :=
  Ideal.div oneW (max (zeroW + ∑ n ∈ Finset.univ.filter (fun n => hitIdx 64 (batch n) = some g), oneW) oneW)

def sharedOf (ei : S2E.Idx → BitVec 32) (batch : SN.Idx → BitVec 32) : Shared where
  src e := ei (ix2 (0 : Fin 2) e)
  dst e := ei (ix2 (1 : Fin 2) e)
  batch n := batch (ix1 n)
  d := dOf (fun e => ei (ix2 (1 : Fin 2) e))
  ci := ciOf (fun n => batch (ix1 n))
  eps := epsW
  slope := slopeW

def layerOf (l : Fin 3) (w3 : S3CC.Idx → EReal) (b3 gw3 gb3 ms3 : S3C.Idx → EReal) : Layer where
  w i := w3 (ix3 l (i 0 : Fin 128) (i 1 : Fin 128))
  b c := b3 (ix2 l c)
  gw c := gw3 (ix2 l c)
  gb c := gb3 (ix2 l c)
  ms c := ms3 (ix2 l c)

end Cert.Spec

end
-- ==== Proof.LibIdx.lean ====
import proofs.«402146_j32049045962863_2_alg».proof.Proof.Spec
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.IdxLib

open Idealize.ShloMosaic Idealize.ShloMosaic.ValueIdx Cert.Spec

theorem gather_rows_apply {α : Type} {n c e : Nat} (hn : 0 < n)
    (d : GatherDims ⟨2, ![n, c]⟩ ⟨2, ![e, 1]⟩ ⟨2, ![e, c]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, c])
    (x : (⟨2, ![n, c]⟩ : Shape).Idx → α) (idx : IVec ⟨2, ![e, 1]⟩ 32) (a : Fin e) (b : Fin c) :
    Host.gather d x idx (ix2 a b) = x (ix2 (clampIdx n hn (idx (ix2 a (0 : Fin 1)))) b) := by
  obtain ⟨od, cs, ob, sb, sim, iv, ss, wf⟩ := d
  simp only at h1 h2 h3 h4 h5 h6 h7
  subst h1 h2 h3 h4 h5 h6 h7
  unfold Host.gather
  congr 1
  funext k
  refine Fin.ext ?_
  match k with
  | ⟨0, _⟩ =>
    show GatherDims.start _ (ix2 a b) idx 0 + GatherDims.batchCoord _ (ix2 a b) 0 + GatherDims.offCoord _ (ix2 a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, c], wf⟩ : GatherDims ⟨2, ![n, c]⟩ ⟨2, ![e, 1]⟩ ⟨2, ![e, c]⟩) (ix2 a b)
        ⟨List.idxOf (0 : Fin 2) [0], List.idxOf_lt_length_iff.2 (List.mem_singleton.mpr rfl)⟩ = ix2 a (0 : Fin 1) := by
      funext q; refine Fin.ext ?_
      match q with
      | ⟨0, _⟩ => rfl
      | ⟨1, _⟩ => rfl
    rw [hsi]
    rfl
  | ⟨1, _⟩ =>
    show GatherDims.start _ (ix2 a b) idx 1 + GatherDims.batchCoord _ (ix2 a b) 1 + GatherDims.offCoord _ (ix2 a b) 1 = _
    rw [GatherDims.batchCoord_eq_zero _ _ _ List.not_mem_nil]
    have hst : GatherDims.start (⟨[1], [0], [], [], [0], 1, ![1, c], wf⟩ : GatherDims ⟨2, ![n, c]⟩ ⟨2, ![e, 1]⟩ ⟨2, ![e, c]⟩) (ix2 a b) idx 1 = 0 := by
      unfold GatherDims.start
      rw [dif_neg (show (1 : Fin 2) ∉ ([0] : List (Fin 2)) by decide)]
    rw [hst]
    unfold GatherDims.offCoord
    rw [dif_pos ((GatherDims.mem_sKept _ _).2 ⟨(show (1 : Fin 2) ∉ ([0] : List (Fin 2)) by decide), List.not_mem_nil⟩)]
    rw [Nat.zero_add]
    rfl

section Rows
variable {n c e : Nat}

abbrev rowsD (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ := ⟨[1], [0], [0], 1, wf⟩

theorem rows_start0 (wf : ScatterDims.WF ⟨2, ![n, c]⟩ ⟨2, ![e, 1]⟩ ⟨2, ![e, c]⟩ [1] [0] [0] 1)
    (idx : IVec ⟨2, ![e, 1]⟩ 32) (j : Fin e) (b' : Fin c) :
    (rowsD wf).start (ix2 j b') idx 0 = (idx (ix2 j (0 : Fin 1))).toInt := by
  unfold ScatterDims.start
  rw [dif_pos (List.mem_singleton.mpr rfl)]
  have hsi : (rowsD wf).siIdx (ix2 j b')
      ⟨List.idxOf (0 : Fin 2) [0], List.idxOf_lt_length_iff.2 (List.mem_singleton.mpr rfl)⟩ = ix2 j (0 : Fin 1) := by
    funext q; refine Fin.ext ?_
    match q with
    | ⟨0, _⟩ => rfl
    | ⟨1, _⟩ => rfl
  rw [hsi]

theorem rows_start1 (wf : ScatterDims.WF ⟨2, ![n, c]⟩ ⟨2, ![e, 1]⟩ ⟨2, ![e, c]⟩ [1] [0] [0] 1)
    (idx : IVec ⟨2, ![e, 1]⟩ 32) (j : Fin e) (b' : Fin c) :
    (rowsD wf).start (ix2 j b') idx 1 = 0 := by
  unfold ScatterDims.start
  rw [dif_neg (show (1 : Fin 2) ∉ ([0] : List (Fin 2)) by decide)]

theorem rows_window0 (wf : ScatterDims.WF ⟨2, ![n, c]⟩ ⟨2, ![e, 1]⟩ ⟨2, ![e, c]⟩ [1] [0] [0] 1)
    (j : Fin e) (b' : Fin c) : (rowsD wf).window (ix2 j b') 0 = 0 := by
  unfold ScatterDims.window
  rw [dif_neg (by simp [ScatterDims.sKept, Shape.kept, List.mem_filter, List.mem_finRange])]

theorem rows_window1 (wf : ScatterDims.WF ⟨2, ![n, c]⟩ ⟨2, ![e, 1]⟩ ⟨2, ![e, c]⟩ [1] [0] [0] 1)
    (j : Fin e) (b' : Fin c) : (rowsD wf).window (ix2 j b') 1 = b'.val := by
  unfold ScatterDims.window
  rw [dif_pos (by simp [ScatterDims.sKept, Shape.kept, List.mem_filter, List.mem_finRange])]
  rfl

theorem rows_resultIdx (wf : ScatterDims.WF ⟨2, ![n, c]⟩ ⟨2, ![e, 1]⟩ ⟨2, ![e, c]⟩ [1] [0] [0] 1)
    (idx : IVec ⟨2, ![e, 1]⟩ 32) (j : Fin e) (b' : Fin c) :
    (rowsD wf).resultIdx? (ix2 j b') idx = (hitIdx n (idx (ix2 j (0 : Fin 1)))).map (fun r => ix2 r b') := by
  unfold ScatterDims.resultIdx? hitIdx
  by_cases hr : 0 ≤ (idx (ix2 j (0 : Fin 1))).toInt ∧ (idx (ix2 j (0 : Fin 1))).toInt < n
  · have hall : ∀ a' : Fin 2, 0 ≤ (rowsD wf).start (ix2 j b') idx a' + (rowsD wf).window (ix2 j b') a' ∧
        (rowsD wf).start (ix2 j b') idx a' + (rowsD wf).window (ix2 j b') a' < (⟨2, ![n, c]⟩ : Shape).size a' := by
      intro a'
      match a' with
      | ⟨0, _⟩ =>
        show 0 ≤ (rowsD wf).start (ix2 j b') idx 0 + (rowsD wf).window (ix2 j b') 0 ∧
          (rowsD wf).start (ix2 j b') idx 0 + (rowsD wf).window (ix2 j b') 0 < (n : Int)
        rw [rows_start0, rows_window0]; simpa using hr
      | ⟨1, _⟩ =>
        show 0 ≤ (rowsD wf).start (ix2 j b') idx 1 + (rowsD wf).window (ix2 j b') 1 ∧
          (rowsD wf).start (ix2 j b') idx 1 + (rowsD wf).window (ix2 j b') 1 < (c : Int)
        rw [rows_start1, rows_window1]; have := b'.isLt; omega
    rw [dif_pos hall, dif_pos hr, Option.map_some]
    congr 1
    funext a'; refine Fin.ext ?_
    match a' with
    | ⟨0, _⟩ =>
      show ((rowsD wf).start (ix2 j b') idx 0 + (rowsD wf).window (ix2 j b') 0).toNat = _
      rw [rows_start0, rows_window0]; simp
    | ⟨1, _⟩ =>
      show ((rowsD wf).start (ix2 j b') idx 1 + (rowsD wf).window (ix2 j b') 1).toNat = _
      rw [rows_start1, rows_window1]; simp
  · rw [dif_neg hr, dif_neg]
    · rfl
    · intro hall
      have h0 := hall 0
      rw [rows_start0, rows_window0] at h0
      exact hr (by simpa using h0)

end Rows

open Classical in

theorem scatterAdd_rows_apply {φ : FTy} {n c e : Nat}
    (d : ScatterDims ⟨2, ![n, c]⟩ ⟨2, ![e, 1]⟩ ⟨2, ![e, c]⟩)
    (h1 : d.updateWindowDims = [1]) (h2 : d.insertedWindowDims = [0]) (h3 : d.scatterDimsToOperandDims = [0])
    (h4 : d.indexVectorDim = 1)
    (x : FVec Ideal ⟨2, ![n, c]⟩ φ) (idx : IVec ⟨2, ![e, 1]⟩ 32) (u : FVec Ideal ⟨2, ![e, c]⟩ φ) (a : Fin n) (b : Fin c) :
    Host.scatterAdd (F := Ideal) d x idx u (ix2 a b)
      = x (ix2 a b) + ∑ j ∈ Finset.univ.filter (fun j : Fin e => hitIdx n (idx (ix2 j (0 : Fin 1))) = some a), u (ix2 j b) := by
  obtain ⟨uw, iw, sd, iv, wf⟩ := d
  simp only at h1 h2 h3 h4
  subst h1 h2 h3 h4
  show x (ix2 a b) + ∑ j' ∈ Finset.univ.filter (fun j' => (rowsD wf).resultIdx? j' idx = some (ix2 a b)), u j' = _
  congr 1
  rw [Finset.sum_filter, sum_idx2, Finset.sum_filter]
  refine Finset.sum_congr rfl fun j _ => ?_
  have hiff : ∀ b' : Fin c, ((rowsD wf).resultIdx? (ix2 j b') idx = some (ix2 a b)) ↔
      (hitIdx n (idx (ix2 j (0 : Fin 1))) = some a ∧ b' = b) := by
    intro b'
    rw [rows_resultIdx]
    cases hh : hitIdx n (idx (ix2 j (0 : Fin 1))) with
    | none => simp
    | some r =>
      rw [Option.map_some]
      constructor
      · intro h
        have h' := Option.some.inj h
        exact ⟨congrArg some (congrFun h' 0), congrFun h' 1⟩
      · rintro ⟨hra, rfl⟩
        rw [Option.some.inj hra]
  by_cases hh : hitIdx n (idx (ix2 j (0 : Fin 1))) = some a
  · rw [if_pos hh]
    rw [Finset.sum_eq_single b]
    · rw [if_pos ((hiff b).2 ⟨hh, rfl⟩)]
    · intro b' _ hb'
      rw [if_neg (fun h => hb' ((hiff b').1 h).2)]
    · intro h; exact absurd (Finset.mem_univ b) h
  · rw [if_neg hh]
    exact Finset.sum_eq_zero fun b' _ => if_neg (fun h => hh ((hiff b').1 h).1)

def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Flat
variable {n e : Nat}

abbrev flatD (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

theorem flat_start0 (wf : ScatterDims.WF ⟨1, ![n]⟩ ⟨2, ![e, 1]⟩ ⟨1, ![e]⟩ [] [0] [0] 1)
    (idx : IVec ⟨2, ![e, 1]⟩ 32) (j : Fin e) :
    (flatD wf).start (ix1 j) idx 0 = (idx (ix2 j (0 : Fin 1))).toInt := by
  unfold ScatterDims.start
  rw [dif_pos (List.mem_singleton.mpr rfl)]
  have hsi : (flatD wf).siIdx (ix1 j)
      ⟨List.idxOf (0 : Fin 1) [0], List.idxOf_lt_length_iff.2 (List.mem_singleton.mpr rfl)⟩ = ix2 j (0 : Fin 1) := by
    funext q; refine Fin.ext ?_
    match q with
    | ⟨0, _⟩ => rfl
    | ⟨1, _⟩ => rfl
  rw [hsi]

theorem flat_window0 (wf : ScatterDims.WF ⟨1, ![n]⟩ ⟨2, ![e, 1]⟩ ⟨1, ![e]⟩ [] [0] [0] 1)
    (j : Fin e) : (flatD wf).window (ix1 j) 0 = 0 := by
  unfold ScatterDims.window
  rw [dif_neg (by simp [ScatterDims.sKept, Shape.kept, List.mem_filter, List.mem_finRange])]

theorem flat_resultIdx (wf : ScatterDims.WF ⟨1, ![n]⟩ ⟨2, ![e, 1]⟩ ⟨1, ![e]⟩ [] [0] [0] 1)
    (idx : IVec ⟨2, ![e, 1]⟩ 32) (j : Fin e) :
    (flatD wf).resultIdx? (ix1 j) idx = (hitIdx n (idx (ix2 j (0 : Fin 1)))).map (fun r => ix1 r) := by
  unfold ScatterDims.resultIdx? hitIdx
  by_cases hr : 0 ≤ (idx (ix2 j (0 : Fin 1))).toInt ∧ (idx (ix2 j (0 : Fin 1))).toInt < n
  · have hall : ∀ a' : Fin 1, 0 ≤ (flatD wf).start (ix1 j) idx a' + (flatD wf).window (ix1 j) a' ∧
        (flatD wf).start (ix1 j) idx a' + (flatD wf).window (ix1 j) a' < (⟨1, ![n]⟩ : Shape).size a' := by
      intro a'
      match a' with
      | ⟨0, _⟩ =>
        show 0 ≤ (flatD wf).start (ix1 j) idx 0 + (flatD wf).window (ix1 j) 0 ∧
          (flatD wf).start (ix1 j) idx 0 + (flatD wf).window (ix1 j) 0 < (n : Int)
        rw [flat_start0, flat_window0]; simpa using hr
    rw [dif_pos hall, dif_pos hr, Option.map_some]
    congr 1
    funext a'; refine Fin.ext ?_
    match a' with
    | ⟨0, _⟩ =>
      show ((flatD wf).start (ix1 j) idx 0 + (flatD wf).window (ix1 j) 0).toNat = _
      rw [flat_start0, flat_window0]; simp
  · rw [dif_neg hr, dif_neg]
    · rfl
    · intro hall
      have h0 := hall 0
      rw [flat_start0, flat_window0] at h0
      exact hr (by simpa using h0)

end Flat

open Classical in

theorem scatterAdd_flat_apply {φ : FTy} {n e : Nat}
    (d : ScatterDims ⟨1, ![n]⟩ ⟨2, ![e, 1]⟩ ⟨1, ![e]⟩)
    (h1 : d.updateWindowDims = []) (h2 : d.insertedWindowDims = [0]) (h3 : d.scatterDimsToOperandDims = [0])
    (h4 : d.indexVectorDim = 1)
    (x : FVec Ideal ⟨1, ![n]⟩ φ) (idx : IVec ⟨2, ![e, 1]⟩ 32) (u : FVec Ideal ⟨1, ![e]⟩ φ) (a : Fin n) :
    Host.scatterAdd (F := Ideal) d x idx u (ix1 a)
      = x (ix1 a) + ∑ j ∈ Finset.univ.filter (fun j : Fin e => hitIdx n (idx (ix2 j (0 : Fin 1))) = some a), u (ix1 j) := by
  obtain ⟨uw, iw, sd, iv, wf⟩ := d
  simp only at h1 h2 h3 h4
  subst h1 h2 h3 h4
  show x (ix1 a) + ∑ j' ∈ Finset.univ.filter (fun j' => (flatD wf).resultIdx? j' idx = some (ix1 a)), u j' = _
  congr 1
  rw [Finset.sum_filter, sum_idx1, Finset.sum_filter]
  refine Finset.sum_congr rfl fun j _ => ?_
  have hiff : ((flatD wf).resultIdx? (ix1 j) idx = some (ix1 a)) ↔ hitIdx n (idx (ix2 j (0 : Fin 1))) = some a := by
    rw [flat_resultIdx]
    cases hh : hitIdx n (idx (ix2 j (0 : Fin 1))) with
    | none => simp
    | some r =>
      rw [Option.map_some]
      constructor
      · intro h
        exact congrArg some (congrFun (Option.some.inj h) 0)
      · intro hra
        rw [Option.some.inj hra]
  by_cases hh : hitIdx n (idx (ix2 j (0 : Fin 1))) = some a
  · rw [if_pos hh, if_pos (hiff.2 hh)]
  · rw [if_neg hh, if_neg (fun h => hh (hiff.1 h))]

theorem gather_flat_apply {α : Type} {n e : Nat} (hn : 0 < n)
    (d : GatherDims ⟨1, ![n]⟩ ⟨2, ![e, 1]⟩ ⟨1, ![e]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![n]⟩ : Shape).Idx → α) (idx : IVec ⟨2, ![e, 1]⟩ 32) (a : Fin e) :
    Host.gather d x idx (ix1 a) = x (ix1 (clampIdx n hn (idx (ix2 a (0 : Fin 1))))) := by
  have h := StableHlo.Predicate.gather_take d h2 h3 h5 h6 x idx a hn
  have e1 : (Shape.Idx.ofFin a : (⟨1, ![e]⟩ : Shape).Idx) = ix1 a := by
    funext q; match q with | ⟨0, _⟩ => rfl
  have e2 : StableHlo.Predicate.ixP a = ix2 a (0 : Fin 1) := by
    funext q; match q with | ⟨0, _⟩ => rfl | ⟨1, _⟩ => rfl
  rw [e1] at h
  rw [h]
  congr 1
  funext q
  match q with
  | ⟨0, _⟩ =>
    refine Fin.ext ?_
    show min (idx (StableHlo.Predicate.ixP a)).toInt.toNat (n - 1) = min (idx (ix2 a (0 : Fin 1))).toInt.toNat (n - 1)
    rw [e2]

theorem wrap_select_apply {s : Shape} (v z k : IVec s 32) (kk : BitVec 32) (hz : ∀ i, z i = 0#32) (hk : ∀ i, k i = kk)
    (i : s.Idx) : select (cmpi .slt v z) (addi v k) v i = wrapIdx kk (v i) := by
  show Scalar.select (IntOp.cmpi .slt (v i) (z i)) (IntOp.addi (v i) (k i)) (v i) = _
  rw [hz, hk]
  have hc : IntOp.cmpi .slt (v i) 0#32 = 1#1 ↔ (v i).toInt < 0 := by
    simp only [IntOp.cmpi, StableHlo.Predicate.ofBool_eq_one_iff, BitVec.slt_iff_toInt_lt]
    simp
  unfold wrapIdx Scalar.select IntOp.addi
  by_cases h : (v i).toInt < 0
  · rw [if_pos h]; exact if_pos (hc.2 h)
  · rw [if_neg h]; exact if_neg (fun h' => h (hc.1 h'))

theorem clamp_wrap_of_hit {n : Nat} (hn : 0 < n) (_hn31 : n < 2 ^ 31) {v : BitVec 32} {k : Fin n}
    (h : hitIdx n v = some k) : clampIdx n hn (wrapIdx (BitVec.ofNat 32 n) v) = k := by
  unfold hitIdx at h
  split at h
  · rename_i hr
    have hk : k = ⟨v.toInt.toNat, by omega⟩ := (Option.some.inj h).symm
    subst hk
    unfold wrapIdx
    rw [if_neg (by omega)]
    unfold clampIdx
    refine Fin.ext ?_
    show min v.toInt.toNat (n - 1) = v.toInt.toNat
    omega
  · exact absurd h (by simp)

theorem hit_of_range {n : Nat} (hn : 0 < n) {v : BitVec 32} (h0 : 0 ≤ v.toInt) (h1 : v.toInt < n) :
    hitIdx n v = some (clampIdx n hn (wrapIdx (BitVec.ofNat 32 n) v)) := by
  unfold hitIdx
  rw [dif_pos ⟨h0, h1⟩]
  unfold wrapIdx
  rw [if_neg (by omega)]
  unfold clampIdx
  congr 1
  refine Fin.ext ?_
  show v.toInt.toNat = min v.toInt.toNat (n - 1)
  omega

theorem sitofp_eq_word {φ : FTy} (v w : BitVec 32) :
    FloatOps.sitofp (F := Ideal) φ ((IntOp.cmpi .eq v w).setWidth 32) = if v = w then (1 : EReal) else 0 := by
  show ((((IntOp.cmpi .eq v w).setWidth 32).toInt : ℝ) : EReal) = _
  by_cases h : v = w
  · rw [StableHlo.Predicate.cmpi_eq_iff.2 h, if_pos h]
    have : (BitVec.setWidth 32 1#1).toInt = 1 := by decide
    rw [this]; simp
  · rw [eq_zero_of_ne_one (fun h' => h (StableHlo.Predicate.cmpi_eq_iff.1 h')), if_neg h]
    have : (BitVec.setWidth 32 0#1).toInt = 0 := by decide
    rw [this]; simp

theorem iota_axis1_apply {R G : Nat} (h : (⟨2, ![R, G]⟩ : Shape).Iotas .tc 32 [1]) (r : Fin R) (g : Fin G) :
    iota .tc ⟨2, ![R, G]⟩ 32 [1] h (ix2 r g) = BitVec.ofNat 32 g.val := by
  unfold iota
  simp only [List.foldl_cons, List.foldl_nil, Nat.zero_mul, Nat.zero_add]
  rfl

theorem member_entry_apply {φ : FTy} {R G : Nat} (h : (⟨2, ![R, G]⟩ : Shape).Iotas .tc 32 [1])
    (bw : IVec ⟨2, ![R, G]⟩ 32) (h132 : 1 < 32) (r : Fin R) (g : Fin G) :
    (sitofp φ (extui 32 (cmpi .eq bw (iota .tc ⟨2, ![R, G]⟩ 32 [1] h)) h132) : FVec Ideal ⟨2, ![R, G]⟩ φ) (ix2 r g)
      = if bw (ix2 r g) = BitVec.ofNat 32 g.val then (1 : EReal) else 0 := by
  show FloatOps.sitofp (F := Ideal) φ ((IntOp.cmpi .eq (bw (ix2 r g)) (iota .tc ⟨2, ![R, G]⟩ 32 [1] h (ix2 r g))).setWidth 32) = _
  rw [iota_axis1_apply, sitofp_eq_word]

theorem ofBits_one_f32 : Ideal.ofBits .f32 0x3F800000#32 = 1 := by
  simp [Ideal.ofBits, Ideal.ieee]
  rw [← EReal.coe_mul, ← EReal.coe_one]
  congr 1
  norm_num

theorem deg_eq {ι : Type} (S : Finset ι) : ((0 : EReal) + ∑ _j ∈ S, (1 : EReal)) + 1 = (((S.card : ℝ) + 1 : ℝ) : EReal) := by
  rw [zero_add, Finset.sum_const, EReal.nsmul_eq_mul, mul_one, EReal.coe_add, EReal.coe_one, EReal.coe_natCast]

theorem rsqrt_deg_nonneg {ι : Type} (S : Finset ι) : 0 ≤ Ideal.rsqrt (((0 : EReal) + ∑ _j ∈ S, (1 : EReal)) + 1) := by
  rw [deg_eq, Ideal.rsqrt_coe]
  have hpos : (0 : ℝ) < (S.card : ℝ) + 1 := by positivity
  rw [if_neg (not_lt.2 hpos.le), if_neg hpos.ne']
  exact_mod_cast inv_nonneg.2 (Real.sqrt_nonneg _)

theorem rsqrt_deg_ne_top {ι : Type} (S : Finset ι) : Ideal.rsqrt (((0 : EReal) + ∑ _j ∈ S, (1 : EReal)) + 1) ≠ ⊤ := by
  rw [deg_eq, Ideal.rsqrt_coe]
  have hpos : (0 : ℝ) < (S.card : ℝ) + 1 := by positivity
  rw [if_neg (not_lt.2 hpos.le), if_neg hpos.ne']
  exact EReal.coe_ne_top _

end Cert.IdxLib

end
-- ==== Proof.KI.Glue.lean ====
import proofs.«402146_j32049045962863_2_alg».proof.Proof.Gen.KernelIdeal.Regions
import proofs.«402146_j32049045962863_2_alg».proof.Proof.Spec
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal
import Idealize.ShloMosaic.PureOps.Ideal.Laws
import proofs.«402146_j32049045962863_2_alg».proof.Proof.LibIdx

noncomputable section

namespace Cert.KernelIdeal.H

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal))

abbrev eiA (c : Dev nD) : Cert.Spec.S2E.Idx → BitVec 32 := m ((c : Thread nD τ).loc main_arg1)

abbrev batchA (c : Dev nD) : Cert.Spec.SN.Idx → BitVec 32 := m ((c : Thread nD τ).loc main_arg2)

abbrev PA (c : Dev nD) : Cert.Spec.Shared := Cert.Spec.sharedOf (eiA m c) (batchA m c)

abbrev LA (l : Fin 3) (c : Dev nD) : Cert.Spec.Layer :=
  Cert.Spec.layerOf l (m ((c : Thread nD τ).loc main_arg3)) (m ((c : Thread nD τ).loc main_arg4)) (m ((c : Thread nD τ).loc main_arg5))
    (m ((c : Thread nD τ).loc main_arg6)) (m ((c : Thread nD τ).loc main_arg7))

theorem V1_v1 (c : Dev nD) (e : Fin 1000000) :
    (V1 m c main_v1 : S1000000.Idx → BitVec 32) (ix1 e) = eiA m c (ix2 (0 : Fin 2) e) := by
  show StableHlo.after hostOps0 (V0 m c) (Proc.devRef .tc main_v1) (ix1 e) = _
  after_results
  show shapeCast S1000000 _ _ (ix1 e) = _
  refine (shapeCast_apply _ _ (ix1 e) (ix2 (0 : Fin 1) e) ?_).trans ?_
  · rw [Shape.rowMajor_val_two, Shape.rowMajor_val_one]; show 0 * 1000000 + e.val = e.val; omega
  refine (extractStridedSlice_apply _ _ _ (ix2 (0 : Fin 1) e) (ix2 (0 : Fin 2) e) ?_).trans rfl
  intro a
  match a with
  | ⟨0, _⟩ => rfl
  | ⟨1, _⟩ => show e.val = 0 + e.val; omega

theorem V1_v3 (c : Dev nD) (e : Fin 1000000) :
    (V1 m c main_v3 : S1000000.Idx → BitVec 32) (ix1 e) = eiA m c (ix2 (1 : Fin 2) e) := by
  show StableHlo.after hostOps0 (V0 m c) (Proc.devRef .tc main_v3) (ix1 e) = _
  after_results
  show shapeCast S1000000 _ _ (ix1 e) = _
  refine (shapeCast_apply _ _ (ix1 e) (ix2 (0 : Fin 1) e) ?_).trans ?_
  · rw [Shape.rowMajor_val_two, Shape.rowMajor_val_one]; show 0 * 1000000 + e.val = e.val; omega
  refine (extractStridedSlice_apply _ _ _ (ix2 (0 : Fin 1) e) (ix2 (1 : Fin 2) e) ?_).trans rfl
  intro a
  match a with
  | ⟨0, _⟩ => rfl
  | ⟨1, _⟩ => show e.val = 0 + e.val; omega

theorem V1_v21 (c : Dev nD) (n : Fin 100000) : (V1 m c main_v21 : S100000x1.Idx → BitVec 32) (ix2 n (0 : Fin 1)) = batchA m c (ix1 n) := by
  show StableHlo.after hostOps0 (V0 m c) (Proc.devRef .tc main_v21) (ix2 n (0 : Fin 1)) = _
  after_results
  show shapeCast S100000x1 _ _ (ix2 n (0 : Fin 1)) = _
  refine (shapeCast_apply _ _ (ix2 n (0 : Fin 1)) (ix1 n) ?_).trans rfl
  rw [Shape.rowMajor_val_two, Shape.rowMajor_val_one]; show n.val = n.val * 1 + 0; omega

theorem V1_v26_at (c : Dev nD) (a b : Fin 128) : (V1 m c main_v26 : S128x128.Idx → EReal) (ix2 a b) = (LA m 0 c).w (ix2 a b) := by
  show StableHlo.after hostOps0 (V0 m c) (Proc.devRef .tc main_v26) (ix2 a b) = _
  after_results
  show shapeCast S128x128 _ _ (ix2 a b) = _
  refine (shapeCast_apply _ _ (ix2 a b) (ix3 (0 : Fin 1) a b) ?_).trans ?_
  · rw [Shape.rowMajor_val_two, Shape.rowMajor_val_three]
    show (0 * 128 + a.val) * 128 + b.val = a.val * 128 + b.val
    omega
  refine (extractStridedSlice_apply _ _ _ _ (ix3 (0 : Fin 3) a b) ?_).trans rfl
  intro k
  match k with
  | ⟨0, _⟩ => rfl
  | ⟨1, _⟩ => show a.val = 0 + a.val; omega
  | ⟨2, _⟩ => show b.val = 0 + b.val; omega

theorem V1_v26 (c : Dev nD) : (V1 m c main_v26 : S128x128.Idx → EReal) = (LA m 0 c).w := by
  funext i
  obtain ⟨a, b, rfl⟩ : ∃ a b, i = ix2 a b := ⟨i 0, i 1, eq_ix2 i⟩
  exact V1_v26_at m c a b

theorem V1_v24 (c : Dev nD) (ch : Fin 128) : (V1 m c main_v24 : S1x128.Idx → EReal) (ix2 (0 : Fin 1) ch) = (LA m 0 c).b ch := by
  show StableHlo.after hostOps0 (V0 m c) (Proc.devRef .tc main_v24) (ix2 (0 : Fin 1) ch) = _
  after_results
  show shapeCast S1x128 (shapeCast S128 _ _) _ (ix2 (0 : Fin 1) ch) = _
  refine (shapeCast_apply _ _ (ix2 (0 : Fin 1) ch) (ix1 ch) ?_).trans ?_
  · rw [Shape.rowMajor_val_two, Shape.rowMajor_val_one]; show ch.val = 0 * 128 + ch.val; omega
  refine (shapeCast_apply _ _ (ix1 ch) (ix2 (0 : Fin 1) ch) ?_).trans ?_
  · rw [Shape.rowMajor_val_two, Shape.rowMajor_val_one]; show 0 * 128 + ch.val = ch.val; omega
  refine (extractStridedSlice_apply _ _ _ _ (ix2 (0 : Fin 3) ch) ?_).trans rfl
  intro k
  match k with
  | ⟨0, _⟩ => rfl
  | ⟨1, _⟩ => show ch.val = 0 + ch.val; omega

theorem host_rsqrt_apply {s : Shape} {φ : FTy} (x : FVec Ideal s φ) (i : s.Idx) : Host.rsqrt x i = Ideal.rsqrt (x i) := rfl
theorem host_divf_apply {s : Shape} {φ : FTy} (x y : FVec Ideal s φ) (i : s.Idx) : Host.divf x y i = Ideal.div (x i) (y i) := rfl

theorem bcast_const (t : Shape) (h : S_.BroadcastsInDim t ![]) (b : BitVec 32) (j : t.Idx) :
    broadcastInDim t ![] h (constant (F := Ideal) S_ .f32 b) j = Ideal.ofBits .f32 b := rfl

open Classical in

theorem deg_read {n e : Nat} (d : ScatterDims ⟨1, ![n]⟩ ⟨2, ![e, 1]⟩ ⟨1, ![e]⟩)
    (h1 : d.updateWindowDims = []) (h2 : d.insertedWindowDims = [0]) (h3 : d.scatterDimsToOperandDims = [0])
    (h4 : d.indexVectorDim = 1)
    (x : FVec Ideal ⟨1, ![n]⟩ .f32) (idx : IVec ⟨2, ![e, 1]⟩ 32) (u : FVec Ideal ⟨1, ![e]⟩ .f32) (y : FVec Ideal ⟨1, ![n]⟩ .f32)
    (z o : EReal) (w : Fin e → BitVec 32)
    (hx : ∀ a, x (ix1 a) = z) (hu : ∀ j, u (ix1 j) = o) (hy : ∀ a, y (ix1 a) = o) (hidx : ∀ j, idx (ix2 j (0 : Fin 1)) = w j)
    (a : Fin n) :
    Host.rsqrt (addf (Host.scatterAdd (F := Ideal) d x idx u) y) (ix1 a)
      = Ideal.rsqrt ((z + ∑ j ∈ Finset.univ.filter (fun j : Fin e => Cert.Spec.hitIdx n (w j) = some a), o) + o) := by
  rw [host_rsqrt_apply, addf_apply, Cert.IdxLib.scatterAdd_flat_apply d h1 h2 h3 h4, hx, hy]
  have hs : ∑ j ∈ Finset.univ.filter (fun j : Fin e => Cert.Spec.hitIdx n (idx (ix2 j (0 : Fin 1))) = some a), u (ix1 j)
      = ∑ j ∈ Finset.univ.filter (fun j : Fin e => Cert.Spec.hitIdx n (w j) = some a), o :=
    Finset.sum_congr (Finset.filter_congr fun j _ => by rw [hidx j]) (fun j _ => hu j)
  rw [hs]

open Classical in

theorem cnt_read {n e : Nat} (d : ScatterDims ⟨1, ![n]⟩ ⟨2, ![e, 1]⟩ ⟨1, ![e]⟩)
    (h1 : d.updateWindowDims = []) (h2 : d.insertedWindowDims = [0]) (h3 : d.scatterDimsToOperandDims = [0])
    (h4 : d.indexVectorDim = 1)
    (x : FVec Ideal ⟨1, ![n]⟩ .f32) (idx : IVec ⟨2, ![e, 1]⟩ 32) (u : FVec Ideal ⟨1, ![e]⟩ .f32) (y y' : FVec Ideal ⟨1, ![n]⟩ .f32)
    (z o : EReal) (w : Fin e → BitVec 32)
    (hx : ∀ a, x (ix1 a) = z) (hu : ∀ j, u (ix1 j) = o) (hy : ∀ a, y (ix1 a) = o) (hy' : ∀ a, y' (ix1 a) = o)
    (hidx : ∀ j, idx (ix2 j (0 : Fin 1)) = w j) (a : Fin n) :
    Host.divf y' (maximumf (Host.scatterAdd (F := Ideal) d x idx u) y) (ix1 a)
      = Ideal.div o (max (z + ∑ j ∈ Finset.univ.filter (fun j : Fin e => Cert.Spec.hitIdx n (w j) = some a), o) o) := by
  rw [host_divf_apply, maximumf_apply, Cert.IdxLib.scatterAdd_flat_apply d h1 h2 h3 h4, hx, hy, hy']
  have hs : ∑ j ∈ Finset.univ.filter (fun j : Fin e => Cert.Spec.hitIdx n (idx (ix2 j (0 : Fin 1))) = some a), u (ix1 j)
      = ∑ j ∈ Finset.univ.filter (fun j : Fin e => Cert.Spec.hitIdx n (w j) = some a), o :=
    Finset.sum_congr (Finset.filter_congr fun j _ => by rw [hidx j]) (fun j _ => hu j)
  rw [hs]

open Classical in

theorem V1_v11 (c : Dev nD) (n : Fin 100000) :
    (V1 m c main_v11 : S100000x1.Idx → EReal) (ix2 n (0 : Fin 1)) = Cert.Spec.dOf (fun e => eiA m c (ix2 (1 : Fin 2) e)) n := by
  show StableHlo.after hostOps0 (V0 m c) (Proc.devRef .tc main_v11) (ix2 n (0 : Fin 1)) = _
  after_results
  show shapeCast S100000x1 _ _ (ix2 n (0 : Fin 1)) = _
  refine (shapeCast_apply _ _ (ix2 n (0 : Fin 1)) (ix1 n) ?_).trans ?_
  · rw [Shape.rowMajor_val_two, Shape.rowMajor_val_one]; show n.val = n.val * 1 + 0; omega
  unfold Cert.Spec.dOf
  refine (deg_read (n := 100000) (e := 1000000) scatter_S100000_S1000000x1_S1000000_n_0_0_1 rfl rfl rfl rfl _ _ _ _
    Cert.Spec.zeroW Cert.Spec.oneW (fun e => eiA m c (ix2 (1 : Fin 2) e)) (fun a => rfl) (fun j => rfl) (fun a => rfl) (fun j => ?_) n).trans ?_
  · refine (broadcastInDim_apply _ _ _ (ix2 j (0 : Fin 1)) (ix1 j) ?_).trans ?_
    · intro a; match a with | ⟨0, _⟩ => rfl
    show shapeCast S1000000 _ _ (ix1 j) = _
    refine (shapeCast_apply _ _ (ix1 j) (ix2 (0 : Fin 1) j) ?_).trans ?_
    · rw [Shape.rowMajor_val_two, Shape.rowMajor_val_one]; show 0 * 1000000 + j.val = j.val; omega
    refine (extractStridedSlice_apply _ _ _ (ix2 (0 : Fin 1) j) (ix2 (1 : Fin 2) j) ?_).trans rfl
    intro a
    match a with
    | ⟨0, _⟩ => rfl
    | ⟨1, _⟩ => show j.val = 0 + j.val; omega
  beta_reduce
  rfl

open Classical in

theorem V1_v20 (c : Dev nD) (g : Fin 64) :
    (V1 m c main_v20 : S64x1.Idx → EReal) (ix2 g (0 : Fin 1)) = Cert.Spec.ciOf (fun n => batchA m c (ix1 n)) g := by
  show StableHlo.after hostOps0 (V0 m c) (Proc.devRef .tc main_v20) (ix2 g (0 : Fin 1)) = _
  after_results
  show shapeCast S64x1 _ _ (ix2 g (0 : Fin 1)) = _
  refine (shapeCast_apply _ _ (ix2 g (0 : Fin 1)) (ix1 g) ?_).trans ?_
  · rw [Shape.rowMajor_val_two, Shape.rowMajor_val_one]; show g.val = g.val * 1 + 0; omega
  unfold Cert.Spec.ciOf
  refine (cnt_read (n := 64) (e := 100000) scatter_S64_S100000x1_S100000_n_0_0_1 rfl rfl rfl rfl _ _ _ _ _
    Cert.Spec.zeroW Cert.Spec.oneW (fun n => batchA m c (ix1 n)) (fun a => rfl) (fun j => rfl) (fun a => rfl) (fun a => rfl) (fun j => ?_) g).trans ?_
  · refine (broadcastInDim_apply _ _ _ (ix2 j (0 : Fin 1)) (ix1 j) ?_).trans rfl
    intro a; match a with | ⟨0, _⟩ => rfl
  beta_reduce
  rfl

theorem keep1_9 (c : Dev nD) (r : Ref sig .tc)
    (h : r ∉ (([main_v27] : List (Ref sig .tc)) ++ hostOps1_W ++ [main_v38_0, main_v38_1] ++ hostOps2_W ++ [main_v45_0, main_v45_1]
      ++ hostOps3_W ++ [main_v60] ++ hostOps4_W)) :
    V9 m outs c r = V1 m c r := by
  simp only [List.mem_append, not_or] at h
  obtain ⟨⟨⟨⟨⟨⟨⟨h2, h3⟩, h4⟩, h5⟩, h6⟩, h7⟩, h8⟩, h9⟩ := h
  rw [V9_of m outs c r h9, V8_of m outs c r h8, V7_of m outs c r h7, V6_of m outs c r h6, V5_of m outs c r h5,
    V4_of m outs c r h4, V3_of m outs c r h3, V2_of m outs c r h2]

theorem keep9_17 (c : Dev nD) (r : Ref sig .tc)
    (h : r ∉ (([main_v66] : List (Ref sig .tc)) ++ hostOps5_W ++ [main_v77_0, main_v77_1] ++ hostOps6_W ++ [main_v84_0, main_v84_1]
      ++ hostOps7_W ++ [main_v99] ++ hostOps8_W)) :
    V17 m outs c r = V9 m outs c r := by
  simp only [List.mem_append, not_or] at h
  obtain ⟨⟨⟨⟨⟨⟨⟨h2, h3⟩, h4⟩, h5⟩, h6⟩, h7⟩, h8⟩, h9⟩ := h
  rw [V17_of m outs c r h9, V16_of m outs c r h8, V15_of m outs c r h7, V14_of m outs c r h6, V13_of m outs c r h5,
    V12_of m outs c r h4, V11_of m outs c r h3, V10_of m outs c r h2]

theorem keep17_24 (c : Dev nD) (r : Ref sig .tc)
    (h : r ∉ (([main_v105] : List (Ref sig .tc)) ++ hostOps9_W ++ [main_v116_0, main_v116_1] ++ hostOps10_W ++ [main_v123_0, main_v123_1]
      ++ hostOps11_W ++ [main_v138])) :
    V24 m outs c r = V17 m outs c r := by
  simp only [List.mem_append, not_or] at h
  obtain ⟨⟨⟨⟨⟨⟨h2, h3⟩, h4⟩, h5⟩, h6⟩, h7⟩, h8⟩ := h
  rw [V24_of m outs c r h8, V23_of m outs c r h7, V22_of m outs c r h6, V21_of m outs c r h5,
    V20_of m outs c r h4, V19_of m outs c r h3, V18_of m outs c r h2]

theorem V9_v1 (c : Dev nD) : V9 m outs c main_v1 = V1 m c main_v1 := keep1_9 m outs c _ (by decide)
theorem V9_v3 (c : Dev nD) : V9 m outs c main_v3 = V1 m c main_v3 := keep1_9 m outs c _ (by decide)
theorem V9_v11 (c : Dev nD) : V9 m outs c main_v11 = V1 m c main_v11 := keep1_9 m outs c _ (by decide)
theorem V9_v20 (c : Dev nD) : V9 m outs c main_v20 = V1 m c main_v20 := keep1_9 m outs c _ (by decide)
theorem V9_v21 (c : Dev nD) : V9 m outs c main_v21 = V1 m c main_v21 := keep1_9 m outs c _ (by decide)
theorem V17_v1 (c : Dev nD) : V17 m outs c main_v1 = V1 m c main_v1 := (keep9_17 m outs c _ (by decide)).trans (V9_v1 m outs c)
theorem V17_v3 (c : Dev nD) : V17 m outs c main_v3 = V1 m c main_v3 := (keep9_17 m outs c _ (by decide)).trans (V9_v3 m outs c)
theorem V17_v11 (c : Dev nD) : V17 m outs c main_v11 = V1 m c main_v11 := (keep9_17 m outs c _ (by decide)).trans (V9_v11 m outs c)
theorem V17_v20 (c : Dev nD) : V17 m outs c main_v20 = V1 m c main_v20 := (keep9_17 m outs c _ (by decide)).trans (V9_v20 m outs c)
theorem V17_v21 (c : Dev nD) : V17 m outs c main_v21 = V1 m c main_v21 := (keep9_17 m outs c _ (by decide)).trans (V9_v21 m outs c)

theorem V9_v60 (c : Dev nD) : V9 m outs c main_v60 = V8 m outs c main_v60 := V9_of m outs c _ (by decide)
theorem V24_v60 (c : Dev nD) : V24 m outs c main_v60 = V8 m outs c main_v60 :=
  (keep17_24 m outs c _ (by decide)).trans ((keep9_17 m outs c _ (by decide)).trans (V9_v60 m outs c))
theorem V17_v99 (c : Dev nD) : V17 m outs c main_v99 = V16 m outs c main_v99 := V17_of m outs c _ (by decide)
theorem V24_v99 (c : Dev nD) : V24 m outs c main_v99 = V16 m outs c main_v99 :=
  (keep17_24 m outs c _ (by decide)).trans (V17_v99 m outs c)
theorem V25_v138 (c : Dev nD) : V25 m outs c main_v138 = V24 m outs c main_v138 := V25_of m outs c _ (by decide)

def stackK (y0 y1 y2 : FVec Ideal S100000x128 .f32) : FVec Ideal S3x100000x128 .f32 :=
  concatenate S3x100000x128 0
    [⟨S1x100000x128, broadcastInDim S1x100000x128 ![1, 2] bcast_S100000x128_S1x100000x128_1_2 y0⟩,
     ⟨S1x100000x128, broadcastInDim S1x100000x128 ![1, 2] bcast_S100000x128_S1x100000x128_1_2 y1⟩,
     ⟨S1x100000x128, broadcastInDim S1x100000x128 ![1, 2] bcast_S100000x128_S1x100000x128_1_2 y2⟩]
    concatenates_S1x100000x128_S1x100000x128_S1x100000x128_S3x100000x128_d0

theorem stack_congr (a0 a1 a2 b0 b1 b2 : S1x100000x128.Idx → EReal) (h0 : a0 = b0) (h1 : a1 = b1) (h2 : a2 = b2) :
    concatenate S3x100000x128 0 [⟨S1x100000x128, a0⟩, ⟨S1x100000x128, a1⟩, ⟨S1x100000x128, a2⟩]
        concatenates_S1x100000x128_S1x100000x128_S1x100000x128_S3x100000x128_d0
      = concatenate S3x100000x128 0 [⟨S1x100000x128, b0⟩, ⟨S1x100000x128, b1⟩, ⟨S1x100000x128, b2⟩]
        concatenates_S1x100000x128_S1x100000x128_S1x100000x128_S3x100000x128_d0 := by
  subst h0 h1 h2; rfl

theorem V25_v142 (c : Dev nD) :
    V25 m outs c main_v142 = stackK (V24 m outs c main_v60) (V24 m outs c main_v99) (V24 m outs c main_v138) := by
  show StableHlo.after hostOps12 (V24 m outs c) (Proc.devRef .tc main_v142) = _
  after_results
  unfold stackK
  refine stack_congr _ _ _ _ _ _ ?_ ?_ ?_
  · show (StableHlo.unary main_v138 main_v141 _ _ _).result _ (Proc.devRef .tc main_v139) = _
    rw [unary_result_ne]; rotate_left; decide
    rw [unary_result_ne]; rotate_left; decide
    rw [unary_result]
  · show (StableHlo.unary main_v138 main_v141 _ _ _).result _ (Proc.devRef .tc main_v140) = _
    rw [unary_result_ne]; rotate_left; decide
    rw [unary_result]
    rw [unary_result_ne]; rotate_left; decide
  · show (StableHlo.unary main_v138 main_v141 _ _ _).result _ (Proc.devRef .tc main_v141) = _
    rw [unary_result]
    rw [unary_result_ne]; rotate_left; decide
    rw [unary_result_ne]; rotate_left; decide

theorem keep0_8 (c : Dev nD) (r : Ref sig .tc)
    (h : r ∉ (hostOps0_W ++ ([main_v27] : List (Ref sig .tc)) ++ hostOps1_W ++ [main_v38_0, main_v38_1] ++ hostOps2_W ++ [main_v45_0, main_v45_1]
      ++ hostOps3_W ++ [main_v60])) :
    V8 m outs c r = V0 m c r := by
  simp only [List.mem_append, not_or] at h
  obtain ⟨⟨⟨⟨⟨⟨⟨h1, h2⟩, h3⟩, h4⟩, h5⟩, h6⟩, h7⟩, h8⟩ := h
  rw [V8_of m outs c r h8, V7_of m outs c r h7, V6_of m outs c r h6, V5_of m outs c r h5,
    V4_of m outs c r h4, V3_of m outs c r h3, V2_of m outs c r h2, V1_of m c r h1]

theorem keep8_16 (c : Dev nD) (r : Ref sig .tc)
    (h : r ∉ (hostOps4_W ++ ([main_v66] : List (Ref sig .tc)) ++ hostOps5_W ++ [main_v77_0, main_v77_1] ++ hostOps6_W ++ [main_v84_0, main_v84_1]
      ++ hostOps7_W ++ [main_v99])) :
    V16 m outs c r = V8 m outs c r := by
  simp only [List.mem_append, not_or] at h
  obtain ⟨⟨⟨⟨⟨⟨⟨h1, h2⟩, h3⟩, h4⟩, h5⟩, h6⟩, h7⟩, h8⟩ := h
  rw [V16_of m outs c r h8, V15_of m outs c r h7, V14_of m outs c r h6, V13_of m outs c r h5,
    V12_of m outs c r h4, V11_of m outs c r h3, V10_of m outs c r h2, V9_of m outs c r h1]

theorem V8_arg3 (c : Dev nD) : V8 m outs c main_arg3 = m ((c : Thread nD τ).loc main_arg3) := keep0_8 m outs c _ (by decide)
theorem V8_arg4 (c : Dev nD) : V8 m outs c main_arg4 = m ((c : Thread nD τ).loc main_arg4) := keep0_8 m outs c _ (by decide)
theorem V16_arg3 (c : Dev nD) : V16 m outs c main_arg3 = m ((c : Thread nD τ).loc main_arg3) :=
  (keep8_16 m outs c _ (by decide)).trans (V8_arg3 m outs c)
theorem V16_arg4 (c : Dev nD) : V16 m outs c main_arg4 = m ((c : Thread nD τ).loc main_arg4) :=
  (keep8_16 m outs c _ (by decide)).trans (V8_arg4 m outs c)

theorem V9_v65_at (c : Dev nD) (a b : Fin 128) : (V9 m outs c main_v65 : S128x128.Idx → EReal) (ix2 a b) = (LA m 1 c).w (ix2 a b) := by
  show StableHlo.after hostOps4 (V8 m outs c) (Proc.devRef .tc main_v65) (ix2 a b) = _
  after_results
  show shapeCast S128x128 _ _ (ix2 a b) = _
  refine (shapeCast_apply _ _ (ix2 a b) (ix3 (0 : Fin 1) a b) ?_).trans ?_
  · rw [Shape.rowMajor_val_two, Shape.rowMajor_val_three]
    show (0 * 128 + a.val) * 128 + b.val = a.val * 128 + b.val
    omega
  refine (extractStridedSlice_apply _ _ _ _ (ix3 (1 : Fin 3) a b) ?_).trans (congrFun (V8_arg3 m outs c) _)
  intro k
  match k with
  | ⟨0, _⟩ => rfl
  | ⟨1, _⟩ => show a.val = 0 + a.val; omega
  | ⟨2, _⟩ => show b.val = 0 + b.val; omega

theorem V9_v65 (c : Dev nD) : (V9 m outs c main_v65 : S128x128.Idx → EReal) = (LA m 1 c).w := by
  funext i
  obtain ⟨a, b, rfl⟩ : ∃ a b, i = ix2 a b := ⟨i 0, i 1, eq_ix2 i⟩
  exact V9_v65_at m outs c a b

theorem V9_v63 (c : Dev nD) (ch : Fin 128) : (V9 m outs c main_v63 : S1x128.Idx → EReal) (ix2 (0 : Fin 1) ch) = (LA m 1 c).b ch := by
  show StableHlo.after hostOps4 (V8 m outs c) (Proc.devRef .tc main_v63) (ix2 (0 : Fin 1) ch) = _
  after_results
  show shapeCast S1x128 (shapeCast S128 _ _) _ (ix2 (0 : Fin 1) ch) = _
  refine (shapeCast_apply _ _ (ix2 (0 : Fin 1) ch) (ix1 ch) ?_).trans ?_
  · rw [Shape.rowMajor_val_two, Shape.rowMajor_val_one]; show ch.val = 0 * 128 + ch.val; omega
  refine (shapeCast_apply _ _ (ix1 ch) (ix2 (0 : Fin 1) ch) ?_).trans ?_
  · rw [Shape.rowMajor_val_two, Shape.rowMajor_val_one]; show 0 * 128 + ch.val = ch.val; omega
  refine (extractStridedSlice_apply _ _ _ _ (ix2 (1 : Fin 3) ch) ?_).trans (congrFun (V8_arg4 m outs c) _)
  intro k
  match k with
  | ⟨0, _⟩ => rfl
  | ⟨1, _⟩ => show ch.val = 0 + ch.val; omega

theorem V17_v104_at (c : Dev nD) (a b : Fin 128) : (V17 m outs c main_v104 : S128x128.Idx → EReal) (ix2 a b) = (LA m 2 c).w (ix2 a b) := by
  show StableHlo.after hostOps8 (V16 m outs c) (Proc.devRef .tc main_v104) (ix2 a b) = _
  after_results
  show shapeCast S128x128 _ _ (ix2 a b) = _
  refine (shapeCast_apply _ _ (ix2 a b) (ix3 (0 : Fin 1) a b) ?_).trans ?_
  · rw [Shape.rowMajor_val_two, Shape.rowMajor_val_three]
    show (0 * 128 + a.val) * 128 + b.val = a.val * 128 + b.val
    omega
  refine (extractStridedSlice_apply _ _ _ _ (ix3 (2 : Fin 3) a b) ?_).trans (congrFun (V16_arg3 m outs c) _)
  intro k
  match k with
  | ⟨0, _⟩ => rfl
  | ⟨1, _⟩ => show a.val = 0 + a.val; omega
  | ⟨2, _⟩ => show b.val = 0 + b.val; omega

theorem V17_v104 (c : Dev nD) : (V17 m outs c main_v104 : S128x128.Idx → EReal) = (LA m 2 c).w := by
  funext i
  obtain ⟨a, b, rfl⟩ : ∃ a b, i = ix2 a b := ⟨i 0, i 1, eq_ix2 i⟩
  exact V17_v104_at m outs c a b

theorem V17_v102 (c : Dev nD) (ch : Fin 128) : (V17 m outs c main_v102 : S1x128.Idx → EReal) (ix2 (0 : Fin 1) ch) = (LA m 2 c).b ch := by
  show StableHlo.after hostOps8 (V16 m outs c) (Proc.devRef .tc main_v102) (ix2 (0 : Fin 1) ch) = _
  after_results
  show shapeCast S1x128 (shapeCast S128 _ _) _ (ix2 (0 : Fin 1) ch) = _
  refine (shapeCast_apply _ _ (ix2 (0 : Fin 1) ch) (ix1 ch) ?_).trans ?_
  · rw [Shape.rowMajor_val_two, Shape.rowMajor_val_one]; show ch.val = 0 * 128 + ch.val; omega
  refine (shapeCast_apply _ _ (ix1 ch) (ix2 (0 : Fin 1) ch) ?_).trans ?_
  · rw [Shape.rowMajor_val_two, Shape.rowMajor_val_one]; show 0 * 128 + ch.val = ch.val; omega
  refine (extractStridedSlice_apply _ _ _ _ (ix2 (2 : Fin 3) ch) ?_).trans (congrFun (V16_arg4 m outs c) _)
  intro k
  match k with
  | ⟨0, _⟩ => rfl
  | ⟨1, _⟩ => show ch.val = 0 + ch.val; omega

theorem V1_arg0 (c : Dev nD) : V1 m c main_arg0 = m ((c : Thread nD τ).loc main_arg0) := V1_of m c _ (by decide)

theorem sharedOf_d (ei : Cert.Spec.S2E.Idx → BitVec 32) (batch : Cert.Spec.SN.Idx → BitVec 32) :
    (Cert.Spec.sharedOf ei batch).d = Cert.Spec.dOf (fun e => ei (ix2 (1 : Fin 2) e)) := by
  simp only [Cert.Spec.sharedOf]
theorem sharedOf_ci (ei : Cert.Spec.S2E.Idx → BitVec 32) (batch : Cert.Spec.SN.Idx → BitVec 32) :
    (Cert.Spec.sharedOf ei batch).ci = Cert.Spec.ciOf (fun n => batch (ix1 n)) := by
  simp only [Cert.Spec.sharedOf]

theorem V1_d (c : Dev nD) (n : Fin 100000) : (V1 m c main_v11 : S100000x1.Idx → EReal) (ix2 n (0 : Fin 1)) = (PA m c).d n :=
  (V1_v11 m c n).trans (congrFun (sharedOf_d (eiA m c) (batchA m c)) n).symm
theorem V1_ci (c : Dev nD) (g : Fin 64) : (V1 m c main_v20 : S64x1.Idx → EReal) (ix2 g (0 : Fin 1)) = (PA m c).ci g :=
  (V1_v20 m c g).trans (congrFun (sharedOf_ci (eiA m c) (batchA m c)) g).symm
theorem V1_bt (c : Dev nD) (n : Fin 100000) : (V1 m c main_v21 : S100000x1.Idx → BitVec 32) (ix2 n (0 : Fin 1)) = (PA m c).batch n := V1_v21 m c n
theorem V1_src (c : Dev nD) (e : Fin 1000000) : (V1 m c main_v1 : S1000000.Idx → BitVec 32) (ix1 e) = (PA m c).src e := V1_v1 m c e
theorem V1_dst (c : Dev nD) (e : Fin 1000000) : (V1 m c main_v3 : S1000000.Idx → BitVec 32) (ix1 e) = (PA m c).dst e := V1_v3 m c e

theorem V9_d (c : Dev nD) (n : Fin 100000) : (V9 m outs c main_v11 : S100000x1.Idx → EReal) (ix2 n (0 : Fin 1)) = (PA m c).d n :=
  (congrFun (V9_v11 m outs c) _).trans (V1_d m c n)
theorem V9_ci (c : Dev nD) (g : Fin 64) : (V9 m outs c main_v20 : S64x1.Idx → EReal) (ix2 g (0 : Fin 1)) = (PA m c).ci g :=
  (congrFun (V9_v20 m outs c) _).trans (V1_ci m c g)
theorem V9_bt (c : Dev nD) (n : Fin 100000) : (V9 m outs c main_v21 : S100000x1.Idx → BitVec 32) (ix2 n (0 : Fin 1)) = (PA m c).batch n :=
  (congrFun (V9_v21 m outs c) _).trans (V1_bt m c n)
theorem V9_src (c : Dev nD) (e : Fin 1000000) : (V9 m outs c main_v1 : S1000000.Idx → BitVec 32) (ix1 e) = (PA m c).src e :=
  (congrFun (V9_v1 m outs c) _).trans (V1_src m c e)
theorem V9_dst (c : Dev nD) (e : Fin 1000000) : (V9 m outs c main_v3 : S1000000.Idx → BitVec 32) (ix1 e) = (PA m c).dst e :=
  (congrFun (V9_v3 m outs c) _).trans (V1_dst m c e)

theorem V17_d (c : Dev nD) (n : Fin 100000) : (V17 m outs c main_v11 : S100000x1.Idx → EReal) (ix2 n (0 : Fin 1)) = (PA m c).d n :=
  (congrFun (V17_v11 m outs c) _).trans (V1_d m c n)
theorem V17_ci (c : Dev nD) (g : Fin 64) : (V17 m outs c main_v20 : S64x1.Idx → EReal) (ix2 g (0 : Fin 1)) = (PA m c).ci g :=
  (congrFun (V17_v20 m outs c) _).trans (V1_ci m c g)
theorem V17_bt (c : Dev nD) (n : Fin 100000) : (V17 m outs c main_v21 : S100000x1.Idx → BitVec 32) (ix2 n (0 : Fin 1)) = (PA m c).batch n :=
  (congrFun (V17_v21 m outs c) _).trans (V1_bt m c n)
theorem V17_src (c : Dev nD) (e : Fin 1000000) : (V17 m outs c main_v1 : S1000000.Idx → BitVec 32) (ix1 e) = (PA m c).src e :=
  (congrFun (V17_v1 m outs c) _).trans (V1_src m c e)
theorem V17_dst (c : Dev nD) (e : Fin 1000000) : (V17 m outs c main_v3 : S1000000.Idx → BitVec 32) (ix1 e) = (PA m c).dst e :=
  (congrFun (V17_v3 m outs c) _).trans (V1_dst m c e)

theorem kernel_value_of (c : Dev nD) (y0 y1 y2 : FVec Ideal S100000x128 .f32)
    (h0 : V8 m outs c main_v60 = y0) (h1 : V16 m outs c main_v99 = y1) (h2 : V24 m outs c main_v138 = y2) :
    V25 m outs c main_v138 = y2 ∧ V25 m outs c main_v142 = stackK y0 y1 y2 := by
  refine ⟨(V25_v138 m outs c).trans h2, ?_⟩
  rw [V25_v142, V24_v60, V24_v99, h0, h1, h2]

end Cert.KernelIdeal.H

end
-- ==== Proof.Algebra.lean ====
import proofs.«402146_j32049045962863_2_alg».proof.Proof.Spec
import Idealize.ShloMosaic.Lib.ValueIdxCoords
import Mathlib.Data.EReal.Operations
import Mathlib.Algebra.BigOperators.Fin
import Mathlib.Algebra.BigOperators.Group.Finset.Basic

noncomputable section

open scoped BigOperators

namespace Cert.Spec

open Idealize.ShloMosaic Idealize.ShloMosaic.ValueIdx

theorem clamp_wrap_of_hit (n : Nat) (hn : 0 < n) (w v : BitVec 32) (k : Fin n) (h : hitIdx n v = some k) :
    clampIdx n hn (wrapIdx w v) = k := by
  unfold hitIdx at h
  split at h
  · rename_i hr
    have hk := Option.some.inj h
    subst hk
    unfold wrapIdx
    rw [if_neg (not_lt.mpr hr.1)]
    unfold clampIdx
    apply Fin.ext
    show min v.toInt.toNat (n - 1) = v.toInt.toNat
    omega
  · exact absurd h (by simp)

theorem hit_of_range (n : Nat) (hn : 0 < n) (w v : BitVec 32) (h0 : 0 ≤ v.toInt) (h1 : v.toInt < n) :
    hitIdx n v = some (clampIdx n hn (wrapIdx w v)) := by
  have h : hitIdx n v = some ⟨v.toInt.toNat, by omega⟩ := by
    unfold hitIdx
    rw [dif_pos ⟨h0, h1⟩]
  rw [h, clamp_wrap_of_hit n hn w v _ h]

theorem word_eq_ofNat_iff (v : BitVec 32) (h0 : 0 ≤ v.toInt) (k : Nat) (hk : k < 2 ^ 31) :
    v = BitVec.ofNat 32 k ↔ v.toInt.toNat = k := by
  rw [← BitVec.toNat_inj, BitVec.toNat_ofNat]
  have hc := BitVec.toInt_eq_toNat_cond v
  have hl := v.isLt
  split at hc <;> omega

theorem mul_sum_of_nonneg {ι : Type*} (s : Finset ι) (d : EReal) (h0 : 0 ≤ d) (ht : d ≠ ⊤) (f : ι → EReal) :
    d * ∑ e ∈ s, f e = ∑ e ∈ s, d * f e := by
  classical
  induction s using Finset.induction_on with
  | empty => rw [Finset.sum_empty, Finset.sum_empty, mul_zero]
  | insert a s ha ih =>
    rw [Finset.sum_insert ha, Finset.sum_insert ha, EReal.left_distrib_of_nonneg_of_ne_top h0 ht, ih]

theorem conv_point {ι : Type*} (s : Finset ι) (d b A : EReal) (h0 : 0 ≤ d) (ht : d ≠ ⊤) (a de dd : ι → EReal)
    (hdd : ∀ e ∈ s, dd e = d) :
    d * ((0 + ∑ e ∈ s, a e * de e) + A * d) + b = ((0 + ∑ e ∈ s, a e * (de e * dd e)) + A * (d * d)) + b := by
  rw [EReal.left_distrib_of_nonneg_of_ne_top h0 ht, EReal.left_distrib_of_nonneg_of_ne_top h0 ht, mul_zero,
    mul_sum_of_nonneg s d h0 ht, mul_left_comm d A d]
  congr 3
  apply Finset.sum_congr rfl
  intro e he
  rw [hdd e he, mul_left_comm, mul_comm d (de e)]

theorem sum_indicator_mul {ι : Type*} (s : Finset ι) (p : ι → Prop) [DecidablePred p] (wt : ι → EReal) (v : ι → EReal)
    (hw : ∀ n, wt n = if p n then 1 else 0) :
    ∑ n ∈ s, wt n * v n = ∑ n ∈ s.filter p, v n := by
  rw [Finset.sum_filter]
  apply Finset.sum_congr rfl
  intro n _
  rw [hw n]
  by_cases h : p n
  · rw [if_pos h, if_pos h, one_mul]
  · rw [if_neg h, if_neg h, zero_mul]

def rowEquiv : Fin 2 × Fin 50000 ≃ Fin 100000 where
  toFun p := rowOf p.1 p.2
  invFun n := (⟨n.val / 50000, by have := n.isLt; omega⟩, ⟨n.val % 50000, Nat.mod_lt _ (by decide)⟩)
  left_inv p := by
    rcases p with ⟨h, q⟩
    have := h.isLt
    have := q.isLt
    apply Prod.ext
    · apply Fin.ext
      show (h.val * 50000 + q.val) / 50000 = h.val
      omega
    · apply Fin.ext
      show (h.val * 50000 + q.val) % 50000 = q.val
      omega
  right_inv n := by
    apply Fin.ext
    show n.val / 50000 * 50000 + n.val % 50000 = n.val
    omega

theorem sum_rows {M : Type*} [AddCommMonoid M] (f : Fin 100000 → M) :
    ∑ h : Fin 2, ∑ q : Fin 50000, f (rowOf h q) = ∑ n, f n := by
  rw [← Fintype.sum_prod_type' (fun h q => f (rowOf h q))]
  exact Equiv.sum_comp rowEquiv f

theorem Shared.dg_of_dh (P : Shared) (e : Fin 1000000) (n : Fin 100000) (h : P.dh e = some n) : P.dg e = n :=
  clamp_wrap_of_hit 100000 (by decide) _ _ n h

theorem Shared.bh_eq (P : Shared) (hP : P.Ok) (n : Fin 100000) : P.bh n = some (P.bg n) :=
  hit_of_range 64 (by decide) _ _ (hP.batch_lo n) (by exact_mod_cast hP.batch_hi n)

theorem Shared.bg_val (P : Shared) (hP : P.Ok) (n : Fin 100000) : (P.bg n).val = (P.batch n).toInt.toNat := by
  have h0 := hP.batch_lo n
  have h1 := hP.batch_hi n
  unfold Shared.bg wrapIdx clampIdx
  rw [if_neg (not_lt.mpr h0)]
  show min (P.batch n).toInt.toNat (64 - 1) = _
  omega

theorem oneHot_eq (P : Shared) (hP : P.Ok) (n : Fin 100000) (g : Fin 64) [Decidable (P.bh n = some g)] :
    oneHot P.batch n g = if P.bh n = some g then 1 else 0 := by
  have hiff : P.batch n = BitVec.ofNat 32 g.val ↔ P.bh n = some g := by
    rw [P.bh_eq hP n, word_eq_ofNat_iff _ (hP.batch_lo n) _ (by have := g.isLt; omega), ← P.bg_val hP n]
    constructor
    · intro h; rw [Fin.ext h]
    · intro h; exact congrArg Fin.val (Option.some.inj h)
  unfold oneHot
  by_cases h : P.batch n = BitVec.ofNat 32 g.val
  · rw [if_pos h, if_pos (hiff.mp h)]
  · rw [if_neg h, if_neg (fun h' => h (hiff.mpr h'))]

theorem seg_eq (P : Shared) (hP : P.Ok) (v : SNC.Idx → EReal) (g : Fin 64) (c : Fin 128)
    (s : Finset (Fin 100000)) (hs : ∀ n, n ∈ s ↔ P.bh n = some g) :
    (0 + ∑ h : Fin 2, partA P.batch v (ix3 h g c)) = 0 + ∑ n ∈ s, v (ix2 n c) := by
  classical
  have hs' : s = Finset.univ.filter (fun n => P.bh n = some g) := by
    ext n
    rw [hs n, Finset.mem_filter]
    exact (and_iff_right (Finset.mem_univ n)).symm
  subst hs'
  refine congrArg (fun z : EReal => 0 + z) ?_
  show ∑ h : Fin 2, ∑ q : Fin 50000, oneHot P.batch (rowOf h q) g * v (ix2 (rowOf h q) c) = _
  exact (sum_rows (fun n => oneHot P.batch n g * v (ix2 n c))).trans
    (sum_indicator_mul Finset.univ _ _ _ (fun n => oneHot_eq P hP n g))

theorem sel_point (P : Shared) (hP : P.Ok) (n : Fin 100000) (f : Fin 64 → EReal) :
    ∑ g : Fin 64, oneHot P.batch n g * f g = f (P.bg n) := by
  classical
  rw [Finset.sum_eq_single (P.bg n)]
  · rw [oneHot_eq P hP n (P.bg n), if_pos (P.bh_eq hP n), one_mul]
  · intro g _ hg
    rw [oneHot_eq P hP n g, if_neg (by rw [P.bh_eq hP]; intro h; exact hg (Option.some.inj h).symm), zero_mul]
  · intro h; exact absurd (Finset.mem_univ _) h

theorem selA_eq (P : Shared) (hP : P.Ok) (t : SGC.Idx → EReal) (i : SNC.Idx) :
    selA P.batch t i = t (ix2 (P.bg (i 0 : Fin 100000)) (i 1 : Fin 128)) :=
  sel_point P hP (i 0 : Fin 100000) (fun g => t (ix2 g (i 1 : Fin 128)))

theorem lrelu_eq (slope v : EReal) : lreluK slope v = lreluR slope v := by
  unfold lreluK lreluR
  rcases lt_trichotomy 0 v with h | h | h
  · rw [if_pos h, if_pos h.le]
  · subst h; rw [if_neg (lt_irrefl _), if_pos le_rfl, zero_mul]
  · rw [if_neg (not_lt.mpr h.le), if_neg (not_le.mpr h), mul_comm]

open Classical in

def convK (P : Shared) (L : Layer) (x : SNC.Idx → EReal) : SNC.Idx → EReal :=
  let dcol : SN1.Idx → EReal := fun i => P.d (i 0 : Fin 100000)
  let xws := linA x L.w dcol
  let agg : SNC.Idx → EReal := fun i =>
    0 + ∑ e ∈ Finset.univ.filter (fun e => P.dh e = some (i 0 : Fin 100000)), xws (ix2 (P.sg e) (i 1 : Fin 128))
  combA agg xws dcol (fun i => L.b (i 1 : Fin 128))

open Classical in

def normK (P : Shared) (L : Layer) (gcn : SNC.Idx → EReal) : SNC.Idx → EReal :=
  let mean : SGC.Idx → EReal := fun j =>
    (0 + ∑ h : Fin 2, partA P.batch gcn (ix3 h (j 0 : Fin 64) (j 1 : Fin 128))) * P.ci (j 0 : Fin 64)
  let o := cenA P.batch gcn mean (fun i => L.ms (i 1 : Fin 128))
  let var : SGC.Idx → EReal := fun j =>
    (0 + ∑ h : Fin 2, partA P.batch (sqA o) (ix3 h (j 0 : Fin 64) (j 1 : Fin 128))) * P.ci (j 0 : Fin 64)
  let scale : SGC.Idx → EReal := fun j => Ideal.rsqrt (var j + P.eps) * L.gw (j 1 : Fin 128)
  finA P.batch o scale (fun i => L.gb (i 1 : Fin 128)) P.slope

open Classical in

def convR (P : Shared) (L : Layer) (x : SNC.Idx → EReal) : SNC.Idx → EReal :=
  let xw : SNC.Idx → EReal := fun i => ∑ k : Fin 128, x (ix2 (i 0 : Fin 100000) k) * L.w (ix2 k (i 1 : Fin 128))
  let agg : SNC.Idx → EReal := fun i =>
    0 + ∑ e ∈ Finset.univ.filter (fun e => P.dh e = some (i 0 : Fin 100000)),
      xw (ix2 (P.sg e) (i 1 : Fin 128)) * (P.d (P.sg e) * P.d (P.dg e))
  fun i => (agg i + xw i * (P.d (i 0 : Fin 100000) * P.d (i 0 : Fin 100000))) + L.b (i 1 : Fin 128)

open Classical in

def normR (P : Shared) (L : Layer) (gcn : SNC.Idx → EReal) : SNC.Idx → EReal :=
  let seg (v : SNC.Idx → EReal) : SGC.Idx → EReal := fun j =>
    0 + ∑ n ∈ Finset.univ.filter (fun n => P.bh n = some (j 0 : Fin 64)), v (ix2 n (j 1 : Fin 128))
  let mean : SGC.Idx → EReal := fun j => seg gcn j * P.ci (j 0 : Fin 64)
  let o : SNC.Idx → EReal := fun i => gcn i - mean (ix2 (P.bg (i 0 : Fin 100000)) (i 1 : Fin 128)) * L.ms (i 1 : Fin 128)
  let var : SGC.Idx → EReal := fun j => seg (fun i => o i * o i) j * P.ci (j 0 : Fin 64)
  fun i => lreluR P.slope
    (o i * Ideal.rsqrt (var (ix2 (P.bg (i 0 : Fin 100000)) (i 1 : Fin 128)) + P.eps) * L.gw (i 1 : Fin 128) + L.gb (i 1 : Fin 128))

theorem layerK_split (P : Shared) (L : Layer) (x : SNC.Idx → EReal) : layerK P L x = normK P L (convK P L x) := rfl

theorem layerR_split (P : Shared) (L : Layer) (x : SNC.Idx → EReal) : layerR P L x = normR P L (convR P L x) := rfl

open Classical in

theorem conv_eq (P : Shared) (hP : P.Ok) (L : Layer) (x : SNC.Idx → EReal) : convK P L x = convR P L x := by
  funext i
  exact conv_point (Finset.univ.filter (fun e => P.dh e = some (i 0 : Fin 100000))) (P.d (i 0 : Fin 100000)) (L.b (i 1 : Fin 128))
    (∑ k : Fin 128, x (ix2 (i 0 : Fin 100000) k) * L.w (ix2 k (i 1 : Fin 128)))
    (hP.d_nonneg _) (hP.d_ne_top _)
    (fun e => ∑ k : Fin 128, x (ix2 (P.sg e) k) * L.w (ix2 k (i 1 : Fin 128)))
    (fun e => P.d (P.sg e)) (fun e => P.d (P.dg e))
    (fun e he => by rw [P.dg_of_dh e _ (Finset.mem_filter.mp he).2])

open Classical in

theorem norm_eq (P : Shared) (hP : P.Ok) (L : Layer) (gcn : SNC.Idx → EReal) : normK P L gcn = normR P L gcn := by
  have hseg : ∀ (v : SNC.Idx → EReal) (j : SGC.Idx),
      (0 + ∑ h : Fin 2, partA P.batch v (ix3 h (j 0 : Fin 64) (j 1 : Fin 128)))
        = 0 + ∑ n ∈ Finset.univ.filter (fun n => P.bh n = some (j 0 : Fin 64)), v (ix2 n (j 1 : Fin 128)) :=
    fun v j => seg_eq P hP v (j 0 : Fin 64) (j 1 : Fin 128) _
      (fun n => by rw [Finset.mem_filter]; exact and_iff_right (Finset.mem_univ n))
  funext i
  unfold normK normR
  simp only [finA, cenA, sqA, selA_eq P hP, hseg, lrelu_eq, ix2_0, ix2_1]
  rw [← mul_assoc]

theorem layer_eq (P : Shared) (hP : P.Ok) (L : Layer) (x : SNC.Idx → EReal) : layerK P L x = layerR P L x := by
  rw [layerK_split, layerR_split, conv_eq P hP, norm_eq P hP]

end Cert.Spec

end
-- ==== Proof.KI.V0.lean ====
import proofs.«402146_j32049045962863_2_alg».proof.Proof.KI.R0
import proofs.«402146_j32049045962863_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

abbrev dotD0 := dot_S5000x128_S128x128_S5000x128_1_0_0_1_n_n

theorem dot_lhs0 (p : Fin 5000) (q : Fin 128) (k : Fin 128) :
    dotD0.lhsIdx (ix2 p q) ((contrEquiv1 dotD0 128 rfl rfl).symm k) = ix2 p k := by
  have c2 := contrEquiv1_symm_val dotD0 128 rfl rfl k
  funext ax; apply Fin.ext
  match ax with
  | ⟨0, _⟩ => simp [DotDims.lhsIdx, dotD0, dot_S5000x128_S128x128_S5000x128_1_0_0_1_n_n]; rfl
  | ⟨1, _⟩ => simp [DotDims.lhsIdx, dotD0, dot_S5000x128_S128x128_S5000x128_1_0_0_1_n_n]; exact c2

theorem dot_rhs0 (p : Fin 5000) (q : Fin 128) (k : Fin 128) :
    dotD0.rhsIdx (ix2 p q) ((contrEquiv1 dotD0 128 rfl rfl).symm k) = ix2 k q := by
  have c2 := contrEquiv1_symm_val dotD0 128 rfl rfl k
  funext ax; apply Fin.ext
  match ax with
  | ⟨0, _⟩ => simp [DotDims.rhsIdx, dotD0, dot_S5000x128_S128x128_S5000x128_1_0_0_1_n_n]; exact c2
  | ⟨1, _⟩ => simp [DotDims.rhsIdx, dotD0, dot_S5000x128_S128x128_S5000x128_1_0_0_1_n_n]; rfl

theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  simp only [shapeCast_self]
  rw [mulf_apply]
  refine congr (congrArg HMul.hMul ?_) ?_
  · refine (Ideal.matmul_constant_zero_apply dotD0 none _ _ (ix2 p q)).trans ?_
    rw [← Equiv.sum_comp (contrEquiv1 dotD0 128 rfl rfl).symm]
    refine Finset.sum_congr rfl fun k _ => ?_
    rw [dot_lhs0, dot_rhs0]; rfl
  · exact broadcastTo_apply _ _ _ (ix2 p (0 : Fin 1)) (fun a => by
      match a with
      | ⟨0, _⟩ => rfl
      | ⟨1, _⟩ => rfl)

variable (V : (c : Dev nD) → (b : Ref sig .tc) → Buf (Elt Ideal) ((c : Thread nD τ).loc b))

theorem hz0 : (![0, 0] : Fin 2 → Nat) = fun _ => 0 := funext fun a => by fin_cases a <;> rfl

abbrev xA0 (c : Dev nD) : Cert.Spec.SNC.Idx → EReal := V c (Pipeline.arrRef spec0 0)
abbrev wA0 (c : Dev nD) : Cert.Spec.SCC.Idx → EReal := V c (Pipeline.arrRef spec0 1)
abbrev dA0 (c : Dev nD) : Cert.Spec.SN1.Idx → EReal := V c (Pipeline.arrRef spec0 2)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (p : Fin 5000) (k : Fin 128) (r : Fin 100000) (hr : r.val = t.val * 5000 + p.val) :
    iblk0 V c 0 t (ix2 p k) = xA0 V c (ix2 r k) := by
  obtain ⟨e0, e1, -⟩ := idx_facts0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega
theorem iblk0_1_apply (c : Dev nD) (t : Fin cfg0.N) (k : Fin 128) (q : Fin 128) :
    iblk0 V c 1 t (ix2 k q) = wA0 V c (ix2 k q) := by
  obtain ⟨-, -, e2, e3, -⟩ := idx_facts0 t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega
theorem iblk0_2_apply (c : Dev nD) (t : Fin cfg0.N) (p : Fin 5000) (r : Fin 100000) (hr : r.val = t.val * 5000 + p.val) :
    iblk0 V c 2 t (ix2 p (0 : Fin 1)) = dA0 V c (ix2 r (0 : Fin 1)) := by
  obtain ⟨-, -, -, -, e4, e5, -⟩ := idx_facts0 t
  show V c (Pipeline.arrRef spec0 2) (((cfg0.win 2).blk t).view.emb (ix2 p (0 : Fin 1))) = V c (Pipeline.arrRef spec0 2) (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

theorem flushed0_3_eq (c : Dev nD) (t : Fin cfg0.N) :
    (dat0 (F := Ideal) V c).flushed 3 t = ((cfg0.win 3).blk t).view.read (Elt Ideal) (Cert.Spec.linA (xA0 V c) (wA0 V c) (dA0 V c)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  obtain ⟨-, -, -, -, -, -, e6, e7⟩ := idx_facts0 t
  funext j
  obtain ⟨p, q, rfl⟩ : ∃ (p : Fin 5000) (q : Fin 128), j = ix2 p q := ⟨j 0, j 1, eq_ix2 j⟩
  have ht : t.val < 20 := by have h := t.isLt; have hN : cfg0.N = 20 := N_0; omega
  refine (pay0_apply (iblk0 V c 0 t) (iblk0 V c 1 t) (iblk0 V c 2 t) p q).trans ?_
  show _ = Cert.Spec.linA (xA0 V c) (wA0 V c) (dA0 V c) (((cfg0.win 3).blk t).view.emb (ix2 p q))
  have hr : t.val * 5000 + p.val < 100000 := by have := p.isLt; omega
  have hE : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [hE]
  unfold Cert.Spec.linA
  refine congr (congrArg HMul.hMul (Finset.sum_congr rfl fun k _ => ?_)) ?_
  · rw [iblk0_0_apply V c t p k ⟨t.val * 5000 + p.val, hr⟩ rfl, iblk0_1_apply V c t k q]
  · rw [iblk0_2_apply V c t p ⟨t.val * 5000 + p.val, hr⟩ rfl]

theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

theorem final0_3 (c : Dev nD) : (dat0 (F := Ideal) V c).arrAt 3 cfg0.N = Cert.Spec.linA (V c (Pipeline.arrRef spec0 0)) (V c (Pipeline.arrRef spec0 1)) (V c (Pipeline.arrRef spec0 2)) :=
  (dat0 (F := Ideal) V c).arrAt_eq_of_cover 3 (Cert.Spec.linA (xA0 V c) (wA0 V c) (dA0 V c)) (fun t _ => flushed0_3_eq V c t) fun i => by
    have hi0 : (i 0 : Nat) < 100000 := (i 0).isLt
    have hi1 : (i 1 : Nat) < 128 := (i 1).isLt
    have hN : cfg0.N = 20 := N_0
    let t : Fin cfg0.N := ⟨(i 0 : Nat) / 5000, by rw [hN]; omega⟩
    obtain ⟨-, -, -, -, -, -, e6, e7⟩ := idx_facts0 t
    have e6' : win0_3.index t (0 : Fin 2) = (i 0 : Nat) / 5000 := e6
    refine ⟨t, flush0_3 t, ?_⟩
    rw [mem_blk0_3]
    intro a
    match a with
    | ⟨0, _⟩ => show win0_3.index t (0 : Fin 2) * 5000 ≤ (i 0 : Nat) ∧ (i 0 : Nat) < win0_3.index t (0 : Fin 2) * 5000 + 5000; omega
    | ⟨1, _⟩ => show win0_3.index t (1 : Fin 2) * 128 ≤ (i 1 : Nat) ∧ (i 1 : Nat) < win0_3.index t (1 : Fin 2) * 128 + 128; omega

end Cert.KernelIdeal.H

end
-- ==== Proof.KI.V1.lean ====
import proofs.«402146_j32049045962863_2_alg».proof.Proof.KI.R1
import proofs.«402146_j32049045962863_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.H

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

theorem hzA1 : (![0, 0] : Fin 2 → Nat) = fun _ => 0 := funext fun a => by fin_cases a <;> rfl
theorem hzB1 : (![0, 0, 0] : Fin 3 → Nat) = fun _ => 0 := funext fun a => by fin_cases a <;> rfl

section
variable (c : Dev nD) (i : grid1.Coords) (a2 : Memref sig .tc .vmem S2000x128 .f32) (h2 : a2.IsWhole) (a3 : Memref sig .tc .vmem S2000x128 .f32) (h3 : a3.IsWhole) (a4 : Memref sig .tc .vmem S2000x1 .f32) (h4 : a4.IsWhole) (a5 : Memref sig .tc .vmem S1x128 .f32) (h5 : a5.IsWhole) (a6 : Memref sig .tc .vmem S2000x1 .i32) (h6 : a6.IsWhole) (a7 : Memref sig .tc .vmem S2000x128 .f32) (h7 : a7.IsWhole) (a8 : Memref sig .tc .vmem S1x64x128 .f32) (h8 : a8.IsWhole) (hc : cond1_0 i) (x0 : Vec F S2000x128 .f32) (x1 : Vec F S2000x128 .f32) (x2 : Vec F S2000x1 .f32) (x3 : Vec F S1x128 .f32) (x4 : Vec F S2000x1 .i32)

theorem out1_A_5_eq :
    out1_A_5 c i a2 h2 a3 h3 a4 h4 a5 h5 a6 h6 a7 h7 a8 h8 hc x0 x1 x2 x3 x4 = k1_pay2 x2 x0 x1 x3 := by
  unfold out1_A_5
  rw [View.read_writes_eq_canon _ _ _ (cover1_A_5 c i a2 h2 a3 h3 a4 h4 a5 h5 a6 h6 a7 h7 a8 h8 hc x0 x1 x2 x3 x4)]
  unfold kernelRun1_A
  dsimp only
  sl_unfold_words
  rw [View.canon_unit_zero hzA1]
  simp only [View.readAt_eq_ld, h2.read_unread, h3.read_unread, h4.read_unread, h5.read_unread,
    View.ld_unit_zero (S := S2000x128) hzA1, View.ld_unit_zero (S := S2000x1) hzA1, View.ld_unit_zero (S := S1x128) hzA1]

theorem out1_A_6_eq :
    out1_A_6 c i a2 h2 a3 h3 a4 h4 a5 h5 a6 h6 a7 h7 a8 h8 hc x0 x1 x2 x3 x4 = k1_pay3 x2 x0 x1 x3 x4 k1_pay1 := by
  unfold out1_A_6
  rw [View.read_writes_eq_canon _ _ _ (cover1_A_6 c i a2 h2 a3 h3 a4 h4 a5 h5 a6 h6 a7 h7 a8 h8 hc x0 x1 x2 x3 x4)]
  unfold kernelRun1_A
  dsimp only
  sl_unfold_words
  rw [View.canon_cons_unit_zero (S := S1x64x128) hzB1, View.readCov_unit_zero (S := S1x64x128) _ hzB1]
  simp only [View.readAt_eq_ld, h2.read_unread, h3.read_unread, h4.read_unread, h5.read_unread, h6.read_unread,
    View.ld_unit_zero (S := S2000x128) hzA1, View.ld_unit_zero (S := S2000x1) hzA1, View.ld_unit_zero (S := S1x128) hzA1,
    View.ld_unit_zero (S := S1x64x128) hzB1]

end

section
variable (c : Dev nD) (i : grid1.Coords) (a2 : Memref sig .tc .vmem S2000x128 .f32) (h2 : a2.IsWhole) (a3 : Memref sig .tc .vmem S2000x128 .f32) (h3 : a3.IsWhole) (a4 : Memref sig .tc .vmem S2000x1 .f32) (h4 : a4.IsWhole) (a5 : Memref sig .tc .vmem S1x128 .f32) (h5 : a5.IsWhole) (a6 : Memref sig .tc .vmem S2000x1 .i32) (h6 : a6.IsWhole) (a7 : Memref sig .tc .vmem S2000x128 .f32) (h7 : a7.IsWhole) (a8 : Memref sig .tc .vmem S1x64x128 .f32) (h8 : a8.IsWhole) (hc : ¬cond1_0 i) (x0 : Vec F S2000x128 .f32) (x1 : Vec F S2000x128 .f32) (x2 : Vec F S2000x1 .f32) (x3 : Vec F S1x128 .f32) (x4 : Vec F S2000x1 .i32) (xo : Vec F S1x64x128 .f32)

theorem out1_B_5_eq :
    out1_B_5 c i a2 h2 a3 h3 a4 h4 a5 h5 a6 h6 a7 h7 a8 h8 hc x0 x1 x2 x3 x4 xo = k1_pay2 x2 x0 x1 x3 := by
  unfold out1_B_5
  rw [View.read_writes_eq_canon _ _ _ (cover1_B_5 c i a2 h2 a3 h3 a4 h4 a5 h5 a6 h6 a7 h7 a8 h8 hc x0 x1 x2 x3 x4 xo)]
  unfold kernelRun1_B
  dsimp only
  sl_unfold_words
  rw [View.canon_unit_zero hzA1]
  simp only [View.readAt_eq_ld, h2.read_unread, h3.read_unread, h4.read_unread, h5.read_unread,
    View.ld_unit_zero (S := S2000x128) hzA1, View.ld_unit_zero (S := S2000x1) hzA1, View.ld_unit_zero (S := S1x128) hzA1]

theorem out1_B_6_eq :
    out1_B_6 c i a2 h2 a3 h3 a4 h4 a5 h5 a6 h6 a7 h7 a8 h8 hc x0 x1 x2 x3 x4 xo = k1_pay3 x2 x0 x1 x3 x4 xo := by
  unfold out1_B_6
  rw [View.read_writes_eq_canon _ _ _ (cover1_B_6 c i a2 h2 a3 h3 a4 h4 a5 h5 a6 h6 a7 h7 a8 h8 hc x0 x1 x2 x3 x4 xo)]
  unfold kernelRun1_B
  dsimp only
  sl_unfold_words
  rw [View.canon_unit_zero hzB1]
  simp only [View.readAt_eq_ld, h2.read_unread, h3.read_unread, h4.read_unread, h5.read_unread, h6.read_unread, h8.read_unread,
    View.ld_unit_zero (S := S2000x128) hzA1, View.ld_unit_zero (S := S2000x1) hzA1, View.ld_unit_zero (S := S1x128) hzA1,
    View.ld_unit_zero (S := S1x64x128) hzB1]

end

end Pieces

section Points
variable {F : FTy → Type} [FloatOps F]
variable (V : (c : Dev nD) → (b : Ref sig .tc) → Buf (Elt F) ((c : Thread nD τ).loc b))

abbrev xb1_0 (c : Dev nD) (t : Fin cfg1.N) : Vec F S2000x128 .f32 := iblk1 V c 0 t
abbrev xb1_1 (c : Dev nD) (t : Fin cfg1.N) : Vec F S2000x128 .f32 := iblk1 V c 1 t
abbrev xb1_2 (c : Dev nD) (t : Fin cfg1.N) : Vec F S2000x1 .f32 := iblk1 V c 2 t
abbrev xb1_3 (c : Dev nD) (t : Fin cfg1.N) : Vec F S1x128 .f32 := iblk1 V c 3 t
abbrev xb1_4 (c : Dev nD) (t : Fin cfg1.N) : Vec F S2000x1 .i32 := iblk1 V c 4 t

theorem outs1_fst (c : Dev nD) (t : Fin cfg1.N) :
    (outsAt1 V c t.val t.isLt).1 = k1_pay2 (xb1_2 V c t) (xb1_0 V c t) (xb1_1 V c t) (xb1_3 V c t) := by
  by_cases h0 : t.val % 25 = 0
  · rw [outsAt1_A V c t h0]; dsimp only
    exact out1_A_5_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)
  · rw [outsAt1_B V c t h0]; dsimp only
    exact out1_B_5_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2

theorem outs1_snd_A (c : Dev nD) (t : Fin cfg1.N) (h0 : t.val % 25 = 0) :
    (outsAt1 V c t.val t.isLt).2 = k1_pay3 (xb1_2 V c t) (xb1_0 V c t) (xb1_1 V c t) (xb1_3 V c t) (xb1_4 V c t) k1_pay1 := by
  rw [outsAt1_A V c t h0]; dsimp only
  exact out1_A_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)

theorem outs1_snd_B (c : Dev nD) (t : Fin cfg1.N) (h0 : ¬t.val % 25 = 0) :
    (outsAt1 V c t.val t.isLt).2 = k1_pay3 (xb1_2 V c t) (xb1_0 V c t) (xb1_1 V c t) (xb1_3 V c t) (xb1_4 V c t)
      (outsAt1 V c (t.val - 1) (Nat.lt_of_le_of_lt (Nat.sub_le _ _) t.isLt)).2 := by
  rw [outsAt1_B V c t h0]; dsimp only
  exact out1_B_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t)
      (outsAt1 V c (t.val - 1) (Nat.lt_of_le_of_lt (Nat.sub_le _ _) t.isLt)).2

end Points

theorem combPay1_apply (d : Vec Ideal S2000x1 .f32) (a x : Vec Ideal S2000x128 .f32) (b : Vec Ideal S1x128 .f32)
    (r : Fin 2000) (ch : Fin 128) :
    k1_pay2 d a x b (ix2 r ch) = d (ix2 r (0 : Fin 1)) * (a (ix2 r ch) + x (ix2 r ch)) + b (ix2 (0 : Fin 1) ch) := by
  unfold k1_pay2
  simp only [shapeCast_self]
  show broadcastTo S2000x128 d _ (ix2 r ch) * (a (ix2 r ch) + x (ix2 r ch)) + broadcastTo S2000x128 b _ (ix2 r ch) = _
  rw [broadcastTo_apply d _ (ix2 r ch) (ix2 r (0 : Fin 1)) (fun ax => by match ax with | ⟨0, _⟩ => rfl | ⟨1, _⟩ => rfl),
    broadcastTo_apply b _ (ix2 r ch) (ix2 (0 : Fin 1) ch) (fun ax => by match ax with | ⟨0, _⟩ => rfl | ⟨1, _⟩ => rfl)]

theorem onehot1_entry (w g : BitVec 32) :
    FloatOps.sitofp (F := Ideal) .f32 ((IntOp.cmpi .eq w g).setWidth 32) = if w = g then (1 : EReal) else 0 := by
  show (((BitVec.setWidth 32 (IntOp.cmpi .eq w g)).toInt : ℝ) : EReal) = _
  unfold IntOp.cmpi
  by_cases h : w = g
  · subst h; simp
  · have hb : (w == g) = false := by simpa using h
    rw [hb, if_neg h]; simp

theorem sumPay1_apply (d : Vec Ideal S2000x1 .f32) (a x : Vec Ideal S2000x128 .f32) (b : Vec Ideal S1x128 .f32)
    (bt : Vec Ideal S2000x1 .i32) (acc : Vec Ideal S1x64x128 .f32) (g : Fin 64) (ch : Fin 128) :
    k1_pay3 d a x b bt acc (ix3 (0 : Fin 1) g ch)
      = acc (ix3 (0 : Fin 1) g ch)
        + ∑ r : Fin 2000, (if bt (ix2 r (0 : Fin 1)) = BitVec.ofNat 32 g.val then (1 : EReal) else 0) * k1_pay2 d a x b (ix2 r ch) := by
  unfold k1_pay3
  refine (shapeCast_apply _ _ (ix3 (0 : Fin 1) g ch) (ix2 g ch) ?_).trans ?_
  · rw [Shape.rowMajor_val_two, Shape.rowMajor_val_three]; show g.val * 128 + ch.val = (0 * 64 + g.val) * 128 + ch.val; omega
  refine congrArg₂ (· + ·) ?_ ?_
  · refine shapeCast_apply acc _ (ix2 g ch) (ix3 (0 : Fin 1) g ch) ?_
    rw [Shape.rowMajor_val_two, Shape.rowMajor_val_three]; show (0 * 64 + g.val) * 128 + ch.val = g.val * 128 + ch.val; omega
  · refine (Ideal.matmul_constant_zero_apply dot_S2000x64_S2000x128_S64x128_0_0_1_1_n_n none _ _ (ix2 g ch)).trans ?_
    rw [← Equiv.sum_comp (contrEquiv1 dot_S2000x64_S2000x128_S64x128_0_0_1_1_n_n 2000 rfl rfl).symm]
    refine Finset.sum_congr rfl fun r _ => ?_
    have c2 := contrEquiv1_symm_val dot_S2000x64_S2000x128_S64x128_0_0_1_1_n_n 2000 rfl rfl r
    have l2 : dot_S2000x64_S2000x128_S64x128_0_0_1_1_n_n.lhsIdx (ix2 g ch) ((contrEquiv1 _ 2000 rfl rfl).symm r) = ix2 r g := by
      funext ax; apply Fin.ext
      match ax with
      | ⟨0, _⟩ => exact (DotDims.lhsIdx_val_of_single _ (cl := (0 : Fin 2)) rfl _ _).trans c2
      | ⟨1, _⟩ => simp [DotDims.lhsIdx, dot_S2000x64_S2000x128_S64x128_0_0_1_1_n_n]; rfl
    have r2 : dot_S2000x64_S2000x128_S64x128_0_0_1_1_n_n.rhsIdx (ix2 g ch) ((contrEquiv1 _ 2000 rfl rfl).symm r) = ix2 r ch := by
      funext ax; apply Fin.ext
      match ax with
      | ⟨0, _⟩ => exact (DotDims.rhsIdx_val_of_single _ (cr := (0 : Fin 2)) rfl _ _).trans c2
      | ⟨1, _⟩ => simp [DotDims.rhsIdx, dot_S2000x64_S2000x128_S64x128_0_0_1_1_n_n]; rfl
    rw [l2, r2]
    refine congrArg (· * k1_pay2 d a x b (ix2 r ch)) ?_
    show FloatOps.sitofp (F := Ideal) .f32 ((IntOp.cmpi .eq (broadcastTo S2000x64 (shapeCast S2000x1 bt shapeCasts_S2000x1_S2000x1) broadcasts_S2000x1_S2000x64 (ix2 r g)) (iota .tc S2000x64 32 [1] iota_S2000x64_d1_w32 (ix2 r g))).setWidth 32) = _
    rw [iota_single_apply, shapeCast_self,
      broadcastTo_apply bt _ (ix2 r g) (ix2 r (0 : Fin 1)) (fun ax => by match ax with | ⟨0, _⟩ => rfl | ⟨1, _⟩ => rfl),
      onehot1_entry]

theorem rows1_step (f : ℕ → EReal) (n : ℕ) (hB : ¬(n + 1) % 25 = 0) :
    ∑ q ∈ Finset.range ((n % 25 + 1) * 2000), f (n / 25 * 50000 + q) + ∑ r ∈ Finset.range 2000, f ((n + 1) * 2000 + r)
      = ∑ q ∈ Finset.range (((n + 1) % 25 + 1) * 2000), f ((n + 1) / 25 * 50000 + q) := by
  have h1 : (n + 1) % 25 = n % 25 + 1 := by omega
  have h2 : (n + 1) / 25 = n / 25 := by omega
  rw [h1, h2, show (n % 25 + 1 + 1) * 2000 = (n % 25 + 1) * 2000 + 2000 by ring, Finset.sum_range_add]
  refine congrArg (_ + ·) (Finset.sum_congr rfl fun r _ => congrArg f ?_)
  omega

theorem rows1_reset (f : ℕ → EReal) (n : ℕ) (hA : n % 25 = 0) :
    ∑ r ∈ Finset.range 2000, f (n * 2000 + r) = ∑ q ∈ Finset.range ((n % 25 + 1) * 2000), f (n / 25 * 50000 + q) := by
  rw [hA]
  refine Finset.sum_congr (by norm_num) fun r _ => congrArg f ?_
  omega

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 3) = t.val / 25 ∧ win1_6.index t (1 : Fin 3) = 0 ∧ win1_6.index t (2 : Fin 3) = 0 :=
  (by decide +kernel : ∀ t : Fin grid1.N, _)

def rowAt1 (t : Fin cfg1.N) (r : Fin 2000) : Fin 100000 :=
  ⟨t.val * 2000 + r.val, by have := t.isLt; have h : cfg1.N = 50 := N_1; have := r.isLt; omega⟩

def halfAt1 (t : Fin cfg1.N) : Fin 2 := ⟨t.val / 25, by have := t.isLt; have h : cfg1.N = 50 := N_1; omega⟩

section Value
variable (V : (c : Dev nD) → (b : Ref sig .tc) → Buf (Elt Ideal) ((c : Thread nD τ).loc b))

abbrev arr1_0 (c : Dev nD) : Cert.Spec.SNC.Idx → EReal := V c (Pipeline.arrRef spec1 0)
abbrev arr1_1 (c : Dev nD) : Cert.Spec.SNC.Idx → EReal := V c (Pipeline.arrRef spec1 1)
abbrev arr1_2 (c : Dev nD) : Cert.Spec.SN1.Idx → EReal := V c (Pipeline.arrRef spec1 2)
abbrev arr1_3 (c : Dev nD) : Cert.Spec.S1C.Idx → EReal := V c (Pipeline.arrRef spec1 3)
abbrev arr1_4 (c : Dev nD) : Cert.Spec.SN1.Idx → BitVec 32 := V c (Pipeline.arrRef spec1 4)

theorem xb1_0_apply (c : Dev nD) (t : Fin cfg1.N) (r : Fin 2000) (ch : Fin 128) :
    xb1_0 V c t (ix2 r ch) = arr1_0 V c (ix2 (rowAt1 t r) ch) := by
  have e := idx_facts1 t
  show ((cfg1.win 0).blk t).view.read (Elt Ideal) (V c (Pipeline.arrRef spec1 0)) _ = _
  rw [View.read_apply]
  refine congrArg (V c (Pipeline.arrRef spec1 0)) (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * ch.val = ch.val; omega

theorem xb1_1_apply (c : Dev nD) (t : Fin cfg1.N) (r : Fin 2000) (ch : Fin 128) :
    xb1_1 V c t (ix2 r ch) = arr1_1 V c (ix2 (rowAt1 t r) ch) := by
  have e := idx_facts1 t
  show ((cfg1.win 1).blk t).view.read (Elt Ideal) (V c (Pipeline.arrRef spec1 1)) _ = _
  rw [View.read_apply]
  refine congrArg (V c (Pipeline.arrRef spec1 1)) (funext fun a => Fin.ext ?_)
  match a with
  | ⟨0, _⟩ => show win1_1.index t (0 : Fin 2) * 2000 + 1 * r.val = t.val * 2000 + r.val; omega
  | ⟨1, _⟩ => show win1_1.index t (1 : Fin 2) * 128 + 1 * ch.val = ch.val; omega

theorem xb1_2_apply (c : Dev nD) (t : Fin cfg1.N) (r : Fin 2000) :
    xb1_2 V c t (ix2 r (0 : Fin 1)) = arr1_2 V c (ix2 (rowAt1 t r) (0 : Fin 1)) := by
  have e := idx_facts1 t
  show ((cfg1.win 2).blk t).view.read (Elt Ideal) (V c (Pipeline.arrRef spec1 2)) _ = _
  rw [View.read_apply]
  refine congrArg (V c (Pipeline.arrRef spec1 2)) (funext fun a => Fin.ext ?_)
  match a with
  | ⟨0, _⟩ => show win1_2.index t (0 : Fin 2) * 2000 + 1 * r.val = t.val * 2000 + r.val; omega
  | ⟨1, _⟩ => show win1_2.index t (1 : Fin 2) * 1 + 1 * 0 = 0; omega

theorem xb1_4_apply (c : Dev nD) (t : Fin cfg1.N) (r : Fin 2000) :
    xb1_4 V c t (ix2 r (0 : Fin 1)) = arr1_4 V c (ix2 (rowAt1 t r) (0 : Fin 1)) := by
  have e := idx_facts1 t
  show ((cfg1.win 4).blk t).view.read (Elt Ideal) (V c (Pipeline.arrRef spec1 4)) _ = _
  rw [View.read_apply]
  refine congrArg (V c (Pipeline.arrRef spec1 4)) (funext fun a => Fin.ext ?_)
  match a with
  | ⟨0, _⟩ => show win1_4.index t (0 : Fin 2) * 2000 + 1 * r.val = t.val * 2000 + r.val; omega
  | ⟨1, _⟩ => show win1_4.index t (1 : Fin 2) * 1 + 1 * 0 = 0; omega

theorem xb1_3_apply (c : Dev nD) (t : Fin cfg1.N) (ch : Fin 128) :
    xb1_3 V c t (ix2 (0 : Fin 1) ch) = arr1_3 V c (ix2 (0 : Fin 1) ch) := by
  have e := idx_facts1 t
  show ((cfg1.win 3).blk t).view.read (Elt Ideal) (V c (Pipeline.arrRef spec1 3)) _ = _
  rw [View.read_apply]
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * ch.val = ch.val; omega

abbrev comb1 (c : Dev nD) : Cert.Spec.SNC.Idx → EReal :=
  Cert.Spec.combA (arr1_0 V c) (arr1_1 V c) (arr1_2 V c) (arr1_3 V c)

abbrev batch1 (c : Dev nD) : Fin 100000 → BitVec 32 := fun n => arr1_4 V c (ix2 n (0 : Fin 1))

theorem comb_blk1 (c : Dev nD) (t : Fin cfg1.N) (r : Fin 2000) (ch : Fin 128) :
    k1_pay2 (xb1_2 V c t) (xb1_0 V c t) (xb1_1 V c t) (xb1_3 V c t) (ix2 r ch) = comb1 V c (ix2 (rowAt1 t r) ch) := by
  refine (combPay1_apply _ _ _ _ r ch).trans ?_
  rw [xb1_0_apply, xb1_1_apply, xb1_2_apply, xb1_3_apply]
  rfl

def rowTerm1 (c : Dev nD) (g : Fin 64) (ch : Fin 128) (n : ℕ) : EReal :=
  if hn : n < 100000 then Cert.Spec.oneHot (batch1 V c) ⟨n, hn⟩ g * comb1 V c (ix2 (⟨n, hn⟩ : Fin 100000) ch) else 0

theorem blk_sum1 (c : Dev nD) (t : Fin cfg1.N) (g : Fin 64) (ch : Fin 128) :
    ∑ r : Fin 2000, (if xb1_4 V c t (ix2 r (0 : Fin 1)) = BitVec.ofNat 32 g.val then (1 : EReal) else 0) * k1_pay2 (xb1_2 V c t) (xb1_0 V c t) (xb1_1 V c t) (xb1_3 V c t) (ix2 r ch)
      = ∑ q ∈ Finset.range 2000, rowTerm1 V c g ch (t.val * 2000 + q) := by
  rw [Finset.sum_range]
  refine Finset.sum_congr rfl fun r _ => ?_
  have hn : t.val * 2000 + r.val < 100000 := (rowAt1 t r).isLt
  unfold rowTerm1
  rw [dif_pos hn, comb_blk1, xb1_4_apply]
  rfl

theorem zeroPay1_apply (j : S1x64x128.Idx) : k1_pay1 (F := Ideal) j = 0 := by
  show Ideal.ofBits .f32 0x00000000#32 = 0
  exact Ideal.ofBits_zero_f32

theorem acc_inv1 (c : Dev nD) : ∀ (n : ℕ) (hn : n < cfg1.N) (g : Fin 64) (ch : Fin 128),
    (outsAt1 V c n hn).2 (ix3 (0 : Fin 1) g ch)
      = ∑ q ∈ Finset.range ((n % 25 + 1) * 2000), rowTerm1 V c g ch (n / 25 * 50000 + q)
  | 0, hn, g, ch => by
    rw [show (outsAt1 V c 0 hn).2 = _ from outs1_snd_A V c ⟨0, hn⟩ rfl, sumPay1_apply, zeroPay1_apply, zero_add, blk_sum1]
    exact rows1_reset _ 0 rfl
  | n + 1, hn, g, ch => by
    by_cases h0 : (n + 1) % 25 = 0
    · rw [show (outsAt1 V c (n + 1) hn).2 = _ from outs1_snd_A V c ⟨n + 1, hn⟩ h0, sumPay1_apply, zeroPay1_apply, zero_add, blk_sum1]
      exact rows1_reset _ (n + 1) h0
    · rw [show (outsAt1 V c (n + 1) hn).2 = _ from outs1_snd_B V c ⟨n + 1, hn⟩ h0, sumPay1_apply, blk_sum1]
      show (outsAt1 V c n _).2 (ix3 (0 : Fin 1) g ch) + _ = _
      rw [acc_inv1 c n (Nat.lt_of_succ_lt hn) g ch]
      exact rows1_step _ n h0

theorem flushed1_5 (c : Dev nD) (t : Fin cfg1.N) :
    (dat1 (F := Ideal) V c).flushed 5 t = ((cfg1.win 5).blk t).view.read (Elt Ideal) (comb1 V c) := by
  have e := idx_facts1 t
  show (cfg1.win 5).cut (grid1.coords t) ((dat1 (F := Ideal) V c).after 5 t) = _
  rw [after1_5, outs1_fst]
  funext j
  obtain ⟨r, ch, rfl⟩ : ∃ (r : Fin 2000) (ch : Fin 128), j = ix2 r ch :=
    ⟨j 0, j 1, funext fun a => by
      match a with
      | ⟨0, _⟩ => rfl
      | ⟨1, _⟩ => rfl⟩
  show k1_pay2 (F := Ideal) (xb1_2 V c t) (xb1_0 V c t) (xb1_1 V c t) (xb1_3 V c t) (ix2 r ch) = comb1 V c (((cfg1.win 5).blk t).view.emb (ix2 r ch))
  rw [comb_blk1]
  refine congrArg _ (funext fun a => Fin.ext ?_)
  match a with
  | ⟨0, _⟩ => show t.val * 2000 + r.val = win1_5.index t (0 : Fin 2) * 2000 + 1 * r.val; omega
  | ⟨1, _⟩ => show ch.val = win1_5.index t (1 : Fin 2) * 128 + 1 * ch.val; omega

theorem read_blk1_6 (t : Fin cfg1.N) (X : Vec Ideal S1x64x128 .f32) (G : Cert.Spec.S2GC.Idx → EReal)
    (hG : ∀ (g : Fin 64) (ch : Fin 128), X (ix3 (0 : Fin 1) g ch) = G (ix3 (halfAt1 t) g ch)) :
    (cfg1.win 6).cut (grid1.coords t) X = ((cfg1.win 6).blk t).view.read (Elt Ideal) G := by
  have e := idx_facts1 t
  funext j
  obtain ⟨g, ch, rfl⟩ : ∃ (g : Fin 64) (ch : Fin 128), j = ix3 (0 : Fin 1) g ch :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  show X (ix3 (0 : Fin 1) g ch) = G (((cfg1.win 6).blk t).view.emb (ix3 (0 : Fin 1) g ch))
  rw [hG]
  refine congrArg G (funext fun a => Fin.ext ?_)
  match a with
  | ⟨0, _⟩ => show t.val / 25 = win1_6.index t (0 : Fin 3) * 1 + 1 * 0; omega
  | ⟨1, _⟩ => show g.val = win1_6.index t (1 : Fin 3) * 64 + 1 * g.val; omega
  | ⟨2, _⟩ => show ch.val = win1_6.index t (2 : Fin 3) * 128 + 1 * ch.val; omega

abbrev part1 (c : Dev nD) : Cert.Spec.S2GC.Idx → EReal := Cert.Spec.partA (batch1 V c) (comb1 V c)

theorem flushed1_6 (c : Dev nD) (t : Fin cfg1.N) (hf : (cfg1.win 6).flush t = true) :
    (dat1 (F := Ideal) V c).flushed 6 t = ((cfg1.win 6).blk t).view.read (Elt Ideal) (part1 V c) := by
  have h24 : t.val % 25 = 24 := (flush1_6 t).mp hf
  show (cfg1.win 6).cut (grid1.coords t) ((dat1 (F := Ideal) V c).after 6 t) = _
  rw [after1_6]
  refine read_blk1_6 t _ _ fun g ch => ?_
  rw [acc_inv1 V c t.val t.isLt g ch, h24, show (24 + 1) * 2000 = 50000 from rfl, Finset.sum_range]
  show _ = ∑ q : Fin 50000, Cert.Spec.oneHot (batch1 V c) (Cert.Spec.rowOf (halfAt1 t) q) g
      * comb1 V c (ix2 (Cert.Spec.rowOf (halfAt1 t) q) ch)
  refine Finset.sum_congr rfl fun q _ => ?_
  have hn : t.val / 25 * 50000 + q.val < 100000 := (Cert.Spec.rowOf (halfAt1 t) q).isLt
  unfold rowTerm1
  rw [dif_pos hn]
  rfl

theorem mem_blk1_5 (t : Fin cfg1.N) (i : Cert.Spec.SNC.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole (Pipeline.arrRef spec1 5)).slice (win1_5.rect t)).set ↔ _
  rw [View.set_slice_whole, Rect.mem_set_unit]
  exact Iff.rfl

theorem mem_blk1_6 (t : Fin cfg1.N) (i : Cert.Spec.S2GC.Idx) :
    i ∈ ((cfg1.win 6).blk t).view.set ↔ ∀ a : Fin 3, win1_6.index t a * S1x64x128.size a ≤ (i a).val ∧ (i a).val < win1_6.index t a * S1x64x128.size a + S1x64x128.size a := by
  show i ∈ ((View.whole (Pipeline.arrRef spec1 6)).slice (win1_6.rect t)).set ↔ _
  rw [View.set_slice_whole, Rect.mem_set_unit]
  exact Iff.rfl

theorem final1_5 (c : Dev nD) : (dat1 (F := Ideal) V c).arrAt 5 cfg1.N
    = Cert.Spec.combA (V c (Pipeline.arrRef spec1 0)) (V c (Pipeline.arrRef spec1 1)) (V c (Pipeline.arrRef spec1 2)) (V c (Pipeline.arrRef spec1 3)) :=
  (dat1 (F := Ideal) V c).arrAt_eq_of_cover 5 (comb1 V c) (fun t _ => flushed1_5 V c t) fun i => by
    have hi0 : (i 0).val < 100000 := (i 0).isLt
    have hi1 : (i 1).val < 128 := (i 1).isLt
    have hN : cfg1.N = 50 := N_1
    obtain ⟨t, ht⟩ : ∃ t : Fin cfg1.N, t.val = (i 0).val / 2000 := ⟨⟨(i 0).val / 2000, by omega⟩, rfl⟩
    have e := idx_facts1 t
    refine ⟨t, flush1_5 t, ?_⟩
    rw [mem_blk1_5]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 128 ≤ (i 1).val ∧ (i 1).val < win1_5.index t (1 : Fin 2) * 128 + 128; omega

theorem final1_6 (c : Dev nD) : (dat1 (F := Ideal) V c).arrAt 6 cfg1.N
    = Cert.Spec.partA (fun n => V c (Pipeline.arrRef spec1 4) (ix2 n (0 : Fin 1)))
        (Cert.Spec.combA (V c (Pipeline.arrRef spec1 0)) (V c (Pipeline.arrRef spec1 1)) (V c (Pipeline.arrRef spec1 2)) (V c (Pipeline.arrRef spec1 3))) :=
  (dat1 (F := Ideal) V c).arrAt_eq_of_cover 6 (part1 V c) (fun t hf => flushed1_6 V c t hf) fun i => by
    have hi0 : (i 0).val < 2 := (i 0).isLt
    have hi1 : (i 1).val < 64 := (i 1).isLt
    have hi2 : (i 2).val < 128 := (i 2).isLt
    have hN : cfg1.N = 50 := N_1
    obtain ⟨t, ht⟩ : ∃ t : Fin cfg1.N, t.val = (i 0).val * 25 + 24 := ⟨⟨(i 0).val * 25 + 24, by omega⟩, rfl⟩
    have e := idx_facts1 t
    refine ⟨t, (flush1_6 t).mpr (by omega), ?_⟩
    rw [mem_blk1_6]
    intro a
    match a with
    | ⟨0, _⟩ => show win1_6.index t (0 : Fin 3) * 1 ≤ (i 0).val ∧ (i 0).val < win1_6.index t (0 : Fin 3) * 1 + 1; omega
    | ⟨1, _⟩ => show win1_6.index t (1 : Fin 3) * 64 ≤ (i 1).val ∧ (i 1).val < win1_6.index t (1 : Fin 3) * 64 + 64; omega
    | ⟨2, _⟩ => show win1_6.index t (2 : Fin 3) * 128 ≤ (i 2).val ∧ (i 2).val < win1_6.index t (2 : Fin 3) * 128 + 128; omega

end Value

end Cert.KernelIdeal.H

end
-- ==== Proof.KI.V4.lean ====
import proofs.«402146_j32049045962863_2_alg».proof.Proof.KI.R4
import proofs.«402146_j32049045962863_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

abbrev dotD4 := dot_S5000x128_S128x128_S5000x128_1_0_0_1_n_n

theorem dot_lhs4 (p : Fin 5000) (q : Fin 128) (k : Fin 128) :
    dotD4.lhsIdx (ix2 p q) ((contrEquiv1 dotD4 128 rfl rfl).symm k) = ix2 p k := by
  have c2 := contrEquiv1_symm_val dotD4 128 rfl rfl k
  funext ax; apply Fin.ext
  match ax with
  | ⟨0, _⟩ => simp [DotDims.lhsIdx, dotD4, dot_S5000x128_S128x128_S5000x128_1_0_0_1_n_n]; rfl
  | ⟨1, _⟩ => simp [DotDims.lhsIdx, dotD4, dot_S5000x128_S128x128_S5000x128_1_0_0_1_n_n]; exact c2

theorem dot_rhs4 (p : Fin 5000) (q : Fin 128) (k : Fin 128) :
    dotD4.rhsIdx (ix2 p q) ((contrEquiv1 dotD4 128 rfl rfl).symm k) = ix2 k q := by
  have c2 := contrEquiv1_symm_val dotD4 128 rfl rfl k
  funext ax; apply Fin.ext
  match ax with
  | ⟨0, _⟩ => simp [DotDims.rhsIdx, dotD4, dot_S5000x128_S128x128_S5000x128_1_0_0_1_n_n]; exact c2
  | ⟨1, _⟩ => simp [DotDims.rhsIdx, dotD4, dot_S5000x128_S128x128_S5000x128_1_0_0_1_n_n]; rfl

theorem pay4_apply (x0 : Vec Ideal S5000x128 .f32) (x1 : Vec Ideal S128x128 .f32) (x2 : Vec Ideal S5000x1 .f32)
    (p : Fin 5000) (q : Fin 128) :
    k4_pay1 (F := Ideal) x0 x1 x2 (ix2 p q) = (∑ k : Fin 128, x0 (ix2 p k) * x1 (ix2 k q)) * x2 (ix2 p (0 : Fin 1)) := by
  unfold k4_pay1
  simp only [shapeCast_self]
  rw [mulf_apply]
  refine congr (congrArg HMul.hMul ?_) ?_
  · refine (Ideal.matmul_constant_zero_apply dotD4 none _ _ (ix2 p q)).trans ?_
    rw [← Equiv.sum_comp (contrEquiv1 dotD4 128 rfl rfl).symm]
    refine Finset.sum_congr rfl fun k _ => ?_
    rw [dot_lhs4, dot_rhs4]; rfl
  · exact broadcastTo_apply _ _ _ (ix2 p (0 : Fin 1)) (fun a => by
      match a with
      | ⟨0, _⟩ => rfl
      | ⟨1, _⟩ => rfl)

variable (V : (c : Dev nD) → (b : Ref sig .tc) → Buf (Elt Ideal) ((c : Thread nD τ).loc b))

theorem hz4 : (![0, 0] : Fin 2 → Nat) = fun _ => 0 := funext fun a => by fin_cases a <;> rfl

abbrev xA4 (c : Dev nD) : Cert.Spec.SNC.Idx → EReal := V c (Pipeline.arrRef spec4 0)
abbrev wA4 (c : Dev nD) : Cert.Spec.SCC.Idx → EReal := V c (Pipeline.arrRef spec4 1)
abbrev dA4 (c : Dev nD) : Cert.Spec.SN1.Idx → EReal := V c (Pipeline.arrRef spec4 2)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem iblk4_0_apply (c : Dev nD) (t : Fin cfg4.N) (p : Fin 5000) (k : Fin 128) (r : Fin 100000) (hr : r.val = t.val * 5000 + p.val) :
    iblk4 V c 0 t (ix2 p k) = xA4 V c (ix2 r k) := by
  obtain ⟨e0, e1, -⟩ := idx_facts4 t
  show V c (Pipeline.arrRef spec4 0) (((cfg4.win 0).blk t).view.emb (ix2 p k)) = V c (Pipeline.arrRef spec4 0) (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega
theorem iblk4_1_apply (c : Dev nD) (t : Fin cfg4.N) (k : Fin 128) (q : Fin 128) :
    iblk4 V c 1 t (ix2 k q) = wA4 V c (ix2 k q) := by
  obtain ⟨-, -, e2, e3, -⟩ := idx_facts4 t
  show V c (Pipeline.arrRef spec4 1) (((cfg4.win 1).blk t).view.emb (ix2 k q)) = V c (Pipeline.arrRef spec4 1) (ix2 k q)
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega
theorem iblk4_2_apply (c : Dev nD) (t : Fin cfg4.N) (p : Fin 5000) (r : Fin 100000) (hr : r.val = t.val * 5000 + p.val) :
    iblk4 V c 2 t (ix2 p (0 : Fin 1)) = dA4 V c (ix2 r (0 : Fin 1)) := by
  obtain ⟨-, -, -, -, e4, e5, -⟩ := idx_facts4 t
  show V c (Pipeline.arrRef spec4 2) (((cfg4.win 2).blk t).view.emb (ix2 p (0 : Fin 1))) = V c (Pipeline.arrRef spec4 2) (ix2 r (0 : Fin 1))
  refine congrArg _ (funext fun a => Fin.ext ?_)
  match a with
  | ⟨0, _⟩ => show win4_2.index t (0 : Fin 2) * 5000 + 1 * p.val = r.val; omega
  | ⟨1, _⟩ => show win4_2.index t (1 : Fin 2) * 1 + 1 * 0 = 0; omega

theorem flushed4_3_eq (c : Dev nD) (t : Fin cfg4.N) :
    (dat4 (F := Ideal) V c).flushed 3 t = ((cfg4.win 3).blk t).view.read (Elt Ideal) (Cert.Spec.linA (xA4 V c) (wA4 V c) (dA4 V c)) := by
  show (cfg4.win 3).cut (grid4.coords t) ((dat4 V c).after 3 t) = _
  rw [after4_3]
  unfold out4_3
  rw [View.canon_unit_zero hz4]
  simp only [View.ld_unit_zero (S := S5000x128) hz4, View.ld_unit_zero (S := S128x128) hz4, View.ld_unit_zero (S := S5000x1) hz4]
  obtain ⟨-, -, -, -, -, -, e6, e7⟩ := idx_facts4 t
  funext j
  obtain ⟨p, q, rfl⟩ : ∃ (p : Fin 5000) (q : Fin 128), j = ix2 p q := ⟨j 0, j 1, eq_ix2 j⟩
  have ht : t.val < 20 := by have h := t.isLt; have hN : cfg4.N = 20 := N_4; omega
  refine (pay4_apply (iblk4 V c 0 t) (iblk4 V c 1 t) (iblk4 V c 2 t) p q).trans ?_
  show _ = Cert.Spec.linA (xA4 V c) (wA4 V c) (dA4 V c) (((cfg4.win 3).blk t).view.emb (ix2 p q))
  have hr : t.val * 5000 + p.val < 100000 := by have := p.isLt; omega
  have hE : ((cfg4.win 3).blk t).view.emb (ix2 p q) = ix2 (⟨t.val * 5000 + p.val, hr⟩ : Fin 100000) q := by
    funext a; apply Fin.ext
    match a with
    | ⟨0, _⟩ => show win4_3.index t (0 : Fin 2) * 5000 + 1 * p.val = t.val * 5000 + p.val; omega
    | ⟨1, _⟩ => show win4_3.index t (1 : Fin 2) * 128 + 1 * q.val = q.val; omega
  rw [hE]
  unfold Cert.Spec.linA
  refine congr (congrArg HMul.hMul (Finset.sum_congr rfl fun k _ => ?_)) ?_
  · rw [iblk4_0_apply V c t p k ⟨t.val * 5000 + p.val, hr⟩ rfl, iblk4_1_apply V c t k q]
  · rw [iblk4_2_apply V c t p ⟨t.val * 5000 + p.val, hr⟩ rfl]

theorem mem_blk4_3 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole (Pipeline.arrRef spec4 3)).slice (win4_3.rect t)).set ↔ _
  rw [View.set_slice_whole, Rect.mem_set_unit]
  exact Iff.rfl

theorem final4_3 (c : Dev nD) : (dat4 (F := Ideal) V c).arrAt 3 cfg4.N = Cert.Spec.linA (V c (Pipeline.arrRef spec4 0)) (V c (Pipeline.arrRef spec4 1)) (V c (Pipeline.arrRef spec4 2)) :=
  (dat4 (F := Ideal) V c).arrAt_eq_of_cover 3 (Cert.Spec.linA (xA4 V c) (wA4 V c) (dA4 V c)) (fun t _ => flushed4_3_eq V c t) fun i => by
    have hi0 : (i 0 : Nat) < 100000 := (i 0).isLt
    have hi1 : (i 1 : Nat) < 128 := (i 1).isLt
    have hN : cfg4.N = 20 := N_4
    let t : Fin cfg4.N := ⟨(i 0 : Nat) / 5000, by rw [hN]; omega⟩
    obtain ⟨-, -, -, -, -, -, e6, e7⟩ := idx_facts4 t
    have e6' : win4_3.index t (0 : Fin 2) = (i 0 : Nat) / 5000 := e6
    refine ⟨t, flush4_3 t, ?_⟩
    rw [mem_blk4_3]
    intro a
    match a with
    | ⟨0, _⟩ => show win4_3.index t (0 : Fin 2) * 5000 ≤ (i 0 : Nat) ∧ (i 0 : Nat) < win4_3.index t (0 : Fin 2) * 5000 + 5000; omega
    | ⟨1, _⟩ => show win4_3.index t (1 : Fin 2) * 128 ≤ (i 1 : Nat) ∧ (i 1 : Nat) < win4_3.index t (1 : Fin 2) * 128 + 128; omega

end Cert.KernelIdeal.H

end
-- ==== Proof.KI.V5.lean ====
import proofs.«402146_j32049045962863_2_alg».proof.Proof.KI.R5
import proofs.«402146_j32049045962863_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«402146_j32049045962863_2_alg».proof.Proof.KI.V1

noncomputable section

namespace Cert.KernelIdeal.H

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

end Pieces

section Points
variable {F : FTy → Type} [FloatOps F]
variable (V : (c : Dev nD) → (b : Ref sig .tc) → Buf (Elt F) ((c : Thread nD τ).loc b))

abbrev xb5_0 (c : Dev nD) (t : Fin cfg5.N) : Vec F S2000x128 .f32 := iblk5 V c 0 t
abbrev xb5_1 (c : Dev nD) (t : Fin cfg5.N) : Vec F S2000x128 .f32 := iblk5 V c 1 t
abbrev xb5_2 (c : Dev nD) (t : Fin cfg5.N) : Vec F S2000x1 .f32 := iblk5 V c 2 t
abbrev xb5_3 (c : Dev nD) (t : Fin cfg5.N) : Vec F S1x128 .f32 := iblk5 V c 3 t
abbrev xb5_4 (c : Dev nD) (t : Fin cfg5.N) : Vec F S2000x1 .i32 := iblk5 V c 4 t

theorem outs5_fst (c : Dev nD) (t : Fin cfg5.N) :
    (outsAt5 V c t.val t.isLt).1 = k1_pay2 (xb5_2 V c t) (xb5_0 V c t) (xb5_1 V c t) (xb5_3 V c t) := by
  by_cases h0 : t.val % 25 = 0
  · rw [outsAt5_A V c t h0]; dsimp only
    exact out1_A_5_eq (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)
  · rw [outsAt5_B V c t h0]; dsimp only
    exact out1_B_5_eq (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t)
      (outsAt5 V c (t.val - 1) (Nat.lt_of_le_of_lt (Nat.sub_le _ _) t.isLt)).2

theorem outs5_snd_A (c : Dev nD) (t : Fin cfg5.N) (h0 : t.val % 25 = 0) :
    (outsAt5 V c t.val t.isLt).2 = k1_pay3 (xb5_2 V c t) (xb5_0 V c t) (xb5_1 V c t) (xb5_3 V c t) (xb5_4 V c t) k1_pay1 := by
  rw [outsAt5_A V c t h0]; dsimp only
  exact out1_A_6_eq (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) ((hcond5_0 t).mpr h0) (iblk5 V c 0 t) (iblk5 V c 1 t) (iblk5 V c 2 t) (iblk5 V c 3 t) (iblk5 V c 4 t)

theorem outs5_snd_B (c : Dev nD) (t : Fin cfg5.N) (h0 : ¬t.val % 25 = 0) :
    (outsAt5 V c t.val t.isLt).2 = k1_pay3 (xb5_2 V c t) (xb5_0 V c t) (xb5_1 V c t) (xb5_3 V c t) (xb5_4 V c t)
      (outsAt5 V c (t.val - 1) (Nat.lt_of_le_of_lt (Nat.sub_le _ _) t.isLt)).2 := by
  rw [outsAt5_B V c t h0]; dsimp only
  exact out1_B_6_eq (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (fun h => h0 ((hcond5_0 t).mp h)) (iblk5 V c 0 t) (iblk5 V c 1 t) (iblk5 V c 2 t) (iblk5 V c 3 t) (iblk5 V c 4 t)
      (outsAt5 V c (t.val - 1) (Nat.lt_of_le_of_lt (Nat.sub_le _ _) t.isLt)).2

end Points

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0
    ∧ win5_6.index t (0 : Fin 3) = t.val / 25 ∧ win5_6.index t (1 : Fin 3) = 0 ∧ win5_6.index t (2 : Fin 3) = 0 :=
  (by decide +kernel : ∀ t : Fin grid5.N, _)

def rowAt5 (t : Fin cfg5.N) (r : Fin 2000) : Fin 100000 :=
  ⟨t.val * 2000 + r.val, by have := t.isLt; have h : cfg5.N = 50 := N_5; have := r.isLt; omega⟩

def halfAt5 (t : Fin cfg5.N) : Fin 2 := ⟨t.val / 25, by have := t.isLt; have h : cfg5.N = 50 := N_5; omega⟩

section Value
variable (V : (c : Dev nD) → (b : Ref sig .tc) → Buf (Elt Ideal) ((c : Thread nD τ).loc b))

abbrev arr5_0 (c : Dev nD) : Cert.Spec.SNC.Idx → EReal := V c (Pipeline.arrRef spec5 0)
abbrev arr5_1 (c : Dev nD) : Cert.Spec.SNC.Idx → EReal := V c (Pipeline.arrRef spec5 1)
abbrev arr5_2 (c : Dev nD) : Cert.Spec.SN1.Idx → EReal := V c (Pipeline.arrRef spec5 2)
abbrev arr5_3 (c : Dev nD) : Cert.Spec.S1C.Idx → EReal := V c (Pipeline.arrRef spec5 3)
abbrev arr5_4 (c : Dev nD) : Cert.Spec.SN1.Idx → BitVec 32 := V c (Pipeline.arrRef spec5 4)

theorem xb5_0_apply (c : Dev nD) (t : Fin cfg5.N) (r : Fin 2000) (ch : Fin 128) :
    xb5_0 V c t (ix2 r ch) = arr5_0 V c (ix2 (rowAt5 t r) ch) := by
  have e := idx_facts5 t
  show ((cfg5.win 0).blk t).view.read (Elt Ideal) (V c (Pipeline.arrRef spec5 0)) _ = _
  rw [View.read_apply]
  refine congrArg (V c (Pipeline.arrRef spec5 0)) (funext fun a => Fin.ext ?_)
  match a with
  | ⟨0, _⟩ => show win5_0.index t (0 : Fin 2) * 2000 + 1 * r.val = t.val * 2000 + r.val; omega
  | ⟨1, _⟩ => show win5_0.index t (1 : Fin 2) * 128 + 1 * ch.val = ch.val; omega

theorem xb5_1_apply (c : Dev nD) (t : Fin cfg5.N) (r : Fin 2000) (ch : Fin 128) :
    xb5_1 V c t (ix2 r ch) = arr5_1 V c (ix2 (rowAt5 t r) ch) := by
  have e := idx_facts5 t
  show ((cfg5.win 1).blk t).view.read (Elt Ideal) (V c (Pipeline.arrRef spec5 1)) _ = _
  rw [View.read_apply]
  refine congrArg (V c (Pipeline.arrRef spec5 1)) (funext fun a => Fin.ext ?_)
  match a with
  | ⟨0, _⟩ => show win5_1.index t (0 : Fin 2) * 2000 + 1 * r.val = t.val * 2000 + r.val; omega
  | ⟨1, _⟩ => show win5_1.index t (1 : Fin 2) * 128 + 1 * ch.val = ch.val; omega

theorem xb5_2_apply (c : Dev nD) (t : Fin cfg5.N) (r : Fin 2000) :
    xb5_2 V c t (ix2 r (0 : Fin 1)) = arr5_2 V c (ix2 (rowAt5 t r) (0 : Fin 1)) := by
  have e := idx_facts5 t
  show ((cfg5.win 2).blk t).view.read (Elt Ideal) (V c (Pipeline.arrRef spec5 2)) _ = _
  rw [View.read_apply]
  refine congrArg (V c (Pipeline.arrRef spec5 2)) (funext fun a => Fin.ext ?_)
  match a with
  | ⟨0, _⟩ => show win5_2.index t (0 : Fin 2) * 2000 + 1 * r.val = t.val * 2000 + r.val; omega
  | ⟨1, _⟩ => show win5_2.index t (1 : Fin 2) * 1 + 1 * 0 = 0; omega

theorem xb5_4_apply (c : Dev nD) (t : Fin cfg5.N) (r : Fin 2000) :
    xb5_4 V c t (ix2 r (0 : Fin 1)) = arr5_4 V c (ix2 (rowAt5 t r) (0 : Fin 1)) := by
  have e := idx_facts5 t
  show ((cfg5.win 4).blk t).view.read (Elt Ideal) (V c (Pipeline.arrRef spec5 4)) _ = _
  rw [View.read_apply]
  refine congrArg (V c (Pipeline.arrRef spec5 4)) (funext fun a => Fin.ext ?_)
  match a with
  | ⟨0, _⟩ => show win5_4.index t (0 : Fin 2) * 2000 + 1 * r.val = t.val * 2000 + r.val; omega
  | ⟨1, _⟩ => show win5_4.index t (1 : Fin 2) * 1 + 1 * 0 = 0; omega

theorem xb5_3_apply (c : Dev nD) (t : Fin cfg5.N) (ch : Fin 128) :
    xb5_3 V c t (ix2 (0 : Fin 1) ch) = arr5_3 V c (ix2 (0 : Fin 1) ch) := by
  have e := idx_facts5 t
  show ((cfg5.win 3).blk t).view.read (Elt Ideal) (V c (Pipeline.arrRef spec5 3)) _ = _
  rw [View.read_apply]
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 128 + 1 * ch.val = ch.val; omega

abbrev comb5 (c : Dev nD) : Cert.Spec.SNC.Idx → EReal :=
  Cert.Spec.combA (arr5_0 V c) (arr5_1 V c) (arr5_2 V c) (arr5_3 V c)

abbrev batch5 (c : Dev nD) : Fin 100000 → BitVec 32 := fun n => arr5_4 V c (ix2 n (0 : Fin 1))

theorem comb_blk5 (c : Dev nD) (t : Fin cfg5.N) (r : Fin 2000) (ch : Fin 128) :
    k1_pay2 (xb5_2 V c t) (xb5_0 V c t) (xb5_1 V c t) (xb5_3 V c t) (ix2 r ch) = comb5 V c (ix2 (rowAt5 t r) ch) := by
  refine (combPay1_apply _ _ _ _ r ch).trans ?_
  rw [xb5_0_apply, xb5_1_apply, xb5_2_apply, xb5_3_apply]
  rfl

def rowTerm5 (c : Dev nD) (g : Fin 64) (ch : Fin 128) (n : ℕ) : EReal :=
  if hn : n < 100000 then Cert.Spec.oneHot (batch5 V c) ⟨n, hn⟩ g * comb5 V c (ix2 (⟨n, hn⟩ : Fin 100000) ch) else 0

theorem blk_sum5 (c : Dev nD) (t : Fin cfg5.N) (g : Fin 64) (ch : Fin 128) :
    ∑ r : Fin 2000, (if xb5_4 V c t (ix2 r (0 : Fin 1)) = BitVec.ofNat 32 g.val then (1 : EReal) else 0) * k1_pay2 (xb5_2 V c t) (xb5_0 V c t) (xb5_1 V c t) (xb5_3 V c t) (ix2 r ch)
      = ∑ q ∈ Finset.range 2000, rowTerm5 V c g ch (t.val * 2000 + q) := by
  rw [Finset.sum_range]
  refine Finset.sum_congr rfl fun r _ => ?_
  have hn : t.val * 2000 + r.val < 100000 := (rowAt5 t r).isLt
  unfold rowTerm5
  rw [dif_pos hn, comb_blk5, xb5_4_apply]
  rfl

theorem acc_inv5 (c : Dev nD) : ∀ (n : ℕ) (hn : n < cfg5.N) (g : Fin 64) (ch : Fin 128),
    (outsAt5 V c n hn).2 (ix3 (0 : Fin 1) g ch)
      = ∑ q ∈ Finset.range ((n % 25 + 1) * 2000), rowTerm5 V c g ch (n / 25 * 50000 + q)
  | 0, hn, g, ch => by
    rw [show (outsAt5 V c 0 hn).2 = _ from outs5_snd_A V c ⟨0, hn⟩ rfl, sumPay1_apply, zeroPay1_apply, zero_add, blk_sum5]
    exact rows1_reset _ 0 rfl
  | n + 1, hn, g, ch => by
    by_cases h0 : (n + 1) % 25 = 0
    · rw [show (outsAt5 V c (n + 1) hn).2 = _ from outs5_snd_A V c ⟨n + 1, hn⟩ h0, sumPay1_apply, zeroPay1_apply, zero_add, blk_sum5]
      exact rows1_reset _ (n + 1) h0
    · rw [show (outsAt5 V c (n + 1) hn).2 = _ from outs5_snd_B V c ⟨n + 1, hn⟩ h0, sumPay1_apply, blk_sum5]
      show (outsAt5 V c n _).2 (ix3 (0 : Fin 1) g ch) + _ = _
      rw [acc_inv5 c n (Nat.lt_of_succ_lt hn) g ch]
      exact rows1_step _ n h0

theorem flushed5_5 (c : Dev nD) (t : Fin cfg5.N) :
    (dat5 (F := Ideal) V c).flushed 5 t = ((cfg5.win 5).blk t).view.read (Elt Ideal) (comb5 V c) := by
  have e := idx_facts5 t
  show (cfg5.win 5).cut (grid5.coords t) ((dat5 (F := Ideal) V c).after 5 t) = _
  rw [after5_5, outs5_fst]
  funext j
  obtain ⟨r, ch, rfl⟩ : ∃ (r : Fin 2000) (ch : Fin 128), j = ix2 r ch :=
    ⟨j 0, j 1, funext fun a => by
      match a with
      | ⟨0, _⟩ => rfl
      | ⟨1, _⟩ => rfl⟩
  show k1_pay2 (F := Ideal) (xb5_2 V c t) (xb5_0 V c t) (xb5_1 V c t) (xb5_3 V c t) (ix2 r ch) = comb5 V c (((cfg5.win 5).blk t).view.emb (ix2 r ch))
  rw [comb_blk5]
  refine congrArg _ (funext fun a => Fin.ext ?_)
  match a with
  | ⟨0, _⟩ => show t.val * 2000 + r.val = win5_5.index t (0 : Fin 2) * 2000 + 1 * r.val; omega
  | ⟨1, _⟩ => show ch.val = win5_5.index t (1 : Fin 2) * 128 + 1 * ch.val; omega

theorem read_blk5_6 (t : Fin cfg5.N) (X : Vec Ideal S1x64x128 .f32) (G : Cert.Spec.S2GC.Idx → EReal)
    (hG : ∀ (g : Fin 64) (ch : Fin 128), X (ix3 (0 : Fin 1) g ch) = G (ix3 (halfAt5 t) g ch)) :
    (cfg5.win 6).cut (grid5.coords t) X = ((cfg5.win 6).blk t).view.read (Elt Ideal) G := by
  have e := idx_facts5 t
  funext j
  obtain ⟨g, ch, rfl⟩ : ∃ (g : Fin 64) (ch : Fin 128), j = ix3 (0 : Fin 1) g ch :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  show X (ix3 (0 : Fin 1) g ch) = G (((cfg5.win 6).blk t).view.emb (ix3 (0 : Fin 1) g ch))
  rw [hG]
  refine congrArg G (funext fun a => Fin.ext ?_)
  match a with
  | ⟨0, _⟩ => show t.val / 25 = win5_6.index t (0 : Fin 3) * 1 + 1 * 0; omega
  | ⟨1, _⟩ => show g.val = win5_6.index t (1 : Fin 3) * 64 + 1 * g.val; omega
  | ⟨2, _⟩ => show ch.val = win5_6.index t (2 : Fin 3) * 128 + 1 * ch.val; omega

abbrev part5 (c : Dev nD) : Cert.Spec.S2GC.Idx → EReal := Cert.Spec.partA (batch5 V c) (comb5 V c)

theorem flushed5_6 (c : Dev nD) (t : Fin cfg5.N) (hf : (cfg5.win 6).flush t = true) :
    (dat5 (F := Ideal) V c).flushed 6 t = ((cfg5.win 6).blk t).view.read (Elt Ideal) (part5 V c) := by
  have h24 : t.val % 25 = 24 := (flush5_6 t).mp hf
  show (cfg5.win 6).cut (grid5.coords t) ((dat5 (F := Ideal) V c).after 6 t) = _
  rw [after5_6]
  refine read_blk5_6 t _ _ fun g ch => ?_
  rw [acc_inv5 V c t.val t.isLt g ch, h24, show (24 + 1) * 2000 = 50000 from rfl, Finset.sum_range]
  show _ = ∑ q : Fin 50000, Cert.Spec.oneHot (batch5 V c) (Cert.Spec.rowOf (halfAt5 t) q) g
      * comb5 V c (ix2 (Cert.Spec.rowOf (halfAt5 t) q) ch)
  refine Finset.sum_congr rfl fun q _ => ?_
  have hn : t.val / 25 * 50000 + q.val < 100000 := (Cert.Spec.rowOf (halfAt5 t) q).isLt
  unfold rowTerm5
  rw [dif_pos hn]
  rfl

theorem mem_blk5_5 (t : Fin cfg5.N) (i : Cert.Spec.SNC.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole (Pipeline.arrRef spec5 5)).slice (win5_5.rect t)).set ↔ _
  rw [View.set_slice_whole, Rect.mem_set_unit]
  exact Iff.rfl

theorem mem_blk5_6 (t : Fin cfg5.N) (i : Cert.Spec.S2GC.Idx) :
    i ∈ ((cfg5.win 6).blk t).view.set ↔ ∀ a : Fin 3, win5_6.index t a * S1x64x128.size a ≤ (i a).val ∧ (i a).val < win5_6.index t a * S1x64x128.size a + S1x64x128.size a := by
  show i ∈ ((View.whole (Pipeline.arrRef spec5 6)).slice (win5_6.rect t)).set ↔ _
  rw [View.set_slice_whole, Rect.mem_set_unit]
  exact Iff.rfl

theorem final5_5 (c : Dev nD) : (dat5 (F := Ideal) V c).arrAt 5 cfg5.N
    = Cert.Spec.combA (V c (Pipeline.arrRef spec5 0)) (V c (Pipeline.arrRef spec5 1)) (V c (Pipeline.arrRef spec5 2)) (V c (Pipeline.arrRef spec5 3)) :=
  (dat5 (F := Ideal) V c).arrAt_eq_of_cover 5 (comb5 V c) (fun t _ => flushed5_5 V c t) fun i => by
    have hi0 : (i 0).val < 100000 := (i 0).isLt
    have hi1 : (i 1).val < 128 := (i 1).isLt
    have hN : cfg5.N = 50 := N_5
    obtain ⟨t, ht⟩ : ∃ t : Fin cfg5.N, t.val = (i 0).val / 2000 := ⟨⟨(i 0).val / 2000, by omega⟩, rfl⟩
    have e := idx_facts5 t
    refine ⟨t, flush5_5 t, ?_⟩
    rw [mem_blk5_5]
    intro a
    match a with
    | ⟨0, _⟩ => show win5_5.index t (0 : Fin 2) * 2000 ≤ (i 0).val ∧ (i 0).val < win5_5.index t (0 : Fin 2) * 2000 + 2000; omega
    | ⟨1, _⟩ => show win5_5.index t (1 : Fin 2) * 128 ≤ (i 1).val ∧ (i 1).val < win5_5.index t (1 : Fin 2) * 128 + 128; omega

theorem final5_6 (c : Dev nD) : (dat5 (F := Ideal) V c).arrAt 6 cfg5.N
    = Cert.Spec.partA (fun n => V c (Pipeline.arrRef spec5 4) (ix2 n (0 : Fin 1)))
        (Cert.Spec.combA (V c (Pipeline.arrRef spec5 0)) (V c (Pipeline.arrRef spec5 1)) (V c (Pipeline.arrRef spec5 2)) (V c (Pipeline.arrRef spec5 3))) :=
  (dat5 (F := Ideal) V c).arrAt_eq_of_cover 6 (part5 V c) (fun t hf => flushed5_6 V c t hf) fun i => by
    have hi0 : (i 0).val < 2 := (i 0).isLt
    have hi1 : (i 1).val < 64 := (i 1).isLt
    have hi2 : (i 2).val < 128 := (i 2).isLt
    have hN : cfg5.N = 50 := N_5
    obtain ⟨t, ht⟩ : ∃ t : Fin cfg5.N, t.val = (i 0).val * 25 + 24 := ⟨⟨(i 0).val * 25 + 24, by omega⟩, rfl⟩
    have e := idx_facts5 t
    refine ⟨t, (flush5_6 t).mpr (by omega), ?_⟩
    rw [mem_blk5_6]
    intro a
    match a with
    | ⟨0, _⟩ => show win5_6.index t (0 : Fin 3) * 1 ≤ (i 0).val ∧ (i 0).val < win5_6.index t (0 : Fin 3) * 1 + 1; omega
    | ⟨1, _⟩ => show win5_6.index t (1 : Fin 3) * 64 ≤ (i 1).val ∧ (i 1).val < win5_6.index t (1 : Fin 3) * 64 + 64; omega
    | ⟨2, _⟩ => show win5_6.index t (2 : Fin 3) * 128 ≤ (i 2).val ∧ (i 2).val < win5_6.index t (2 : Fin 3) * 128 + 128; omega

end Value

end Cert.KernelIdeal.H

end
-- ==== Proof.KI.V8.lean ====
import proofs.«402146_j32049045962863_2_alg».proof.Proof.KI.R8
import proofs.«402146_j32049045962863_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«402146_j32049045962863_2_alg».proof.Proof.KI.V4

noncomputable section

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev xA8 (c : Dev nD) : Cert.Spec.SNC.Idx → EReal := V c (Pipeline.arrRef spec8 0)
abbrev wA8 (c : Dev nD) : Cert.Spec.SCC.Idx → EReal := V c (Pipeline.arrRef spec8 1)
abbrev dA8 (c : Dev nD) : Cert.Spec.SN1.Idx → EReal := V c (Pipeline.arrRef spec8 2)

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

theorem iblk8_0_apply (c : Dev nD) (t : Fin cfg8.N) (p : Fin 5000) (k : Fin 128) (r : Fin 100000) (hr : r.val = t.val * 5000 + p.val) :
    iblk8 V c 0 t (ix2 p k) = xA8 V c (ix2 r k) := by
  obtain ⟨e0, e1, -⟩ := idx_facts8 t
  show V c (Pipeline.arrRef spec8 0) (((cfg8.win 0).blk t).view.emb (ix2 p k)) = V c (Pipeline.arrRef spec8 0) (ix2 r k)
  refine congrArg _ (funext fun a => Fin.ext ?_)
  match a with
  | ⟨0, _⟩ => show win8_0.index t (0 : Fin 2) * 5000 + 1 * p.val = r.val; omega
  | ⟨1, _⟩ => show win8_0.index t (1 : Fin 2) * 128 + 1 * k.val = k.val; omega
theorem iblk8_1_apply (c : Dev nD) (t : Fin cfg8.N) (k : Fin 128) (q : Fin 128) :
    iblk8 V c 1 t (ix2 k q) = wA8 V c (ix2 k q) := by
  obtain ⟨-, -, e2, e3, -⟩ := idx_facts8 t
  show V c (Pipeline.arrRef spec8 1) (((cfg8.win 1).blk t).view.emb (ix2 k q)) = V c (Pipeline.arrRef spec8 1) (ix2 k q)
  refine congrArg _ (funext fun a => Fin.ext ?_)
  match a with
  | ⟨0, _⟩ => show win8_1.index t (0 : Fin 2) * 128 + 1 * k.val = k.val; omega
  | ⟨1, _⟩ => show win8_1.index t (1 : Fin 2) * 128 + 1 * q.val = q.val; omega
theorem iblk8_2_apply (c : Dev nD) (t : Fin cfg8.N) (p : Fin 5000) (r : Fin 100000) (hr : r.val = t.val * 5000 + p.val) :
    iblk8 V c 2 t (ix2 p (0 : Fin 1)) = dA8 V c (ix2 r (0 : Fin 1)) := by
  obtain ⟨-, -, -, -, e4, e5, -⟩ := idx_facts8 t
  show V c (Pipeline.arrRef spec8 2) (((cfg8.win 2).blk t).view.emb (ix2 p (0 : Fin 1))) = V c (Pipeline.arrRef spec8 2) (ix2 r (0 : Fin 1))
  refine congrArg _ (funext fun a => Fin.ext ?_)
  match a with
  | ⟨0, _⟩ => show win8_2.index t (0 : Fin 2) * 5000 + 1 * p.val = r.val; omega
  | ⟨1, _⟩ => show win8_2.index t (1 : Fin 2) * 1 + 1 * 0 = 0; omega

theorem flushed8_3_eq (c : Dev nD) (t : Fin cfg8.N) :
    (dat8 (F := Ideal) V c).flushed 3 t = ((cfg8.win 3).blk t).view.read (Elt Ideal) (Cert.Spec.linA (xA8 V c) (wA8 V c) (dA8 V c)) := by
  show (cfg8.win 3).cut (grid8.coords t) ((dat8 V c).after 3 t) = _
  rw [after8_3]
  unfold out4_3
  rw [View.canon_unit_zero hz4]
  simp only [View.ld_unit_zero (S := S5000x128) hz4, View.ld_unit_zero (S := S128x128) hz4, View.ld_unit_zero (S := S5000x1) hz4]
  obtain ⟨-, -, -, -, -, -, e6, e7⟩ := idx_facts8 t
  funext j
  obtain ⟨p, q, rfl⟩ : ∃ (p : Fin 5000) (q : Fin 128), j = ix2 p q := ⟨j 0, j 1, eq_ix2 j⟩
  have ht : t.val < 20 := by have h := t.isLt; have hN : cfg8.N = 20 := N_8; omega
  refine (pay4_apply (iblk8 V c 0 t) (iblk8 V c 1 t) (iblk8 V c 2 t) p q).trans ?_
  show _ = Cert.Spec.linA (xA8 V c) (wA8 V c) (dA8 V c) (((cfg8.win 3).blk t).view.emb (ix2 p q))
  have hr : t.val * 5000 + p.val < 100000 := by have := p.isLt; omega
  have hE : ((cfg8.win 3).blk t).view.emb (ix2 p q) = ix2 (⟨t.val * 5000 + p.val, hr⟩ : Fin 100000) q := by
    funext a; apply Fin.ext
    match a with
    | ⟨0, _⟩ => show win8_3.index t (0 : Fin 2) * 5000 + 1 * p.val = t.val * 5000 + p.val; omega
    | ⟨1, _⟩ => show win8_3.index t (1 : Fin 2) * 128 + 1 * q.val = q.val; omega
  rw [hE]
  unfold Cert.Spec.linA
  refine congr (congrArg HMul.hMul (Finset.sum_congr rfl fun k _ => ?_)) ?_
  · rw [iblk8_0_apply V c t p k ⟨t.val * 5000 + p.val, hr⟩ rfl, iblk8_1_apply V c t k q]
  · rw [iblk8_2_apply V c t p ⟨t.val * 5000 + p.val, hr⟩ rfl]

theorem mem_blk8_3 (t : Fin cfg8.N) (i : S100000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole (Pipeline.arrRef spec8 3)).slice (win8_3.rect t)).set ↔ _
  rw [View.set_slice_whole, Rect.mem_set_unit]
  exact Iff.rfl

theorem final8_3 (c : Dev nD) : (dat8 (F := Ideal) V c).arrAt 3 cfg8.N = Cert.Spec.linA (V c (Pipeline.arrRef spec8 0)) (V c (Pipeline.arrRef spec8 1)) (V c (Pipeline.arrRef spec8 2)) :=
  (dat8 (F := Ideal) V c).arrAt_eq_of_cover 3 (Cert.Spec.linA (xA8 V c) (wA8 V c) (dA8 V c)) (fun t _ => flushed8_3_eq V c t) fun i => by
    have hi0 : (i 0 : Nat) < 100000 := (i 0).isLt
    have hi1 : (i 1 : Nat) < 128 := (i 1).isLt
    have hN : cfg8.N = 20 := N_8
    let t : Fin cfg8.N := ⟨(i 0 : Nat) / 5000, by rw [hN]; omega⟩
    obtain ⟨-, -, -, -, -, -, e6, e7⟩ := idx_facts8 t
    have e6' : win8_3.index t (0 : Fin 2) = (i 0 : Nat) / 5000 := e6
    refine ⟨t, flush8_3 t, ?_⟩
    rw [mem_blk8_3]
    intro a
    match a with
    | ⟨0, _⟩ => show win8_3.index t (0 : Fin 2) * 5000 ≤ (i 0 : Nat) ∧ (i 0 : Nat) < win8_3.index t (0 : Fin 2) * 5000 + 5000; omega
    | ⟨1, _⟩ => show win8_3.index t (1 : Fin 2) * 128 ≤ (i 1 : Nat) ∧ (i 1 : Nat) < win8_3.index t (1 : Fin 2) * 128 + 128; omega

end Cert.KernelIdeal.H

end
-- ==== Proof.KI.V9.lean ====
import proofs.«402146_j32049045962863_2_alg».proof.Proof.KI.R9
import proofs.«402146_j32049045962863_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«402146_j32049045962863_2_alg».proof.Proof.KI.V1

noncomputable section

namespace Cert.KernelIdeal.H

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open scoped BigOperators

section Pieces
variable {F : FTy → Type} [FloatOps F]

end Pieces

section Points
variable {F : FTy → Type} [FloatOps F]
variable (V : (c : Dev nD) → (b : Ref sig .tc) → Buf (Elt F) ((c : Thread nD τ).loc b))

abbrev xb9_0 (c : Dev nD) (t : Fin cfg9.N) : Vec F S2000x128 .f32 := iblk9 V c 0 t
abbrev xb9_1 (c : Dev nD) (t : Fin cfg9.N) : Vec F S2000x128 .f32 := iblk9 V c 1 t
abbrev xb9_2 (c : Dev nD) (t : Fin cfg9.N) : Vec F S2000x1 .f32 := iblk9 V c 2 t
abbrev xb9_3 (c : Dev nD) (t : Fin cfg9.N) : Vec F S1x128 .f32 := iblk9 V c 3 t
abbrev xb9_4 (c : Dev nD) (t : Fin cfg9.N) : Vec F S2000x1 .i32 := iblk9 V c 4 t

theorem outs9_fst (c : Dev nD) (t : Fin cfg9.N) :
    (outsAt9 V c t.val t.isLt).1 = k1_pay2 (xb9_2 V c t) (xb9_0 V c t) (xb9_1 V c t) (xb9_3 V c t) := by
  by_cases h0 : t.val % 25 = 0
  · rw [outsAt9_A V c t h0]; dsimp only
    exact out1_A_5_eq (F := F) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t) (iblk9 V c 4 t)
  · rw [outsAt9_B V c t h0]; dsimp only
    exact out1_B_5_eq (F := F) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (iblk9 V c 4 t)
      (outsAt9 V c (t.val - 1) (Nat.lt_of_le_of_lt (Nat.sub_le _ _) t.isLt)).2

theorem outs9_snd_A (c : Dev nD) (t : Fin cfg9.N) (h0 : t.val % 25 = 0) :
    (outsAt9 V c t.val t.isLt).2 = k1_pay3 (xb9_2 V c t) (xb9_0 V c t) (xb9_1 V c t) (xb9_3 V c t) (xb9_4 V c t) k1_pay1 := by
  rw [outsAt9_A V c t h0]; dsimp only
  exact out1_A_6_eq (F := F) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) ((hcond9_0 t).mpr h0) (iblk9 V c 0 t) (iblk9 V c 1 t) (iblk9 V c 2 t) (iblk9 V c 3 t) (iblk9 V c 4 t)

theorem outs9_snd_B (c : Dev nD) (t : Fin cfg9.N) (h0 : ¬t.val % 25 = 0) :
    (outsAt9 V c t.val t.isLt).2 = k1_pay3 (xb9_2 V c t) (xb9_0 V c t) (xb9_1 V c t) (xb9_3 V c t) (xb9_4 V c t)
      (outsAt9 V c (t.val - 1) (Nat.lt_of_le_of_lt (Nat.sub_le _ _) t.isLt)).2 := by
  rw [outsAt9_B V c t h0]; dsimp only
  exact out1_B_6_eq (F := F) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (fun h => h0 ((hcond9_0 t).mp h)) (iblk9 V c 0 t) (iblk9 V c 1 t) (iblk9 V c 2 t) (iblk9 V c 3 t) (iblk9 V c 4 t)
      (outsAt9 V c (t.val - 1) (Nat.lt_of_le_of_lt (Nat.sub_le _ _) t.isLt)).2

end Points

theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0
    ∧ win9_6.index t (0 : Fin 3) = t.val / 25 ∧ win9_6.index t (1 : Fin 3) = 0 ∧ win9_6.index t (2 : Fin 3) = 0 :=
  (by decide +kernel : ∀ t : Fin grid9.N, _)

def rowAt9 (t : Fin cfg9.N) (r : Fin 2000) : Fin 100000 :=
  ⟨t.val * 2000 + r.val, by have := t.isLt; have h : cfg9.N = 50 := N_9; have := r.isLt; omega⟩

def halfAt9 (t : Fin cfg9.N) : Fin 2 := ⟨t.val / 25, by have := t.isLt; have h : cfg9.N = 50 := N_9; omega⟩

section Value
variable (V : (c : Dev nD) → (b : Ref sig .tc) → Buf (Elt Ideal) ((c : Thread nD τ).loc b))

abbrev arr9_0 (c : Dev nD) : Cert.Spec.SNC.Idx → EReal := V c (Pipeline.arrRef spec9 0)
abbrev arr9_1 (c : Dev nD) : Cert.Spec.SNC.Idx → EReal := V c (Pipeline.arrRef spec9 1)
abbrev arr9_2 (c : Dev nD) : Cert.Spec.SN1.Idx → EReal := V c (Pipeline.arrRef spec9 2)
abbrev arr9_3 (c : Dev nD) : Cert.Spec.S1C.Idx → EReal := V c (Pipeline.arrRef spec9 3)
abbrev arr9_4 (c : Dev nD) : Cert.Spec.SN1.Idx → BitVec 32 := V c (Pipeline.arrRef spec9 4)

theorem xb9_0_apply (c : Dev nD) (t : Fin cfg9.N) (r : Fin 2000) (ch : Fin 128) :
    xb9_0 V c t (ix2 r ch) = arr9_0 V c (ix2 (rowAt9 t r) ch) := by
  have e := idx_facts9 t
  show ((cfg9.win 0).blk t).view.read (Elt Ideal) (V c (Pipeline.arrRef spec9 0)) _ = _
  rw [View.read_apply]
  refine congrArg (V c (Pipeline.arrRef spec9 0)) (funext fun a => Fin.ext ?_)
  match a with
  | ⟨0, _⟩ => show win9_0.index t (0 : Fin 2) * 2000 + 1 * r.val = t.val * 2000 + r.val; omega
  | ⟨1, _⟩ => show win9_0.index t (1 : Fin 2) * 128 + 1 * ch.val = ch.val; omega

theorem xb9_1_apply (c : Dev nD) (t : Fin cfg9.N) (r : Fin 2000) (ch : Fin 128) :
    xb9_1 V c t (ix2 r ch) = arr9_1 V c (ix2 (rowAt9 t r) ch) := by
  have e := idx_facts9 t
  show ((cfg9.win 1).blk t).view.read (Elt Ideal) (V c (Pipeline.arrRef spec9 1)) _ = _
  rw [View.read_apply]
  refine congrArg (V c (Pipeline.arrRef spec9 1)) (funext fun a => Fin.ext ?_)
  match a with
  | ⟨0, _⟩ => show win9_1.index t (0 : Fin 2) * 2000 + 1 * r.val = t.val * 2000 + r.val; omega
  | ⟨1, _⟩ => show win9_1.index t (1 : Fin 2) * 128 + 1 * ch.val = ch.val; omega

theorem xb9_2_apply (c : Dev nD) (t : Fin cfg9.N) (r : Fin 2000) :
    xb9_2 V c t (ix2 r (0 : Fin 1)) = arr9_2 V c (ix2 (rowAt9 t r) (0 : Fin 1)) := by
  have e := idx_facts9 t
  show ((cfg9.win 2).blk t).view.read (Elt Ideal) (V c (Pipeline.arrRef spec9 2)) _ = _
  rw [View.read_apply]
  refine congrArg (V c (Pipeline.arrRef spec9 2)) (funext fun a => Fin.ext ?_)
  match a with
  | ⟨0, _⟩ => show win9_2.index t (0 : Fin 2) * 2000 + 1 * r.val = t.val * 2000 + r.val; omega
  | ⟨1, _⟩ => show win9_2.index t (1 : Fin 2) * 1 + 1 * 0 = 0; omega

theorem xb9_4_apply (c : Dev nD) (t : Fin cfg9.N) (r : Fin 2000) :
    xb9_4 V c t (ix2 r (0 : Fin 1)) = arr9_4 V c (ix2 (rowAt9 t r) (0 : Fin 1)) := by
  have e := idx_facts9 t
  show ((cfg9.win 4).blk t).view.read (Elt Ideal) (V c (Pipeline.arrRef spec9 4)) _ = _
  rw [View.read_apply]
  refine congrArg (V c (Pipeline.arrRef spec9 4)) (funext fun a => Fin.ext ?_)
  match a with
  | ⟨0, _⟩ => show win9_4.index t (0 : Fin 2) * 2000 + 1 * r.val = t.val * 2000 + r.val; omega
  | ⟨1, _⟩ => show win9_4.index t (1 : Fin 2) * 1 + 1 * 0 = 0; omega

theorem xb9_3_apply (c : Dev nD) (t : Fin cfg9.N) (ch : Fin 128) :
    xb9_3 V c t (ix2 (0 : Fin 1) ch) = arr9_3 V c (ix2 (0 : Fin 1) ch) := by
  have e := idx_facts9 t
  show ((cfg9.win 3).blk t).view.read (Elt Ideal) (V c (Pipeline.arrRef spec9 3)) _ = _
  rw [View.read_apply]
  refine congrArg (V c (Pipeline.arrRef spec9 3)) (funext fun a => Fin.ext ?_)
  match a with
  | ⟨0, _⟩ => show win9_3.index t (0 : Fin 2) * 1 + 1 * 0 = 0; omega
  | ⟨1, _⟩ => show win9_3.index t (1 : Fin 2) * 128 + 1 * ch.val = ch.val; omega

abbrev comb9 (c : Dev nD) : Cert.Spec.SNC.Idx → EReal :=
  Cert.Spec.combA (arr9_0 V c) (arr9_1 V c) (arr9_2 V c) (arr9_3 V c)

abbrev batch9 (c : Dev nD) : Fin 100000 → BitVec 32 := fun n => arr9_4 V c (ix2 n (0 : Fin 1))

theorem comb_blk9 (c : Dev nD) (t : Fin cfg9.N) (r : Fin 2000) (ch : Fin 128) :
    k1_pay2 (xb9_2 V c t) (xb9_0 V c t) (xb9_1 V c t) (xb9_3 V c t) (ix2 r ch) = comb9 V c (ix2 (rowAt9 t r) ch) := by
  refine (combPay1_apply _ _ _ _ r ch).trans ?_
  rw [xb9_0_apply, xb9_1_apply, xb9_2_apply, xb9_3_apply]
  rfl

def rowTerm9 (c : Dev nD) (g : Fin 64) (ch : Fin 128) (n : ℕ) : EReal :=
  if hn : n < 100000 then Cert.Spec.oneHot (batch9 V c) ⟨n, hn⟩ g * comb9 V c (ix2 (⟨n, hn⟩ : Fin 100000) ch) else 0

theorem blk_sum9 (c : Dev nD) (t : Fin cfg9.N) (g : Fin 64) (ch : Fin 128) :
    ∑ r : Fin 2000, (if xb9_4 V c t (ix2 r (0 : Fin 1)) = BitVec.ofNat 32 g.val then (1 : EReal) else 0) * k1_pay2 (xb9_2 V c t) (xb9_0 V c t) (xb9_1 V c t) (xb9_3 V c t) (ix2 r ch)
      = ∑ q ∈ Finset.range 2000, rowTerm9 V c g ch (t.val * 2000 + q) := by
  rw [Finset.sum_range]
  refine Finset.sum_congr rfl fun r _ => ?_
  have hn : t.val * 2000 + r.val < 100000 := (rowAt9 t r).isLt
  unfold rowTerm9
  rw [dif_pos hn, comb_blk9, xb9_4_apply]
  rfl

theorem acc_inv9 (c : Dev nD) : ∀ (n : ℕ) (hn : n < cfg9.N) (g : Fin 64) (ch : Fin 128),
    (outsAt9 V c n hn).2 (ix3 (0 : Fin 1) g ch)
      = ∑ q ∈ Finset.range ((n % 25 + 1) * 2000), rowTerm9 V c g ch (n / 25 * 50000 + q)
  | 0, hn, g, ch => by
    rw [show (outsAt9 V c 0 hn).2 = _ from outs9_snd_A V c ⟨0, hn⟩ rfl, sumPay1_apply, zeroPay1_apply, zero_add, blk_sum9]
    exact rows1_reset _ 0 rfl
  | n + 1, hn, g, ch => by
    by_cases h0 : (n + 1) % 25 = 0
    · rw [show (outsAt9 V c (n + 1) hn).2 = _ from outs9_snd_A V c ⟨n + 1, hn⟩ h0, sumPay1_apply, zeroPay1_apply, zero_add, blk_sum9]
      exact rows1_reset _ (n + 1) h0
    · rw [show (outsAt9 V c (n + 1) hn).2 = _ from outs9_snd_B V c ⟨n + 1, hn⟩ h0, sumPay1_apply, blk_sum9]
      show (outsAt9 V c n _).2 (ix3 (0 : Fin 1) g ch) + _ = _
      rw [acc_inv9 c n (Nat.lt_of_succ_lt hn) g ch]
      exact rows1_step _ n h0

theorem flushed9_5 (c : Dev nD) (t : Fin cfg9.N) :
    (dat9 (F := Ideal) V c).flushed 5 t = ((cfg9.win 5).blk t).view.read (Elt Ideal) (comb9 V c) := by
  have e := idx_facts9 t
  show (cfg9.win 5).cut (grid9.coords t) ((dat9 (F := Ideal) V c).after 5 t) = _
  rw [after9_5, outs9_fst]
  funext j
  obtain ⟨r, ch, rfl⟩ : ∃ (r : Fin 2000) (ch : Fin 128), j = ix2 r ch :=
    ⟨j 0, j 1, funext fun a => by
      match a with
      | ⟨0, _⟩ => rfl
      | ⟨1, _⟩ => rfl⟩
  show k1_pay2 (F := Ideal) (xb9_2 V c t) (xb9_0 V c t) (xb9_1 V c t) (xb9_3 V c t) (ix2 r ch) = comb9 V c (((cfg9.win 5).blk t).view.emb (ix2 r ch))
  rw [comb_blk9]
  refine congrArg _ (funext fun a => Fin.ext ?_)
  match a with
  | ⟨0, _⟩ => show t.val * 2000 + r.val = win9_5.index t (0 : Fin 2) * 2000 + 1 * r.val; omega
  | ⟨1, _⟩ => show ch.val = win9_5.index t (1 : Fin 2) * 128 + 1 * ch.val; omega

theorem read_blk9_6 (t : Fin cfg9.N) (X : Vec Ideal S1x64x128 .f32) (G : Cert.Spec.S2GC.Idx → EReal)
    (hG : ∀ (g : Fin 64) (ch : Fin 128), X (ix3 (0 : Fin 1) g ch) = G (ix3 (halfAt9 t) g ch)) :
    (cfg9.win 6).cut (grid9.coords t) X = ((cfg9.win 6).blk t).view.read (Elt Ideal) G := by
  have e := idx_facts9 t
  funext j
  obtain ⟨g, ch, rfl⟩ : ∃ (g : Fin 64) (ch : Fin 128), j = ix3 (0 : Fin 1) g ch :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  show X (ix3 (0 : Fin 1) g ch) = G (((cfg9.win 6).blk t).view.emb (ix3 (0 : Fin 1) g ch))
  rw [hG]
  refine congrArg G (funext fun a => Fin.ext ?_)
  match a with
  | ⟨0, _⟩ => show t.val / 25 = win9_6.index t (0 : Fin 3) * 1 + 1 * 0; omega
  | ⟨1, _⟩ => show g.val = win9_6.index t (1 : Fin 3) * 64 + 1 * g.val; omega
  | ⟨2, _⟩ => show ch.val = win9_6.index t (2 : Fin 3) * 128 + 1 * ch.val; omega

abbrev part9 (c : Dev nD) : Cert.Spec.S2GC.Idx → EReal := Cert.Spec.partA (batch9 V c) (comb9 V c)

theorem flushed9_6 (c : Dev nD) (t : Fin cfg9.N) (hf : (cfg9.win 6).flush t = true) :
    (dat9 (F := Ideal) V c).flushed 6 t = ((cfg9.win 6).blk t).view.read (Elt Ideal) (part9 V c) := by
  have h24 : t.val % 25 = 24 := (flush9_6 t).mp hf
  show (cfg9.win 6).cut (grid9.coords t) ((dat9 (F := Ideal) V c).after 6 t) = _
  rw [after9_6]
  refine read_blk9_6 t _ _ fun g ch => ?_
  rw [acc_inv9 V c t.val t.isLt g ch, h24, show (24 + 1) * 2000 = 50000 from rfl, Finset.sum_range]
  show _ = ∑ q : Fin 50000, Cert.Spec.oneHot (batch9 V c) (Cert.Spec.rowOf (halfAt9 t) q) g
      * comb9 V c (ix2 (Cert.Spec.rowOf (halfAt9 t) q) ch)
  refine Finset.sum_congr rfl fun q _ => ?_
  have hn : t.val / 25 * 50000 + q.val < 100000 := (Cert.Spec.rowOf (halfAt9 t) q).isLt
  unfold rowTerm9
  rw [dif_pos hn]
  rfl

theorem mem_blk9_5 (t : Fin cfg9.N) (i : Cert.Spec.SNC.Idx) :
    i ∈ ((cfg9.win 5).blk t).view.set ↔ ∀ a : Fin 2, win9_5.index t a * S2000x128.size a ≤ (i a).val ∧ (i a).val < win9_5.index t a * S2000x128.size a + S2000x128.size a := by
  show i ∈ ((View.whole (Pipeline.arrRef spec9 5)).slice (win9_5.rect t)).set ↔ _
  rw [View.set_slice_whole, Rect.mem_set_unit]
  exact Iff.rfl

theorem mem_blk9_6 (t : Fin cfg9.N) (i : Cert.Spec.S2GC.Idx) :
    i ∈ ((cfg9.win 6).blk t).view.set ↔ ∀ a : Fin 3, win9_6.index t a * S1x64x128.size a ≤ (i a).val ∧ (i a).val < win9_6.index t a * S1x64x128.size a + S1x64x128.size a := by
  show i ∈ ((View.whole (Pipeline.arrRef spec9 6)).slice (win9_6.rect t)).set ↔ _
  rw [View.set_slice_whole, Rect.mem_set_unit]
  exact Iff.rfl

theorem final9_5 (c : Dev nD) : (dat9 (F := Ideal) V c).arrAt 5 cfg9.N
    = Cert.Spec.combA (V c (Pipeline.arrRef spec9 0)) (V c (Pipeline.arrRef spec9 1)) (V c (Pipeline.arrRef spec9 2)) (V c (Pipeline.arrRef spec9 3)) :=
  (dat9 (F := Ideal) V c).arrAt_eq_of_cover 5 (comb9 V c) (fun t _ => flushed9_5 V c t) fun i => by
    have hi0 : (i 0).val < 100000 := (i 0).isLt
    have hi1 : (i 1).val < 128 := (i 1).isLt
    have hN : cfg9.N = 50 := N_9
    obtain ⟨t, ht⟩ : ∃ t : Fin cfg9.N, t.val = (i 0).val / 2000 := ⟨⟨(i 0).val / 2000, by omega⟩, rfl⟩
    have e := idx_facts9 t
    refine ⟨t, flush9_5 t, ?_⟩
    rw [mem_blk9_5]
    intro a
    match a with
    | ⟨0, _⟩ => show win9_5.index t (0 : Fin 2) * 2000 ≤ (i 0).val ∧ (i 0).val < win9_5.index t (0 : Fin 2) * 2000 + 2000; omega
    | ⟨1, _⟩ => show win9_5.index t (1 : Fin 2) * 128 ≤ (i 1).val ∧ (i 1).val < win9_5.index t (1 : Fin 2) * 128 + 128; omega

theorem final9_6 (c : Dev nD) : (dat9 (F := Ideal) V c).arrAt 6 cfg9.N
    = Cert.Spec.partA (fun n => V c (Pipeline.arrRef spec9 4) (ix2 n (0 : Fin 1)))
        (Cert.Spec.combA (V c (Pipeline.arrRef spec9 0)) (V c (Pipeline.arrRef spec9 1)) (V c (Pipeline.arrRef spec9 2)) (V c (Pipeline.arrRef spec9 3))) :=
  (dat9 (F := Ideal) V c).arrAt_eq_of_cover 6 (part9 V c) (fun t hf => flushed9_6 V c t hf) fun i => by
    have hi0 : (i 0).val < 2 := (i 0).isLt
    have hi1 : (i 1).val < 64 := (i 1).isLt
    have hi2 : (i 2).val < 128 := (i 2).isLt
    have hN : cfg9.N = 50 := N_9
    obtain ⟨t, ht⟩ : ∃ t : Fin cfg9.N, t.val = (i 0).val * 25 + 24 := ⟨⟨(i 0).val * 25 + 24, by omega⟩, rfl⟩
    have e := idx_facts9 t
    refine ⟨t, (flush9_6 t).mpr (by omega), ?_⟩
    rw [mem_blk9_6]
    intro a
    match a with
    | ⟨0, _⟩ => show win9_6.index t (0 : Fin 3) * 1 ≤ (i 0).val ∧ (i 0).val < win9_6.index t (0 : Fin 3) * 1 + 1; omega
    | ⟨1, _⟩ => show win9_6.index t (1 : Fin 3) * 64 ≤ (i 1).val ∧ (i 1).val < win9_6.index t (1 : Fin 3) * 64 + 64; omega
    | ⟨2, _⟩ => show win9_6.index t (2 : Fin 3) * 128 ≤ (i 2).val ∧ (i 2).val < win9_6.index t (2 : Fin 3) * 128 + 128; omega

end Value

end Cert.KernelIdeal.H

end
-- ==== Proof.KI.LayerLib.lean ====
import proofs.«402146_j32049045962863_2_alg».proof.Proof.Gen.KernelIdeal
import proofs.«402146_j32049045962863_2_alg».proof.Proof.Spec
import proofs.«402146_j32049045962863_2_alg».proof.Proof.LibIdx
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.H

open Cert.KernelIdeal Cert.KernelIdeal.Gen
open Idealize.ShloMosaic Idealize.ShloMosaic.ValueIdx
open Cert.Spec Cert.IdxLib
open scoped BigOperators

theorem bcast_col {α : Type} {n : Nat} (h : (⟨1, ![n]⟩ : Shape).BroadcastsInDim ⟨2, ![n, 1]⟩ ![0])
    (x : (⟨1, ![n]⟩ : Shape).Idx → α) (j : Fin n) :
    broadcastInDim ⟨2, ![n, 1]⟩ ![0] h x (ix2 j (0 : Fin 1)) = x (ix1 j) := by
  refine broadcastInDim_apply _ h x _ (ix1 j) (fun a => ?_)
  match a with
  | ⟨0, _⟩ =>
    show j.val = if n = 1 then 0 else j.val
    split_ifs with h1
    · have := j.isLt; omega
    · rfl

open Classical in

theorem agg_point (x : FVec Ideal S100000x128 .f32) (s d : IVec S1000000 32) (n : Fin 100000) (ch : Fin 128) :
    Host.scatterAdd (F := Ideal) scatter_S100000x128_S1000000x1_S1000000x128_1_0_0_1
        (broadcastInDim S100000x128 ![] bcast_S_S100000x128 (constant (F := Ideal) S_ .f32 0x00000000#32))
        (broadcastInDim S1000000x1 ![0] bcast_S1000000_S1000000x1_0 d)
        (Host.gather gather_S100000x128_S1000000x1_S1000000x128_1_0_n_n_0_1_1128 x
          (broadcastInDim S1000000x1 ![0] bcast_S1000000_S1000000x1_0
            (select (cmpi .slt s (broadcastInDim S1000000 ![] bcast_S_S1000000 (constantI S_ 32 0#32)))
              (addi s (broadcastInDim S1000000 ![] bcast_S_S1000000 (constantI S_ 32 100000#32))) s))) (ix2 n ch)
      = 0 + ∑ e ∈ Finset.univ.filter (fun e : Fin 1000000 => hitIdx 100000 (d (ix1 e)) = some n),
          x (ix2 (clampIdx 100000 (by decide) (wrapIdx 100000#32 (s (ix1 e)))) ch) := by
  rw [scatterAdd_rows_apply _ rfl rfl rfl rfl, broadcastInDim_scalar_apply, constant_apply, Ideal.ofBits_zero_f32]
  have hd : ∀ j : Fin 1000000, broadcastInDim S1000000x1 ![0] bcast_S1000000_S1000000x1_0 d (ix2 j (0 : Fin 1)) = d (ix1 j) :=
    fun j => bcast_col _ d j
  have hs : ∀ j : Fin 1000000,
      broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s) (ix2 j (0 : Fin 1))
        = wrapIdx 100000#32 (s (ix1 j)) := fun j => by
    rw [bcast_col]
    exact wrap_select_apply s _ _ 100000#32 (fun i => by rw [broadcastInDim_scalar_apply]; rfl)
      (fun i => by rw [broadcastInDim_scalar_apply]; rfl) (ix1 j)
  simp only [hd]
  refine congrArg (fun t => (0 : EReal) + t) (Finset.sum_congr rfl fun e _ => ?_)
  rw [gather_rows_apply (by decide) _ rfl rfl rfl rfl rfl rfl rfl, hs]

theorem col_ext {α : Type} {n : Nat} (f : (⟨2, ![n, 1]⟩ : Shape).Idx → α) (g : Fin n → α)
    (h : ∀ k : Fin n, f (ix2 k (0 : Fin 1)) = g k) : f = fun i => g (i 0 : Fin n) := by
  funext i
  have h1 : @Eq (Fin 1) (i 1) 0 := Subsingleton.elim _ _
  have hi : i = ix2 (i 0 : Fin n) (0 : Fin 1) := (eq_ix2 i).trans (congrArg (ix2 (i 0 : Fin n)) h1)
  rw [hi]; exact h _

theorem row_ext {α : Type} {n : Nat} (f : (⟨2, ![1, n]⟩ : Shape).Idx → α) (g : Fin n → α)
    (h : ∀ k : Fin n, f (ix2 (0 : Fin 1) k) = g k) : f = fun i => g (i 1 : Fin n) := by
  funext i
  have h0 : @Eq (Fin 1) (i 0) 0 := Subsingleton.elim _ _
  have hi : i = ix2 (0 : Fin 1) (i 1 : Fin n) := (eq_ix2 i).trans (congrArg (fun a => ix2 a (i 1 : Fin n)) h0)
  rw [hi]; exact h _

end Cert.KernelIdeal.H

end
-- ==== Proof.KI.Layer0a.lean ====
import proofs.«402146_j32049045962863_2_alg».proof.Proof.Gen.KernelIdeal.Regions
import proofs.«402146_j32049045962863_2_alg».proof.Proof.Spec
import proofs.«402146_j32049045962863_2_alg».proof.Proof.Algebra
import proofs.«402146_j32049045962863_2_alg».proof.Proof.LibIdx
import proofs.«402146_j32049045962863_2_alg».proof.Proof.KI.LayerLib
import Idealize.ShloMosaic.Lib.StableHlo.Run
import Idealize.ShloMosaic.Lib.ValueIdx

noncomputable section

namespace Cert.KernelIdeal.H

open Cert.KernelIdeal Cert.KernelIdeal.Gen
open Idealize.ShloMosaic Idealize.ShloMosaic.TcCoe Idealize.ShloMosaic.ValueIdx
open Idealize.ShloMosaic.StableHlo
open Cert.Spec Cert.IdxLib
open scoped BigOperators

variable (m : (ℓ : Loc nD τ sig) → Buf (Elt Ideal) ℓ) (outs : Outs (F := Ideal))

abbrev rX_L0 (W : Valuation τ sig (Elt Ideal)) : FVec Ideal S100000x128 .f32 := W main_arg0

abbrev rW_L0 (W : Valuation τ sig (Elt Ideal)) : FVec Ideal S128x128 .f32 := W main_v26

abbrev rB_L0 (W : Valuation τ sig (Elt Ideal)) : FVec Ideal S1x128 .f32 := W main_v24

abbrev rD_L0 (W : Valuation τ sig (Elt Ideal)) : FVec Ideal S100000x1 .f32 := W main_v11

abbrev rBT_L0 (W : Valuation τ sig (Elt Ideal)) : IVec S100000x1 32 := W main_v21

abbrev rSRC_L0 (W : Valuation τ sig (Elt Ideal)) : IVec S1000000 32 := W main_v1

abbrev rDST_L0 (W : Valuation τ sig (Elt Ideal)) : IVec S1000000 32 := W main_v3

abbrev rXWS_L0 (W : Valuation τ sig (Elt Ideal)) : FVec Ideal S100000x128 .f32 := W main_v27

abbrev rAGG_L0 (W : Valuation τ sig (Elt Ideal)) : FVec Ideal S100000x128 .f32 := W main_v37

abbrev rGCN_L0 (W : Valuation τ sig (Elt Ideal)) : FVec Ideal S100000x128 .f32 := W main_v38_0

abbrev rP1_L0 (W : Valuation τ sig (Elt Ideal)) : FVec Ideal S2x64x128 .f32 := W main_v38_1

open Classical in

theorem agg_apply_L0 (c : Dev nD) (n : Fin 100000) (ch : Fin 128) :
    rAGG_L0 (V3 m outs c) (ix2 n ch) =
      0 + ∑ e ∈ Finset.univ.filter (fun e : Fin 1000000 => hitIdx 100000 (rDST_L0 (V2 m outs c) (ix1 e)) = some n),
        rXWS_L0 (V2 m outs c) (ix2 (clampIdx 100000 (by decide) (wrapIdx 100000#32 (rSRC_L0 (V2 m outs c) (ix1 e)))) ch) := by
  dsimp only [rAGG_L0, V3]
  after_results_simp
  exact agg_point _ _ _ n ch

open Classical in

theorem layer0a (c : Dev nD) (P : Shared) (L : Layer) (x : SNC.Idx → EReal)
    (h0 : outs 2 main_v27 c = linA (rX_L0 (V1 m c)) (rW_L0 (V1 m c)) (rD_L0 (V1 m c)))
    (h1a : outs 4 main_v38_0 c =
      combA (rAGG_L0 (V3 m outs c)) (rXWS_L0 (V3 m outs c)) (rD_L0 (V3 m outs c)) (rB_L0 (V3 m outs c)))
    (h1b : outs 4 main_v38_1 c =
      partA (fun n => rBT_L0 (V3 m outs c) (ix2 n (0 : Fin 1)))
        (combA (rAGG_L0 (V3 m outs c)) (rXWS_L0 (V3 m outs c)) (rD_L0 (V3 m outs c)) (rB_L0 (V3 m outs c))))
    (hx : rX_L0 (V1 m c) = x) (hw : rW_L0 (V1 m c) = L.w)
    (hb : ∀ ch : Fin 128, rB_L0 (V1 m c) (ix2 (0 : Fin 1) ch) = L.b ch)
    (hd : ∀ n : Fin 100000, rD_L0 (V1 m c) (ix2 n (0 : Fin 1)) = P.d n)
    (hbt : ∀ n : Fin 100000, rBT_L0 (V1 m c) (ix2 n (0 : Fin 1)) = P.batch n)
    (hsrc : ∀ e : Fin 1000000, rSRC_L0 (V1 m c) (ix1 e) = P.src e)
    (hdst : ∀ e : Fin 1000000, rDST_L0 (V1 m c) (ix1 e) = P.dst e) :
    rGCN_L0 (V4 m outs c) = convK P L x ∧ rP1_L0 (V4 m outs c) = partA P.batch (convK P L x) := by

  have hdcol : rD_L0 (V1 m c) = fun i => P.d (i 0 : Fin 100000) := col_ext _ _ hd
  have hbrow : rB_L0 (V1 m c) = fun i => L.b (i 1 : Fin 128) := row_ext _ _ hb

  have cS2 : rSRC_L0 (V2 m outs c) = rSRC_L0 (V1 m c) := V2_of m outs c main_v1 (by decide)
  have cT2 : rDST_L0 (V2 m outs c) = rDST_L0 (V1 m c) := V2_of m outs c main_v3 (by decide)
  have cX3 : rXWS_L0 (V3 m outs c) = rXWS_L0 (V2 m outs c) := V3_of m outs c main_v27 (by decide)
  have cD3 : rD_L0 (V3 m outs c) = rD_L0 (V1 m c) :=
    (V3_of m outs c main_v11 (by decide)).trans (V2_of m outs c main_v11 (by decide))
  have cB3 : rB_L0 (V3 m outs c) = rB_L0 (V1 m c) :=
    (V3_of m outs c main_v24 (by decide)).trans (V2_of m outs c main_v24 (by decide))
  have cG3 : rBT_L0 (V3 m outs c) = rBT_L0 (V1 m c) :=
    (V3_of m outs c main_v21 (by decide)).trans (V2_of m outs c main_v21 (by decide))

  have e27 : rXWS_L0 (V2 m outs c) = linA x L.w (fun i => P.d (i 0 : Fin 100000)) := by
    dsimp only [rXWS_L0, V2]
    rw [Function.update_self, h0, hx, hw, hdcol]

  have e37 : rAGG_L0 (V3 m outs c) = fun i =>
      0 + ∑ e ∈ Finset.univ.filter (fun e => P.dh e = some (i 0 : Fin 100000)),
        linA x L.w (fun i => P.d (i 0 : Fin 100000)) (ix2 (P.sg e) (i 1 : Fin 128)) := by
    funext i
    refine (congrArg (rAGG_L0 (V3 m outs c)) (eq_ix2 i)).trans ((agg_apply_L0 m outs c (i 0 : Fin 100000) (i 1 : Fin 128)).trans ?_)
    simp only [cS2, cT2, hsrc, hdst, e27]
    rfl

  have hne0 : (main_v38_0 : Ref sig .tc) ≠ main_v38_1 := by decide
  have hbtf : (fun n => rBT_L0 (V3 m outs c) (ix2 n (0 : Fin 1))) = P.batch := by
    funext n; rw [cG3]; exact hbt n

  have e38 : combA (rAGG_L0 (V3 m outs c)) (rXWS_L0 (V3 m outs c)) (rD_L0 (V3 m outs c)) (rB_L0 (V3 m outs c))
      = convK P L x := by
    rw [e37, cX3, e27, cD3, hdcol, cB3, hbrow]
    unfold convK
    simp only []
    refine congr (congr (congr (congrArg combA ?g1) rfl) rfl) rfl
    funext i
    exact congrArg (fun t => (0 : EReal) + t)
      (Finset.sum_congr (Finset.filter_congr fun e _ => Iff.rfl) fun e _ => rfl)
  constructor
  · dsimp only [rGCN_L0, V4]
    rw [Function.update_of_ne (StableHlo.devRef_ne_of_ne hne0), Function.update_self, h1a]
    exact e38
  · dsimp only [rP1_L0, V4]
    rw [Function.update_self, h1b, hbtf, e38]

end Cert.KernelIdeal.H

end
-- ==== Proof.KI.Layer1a.lean ====
import proofs.«402146_j32049045962863_2_alg».proof.Proof.Gen.KernelIdeal.Regions
import proofs.«402146_j32049045962863_2_alg».proof.Proof.Spec
import proofs.«402146_j32049045962863_2_alg».proof.Proof.Algebra
import proofs.«402146_j32049045962863_2_alg».proof.Proof.LibIdx
import proofs.«402146_j32049045962863_2_alg».proof.Proof.KI.LayerLib
import Idealize.ShloMosaic.Lib.StableHlo.Run
import Idealize.ShloMosaic.Lib.ValueIdx

noncomputable section

namespace Cert.KernelIdeal.H

open Cert.KernelIdeal Cert.KernelIdeal.Gen
open Idealize.ShloMosaic Idealize.ShloMosaic.TcCoe Idealize.ShloMosaic.ValueIdx
open Idealize.ShloMosaic.StableHlo
open Cert.Spec Cert.IdxLib
open scoped BigOperators

variable (m : (ℓ : Loc nD τ sig) → Buf (Elt Ideal) ℓ) (outs : Outs (F := Ideal))

abbrev rX_L1 (W : Valuation τ sig (Elt Ideal)) : FVec Ideal S100000x128 .f32 := W main_v60

abbrev rW_L1 (W : Valuation τ sig (Elt Ideal)) : FVec Ideal S128x128 .f32 := W main_v65

abbrev rB_L1 (W : Valuation τ sig (Elt Ideal)) : FVec Ideal S1x128 .f32 := W main_v63

abbrev rD_L1 (W : Valuation τ sig (Elt Ideal)) : FVec Ideal S100000x1 .f32 := W main_v11

abbrev rBT_L1 (W : Valuation τ sig (Elt Ideal)) : IVec S100000x1 32 := W main_v21

abbrev rSRC_L1 (W : Valuation τ sig (Elt Ideal)) : IVec S1000000 32 := W main_v1

abbrev rDST_L1 (W : Valuation τ sig (Elt Ideal)) : IVec S1000000 32 := W main_v3

abbrev rXWS_L1 (W : Valuation τ sig (Elt Ideal)) : FVec Ideal S100000x128 .f32 := W main_v66

abbrev rAGG_L1 (W : Valuation τ sig (Elt Ideal)) : FVec Ideal S100000x128 .f32 := W main_v76

abbrev rGCN_L1 (W : Valuation τ sig (Elt Ideal)) : FVec Ideal S100000x128 .f32 := W main_v77_0

abbrev rP1_L1 (W : Valuation τ sig (Elt Ideal)) : FVec Ideal S2x64x128 .f32 := W main_v77_1

open Classical in

theorem agg_apply_L1 (c : Dev nD) (n : Fin 100000) (ch : Fin 128) :
    rAGG_L1 (V11 m outs c) (ix2 n ch) =
      0 + ∑ e ∈ Finset.univ.filter (fun e : Fin 1000000 => hitIdx 100000 (rDST_L1 (V10 m outs c) (ix1 e)) = some n),
        rXWS_L1 (V10 m outs c) (ix2 (clampIdx 100000 (by decide) (wrapIdx 100000#32 (rSRC_L1 (V10 m outs c) (ix1 e)))) ch) := by
  dsimp only [rAGG_L1, V11]
  after_results_simp
  exact agg_point _ _ _ n ch

open Classical in

theorem layer1a (c : Dev nD) (P : Shared) (L : Layer) (x : SNC.Idx → EReal)
    (h0 : outs 10 main_v66 c = linA (rX_L1 (V9 m outs c)) (rW_L1 (V9 m outs c)) (rD_L1 (V9 m outs c)))
    (h1a : outs 12 main_v77_0 c =
      combA (rAGG_L1 (V11 m outs c)) (rXWS_L1 (V11 m outs c)) (rD_L1 (V11 m outs c)) (rB_L1 (V11 m outs c)))
    (h1b : outs 12 main_v77_1 c =
      partA (fun n => rBT_L1 (V11 m outs c) (ix2 n (0 : Fin 1)))
        (combA (rAGG_L1 (V11 m outs c)) (rXWS_L1 (V11 m outs c)) (rD_L1 (V11 m outs c)) (rB_L1 (V11 m outs c))))
    (hx : rX_L1 (V9 m outs c) = x) (hw : rW_L1 (V9 m outs c) = L.w)
    (hb : ∀ ch : Fin 128, rB_L1 (V9 m outs c) (ix2 (0 : Fin 1) ch) = L.b ch)
    (hd : ∀ n : Fin 100000, rD_L1 (V9 m outs c) (ix2 n (0 : Fin 1)) = P.d n)
    (hbt : ∀ n : Fin 100000, rBT_L1 (V9 m outs c) (ix2 n (0 : Fin 1)) = P.batch n)
    (hsrc : ∀ e : Fin 1000000, rSRC_L1 (V9 m outs c) (ix1 e) = P.src e)
    (hdst : ∀ e : Fin 1000000, rDST_L1 (V9 m outs c) (ix1 e) = P.dst e) :
    rGCN_L1 (V12 m outs c) = convK P L x ∧ rP1_L1 (V12 m outs c) = partA P.batch (convK P L x) := by

  have hdcol : rD_L1 (V9 m outs c) = fun i => P.d (i 0 : Fin 100000) := col_ext _ _ hd
  have hbrow : rB_L1 (V9 m outs c) = fun i => L.b (i 1 : Fin 128) := row_ext _ _ hb

  have cS2 : rSRC_L1 (V10 m outs c) = rSRC_L1 (V9 m outs c) := V10_of m outs c main_v1 (by decide)
  have cT2 : rDST_L1 (V10 m outs c) = rDST_L1 (V9 m outs c) := V10_of m outs c main_v3 (by decide)
  have cX3 : rXWS_L1 (V11 m outs c) = rXWS_L1 (V10 m outs c) := V11_of m outs c main_v66 (by decide)
  have cD3 : rD_L1 (V11 m outs c) = rD_L1 (V9 m outs c) :=
    (V11_of m outs c main_v11 (by decide)).trans (V10_of m outs c main_v11 (by decide))
  have cB3 : rB_L1 (V11 m outs c) = rB_L1 (V9 m outs c) :=
    (V11_of m outs c main_v63 (by decide)).trans (V10_of m outs c main_v63 (by decide))
  have cG3 : rBT_L1 (V11 m outs c) = rBT_L1 (V9 m outs c) :=
    (V11_of m outs c main_v21 (by decide)).trans (V10_of m outs c main_v21 (by decide))

  have e27 : rXWS_L1 (V10 m outs c) = linA x L.w (fun i => P.d (i 0 : Fin 100000)) := by
    dsimp only [rXWS_L1, V10]
    rw [Function.update_self, h0, hx, hw, hdcol]

  have e37 : rAGG_L1 (V11 m outs c) = fun i =>
      0 + ∑ e ∈ Finset.univ.filter (fun e => P.dh e = some (i 0 : Fin 100000)),
        linA x L.w (fun i => P.d (i 0 : Fin 100000)) (ix2 (P.sg e) (i 1 : Fin 128)) := by
    funext i
    refine (congrArg (rAGG_L1 (V11 m outs c)) (eq_ix2 i)).trans ((agg_apply_L1 m outs c (i 0 : Fin 100000) (i 1 : Fin 128)).trans ?_)
    simp only [cS2, cT2, hsrc, hdst, e27]
    rfl

  have hne0 : (main_v77_0 : Ref sig .tc) ≠ main_v77_1 := by decide
  have hbtf : (fun n => rBT_L1 (V11 m outs c) (ix2 n (0 : Fin 1))) = P.batch := by
    funext n; rw [cG3]; exact hbt n

  have e38 : combA (rAGG_L1 (V11 m outs c)) (rXWS_L1 (V11 m outs c)) (rD_L1 (V11 m outs c)) (rB_L1 (V11 m outs c))
      = convK P L x := by
    rw [e37, cX3, e27, cD3, hdcol, cB3, hbrow]
    unfold convK
    simp only []
    refine congr (congr (congr (congrArg combA ?g1) rfl) rfl) rfl
    funext i
    exact congrArg (fun t => (0 : EReal) + t)
      (Finset.sum_congr (Finset.filter_congr fun e _ => Iff.rfl) fun e _ => rfl)
  constructor
  · dsimp only [rGCN_L1, V12]
    rw [Function.update_of_ne (StableHlo.devRef_ne_of_ne hne0), Function.update_self, h1a]
    exact e38
  · dsimp only [rP1_L1, V12]
    rw [Function.update_self, h1b, hbtf, e38]

end Cert.KernelIdeal.H

end
-- ==== Proof.KI.Layer2a.lean ====
import proofs.«402146_j32049045962863_2_alg».proof.Proof.Gen.KernelIdeal.Regions
import proofs.«402146_j32049045962863_2_alg».proof.Proof.Spec
import proofs.«402146_j32049045962863_2_alg».proof.Proof.Algebra
import proofs.«402146_j32049045962863_2_alg».proof.Proof.LibIdx
import proofs.«402146_j32049045962863_2_alg».proof.Proof.KI.LayerLib
import Idealize.ShloMosaic.Lib.StableHlo.Run
import Idealize.ShloMosaic.Lib.ValueIdx

noncomputable section

namespace Cert.KernelIdeal.H

open Cert.KernelIdeal Cert.KernelIdeal.Gen
open Idealize.ShloMosaic Idealize.ShloMosaic.TcCoe Idealize.ShloMosaic.ValueIdx
open Idealize.ShloMosaic.StableHlo
open Cert.Spec Cert.IdxLib
open scoped BigOperators

variable (m : (ℓ : Loc nD τ sig) → Buf (Elt Ideal) ℓ) (outs : Outs (F := Ideal))

abbrev rX_L2 (W : Valuation τ sig (Elt Ideal)) : FVec Ideal S100000x128 .f32 := W main_v99

abbrev rW_L2 (W : Valuation τ sig (Elt Ideal)) : FVec Ideal S128x128 .f32 := W main_v104

abbrev rB_L2 (W : Valuation τ sig (Elt Ideal)) : FVec Ideal S1x128 .f32 := W main_v102

abbrev rD_L2 (W : Valuation τ sig (Elt Ideal)) : FVec Ideal S100000x1 .f32 := W main_v11

abbrev rBT_L2 (W : Valuation τ sig (Elt Ideal)) : IVec S100000x1 32 := W main_v21

abbrev rSRC_L2 (W : Valuation τ sig (Elt Ideal)) : IVec S1000000 32 := W main_v1

abbrev rDST_L2 (W : Valuation τ sig (Elt Ideal)) : IVec S1000000 32 := W main_v3

abbrev rXWS_L2 (W : Valuation τ sig (Elt Ideal)) : FVec Ideal S100000x128 .f32 := W main_v105

abbrev rAGG_L2 (W : Valuation τ sig (Elt Ideal)) : FVec Ideal S100000x128 .f32 := W main_v115

abbrev rGCN_L2 (W : Valuation τ sig (Elt Ideal)) : FVec Ideal S100000x128 .f32 := W main_v116_0

abbrev rP1_L2 (W : Valuation τ sig (Elt Ideal)) : FVec Ideal S2x64x128 .f32 := W main_v116_1

open Classical in

theorem agg_apply_L2 (c : Dev nD) (n : Fin 100000) (ch : Fin 128) :
    rAGG_L2 (V19 m outs c) (ix2 n ch) =
      0 + ∑ e ∈ Finset.univ.filter (fun e : Fin 1000000 => hitIdx 100000 (rDST_L2 (V18 m outs c) (ix1 e)) = some n),
        rXWS_L2 (V18 m outs c) (ix2 (clampIdx 100000 (by decide) (wrapIdx 100000#32 (rSRC_L2 (V18 m outs c) (ix1 e)))) ch) := by
  dsimp only [rAGG_L2, V19]
  after_results_simp
  exact agg_point _ _ _ n ch

open Classical in

theorem layer2a (c : Dev nD) (P : Shared) (L : Layer) (x : SNC.Idx → EReal)
    (h0 : outs 18 main_v105 c = linA (rX_L2 (V17 m outs c)) (rW_L2 (V17 m outs c)) (rD_L2 (V17 m outs c)))
    (h1a : outs 20 main_v116_0 c =
      combA (rAGG_L2 (V19 m outs c)) (rXWS_L2 (V19 m outs c)) (rD_L2 (V19 m outs c)) (rB_L2 (V19 m outs c)))
    (h1b : outs 20 main_v116_1 c =
      partA (fun n => rBT_L2 (V19 m outs c) (ix2 n (0 : Fin 1)))
        (combA (rAGG_L2 (V19 m outs c)) (rXWS_L2 (V19 m outs c)) (rD_L2 (V19 m outs c)) (rB_L2 (V19 m outs c))))
    (hx : rX_L2 (V17 m outs c) = x) (hw : rW_L2 (V17 m outs c) = L.w)
    (hb : ∀ ch : Fin 128, rB_L2 (V17 m outs c) (ix2 (0 : Fin 1) ch) = L.b ch)
    (hd : ∀ n : Fin 100000, rD_L2 (V17 m outs c) (ix2 n (0 : Fin 1)) = P.d n)
    (hbt : ∀ n : Fin 100000, rBT_L2 (V17 m outs c) (ix2 n (0 : Fin 1)) = P.batch n)
    (hsrc : ∀ e : Fin 1000000, rSRC_L2 (V17 m outs c) (ix1 e) = P.src e)
    (hdst : ∀ e : Fin 1000000, rDST_L2 (V17 m outs c) (ix1 e) = P.dst e) :
    rGCN_L2 (V20 m outs c) = convK P L x ∧ rP1_L2 (V20 m outs c) = partA P.batch (convK P L x) := by

  have hdcol : rD_L2 (V17 m outs c) = fun i => P.d (i 0 : Fin 100000) := col_ext _ _ hd
  have hbrow : rB_L2 (V17 m outs c) = fun i => L.b (i 1 : Fin 128) := row_ext _ _ hb

  have cS2 : rSRC_L2 (V18 m outs c) = rSRC_L2 (V17 m outs c) := V18_of m outs c main_v1 (by decide)
  have cT2 : rDST_L2 (V18 m outs c) = rDST_L2 (V17 m outs c) := V18_of m outs c main_v3 (by decide)
  have cX3 : rXWS_L2 (V19 m outs c) = rXWS_L2 (V18 m outs c) := V19_of m outs c main_v105 (by decide)
  have cD3 : rD_L2 (V19 m outs c) = rD_L2 (V17 m outs c) :=
    (V19_of m outs c main_v11 (by decide)).trans (V18_of m outs c main_v11 (by decide))
  have cB3 : rB_L2 (V19 m outs c) = rB_L2 (V17 m outs c) :=
    (V19_of m outs c main_v102 (by decide)).trans (V18_of m outs c main_v102 (by decide))
  have cG3 : rBT_L2 (V19 m outs c) = rBT_L2 (V17 m outs c) :=
    (V19_of m outs c main_v21 (by decide)).trans (V18_of m outs c main_v21 (by decide))

  have e27 : rXWS_L2 (V18 m outs c) = linA x L.w (fun i => P.d (i 0 : Fin 100000)) := by
    dsimp only [rXWS_L2, V18]
    rw [Function.update_self, h0, hx, hw, hdcol]

  have e37 : rAGG_L2 (V19 m outs c) = fun i =>
      0 + ∑ e ∈ Finset.univ.filter (fun e => P.dh e = some (i 0 : Fin 100000)),
        linA x L.w (fun i => P.d (i 0 : Fin 100000)) (ix2 (P.sg e) (i 1 : Fin 128)) := by
    funext i
    refine (congrArg (rAGG_L2 (V19 m outs c)) (eq_ix2 i)).trans ((agg_apply_L2 m outs c (i 0 : Fin 100000) (i 1 : Fin 128)).trans ?_)
    simp only [cS2, cT2, hsrc, hdst, e27]
    rfl

  have hne0 : (main_v116_0 : Ref sig .tc) ≠ main_v116_1 := by decide
  have hbtf : (fun n => rBT_L2 (V19 m outs c) (ix2 n (0 : Fin 1))) = P.batch := by
    funext n; rw [cG3]; exact hbt n

  have e38 : combA (rAGG_L2 (V19 m outs c)) (rXWS_L2 (V19 m outs c)) (rD_L2 (V19 m outs c)) (rB_L2 (V19 m outs c))
      = convK P L x := by
    rw [e37, cX3, e27, cD3, hdcol, cB3, hbrow]
    unfold convK
    simp only []
    refine congr (congr (congr (congrArg combA ?g1) rfl) rfl) rfl
    funext i
    exact congrArg (fun t => (0 : EReal) + t)
      (Finset.sum_congr (Finset.filter_congr fun e _ => Iff.rfl) fun e _ => rfl)
  constructor
  · dsimp only [rGCN_L2, V20]
    rw [Function.update_of_ne (StableHlo.devRef_ne_of_ne hne0), Function.update_self, h1a]
    exact e38
  · dsimp only [rP1_L2, V20]
    rw [Function.update_self, h1b, hbtf, e38]

end Cert.KernelIdeal.H

end
-- ==== Proof.KI.P2.lean ====
import proofs.«402146_j32049045962863_2_alg».proof.Proof.Gen.KernelIdeal.Skeleton
import proofs.«402146_j32049045962863_2_alg».proof.Proof.Spec
import proofs.«402146_j32049045962863_2_alg».proof.Proof.LibIdx
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.H

open Cert.KernelIdeal Cert.KernelIdeal.Gen
open Idealize.ShloMosaic Idealize.ShloMosaic.ValueIdx

def memb2 (x1 : Vec Ideal S2000x1 .i32) (r : Fin 2000) (g : Fin 64) : EReal :=
  if x1 (ix2 r (0 : Fin 1)) = BitVec.ofNat 32 g.val then 1 else 0

theorem bcol2_apply (x : IVec S2000x1 32) (h : S2000x1.Broadcasts S2000x64) (r : Fin 2000) (g : Fin 64) :
    broadcastTo S2000x64 x h (ix2 r g) = x (ix2 r (0 : Fin 1)) := by
  refine broadcastTo_apply x h (ix2 r g) (ix2 r (0 : Fin 1)) fun ax => ?_
  match ax with
  | ⟨0, _⟩ => rfl
  | ⟨1, _⟩ => rfl

theorem pay_memb2_apply (x1 : Vec Ideal S2000x1 .i32) (r : Fin 2000) (g : Fin 64) :
    k2_pay2 (F := Ideal) x1 (ix2 r g) = memb2 x1 r g := by
  unfold k2_pay2 memb2
  refine (Cert.IdxLib.member_entry_apply iota_S2000x64_d1_w32 _ natLt_1_32 r g).trans ?_
  have hb : broadcastTo S2000x64 (shapeCast S2000x1 x1 shapeCasts_S2000x1_S2000x1) broadcasts_S2000x1_S2000x64 (ix2 r g) = x1 (ix2 r (0 : Fin 1)) :=
    (bcol2_apply _ _ r g).trans (congrFun (shapeCast_self x1 _) _)
  rw [hb]

theorem mm_sel2_apply (prec : Option ContractPrecision) (A : FVec Ideal S2000x64 .f32) (B : FVec Ideal S64x128 .f32)
    (r : Fin 2000) (ch : Fin 128) :
    matmul dot_S2000x64_S64x128_S2000x128_1_0_0_1_n_n prec A B (constant S2000x128 .f32 0x00000000#32) (ix2 r ch)
      = ∑ g : Fin 64, A (ix2 r g) * B (ix2 g ch) := by
  show FloatOps.matmul _ prec A B _ (ix2 r ch) = _
  rw [Ideal.matmul_constant_zero_apply,
    ← Equiv.sum_comp (contrEquiv1 dot_S2000x64_S64x128_S2000x128_1_0_0_1_n_n 64 rfl rfl).symm]
  refine Finset.sum_congr rfl fun g _ => ?_
  have c2 := contrEquiv1_symm_val dot_S2000x64_S64x128_S2000x128_1_0_0_1_n_n 64 rfl rfl g
  have l2 : dot_S2000x64_S64x128_S2000x128_1_0_0_1_n_n.lhsIdx (ix2 r ch) ((contrEquiv1 _ 64 rfl rfl).symm g) = ix2 r g := by
    funext ax; apply Fin.ext
    match ax with
    | ⟨0, _⟩ => simp [DotDims.lhsIdx, dot_S2000x64_S64x128_S2000x128_1_0_0_1_n_n]; rfl
    | ⟨1, _⟩ => simp [DotDims.lhsIdx, dot_S2000x64_S64x128_S2000x128_1_0_0_1_n_n]; exact c2
  have r2 : dot_S2000x64_S64x128_S2000x128_1_0_0_1_n_n.rhsIdx (ix2 r ch) ((contrEquiv1 _ 64 rfl rfl).symm g) = ix2 g ch := by
    funext ax; apply Fin.ext
    match ax with
    | ⟨0, _⟩ => simp [DotDims.rhsIdx, dot_S2000x64_S64x128_S2000x128_1_0_0_1_n_n]; exact c2
    | ⟨1, _⟩ => simp [DotDims.rhsIdx, dot_S2000x64_S64x128_S2000x128_1_0_0_1_n_n]; rfl
  rw [l2, r2]

theorem mm_red2_apply (prec : Option ContractPrecision) (A : FVec Ideal S2000x64 .f32) (B : FVec Ideal S2000x128 .f32)
    (g : Fin 64) (ch : Fin 128) :
    matmul dot_S2000x64_S2000x128_S64x128_0_0_1_1_n_n prec A B (constant S64x128 .f32 0x00000000#32) (ix2 g ch)
      = ∑ r : Fin 2000, A (ix2 r g) * B (ix2 r ch) := by
  show FloatOps.matmul _ prec A B _ (ix2 g ch) = _
  rw [Ideal.matmul_constant_zero_apply,
    ← Equiv.sum_comp (contrEquiv1 dot_S2000x64_S2000x128_S64x128_0_0_1_1_n_n 2000 rfl rfl).symm]
  refine Finset.sum_congr rfl fun r _ => ?_
  have c2 := contrEquiv1_symm_val dot_S2000x64_S2000x128_S64x128_0_0_1_1_n_n 2000 rfl rfl r
  have l2 : dot_S2000x64_S2000x128_S64x128_0_0_1_1_n_n.lhsIdx (ix2 g ch) ((contrEquiv1 _ 2000 rfl rfl).symm r) = ix2 r g := by
    funext ax; apply Fin.ext
    match ax with
    | ⟨0, _⟩ => simp [DotDims.lhsIdx, dot_S2000x64_S2000x128_S64x128_0_0_1_1_n_n]; exact c2
    | ⟨1, _⟩ => simp [DotDims.lhsIdx, dot_S2000x64_S2000x128_S64x128_0_0_1_1_n_n]; rfl
  have r2 : dot_S2000x64_S2000x128_S64x128_0_0_1_1_n_n.rhsIdx (ix2 g ch) ((contrEquiv1 _ 2000 rfl rfl).symm r) = ix2 r ch := by
    funext ax; apply Fin.ext
    match ax with
    | ⟨0, _⟩ => simp [DotDims.rhsIdx, dot_S2000x64_S2000x128_S64x128_0_0_1_1_n_n]; exact c2
    | ⟨1, _⟩ => simp [DotDims.rhsIdx, dot_S2000x64_S2000x128_S64x128_0_0_1_1_n_n]; rfl
  rw [l2, r2]

theorem pay_cen2_apply (x1 : Vec Ideal S2000x1 .i32) (x2 : Vec Ideal S64x128 .f32) (x0 : Vec Ideal S2000x128 .f32)
    (x3 : Vec Ideal S1x128 .f32) (r : Fin 2000) (ch : Fin 128) :
    k2_pay3 (F := Ideal) x1 x2 x0 x3 (ix2 r ch)
      = x0 (ix2 r ch) - (∑ g : Fin 64, memb2 x1 r g * x2 (ix2 g ch)) * x3 (ix2 (0 : Fin 1) ch) := by
  unfold k2_pay3
  have hA : shapeCast S2000x128 x0 shapeCasts_S2000x128_S2000x128 (ix2 r ch) = x0 (ix2 r ch) :=
    congrFun (shapeCast_self x0 _) _
  have hB : broadcastTo S2000x128 (shapeCast S1x128 x3 shapeCasts_S1x128_S1x128) broadcasts_S1x128_S2000x128 (ix2 r ch) = x3 (ix2 (0 : Fin 1) ch) :=
    (broadcastTo_1b_ab_apply _ _ r ch).trans (congrFun (shapeCast_self x3 _) _)
  have hM : matmul dot_S2000x64_S64x128_S2000x128_1_0_0_1_n_n (some .fp32) (k2_pay2 (F := Ideal) x1)
        (shapeCast S64x128 x2 shapeCasts_S64x128_S64x128) (constant S2000x128 .f32 0x00000000#32) (ix2 r ch)
      = ∑ g : Fin 64, memb2 x1 r g * x2 (ix2 g ch) :=
    (mm_sel2_apply _ _ _ r ch).trans (Finset.sum_congr rfl fun g _ => by
      rw [pay_memb2_apply, shapeCast_self])
  show shapeCast S2000x128 x0 shapeCasts_S2000x128_S2000x128 (ix2 r ch)
      - matmul dot_S2000x64_S64x128_S2000x128_1_0_0_1_n_n (some .fp32) (k2_pay2 (F := Ideal) x1)
          (shapeCast S64x128 x2 shapeCasts_S64x128_S64x128) (constant S2000x128 .f32 0x00000000#32) (ix2 r ch)
        * broadcastTo S2000x128 (shapeCast S1x128 x3 shapeCasts_S1x128_S1x128) broadcasts_S1x128_S2000x128 (ix2 r ch) = _
  rw [hA, hB, hM]

theorem addUnit2_apply {α : Type} (v : S64x128.Idx → α) (h : S64x128.ShapeCasts S1x64x128) (g : Fin 64) (ch : Fin 128) :
    shapeCast S1x64x128 v h (ix3 (0 : Fin 1) g ch) = v (ix2 g ch) := by
  refine (shapeCast_addUnit_apply ![64, 128] v h (ix3 (0 : Fin 1) g ch)).trans (congrArg v ?_)
  funext a
  match a with
  | ⟨0, _⟩ => rfl
  | ⟨1, _⟩ => rfl

theorem dropUnit2_apply {α : Type} (v : S1x64x128.Idx → α) (h : S1x64x128.ShapeCasts S64x128) (g : Fin 64) (ch : Fin 128) :
    shapeCast S64x128 v h (ix2 g ch) = v (ix3 (0 : Fin 1) g ch) := by
  refine (shapeCast_dropUnit_apply ![64, 128] v h (ix2 g ch)).trans (congrArg v ?_)
  funext a
  match a with
  | ⟨0, _⟩ => rfl
  | ⟨1, _⟩ => rfl
  | ⟨2, _⟩ => rfl

theorem pay_zero2_apply (g : Fin 64) (ch : Fin 128) : k2_pay1 (F := Ideal) (ix3 (0 : Fin 1) g ch) = 0 := by
  unfold k2_pay1
  refine (addUnit2_apply _ _ g ch).trans ?_
  show Ideal.ofBits .f32 0x00000000#32 = 0
  exact Ideal.ofBits_zero_f32

theorem pay_acc2_apply (x1 : Vec Ideal S2000x1 .i32) (x2 : Vec Ideal S64x128 .f32) (x0 : Vec Ideal S2000x128 .f32)
    (x3 : Vec Ideal S1x128 .f32) (xo : Vec Ideal S1x64x128 .f32) (g : Fin 64) (ch : Fin 128) :
    k2_pay4 (F := Ideal) x1 x2 x0 x3 xo (ix3 (0 : Fin 1) g ch)
      = xo (ix3 (0 : Fin 1) g ch)
        + ∑ r : Fin 2000, memb2 x1 r g * (k2_pay3 (F := Ideal) x1 x2 x0 x3 (ix2 r ch) * k2_pay3 (F := Ideal) x1 x2 x0 x3 (ix2 r ch)) := by
  unfold k2_pay4
  refine (addUnit2_apply _ _ g ch).trans ?_
  have hO : shapeCast S64x128 xo shapeCasts_S1x64x128_S64x128 (ix2 g ch) = xo (ix3 (0 : Fin 1) g ch) := dropUnit2_apply xo _ g ch
  have hM : matmul dot_S2000x64_S2000x128_S64x128_0_0_1_1_n_n none (k2_pay2 (F := Ideal) x1)
        (mulf (k2_pay3 (F := Ideal) x1 x2 x0 x3) (k2_pay3 (F := Ideal) x1 x2 x0 x3)) (constant S64x128 .f32 0x00000000#32) (ix2 g ch)
      = ∑ r : Fin 2000, memb2 x1 r g * (k2_pay3 (F := Ideal) x1 x2 x0 x3 (ix2 r ch) * k2_pay3 (F := Ideal) x1 x2 x0 x3 (ix2 r ch)) :=
    (mm_red2_apply _ _ _ g ch).trans (Finset.sum_congr rfl fun r _ => by
      rw [pay_memb2_apply]; rfl)
  show shapeCast S64x128 xo shapeCasts_S1x64x128_S64x128 (ix2 g ch)
      + matmul dot_S2000x64_S2000x128_S64x128_0_0_1_1_n_n none (k2_pay2 (F := Ideal) x1)
        (mulf (k2_pay3 (F := Ideal) x1 x2 x0 x3) (k2_pay3 (F := Ideal) x1 x2 x0 x3)) (constant S64x128 .f32 0x00000000#32) (ix2 g ch) = _
  rw [hO, hM]

end Cert.KernelIdeal.H

end
-- ==== Proof.KI.V2.lean ====
import proofs.«402146_j32049045962863_2_alg».proof.Proof.KI.R2
import proofs.«402146_j32049045962863_2_alg».proof.Proof.KI.P2
import proofs.«402146_j32049045962863_2_alg».proof.Proof.Spec
import Idealize.ShloMosaic.Lib.Pipeline.Value
import Idealize.ShloMosaic.Lib.Tactic

noncomputable section

open scoped BigOperators

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

theorem hzr2_2 : (![0, 0] : Fin 2 → Nat) = fun _ => 0 := funext fun a => by
  match a with
  | ⟨0, _⟩ => rfl
  | ⟨1, _⟩ => rfl
theorem hzr2_3 : (![0, 0, 0] : Fin 3 → Nat) = fun _ => 0 := funext fun a => by
  match a with
  | ⟨0, _⟩ => rfl
  | ⟨1, _⟩ => rfl
  | ⟨2, _⟩ => rfl

section Pieces
variable {F : FTy → Type} [FloatOps F]

section
variable (c : Dev nD) (i : grid2.Coords) (a2 : Memref sig .tc .vmem S2000x128 .f32) (h2 : a2.IsWhole) (a3 : Memref sig .tc .vmem S2000x1 .i32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x64x128 .f32) (h7 : a7.IsWhole) (hc : cond2_0 i) (x0 : Vec F S2000x128 .f32) (x1 : Vec F S2000x1 .i32) (x2 : Vec F S64x128 .f32) (x3 : Vec F S1x128 .f32)

theorem piece2_A_4 :
    out2_A_4 c i a2 h2 a3 h3 a4 h4 a5 h5 a6 h6 a7 h7 hc x0 x1 x2 x3 = k2_pay3 x1 x2 x0 x3 := by
  unfold out2_A_4
  rw [View.read_writes_eq_canon _ _ _ (cover2_A_4 c i a2 h2 a3 h3 a4 h4 a5 h5 a6 h6 a7 h7 hc x0 x1 x2 x3)]
  unfold kernelRun2_A
  dsimp only
  sl_unfold_words
  rw [View.canon_unit_zero hzr2_2]
  simp only [View.readAt_eq_ld, h2.read_unread, h3.read_unread, h4.read_unread, h5.read_unread,
    View.ld_unit_zero (S := S2000x128) hzr2_2, View.ld_unit_zero (S := S2000x1) hzr2_2, View.ld_unit_zero (S := S64x128) hzr2_2,
    View.ld_unit_zero (S := S1x128) hzr2_2]

theorem piece2_A_5 :
    out2_A_5 c i a2 h2 a3 h3 a4 h4 a5 h5 a6 h6 a7 h7 hc x0 x1 x2 x3 = k2_pay4 x1 x2 x0 x3 k2_pay1 := by
  unfold out2_A_5
  rw [View.read_writes_eq_canon _ _ _ (cover2_A_5 c i a2 h2 a3 h3 a4 h4 a5 h5 a6 h6 a7 h7 hc x0 x1 x2 x3)]
  unfold kernelRun2_A
  dsimp only
  sl_unfold_words
  rw [View.canon_cons_unit_zero (S := S1x64x128) hzr2_3, View.readCov_unit_zero (S := S1x64x128) _ hzr2_3]
  simp only [View.readAt_eq_ld, h2.read_unread, h3.read_unread, h4.read_unread, h5.read_unread,
    View.ld_unit_zero (S := S2000x128) hzr2_2, View.ld_unit_zero (S := S2000x1) hzr2_2, View.ld_unit_zero (S := S64x128) hzr2_2,
    View.ld_unit_zero (S := S1x128) hzr2_2]

end

section
variable (c : Dev nD) (i : grid2.Coords) (a2 : Memref sig .tc .vmem S2000x128 .f32) (h2 : a2.IsWhole) (a3 : Memref sig .tc .vmem S2000x1 .i32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x64x128 .f32) (h7 : a7.IsWhole) (hc : ¬cond2_0 i) (x0 : Vec F S2000x128 .f32) (x1 : Vec F S2000x1 .i32) (x2 : Vec F S64x128 .f32) (x3 : Vec F S1x128 .f32) (xo : Vec F S1x64x128 .f32)

theorem piece2_B_4 :
    out2_B_4 c i a2 h2 a3 h3 a4 h4 a5 h5 a6 h6 a7 h7 hc x0 x1 x2 x3 xo = k2_pay3 x1 x2 x0 x3 := by
  unfold out2_B_4
  rw [View.read_writes_eq_canon _ _ _ (cover2_B_4 c i a2 h2 a3 h3 a4 h4 a5 h5 a6 h6 a7 h7 hc x0 x1 x2 x3 xo)]
  unfold kernelRun2_B
  dsimp only
  sl_unfold_words
  rw [View.canon_unit_zero hzr2_2]
  simp only [View.readAt_eq_ld, h2.read_unread, h3.read_unread, h4.read_unread, h5.read_unread,
    View.ld_unit_zero (S := S2000x128) hzr2_2, View.ld_unit_zero (S := S2000x1) hzr2_2, View.ld_unit_zero (S := S64x128) hzr2_2,
    View.ld_unit_zero (S := S1x128) hzr2_2]

theorem piece2_B_5 :
    out2_B_5 c i a2 h2 a3 h3 a4 h4 a5 h5 a6 h6 a7 h7 hc x0 x1 x2 x3 xo = k2_pay4 x1 x2 x0 x3 xo := by
  unfold out2_B_5
  rw [View.read_writes_eq_canon _ _ _ (cover2_B_5 c i a2 h2 a3 h3 a4 h4 a5 h5 a6 h6 a7 h7 hc x0 x1 x2 x3 xo)]
  unfold kernelRun2_B
  dsimp only
  sl_unfold_words
  rw [View.canon_unit_zero hzr2_3]
  simp only [View.readAt_eq_ld, h2.read_unread, h3.read_unread, h4.read_unread, h5.read_unread,
    View.ld_unit_zero (S := S2000x128) hzr2_2, View.ld_unit_zero (S := S2000x1) hzr2_2, View.ld_unit_zero (S := S64x128) hzr2_2,
    View.ld_unit_zero (S := S1x128) hzr2_2, h7.read_unread, View.ld_unit_zero (S := S1x64x128) hzr2_3]

end

end Pieces

section Points
variable {F : FTy → Type} [FloatOps F]
variable (V : (c : Dev nD) → (b : Ref sig .tc) → Buf (Elt F) ((c : Thread nD τ).loc b))

abbrev blk2_0 (c : Dev nD) (t : Fin cfg2.N) : Vec F S2000x128 .f32 := iblk2 V c 0 t
abbrev blk2_1 (c : Dev nD) (t : Fin cfg2.N) : Vec F S2000x1 .i32 := iblk2 V c 1 t
abbrev blk2_2 (c : Dev nD) (t : Fin cfg2.N) : Vec F S64x128 .f32 := iblk2 V c 2 t
abbrev blk2_3 (c : Dev nD) (t : Fin cfg2.N) : Vec F S1x128 .f32 := iblk2 V c 3 t

theorem outs2_fst (c : Dev nD) (t : Fin cfg2.N) :
    (outsAt2 V c t.val t.isLt).1 = k2_pay3 (blk2_1 V c t) (blk2_2 V c t) (blk2_0 V c t) (blk2_3 V c t) := by
  by_cases h0 : t.val % 25 = 0
  · rw [outsAt2_A V c t h0]; dsimp only
    exact piece2_A_4 (F := F) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)
  · rw [outsAt2_B V c t h0]; dsimp only
    exact piece2_B_4 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)
      (outsAt2 V c (t.val - 1) (Nat.lt_of_le_of_lt (Nat.sub_le _ _) t.isLt)).2

theorem outs2_snd_A (c : Dev nD) (t : Fin cfg2.N) (h0 : t.val % 25 = 0) :
    (outsAt2 V c t.val t.isLt).2 = k2_pay4 (blk2_1 V c t) (blk2_2 V c t) (blk2_0 V c t) (blk2_3 V c t) k2_pay1 := by
  rw [outsAt2_A V c t h0]; dsimp only
  exact piece2_A_5 (F := F) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)

theorem outs2_snd_B (c : Dev nD) (t : Fin cfg2.N) (h0 : ¬t.val % 25 = 0) :
    (outsAt2 V c t.val t.isLt).2 = k2_pay4 (blk2_1 V c t) (blk2_2 V c t) (blk2_0 V c t) (blk2_3 V c t)
      (outsAt2 V c (t.val - 1) (Nat.lt_of_le_of_lt (Nat.sub_le _ _) t.isLt)).2 := by
  rw [outsAt2_B V c t h0]; dsimp only
  exact piece2_B_5 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)
    (outsAt2 V c (t.val - 1) (Nat.lt_of_le_of_lt (Nat.sub_le _ _) t.isLt)).2

end Points

section Value
variable (V : (c : Dev nD) → (b : Ref sig .tc) → Buf (Elt Ideal) ((c : Thread nD τ).loc b))

abbrev arr2_0 (c : Dev nD) : Vec Ideal S100000x128 .f32 := V c (Pipeline.arrRef spec2 0)
abbrev arr2_1 (c : Dev nD) : Vec Ideal S100000x1 .i32 := V c (Pipeline.arrRef spec2 1)
abbrev arr2_2 (c : Dev nD) : Vec Ideal S64x128 .f32 := V c (Pipeline.arrRef spec2 2)
abbrev arr2_3 (c : Dev nD) : Vec Ideal S1x128 .f32 := V c (Pipeline.arrRef spec2 3)

abbrev batch2 (c : Dev nD) : Fin 100000 → BitVec 32 := fun n => arr2_1 V c (ix2 n (0 : Fin 1))

abbrev cen2 (c : Dev nD) : Cert.Spec.SNC.Idx → EReal :=
  Cert.Spec.cenA (batch2 V c) (arr2_0 V c) (arr2_2 V c) (arr2_3 V c)

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val / 25 ∧ win2_5.index t (1 : Fin 3) = 0 ∧ win2_5.index t (2 : Fin 3) = 0 :=
  (by decide +kernel : ∀ t : Fin grid2.N, _)

theorem pt_lt2 (t : Fin cfg2.N) : t.val < 50 := lt_of_lt_of_eq t.isLt (show cfg2.N = 50 from N_2)

def row2 (t : Fin cfg2.N) (r : Fin 2000) : Fin 100000 := ⟨t.val * 2000 + r.val, by have := pt_lt2 t; have := r.isLt; omega⟩

theorem blk2_0_apply (c : Dev nD) (t : Fin cfg2.N) (r : Fin 2000) (ch : Fin 128) :
    blk2_0 V c t (ix2 r ch) = arr2_0 V c (ix2 (row2 t r) ch) := by
  obtain ⟨e0, e1, -⟩ := idx_facts2 t
  show V c (Pipeline.arrRef spec2 0) (((cfg2.win 0).blk t).view.emb (ix2 r ch)) = V c (Pipeline.arrRef spec2 0) (ix2 (row2 t r) ch)
  refine congrArg _ (funext fun a => Fin.ext ?_)
  match a with
  | ⟨0, _⟩ => show win2_0.index t (0 : Fin 2) * 2000 + 1 * r.val = t.val * 2000 + r.val; omega
  | ⟨1, _⟩ => show win2_0.index t (1 : Fin 2) * 128 + 1 * ch.val = ch.val; omega

theorem blk2_1_apply (c : Dev nD) (t : Fin cfg2.N) (r : Fin 2000) :
    blk2_1 V c t (ix2 r (0 : Fin 1)) = batch2 V c (row2 t r) := by
  obtain ⟨-, -, e0, e1, -⟩ := idx_facts2 t
  show V c (Pipeline.arrRef spec2 1) (((cfg2.win 1).blk t).view.emb (ix2 r (0 : Fin 1))) = V c (Pipeline.arrRef spec2 1) (ix2 (row2 t r) (0 : Fin 1))
  refine congrArg _ (funext fun a => Fin.ext ?_)
  match a with
  | ⟨0, _⟩ => show win2_1.index t (0 : Fin 2) * 2000 + 1 * r.val = t.val * 2000 + r.val; omega
  | ⟨1, _⟩ => show win2_1.index t (1 : Fin 2) * 1 + 1 * 0 = 0; omega

theorem blk2_2_apply (c : Dev nD) (t : Fin cfg2.N) (g : Fin 64) (ch : Fin 128) :
    blk2_2 V c t (ix2 g ch) = arr2_2 V c (ix2 g ch) := by
  obtain ⟨-, -, -, -, e0, e1, -⟩ := idx_facts2 t
  show V c (Pipeline.arrRef spec2 2) (((cfg2.win 2).blk t).view.emb (ix2 g ch)) = V c (Pipeline.arrRef spec2 2) (ix2 g ch)
  refine congrArg _ (funext fun a => Fin.ext ?_)
  match a with
  | ⟨0, _⟩ => show win2_2.index t (0 : Fin 2) * 64 + 1 * g.val = g.val; omega
  | ⟨1, _⟩ => show win2_2.index t (1 : Fin 2) * 128 + 1 * ch.val = ch.val; omega

theorem blk2_3_apply (c : Dev nD) (t : Fin cfg2.N) (ch : Fin 128) :
    blk2_3 V c t (ix2 (0 : Fin 1) ch) = arr2_3 V c (ix2 (0 : Fin 1) ch) := by
  obtain ⟨-, -, -, -, -, -, e0, e1, -⟩ := idx_facts2 t
  show V c (Pipeline.arrRef spec2 3) (((cfg2.win 3).blk t).view.emb (ix2 (0 : Fin 1) ch)) = V c (Pipeline.arrRef spec2 3) (ix2 (0 : Fin 1) ch)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * ch.val = ch.val; omega

theorem memb_blk2 (c : Dev nD) (t : Fin cfg2.N) (r : Fin 2000) (g : Fin 64) :
    memb2 (blk2_1 V c t) r g = Cert.Spec.oneHot (batch2 V c) (row2 t r) g := by
  unfold memb2 Cert.Spec.oneHot
  rw [blk2_1_apply]

theorem cen_blk2 (c : Dev nD) (t : Fin cfg2.N) (r : Fin 2000) (ch : Fin 128) :
    k2_pay3 (F := Ideal) (blk2_1 V c t) (blk2_2 V c t) (blk2_0 V c t) (blk2_3 V c t) (ix2 r ch) = cen2 V c (ix2 (row2 t r) ch) := by
  rw [pay_cen2_apply, blk2_0_apply, blk2_3_apply]
  show _ = arr2_0 V c (ix2 (row2 t r) ch)
    - (∑ g : Fin 64, Cert.Spec.oneHot (batch2 V c) (row2 t r) g * arr2_2 V c (ix2 g ch)) * arr2_3 V c (ix2 (0 : Fin 1) ch)
  congr 2
  refine Finset.sum_congr rfl fun g _ => ?_
  rw [memb_blk2, blk2_2_apply]

def sqw2 (c : Dev nD) (g : Fin 64) (ch : Fin 128) (ρ : ℕ) : EReal :=
  if h : ρ < 100000 then
    Cert.Spec.oneHot (batch2 V c) ⟨ρ, h⟩ g * Cert.Spec.sqA (cen2 V c) (ix2 (⟨ρ, h⟩ : Fin 100000) ch)
  else 0

theorem blk_sum2 (c : Dev nD) (t : Fin cfg2.N) (g : Fin 64) (ch : Fin 128) :
    ∑ r : Fin 2000, memb2 (blk2_1 V c t) r g
        * (k2_pay3 (F := Ideal) (blk2_1 V c t) (blk2_2 V c t) (blk2_0 V c t) (blk2_3 V c t) (ix2 r ch)
          * k2_pay3 (F := Ideal) (blk2_1 V c t) (blk2_2 V c t) (blk2_0 V c t) (blk2_3 V c t) (ix2 r ch))
      = ∑ q ∈ Finset.range 2000, sqw2 V c g ch (t.val * 2000 + q) := by
  rw [Finset.sum_range]
  refine Finset.sum_congr rfl fun r _ => ?_
  have hr : t.val * 2000 + r.val < 100000 := (row2 t r).isLt
  unfold sqw2
  rw [dif_pos hr, memb_blk2, cen_blk2]
  rfl

theorem acc_inv2 (c : Dev nD) : ∀ (n : ℕ) (hn : n < cfg2.N) (g : Fin 64) (ch : Fin 128),
    (outsAt2 V c n hn).2 (ix3 (0 : Fin 1) g ch)
      = ∑ q ∈ Finset.range ((n % 25 + 1) * 2000), sqw2 V c g ch (n / 25 * 50000 + q)
  | 0, hn, g, ch => by
    rw [show (outsAt2 V c 0 hn).2 = _ from outs2_snd_A V c ⟨0, hn⟩ rfl, pay_acc2_apply, pay_zero2_apply, zero_add, blk_sum2]
    refine Finset.sum_congr rfl fun q _ => congrArg _ ?_
    show 0 * 2000 + q = 0 / 25 * 50000 + q
    omega
  | n + 1, hn, g, ch => by
    have hN : n + 1 < 50 := lt_of_lt_of_eq hn (show cfg2.N = 50 from N_2)
    by_cases h0 : (n + 1) % 25 = 0
    · rw [show (outsAt2 V c (n + 1) hn).2 = _ from outs2_snd_A V c ⟨n + 1, hn⟩ h0, pay_acc2_apply, pay_zero2_apply, zero_add, blk_sum2]
      rw [h0]
      refine Finset.sum_congr rfl fun q _ => congrArg _ ?_
      show (n + 1) * 2000 + q = (n + 1) / 25 * 50000 + q
      omega
    · rw [show (outsAt2 V c (n + 1) hn).2 = _ from outs2_snd_B V c ⟨n + 1, hn⟩ h0, pay_acc2_apply, blk_sum2]
      show (outsAt2 V c n _).2 (ix3 (0 : Fin 1) g ch) + _ = _
      rw [acc_inv2 c n (Nat.lt_of_succ_lt hn) g ch]
      have e1 : ((n + 1) % 25 + 1) * 2000 = (n % 25 + 1) * 2000 + 2000 := by omega
      rw [e1, Finset.sum_range_add]
      refine congrArg₂ (· + ·) (Finset.sum_congr rfl fun q _ => congrArg _ ?_) (Finset.sum_congr rfl fun q _ => congrArg _ ?_)
      · show n / 25 * 50000 + q = (n + 1) / 25 * 50000 + q
        omega
      · show (n + 1) * 2000 + q = (n + 1) / 25 * 50000 + ((n % 25 + 1) * 2000 + q)
        omega

theorem flushed2_4_eq (c : Dev nD) (t : Fin cfg2.N) :
    (dat2 (F := Ideal) V c).flushed 4 t = ((cfg2.win 4).blk t).view.read (Elt Ideal) (cen2 V c) := by
  obtain ⟨-, -, -, -, -, -, -, -, e0, e1, -⟩ := idx_facts2 t
  show (cfg2.win 4).cut (grid2.coords t) ((dat2 (F := Ideal) V c).after 4 t) = _
  rw [after2_4, outs2_fst]
  funext j
  obtain ⟨r, ch, rfl⟩ : ∃ (r : Fin 2000) (ch : Fin 128), j = ix2 r ch :=
    ⟨j 0, j 1, funext fun a => by
      match a with
      | ⟨0, _⟩ => rfl
      | ⟨1, _⟩ => rfl⟩
  show k2_pay3 (F := Ideal) (blk2_1 V c t) (blk2_2 V c t) (blk2_0 V c t) (blk2_3 V c t) (ix2 r ch)
    = cen2 V c (((cfg2.win 4).blk t).view.emb (ix2 r ch))
  rw [cen_blk2]
  refine congrArg _ (funext fun a => Fin.ext ?_)
  match a with
  | ⟨0, _⟩ => show t.val * 2000 + r.val = win2_4.index t (0 : Fin 2) * 2000 + 1 * r.val; omega
  | ⟨1, _⟩ => show ch.val = win2_4.index t (1 : Fin 2) * 128 + 1 * ch.val; omega

theorem read_blk2_5 (c : Dev nD) (t : Fin cfg2.N) (X : Vec Ideal S1x64x128 .f32) (G : Vec Ideal S2x64x128 .f32)
    (hG : ∀ (g : Fin 64) (ch : Fin 128), X (ix3 (0 : Fin 1) g ch) = G (ix3 (⟨t.val / 25, by have := pt_lt2 t; omega⟩ : Fin 2) g ch)) :
    (cfg2.win 5).cut (grid2.coords t) X = ((cfg2.win 5).blk t).view.read (Elt Ideal) G := by
  have hN := pt_lt2 t
  obtain ⟨-, -, -, -, -, -, -, -, -, -, e0, e1, e2⟩ := idx_facts2 t
  funext j
  obtain ⟨g, ch, rfl⟩ : ∃ (g : Fin 64) (ch : Fin 128), j = ix3 (0 : Fin 1) g ch :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  show X (ix3 (0 : Fin 1) g ch) = G (((cfg2.win 5).blk t).view.emb (ix3 (0 : Fin 1) g ch))
  rw [hG]
  refine congrArg G (funext fun a => Fin.ext ?_)
  match a with
  | ⟨0, _⟩ => show t.val / 25 = win2_5.index t (0 : Fin 3) * 1 + 1 * 0; omega
  | ⟨1, _⟩ => show g.val = win2_5.index t (1 : Fin 3) * 64 + 1 * g.val; omega
  | ⟨2, _⟩ => show ch.val = win2_5.index t (2 : Fin 3) * 128 + 1 * ch.val; omega

theorem flushed2_5_eq (c : Dev nD) (t : Fin cfg2.N) (hf : (cfg2.win 5).flush t = true) :
    (dat2 (F := Ideal) V c).flushed 5 t
      = ((cfg2.win 5).blk t).view.read (Elt Ideal) (Cert.Spec.partA (batch2 V c) (Cert.Spec.sqA (cen2 V c))) := by
  have h24 : t.val % 25 = 24 := (flush2_5 t).mp hf
  have hN := pt_lt2 t
  show (cfg2.win 5).cut (grid2.coords t) ((dat2 (F := Ideal) V c).after 5 t) = _
  rw [after2_5]
  refine read_blk2_5 c t _ _ fun g ch => ?_
  rw [acc_inv2 V c t.val t.isLt g ch, h24, show (24 + 1) * 2000 = 50000 from rfl, Finset.sum_range]
  show _ = ∑ q : Fin 50000, Cert.Spec.oneHot (batch2 V c) (Cert.Spec.rowOf (⟨t.val / 25, by omega⟩ : Fin 2) q) g
      * Cert.Spec.sqA (cen2 V c) (ix2 (Cert.Spec.rowOf (⟨t.val / 25, by omega⟩ : Fin 2) q) ch)
  refine Finset.sum_congr rfl fun q _ => ?_
  unfold sqw2
  rw [dif_pos (by have := q.isLt; omega)]
  rfl

theorem mem_blk2_4 (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole (Pipeline.arrRef spec2 4)).slice (win2_4.rect t)).set ↔ _
  rw [View.set_slice_whole, Rect.mem_set_unit]
  exact Iff.rfl

theorem mem_blk2_5 (t : Fin cfg2.N) (i : S2x64x128.Idx) :
    i ∈ ((cfg2.win 5).blk t).view.set ↔ ∀ a : Fin 3, win2_5.index t a * S1x64x128.size a ≤ (i a).val ∧ (i a).val < win2_5.index t a * S1x64x128.size a + S1x64x128.size a := by
  show i ∈ ((View.whole (Pipeline.arrRef spec2 5)).slice (win2_5.rect t)).set ↔ _
  rw [View.set_slice_whole, Rect.mem_set_unit]
  exact Iff.rfl

theorem final2_4 (c : Dev nD) : (dat2 (F := Ideal) V c).arrAt 4 cfg2.N
    = Cert.Spec.cenA (fun n => V c (Pipeline.arrRef spec2 1) (ix2 n (0 : Fin 1))) (V c (Pipeline.arrRef spec2 0))
        (V c (Pipeline.arrRef spec2 2)) (V c (Pipeline.arrRef spec2 3)) :=
  (dat2 (F := Ideal) V c).arrAt_eq_of_cover 4 (cen2 V c) (fun t _ => flushed2_4_eq V c t) fun i => by
    have hi0 : (i 0).val < 100000 := (i 0).isLt
    have hi1 : (i 1).val < 128 := (i 1).isLt
    refine ⟨⟨(i 0).val / 2000, by rw [show cfg2.N = 50 from N_2]; omega⟩, flush2_4 _, ?_⟩
    obtain ⟨-, -, -, -, -, -, -, -, e0, e1, -⟩ := idx_facts2 ⟨(i 0).val / 2000, by rw [show cfg2.N = 50 from N_2]; omega⟩
    rw [mem_blk2_4]
    intro a
    match a with
    | ⟨0, _⟩ =>
      show win2_4.index _ (0 : Fin 2) * 2000 ≤ (i 0).val ∧ (i 0).val < win2_4.index _ (0 : Fin 2) * 2000 + 2000
      rw [e0]; dsimp only; omega
    | ⟨1, _⟩ =>
      show win2_4.index _ (1 : Fin 2) * 128 ≤ (i 1).val ∧ (i 1).val < win2_4.index _ (1 : Fin 2) * 128 + 128
      rw [e1]; omega

theorem final2_5 (c : Dev nD) : (dat2 (F := Ideal) V c).arrAt 5 cfg2.N
    = Cert.Spec.partA (fun n => V c (Pipeline.arrRef spec2 1) (ix2 n (0 : Fin 1)))
        (Cert.Spec.sqA (Cert.Spec.cenA (fun n => V c (Pipeline.arrRef spec2 1) (ix2 n (0 : Fin 1))) (V c (Pipeline.arrRef spec2 0))
          (V c (Pipeline.arrRef spec2 2)) (V c (Pipeline.arrRef spec2 3)))) :=
  (dat2 (F := Ideal) V c).arrAt_eq_of_cover 5 (Cert.Spec.partA (batch2 V c) (Cert.Spec.sqA (cen2 V c)))
    (fun t hf => flushed2_5_eq V c t hf) fun i => by
    have hi0 : (i 0).val < 2 := (i 0).isLt
    have hi1 : (i 1).val < 64 := (i 1).isLt
    have hi2 : (i 2).val < 128 := (i 2).isLt
    refine ⟨⟨(i 0).val * 25 + 24, by rw [show cfg2.N = 50 from N_2]; omega⟩, (flush2_5 _).mpr (by dsimp only; omega), ?_⟩
    obtain ⟨-, -, -, -, -, -, -, -, -, -, e0, e1, e2⟩ := idx_facts2 ⟨(i 0).val * 25 + 24, by rw [show cfg2.N = 50 from N_2]; omega⟩
    rw [mem_blk2_5]
    intro a
    match a with
    | ⟨0, _⟩ =>
      show win2_5.index _ (0 : Fin 3) * 1 ≤ (i 0).val ∧ (i 0).val < win2_5.index _ (0 : Fin 3) * 1 + 1
      rw [e0]; dsimp only; omega
    | ⟨1, _⟩ =>
      show win2_5.index _ (1 : Fin 3) * 64 ≤ (i 1).val ∧ (i 1).val < win2_5.index _ (1 : Fin 3) * 64 + 64
      rw [e1]; omega
    | ⟨2, _⟩ =>
      show win2_5.index _ (2 : Fin 3) * 128 ≤ (i 2).val ∧ (i 2).val < win2_5.index _ (2 : Fin 3) * 128 + 128
      rw [e2]; omega
end Value

end Cert.KernelIdeal.H
end
-- ==== Proof.KI.V3.lean ====
import proofs.«402146_j32049045962863_2_alg».proof.Proof.KI.R3
import proofs.«402146_j32049045962863_2_alg».proof.Proof.Spec
import Idealize.ShloMosaic.Lib.Pipeline.Value
import Idealize.ShloMosaic.Lib.ValueIdx
import Idealize.ShloMosaic.PureOps.Ideal.Laws
import Idealize.ShloMosaic.Lib.KernelVsHost

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem oh_entry3 (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · subst h; simp [IntOp.cmpi]
  · simp [IntOp.cmpi, h]

theorem lrelu_entry3 (v s : EReal) :
    Scalar.select (FloatOps.cmpf (F := Ideal) .ogt v (Ideal.ofBits .f32 0x00000000#32)) v (v * s) = Cert.Spec.lreluK s v := by
  show Scalar.select (Ideal.cmp .ogt v (Ideal.ofBits .f32 0x00000000#32)) v (v * s) = _
  rw [Ideal.ofBits_zero_f32]
  unfold Cert.Spec.lreluK Ideal.cmp Scalar.select
  by_cases h : (0:EReal) < v <;> simp [h]

theorem member3_apply (x1 : Vec Ideal S5000x1 .i32) (i : S5000x64.Idx) :
    (sitofp .f32 (extui 32 (cmpi .eq (broadcastTo S5000x64 x1 broadcasts_S5000x1_S5000x64) (iota .tc S5000x64 32 [1] iota_S5000x64_d1_w32)) natLt_1_32) : FVec Ideal S5000x64 .f32) i
      = if x1 (ix2 (i 0 : Fin 5000) (0 : Fin 1)) = BitVec.ofNat 32 (i 1).val then 1 else 0 := by
  rw [sitofp_apply, extui_apply]
  show FloatOps.sitofp .f32 ((IntOp.cmpi .eq (broadcastTo S5000x64 x1 broadcasts_S5000x1_S5000x64 i) (iota .tc S5000x64 32 [1] iota_S5000x64_d1_w32 i)).setWidth 32) = _
  rw [iota_single_apply, broadcastTo_apply x1 _ i (ix2 (i 0 : Fin 5000) (0 : Fin 1)) (fun a => by match a with | ⟨0, _⟩ => rfl | ⟨1, _⟩ => rfl)]
  exact oh_entry3 _ _

theorem sel3_apply (x1 : Vec Ideal S5000x1 .i32) (x2 : FVec Ideal S64x128 .f32) (j : S5000x128.Idx) :
    matmul dot_S5000x64_S64x128_S5000x128_1_0_0_1_n_n (some .fp32)
        (sitofp .f32 (extui 32 (cmpi .eq (broadcastTo S5000x64 x1 broadcasts_S5000x1_S5000x64) (iota .tc S5000x64 32 [1] iota_S5000x64_d1_w32)) natLt_1_32) : FVec Ideal S5000x64 .f32)
        x2 (constant S5000x128 .f32 0x00000000#32) j
      = ∑ g : Fin 64, (if x1 (ix2 (j 0 : Fin 5000) (0 : Fin 1)) = BitVec.ofNat 32 g.val then (1:EReal) else 0) * x2 (ix2 g (j 1 : Fin 128)) := by
  show FloatOps.matmul _ _ _ _ _ j = _
  rw [Ideal.matmul_constant_zero_apply,
    ← Equiv.sum_comp (contrEquiv1 dot_S5000x64_S64x128_S5000x128_1_0_0_1_n_n 64 rfl rfl).symm]
  refine Finset.sum_congr rfl fun g _ => ?_
  have c2 := contrEquiv1_symm_val dot_S5000x64_S64x128_S5000x128_1_0_0_1_n_n 64 rfl rfl g
  have l2 : dot_S5000x64_S64x128_S5000x128_1_0_0_1_n_n.lhsIdx j ((contrEquiv1 _ 64 rfl rfl).symm g) = (ix2 (j 0 : Fin 5000) g : S5000x64.Idx) := by
    funext ax; apply Fin.ext
    match ax with
    | ⟨0, _⟩ => simp [DotDims.lhsIdx, dot_S5000x64_S64x128_S5000x128_1_0_0_1_n_n]; rfl
    | ⟨1, _⟩ => exact (DotDims.lhsIdx_val_of_single _ rfl j _).trans c2
  have r2 : dot_S5000x64_S64x128_S5000x128_1_0_0_1_n_n.rhsIdx j ((contrEquiv1 _ 64 rfl rfl).symm g) = (ix2 g (j 1 : Fin 128) : S64x128.Idx) := by
    funext ax; apply Fin.ext
    match ax with
    | ⟨0, _⟩ => exact (DotDims.rhsIdx_val_of_single _ rfl j _).trans c2
    | ⟨1, _⟩ => simp [DotDims.rhsIdx, dot_S5000x64_S64x128_S5000x128_1_0_0_1_n_n]; rfl
  rw [l2, r2, member3_apply]
  all_goals rfl

theorem pay3_apply (x1 : Vec Ideal S5000x1 .i32) (x2 : Vec Ideal S64x128 .f32) (x0 : Vec Ideal S5000x128 .f32) (x3 : Vec Ideal S1x128 .f32) (j : S5000x128.Idx) :
    k3_pay1 x1 x2 x0 x3 j = Cert.Spec.lreluK (Ideal.ofBits .f32 0x3C23D70A#32)
      (x0 j * (∑ g : Fin 64, (if x1 (ix2 (j 0 : Fin 5000) (0 : Fin 1)) = BitVec.ofNat 32 g.val then (1:EReal) else 0) * x2 (ix2 g (j 1 : Fin 128))) + x3 (ix2 (0 : Fin 1) (j 1 : Fin 128))) := by
  unfold k3_pay1
  simp only [shapeCast_self]
  rw [select_apply, cmpf_apply, mulf_apply, broadcast_apply, broadcast_apply, addf_apply, mulf_apply, sel3_apply,
    broadcastTo_apply x3 _ j (ix2 (0 : Fin 1) (j 1 : Fin 128)) (fun a => by match a with | ⟨0, _⟩ => rfl | ⟨1, _⟩ => rfl)]
  exact lrelu_entry3 _ _

theorem hz3 : (![0, 0] : Fin 2 → Nat) = fun _ => 0 := funext fun a => by fin_cases a <;> rfl

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem emb3_0 (t : Fin cfg3.N) (j : S5000x128.Idx) :
    ((cfg3.win 0).blk t).view.emb j = ((cfg3.win 4).blk t).view.emb j := by
  obtain ⟨a00, a01, a10, a11, a20, a21, a30, a31, a40, a41⟩ := idx_facts3 t
  refine funext fun a => Fin.ext ?_
  match a with
  | ⟨0, _⟩ => show win3_0.index t (0 : Fin 2) * 5000 + 1 * (j 0).val = win3_4.index t (0 : Fin 2) * 5000 + 1 * (j 0).val; omega
  | ⟨1, _⟩ => show win3_0.index t (1 : Fin 2) * 128 + 1 * (j 1).val = win3_4.index t (1 : Fin 2) * 128 + 1 * (j 1).val; omega

theorem emb3_1 (t : Fin cfg3.N) (j : S5000x128.Idx) :
    ((cfg3.win 1).blk t).view.emb (ix2 (j 0 : Fin 5000) (0 : Fin 1))
      = ix2 ((((cfg3.win 4).blk t).view.emb j) 0 : Fin 100000) (0 : Fin 1) := by
  obtain ⟨a00, a01, a10, a11, a20, a21, a30, a31, a40, a41⟩ := idx_facts3 t
  refine funext fun a => Fin.ext ?_
  match a with
  | ⟨0, _⟩ => show win3_1.index t (0 : Fin 2) * 5000 + 1 * (j 0).val = win3_4.index t (0 : Fin 2) * 5000 + 1 * (j 0).val; omega
  | ⟨1, _⟩ => show win3_1.index t (1 : Fin 2) * 1 + 1 * 0 = 0; omega

theorem emb3_2 (t : Fin cfg3.N) (k : S64x128.Idx) : ((cfg3.win 2).blk t).view.emb k = k := by
  obtain ⟨a00, a01, a10, a11, a20, a21, a30, a31, a40, a41⟩ := idx_facts3 t
  refine funext fun a => Fin.ext ?_
  match a with
  | ⟨0, _⟩ => show win3_2.index t (0 : Fin 2) * 64 + 1 * (k 0).val = (k 0).val; omega
  | ⟨1, _⟩ => show win3_2.index t (1 : Fin 2) * 128 + 1 * (k 1).val = (k 1).val; omega

theorem emb3_3 (t : Fin cfg3.N) (k : S1x128.Idx) : ((cfg3.win 3).blk t).view.emb k = k := by
  obtain ⟨a00, a01, a10, a11, a20, a21, a30, a31, a40, a41⟩ := idx_facts3 t
  refine funext fun a => Fin.ext ?_
  match a with
  | ⟨0, _⟩ => show win3_3.index t (0 : Fin 2) * 1 + 1 * (k 0).val = (k 0).val; omega
  | ⟨1, _⟩ => show win3_3.index t (1 : Fin 2) * 128 + 1 * (k 1).val = (k 1).val; omega

theorem emb3_4_chan (t : Fin cfg3.N) (j : S5000x128.Idx) :
    ((((cfg3.win 4).blk t).view.emb j) 1 : Fin 128) = (j 1 : Fin 128) := by
  obtain ⟨a00, a01, a10, a11, a20, a21, a30, a31, a40, a41⟩ := idx_facts3 t
  refine Fin.ext ?_
  show win3_4.index t (1 : Fin 2) * 128 + 1 * (j 1).val = (j 1).val; omega

theorem iblk3_0_apply (c : Dev nD) (t : Fin cfg3.N) (k : S5000x128.Idx) :
    iblk3 V c 0 t k = V c (Pipeline.arrRef spec3 0) (((cfg3.win 0).blk t).view.emb k) := rfl
theorem iblk3_1_apply (c : Dev nD) (t : Fin cfg3.N) (k : S5000x1.Idx) :
    iblk3 V c 1 t k = V c (Pipeline.arrRef spec3 1) (((cfg3.win 1).blk t).view.emb k) := rfl
theorem iblk3_2_apply (c : Dev nD) (t : Fin cfg3.N) (k : S64x128.Idx) :
    iblk3 V c 2 t k = V c (Pipeline.arrRef spec3 2) (((cfg3.win 2).blk t).view.emb k) := rfl
theorem iblk3_3_apply (c : Dev nD) (t : Fin cfg3.N) (k : S1x128.Idx) :
    iblk3 V c 3 t k = V c (Pipeline.arrRef spec3 3) (((cfg3.win 3).blk t).view.emb k) := rfl

theorem blkval3_0 (c : Dev nD) (t : Fin cfg3.N) (j : S5000x128.Idx) :
    iblk3 V c 0 t j = V c (Pipeline.arrRef spec3 0) (((cfg3.win 4).blk t).view.emb j) := by
  rw [iblk3_0_apply, emb3_0]
theorem blkval3_1 (c : Dev nD) (t : Fin cfg3.N) (j : S5000x128.Idx) :
    iblk3 V c 1 t (ix2 (j 0 : Fin 5000) (0 : Fin 1))
      = V c (Pipeline.arrRef spec3 1) (ix2 ((((cfg3.win 4).blk t).view.emb j) 0 : Fin 100000) (0 : Fin 1)) := by
  rw [iblk3_1_apply, emb3_1]
  rfl
theorem blkval3_2 (c : Dev nD) (t : Fin cfg3.N) (k : S64x128.Idx) :
    iblk3 V c 2 t k = V c (Pipeline.arrRef spec3 2) k := by
  rw [iblk3_2_apply, emb3_2]
theorem blkval3_3 (c : Dev nD) (t : Fin cfg3.N) (k : S1x128.Idx) :
    iblk3 V c 3 t k = V c (Pipeline.arrRef spec3 3) k := by
  rw [iblk3_3_apply, emb3_3]

set_option maxHeartbeats 1000000 in

theorem flushed3_4_eq (c : Dev nD) (t : Fin cfg3.N) :
    (dat3 (F := Ideal) V c).flushed 4 t = ((cfg3.win 4).blk t).view.read (Elt Ideal)
      (Cert.Spec.finA (fun n => V c (Pipeline.arrRef spec3 1) (ix2 n (0 : Fin 1))) (V c (Pipeline.arrRef spec3 0)) (V c (Pipeline.arrRef spec3 2)) (V c (Pipeline.arrRef spec3 3)) (Ideal.ofBits .f32 0x3C23D70A#32)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S64x128) hz3, View.ld_unit_zero (S := S1x128) hz3]
  refine funext fun (j : S5000x128.Idx) => ?_
  show k3_pay1 (iblk3 V c 1 t) (iblk3 V c 2 t) (iblk3 V c 0 t) (iblk3 V c 3 t) j
    = Cert.Spec.finA _ _ _ _ _ (((cfg3.win 4).blk t).view.emb j)
  rw [pay3_apply]
  unfold Cert.Spec.finA Cert.Spec.selA Cert.Spec.oneHot
  rw [blkval3_0, blkval3_1, blkval3_3, emb3_4_chan]
  simp only [blkval3_2]

theorem mem_blk3_4 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

theorem cover3_4_arr (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨a00, a01, a10, a11, a20, a21, a30, a31, a40, a41⟩ := idx_facts3 t
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

theorem final3_4 (c : Dev nD) : (dat3 (F := Ideal) V c).arrAt 4 cfg3.N = Cert.Spec.finA (fun n => V c (Pipeline.arrRef spec3 1) (ix2 n (0 : Fin 1))) (V c (Pipeline.arrRef spec3 0)) (V c (Pipeline.arrRef spec3 2)) (V c (Pipeline.arrRef spec3 3)) (Ideal.ofBits .f32 0x3C23D70A#32) :=
  (dat3 (F := Ideal) V c).arrAt_eq_of_cover 4 _ (fun t _ => flushed3_4_eq V c t) cover3_4_arr

end Cert.KernelIdeal.H

end
-- ==== Proof.KI.Layer0b.lean ====
import proofs.«402146_j32049045962863_2_alg».proof.Proof.Gen.KernelIdeal.Regions
import proofs.«402146_j32049045962863_2_alg».proof.Proof.KI.Pdats
import proofs.«402146_j32049045962863_2_alg».proof.Proof.KI.V2
import proofs.«402146_j32049045962863_2_alg».proof.Proof.KI.V3
import proofs.«402146_j32049045962863_2_alg».proof.Proof.Spec
import proofs.«402146_j32049045962863_2_alg».proof.Proof.Algebra
import proofs.«402146_j32049045962863_2_alg».proof.Proof.LibIdx
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (outs : Outs (F := Ideal))

theorem hostRsqrt_apply {s : Shape} {φ : FTy} (x : FVec Ideal s φ) (i : s.Idx) : Host.rsqrt x i = Ideal.rsqrt (x i) := rfl

theorem lift_2x64x128 (h : S2x64x128.Reduces [0] S64x128) (g : Fin 64) (ch : Fin 128) (k : Fin 2) :
    h.lift (ix2 g ch) k = (ix3 k g ch : S2x64x128.Idx) := by
  funext a; refine Fin.ext ?_
  match a with
  | ⟨0, _⟩ => rfl
  | ⟨1, _⟩ => rfl
  | ⟨2, _⟩ => rfl

theorem reduce_halves (X : S2x64x128.Idx → EReal) (g : Fin 64) (ch : Fin 128) :
    (Host.reduceAdd (F := Ideal) (φ := .f32) X (constant S_ .f32 0x00000000#32) reducesTo_S2x64x128_S64x128_d0 h_S_ : S64x128.Idx → EReal) (ix2 g ch)
      = 0 + ∑ h : Fin 2, X (ix3 h g ch) := by
  have hr : S2x64x128.Reduces [0] S64x128 := by decide
  show Ideal.hostReduceAdd reducesTo_S2x64x128_S64x128_d0 X (Ideal.ofBits .f32 0x00000000#32) (ix2 g ch) = _
  rw [Ideal.hostReduceAdd_single reducesTo_S2x64x128_S64x128_d0 hr, Ideal.ofBits_zero_f32]
  exact congrArg (fun z : EReal => 0 + z) (Finset.sum_congr rfl fun k _ => congrArg X (lift_2x64x128 hr g ch k))

theorem bcast_col_apply (X : S64x1.Idx → EReal) (g : Fin 64) (ch : Fin 128) :
    broadcastInDim S64x128 ![0, 1] bcast_S64x1_S64x128_0_1 X (ix2 g ch) = X (ix2 g (0 : Fin 1)) :=
  broadcastInDim_apply _ _ X (ix2 g ch) (ix2 g (0 : Fin 1)) (fun a => by
    match a with
    | ⟨0, _⟩ => rfl
    | ⟨1, _⟩ => rfl)

theorem bcast_row_apply (X : S1x128.Idx → EReal) (g : Fin 64) (ch : Fin 128) :
    broadcastInDim S64x128 ![0, 1] bcast_S1x128_S64x128_0_1 X (ix2 g ch) = X (ix2 (0 : Fin 1) ch) :=
  broadcastInDim_apply _ _ X (ix2 g ch) (ix2 (0 : Fin 1) ch) (fun a => by
    match a with
    | ⟨0, _⟩ => rfl
    | ⟨1, _⟩ => rfl)

theorem row0_apply (X : S3x128.Idx → EReal) (ch : Fin 128) :
    shapeCast S1x128 (shapeCast S128 (extractStridedSlice S1x128 ![0, 0] X slices_S3x128_S1x128_0_0) shapeCasts_S1x128_S128)
      shapeCasts_S128_S1x128 (ix2 (0 : Fin 1) ch) = X (ix2 (0 : Fin 3) ch) := by
  rw [shapeCast_shapeCast]
  exact extractStridedSlice_apply _ X _ (ix2 (0 : Fin 1) ch) (ix2 (0 : Fin 3) ch) (fun a => by
    match a with
    | ⟨0, _⟩ => rfl
    | ⟨1, _⟩ => exact (Nat.zero_add _).symm)

theorem row1_apply (X : S3x128.Idx → EReal) (ch : Fin 128) :
    shapeCast S1x128 (shapeCast S128 (extractStridedSlice S1x128 ![1, 0] X slices_S3x128_S1x128_1_0) shapeCasts_S1x128_S128)
      shapeCasts_S128_S1x128 (ix2 (0 : Fin 1) ch) = X (ix2 (1 : Fin 3) ch) := by
  rw [shapeCast_shapeCast]
  exact extractStridedSlice_apply _ X _ (ix2 (0 : Fin 1) ch) (ix2 (1 : Fin 3) ch) (fun a => by
    match a with
    | ⟨0, _⟩ => rfl
    | ⟨1, _⟩ => exact (Nat.zero_add _).symm)

theorem row2_apply (X : S3x128.Idx → EReal) (ch : Fin 128) :
    shapeCast S1x128 (shapeCast S128 (extractStridedSlice S1x128 ![2, 0] X slices_S3x128_S1x128_2_0) shapeCasts_S1x128_S128)
      shapeCasts_S128_S1x128 (ix2 (0 : Fin 1) ch) = X (ix2 (2 : Fin 3) ch) := by
  rw [shapeCast_shapeCast]
  exact extractStridedSlice_apply _ X _ (ix2 (0 : Fin 1) ch) (ix2 (2 : Fin 3) ch) (fun a => by
    match a with
    | ⟨0, _⟩ => rfl
    | ⟨1, _⟩ => exact (Nat.zero_add _).symm)

theorem v41_apply (c : Dev nD) (g : Fin 64) (ch : Fin 128) (X : S2x64x128.Idx → EReal) (Y : S64x1.Idx → EReal)
    (hX : V4 m outs c main_v38_1 = X) (hY : V4 m outs c main_v20 = Y) :
    V5 m outs c main_v41 (ix2 g ch) = (0 + ∑ h : Fin 2, X (ix3 h g ch)) * Y (ix2 g (0 : Fin 1)) := by
  subst hX hY
  show StableHlo.after hostOps2 (V4 m outs c) (Proc.devRef .tc main_v41) (ix2 g ch) = _
  after_results
  rw [mulf_apply, reduce_halves, bcast_col_apply]

theorem v44_apply (c : Dev nD) (ch : Fin 128) (X : S3x128.Idx → EReal) (hX : V4 m outs c main_arg7 = X) :
    V5 m outs c main_v44 (ix2 (0 : Fin 1) ch) = X (ix2 (0 : Fin 3) ch) := by
  subst hX
  show StableHlo.after hostOps2 (V4 m outs c) (Proc.devRef .tc main_v44) (ix2 (0 : Fin 1) ch) = _
  after_results
  exact row0_apply _ ch

theorem v59_apply (c : Dev nD) (g : Fin 64) (ch : Fin 128) (X : S2x64x128.Idx → EReal) (Y : S64x1.Idx → EReal) (Z : S3x128.Idx → EReal)
    (hX : V6 m outs c main_v45_1 = X) (hY : V6 m outs c main_v20 = Y) (hZ : V6 m outs c main_arg5 = Z) :
    V7 m outs c main_v59 (ix2 g ch)
      = Ideal.rsqrt ((0 + ∑ h : Fin 2, X (ix3 h g ch)) * Y (ix2 g (0 : Fin 1)) + Ideal.ofBits .f32 0x3727C5AC#32)
        * Z (ix2 (0 : Fin 3) ch) := by
  subst hX hY hZ
  show StableHlo.after hostOps3 (V6 m outs c) (Proc.devRef .tc main_v59) (ix2 g ch) = _
  after_results_simp
  rw [mulf_apply]
  refine congr (congrArg HMul.hMul ?_) ?_
  · rw [hostRsqrt_apply, addf_apply, mulf_apply, reduce_halves, bcast_col_apply, broadcastInDim_scalar_apply]
    rfl
  · rw [bcast_row_apply]
    exact row0_apply _ ch

theorem v54_apply (c : Dev nD) (ch : Fin 128) (X : S3x128.Idx → EReal) (hX : V6 m outs c main_arg6 = X) :
    V7 m outs c main_v54 (ix2 (0 : Fin 1) ch) = X (ix2 (0 : Fin 3) ch) := by
  subst hX
  show StableHlo.after hostOps3 (V6 m outs c) (Proc.devRef .tc main_v54) (ix2 (0 : Fin 1) ch) = _
  after_results
  exact row0_apply _ ch

open Cert.Spec in

theorem layer0b_core (c : Dev nD) (P : Shared) (L : Layer) (gcn : SNC.Idx → EReal)
    (f24 : V6 m outs c main_v45_0 = cenA (fun n => V5 m outs c main_v21 (ix2 n (0 : Fin 1))) (V5 m outs c main_v38_0) (V5 m outs c main_v41) (V5 m outs c main_v44))
    (f25 : V6 m outs c main_v45_1 = partA (fun n => V5 m outs c main_v21 (ix2 n (0 : Fin 1)))
      (sqA (cenA (fun n => V5 m outs c main_v21 (ix2 n (0 : Fin 1))) (V5 m outs c main_v38_0) (V5 m outs c main_v41) (V5 m outs c main_v44))))
    (f34 : V8 m outs c main_v60 = finA (fun n => V7 m outs c main_v21 (ix2 n (0 : Fin 1))) (V7 m outs c main_v45_0) (V7 m outs c main_v59) (V7 m outs c main_v54)
      (Ideal.ofBits .f32 0x3C23D70A#32))
    (hg : V4 m outs c main_v38_0 = gcn) (hp : V4 m outs c main_v38_1 = partA P.batch gcn)
    (hci : ∀ g : Fin 64, V1 m c main_v20 (ix2 g (0 : Fin 1)) = P.ci g) (hbt : ∀ n : Fin 100000, V1 m c main_v21 (ix2 n (0 : Fin 1)) = P.batch n)
    (hms : ∀ ch : Fin 128, m ((c : Thread nD τ).loc main_arg7) (ix2 (0 : Fin 3) ch) = L.ms ch)
    (hgw : ∀ ch : Fin 128, m ((c : Thread nD τ).loc main_arg5) (ix2 (0 : Fin 3) ch) = L.gw ch)
    (hgb : ∀ ch : Fin 128, m ((c : Thread nD τ).loc main_arg6) (ix2 (0 : Fin 3) ch) = L.gb ch)
    (heps : P.eps = epsW) (hslope : P.slope = slopeW) :
    V8 m outs c main_v60 = normK P L gcn := by

  have e21_5 : V5 m outs c main_v21 = V1 m c main_v21 :=
    (V5_of m outs c main_v21 (by decide)).trans <| (V4_of m outs c main_v21 (by decide)).trans <| (V3_of m outs c main_v21 (by decide)).trans <| (V2_of m outs c main_v21 (by decide))
  have e21_7 : V7 m outs c main_v21 = V1 m c main_v21 :=
    (V7_of m outs c main_v21 (by decide)).trans <| (V6_of m outs c main_v21 (by decide)).trans e21_5
  have e20_4 : V4 m outs c main_v20 = V1 m c main_v20 :=
    (V4_of m outs c main_v20 (by decide)).trans <| (V3_of m outs c main_v20 (by decide)).trans <| (V2_of m outs c main_v20 (by decide))
  have e20_6 : V6 m outs c main_v20 = V1 m c main_v20 :=
    (V6_of m outs c main_v20 (by decide)).trans <| (V5_of m outs c main_v20 (by decide)).trans e20_4
  have e38_5 : V5 m outs c main_v38_0 = gcn := (V5_of m outs c main_v38_0 (by decide)).trans hg
  have ea7 : V4 m outs c main_arg7 = m ((c : Thread nD τ).loc main_arg7) :=
    (V4_of m outs c main_arg7 (by decide)).trans <| (V3_of m outs c main_arg7 (by decide)).trans <| (V2_of m outs c main_arg7 (by decide)).trans <| (V1_of m c main_arg7 (by decide))
  have ea5 : V6 m outs c main_arg5 = m ((c : Thread nD τ).loc main_arg5) :=
    (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))
  have ea6 : V6 m outs c main_arg6 = m ((c : Thread nD τ).loc main_arg6) :=
    (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))
  have e45_7 : V7 m outs c main_v45_0 = V6 m outs c main_v45_0 := V7_of m outs c main_v45_0 (by decide)

  have hb5 : (fun n : Fin 100000 => V5 m outs c main_v21 (ix2 n (0 : Fin 1))) = P.batch := by
    funext n; rw [e21_5]; exact hbt n
  have hb7 : (fun n : Fin 100000 => V7 m outs c main_v21 (ix2 n (0 : Fin 1))) = P.batch := by
    funext n; rw [e21_7]; exact hbt n

  have hmean : V5 m outs c main_v41
      = fun j : SGC.Idx => (0 + ∑ h : Fin 2, partA P.batch gcn (ix3 h (j 0 : Fin 64) (j 1 : Fin 128))) * P.ci (j 0 : Fin 64) := by
    funext j
    obtain ⟨g, ch, rfl⟩ : ∃ (g : Fin 64) (ch : Fin 128), j = ix2 g ch := ⟨j 0, j 1, eq_ix2 j⟩
    refine (v41_apply m outs c g ch _ _ hp e20_4).trans ?_
    rw [hci g]
  have hmsr : V5 m outs c main_v44 = fun i : S1C.Idx => L.ms (i 1 : Fin 128) := by
    funext i
    obtain ⟨z, ch, rfl⟩ : ∃ (z : Fin 1) (ch : Fin 128), i = ix2 z ch := ⟨i 0, i 1, eq_ix2 i⟩
    obtain rfl : z = 0 := Subsingleton.elim _ _
    exact (v44_apply m outs c ch _ ea7).trans (hms ch)

  have ho : V6 m outs c main_v45_0 = cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)) := by
    rw [f24, hb5, e38_5, hmean, hmsr]
  have hq : V6 m outs c main_v45_1 = partA P.batch (sqA (cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)))) := by
    rw [f25, hb5, e38_5, hmean, hmsr]

  have hscale : V7 m outs c main_v59 = fun j : SGC.Idx =>
      Ideal.rsqrt ((0 + ∑ h : Fin 2, partA P.batch (sqA (cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)))) (ix3 h (j 0 : Fin 64) (j 1 : Fin 128))) * P.ci (j 0 : Fin 64) + P.eps)
        * L.gw (j 1 : Fin 128) := by
    funext j
    obtain ⟨g, ch, rfl⟩ : ∃ (g : Fin 64) (ch : Fin 128), j = ix2 g ch := ⟨j 0, j 1, eq_ix2 j⟩
    refine (v59_apply m outs c g ch _ _ _ hq e20_6 ea5).trans ?_
    rw [hci g, hgw ch, heps]
    rfl
  have hgbr : V7 m outs c main_v54 = fun i : S1C.Idx => L.gb (i 1 : Fin 128) := by
    funext i
    obtain ⟨z, ch, rfl⟩ : ∃ (z : Fin 1) (ch : Fin 128), i = ix2 z ch := ⟨i 0, i 1, eq_ix2 i⟩
    obtain rfl : z = 0 := Subsingleton.elim _ _
    exact (v54_apply m outs c ch _ ea6).trans (hgb ch)
  have hsl : Ideal.ofBits .f32 0x3C23D70A#32 = P.slope := hslope.symm
  rw [f34, hb7, e45_7, ho, hscale, hgbr, hsl]
  rfl

open Cert.Spec in

theorem layer0b (h : OutsOk m outs) (c : Dev nD) (P : Shared) (L : Layer) (gcn : SNC.Idx → EReal)
    (hg : V4 m outs c main_v38_0 = gcn) (hp : V4 m outs c main_v38_1 = partA P.batch gcn)
    (hci : ∀ g : Fin 64, V1 m c main_v20 (ix2 g (0 : Fin 1)) = P.ci g) (hbt : ∀ n : Fin 100000, V1 m c main_v21 (ix2 n (0 : Fin 1)) = P.batch n)
    (hms : ∀ ch : Fin 128, m ((c : Thread nD τ).loc main_arg7) (ix2 (0 : Fin 3) ch) = L.ms ch)
    (hgw : ∀ ch : Fin 128, m ((c : Thread nD τ).loc main_arg5) (ix2 (0 : Fin 3) ch) = L.gw ch)
    (hgb : ∀ ch : Fin 128, m ((c : Thread nD τ).loc main_arg6) (ix2 (0 : Fin 3) ch) = L.gb ch)
    (heps : P.eps = epsW) (hslope : P.slope = slopeW) :
    V8 m outs c main_v60 = normK P L gcn := by
  refine layer0b_core m outs c P L gcn ?_ ?_ ?_ hg hp hci hbt hms hgw hgb heps hslope
  · have e : V6 m outs c main_v45_0 = outs 6 main_v45_0 c := by
      simp only [V6, Function.update_of_ne (StableHlo.devRef_ne_of_ne (by decide) : (Proc.devRef .tc main_v45_0 : DevRef τ sig) ≠ Proc.devRef .tc main_v45_1), Function.update_self]
    exact e.trans ((h.o2a c).trans (final2_4 (VR5 m outs) c))
  · have e : V6 m outs c main_v45_1 = outs 6 main_v45_1 c := by
      simp only [V6, Function.update_self]
    exact e.trans ((h.o2b c).trans (final2_5 (VR5 m outs) c))
  · have e : V8 m outs c main_v60 = outs 8 main_v60 c := by
      simp only [V8, Function.update_self]
    exact e.trans ((h.o3 c).trans (final3_4 (VR7 m outs) c))

end Cert.KernelIdeal.H

end
-- ==== Proof.KI.V6.lean ====
import proofs.«402146_j32049045962863_2_alg».proof.Proof.KI.R6
import proofs.«402146_j32049045962863_2_alg».proof.Proof.Spec
import Idealize.ShloMosaic.Lib.Pipeline.Value
import Idealize.ShloMosaic.Lib.Tactic
import proofs.«402146_j32049045962863_2_alg».proof.Proof.KI.V2

noncomputable section

open scoped BigOperators

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

section Pieces
variable {F : FTy → Type} [FloatOps F]

end Pieces

section Points
variable {F : FTy → Type} [FloatOps F]
variable (V : (c : Dev nD) → (b : Ref sig .tc) → Buf (Elt F) ((c : Thread nD τ).loc b))

abbrev blk6_0 (c : Dev nD) (t : Fin cfg6.N) : Vec F S2000x128 .f32 := iblk6 V c 0 t
abbrev blk6_1 (c : Dev nD) (t : Fin cfg6.N) : Vec F S2000x1 .i32 := iblk6 V c 1 t
abbrev blk6_2 (c : Dev nD) (t : Fin cfg6.N) : Vec F S64x128 .f32 := iblk6 V c 2 t
abbrev blk6_3 (c : Dev nD) (t : Fin cfg6.N) : Vec F S1x128 .f32 := iblk6 V c 3 t

theorem outs6_fst (c : Dev nD) (t : Fin cfg6.N) :
    (outsAt6 V c t.val t.isLt).1 = k2_pay3 (blk6_1 V c t) (blk6_2 V c t) (blk6_0 V c t) (blk6_3 V c t) := by
  by_cases h0 : t.val % 25 = 0
  · rw [outsAt6_A V c t h0]; dsimp only
    exact piece2_A_4 (F := F) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t) (iblk6 V c 3 t)
  · rw [outsAt6_B V c t h0]; dsimp only
    exact piece2_B_4 (F := F) c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (iblk6 V c 3 t)
      (outsAt6 V c (t.val - 1) (Nat.lt_of_le_of_lt (Nat.sub_le _ _) t.isLt)).2

theorem outs6_snd_A (c : Dev nD) (t : Fin cfg6.N) (h0 : t.val % 25 = 0) :
    (outsAt6 V c t.val t.isLt).2 = k2_pay4 (blk6_1 V c t) (blk6_2 V c t) (blk6_0 V c t) (blk6_3 V c t) k2_pay1 := by
  rw [outsAt6_A V c t h0]; dsimp only
  exact piece2_A_5 (F := F) c (grid6.coords t) (ms6_0 t) (hs6_0 t) (ms6_1 t) (hs6_1 t) (ms6_2 t) (hs6_2 t) (ms6_3 t) (hs6_3 t) (ms6_4 t) (hs6_4 t) (ms6_5 t) (hs6_5 t) ((hcond6_0 t).mpr h0) (iblk6 V c 0 t) (iblk6 V c 1 t) (iblk6 V c 2 t) (iblk6 V c 3 t)

theorem outs6_snd_B (c : Dev nD) (t : Fin cfg6.N) (h0 : ¬t.val % 25 = 0) :
    (outsAt6 V c t.val t.isLt).2 = k2_pay4 (blk6_1 V c t) (blk6_2 V c t) (blk6_0 V c t) (blk6_3 V c t)
      (outsAt6 V c (t.val - 1) (Nat.lt_of_le_of_lt (Nat.sub_le _ _) t.isLt)).2 := by
  rw [outsAt6_B V c t h0]; dsimp only
  exact piece2_B_5 (F := F) c (grid6.coords t) (ms6_0 t) (hs6_0 t) (ms6_1 t) (hs6_1 t) (ms6_2 t) (hs6_2 t) (ms6_3 t) (hs6_3 t) (ms6_4 t) (hs6_4 t) (ms6_5 t) (hs6_5 t) (fun h => h0 ((hcond6_0 t).mp h)) (iblk6 V c 0 t) (iblk6 V c 1 t) (iblk6 V c 2 t) (iblk6 V c 3 t)
    (outsAt6 V c (t.val - 1) (Nat.lt_of_le_of_lt (Nat.sub_le _ _) t.isLt)).2

end Points

section Value
variable (V : (c : Dev nD) → (b : Ref sig .tc) → Buf (Elt Ideal) ((c : Thread nD τ).loc b))

abbrev arr6_0 (c : Dev nD) : Vec Ideal S100000x128 .f32 := V c (Pipeline.arrRef spec6 0)
abbrev arr6_1 (c : Dev nD) : Vec Ideal S100000x1 .i32 := V c (Pipeline.arrRef spec6 1)
abbrev arr6_2 (c : Dev nD) : Vec Ideal S64x128 .f32 := V c (Pipeline.arrRef spec6 2)
abbrev arr6_3 (c : Dev nD) : Vec Ideal S1x128 .f32 := V c (Pipeline.arrRef spec6 3)

abbrev batch6 (c : Dev nD) : Fin 100000 → BitVec 32 := fun n => arr6_1 V c (ix2 n (0 : Fin 1))

abbrev cen6 (c : Dev nD) : Cert.Spec.SNC.Idx → EReal :=
  Cert.Spec.cenA (batch6 V c) (arr6_0 V c) (arr6_2 V c) (arr6_3 V c)

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 3) = t.val / 25 ∧ win6_5.index t (1 : Fin 3) = 0 ∧ win6_5.index t (2 : Fin 3) = 0 :=
  (by decide +kernel : ∀ t : Fin grid6.N, _)

theorem pt_lt6 (t : Fin cfg6.N) : t.val < 50 := lt_of_lt_of_eq t.isLt (show cfg6.N = 50 from N_6)

def row6 (t : Fin cfg6.N) (r : Fin 2000) : Fin 100000 := ⟨t.val * 2000 + r.val, by have := pt_lt6 t; have := r.isLt; omega⟩

theorem blk6_0_apply (c : Dev nD) (t : Fin cfg6.N) (r : Fin 2000) (ch : Fin 128) :
    blk6_0 V c t (ix2 r ch) = arr6_0 V c (ix2 (row6 t r) ch) := by
  obtain ⟨e0, e1, -⟩ := idx_facts6 t
  show V c (Pipeline.arrRef spec6 0) (((cfg6.win 0).blk t).view.emb (ix2 r ch)) = V c (Pipeline.arrRef spec6 0) (ix2 (row6 t r) ch)
  refine congrArg _ (funext fun a => Fin.ext ?_)
  match a with
  | ⟨0, _⟩ => show win6_0.index t (0 : Fin 2) * 2000 + 1 * r.val = t.val * 2000 + r.val; omega
  | ⟨1, _⟩ => show win6_0.index t (1 : Fin 2) * 128 + 1 * ch.val = ch.val; omega

theorem blk6_1_apply (c : Dev nD) (t : Fin cfg6.N) (r : Fin 2000) :
    blk6_1 V c t (ix2 r (0 : Fin 1)) = batch6 V c (row6 t r) := by
  obtain ⟨-, -, e0, e1, -⟩ := idx_facts6 t
  show V c (Pipeline.arrRef spec6 1) (((cfg6.win 1).blk t).view.emb (ix2 r (0 : Fin 1))) = V c (Pipeline.arrRef spec6 1) (ix2 (row6 t r) (0 : Fin 1))
  refine congrArg _ (funext fun a => Fin.ext ?_)
  match a with
  | ⟨0, _⟩ => show win6_1.index t (0 : Fin 2) * 2000 + 1 * r.val = t.val * 2000 + r.val; omega
  | ⟨1, _⟩ => show win6_1.index t (1 : Fin 2) * 1 + 1 * 0 = 0; omega

theorem blk6_2_apply (c : Dev nD) (t : Fin cfg6.N) (g : Fin 64) (ch : Fin 128) :
    blk6_2 V c t (ix2 g ch) = arr6_2 V c (ix2 g ch) := by
  obtain ⟨-, -, -, -, e0, e1, -⟩ := idx_facts6 t
  show V c (Pipeline.arrRef spec6 2) (((cfg6.win 2).blk t).view.emb (ix2 g ch)) = V c (Pipeline.arrRef spec6 2) (ix2 g ch)
  refine congrArg _ (funext fun a => Fin.ext ?_)
  match a with
  | ⟨0, _⟩ => show win6_2.index t (0 : Fin 2) * 64 + 1 * g.val = g.val; omega
  | ⟨1, _⟩ => show win6_2.index t (1 : Fin 2) * 128 + 1 * ch.val = ch.val; omega

theorem blk6_3_apply (c : Dev nD) (t : Fin cfg6.N) (ch : Fin 128) :
    blk6_3 V c t (ix2 (0 : Fin 1) ch) = arr6_3 V c (ix2 (0 : Fin 1) ch) := by
  obtain ⟨-, -, -, -, -, -, e0, e1, -⟩ := idx_facts6 t
  show V c (Pipeline.arrRef spec6 3) (((cfg6.win 3).blk t).view.emb (ix2 (0 : Fin 1) ch)) = V c (Pipeline.arrRef spec6 3) (ix2 (0 : Fin 1) ch)
  refine congrArg _ (funext fun a => Fin.ext ?_)
  match a with
  | ⟨0, _⟩ => show win6_3.index t (0 : Fin 2) * 1 + 1 * 0 = 0; omega
  | ⟨1, _⟩ => show win6_3.index t (1 : Fin 2) * 128 + 1 * ch.val = ch.val; omega

theorem memb_blk6 (c : Dev nD) (t : Fin cfg6.N) (r : Fin 2000) (g : Fin 64) :
    memb2 (blk6_1 V c t) r g = Cert.Spec.oneHot (batch6 V c) (row6 t r) g := by
  unfold memb2 Cert.Spec.oneHot
  rw [blk6_1_apply]

theorem cen_blk6 (c : Dev nD) (t : Fin cfg6.N) (r : Fin 2000) (ch : Fin 128) :
    k2_pay3 (F := Ideal) (blk6_1 V c t) (blk6_2 V c t) (blk6_0 V c t) (blk6_3 V c t) (ix2 r ch) = cen6 V c (ix2 (row6 t r) ch) := by
  rw [pay_cen2_apply, blk6_0_apply, blk6_3_apply]
  show _ = arr6_0 V c (ix2 (row6 t r) ch)
    - (∑ g : Fin 64, Cert.Spec.oneHot (batch6 V c) (row6 t r) g * arr6_2 V c (ix2 g ch)) * arr6_3 V c (ix2 (0 : Fin 1) ch)
  congr 2
  refine Finset.sum_congr rfl fun g _ => ?_
  rw [memb_blk6, blk6_2_apply]

def sqw6 (c : Dev nD) (g : Fin 64) (ch : Fin 128) (ρ : ℕ) : EReal :=
  if h : ρ < 100000 then
    Cert.Spec.oneHot (batch6 V c) ⟨ρ, h⟩ g * Cert.Spec.sqA (cen6 V c) (ix2 (⟨ρ, h⟩ : Fin 100000) ch)
  else 0

theorem blk_sum6 (c : Dev nD) (t : Fin cfg6.N) (g : Fin 64) (ch : Fin 128) :
    ∑ r : Fin 2000, memb2 (blk6_1 V c t) r g
        * (k2_pay3 (F := Ideal) (blk6_1 V c t) (blk6_2 V c t) (blk6_0 V c t) (blk6_3 V c t) (ix2 r ch)
          * k2_pay3 (F := Ideal) (blk6_1 V c t) (blk6_2 V c t) (blk6_0 V c t) (blk6_3 V c t) (ix2 r ch))
      = ∑ q ∈ Finset.range 2000, sqw6 V c g ch (t.val * 2000 + q) := by
  rw [Finset.sum_range]
  refine Finset.sum_congr rfl fun r _ => ?_
  have hr : t.val * 2000 + r.val < 100000 := (row6 t r).isLt
  unfold sqw6
  rw [dif_pos hr, memb_blk6, cen_blk6]
  rfl

theorem acc_inv6 (c : Dev nD) : ∀ (n : ℕ) (hn : n < cfg6.N) (g : Fin 64) (ch : Fin 128),
    (outsAt6 V c n hn).2 (ix3 (0 : Fin 1) g ch)
      = ∑ q ∈ Finset.range ((n % 25 + 1) * 2000), sqw6 V c g ch (n / 25 * 50000 + q)
  | 0, hn, g, ch => by
    rw [show (outsAt6 V c 0 hn).2 = _ from outs6_snd_A V c ⟨0, hn⟩ rfl, pay_acc2_apply, pay_zero2_apply, zero_add, blk_sum6]
    refine Finset.sum_congr rfl fun q _ => congrArg _ ?_
    show 0 * 2000 + q = 0 / 25 * 50000 + q
    omega
  | n + 1, hn, g, ch => by
    have hN : n + 1 < 50 := lt_of_lt_of_eq hn (show cfg6.N = 50 from N_6)
    by_cases h0 : (n + 1) % 25 = 0
    · rw [show (outsAt6 V c (n + 1) hn).2 = _ from outs6_snd_A V c ⟨n + 1, hn⟩ h0, pay_acc2_apply, pay_zero2_apply, zero_add, blk_sum6]
      rw [h0]
      refine Finset.sum_congr rfl fun q _ => congrArg _ ?_
      show (n + 1) * 2000 + q = (n + 1) / 25 * 50000 + q
      omega
    · rw [show (outsAt6 V c (n + 1) hn).2 = _ from outs6_snd_B V c ⟨n + 1, hn⟩ h0, pay_acc2_apply, blk_sum6]
      show (outsAt6 V c n _).2 (ix3 (0 : Fin 1) g ch) + _ = _
      rw [acc_inv6 c n (Nat.lt_of_succ_lt hn) g ch]
      have e1 : ((n + 1) % 25 + 1) * 2000 = (n % 25 + 1) * 2000 + 2000 := by omega
      rw [e1, Finset.sum_range_add]
      refine congrArg₂ (· + ·) (Finset.sum_congr rfl fun q _ => congrArg _ ?_) (Finset.sum_congr rfl fun q _ => congrArg _ ?_)
      · show n / 25 * 50000 + q = (n + 1) / 25 * 50000 + q
        omega
      · show (n + 1) * 2000 + q = (n + 1) / 25 * 50000 + ((n % 25 + 1) * 2000 + q)
        omega

theorem flushed6_4_eq (c : Dev nD) (t : Fin cfg6.N) :
    (dat6 (F := Ideal) V c).flushed 4 t = ((cfg6.win 4).blk t).view.read (Elt Ideal) (cen6 V c) := by
  obtain ⟨-, -, -, -, -, -, -, -, e0, e1, -⟩ := idx_facts6 t
  show (cfg6.win 4).cut (grid6.coords t) ((dat6 (F := Ideal) V c).after 4 t) = _
  rw [after6_4, outs6_fst]
  funext j
  obtain ⟨r, ch, rfl⟩ : ∃ (r : Fin 2000) (ch : Fin 128), j = ix2 r ch :=
    ⟨j 0, j 1, funext fun a => by
      match a with
      | ⟨0, _⟩ => rfl
      | ⟨1, _⟩ => rfl⟩
  show k2_pay3 (F := Ideal) (blk6_1 V c t) (blk6_2 V c t) (blk6_0 V c t) (blk6_3 V c t) (ix2 r ch)
    = cen6 V c (((cfg6.win 4).blk t).view.emb (ix2 r ch))
  rw [cen_blk6]
  refine congrArg _ (funext fun a => Fin.ext ?_)
  match a with
  | ⟨0, _⟩ => show t.val * 2000 + r.val = win6_4.index t (0 : Fin 2) * 2000 + 1 * r.val; omega
  | ⟨1, _⟩ => show ch.val = win6_4.index t (1 : Fin 2) * 128 + 1 * ch.val; omega

theorem read_blk6_5 (c : Dev nD) (t : Fin cfg6.N) (X : Vec Ideal S1x64x128 .f32) (G : Vec Ideal S2x64x128 .f32)
    (hG : ∀ (g : Fin 64) (ch : Fin 128), X (ix3 (0 : Fin 1) g ch) = G (ix3 (⟨t.val / 25, by have := pt_lt6 t; omega⟩ : Fin 2) g ch)) :
    (cfg6.win 5).cut (grid6.coords t) X = ((cfg6.win 5).blk t).view.read (Elt Ideal) G := by
  have hN := pt_lt6 t
  obtain ⟨-, -, -, -, -, -, -, -, -, -, e0, e1, e2⟩ := idx_facts6 t
  funext j
  obtain ⟨g, ch, rfl⟩ : ∃ (g : Fin 64) (ch : Fin 128), j = ix3 (0 : Fin 1) g ch :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  show X (ix3 (0 : Fin 1) g ch) = G (((cfg6.win 5).blk t).view.emb (ix3 (0 : Fin 1) g ch))
  rw [hG]
  refine congrArg G (funext fun a => Fin.ext ?_)
  match a with
  | ⟨0, _⟩ => show t.val / 25 = win6_5.index t (0 : Fin 3) * 1 + 1 * 0; omega
  | ⟨1, _⟩ => show g.val = win6_5.index t (1 : Fin 3) * 64 + 1 * g.val; omega
  | ⟨2, _⟩ => show ch.val = win6_5.index t (2 : Fin 3) * 128 + 1 * ch.val; omega

theorem flushed6_5_eq (c : Dev nD) (t : Fin cfg6.N) (hf : (cfg6.win 5).flush t = true) :
    (dat6 (F := Ideal) V c).flushed 5 t
      = ((cfg6.win 5).blk t).view.read (Elt Ideal) (Cert.Spec.partA (batch6 V c) (Cert.Spec.sqA (cen6 V c))) := by
  have h24 : t.val % 25 = 24 := (flush6_5 t).mp hf
  have hN := pt_lt6 t
  show (cfg6.win 5).cut (grid6.coords t) ((dat6 (F := Ideal) V c).after 5 t) = _
  rw [after6_5]
  refine read_blk6_5 c t _ _ fun g ch => ?_
  rw [acc_inv6 V c t.val t.isLt g ch, h24, show (24 + 1) * 2000 = 50000 from rfl, Finset.sum_range]
  show _ = ∑ q : Fin 50000, Cert.Spec.oneHot (batch6 V c) (Cert.Spec.rowOf (⟨t.val / 25, by omega⟩ : Fin 2) q) g
      * Cert.Spec.sqA (cen6 V c) (ix2 (Cert.Spec.rowOf (⟨t.val / 25, by omega⟩ : Fin 2) q) ch)
  refine Finset.sum_congr rfl fun q _ => ?_
  unfold sqw6
  rw [dif_pos (by have := q.isLt; omega)]
  rfl

theorem mem_blk6_4 (t : Fin cfg6.N) (i : S100000x128.Idx) :
    i ∈ ((cfg6.win 4).blk t).view.set ↔ ∀ a : Fin 2, win6_4.index t a * S2000x128.size a ≤ (i a).val ∧ (i a).val < win6_4.index t a * S2000x128.size a + S2000x128.size a := by
  show i ∈ ((View.whole (Pipeline.arrRef spec6 4)).slice (win6_4.rect t)).set ↔ _
  rw [View.set_slice_whole, Rect.mem_set_unit]
  exact Iff.rfl

theorem mem_blk6_5 (t : Fin cfg6.N) (i : S2x64x128.Idx) :
    i ∈ ((cfg6.win 5).blk t).view.set ↔ ∀ a : Fin 3, win6_5.index t a * S1x64x128.size a ≤ (i a).val ∧ (i a).val < win6_5.index t a * S1x64x128.size a + S1x64x128.size a := by
  show i ∈ ((View.whole (Pipeline.arrRef spec6 5)).slice (win6_5.rect t)).set ↔ _
  rw [View.set_slice_whole, Rect.mem_set_unit]
  exact Iff.rfl

theorem final6_4 (c : Dev nD) : (dat6 (F := Ideal) V c).arrAt 4 cfg6.N
    = Cert.Spec.cenA (fun n => V c (Pipeline.arrRef spec6 1) (ix2 n (0 : Fin 1))) (V c (Pipeline.arrRef spec6 0))
        (V c (Pipeline.arrRef spec6 2)) (V c (Pipeline.arrRef spec6 3)) :=
  (dat6 (F := Ideal) V c).arrAt_eq_of_cover 4 (cen6 V c) (fun t _ => flushed6_4_eq V c t) fun i => by
    have hi0 : (i 0).val < 100000 := (i 0).isLt
    have hi1 : (i 1).val < 128 := (i 1).isLt
    refine ⟨⟨(i 0).val / 2000, by rw [show cfg6.N = 50 from N_6]; omega⟩, flush6_4 _, ?_⟩
    obtain ⟨-, -, -, -, -, -, -, -, e0, e1, -⟩ := idx_facts6 ⟨(i 0).val / 2000, by rw [show cfg6.N = 50 from N_6]; omega⟩
    rw [mem_blk6_4]
    intro a
    match a with
    | ⟨0, _⟩ =>
      show win6_4.index _ (0 : Fin 2) * 2000 ≤ (i 0).val ∧ (i 0).val < win6_4.index _ (0 : Fin 2) * 2000 + 2000
      rw [e0]; dsimp only; omega
    | ⟨1, _⟩ =>
      show win6_4.index _ (1 : Fin 2) * 128 ≤ (i 1).val ∧ (i 1).val < win6_4.index _ (1 : Fin 2) * 128 + 128
      rw [e1]; omega

theorem final6_5 (c : Dev nD) : (dat6 (F := Ideal) V c).arrAt 5 cfg6.N
    = Cert.Spec.partA (fun n => V c (Pipeline.arrRef spec6 1) (ix2 n (0 : Fin 1)))
        (Cert.Spec.sqA (Cert.Spec.cenA (fun n => V c (Pipeline.arrRef spec6 1) (ix2 n (0 : Fin 1))) (V c (Pipeline.arrRef spec6 0))
          (V c (Pipeline.arrRef spec6 2)) (V c (Pipeline.arrRef spec6 3)))) :=
  (dat6 (F := Ideal) V c).arrAt_eq_of_cover 5 (Cert.Spec.partA (batch6 V c) (Cert.Spec.sqA (cen6 V c)))
    (fun t hf => flushed6_5_eq V c t hf) fun i => by
    have hi0 : (i 0).val < 2 := (i 0).isLt
    have hi1 : (i 1).val < 64 := (i 1).isLt
    have hi2 : (i 2).val < 128 := (i 2).isLt
    refine ⟨⟨(i 0).val * 25 + 24, by rw [show cfg6.N = 50 from N_6]; omega⟩, (flush6_5 _).mpr (by dsimp only; omega), ?_⟩
    obtain ⟨-, -, -, -, -, -, -, -, -, -, e0, e1, e2⟩ := idx_facts6 ⟨(i 0).val * 25 + 24, by rw [show cfg6.N = 50 from N_6]; omega⟩
    rw [mem_blk6_5]
    intro a
    match a with
    | ⟨0, _⟩ =>
      show win6_5.index _ (0 : Fin 3) * 1 ≤ (i 0).val ∧ (i 0).val < win6_5.index _ (0 : Fin 3) * 1 + 1
      rw [e0]; dsimp only; omega
    | ⟨1, _⟩ =>
      show win6_5.index _ (1 : Fin 3) * 64 ≤ (i 1).val ∧ (i 1).val < win6_5.index _ (1 : Fin 3) * 64 + 64
      rw [e1]; omega
    | ⟨2, _⟩ =>
      show win6_5.index _ (2 : Fin 3) * 128 ≤ (i 2).val ∧ (i 2).val < win6_5.index _ (2 : Fin 3) * 128 + 128
      rw [e2]; omega
end Value

end Cert.KernelIdeal.H
end
-- ==== Proof.KI.V7.lean ====
import proofs.«402146_j32049045962863_2_alg».proof.Proof.KI.R7
import proofs.«402146_j32049045962863_2_alg».proof.Proof.Spec
import Idealize.ShloMosaic.Lib.Pipeline.Value
import Idealize.ShloMosaic.Lib.ValueIdx
import Idealize.ShloMosaic.PureOps.Ideal.Laws
import Idealize.ShloMosaic.Lib.KernelVsHost
import proofs.«402146_j32049045962863_2_alg».proof.Proof.KI.V3

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

theorem emb7_0 (t : Fin cfg7.N) (j : S5000x128.Idx) :
    ((cfg7.win 0).blk t).view.emb j = ((cfg7.win 4).blk t).view.emb j := by
  obtain ⟨a00, a01, a10, a11, a20, a21, a30, a31, a40, a41⟩ := idx_facts7 t
  refine funext fun a => Fin.ext ?_
  match a with
  | ⟨0, _⟩ => show win7_0.index t (0 : Fin 2) * 5000 + 1 * (j 0).val = win7_4.index t (0 : Fin 2) * 5000 + 1 * (j 0).val; omega
  | ⟨1, _⟩ => show win7_0.index t (1 : Fin 2) * 128 + 1 * (j 1).val = win7_4.index t (1 : Fin 2) * 128 + 1 * (j 1).val; omega

theorem emb7_1 (t : Fin cfg7.N) (j : S5000x128.Idx) :
    ((cfg7.win 1).blk t).view.emb (ix2 (j 0 : Fin 5000) (0 : Fin 1))
      = ix2 ((((cfg7.win 4).blk t).view.emb j) 0 : Fin 100000) (0 : Fin 1) := by
  obtain ⟨a00, a01, a10, a11, a20, a21, a30, a31, a40, a41⟩ := idx_facts7 t
  refine funext fun a => Fin.ext ?_
  match a with
  | ⟨0, _⟩ => show win7_1.index t (0 : Fin 2) * 5000 + 1 * (j 0).val = win7_4.index t (0 : Fin 2) * 5000 + 1 * (j 0).val; omega
  | ⟨1, _⟩ => show win7_1.index t (1 : Fin 2) * 1 + 1 * 0 = 0; omega

theorem emb7_2 (t : Fin cfg7.N) (k : S64x128.Idx) : ((cfg7.win 2).blk t).view.emb k = k := by
  obtain ⟨a00, a01, a10, a11, a20, a21, a30, a31, a40, a41⟩ := idx_facts7 t
  refine funext fun a => Fin.ext ?_
  match a with
  | ⟨0, _⟩ => show win7_2.index t (0 : Fin 2) * 64 + 1 * (k 0).val = (k 0).val; omega
  | ⟨1, _⟩ => show win7_2.index t (1 : Fin 2) * 128 + 1 * (k 1).val = (k 1).val; omega

theorem emb7_3 (t : Fin cfg7.N) (k : S1x128.Idx) : ((cfg7.win 3).blk t).view.emb k = k := by
  obtain ⟨a00, a01, a10, a11, a20, a21, a30, a31, a40, a41⟩ := idx_facts7 t
  refine funext fun a => Fin.ext ?_
  match a with
  | ⟨0, _⟩ => show win7_3.index t (0 : Fin 2) * 1 + 1 * (k 0).val = (k 0).val; omega
  | ⟨1, _⟩ => show win7_3.index t (1 : Fin 2) * 128 + 1 * (k 1).val = (k 1).val; omega

theorem emb7_4_chan (t : Fin cfg7.N) (j : S5000x128.Idx) :
    ((((cfg7.win 4).blk t).view.emb j) 1 : Fin 128) = (j 1 : Fin 128) := by
  obtain ⟨a00, a01, a10, a11, a20, a21, a30, a31, a40, a41⟩ := idx_facts7 t
  refine Fin.ext ?_
  show win7_4.index t (1 : Fin 2) * 128 + 1 * (j 1).val = (j 1).val; omega

theorem iblk7_0_apply (c : Dev nD) (t : Fin cfg7.N) (k : S5000x128.Idx) :
    iblk7 V c 0 t k = V c (Pipeline.arrRef spec7 0) (((cfg7.win 0).blk t).view.emb k) := rfl
theorem iblk7_1_apply (c : Dev nD) (t : Fin cfg7.N) (k : S5000x1.Idx) :
    iblk7 V c 1 t k = V c (Pipeline.arrRef spec7 1) (((cfg7.win 1).blk t).view.emb k) := rfl
theorem iblk7_2_apply (c : Dev nD) (t : Fin cfg7.N) (k : S64x128.Idx) :
    iblk7 V c 2 t k = V c (Pipeline.arrRef spec7 2) (((cfg7.win 2).blk t).view.emb k) := rfl
theorem iblk7_3_apply (c : Dev nD) (t : Fin cfg7.N) (k : S1x128.Idx) :
    iblk7 V c 3 t k = V c (Pipeline.arrRef spec7 3) (((cfg7.win 3).blk t).view.emb k) := rfl

theorem blkval7_0 (c : Dev nD) (t : Fin cfg7.N) (j : S5000x128.Idx) :
    iblk7 V c 0 t j = V c (Pipeline.arrRef spec7 0) (((cfg7.win 4).blk t).view.emb j) := by
  rw [iblk7_0_apply, emb7_0]
theorem blkval7_1 (c : Dev nD) (t : Fin cfg7.N) (j : S5000x128.Idx) :
    iblk7 V c 1 t (ix2 (j 0 : Fin 5000) (0 : Fin 1))
      = V c (Pipeline.arrRef spec7 1) (ix2 ((((cfg7.win 4).blk t).view.emb j) 0 : Fin 100000) (0 : Fin 1)) := by
  rw [iblk7_1_apply, emb7_1]
  rfl
theorem blkval7_2 (c : Dev nD) (t : Fin cfg7.N) (k : S64x128.Idx) :
    iblk7 V c 2 t k = V c (Pipeline.arrRef spec7 2) k := by
  rw [iblk7_2_apply, emb7_2]
theorem blkval7_3 (c : Dev nD) (t : Fin cfg7.N) (k : S1x128.Idx) :
    iblk7 V c 3 t k = V c (Pipeline.arrRef spec7 3) k := by
  rw [iblk7_3_apply, emb7_3]

set_option maxHeartbeats 1000000 in

theorem flushed7_4_eq (c : Dev nD) (t : Fin cfg7.N) :
    (dat7 (F := Ideal) V c).flushed 4 t = ((cfg7.win 4).blk t).view.read (Elt Ideal)
      (Cert.Spec.finA (fun n => V c (Pipeline.arrRef spec7 1) (ix2 n (0 : Fin 1))) (V c (Pipeline.arrRef spec7 0)) (V c (Pipeline.arrRef spec7 2)) (V c (Pipeline.arrRef spec7 3)) (Ideal.ofBits .f32 0x3C23D70A#32)) := by
  show (cfg7.win 4).cut (grid7.coords t) ((dat7 V c).after 4 t) = _
  rw [after7_4]
  unfold out3_4
  rw [View.canon_unit_zero hz3]
  simp only [View.ld_unit_zero (S := S5000x128) hz3, View.ld_unit_zero (S := S5000x1) hz3, View.ld_unit_zero (S := S64x128) hz3, View.ld_unit_zero (S := S1x128) hz3]
  refine funext fun (j : S5000x128.Idx) => ?_
  show k3_pay1 (iblk7 V c 1 t) (iblk7 V c 2 t) (iblk7 V c 0 t) (iblk7 V c 3 t) j
    = Cert.Spec.finA _ _ _ _ _ (((cfg7.win 4).blk t).view.emb j)
  rw [pay3_apply]
  unfold Cert.Spec.finA Cert.Spec.selA Cert.Spec.oneHot
  rw [blkval7_0, blkval7_1, blkval7_3, emb7_4_chan]
  simp only [blkval7_2]

theorem mem_blk7_4 (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole (Pipeline.arrRef spec7 4)).slice (win7_4.rect t)).set ↔ _
  rw [View.set_slice_whole, Rect.mem_set_unit]
  exact Iff.rfl

theorem cover7_4_arr (i : S100000x128.Idx) :
    ∃ t : Fin cfg7.N, (cfg7.win 4).flush t = true ∧ i ∈ ((cfg7.win 4).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  have ht : t.val = (i 0).val / 5000 := rfl
  obtain ⟨a00, a01, a10, a11, a20, a21, a30, a31, a40, a41⟩ := idx_facts7 t
  refine ⟨t, flush7_4 t, ?_⟩
  rw [mem_blk7_4]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 128 ≤ (i 1).val ∧ (i 1).val < win7_4.index t (1 : Fin 2) * 128 + 128; omega

theorem final7_4 (c : Dev nD) : (dat7 (F := Ideal) V c).arrAt 4 cfg7.N = Cert.Spec.finA (fun n => V c (Pipeline.arrRef spec7 1) (ix2 n (0 : Fin 1))) (V c (Pipeline.arrRef spec7 0)) (V c (Pipeline.arrRef spec7 2)) (V c (Pipeline.arrRef spec7 3)) (Ideal.ofBits .f32 0x3C23D70A#32) :=
  (dat7 (F := Ideal) V c).arrAt_eq_of_cover 4 _ (fun t _ => flushed7_4_eq V c t) cover7_4_arr

end Cert.KernelIdeal.H

end
-- ==== Proof.KI.Layer1b.lean ====
import proofs.«402146_j32049045962863_2_alg».proof.Proof.Gen.KernelIdeal.Regions
import proofs.«402146_j32049045962863_2_alg».proof.Proof.KI.Pdats
import proofs.«402146_j32049045962863_2_alg».proof.Proof.KI.V6
import proofs.«402146_j32049045962863_2_alg».proof.Proof.KI.V7
import proofs.«402146_j32049045962863_2_alg».proof.Proof.Spec
import proofs.«402146_j32049045962863_2_alg».proof.Proof.Algebra
import proofs.«402146_j32049045962863_2_alg».proof.Proof.LibIdx
import proofs.«402146_j32049045962863_2_alg».proof.Proof.KI.Layer0b
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (outs : Outs (F := Ideal))

theorem v80_apply (c : Dev nD) (g : Fin 64) (ch : Fin 128) (X : S2x64x128.Idx → EReal) (Y : S64x1.Idx → EReal)
    (hX : V12 m outs c main_v77_1 = X) (hY : V12 m outs c main_v20 = Y) :
    V13 m outs c main_v80 (ix2 g ch) = (0 + ∑ h : Fin 2, X (ix3 h g ch)) * Y (ix2 g (0 : Fin 1)) := by
  subst hX hY
  show StableHlo.after hostOps6 (V12 m outs c) (Proc.devRef .tc main_v80) (ix2 g ch) = _
  after_results
  rw [mulf_apply, reduce_halves, bcast_col_apply]

theorem v83_apply (c : Dev nD) (ch : Fin 128) (X : S3x128.Idx → EReal) (hX : V12 m outs c main_arg7 = X) :
    V13 m outs c main_v83 (ix2 (0 : Fin 1) ch) = X (ix2 (1 : Fin 3) ch) := by
  subst hX
  show StableHlo.after hostOps6 (V12 m outs c) (Proc.devRef .tc main_v83) (ix2 (0 : Fin 1) ch) = _
  after_results
  exact row1_apply _ ch

theorem v98_apply (c : Dev nD) (g : Fin 64) (ch : Fin 128) (X : S2x64x128.Idx → EReal) (Y : S64x1.Idx → EReal) (Z : S3x128.Idx → EReal)
    (hX : V14 m outs c main_v84_1 = X) (hY : V14 m outs c main_v20 = Y) (hZ : V14 m outs c main_arg5 = Z) :
    V15 m outs c main_v98 (ix2 g ch)
      = Ideal.rsqrt ((0 + ∑ h : Fin 2, X (ix3 h g ch)) * Y (ix2 g (0 : Fin 1)) + Ideal.ofBits .f32 0x3727C5AC#32)
        * Z (ix2 (1 : Fin 3) ch) := by
  subst hX hY hZ
  show StableHlo.after hostOps7 (V14 m outs c) (Proc.devRef .tc main_v98) (ix2 g ch) = _
  after_results_simp
  rw [mulf_apply]
  refine congr (congrArg HMul.hMul ?_) ?_
  · rw [hostRsqrt_apply, addf_apply, mulf_apply, reduce_halves, bcast_col_apply, broadcastInDim_scalar_apply]
    rfl
  · rw [bcast_row_apply]
    exact row1_apply _ ch

theorem v93_apply (c : Dev nD) (ch : Fin 128) (X : S3x128.Idx → EReal) (hX : V14 m outs c main_arg6 = X) :
    V15 m outs c main_v93 (ix2 (0 : Fin 1) ch) = X (ix2 (1 : Fin 3) ch) := by
  subst hX
  show StableHlo.after hostOps7 (V14 m outs c) (Proc.devRef .tc main_v93) (ix2 (0 : Fin 1) ch) = _
  after_results
  exact row1_apply _ ch

open Cert.Spec in

theorem layer1b_core (c : Dev nD) (P : Shared) (L : Layer) (gcn : SNC.Idx → EReal)
    (f24 : V14 m outs c main_v84_0 = cenA (fun n => V13 m outs c main_v21 (ix2 n (0 : Fin 1))) (V13 m outs c main_v77_0) (V13 m outs c main_v80) (V13 m outs c main_v83))
    (f25 : V14 m outs c main_v84_1 = partA (fun n => V13 m outs c main_v21 (ix2 n (0 : Fin 1)))
      (sqA (cenA (fun n => V13 m outs c main_v21 (ix2 n (0 : Fin 1))) (V13 m outs c main_v77_0) (V13 m outs c main_v80) (V13 m outs c main_v83))))
    (f34 : V16 m outs c main_v99 = finA (fun n => V15 m outs c main_v21 (ix2 n (0 : Fin 1))) (V15 m outs c main_v84_0) (V15 m outs c main_v98) (V15 m outs c main_v93)
      (Ideal.ofBits .f32 0x3C23D70A#32))
    (hg : V12 m outs c main_v77_0 = gcn) (hp : V12 m outs c main_v77_1 = partA P.batch gcn)
    (hci : ∀ g : Fin 64, V1 m c main_v20 (ix2 g (0 : Fin 1)) = P.ci g) (hbt : ∀ n : Fin 100000, V1 m c main_v21 (ix2 n (0 : Fin 1)) = P.batch n)
    (hms : ∀ ch : Fin 128, m ((c : Thread nD τ).loc main_arg7) (ix2 (1 : Fin 3) ch) = L.ms ch)
    (hgw : ∀ ch : Fin 128, m ((c : Thread nD τ).loc main_arg5) (ix2 (1 : Fin 3) ch) = L.gw ch)
    (hgb : ∀ ch : Fin 128, m ((c : Thread nD τ).loc main_arg6) (ix2 (1 : Fin 3) ch) = L.gb ch)
    (heps : P.eps = epsW) (hslope : P.slope = slopeW) :
    V16 m outs c main_v99 = normK P L gcn := by

  have e21_5 : V13 m outs c main_v21 = V1 m c main_v21 :=
    (V13_of m outs c main_v21 (by decide)).trans <| (V12_of m outs c main_v21 (by decide)).trans <| (V11_of m outs c main_v21 (by decide)).trans <| (V10_of m outs c main_v21 (by decide)).trans <| (V9_of m outs c main_v21 (by decide)).trans <| (V8_of m outs c main_v21 (by decide)).trans <| (V7_of m outs c main_v21 (by decide)).trans <| (V6_of m outs c main_v21 (by decide)).trans <| (V5_of m outs c main_v21 (by decide)).trans <| (V4_of m outs c main_v21 (by decide)).trans <| (V3_of m outs c main_v21 (by decide)).trans <| (V2_of m outs c main_v21 (by decide))
  have e21_7 : V15 m outs c main_v21 = V1 m c main_v21 :=
    (V15_of m outs c main_v21 (by decide)).trans <| (V14_of m outs c main_v21 (by decide)).trans e21_5
  have e20_4 : V12 m outs c main_v20 = V1 m c main_v20 :=
    (V12_of m outs c main_v20 (by decide)).trans <| (V11_of m outs c main_v20 (by decide)).trans <| (V10_of m outs c main_v20 (by decide)).trans <| (V9_of m outs c main_v20 (by decide)).trans <| (V8_of m outs c main_v20 (by decide)).trans <| (V7_of m outs c main_v20 (by decide)).trans <| (V6_of m outs c main_v20 (by decide)).trans <| (V5_of m outs c main_v20 (by decide)).trans <| (V4_of m outs c main_v20 (by decide)).trans <| (V3_of m outs c main_v20 (by decide)).trans <| (V2_of m outs c main_v20 (by decide))
  have e20_6 : V14 m outs c main_v20 = V1 m c main_v20 :=
    (V14_of m outs c main_v20 (by decide)).trans <| (V13_of m outs c main_v20 (by decide)).trans e20_4
  have e38_5 : V13 m outs c main_v77_0 = gcn := (V13_of m outs c main_v77_0 (by decide)).trans hg
  have ea7 : V12 m outs c main_arg7 = m ((c : Thread nD τ).loc main_arg7) :=
    (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))
  have ea5 : V14 m outs c main_arg5 = m ((c : Thread nD τ).loc main_arg5) :=
    (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))
  have ea6 : V14 m outs c main_arg6 = m ((c : Thread nD τ).loc main_arg6) :=
    (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))
  have e45_7 : V15 m outs c main_v84_0 = V14 m outs c main_v84_0 := V15_of m outs c main_v84_0 (by decide)

  have hb5 : (fun n : Fin 100000 => V13 m outs c main_v21 (ix2 n (0 : Fin 1))) = P.batch := by
    funext n; rw [e21_5]; exact hbt n
  have hb7 : (fun n : Fin 100000 => V15 m outs c main_v21 (ix2 n (0 : Fin 1))) = P.batch := by
    funext n; rw [e21_7]; exact hbt n

  have hmean : V13 m outs c main_v80
      = fun j : SGC.Idx => (0 + ∑ h : Fin 2, partA P.batch gcn (ix3 h (j 0 : Fin 64) (j 1 : Fin 128))) * P.ci (j 0 : Fin 64) := by
    funext j
    obtain ⟨g, ch, rfl⟩ : ∃ (g : Fin 64) (ch : Fin 128), j = ix2 g ch := ⟨j 0, j 1, eq_ix2 j⟩
    refine (v80_apply m outs c g ch _ _ hp e20_4).trans ?_
    rw [hci g]
  have hmsr : V13 m outs c main_v83 = fun i : S1C.Idx => L.ms (i 1 : Fin 128) := by
    funext i
    obtain ⟨z, ch, rfl⟩ : ∃ (z : Fin 1) (ch : Fin 128), i = ix2 z ch := ⟨i 0, i 1, eq_ix2 i⟩
    obtain rfl : z = 0 := Subsingleton.elim _ _
    exact (v83_apply m outs c ch _ ea7).trans (hms ch)

  have ho : V14 m outs c main_v84_0 = cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)) := by
    rw [f24, hb5, e38_5, hmean, hmsr]
  have hq : V14 m outs c main_v84_1 = partA P.batch (sqA (cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)))) := by
    rw [f25, hb5, e38_5, hmean, hmsr]

  have hscale : V15 m outs c main_v98 = fun j : SGC.Idx =>
      Ideal.rsqrt ((0 + ∑ h : Fin 2, partA P.batch (sqA (cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)))) (ix3 h (j 0 : Fin 64) (j 1 : Fin 128))) * P.ci (j 0 : Fin 64) + P.eps)
        * L.gw (j 1 : Fin 128) := by
    funext j
    obtain ⟨g, ch, rfl⟩ : ∃ (g : Fin 64) (ch : Fin 128), j = ix2 g ch := ⟨j 0, j 1, eq_ix2 j⟩
    refine (v98_apply m outs c g ch _ _ _ hq e20_6 ea5).trans ?_
    rw [hci g, hgw ch, heps]
    rfl
  have hgbr : V15 m outs c main_v93 = fun i : S1C.Idx => L.gb (i 1 : Fin 128) := by
    funext i
    obtain ⟨z, ch, rfl⟩ : ∃ (z : Fin 1) (ch : Fin 128), i = ix2 z ch := ⟨i 0, i 1, eq_ix2 i⟩
    obtain rfl : z = 0 := Subsingleton.elim _ _
    exact (v93_apply m outs c ch _ ea6).trans (hgb ch)
  have hsl : Ideal.ofBits .f32 0x3C23D70A#32 = P.slope := hslope.symm
  rw [f34, hb7, e45_7, ho, hscale, hgbr, hsl]
  rfl

open Cert.Spec in

theorem layer1b (h : OutsOk m outs) (c : Dev nD) (P : Shared) (L : Layer) (gcn : SNC.Idx → EReal)
    (hg : V12 m outs c main_v77_0 = gcn) (hp : V12 m outs c main_v77_1 = partA P.batch gcn)
    (hci : ∀ g : Fin 64, V1 m c main_v20 (ix2 g (0 : Fin 1)) = P.ci g) (hbt : ∀ n : Fin 100000, V1 m c main_v21 (ix2 n (0 : Fin 1)) = P.batch n)
    (hms : ∀ ch : Fin 128, m ((c : Thread nD τ).loc main_arg7) (ix2 (1 : Fin 3) ch) = L.ms ch)
    (hgw : ∀ ch : Fin 128, m ((c : Thread nD τ).loc main_arg5) (ix2 (1 : Fin 3) ch) = L.gw ch)
    (hgb : ∀ ch : Fin 128, m ((c : Thread nD τ).loc main_arg6) (ix2 (1 : Fin 3) ch) = L.gb ch)
    (heps : P.eps = epsW) (hslope : P.slope = slopeW) :
    V16 m outs c main_v99 = normK P L gcn := by
  refine layer1b_core m outs c P L gcn ?_ ?_ ?_ hg hp hci hbt hms hgw hgb heps hslope
  · have e : V14 m outs c main_v84_0 = outs 14 main_v84_0 c := by
      simp only [V14, Function.update_of_ne (StableHlo.devRef_ne_of_ne (by decide) : (Proc.devRef .tc main_v84_0 : DevRef τ sig) ≠ Proc.devRef .tc main_v84_1), Function.update_self]
    exact e.trans ((h.o6a c).trans (final6_4 (VR13 m outs) c))
  · have e : V14 m outs c main_v84_1 = outs 14 main_v84_1 c := by
      simp only [V14, Function.update_self]
    exact e.trans ((h.o6b c).trans (final6_5 (VR13 m outs) c))
  · have e : V16 m outs c main_v99 = outs 16 main_v99 c := by
      simp only [V16, Function.update_self]
    exact e.trans ((h.o7 c).trans (final7_4 (VR15 m outs) c))

end Cert.KernelIdeal.H

end
-- ==== Proof.KI.V10.lean ====
import proofs.«402146_j32049045962863_2_alg».proof.Proof.KI.R10
import proofs.«402146_j32049045962863_2_alg».proof.Proof.Spec
import Idealize.ShloMosaic.Lib.Pipeline.Value
import Idealize.ShloMosaic.Lib.Tactic
import proofs.«402146_j32049045962863_2_alg».proof.Proof.KI.V2

noncomputable section

open scoped BigOperators

namespace Cert.KernelIdeal.H

open Cert.KernelIdeal Cert.KernelIdeal.Gen
open Idealize.ShloMosaic Idealize.ShloMosaic.TcCoe Idealize.SL.Sem Idealize.ShloMosaic.ValueIdx
open Idealize.ShloMosaic.Pipeline (Dat)

section Pieces
variable {F : FTy → Type} [FloatOps F]

end Pieces

section Points
variable {F : FTy → Type} [FloatOps F]
variable (V : (c : Dev nD) → (b : Ref sig .tc) → Buf (Elt F) ((c : Thread nD τ).loc b))

abbrev blk10_0 (c : Dev nD) (t : Fin cfg10.N) : Vec F S2000x128 .f32 := iblk10 V c 0 t
abbrev blk10_1 (c : Dev nD) (t : Fin cfg10.N) : Vec F S2000x1 .i32 := iblk10 V c 1 t
abbrev blk10_2 (c : Dev nD) (t : Fin cfg10.N) : Vec F S64x128 .f32 := iblk10 V c 2 t
abbrev blk10_3 (c : Dev nD) (t : Fin cfg10.N) : Vec F S1x128 .f32 := iblk10 V c 3 t

theorem outs10_fst (c : Dev nD) (t : Fin cfg10.N) :
    (outsAt10 V c t.val t.isLt).1 = k2_pay3 (blk10_1 V c t) (blk10_2 V c t) (blk10_0 V c t) (blk10_3 V c t) := by
  by_cases h0 : t.val % 25 = 0
  · rw [outsAt10_A V c t h0]; dsimp only
    exact piece2_A_4 (F := F) c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (iblk10 V c 0 t) (iblk10 V c 1 t) (iblk10 V c 2 t) (iblk10 V c 3 t)
  · rw [outsAt10_B V c t h0]; dsimp only
    exact piece2_B_4 (F := F) c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (iblk10 V c 0 t) (iblk10 V c 1 t) (iblk10 V c 2 t) (iblk10 V c 3 t)
      (outsAt10 V c (t.val - 1) (Nat.lt_of_le_of_lt (Nat.sub_le _ _) t.isLt)).2

theorem outs10_snd_A (c : Dev nD) (t : Fin cfg10.N) (h0 : t.val % 25 = 0) :
    (outsAt10 V c t.val t.isLt).2 = k2_pay4 (blk10_1 V c t) (blk10_2 V c t) (blk10_0 V c t) (blk10_3 V c t) k2_pay1 := by
  rw [outsAt10_A V c t h0]; dsimp only
  exact piece2_A_5 (F := F) c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (iblk10 V c 0 t) (iblk10 V c 1 t) (iblk10 V c 2 t) (iblk10 V c 3 t)

theorem outs10_snd_B (c : Dev nD) (t : Fin cfg10.N) (h0 : ¬t.val % 25 = 0) :
    (outsAt10 V c t.val t.isLt).2 = k2_pay4 (blk10_1 V c t) (blk10_2 V c t) (blk10_0 V c t) (blk10_3 V c t)
      (outsAt10 V c (t.val - 1) (Nat.lt_of_le_of_lt (Nat.sub_le _ _) t.isLt)).2 := by
  rw [outsAt10_B V c t h0]; dsimp only
  exact piece2_B_5 (F := F) c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (iblk10 V c 0 t) (iblk10 V c 1 t) (iblk10 V c 2 t) (iblk10 V c 3 t)
    (outsAt10 V c (t.val - 1) (Nat.lt_of_le_of_lt (Nat.sub_le _ _) t.isLt)).2

end Points

section Value
variable (V : (c : Dev nD) → (b : Ref sig .tc) → Buf (Elt Ideal) ((c : Thread nD τ).loc b))

abbrev arr10_0 (c : Dev nD) : Vec Ideal S100000x128 .f32 := V c (Pipeline.arrRef spec10 0)
abbrev arr10_1 (c : Dev nD) : Vec Ideal S100000x1 .i32 := V c (Pipeline.arrRef spec10 1)
abbrev arr10_2 (c : Dev nD) : Vec Ideal S64x128 .f32 := V c (Pipeline.arrRef spec10 2)
abbrev arr10_3 (c : Dev nD) : Vec Ideal S1x128 .f32 := V c (Pipeline.arrRef spec10 3)

abbrev batch10 (c : Dev nD) : Fin 100000 → BitVec 32 := fun n => arr10_1 V c (ix2 n (0 : Fin 1))

abbrev cen10 (c : Dev nD) : Cert.Spec.SNC.Idx → EReal :=
  Cert.Spec.cenA (batch10 V c) (arr10_0 V c) (arr10_2 V c) (arr10_3 V c)

theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 3) = t.val / 25 ∧ win10_5.index t (1 : Fin 3) = 0 ∧ win10_5.index t (2 : Fin 3) = 0 :=
  (by decide +kernel : ∀ t : Fin grid10.N, _)

theorem pt_lt10 (t : Fin cfg10.N) : t.val < 50 := lt_of_lt_of_eq t.isLt (show cfg10.N = 50 from N_10)

def row10 (t : Fin cfg10.N) (r : Fin 2000) : Fin 100000 := ⟨t.val * 2000 + r.val, by have := pt_lt10 t; have := r.isLt; omega⟩

theorem blk10_0_apply (c : Dev nD) (t : Fin cfg10.N) (r : Fin 2000) (ch : Fin 128) :
    blk10_0 V c t (ix2 r ch) = arr10_0 V c (ix2 (row10 t r) ch) := by
  obtain ⟨e0, e1, -⟩ := idx_facts10 t
  show V c (Pipeline.arrRef spec10 0) (((cfg10.win 0).blk t).view.emb (ix2 r ch)) = V c (Pipeline.arrRef spec10 0) (ix2 (row10 t r) ch)
  refine congrArg _ (funext fun a => Fin.ext ?_)
  match a with
  | ⟨0, _⟩ => show win10_0.index t (0 : Fin 2) * 2000 + 1 * r.val = t.val * 2000 + r.val; omega
  | ⟨1, _⟩ => show win10_0.index t (1 : Fin 2) * 128 + 1 * ch.val = ch.val; omega

theorem blk10_1_apply (c : Dev nD) (t : Fin cfg10.N) (r : Fin 2000) :
    blk10_1 V c t (ix2 r (0 : Fin 1)) = batch10 V c (row10 t r) := by
  obtain ⟨-, -, e0, e1, -⟩ := idx_facts10 t
  show V c (Pipeline.arrRef spec10 1) (((cfg10.win 1).blk t).view.emb (ix2 r (0 : Fin 1))) = V c (Pipeline.arrRef spec10 1) (ix2 (row10 t r) (0 : Fin 1))
  refine congrArg _ (funext fun a => Fin.ext ?_)
  match a with
  | ⟨0, _⟩ => show win10_1.index t (0 : Fin 2) * 2000 + 1 * r.val = t.val * 2000 + r.val; omega
  | ⟨1, _⟩ => show win10_1.index t (1 : Fin 2) * 1 + 1 * 0 = 0; omega

theorem blk10_2_apply (c : Dev nD) (t : Fin cfg10.N) (g : Fin 64) (ch : Fin 128) :
    blk10_2 V c t (ix2 g ch) = arr10_2 V c (ix2 g ch) := by
  obtain ⟨-, -, -, -, e0, e1, -⟩ := idx_facts10 t
  show V c (Pipeline.arrRef spec10 2) (((cfg10.win 2).blk t).view.emb (ix2 g ch)) = V c (Pipeline.arrRef spec10 2) (ix2 g ch)
  refine congrArg _ (funext fun a => Fin.ext ?_)
  match a with
  | ⟨0, _⟩ => show win10_2.index t (0 : Fin 2) * 64 + 1 * g.val = g.val; omega
  | ⟨1, _⟩ => show win10_2.index t (1 : Fin 2) * 128 + 1 * ch.val = ch.val; omega

theorem blk10_3_apply (c : Dev nD) (t : Fin cfg10.N) (ch : Fin 128) :
    blk10_3 V c t (ix2 (0 : Fin 1) ch) = arr10_3 V c (ix2 (0 : Fin 1) ch) := by
  obtain ⟨-, -, -, -, -, -, e0, e1, -⟩ := idx_facts10 t
  show V c (Pipeline.arrRef spec10 3) (((cfg10.win 3).blk t).view.emb (ix2 (0 : Fin 1) ch)) = V c (Pipeline.arrRef spec10 3) (ix2 (0 : Fin 1) ch)
  refine congrArg _ (funext fun a => Fin.ext ?_)
  match a with
  | ⟨0, _⟩ => show win10_3.index t (0 : Fin 2) * 1 + 1 * 0 = 0; omega
  | ⟨1, _⟩ => show win10_3.index t (1 : Fin 2) * 128 + 1 * ch.val = ch.val; omega

theorem memb_blk10 (c : Dev nD) (t : Fin cfg10.N) (r : Fin 2000) (g : Fin 64) :
    memb2 (blk10_1 V c t) r g = Cert.Spec.oneHot (batch10 V c) (row10 t r) g := by
  unfold memb2 Cert.Spec.oneHot
  rw [blk10_1_apply]

theorem cen_blk10 (c : Dev nD) (t : Fin cfg10.N) (r : Fin 2000) (ch : Fin 128) :
    k2_pay3 (F := Ideal) (blk10_1 V c t) (blk10_2 V c t) (blk10_0 V c t) (blk10_3 V c t) (ix2 r ch) = cen10 V c (ix2 (row10 t r) ch) := by
  rw [pay_cen2_apply, blk10_0_apply, blk10_3_apply]
  show _ = arr10_0 V c (ix2 (row10 t r) ch)
    - (∑ g : Fin 64, Cert.Spec.oneHot (batch10 V c) (row10 t r) g * arr10_2 V c (ix2 g ch)) * arr10_3 V c (ix2 (0 : Fin 1) ch)
  congr 2
  refine Finset.sum_congr rfl fun g _ => ?_
  rw [memb_blk10, blk10_2_apply]

def sqw10 (c : Dev nD) (g : Fin 64) (ch : Fin 128) (ρ : ℕ) : EReal :=
  if h : ρ < 100000 then
    Cert.Spec.oneHot (batch10 V c) ⟨ρ, h⟩ g * Cert.Spec.sqA (cen10 V c) (ix2 (⟨ρ, h⟩ : Fin 100000) ch)
  else 0

theorem blk_sum10 (c : Dev nD) (t : Fin cfg10.N) (g : Fin 64) (ch : Fin 128) :
    ∑ r : Fin 2000, memb2 (blk10_1 V c t) r g
        * (k2_pay3 (F := Ideal) (blk10_1 V c t) (blk10_2 V c t) (blk10_0 V c t) (blk10_3 V c t) (ix2 r ch)
          * k2_pay3 (F := Ideal) (blk10_1 V c t) (blk10_2 V c t) (blk10_0 V c t) (blk10_3 V c t) (ix2 r ch))
      = ∑ q ∈ Finset.range 2000, sqw10 V c g ch (t.val * 2000 + q) := by
  rw [Finset.sum_range]
  refine Finset.sum_congr rfl fun r _ => ?_
  have hr : t.val * 2000 + r.val < 100000 := (row10 t r).isLt
  unfold sqw10
  rw [dif_pos hr, memb_blk10, cen_blk10]
  rfl

theorem acc_inv10 (c : Dev nD) : ∀ (n : ℕ) (hn : n < cfg10.N) (g : Fin 64) (ch : Fin 128),
    (outsAt10 V c n hn).2 (ix3 (0 : Fin 1) g ch)
      = ∑ q ∈ Finset.range ((n % 25 + 1) * 2000), sqw10 V c g ch (n / 25 * 50000 + q)
  | 0, hn, g, ch => by
    rw [show (outsAt10 V c 0 hn).2 = _ from outs10_snd_A V c ⟨0, hn⟩ rfl, pay_acc2_apply, pay_zero2_apply, zero_add, blk_sum10]
    refine Finset.sum_congr rfl fun q _ => congrArg _ ?_
    show 0 * 2000 + q = 0 / 25 * 50000 + q
    omega
  | n + 1, hn, g, ch => by
    have hN : n + 1 < 50 := lt_of_lt_of_eq hn (show cfg10.N = 50 from N_10)
    by_cases h0 : (n + 1) % 25 = 0
    · rw [show (outsAt10 V c (n + 1) hn).2 = _ from outs10_snd_A V c ⟨n + 1, hn⟩ h0, pay_acc2_apply, pay_zero2_apply, zero_add, blk_sum10]
      rw [h0]
      refine Finset.sum_congr rfl fun q _ => congrArg _ ?_
      show (n + 1) * 2000 + q = (n + 1) / 25 * 50000 + q
      omega
    · rw [show (outsAt10 V c (n + 1) hn).2 = _ from outs10_snd_B V c ⟨n + 1, hn⟩ h0, pay_acc2_apply, blk_sum10]
      show (outsAt10 V c n _).2 (ix3 (0 : Fin 1) g ch) + _ = _
      rw [acc_inv10 c n (Nat.lt_of_succ_lt hn) g ch]
      have e1 : ((n + 1) % 25 + 1) * 2000 = (n % 25 + 1) * 2000 + 2000 := by omega
      rw [e1, Finset.sum_range_add]
      refine congrArg₂ (· + ·) (Finset.sum_congr rfl fun q _ => congrArg _ ?_) (Finset.sum_congr rfl fun q _ => congrArg _ ?_)
      · show n / 25 * 50000 + q = (n + 1) / 25 * 50000 + q
        omega
      · show (n + 1) * 2000 + q = (n + 1) / 25 * 50000 + ((n % 25 + 1) * 2000 + q)
        omega

theorem flushed10_4_eq (c : Dev nD) (t : Fin cfg10.N) :
    (dat10 (F := Ideal) V c).flushed 4 t = ((cfg10.win 4).blk t).view.read (Elt Ideal) (cen10 V c) := by
  obtain ⟨-, -, -, -, -, -, -, -, e0, e1, -⟩ := idx_facts10 t
  show (cfg10.win 4).cut (grid10.coords t) ((dat10 (F := Ideal) V c).after 4 t) = _
  rw [after10_4, outs10_fst]
  funext j
  obtain ⟨r, ch, rfl⟩ : ∃ (r : Fin 2000) (ch : Fin 128), j = ix2 r ch :=
    ⟨j 0, j 1, funext fun a => by
      match a with
      | ⟨0, _⟩ => rfl
      | ⟨1, _⟩ => rfl⟩
  show k2_pay3 (F := Ideal) (blk10_1 V c t) (blk10_2 V c t) (blk10_0 V c t) (blk10_3 V c t) (ix2 r ch)
    = cen10 V c (((cfg10.win 4).blk t).view.emb (ix2 r ch))
  rw [cen_blk10]
  refine congrArg _ (funext fun a => Fin.ext ?_)
  match a with
  | ⟨0, _⟩ => show t.val * 2000 + r.val = win10_4.index t (0 : Fin 2) * 2000 + 1 * r.val; omega
  | ⟨1, _⟩ => show ch.val = win10_4.index t (1 : Fin 2) * 128 + 1 * ch.val; omega

theorem read_blk10_5 (c : Dev nD) (t : Fin cfg10.N) (X : Vec Ideal S1x64x128 .f32) (G : Vec Ideal S2x64x128 .f32)
    (hG : ∀ (g : Fin 64) (ch : Fin 128), X (ix3 (0 : Fin 1) g ch) = G (ix3 (⟨t.val / 25, by have := pt_lt10 t; omega⟩ : Fin 2) g ch)) :
    (cfg10.win 5).cut (grid10.coords t) X = ((cfg10.win 5).blk t).view.read (Elt Ideal) G := by
  have hN := pt_lt10 t
  obtain ⟨-, -, -, -, -, -, -, -, -, -, e0, e1, e2⟩ := idx_facts10 t
  funext j
  obtain ⟨g, ch, rfl⟩ : ∃ (g : Fin 64) (ch : Fin 128), j = ix3 (0 : Fin 1) g ch :=
    ⟨j 1, j 2, funext fun a => by
      match a with
      | ⟨0, _⟩ => exact Fin.ext (by have hj : (j 0).val < 1 := (j 0).isLt; show (j 0).val = 0; omega)
      | ⟨1, _⟩ => rfl
      | ⟨2, _⟩ => rfl⟩
  show X (ix3 (0 : Fin 1) g ch) = G (((cfg10.win 5).blk t).view.emb (ix3 (0 : Fin 1) g ch))
  rw [hG]
  refine congrArg G (funext fun a => Fin.ext ?_)
  match a with
  | ⟨0, _⟩ => show t.val / 25 = win10_5.index t (0 : Fin 3) * 1 + 1 * 0; omega
  | ⟨1, _⟩ => show g.val = win10_5.index t (1 : Fin 3) * 64 + 1 * g.val; omega
  | ⟨2, _⟩ => show ch.val = win10_5.index t (2 : Fin 3) * 128 + 1 * ch.val; omega

theorem flushed10_5_eq (c : Dev nD) (t : Fin cfg10.N) (hf : (cfg10.win 5).flush t = true) :
    (dat10 (F := Ideal) V c).flushed 5 t
      = ((cfg10.win 5).blk t).view.read (Elt Ideal) (Cert.Spec.partA (batch10 V c) (Cert.Spec.sqA (cen10 V c))) := by
  have h24 : t.val % 25 = 24 := (flush10_5 t).mp hf
  have hN := pt_lt10 t
  show (cfg10.win 5).cut (grid10.coords t) ((dat10 (F := Ideal) V c).after 5 t) = _
  rw [after10_5]
  refine read_blk10_5 c t _ _ fun g ch => ?_
  rw [acc_inv10 V c t.val t.isLt g ch, h24, show (24 + 1) * 2000 = 50000 from rfl, Finset.sum_range]
  show _ = ∑ q : Fin 50000, Cert.Spec.oneHot (batch10 V c) (Cert.Spec.rowOf (⟨t.val / 25, by omega⟩ : Fin 2) q) g
      * Cert.Spec.sqA (cen10 V c) (ix2 (Cert.Spec.rowOf (⟨t.val / 25, by omega⟩ : Fin 2) q) ch)
  refine Finset.sum_congr rfl fun q _ => ?_
  unfold sqw10
  rw [dif_pos (by have := q.isLt; omega)]
  rfl

theorem mem_blk10_4 (t : Fin cfg10.N) (i : S100000x128.Idx) :
    i ∈ ((cfg10.win 4).blk t).view.set ↔ ∀ a : Fin 2, win10_4.index t a * S2000x128.size a ≤ (i a).val ∧ (i a).val < win10_4.index t a * S2000x128.size a + S2000x128.size a := by
  show i ∈ ((View.whole (Pipeline.arrRef spec10 4)).slice (win10_4.rect t)).set ↔ _
  rw [View.set_slice_whole, Rect.mem_set_unit]
  exact Iff.rfl

theorem mem_blk10_5 (t : Fin cfg10.N) (i : S2x64x128.Idx) :
    i ∈ ((cfg10.win 5).blk t).view.set ↔ ∀ a : Fin 3, win10_5.index t a * S1x64x128.size a ≤ (i a).val ∧ (i a).val < win10_5.index t a * S1x64x128.size a + S1x64x128.size a := by
  show i ∈ ((View.whole (Pipeline.arrRef spec10 5)).slice (win10_5.rect t)).set ↔ _
  rw [View.set_slice_whole, Rect.mem_set_unit]
  exact Iff.rfl

theorem final10_4 (c : Dev nD) : (dat10 (F := Ideal) V c).arrAt 4 cfg10.N
    = Cert.Spec.cenA (fun n => V c (Pipeline.arrRef spec10 1) (ix2 n (0 : Fin 1))) (V c (Pipeline.arrRef spec10 0))
        (V c (Pipeline.arrRef spec10 2)) (V c (Pipeline.arrRef spec10 3)) :=
  (dat10 (F := Ideal) V c).arrAt_eq_of_cover 4 (cen10 V c) (fun t _ => flushed10_4_eq V c t) fun i => by
    have hi0 : (i 0).val < 100000 := (i 0).isLt
    have hi1 : (i 1).val < 128 := (i 1).isLt
    refine ⟨⟨(i 0).val / 2000, by rw [show cfg10.N = 50 from N_10]; omega⟩, flush10_4 _, ?_⟩
    obtain ⟨-, -, -, -, -, -, -, -, e0, e1, -⟩ := idx_facts10 ⟨(i 0).val / 2000, by rw [show cfg10.N = 50 from N_10]; omega⟩
    rw [mem_blk10_4]
    intro a
    match a with
    | ⟨0, _⟩ =>
      show win10_4.index _ (0 : Fin 2) * 2000 ≤ (i 0).val ∧ (i 0).val < win10_4.index _ (0 : Fin 2) * 2000 + 2000
      rw [e0]; dsimp only; omega
    | ⟨1, _⟩ =>
      show win10_4.index _ (1 : Fin 2) * 128 ≤ (i 1).val ∧ (i 1).val < win10_4.index _ (1 : Fin 2) * 128 + 128
      rw [e1]; omega

theorem final10_5 (c : Dev nD) : (dat10 (F := Ideal) V c).arrAt 5 cfg10.N
    = Cert.Spec.partA (fun n => V c (Pipeline.arrRef spec10 1) (ix2 n (0 : Fin 1)))
        (Cert.Spec.sqA (Cert.Spec.cenA (fun n => V c (Pipeline.arrRef spec10 1) (ix2 n (0 : Fin 1))) (V c (Pipeline.arrRef spec10 0))
          (V c (Pipeline.arrRef spec10 2)) (V c (Pipeline.arrRef spec10 3)))) :=
  (dat10 (F := Ideal) V c).arrAt_eq_of_cover 5 (Cert.Spec.partA (batch10 V c) (Cert.Spec.sqA (cen10 V c)))
    (fun t hf => flushed10_5_eq V c t hf) fun i => by
    have hi0 : (i 0).val < 2 := (i 0).isLt
    have hi1 : (i 1).val < 64 := (i 1).isLt
    have hi2 : (i 2).val < 128 := (i 2).isLt
    refine ⟨⟨(i 0).val * 25 + 24, by rw [show cfg10.N = 50 from N_10]; omega⟩, (flush10_5 _).mpr (by dsimp only; omega), ?_⟩
    obtain ⟨-, -, -, -, -, -, -, -, -, -, e0, e1, e2⟩ := idx_facts10 ⟨(i 0).val * 25 + 24, by rw [show cfg10.N = 50 from N_10]; omega⟩
    rw [mem_blk10_5]
    intro a
    match a with
    | ⟨0, _⟩ =>
      show win10_5.index _ (0 : Fin 3) * 1 ≤ (i 0).val ∧ (i 0).val < win10_5.index _ (0 : Fin 3) * 1 + 1
      rw [e0]; dsimp only; omega
    | ⟨1, _⟩ =>
      show win10_5.index _ (1 : Fin 3) * 64 ≤ (i 1).val ∧ (i 1).val < win10_5.index _ (1 : Fin 3) * 64 + 64
      rw [e1]; omega
    | ⟨2, _⟩ =>
      show win10_5.index _ (2 : Fin 3) * 128 ≤ (i 2).val ∧ (i 2).val < win10_5.index _ (2 : Fin 3) * 128 + 128
      rw [e2]; omega
end Value

end Cert.KernelIdeal.H
end
-- ==== Proof.KI.V11.lean ====
import proofs.«402146_j32049045962863_2_alg».proof.Proof.KI.R11
import proofs.«402146_j32049045962863_2_alg».proof.Proof.Spec
import Idealize.ShloMosaic.Lib.Pipeline.Value
import Idealize.ShloMosaic.Lib.ValueIdx
import Idealize.ShloMosaic.PureOps.Ideal.Laws
import Idealize.ShloMosaic.Lib.KernelVsHost
import proofs.«402146_j32049045962863_2_alg».proof.Proof.KI.V3

noncomputable section

namespace Cert.KernelIdeal.H

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

theorem emb11_0 (t : Fin cfg11.N) (j : S5000x128.Idx) :
    ((cfg11.win 0).blk t).view.emb j = ((cfg11.win 4).blk t).view.emb j := by
  obtain ⟨a00, a01, a10, a11, a20, a21, a30, a31, a40, a41⟩ := idx_facts11 t
  refine funext fun a => Fin.ext ?_
  match a with
  | ⟨0, _⟩ => show win11_0.index t (0 : Fin 2) * 5000 + 1 * (j 0).val = win11_4.index t (0 : Fin 2) * 5000 + 1 * (j 0).val; omega
  | ⟨1, _⟩ => show win11_0.index t (1 : Fin 2) * 128 + 1 * (j 1).val = win11_4.index t (1 : Fin 2) * 128 + 1 * (j 1).val; omega

theorem emb11_1 (t : Fin cfg11.N) (j : S5000x128.Idx) :
    ((cfg11.win 1).blk t).view.emb (ix2 (j 0 : Fin 5000) (0 : Fin 1))
      = ix2 ((((cfg11.win 4).blk t).view.emb j) 0 : Fin 100000) (0 : Fin 1) := by
  obtain ⟨a00, a01, a10, a11, a20, a21, a30, a31, a40, a41⟩ := idx_facts11 t
  refine funext fun a => Fin.ext ?_
  match a with
  | ⟨0, _⟩ => show win11_1.index t (0 : Fin 2) * 5000 + 1 * (j 0).val = win11_4.index t (0 : Fin 2) * 5000 + 1 * (j 0).val; omega
  | ⟨1, _⟩ => show win11_1.index t (1 : Fin 2) * 1 + 1 * 0 = 0; omega

theorem emb11_2 (t : Fin cfg11.N) (k : S64x128.Idx) : ((cfg11.win 2).blk t).view.emb k = k := by
  obtain ⟨a00, a01, a10, a11, a20, a21, a30, a31, a40, a41⟩ := idx_facts11 t
  refine funext fun a => Fin.ext ?_
  match a with
  | ⟨0, _⟩ => show win11_2.index t (0 : Fin 2) * 64 + 1 * (k 0).val = (k 0).val; omega
  | ⟨1, _⟩ => show win11_2.index t (1 : Fin 2) * 128 + 1 * (k 1).val = (k 1).val; omega

theorem emb11_3 (t : Fin cfg11.N) (k : S1x128.Idx) : ((cfg11.win 3).blk t).view.emb k = k := by
  obtain ⟨a00, a01, a10, a11, a20, a21, a30, a31, a40, a41⟩ := idx_facts11 t
  refine funext fun a => Fin.ext ?_
  match a with
  | ⟨0, _⟩ => show win11_3.index t (0 : Fin 2) * 1 + 1 * (k 0).val = (k 0).val; omega
  | ⟨1, _⟩ => show win11_3.index t (1 : Fin 2) * 128 + 1 * (k 1).val = (k 1).val; omega

theorem emb11_4_chan (t : Fin cfg11.N) (j : S5000x128.Idx) :
    ((((cfg11.win 4).blk t).view.emb j) 1 : Fin 128) = (j 1 : Fin 128) := by
  obtain ⟨a00, a01, a10, a11, a20, a21, a30, a31, a40, a41⟩ := idx_facts11 t
  refine Fin.ext ?_
  show win11_4.index t (1 : Fin 2) * 128 + 1 * (j 1).val = (j 1).val; omega

theorem iblk11_0_apply (c : Dev nD) (t : Fin cfg11.N) (k : S5000x128.Idx) :
    iblk11 V c 0 t k = V c (Pipeline.arrRef spec11 0) (((cfg11.win 0).blk t).view.emb k) := rfl
theorem iblk11_1_apply (c : Dev nD) (t : Fin cfg11.N) (k : S5000x1.Idx) :
    iblk11 V c 1 t k = V c (Pipeline.arrRef spec11 1) (((cfg11.win 1).blk t).view.emb k) := rfl
theorem iblk11_2_apply (c : Dev nD) (t : Fin cfg11.N) (k : S64x128.Idx) :
    iblk11 V c 2 t k = V c (Pipeline.arrRef spec11 2) (((cfg11.win 2).blk t).view.emb k) := rfl
theorem iblk11_3_apply (c : Dev nD) (t : Fin cfg11.N) (k : S1x128.Idx) :
    iblk11 V c 3 t k = V c (Pipeline.arrRef spec11 3) (((cfg11.win 3).blk t).view.emb k) := rfl

theorem blkval11_0 (c : Dev nD) (t : Fin cfg11.N) (j : S5000x128.Idx) :
    iblk11 V c 0 t j = V c (Pipeline.arrRef spec11 0) (((cfg11.win 4).blk t).view.emb j) := by
  rw [iblk11_0_apply, emb11_0]
theorem blkval11_1 (c : Dev nD) (t : Fin cfg11.N) (j : S5000x128.Idx) :
    iblk11 V c 1 t (ix2 (j 0 : Fin 5000) (0 : Fin 1))
      = V c (Pipeline.arrRef spec11 1) (ix2 ((((cfg11.win 4).blk t).view.emb j) 0 : Fin 100000) (0 : Fin 1)) := by
  rw [iblk11_1_apply, emb11_1]
  rfl
theorem blkval11_2 (c : Dev nD) (t : Fin cfg11.N) (k : S64x128.Idx) :
    iblk11 V c 2 t k = V c (Pipeline.arrRef spec11 2) k := by
  rw [iblk11_2_apply, emb11_2]
theorem blkval11_3 (c : Dev nD) (t : Fin cfg11.N) (k : S1x128.Idx) :
    iblk11 V c 3 t k = V c (Pipeline.arrRef spec11 3) k := by
  rw [iblk11_3_apply, emb11_3]

set_option maxHeartbeats 1000000 in

theorem flushed11_4_eq (c : Dev nD) (t : Fin cfg11.N) :
    (dat11 (F := Ideal) V c).flushed 4 t = ((cfg11.win 4).blk t).view.read (Elt Ideal)
      (Cert.Spec.finA (fun n => V c (Pipeline.arrRef spec11 1) (ix2 n (0 : Fin 1))) (V c (Pipeline.arrRef spec11 0)) (V c (Pipeline.arrRef spec11 2)) (V c (Pipeline.arrRef spec11 3)) (Ideal.ofBits .f32 0x3C23D70A#32)) := by
  show (cfg11.win 4).cut (grid11.coords t) ((dat11 V c).after 4 t) = _
  rw [after11_4]
  unfold out3_4
  rw [View.canon_unit_zero hz3]
  simp only [View.ld_unit_zero (S := S5000x128) hz3, View.ld_unit_zero (S := S5000x1) hz3, View.ld_unit_zero (S := S64x128) hz3, View.ld_unit_zero (S := S1x128) hz3]
  refine funext fun (j : S5000x128.Idx) => ?_
  show k3_pay1 (iblk11 V c 1 t) (iblk11 V c 2 t) (iblk11 V c 0 t) (iblk11 V c 3 t) j
    = Cert.Spec.finA _ _ _ _ _ (((cfg11.win 4).blk t).view.emb j)
  rw [pay3_apply]
  unfold Cert.Spec.finA Cert.Spec.selA Cert.Spec.oneHot
  rw [blkval11_0, blkval11_1, blkval11_3, emb11_4_chan]
  simp only [blkval11_2]

theorem mem_blk11_4 (t : Fin cfg11.N) (i : S100000x128.Idx) :
    i ∈ ((cfg11.win 4).blk t).view.set ↔ ∀ a : Fin 2, win11_4.index t a * S5000x128.size a ≤ (i a).val ∧ (i a).val < win11_4.index t a * S5000x128.size a + S5000x128.size a := by
  show i ∈ ((View.whole (Pipeline.arrRef spec11 4)).slice (win11_4.rect t)).set ↔ _
  rw [View.set_slice_whole, Rect.mem_set_unit]
  exact Iff.rfl

theorem cover11_4_arr (i : S100000x128.Idx) :
    ∃ t : Fin cfg11.N, (cfg11.win 4).flush t = true ∧ i ∈ ((cfg11.win 4).blk t).view.set := by
  have hi0 : (i 0).val < 100000 := (i 0).isLt
  have hi1 : (i 1).val < 128 := (i 1).isLt
  have hN : cfg11.N = 20 := N_11
  let t : Fin cfg11.N := ⟨(i 0).val / 5000, by rw [hN]; omega⟩
  have ht : t.val = (i 0).val / 5000 := rfl
  obtain ⟨a00, a01, a10, a11, a20, a21, a30, a31, a40, a41⟩ := idx_facts11 t
  refine ⟨t, flush11_4 t, ?_⟩
  rw [mem_blk11_4]
  intro a
  match a with
  | ⟨0, _⟩ => show win11_4.index t (0 : Fin 2) * 5000 ≤ (i 0).val ∧ (i 0).val < win11_4.index t (0 : Fin 2) * 5000 + 5000; omega
  | ⟨1, _⟩ => show win11_4.index t (1 : Fin 2) * 128 ≤ (i 1).val ∧ (i 1).val < win11_4.index t (1 : Fin 2) * 128 + 128; omega

theorem final11_4 (c : Dev nD) : (dat11 (F := Ideal) V c).arrAt 4 cfg11.N = Cert.Spec.finA (fun n => V c (Pipeline.arrRef spec11 1) (ix2 n (0 : Fin 1))) (V c (Pipeline.arrRef spec11 0)) (V c (Pipeline.arrRef spec11 2)) (V c (Pipeline.arrRef spec11 3)) (Ideal.ofBits .f32 0x3C23D70A#32) :=
  (dat11 (F := Ideal) V c).arrAt_eq_of_cover 4 _ (fun t _ => flushed11_4_eq V c t) cover11_4_arr

end Cert.KernelIdeal.H

end
-- ==== Proof.KI.Layer2b.lean ====
import proofs.«402146_j32049045962863_2_alg».proof.Proof.Gen.KernelIdeal.Regions
import proofs.«402146_j32049045962863_2_alg».proof.Proof.KI.Pdats
import proofs.«402146_j32049045962863_2_alg».proof.Proof.KI.V10
import proofs.«402146_j32049045962863_2_alg».proof.Proof.KI.V11
import proofs.«402146_j32049045962863_2_alg».proof.Proof.Spec
import proofs.«402146_j32049045962863_2_alg».proof.Proof.Algebra
import proofs.«402146_j32049045962863_2_alg».proof.Proof.LibIdx
import proofs.«402146_j32049045962863_2_alg».proof.Proof.KI.Layer0b
import Idealize.ShloMosaic.Lib.Pipeline.Value
import Idealize.ShloMosaic.Lib.ValueIdx
import Idealize.ShloMosaic.Lib.IdealHost
import Idealize.ShloMosaic.Lib.StableHlo.Run
import Idealize.ShloMosaic.PureOps.Ideal.Laws

noncomputable section

namespace Cert.KernelIdeal.H

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (outs : Outs (F := Ideal))

theorem v119_apply (c : Dev nD) (g : Fin 64) (ch : Fin 128) (X : S2x64x128.Idx → EReal) (Y : S64x1.Idx → EReal)
    (hX : V20 m outs c main_v116_1 = X) (hY : V20 m outs c main_v20 = Y) :
    V21 m outs c main_v119 (ix2 g ch) = (0 + ∑ h : Fin 2, X (ix3 h g ch)) * Y (ix2 g (0 : Fin 1)) := by
  subst hX hY
  show StableHlo.after hostOps10 (V20 m outs c) (Proc.devRef .tc main_v119) (ix2 g ch) = _
  after_results
  rw [mulf_apply, reduce_halves, bcast_col_apply]

theorem v122_apply (c : Dev nD) (ch : Fin 128) (X : S3x128.Idx → EReal) (hX : V20 m outs c main_arg7 = X) :
    V21 m outs c main_v122 (ix2 (0 : Fin 1) ch) = X (ix2 (2 : Fin 3) ch) := by
  subst hX
  show StableHlo.after hostOps10 (V20 m outs c) (Proc.devRef .tc main_v122) (ix2 (0 : Fin 1) ch) = _
  after_results
  exact row2_apply _ ch

theorem v137_apply (c : Dev nD) (g : Fin 64) (ch : Fin 128) (X : S2x64x128.Idx → EReal) (Y : S64x1.Idx → EReal) (Z : S3x128.Idx → EReal)
    (hX : V22 m outs c main_v123_1 = X) (hY : V22 m outs c main_v20 = Y) (hZ : V22 m outs c main_arg5 = Z) :
    V23 m outs c main_v137 (ix2 g ch)
      = Ideal.rsqrt ((0 + ∑ h : Fin 2, X (ix3 h g ch)) * Y (ix2 g (0 : Fin 1)) + Ideal.ofBits .f32 0x3727C5AC#32)
        * Z (ix2 (2 : Fin 3) ch) := by
  subst hX hY hZ
  show StableHlo.after hostOps11 (V22 m outs c) (Proc.devRef .tc main_v137) (ix2 g ch) = _
  after_results_simp
  rw [mulf_apply]
  refine congr (congrArg HMul.hMul ?_) ?_
  · rw [hostRsqrt_apply, addf_apply, mulf_apply, reduce_halves, bcast_col_apply, broadcastInDim_scalar_apply]
    rfl
  · rw [bcast_row_apply]
    exact row2_apply _ ch

theorem v132_apply (c : Dev nD) (ch : Fin 128) (X : S3x128.Idx → EReal) (hX : V22 m outs c main_arg6 = X) :
    V23 m outs c main_v132 (ix2 (0 : Fin 1) ch) = X (ix2 (2 : Fin 3) ch) := by
  subst hX
  show StableHlo.after hostOps11 (V22 m outs c) (Proc.devRef .tc main_v132) (ix2 (0 : Fin 1) ch) = _
  after_results
  exact row2_apply _ ch

open Cert.Spec in

theorem layer2b_core (c : Dev nD) (P : Shared) (L : Layer) (gcn : SNC.Idx → EReal)
    (f24 : V22 m outs c main_v123_0 = cenA (fun n => V21 m outs c main_v21 (ix2 n (0 : Fin 1))) (V21 m outs c main_v116_0) (V21 m outs c main_v119) (V21 m outs c main_v122))
    (f25 : V22 m outs c main_v123_1 = partA (fun n => V21 m outs c main_v21 (ix2 n (0 : Fin 1)))
      (sqA (cenA (fun n => V21 m outs c main_v21 (ix2 n (0 : Fin 1))) (V21 m outs c main_v116_0) (V21 m outs c main_v119) (V21 m outs c main_v122))))
    (f34 : V24 m outs c main_v138 = finA (fun n => V23 m outs c main_v21 (ix2 n (0 : Fin 1))) (V23 m outs c main_v123_0) (V23 m outs c main_v137) (V23 m outs c main_v132)
      (Ideal.ofBits .f32 0x3C23D70A#32))
    (hg : V20 m outs c main_v116_0 = gcn) (hp : V20 m outs c main_v116_1 = partA P.batch gcn)
    (hci : ∀ g : Fin 64, V1 m c main_v20 (ix2 g (0 : Fin 1)) = P.ci g) (hbt : ∀ n : Fin 100000, V1 m c main_v21 (ix2 n (0 : Fin 1)) = P.batch n)
    (hms : ∀ ch : Fin 128, m ((c : Thread nD τ).loc main_arg7) (ix2 (2 : Fin 3) ch) = L.ms ch)
    (hgw : ∀ ch : Fin 128, m ((c : Thread nD τ).loc main_arg5) (ix2 (2 : Fin 3) ch) = L.gw ch)
    (hgb : ∀ ch : Fin 128, m ((c : Thread nD τ).loc main_arg6) (ix2 (2 : Fin 3) ch) = L.gb ch)
    (heps : P.eps = epsW) (hslope : P.slope = slopeW) :
    V24 m outs c main_v138 = normK P L gcn := by

  have e21_5 : V21 m outs c main_v21 = V1 m c main_v21 :=
    (V21_of m outs c main_v21 (by decide)).trans <| (V20_of m outs c main_v21 (by decide)).trans <| (V19_of m outs c main_v21 (by decide)).trans <| (V18_of m outs c main_v21 (by decide)).trans <| (V17_of m outs c main_v21 (by decide)).trans <| (V16_of m outs c main_v21 (by decide)).trans <| (V15_of m outs c main_v21 (by decide)).trans <| (V14_of m outs c main_v21 (by decide)).trans <| (V13_of m outs c main_v21 (by decide)).trans <| (V12_of m outs c main_v21 (by decide)).trans <| (V11_of m outs c main_v21 (by decide)).trans <| (V10_of m outs c main_v21 (by decide)).trans <| (V9_of m outs c main_v21 (by decide)).trans <| (V8_of m outs c main_v21 (by decide)).trans <| (V7_of m outs c main_v21 (by decide)).trans <| (V6_of m outs c main_v21 (by decide)).trans <| (V5_of m outs c main_v21 (by decide)).trans <| (V4_of m outs c main_v21 (by decide)).trans <| (V3_of m outs c main_v21 (by decide)).trans <| (V2_of m outs c main_v21 (by decide))
  have e21_7 : V23 m outs c main_v21 = V1 m c main_v21 :=
    (V23_of m outs c main_v21 (by decide)).trans <| (V22_of m outs c main_v21 (by decide)).trans e21_5
  have e20_4 : V20 m outs c main_v20 = V1 m c main_v20 :=
    (V20_of m outs c main_v20 (by decide)).trans <| (V19_of m outs c main_v20 (by decide)).trans <| (V18_of m outs c main_v20 (by decide)).trans <| (V17_of m outs c main_v20 (by decide)).trans <| (V16_of m outs c main_v20 (by decide)).trans <| (V15_of m outs c main_v20 (by decide)).trans <| (V14_of m outs c main_v20 (by decide)).trans <| (V13_of m outs c main_v20 (by decide)).trans <| (V12_of m outs c main_v20 (by decide)).trans <| (V11_of m outs c main_v20 (by decide)).trans <| (V10_of m outs c main_v20 (by decide)).trans <| (V9_of m outs c main_v20 (by decide)).trans <| (V8_of m outs c main_v20 (by decide)).trans <| (V7_of m outs c main_v20 (by decide)).trans <| (V6_of m outs c main_v20 (by decide)).trans <| (V5_of m outs c main_v20 (by decide)).trans <| (V4_of m outs c main_v20 (by decide)).trans <| (V3_of m outs c main_v20 (by decide)).trans <| (V2_of m outs c main_v20 (by decide))
  have e20_6 : V22 m outs c main_v20 = V1 m c main_v20 :=
    (V22_of m outs c main_v20 (by decide)).trans <| (V21_of m outs c main_v20 (by decide)).trans e20_4
  have e38_5 : V21 m outs c main_v116_0 = gcn := (V21_of m outs c main_v116_0 (by decide)).trans hg
  have ea7 : V20 m outs c main_arg7 = m ((c : Thread nD τ).loc main_arg7) :=
    (V20_of m outs c main_arg7 (by decide)).trans <| (V19_of m outs c main_arg7 (by decide)).trans <| (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))
  have ea5 : V22 m outs c main_arg5 = m ((c : Thread nD τ).loc main_arg5) :=
    (V22_of m outs c main_arg5 (by decide)).trans <| (V21_of m outs c main_arg5 (by decide)).trans <| (V20_of m outs c main_arg5 (by decide)).trans <| (V19_of m outs c main_arg5 (by decide)).trans <| (V18_of m outs c main_arg5 (by decide)).trans <| (V17_of m outs c main_arg5 (by decide)).trans <| (V16_of m outs c main_arg5 (by decide)).trans <| (V15_of m outs c main_arg5 (by decide)).trans <| (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))
  have ea6 : V22 m outs c main_arg6 = m ((c : Thread nD τ).loc main_arg6) :=
    (V22_of m outs c main_arg6 (by decide)).trans <| (V21_of m outs c main_arg6 (by decide)).trans <| (V20_of m outs c main_arg6 (by decide)).trans <| (V19_of m outs c main_arg6 (by decide)).trans <| (V18_of m outs c main_arg6 (by decide)).trans <| (V17_of m outs c main_arg6 (by decide)).trans <| (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))
  have e45_7 : V23 m outs c main_v123_0 = V22 m outs c main_v123_0 := V23_of m outs c main_v123_0 (by decide)

  have hb5 : (fun n : Fin 100000 => V21 m outs c main_v21 (ix2 n (0 : Fin 1))) = P.batch := by
    funext n; rw [e21_5]; exact hbt n
  have hb7 : (fun n : Fin 100000 => V23 m outs c main_v21 (ix2 n (0 : Fin 1))) = P.batch := by
    funext n; rw [e21_7]; exact hbt n

  have hmean : V21 m outs c main_v119
      = fun j : SGC.Idx => (0 + ∑ h : Fin 2, partA P.batch gcn (ix3 h (j 0 : Fin 64) (j 1 : Fin 128))) * P.ci (j 0 : Fin 64) := by
    funext j
    obtain ⟨g, ch, rfl⟩ : ∃ (g : Fin 64) (ch : Fin 128), j = ix2 g ch := ⟨j 0, j 1, eq_ix2 j⟩
    refine (v119_apply m outs c g ch _ _ hp e20_4).trans ?_
    rw [hci g]
  have hmsr : V21 m outs c main_v122 = fun i : S1C.Idx => L.ms (i 1 : Fin 128) := by
    funext i
    obtain ⟨z, ch, rfl⟩ : ∃ (z : Fin 1) (ch : Fin 128), i = ix2 z ch := ⟨i 0, i 1, eq_ix2 i⟩
    obtain rfl : z = 0 := Subsingleton.elim _ _
    exact (v122_apply m outs c ch _ ea7).trans (hms ch)

  have ho : V22 m outs c main_v123_0 = cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)) := by
    rw [f24, hb5, e38_5, hmean, hmsr]
  have hq : V22 m outs c main_v123_1 = partA P.batch (sqA (cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)))) := by
    rw [f25, hb5, e38_5, hmean, hmsr]

  have hscale : V23 m outs c main_v137 = fun j : SGC.Idx =>
      Ideal.rsqrt ((0 + ∑ h : Fin 2, partA P.batch (sqA (cenA P.batch gcn
      (fun j : SGC.Idx => (0 + ∑ h : Fin 2, partA P.batch gcn (ix3 h (j 0 : Fin 64) (j 1 : Fin 128))) * P.ci (j 0 : Fin 64))
      (fun i : S1C.Idx => L.ms (i 1 : Fin 128)))) (ix3 h (j 0 : Fin 64) (j 1 : Fin 128))) * P.ci (j 0 : Fin 64) + P.eps)
        * L.gw (j 1 : Fin 128) := by
    funext j
    obtain ⟨g, ch, rfl⟩ : ∃ (g : Fin 64) (ch : Fin 128), j = ix2 g ch := ⟨j 0, j 1, eq_ix2 j⟩
    refine (v137_apply m outs c g ch _ _ _ hq e20_6 ea5).trans ?_
    rw [hci g, hgw ch, heps]
    rfl
  have hgbr : V23 m outs c main_v132 = fun i : S1C.Idx => L.gb (i 1 : Fin 128) := by
    funext i
    obtain ⟨z, ch, rfl⟩ : ∃ (z : Fin 1) (ch : Fin 128), i = ix2 z ch := ⟨i 0, i 1, eq_ix2 i⟩
    obtain rfl : z = 0 := Subsingleton.elim _ _
    exact (v132_apply m outs c ch _ ea6).trans (hgb ch)
  have hsl : Ideal.ofBits .f32 0x3C23D70A#32 = P.slope := hslope.symm
  rw [f34, hb7, e45_7, ho, hscale, hgbr, hsl]
  rfl

open Cert.Spec in

theorem layer2b (h : OutsOk m outs) (c : Dev nD) (P : Shared) (L : Layer) (gcn : SNC.Idx → EReal)
    (hg : V20 m outs c main_v116_0 = gcn) (hp : V20 m outs c main_v116_1 = partA P.batch gcn)
    (hci : ∀ g : Fin 64, V1 m c main_v20 (ix2 g (0 : Fin 1)) = P.ci g) (hbt : ∀ n : Fin 100000, V1 m c main_v21 (ix2 n (0 : Fin 1)) = P.batch n)
    (hms : ∀ ch : Fin 128, m ((c : Thread nD τ).loc main_arg7) (ix2 (2 : Fin 3) ch) = L.ms ch)
    (hgw : ∀ ch : Fin 128, m ((c : Thread nD τ).loc main_arg5) (ix2 (2 : Fin 3) ch) = L.gw ch)
    (hgb : ∀ ch : Fin 128, m ((c : Thread nD τ).loc main_arg6) (ix2 (2 : Fin 3) ch) = L.gb ch)
    (heps : P.eps = epsW) (hslope : P.slope = slopeW) :
    V24 m outs c main_v138 = normK P L gcn := by
  refine layer2b_core m outs c P L gcn ?_ ?_ ?_ hg hp hci hbt hms hgw hgb heps hslope
  · have e : V22 m outs c main_v123_0 = outs 22 main_v123_0 c := by
      simp only [V22, Function.update_of_ne (StableHlo.devRef_ne_of_ne (by decide) : (Proc.devRef .tc main_v123_0 : DevRef τ sig) ≠ Proc.devRef .tc main_v123_1), Function.update_self]
    exact e.trans ((h.o10a c).trans (final10_4 (VR21 m outs) c))
  · have e : V22 m outs c main_v123_1 = outs 22 main_v123_1 c := by
      simp only [V22, Function.update_self]
    exact e.trans ((h.o10b c).trans (final10_5 (VR21 m outs) c))
  · have e : V24 m outs c main_v138 = outs 24 main_v138 c := by
      simp only [V24, Function.update_self]
    exact e.trans ((h.o11 c).trans (final11_4 (VR23 m outs) c))

end Cert.KernelIdeal.H

end
-- ==== Proof.KI.Result.lean ====
import proofs.«402146_j32049045962863_2_alg».proof.Proof.KI.Glue
import proofs.«402146_j32049045962863_2_alg».proof.Proof.KI.Pdats
import proofs.«402146_j32049045962863_2_alg».proof.Proof.Algebra
import proofs.«402146_j32049045962863_2_alg».proof.Proof.KI.V0
import proofs.«402146_j32049045962863_2_alg».proof.Proof.KI.V1
import proofs.«402146_j32049045962863_2_alg».proof.Proof.KI.V4
import proofs.«402146_j32049045962863_2_alg».proof.Proof.KI.V5
import proofs.«402146_j32049045962863_2_alg».proof.Proof.KI.V8
import proofs.«402146_j32049045962863_2_alg».proof.Proof.KI.V9
import proofs.«402146_j32049045962863_2_alg».proof.Proof.KI.Layer0a
import proofs.«402146_j32049045962863_2_alg».proof.Proof.KI.Layer1a
import proofs.«402146_j32049045962863_2_alg».proof.Proof.KI.Layer2a
import proofs.«402146_j32049045962863_2_alg».proof.Proof.KI.Layer0b
import proofs.«402146_j32049045962863_2_alg».proof.Proof.KI.Layer1b
import proofs.«402146_j32049045962863_2_alg».proof.Proof.KI.Layer2b

noncomputable section

namespace Cert.KernelIdeal.H

open Cert.KernelIdeal Cert.KernelIdeal.Gen
open Idealize.ShloMosaic Idealize.ShloMosaic.TcCoe Idealize.ShloMosaic.ValueIdx
open Cert.Spec

variable (m : (ℓ : Loc nD τ sig) → Buf (Elt Ideal) ℓ) (outs : Outs (F := Ideal))

abbrev x0A (c : Dev nD) : SNC.Idx → EReal := m ((c : Thread nD τ).loc main_arg0)

abbrev y0A (c : Dev nD) : SNC.Idx → EReal := layerK (PA m c) (LA m 0 c) (x0A m c)
abbrev y1A (c : Dev nD) : SNC.Idx → EReal := layerK (PA m c) (LA m 1 c) (y0A m c)
abbrev y2A (c : Dev nD) : SNC.Idx → EReal := layerK (PA m c) (LA m 2 c) (y1A m c)

theorem layer0 (h : OutsOk m outs) (c : Dev nD) : V8 m outs c main_v60 = y0A m c := by
  obtain ⟨ha, hp⟩ := layer0a m outs c (PA m c) (LA m 0 c) (x0A m c)
    ((h.o0 c).trans (final0_3 (VR1 m) c)) ((h.o1a c).trans (final1_5 (VR3 m outs) c)) ((h.o1b c).trans (final1_6 (VR3 m outs) c))
    (V1_arg0 m c) (V1_v26 m c) (V1_v24 m c) (V1_d m c) (V1_bt m c) (V1_src m c) (V1_dst m c)
  exact (layer0b m outs h c (PA m c) (LA m 0 c) _ ha hp (V1_ci m c) (V1_bt m c) (fun _ => rfl) (fun _ => rfl) (fun _ => rfl) rfl rfl).trans
    (layerK_split (PA m c) (LA m 0 c) (x0A m c)).symm

theorem layer1 (h : OutsOk m outs) (c : Dev nD) : V16 m outs c main_v99 = y1A m c := by
  have hx : V9 m outs c main_v60 = y0A m c := (V9_v60 m outs c).trans (layer0 m outs h c)
  obtain ⟨ha, hp⟩ := layer1a m outs c (PA m c) (LA m 1 c) (y0A m c)
    ((h.o4 c).trans (final4_3 (VR9 m outs) c)) ((h.o5a c).trans (final5_5 (VR11 m outs) c)) ((h.o5b c).trans (final5_6 (VR11 m outs) c))
    hx (V9_v65 m outs c) (V9_v63 m outs c) (V9_d m outs c) (V9_bt m outs c) (V9_src m outs c) (V9_dst m outs c)
  exact (layer1b m outs h c (PA m c) (LA m 1 c) _ ha hp (V1_ci m c) (V1_bt m c) (fun _ => rfl) (fun _ => rfl) (fun _ => rfl) rfl rfl).trans
    (layerK_split (PA m c) (LA m 1 c) (y0A m c)).symm

theorem layer2 (h : OutsOk m outs) (c : Dev nD) : V24 m outs c main_v138 = y2A m c := by
  have hx : V17 m outs c main_v99 = y1A m c := (V17_v99 m outs c).trans (layer1 m outs h c)
  obtain ⟨ha, hp⟩ := layer2a m outs c (PA m c) (LA m 2 c) (y1A m c)
    ((h.o8 c).trans (final8_3 (VR17 m outs) c)) ((h.o9a c).trans (final9_5 (VR19 m outs) c)) ((h.o9b c).trans (final9_6 (VR19 m outs) c))
    hx (V17_v104 m outs c) (V17_v102 m outs c) (V17_d m outs c) (V17_bt m outs c) (V17_src m outs c) (V17_dst m outs c)
  exact (layer2b m outs h c (PA m c) (LA m 2 c) _ ha hp (V1_ci m c) (V1_bt m c) (fun _ => rfl) (fun _ => rfl) (fun _ => rfl) rfl rfl).trans
    (layerK_split (PA m c) (LA m 2 c) (y1A m c)).symm

theorem kernel_value (h : OutsOk m outs) (c : Dev nD) :
    V25 m outs c main_v138 = y2A m c ∧ V25 m outs c main_v142 = stackK (y0A m c) (y1A m c) (y2A m c) :=
  kernel_value_of m outs c _ _ _ (layer0 m outs h c) (layer1 m outs h c) (layer2 m outs h c)

end Cert.KernelIdeal.H

end
-- ==== Proof.Ref.Terms.lean ====
import proofs.«402146_j32049045962863_2_alg».proof.ReferenceIdeal

noncomputable section

namespace Cert.ReferenceIdeal.H

open Idealize.ShloMosaic Idealize.SL.Sem
open Cert.ReferenceIdeal

variable {F : FTy → Type} [FloatOps F]
variable [Facts]
open Facts₀ Facts

def srcT (ei : IVec S2x1000000 32) : IVec S1000000 32 :=
  shapeCast S1000000 (extractStridedSlice S1x1000000 ![0, 0] ei slices_S2x1000000_S1x1000000_0_0) shapeCasts_S1x1000000_S1000000

def dstT (ei : IVec S2x1000000 32) : IVec S1000000 32 :=
  shapeCast S1000000 (extractStridedSlice S1x1000000 ![1, 0] ei slices_S2x1000000_S1x1000000_1_0) shapeCasts_S1x1000000_S1000000

def colE (v : IVec S1000000 32) : IVec S1000000x1 32 :=
  broadcastInDim S1000000x1 ![0] bcast_S1000000_S1000000x1_0 v

def colN (v : IVec S100000 32) : IVec S100000x1 32 :=
  broadcastInDim S100000x1 ![0] bcast_S100000_S100000x1_0 v

def dinvT (ei : IVec S2x1000000 32) : FVec F S100000 .f32 :=
  Host.rsqrt
    (addf
      (Host.scatterAdd scatter_S100000_S1000000x1_S1000000_n_0_0_1
        (broadcastInDim S100000 ![] bcast_S_S100000 (constant S_ .f32 0x00000000#32))
        (colE (dstT ei))
        (broadcastInDim S1000000 ![] bcast_S_S1000000 (constant S_ .f32 0x3F800000#32)))
      (broadcastInDim S100000 ![] bcast_S_S100000 (constant S_ .f32 0x3F800000#32)))

def cinvT (batch : IVec S100000 32) : FVec F S64x1 .f32 :=
  broadcastInDim S64x1 ![0] bcast_S64_S64x1_0
    (Host.divf
      (broadcastInDim S64 ![] bcast_S_S64 (constant S_ .f32 0x3F800000#32))
      (maximumf
        (Host.scatterAdd scatter_S64_S100000x1_S100000_n_0_0_1
          (broadcastInDim S64 ![] bcast_S_S64 (constant S_ .f32 0x00000000#32))
          (colN batch)
          (broadcastInDim S100000 ![] bcast_S_S100000 (constant S_ .f32 0x3F800000#32)))
        (broadcastInDim S64 ![] bcast_S_S64 (constant S_ .f32 0x3F800000#32))))

def wT0 (w3 : FVec F S3x128x128 .f32) : FVec F S128x128 .f32 :=
  shapeCast S128x128 (extractStridedSlice S1x128x128 ![0, 0, 0] w3 slices_S3x128x128_S1x128x128_0_0_0) shapeCasts_S1x128x128_S128x128

def wT1 (w3 : FVec F S3x128x128 .f32) : FVec F S128x128 .f32 :=
  shapeCast S128x128 (extractStridedSlice S1x128x128 ![1, 0, 0] w3 slices_S3x128x128_S1x128x128_1_0_0) shapeCasts_S1x128x128_S128x128

def wT2 (w3 : FVec F S3x128x128 .f32) : FVec F S128x128 .f32 :=
  shapeCast S128x128 (extractStridedSlice S1x128x128 ![2, 0, 0] w3 slices_S3x128x128_S1x128x128_2_0_0) shapeCasts_S1x128x128_S128x128

def rowT0 (a : FVec F S3x128 .f32) : FVec F S128 .f32 :=
  shapeCast S128 (extractStridedSlice S1x128 ![0, 0] a slices_S3x128_S1x128_0_0) shapeCasts_S1x128_S128

def rowT1 (a : FVec F S3x128 .f32) : FVec F S128 .f32 :=
  shapeCast S128 (extractStridedSlice S1x128 ![1, 0] a slices_S3x128_S1x128_1_0) shapeCasts_S1x128_S128

def rowT2 (a : FVec F S3x128 .f32) : FVec F S128 .f32 :=
  shapeCast S128 (extractStridedSlice S1x128 ![2, 0] a slices_S3x128_S1x128_2_0) shapeCasts_S1x128_S128

def wrapE (v : IVec S1000000 32) : IVec S1000000 32 :=
  select
    (cmpi .slt v (broadcastInDim S1000000 ![] bcast_S_S1000000 (constantI S_ 32 0#32)))
    (addi v (broadcastInDim S1000000 ![] bcast_S_S1000000 (constantI S_ 32 100000#32)))
    v

def wrapN (v : IVec S100000 32) : IVec S100000 32 :=
  select
    (cmpi .slt v (broadcastInDim S100000 ![] bcast_S_S100000 (constantI S_ 32 0#32)))
    (addi v (broadcastInDim S100000 ![] bcast_S_S100000 (constantI S_ 32 64#32)))
    v

def rowB (b : FVec F S128 .f32) : FVec F S100000x128 .f32 :=
  broadcastInDim S100000x128 ![0, 1] bcast_S1x128_S100000x128_0_1 (broadcastInDim S1x128 ![1] bcast_S128_S1x128_1 b)

def xwT (w : FVec F S128x128 .f32) (x : FVec F S100000x128 .f32) : FVec F S100000x128 .f32 :=
  Host.dotGeneral dot_S100000x128_S128x128_S100000x128_1_0_0_1_n_n none x w

def normT (ei : IVec S2x1000000 32) : FVec F S1000000 .f32 :=
  mulf
    (Host.gather gather_S100000_S1000000x1_S1000000_n_0_n_n_0_1_1 (dinvT (F := F) ei) (colE (wrapE (srcT ei))))
    (Host.gather gather_S100000_S1000000x1_S1000000_n_0_n_n_0_1_1 (dinvT (F := F) ei) (colE (wrapE (dstT ei))))

def msgT (ei : IVec S2x1000000 32) (w : FVec F S128x128 .f32) (x : FVec F S100000x128 .f32) : FVec F S1000000x128 .f32 :=
  mulf
    (Host.gather gather_S100000x128_S1000000x1_S1000000x128_1_0_n_n_0_1_1128 (xwT w x) (colE (wrapE (srcT ei))))
    (broadcastInDim S1000000x128 ![0, 1] bcast_S1000000x1_S1000000x128_0_1
      (broadcastInDim S1000000x1 ![0] bcast_S1000000_S1000000x1_0 (normT (F := F) ei)))

def aggT (ei : IVec S2x1000000 32) (w : FVec F S128x128 .f32) (x : FVec F S100000x128 .f32) : FVec F S100000x128 .f32 :=
  Host.scatterAdd scatter_S100000x128_S1000000x1_S1000000x128_1_0_0_1
    (broadcastInDim S100000x128 ![] bcast_S_S100000x128 (constant S_ .f32 0x00000000#32))
    (colE (dstT ei))
    (msgT ei w x)

def selfT (ei : IVec S2x1000000 32) (w : FVec F S128x128 .f32) (x : FVec F S100000x128 .f32) : FVec F S100000x128 .f32 :=
  mulf (xwT w x)
    (broadcastInDim S100000x128 ![0, 1] bcast_S100000x1_S100000x128_0_1
      (broadcastInDim S100000x1 ![0] bcast_S100000_S100000x1_0 (mulf (dinvT (F := F) ei) (dinvT (F := F) ei))))

def gcnT (ei : IVec S2x1000000 32) (w : FVec F S128x128 .f32) (b : FVec F S128 .f32) (x : FVec F S100000x128 .f32) :
    FVec F S100000x128 .f32 :=
  addf (addf (aggT ei w x) (selfT ei w x)) (rowB b)

def segT (batch : IVec S100000 32) (v : FVec F S100000x128 .f32) : FVec F S64x128 .f32 :=
  mulf
    (Host.scatterAdd scatter_S64x128_S100000x1_S100000x128_1_0_0_1
      (broadcastInDim S64x128 ![] bcast_S_S64x128 (constant S_ .f32 0x00000000#32))
      (colN batch)
      v)
    (broadcastInDim S64x128 ![0, 1] bcast_S64x1_S64x128_0_1 (cinvT (F := F) batch))

def backT (batch : IVec S100000 32) (t : FVec F S64x128 .f32) : FVec F S100000x128 .f32 :=
  Host.gather gather_S64x128_S100000x1_S100000x128_1_0_n_n_0_1_1128 t (colN (wrapN batch))

def outT (ei : IVec S2x1000000 32) (batch : IVec S100000 32) (w : FVec F S128x128 .f32) (b ms : FVec F S128 .f32)
    (x : FVec F S100000x128 .f32) : FVec F S100000x128 .f32 :=
  subf (gcnT ei w b x) (mulf (backT batch (segT batch (gcnT ei w b x))) (rowB ms))

def varT (ei : IVec S2x1000000 32) (batch : IVec S100000 32) (w : FVec F S128x128 .f32) (b ms : FVec F S128 .f32)
    (x : FVec F S100000x128 .f32) : FVec F S64x128 .f32 :=
  segT batch (mulf (outT ei batch w b ms x) (outT ei batch w b ms x))

def normedT (ei : IVec S2x1000000 32) (batch : IVec S100000 32) (w : FVec F S128x128 .f32) (b gw gb ms : FVec F S128 .f32)
    (x : FVec F S100000x128 .f32) : FVec F S100000x128 .f32 :=
  addf
    (mulf
      (mulf (outT ei batch w b ms x)
        (Host.rsqrt
          (addf (backT batch (varT ei batch w b ms x))
            (broadcastInDim S100000x128 ![] bcast_S_S100000x128 (constant S_ .f32 0x3727C5AC#32)))))
      (rowB gw))
    (rowB gb)

def lreluT (v : FVec F S100000x128 .f32) (slope : FVec F S_ .f32) : FVec F S100000x128 .f32 :=
  select
    (cmpf .oge v (broadcastInDim S100000x128 ![] bcast_S_S100000x128 (constant S_ .f32 0x00000000#32)))
    v
    (mulf (broadcastInDim S100000x128 ![] bcast_S_S100000x128 slope) v)

def layerT (ei : IVec S2x1000000 32) (batch : IVec S100000 32) (w : FVec F S128x128 .f32) (b gw gb ms : FVec F S128 .f32)
    (x : FVec F S100000x128 .f32) : FVec F S100000x128 .f32 :=
  lreluT (normedT ei batch w b gw gb ms x) (constant S_ .f32 0x3C23D70A#32)

def stackT (y0 y1 y2 : FVec F S100000x128 .f32) : FVec F S3x100000x128 .f32 :=
  concatenate S3x100000x128 0
    [⟨S1x100000x128, broadcastInDim S1x100000x128 ![1, 2] bcast_S100000x128_S1x100000x128_1_2 y0⟩,
     ⟨S1x100000x128, broadcastInDim S1x100000x128 ![1, 2] bcast_S100000x128_S1x100000x128_1_2 y1⟩,
     ⟨S1x100000x128, broadcastInDim S1x100000x128 ![1, 2] bcast_S100000x128_S1x100000x128_1_2 y2⟩]
    concatenates_S1x100000x128_S1x100000x128_S1x100000x128_S3x100000x128_d0

def y0T (x : FVec F S100000x128 .f32) (ei : IVec S2x1000000 32) (batch : IVec S100000 32) (w3 : FVec F S3x128x128 .f32)
    (b3 gw3 gb3 ms3 : FVec F S3x128 .f32) : FVec F S100000x128 .f32 :=
  layerT ei batch (wT0 w3) (rowT0 b3) (rowT0 gw3) (rowT0 gb3) (rowT0 ms3) x

def y1T (x : FVec F S100000x128 .f32) (ei : IVec S2x1000000 32) (batch : IVec S100000 32) (w3 : FVec F S3x128x128 .f32)
    (b3 gw3 gb3 ms3 : FVec F S3x128 .f32) : FVec F S100000x128 .f32 :=
  layerT ei batch (wT1 w3) (rowT1 b3) (rowT1 gw3) (rowT1 gb3) (rowT1 ms3) (y0T x ei batch w3 b3 gw3 gb3 ms3)

def y2T (x : FVec F S100000x128 .f32) (ei : IVec S2x1000000 32) (batch : IVec S100000 32) (w3 : FVec F S3x128x128 .f32)
    (b3 gw3 gb3 ms3 : FVec F S3x128 .f32) : FVec F S100000x128 .f32 :=
  layerT ei batch (wT2 w3) (rowT2 b3) (rowT2 gw3) (rowT2 gb3) (rowT2 ms3) (y1T x ei batch w3 b3 gw3 gb3 ms3)

end Cert.ReferenceIdeal.H

end
-- ==== Proof.KI.StackBridge.lean ====
import proofs.«402146_j32049045962863_2_alg».proof.Proof.KI.Glue
import proofs.«402146_j32049045962863_2_alg».proof.Proof.Gen.ReferenceIdeal
import proofs.«402146_j32049045962863_2_alg».proof.Proof.Ref.Terms

noncomputable section

namespace Cert.KernelIdeal.H

open Cert.KernelIdeal Cert.KernelIdeal.Gen
open Idealize.ShloMosaic

theorem stackK_eq_stackT (y0 y1 y2 : FVec Ideal S100000x128 .f32) :
    stackK y0 y1 y2 = Cert.ReferenceIdeal.H.stackT (F := Ideal) y0 y1 y2 := rfl

end Cert.KernelIdeal.H

end
-- ==== Proof.Ref.Basic.lean ====
import proofs.«402146_j32049045962863_2_alg».proof.Proof.Gen.ReferenceIdeal
import Idealize.ShloMosaic.Lib.StableHlo.Run

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

section
variable {τ : Topo} {sig : RefSig} {Val : EltTy → Type} {P : Ref sig .tc → Prop}
variable {x a b c y : Ref sig .tc}

abbrev InRange (lo hi : Nat) (y : Ref sig .tc) : Prop := lo ≤ y.idx.val ∧ y.idx.val < hi

structure WritesIn (P : Ref sig .tc → Prop) (op : HloOp τ sig Val) : Prop where
  out : ∀ d ∈ op.writes, ∃ y : Ref sig .tc, P y ∧ d = Proc.devRef .tc y

private theorem single_in (h : P y) :
    ∀ d ∈ ({Proc.devRef .tc y} : Finset (DevRef τ sig)), ∃ y' : Ref sig .tc, P y' ∧ d = Proc.devRef .tc y' :=
  fun _ hd => ⟨y, h, Finset.mem_singleton.mp hd⟩

theorem nullary_writesIn (h : P y) (v : y.ty.Contents Val) (hy) : WritesIn P (nullary (τ := τ) y v hy) := ⟨single_in h⟩
theorem unary_writesIn (h : P y) (f : x.ty.Contents Val → y.ty.Contents Val) (hx hy) :
    WritesIn P (unary (τ := τ) x y f hx hy) := ⟨single_in h⟩
theorem binary_writesIn (h : P y) (f : a.ty.Contents Val → b.ty.Contents Val → y.ty.Contents Val) (ha hb hy) :
    WritesIn P (binary (τ := τ) a b y f ha hb hy) := ⟨single_in h⟩
theorem ternary_writesIn (h : P y) (f : c.ty.Contents Val → a.ty.Contents Val → b.ty.Contents Val → y.ty.Contents Val) (hc ha hb hy) :
    WritesIn P (ternary (τ := τ) c a b y f hc ha hb hy) := ⟨single_in h⟩
theorem reshape_writesIn (h : P y) (he hn hx hy) :
    WritesIn P (reshape (τ := τ) (Val := Val) x y he hn hx hy) := ⟨single_in h⟩
theorem nary_writesIn (h : P y) {n : Nat} (xs : Fin n → Ref sig .tc)
    (f : ((k : Fin n) → (xs k).ty.Contents Val) → y.ty.Contents Val) (hxs hy) :
    WritesIn P (nary (τ := τ) xs y f hxs hy) := ⟨single_in h⟩

theorem after_of_writesIn (ops : List (HloOp τ sig Val)) (V : Valuation τ sig Val) (hW : ops.Forall (WritesIn P))
    {r : Ref sig .tc} (hr : ¬ P r) : after ops V (Proc.devRef .tc r) = V (Proc.devRef .tc r) :=
  after_of_forall_not_mem ops V fun op hop hb => by
    obtain ⟨y, hy, he⟩ := (List.forall_iff_forall_mem.mp hW op hop).out _ hb
    have e : r = y := Proc.devRef_injective _ he
    exact hr (e ▸ hy)

theorem InRange.mono {lo hi lo' hi' : Nat} (h₁ : lo' ≤ lo) (h₂ : hi ≤ hi') {y : Ref sig .tc} (h : InRange lo hi y) : InRange lo' hi' y :=
  ⟨h₁.trans h.1, lt_of_lt_of_le h.2 h₂⟩

theorem forall_writesIn_mono {Q : Ref sig .tc → Prop} (h : ∀ y, P y → Q y) {l : List (HloOp τ sig Val)}
    (hl : l.Forall (WritesIn P)) : l.Forall (WritesIn Q) :=
  List.forall_iff_forall_mem.2 fun op hop => ⟨fun d hd =>
    let ⟨y, hy, he⟩ := (List.forall_iff_forall_mem.1 hl op hop).out d hd
    ⟨y, h y hy, he⟩⟩

theorem after_append (l₁ l₂ : List (HloOp τ sig Val)) (V : Valuation τ sig Val) : after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)
theorem fresh_append {l₁ l₂ : List (HloOp τ sig Val)} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)
end

end Cert.ReferenceIdeal.H

end
-- ==== Proof.Ref.Pre.lean ====
import proofs.«402146_j32049045962863_2_alg».proof.Proof.Ref.Basic
import proofs.«402146_j32049045962863_2_alg».proof.Proof.Ref.Terms

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

abbrev segP : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_cst (constant S_ .f32 0x3F800000#32),
    StableHlo.unary main_cst main_v4 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1000000x1 ![0] bcast_S1000000_S1000000x1_0 : (⟨S1000000, .i32⟩ : BufTy).Contents (Elt F) → (⟨S1000000x1, .i32⟩ : BufTy).Contents (Elt F)),
    StableHlo.ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)),
    StableHlo.nullary main_cst_2 (constant S_ .f32 0x3F800000#32),
    StableHlo.unary main_cst_2 main_v11 (broadcastInDim S100000 ![] bcast_S_S100000 : (⟨S_, .f32⟩ : BufTy).Contents (Elt F) → (⟨S100000, .f32⟩ : BufTy).Contents (Elt F)),
    StableHlo.nullary main_cst_3 (constant S_ .f32 0x00000000#32),
    StableHlo.unary main_cst_3 main_v12 (broadcastInDim S64 ![] bcast_S_S64 : (⟨S_, .f32⟩ : BufTy).Contents (Elt F) → (⟨S64, .f32⟩ : BufTy).Contents (Elt F)),
    StableHlo.unary main_arg2 main_v13 (broadcastInDim S100000x1 ![0] bcast_S100000_S100000x1_0 : (⟨S100000, .i32⟩ : BufTy).Contents (Elt F) → (⟨S100000x1, .i32⟩ : BufTy).Contents (Elt F)),
    StableHlo.ternary main_v12 main_v13 main_v11 main_v14 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_4 (constant S_ .f32 0x3F800000#32),
    StableHlo.unary main_cst_4 main_v15 (broadcastInDim S64 ![] bcast_S_S64 : (⟨S_, .f32⟩ : BufTy).Contents (Elt F) → (⟨S64, .f32⟩ : BufTy).Contents (Elt F)),
    StableHlo.binary main_v14 main_v15 main_v16 (maximumf : (⟨S64, .f32⟩ : BufTy).Contents (Elt F) → (⟨S64, .f32⟩ : BufTy).Contents (Elt F) → (⟨S64, .f32⟩ : BufTy).Contents (Elt F)),
    StableHlo.nullary main_cst_5 (constant S_ .f32 0x3F800000#32),
    StableHlo.unary main_cst_5 main_v17 (broadcastInDim S64 ![] bcast_S_S64 : (⟨S_, .f32⟩ : BufTy).Contents (Elt F) → (⟨S64, .f32⟩ : BufTy).Contents (Elt F)),
    StableHlo.binary main_v17 main_v16 main_v18 (Host.divf : (⟨S64, .f32⟩ : BufTy).Contents (Elt F) → (⟨S64, .f32⟩ : BufTy).Contents (Elt F) → (⟨S64, .f32⟩ : BufTy).Contents (Elt F)),
    StableHlo.unary main_v18 main_v19 (broadcastInDim S64x1 ![0] bcast_S64_S64x1_0 : (⟨S64, .f32⟩ : BufTy).Contents (Elt F) → (⟨S64x1, .f32⟩ : BufTy).Contents (Elt F)) ]

theorem segP_writes : (segP : List (HloOp τ sig (Elt F))).Forall (WritesIn (InRange 8 35)) :=
  ⟨unary_writesIn (by decide) .., reshape_writesIn (by decide) .., unary_writesIn (by decide) .., reshape_writesIn (by decide) .., nullary_writesIn (by decide) .., unary_writesIn (by decide) .., nullary_writesIn (by decide) .., unary_writesIn (by decide) .., unary_writesIn (by decide) .., ternary_writesIn (by decide) .., nullary_writesIn (by decide) .., unary_writesIn (by decide) .., binary_writesIn (by decide) .., unary_writesIn (by decide) .., nullary_writesIn (by decide) .., unary_writesIn (by decide) .., nullary_writesIn (by decide) .., unary_writesIn (by decide) .., unary_writesIn (by decide) .., ternary_writesIn (by decide) .., nullary_writesIn (by decide) .., unary_writesIn (by decide) .., binary_writesIn (by decide) .., nullary_writesIn (by decide) .., unary_writesIn (by decide) .., binary_writesIn (by decide) .., unary_writesIn (by decide) ..⟩

theorem segP_frame (V : Valuation τ sig (Elt F)) {r : Ref sig .tc} (h : ¬ InRange 8 35 r) :
    after segP V (no_index (Proc.devRef .tc r)) = V (Proc.devRef .tc r) :=
  after_of_writesIn segP V segP_writes h

abbrev segS : List (HloOp τ sig (Elt F)) :=
  [ StableHlo.unary main_v106 main_v281 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v193 main_v282 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v280 main_v283 (broadcastInDim S1x100000x128 ![1, 2] bcast_S100000x128_S1x100000x128_1_2 : (⟨S100000x128, .f32⟩ : BufTy).Contents (Elt F) → (⟨S1x100000x128, .f32⟩ : BufTy).Contents (Elt F)),
    StableHlo.nary ![main_v281, main_v282, main_v283] main_v284 (fun u => concatenate S3x100000x128 0 [⟨S1x100000x128, u 0⟩, ⟨S1x100000x128, u 1⟩, ⟨S1x100000x128, u 2⟩] concatenates_S1x100000x128_S1x100000x128_S1x100000x128_S3x100000x128_d0) ]

theorem segS_writes : (segS : List (HloOp τ sig (Elt F))).Forall (WritesIn (InRange 359 363)) :=
  ⟨unary_writesIn (by decide) .., unary_writesIn (by decide) .., unary_writesIn (by decide) .., nary_writesIn (by decide) ..⟩

theorem segS_frame (V : Valuation τ sig (Elt F)) {r : Ref sig .tc} (h : ¬ InRange 359 363 r) :
    after segS V (no_index (Proc.devRef .tc r)) = V (Proc.devRef .tc r) :=
  after_of_writesIn segS V segS_writes h

theorem segP_val (V : Valuation τ sig (Elt F)) :
    after segP V (Proc.devRef .tc main_v1) = srcT (V (Proc.devRef .tc main_arg1))
      ∧ after segP V (Proc.devRef .tc main_v3) = dstT (V (Proc.devRef .tc main_arg1))
      ∧ after segP V (Proc.devRef .tc main_v10) = dinvT (F := F) (V (Proc.devRef .tc main_arg1))
      ∧ after segP V (Proc.devRef .tc main_v19) = cinvT (F := F) (V (Proc.devRef .tc main_arg2)) := by
  refine ⟨?_, ?_, ?_, ?_⟩
  · after_results_simp
    rfl
  · after_results_simp
    rfl
  · after_results_simp
    rfl
  · after_results_simp
    rfl

theorem segS_val (V : Valuation τ sig (Elt F)) :
    after segS V (Proc.devRef .tc main_v284)
      = stackT (V (Proc.devRef .tc main_v106)) (V (Proc.devRef .tc main_v193)) (V (Proc.devRef .tc main_v280)) := by
  simp only [after_cons, after_nil]
  rfl

theorem segP_sub : (segP : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

theorem segP_fresh : ∀ op ∈ (segP : List (HloOp τ sig (Elt F))), op.fresh = ∅ := by
  intro _ h; (repeat (cases h with | head => rfl | tail _ h => ?_)); exact nomatch h

theorem segS_sub : (segS : List (HloOp τ sig (Elt F))).Forall fun op => op.bufs ⊆ tcRefs τ sig :=
  ⟨unary_bufs_sub .., unary_bufs_sub .., unary_bufs_sub .., nary_bufs_sub ..⟩

theorem segS_fresh : ∀ op ∈ (segS : List (HloOp τ sig (Elt F))), op.fresh = ∅ := by
  intro _ h; (repeat (cases h with | head => rfl | tail _ h => ?_)); exact nomatch h

end Cert.ReferenceIdeal.H

end
-- ==== Proof.Ref.L0.lean ====
import proofs.«402146_j32049045962863_2_alg».proof.Proof.Ref.Basic
import proofs.«402146_j32049045962863_2_alg».proof.Proof.Ref.Terms

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

abbrev segA0 : List (HloOp τ sig (Elt F)) :=
  [ StableHlo.unary main_arg3 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v20 main_v21 rfl shapeCasts_S1x128x128_S128x128,
    StableHlo.unary main_arg4 main_v22 ((extractStridedSlice S1x128 ![0, 0] · slices_S3x128_S1x128_0_0) : (⟨S3x128, .f32⟩ : BufTy).Contents (Elt F) → (⟨S1x128, .f32⟩ : BufTy).Contents (Elt F)),
    StableHlo.reshape main_v22 main_v23 rfl shapeCasts_S1x128_S128,
    StableHlo.binary main_arg0 main_v21 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v25 (broadcastInDim S1000000 ![] bcast_S_S1000000 : (⟨S_, .i32⟩ : BufTy).Contents (Elt F) → (⟨S1000000, .i32⟩ : BufTy).Contents (Elt F)),
    StableHlo.binary main_v1 main_v25 main_v26 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v27 (broadcastInDim S1000000 ![] bcast_S_S1000000 : (⟨S_, .i32⟩ : BufTy).Contents (Elt F) → (⟨S1000000, .i32⟩ : BufTy).Contents (Elt F)),
    StableHlo.binary main_v1 main_v27 main_v28 (addi : (⟨S1000000, .i32⟩ : BufTy).Contents (Elt F) → (⟨S1000000, .i32⟩ : BufTy).Contents (Elt F) → (⟨S1000000, .i32⟩ : BufTy).Contents (Elt F)),
    StableHlo.ternary main_v26 main_v28 main_v1 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v29 main_v30 (broadcastInDim S1000000x1 ![0] bcast_S1000000_S1000000x1_0 : (⟨S1000000, .i32⟩ : BufTy).Contents (Elt F) → (⟨S1000000x1, .i32⟩ : BufTy).Contents (Elt F)),
    StableHlo.binary main_v10 main_v30 main_v31 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_7 (constantI S_ 32 0#32),
    StableHlo.unary main_c_7 main_v32 (broadcastInDim S1000000 ![] bcast_S_S1000000 : (⟨S_, .i32⟩ : BufTy).Contents (Elt F) → (⟨S1000000, .i32⟩ : BufTy).Contents (Elt F)),
    StableHlo.binary main_v3 main_v32 main_v33 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v34 (broadcastInDim S1000000 ![] bcast_S_S1000000 : (⟨S_, .i32⟩ : BufTy).Contents (Elt F) → (⟨S1000000, .i32⟩ : BufTy).Contents (Elt F)),
    StableHlo.binary main_v3 main_v34 main_v35 (addi : (⟨S1000000, .i32⟩ : BufTy).Contents (Elt F) → (⟨S1000000, .i32⟩ : BufTy).Contents (Elt F) → (⟨S1000000, .i32⟩ : BufTy).Contents (Elt F)),
    StableHlo.ternary main_v33 main_v35 main_v3 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v36 main_v37 (broadcastInDim S1000000x1 ![0] bcast_S1000000_S1000000x1_0 : (⟨S1000000, .i32⟩ : BufTy).Contents (Elt F) → (⟨S1000000x1, .i32⟩ : BufTy).Contents (Elt F)),
    StableHlo.binary main_v10 main_v37 main_v38 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.binary main_v31 main_v38 main_v39 (mulf : (⟨S1000000, .f32⟩ : BufTy).Contents (Elt F) → (⟨S1000000, .f32⟩ : BufTy).Contents (Elt F) → (⟨S1000000, .f32⟩ : BufTy).Contents (Elt F)),
    StableHlo.nullary main_c_9 (constantI S_ 32 0#32),
    StableHlo.unary main_c_9 main_v40 (broadcastInDim S1000000 ![] bcast_S_S1000000 : (⟨S_, .i32⟩ : BufTy).Contents (Elt F) → (⟨S1000000, .i32⟩ : BufTy).Contents (Elt F)),
    StableHlo.binary main_v1 main_v40 main_v41 (cmpi .slt : (⟨S1000000, .i32⟩ : BufTy).Contents (Elt F) → (⟨S1000000, .i32⟩ : BufTy).Contents (Elt F) → (⟨S1000000, .i1⟩ : BufTy).Contents (Elt F)),
    StableHlo.nullary main_c_10 (constantI S_ 32 100000#32),
    StableHlo.unary main_c_10 main_v42 (broadcastInDim S1000000 ![] bcast_S_S1000000 : (⟨S_, .i32⟩ : BufTy).Contents (Elt F) → (⟨S1000000, .i32⟩ : BufTy).Contents (Elt F)),
    StableHlo.binary main_v1 main_v42 main_v43 (addi : (⟨S1000000, .i32⟩ : BufTy).Contents (Elt F) → (⟨S1000000, .i32⟩ : BufTy).Contents (Elt F) → (⟨S1000000, .i32⟩ : BufTy).Contents (Elt F)),
    StableHlo.ternary main_v41 main_v43 main_v1 main_v44 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v44 main_v45 (broadcastInDim S1000000x1 ![0] bcast_S1000000_S1000000x1_0 : (⟨S1000000, .i32⟩ : BufTy).Contents (Elt F) → (⟨S1000000x1, .i32⟩ : BufTy).Contents (Elt F)),
    StableHlo.binary main_v24 main_v45 main_v46 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v39 main_v47 (broadcastInDim S1000000x1 ![0] bcast_S1000000_S1000000x1_0 : (⟨S1000000, .f32⟩ : BufTy).Contents (Elt F) → (⟨S1000000x1, .f32⟩ : BufTy).Contents (Elt F)),
    StableHlo.unary main_v47 main_v48 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v46 main_v48 main_v49 (mulf : (⟨S1000000x128, .f32⟩ : BufTy).Contents (Elt F) → (⟨S1000000x128, .f32⟩ : BufTy).Contents (Elt F) → (⟨S1000000x128, .f32⟩ : BufTy).Contents (Elt F)),
    StableHlo.nullary main_cst_11 (constant S_ .f32 0x00000000#32),
    StableHlo.unary main_cst_11 main_v50 (broadcastInDim S100000x128 ![] bcast_S_S100000x128 : (⟨S_, .f32⟩ : BufTy).Contents (Elt F) → (⟨S100000x128, .f32⟩ : BufTy).Contents (Elt F)),
    StableHlo.unary main_v3 main_v51 (broadcastInDim S1000000x1 ![0] bcast_S1000000_S1000000x1_0 : (⟨S1000000, .i32⟩ : BufTy).Contents (Elt F) → (⟨S1000000x1, .i32⟩ : BufTy).Contents (Elt F)),
    StableHlo.ternary main_v50 main_v51 main_v49 main_v52 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v10 main_v10 main_v53 (mulf : (⟨S100000, .f32⟩ : BufTy).Contents (Elt F) → (⟨S100000, .f32⟩ : BufTy).Contents (Elt F) → (⟨S100000, .f32⟩ : BufTy).Contents (Elt F)),
    StableHlo.unary main_v53 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v55 main_v56 (mulf : (⟨S100000x128, .f32⟩ : BufTy).Contents (Elt F) → (⟨S100000x128, .f32⟩ : BufTy).Contents (Elt F) → (⟨S100000x128, .f32⟩ : BufTy).Contents (Elt F)),
    StableHlo.binary main_v52 main_v56 main_v57 (addf : (⟨S100000x128, .f32⟩ : BufTy).Contents (Elt F) → (⟨S100000x128, .f32⟩ : BufTy).Contents (Elt F) → (⟨S100000x128, .f32⟩ : BufTy).Contents (Elt F)),
    StableHlo.unary main_v23 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)) ]

theorem segA0_writes : (segA0 : List (HloOp τ sig (Elt F))).Forall (WritesIn (InRange 35 83)) :=
  ⟨unary_writesIn (by decide) .., reshape_writesIn (by decide) .., unary_writesIn (by decide) .., reshape_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., unary_writesIn (by decide) .., unary_writesIn (by decide) .., binary_writesIn (by decide) .., nullary_writesIn (by decide) .., unary_writesIn (by decide) .., unary_writesIn (by decide) .., ternary_writesIn (by decide) .., binary_writesIn (by decide) .., unary_writesIn (by decide) .., unary_writesIn (by decide) .., binary_writesIn (by decide) .., binary_writesIn (by decide) .., unary_writesIn (by decide) .., unary_writesIn (by decide) .., binary_writesIn (by decide) ..⟩

theorem segA0_frame (V : Valuation τ sig (Elt F)) {r : Ref sig .tc} (h : ¬ InRange 35 83 r) :
    after segA0 V (no_index (Proc.devRef .tc r)) = V (Proc.devRef .tc r) :=
  after_of_writesIn segA0 V segA0_writes h

abbrev segB0 : List (HloOp τ sig (Elt F)) :=
  [ StableHlo.unary main_arg5 main_v61 ((extractStridedSlice S1x128 ![0, 0] · slices_S3x128_S1x128_0_0) : (⟨S3x128, .f32⟩ : BufTy).Contents (Elt F) → (⟨S1x128, .f32⟩ : BufTy).Contents (Elt F)),
    StableHlo.reshape main_v61 main_v62 rfl shapeCasts_S1x128_S128,
    StableHlo.unary main_arg6 main_v63 ((extractStridedSlice S1x128 ![0, 0] · slices_S3x128_S1x128_0_0) : (⟨S3x128, .f32⟩ : BufTy).Contents (Elt F) → (⟨S1x128, .f32⟩ : BufTy).Contents (Elt F)),
    StableHlo.reshape main_v63 main_v64 rfl shapeCasts_S1x128_S128,
    StableHlo.unary main_arg7 main_v65 ((extractStridedSlice S1x128 ![0, 0] · slices_S3x128_S1x128_0_0) : (⟨S3x128, .f32⟩ : BufTy).Contents (Elt F) → (⟨S1x128, .f32⟩ : BufTy).Contents (Elt F)),
    StableHlo.reshape main_v65 main_v66 rfl shapeCasts_S1x128_S128,
    StableHlo.nullary main_cst_12 (constant S_ .f32 0x00000000#32),
    StableHlo.unary main_cst_12 main_v67 (broadcastInDim S64x128 ![] bcast_S_S64x128 : (⟨S_, .f32⟩ : BufTy).Contents (Elt F) → (⟨S64x128, .f32⟩ : BufTy).Contents (Elt F)),
    StableHlo.unary main_arg2 main_v68 (broadcastInDim S100000x1 ![0] bcast_S100000_S100000x1_0 : (⟨S100000, .i32⟩ : BufTy).Contents (Elt F) → (⟨S100000x1, .i32⟩ : BufTy).Contents (Elt F)),
    StableHlo.ternary main_v67 main_v68 main_v60 main_v69 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.unary main_v19 main_v70 (broadcastInDim S64x128 ![0, 1] bcast_S64x1_S64x128_0_1 : (⟨S64x1, .f32⟩ : BufTy).Contents (Elt F) → (⟨S64x128, .f32⟩ : BufTy).Contents (Elt F)),
    StableHlo.binary main_v69 main_v70 main_v71 (mulf : (⟨S64x128, .f32⟩ : BufTy).Contents (Elt F) → (⟨S64x128, .f32⟩ : BufTy).Contents (Elt F) → (⟨S64x128, .f32⟩ : BufTy).Contents (Elt F)),
    StableHlo.nullary main_c_13 (constantI S_ 32 0#32),
    StableHlo.unary main_c_13 main_v72 (broadcastInDim S100000 ![] bcast_S_S100000 : (⟨S_, .i32⟩ : BufTy).Contents (Elt F) → (⟨S100000, .i32⟩ : BufTy).Contents (Elt F)),
    StableHlo.binary main_arg2 main_v72 main_v73 (cmpi .slt : (⟨S100000, .i32⟩ : BufTy).Contents (Elt F) → (⟨S100000, .i32⟩ : BufTy).Contents (Elt F) → (⟨S100000, .i1⟩ : BufTy).Contents (Elt F)),
    StableHlo.nullary main_c_14 (constantI S_ 32 64#32),
    StableHlo.unary main_c_14 main_v74 (broadcastInDim S100000 ![] bcast_S_S100000 : (⟨S_, .i32⟩ : BufTy).Contents (Elt F) → (⟨S100000, .i32⟩ : BufTy).Contents (Elt F)),
    StableHlo.binary main_arg2 main_v74 main_v75 (addi : (⟨S100000, .i32⟩ : BufTy).Contents (Elt F) → (⟨S100000, .i32⟩ : BufTy).Contents (Elt F) → (⟨S100000, .i32⟩ : BufTy).Contents (Elt F)),
    StableHlo.ternary main_v73 main_v75 main_arg2 main_v76 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v76 main_v77 (broadcastInDim S100000x1 ![0] bcast_S100000_S100000x1_0 : (⟨S100000, .i32⟩ : BufTy).Contents (Elt F) → (⟨S100000x1, .i32⟩ : BufTy).Contents (Elt F)),
    StableHlo.binary main_v71 main_v77 main_v78 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    StableHlo.unary main_v66 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (mulf : (⟨S100000x128, .f32⟩ : BufTy).Contents (Elt F) → (⟨S100000x128, .f32⟩ : BufTy).Contents (Elt F) → (⟨S100000x128, .f32⟩ : BufTy).Contents (Elt F)),
    StableHlo.binary main_v60 main_v81 main_v82 (subf : (⟨S100000x128, .f32⟩ : BufTy).Contents (Elt F) → (⟨S100000x128, .f32⟩ : BufTy).Contents (Elt F) → (⟨S100000x128, .f32⟩ : BufTy).Contents (Elt F)) ]

theorem segB0_writes : (segB0 : List (HloOp τ sig (Elt F))).Forall (WritesIn (InRange 83 108)) :=
  ⟨unary_writesIn (by decide) .., reshape_writesIn (by decide) .., unary_writesIn (by decide) .., reshape_writesIn (by decide) .., unary_writesIn (by decide) .., reshape_writesIn (by decide) .., nullary_writesIn (by decide) .., unary_writesIn (by decide) .., unary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., unary_writesIn (by decide) .., unary_writesIn (by decide) .., binary_writesIn (by decide) .., binary_writesIn (by decide) ..⟩

theorem segB0_frame (V : Valuation τ sig (Elt F)) {r : Ref sig .tc} (h : ¬ InRange 83 108 r) :
    after segB0 V (no_index (Proc.devRef .tc r)) = V (Proc.devRef .tc r) :=
  after_of_writesIn segB0 V segB0_writes h

abbrev segC0 : List (HloOp τ sig (Elt F)) :=
  [ StableHlo.binary main_v82 main_v82 main_v83 (mulf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.unary main_cst_15 main_v84 (broadcastInDim S64x128 ![] bcast_S_S64x128 : (⟨S_, .f32⟩ : BufTy).Contents (Elt F) → (⟨S64x128, .f32⟩ : BufTy).Contents (Elt F)),
    StableHlo.unary main_arg2 main_v85 (broadcastInDim S100000x1 ![0] bcast_S100000_S100000x1_0 : (⟨S100000, .i32⟩ : BufTy).Contents (Elt F) → (⟨S100000x1, .i32⟩ : BufTy).Contents (Elt F)),
    StableHlo.ternary main_v84 main_v85 main_v83 main_v86 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.unary main_v19 main_v87 (broadcastInDim S64x128 ![0, 1] bcast_S64x1_S64x128_0_1 : (⟨S64x1, .f32⟩ : BufTy).Contents (Elt F) → (⟨S64x128, .f32⟩ : BufTy).Contents (Elt F)),
    StableHlo.binary main_v86 main_v87 main_v88 (mulf : (⟨S64x128, .f32⟩ : BufTy).Contents (Elt F) → (⟨S64x128, .f32⟩ : BufTy).Contents (Elt F) → (⟨S64x128, .f32⟩ : BufTy).Contents (Elt F)),
    StableHlo.nullary main_c_16 (constantI S_ 32 0#32),
    StableHlo.unary main_c_16 main_v89 (broadcastInDim S100000 ![] bcast_S_S100000 : (⟨S_, .i32⟩ : BufTy).Contents (Elt F) → (⟨S100000, .i32⟩ : BufTy).Contents (Elt F)),
    StableHlo.binary main_arg2 main_v89 main_v90 (cmpi .slt : (⟨S100000, .i32⟩ : BufTy).Contents (Elt F) → (⟨S100000, .i32⟩ : BufTy).Contents (Elt F) → (⟨S100000, .i1⟩ : BufTy).Contents (Elt F)),
    StableHlo.nullary main_c_17 (constantI S_ 32 64#32),
    StableHlo.unary main_c_17 main_v91 (broadcastInDim S100000 ![] bcast_S_S100000 : (⟨S_, .i32⟩ : BufTy).Contents (Elt F) → (⟨S100000, .i32⟩ : BufTy).Contents (Elt F)),
    StableHlo.binary main_arg2 main_v91 main_v92 (addi : (⟨S100000, .i32⟩ : BufTy).Contents (Elt F) → (⟨S100000, .i32⟩ : BufTy).Contents (Elt F) → (⟨S100000, .i32⟩ : BufTy).Contents (Elt F)),
    StableHlo.ternary main_v90 main_v92 main_arg2 main_v93 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v93 main_v94 (broadcastInDim S100000x1 ![0] bcast_S100000_S100000x1_0 : (⟨S100000, .i32⟩ : BufTy).Contents (Elt F) → (⟨S100000x1, .i32⟩ : BufTy).Contents (Elt F)),
    StableHlo.binary main_v88 main_v94 main_v95 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    StableHlo.nullary main_cst_18 (constant S_ .f32 0x3727C5AC#32),
    StableHlo.unary main_cst_18 main_v96 (broadcastInDim S100000x128 ![] bcast_S_S100000x128 : (⟨S_, .f32⟩ : BufTy).Contents (Elt F) → (⟨S100000x128, .f32⟩ : BufTy).Contents (Elt F)),
    StableHlo.binary main_v95 main_v96 main_v97 (addf : (⟨S100000x128, .f32⟩ : BufTy).Contents (Elt F) → (⟨S100000x128, .f32⟩ : BufTy).Contents (Elt F) → (⟨S100000x128, .f32⟩ : BufTy).Contents (Elt F)),
    StableHlo.unary main_v97 main_v98 (Host.rsqrt : (⟨S100000x128, .f32⟩ : BufTy).Contents (Elt F) → (⟨S100000x128, .f32⟩ : BufTy).Contents (Elt F)),
    StableHlo.binary main_v82 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_v62 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (mulf : (⟨S100000x128, .f32⟩ : BufTy).Contents (Elt F) → (⟨S100000x128, .f32⟩ : BufTy).Contents (Elt F) → (⟨S100000x128, .f32⟩ : BufTy).Contents (Elt F)),
    StableHlo.unary main_v64 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v104 main_v105 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v105) main_call0.v0 main_call0.v1 (cmpf .oge),
    StableHlo.TRef.unary (.of main_cst_19) main_call0.v2 id,
    StableHlo.TRef.unary main_call0.v2 main_call0.v3 (broadcastInDim S100000x128 ![] bcast_S_S100000x128),
    StableHlo.TRef.binary main_call0.v3 (.of main_v105) main_call0.v4 mulf,
    StableHlo.TRef.ternary main_call0.v1 (.of main_v105) main_call0.v4 main_call0.call0.v0 select ]

theorem segC0_writes : (segC0 : List (HloOp τ sig (Elt F))).Forall (WritesIn (InRange 108 143)) :=
  ⟨binary_writesIn (by decide) .., nullary_writesIn (by decide) .., unary_writesIn (by decide) .., unary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., nullary_writesIn (by decide) .., unary_writesIn (by decide) .., binary_writesIn (by decide) .., unary_writesIn (by decide) .., binary_writesIn (by decide) .., unary_writesIn (by decide) .., unary_writesIn (by decide) .., binary_writesIn (by decide) .., unary_writesIn (by decide) .., unary_writesIn (by decide) .., binary_writesIn (by decide) .., nullary_writesIn (by decide) .., nullary_writesIn (by decide) .., unary_writesIn (by decide) .., binary_writesIn (by decide) .., unary_writesIn (by decide) .., unary_writesIn (by decide) .., binary_writesIn (by decide) .., ternary_writesIn (by decide) ..⟩

theorem segC0_frame (V : Valuation τ sig (Elt F)) {r : Ref sig .tc} (h : ¬ InRange 108 143 r) :
    after segC0 V (no_index (Proc.devRef .tc r)) = V (Proc.devRef .tc r) :=
  after_of_writesIn segC0 V segC0_writes h

theorem segA0_val (V : Valuation τ sig (Elt F)) (ei : IVec S2x1000000 32)
    (h1 : V (Proc.devRef .tc main_v1) = srcT ei) (h3 : V (Proc.devRef .tc main_v3) = dstT ei) (h10 : V (Proc.devRef .tc main_v10) = dinvT (F := F) ei) :
    after segA0 V (Proc.devRef .tc main_v60)
      = gcnT ei (wT0 (V (Proc.devRef .tc main_arg3))) (rowT0 (V (Proc.devRef .tc main_arg4))) (V (Proc.devRef .tc main_arg0)) := by
  after_results_simp
  rw [h1, h3, h10]
  rfl

theorem segB0_val (V : Valuation τ sig (Elt F)) (batch : IVec S100000 32) (g : FVec F S100000x128 .f32)
    (h19 : V (Proc.devRef .tc main_v19) = cinvT (F := F) batch) (hb : V (Proc.devRef .tc main_arg2) = batch) (hg : V (Proc.devRef .tc main_v60) = g) :
    after segB0 V (Proc.devRef .tc main_v82)
        = subf g (mulf (backT batch (segT batch g)) (rowB (rowT0 (V (Proc.devRef .tc main_arg7)))))
      ∧ after segB0 V (Proc.devRef .tc main_v62) = rowT0 (V (Proc.devRef .tc main_arg5))
      ∧ after segB0 V (Proc.devRef .tc main_v64) = rowT0 (V (Proc.devRef .tc main_arg6)) := by
  refine ⟨?_, ?_, ?_⟩
  · after_results_simp
    rw [h19, hb, hg]
    rfl
  · after_results_simp
    rfl
  · after_results_simp
    rfl

theorem segC0_val (V : Valuation τ sig (Elt F)) (batch : IVec S100000 32) (o : FVec F S100000x128 .f32) (gw gb : FVec F S128 .f32)
    (h19 : V (Proc.devRef .tc main_v19) = cinvT (F := F) batch) (hb : V (Proc.devRef .tc main_arg2) = batch)
    (ho : V (Proc.devRef .tc main_v82) = o) (hgw : V (Proc.devRef .tc main_v62) = gw) (hgb : V (Proc.devRef .tc main_v64) = gb) :
    after segC0 V (Proc.devRef .tc main_v106)
      = lreluT (addf (mulf (mulf o (Host.rsqrt (addf (backT batch (segT batch (mulf o o)))
            (broadcastInDim S100000x128 ![] bcast_S_S100000x128 (constant S_ .f32 0x3727C5AC#32))))) (rowB gw)) (rowB gb))
          (constant S_ .f32 0x3C23D70A#32) := by
  after_results_simp
  rw [h19, hb, ho, hgw, hgb]
  rfl

abbrev layer0 : List (HloOp τ sig (Elt F)) := segA0 ++ (segB0 ++ segC0)

theorem layer0_val (V : Valuation τ sig (Elt F)) (ei : IVec S2x1000000 32) (batch : IVec S100000 32)
    (h1 : V (Proc.devRef .tc main_v1) = srcT ei) (h3 : V (Proc.devRef .tc main_v3) = dstT ei) (h10 : V (Proc.devRef .tc main_v10) = dinvT (F := F) ei)
    (h19 : V (Proc.devRef .tc main_v19) = cinvT (F := F) batch) (hb : V (Proc.devRef .tc main_arg2) = batch) :
    after layer0 V (Proc.devRef .tc main_v106)
      = layerT ei batch (wT0 (V (Proc.devRef .tc main_arg3))) (rowT0 (V (Proc.devRef .tc main_arg4))) (rowT0 (V (Proc.devRef .tc main_arg5)))
          (rowT0 (V (Proc.devRef .tc main_arg6))) (rowT0 (V (Proc.devRef .tc main_arg7))) (V (Proc.devRef .tc main_arg0)) := by
  rw [after_append, after_append]
  have hA := segA0_val V ei h1 h3 h10
  obtain ⟨hB, hB5, hB6⟩ := segB0_val (after segA0 V) batch _
    ((segA0_frame V (by decide)).trans h19) ((segA0_frame V (by decide)).trans hb) hA
  rw [segA0_frame V (by decide)] at hB hB5 hB6
  rw [segC0_val (after segB0 (after segA0 V)) batch _ _ _
    ((segB0_frame _ (by decide)).trans ((segA0_frame V (by decide)).trans h19))
    ((segB0_frame _ (by decide)).trans ((segA0_frame V (by decide)).trans hb)) hB hB5 hB6]
  rfl

theorem layer0_writes : (layer0 : List (HloOp τ sig (Elt F))).Forall (WritesIn (InRange 35 143)) :=
  forall_append (forall_writesIn_mono (fun _ => InRange.mono (by decide) (by decide)) segA0_writes)
    (forall_append (forall_writesIn_mono (fun _ => InRange.mono (by decide) (by decide)) segB0_writes)
      (forall_writesIn_mono (fun _ => InRange.mono (by decide) (by decide)) segC0_writes))
theorem layer0_frame (V : Valuation τ sig (Elt F)) {r : Ref sig .tc} (h : ¬ InRange 35 143 r) :
    after layer0 V (no_index (Proc.devRef .tc r)) = V (Proc.devRef .tc r) :=
  after_of_writesIn layer0 V layer0_writes h

theorem segA0_sub : (segA0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem segA0_fresh : ∀ op ∈ (segA0 : List (HloOp τ sig (Elt F))), op.fresh = ∅ := by
  intro _ h; (repeat (cases h with | head => rfl | tail _ h => ?_)); exact nomatch h

theorem segB0_sub : (segB0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub ..⟩

theorem segB0_fresh : ∀ op ∈ (segB0 : List (HloOp τ sig (Elt F))), op.fresh = ∅ := by
  intro _ h; (repeat (cases h with | head => rfl | tail _ h => ?_)); exact nomatch h

theorem segC0_sub : (segC0 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem segC0_fresh : ∀ op ∈ (segC0 : List (HloOp τ sig (Elt F))), op.fresh = ∅ := by
  intro _ h; (repeat (cases h with | head => rfl | tail _ h => ?_)); exact nomatch h

theorem layer0_sub : (layer0 : List (HloOp τ sig (Elt F))).Forall fun op => op.bufs ⊆ tcRefs τ sig :=
  forall_append segA0_sub (forall_append segB0_sub segC0_sub)

theorem layer0_fresh : ∀ op ∈ (layer0 : List (HloOp τ sig (Elt F))), op.fresh = ∅ :=
  fresh_append segA0_fresh (fresh_append segB0_fresh segC0_fresh)

end Cert.ReferenceIdeal.H

end
-- ==== Proof.Ref.L1.lean ====
import proofs.«402146_j32049045962863_2_alg».proof.Proof.Ref.Basic
import proofs.«402146_j32049045962863_2_alg».proof.Proof.Ref.Terms

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

abbrev segA1 : List (HloOp τ sig (Elt F)) :=
  [ StableHlo.unary main_arg3 main_v107 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v107 main_v108 rfl shapeCasts_S1x128x128_S128x128,
    StableHlo.unary main_arg4 main_v109 ((extractStridedSlice S1x128 ![1, 0] · slices_S3x128_S1x128_1_0) : (⟨S3x128, .f32⟩ : BufTy).Contents (Elt F) → (⟨S1x128, .f32⟩ : BufTy).Contents (Elt F)),
    StableHlo.reshape main_v109 main_v110 rfl shapeCasts_S1x128_S128,
    StableHlo.binary main_v106 main_v108 main_v111 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_20 (constantI S_ 32 0#32),
    StableHlo.unary main_c_20 main_v112 (broadcastInDim S1000000 ![] bcast_S_S1000000 : (⟨S_, .i32⟩ : BufTy).Contents (Elt F) → (⟨S1000000, .i32⟩ : BufTy).Contents (Elt F)),
    StableHlo.binary main_v1 main_v112 main_v113 (cmpi .slt : (⟨S1000000, .i32⟩ : BufTy).Contents (Elt F) → (⟨S1000000, .i32⟩ : BufTy).Contents (Elt F) → (⟨S1000000, .i1⟩ : BufTy).Contents (Elt F)),
    StableHlo.nullary main_c_21 (constantI S_ 32 100000#32),
    StableHlo.unary main_c_21 main_v114 (broadcastInDim S1000000 ![] bcast_S_S1000000 : (⟨S_, .i32⟩ : BufTy).Contents (Elt F) → (⟨S1000000, .i32⟩ : BufTy).Contents (Elt F)),
    StableHlo.binary main_v1 main_v114 main_v115 (addi : (⟨S1000000, .i32⟩ : BufTy).Contents (Elt F) → (⟨S1000000, .i32⟩ : BufTy).Contents (Elt F) → (⟨S1000000, .i32⟩ : BufTy).Contents (Elt F)),
    StableHlo.ternary main_v113 main_v115 main_v1 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v116 main_v117 (broadcastInDim S1000000x1 ![0] bcast_S1000000_S1000000x1_0 : (⟨S1000000, .i32⟩ : BufTy).Contents (Elt F) → (⟨S1000000x1, .i32⟩ : BufTy).Contents (Elt F)),
    StableHlo.binary main_v10 main_v117 main_v118 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_22 (constantI S_ 32 0#32),
    StableHlo.unary main_c_22 main_v119 (broadcastInDim S1000000 ![] bcast_S_S1000000 : (⟨S_, .i32⟩ : BufTy).Contents (Elt F) → (⟨S1000000, .i32⟩ : BufTy).Contents (Elt F)),
    StableHlo.binary main_v3 main_v119 main_v120 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 100000#32),
    StableHlo.unary main_c_23 main_v121 (broadcastInDim S1000000 ![] bcast_S_S1000000 : (⟨S_, .i32⟩ : BufTy).Contents (Elt F) → (⟨S1000000, .i32⟩ : BufTy).Contents (Elt F)),
    StableHlo.binary main_v3 main_v121 main_v122 (addi : (⟨S1000000, .i32⟩ : BufTy).Contents (Elt F) → (⟨S1000000, .i32⟩ : BufTy).Contents (Elt F) → (⟨S1000000, .i32⟩ : BufTy).Contents (Elt F)),
    StableHlo.ternary main_v120 main_v122 main_v3 main_v123 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v123 main_v124 (broadcastInDim S1000000x1 ![0] bcast_S1000000_S1000000x1_0 : (⟨S1000000, .i32⟩ : BufTy).Contents (Elt F) → (⟨S1000000x1, .i32⟩ : BufTy).Contents (Elt F)),
    StableHlo.binary main_v10 main_v124 main_v125 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.binary main_v118 main_v125 main_v126 (mulf : (⟨S1000000, .f32⟩ : BufTy).Contents (Elt F) → (⟨S1000000, .f32⟩ : BufTy).Contents (Elt F) → (⟨S1000000, .f32⟩ : BufTy).Contents (Elt F)),
    StableHlo.nullary main_c_24 (constantI S_ 32 0#32),
    StableHlo.unary main_c_24 main_v127 (broadcastInDim S1000000 ![] bcast_S_S1000000 : (⟨S_, .i32⟩ : BufTy).Contents (Elt F) → (⟨S1000000, .i32⟩ : BufTy).Contents (Elt F)),
    StableHlo.binary main_v1 main_v127 main_v128 (cmpi .slt : (⟨S1000000, .i32⟩ : BufTy).Contents (Elt F) → (⟨S1000000, .i32⟩ : BufTy).Contents (Elt F) → (⟨S1000000, .i1⟩ : BufTy).Contents (Elt F)),
    StableHlo.nullary main_c_25 (constantI S_ 32 100000#32),
    StableHlo.unary main_c_25 main_v129 (broadcastInDim S1000000 ![] bcast_S_S1000000 : (⟨S_, .i32⟩ : BufTy).Contents (Elt F) → (⟨S1000000, .i32⟩ : BufTy).Contents (Elt F)),
    StableHlo.binary main_v1 main_v129 main_v130 (addi : (⟨S1000000, .i32⟩ : BufTy).Contents (Elt F) → (⟨S1000000, .i32⟩ : BufTy).Contents (Elt F) → (⟨S1000000, .i32⟩ : BufTy).Contents (Elt F)),
    StableHlo.ternary main_v128 main_v130 main_v1 main_v131 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v131 main_v132 (broadcastInDim S1000000x1 ![0] bcast_S1000000_S1000000x1_0 : (⟨S1000000, .i32⟩ : BufTy).Contents (Elt F) → (⟨S1000000x1, .i32⟩ : BufTy).Contents (Elt F)),
    StableHlo.binary main_v111 main_v132 main_v133 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v126 main_v134 (broadcastInDim S1000000x1 ![0] bcast_S1000000_S1000000x1_0 : (⟨S1000000, .f32⟩ : BufTy).Contents (Elt F) → (⟨S1000000x1, .f32⟩ : BufTy).Contents (Elt F)),
    StableHlo.unary main_v134 main_v135 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v133 main_v135 main_v136 (mulf : (⟨S1000000x128, .f32⟩ : BufTy).Contents (Elt F) → (⟨S1000000x128, .f32⟩ : BufTy).Contents (Elt F) → (⟨S1000000x128, .f32⟩ : BufTy).Contents (Elt F)),
    StableHlo.nullary main_cst_26 (constant S_ .f32 0x00000000#32),
    StableHlo.unary main_cst_26 main_v137 (broadcastInDim S100000x128 ![] bcast_S_S100000x128 : (⟨S_, .f32⟩ : BufTy).Contents (Elt F) → (⟨S100000x128, .f32⟩ : BufTy).Contents (Elt F)),
    StableHlo.unary main_v3 main_v138 (broadcastInDim S1000000x1 ![0] bcast_S1000000_S1000000x1_0 : (⟨S1000000, .i32⟩ : BufTy).Contents (Elt F) → (⟨S1000000x1, .i32⟩ : BufTy).Contents (Elt F)),
    StableHlo.ternary main_v137 main_v138 main_v136 main_v139 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v10 main_v10 main_v140 (mulf : (⟨S100000, .f32⟩ : BufTy).Contents (Elt F) → (⟨S100000, .f32⟩ : BufTy).Contents (Elt F) → (⟨S100000, .f32⟩ : BufTy).Contents (Elt F)),
    StableHlo.unary main_v140 main_v141 (broadcastInDim S100000x1 ![0] bcast_S100000_S100000x1_0 : (⟨S100000, .f32⟩ : BufTy).Contents (Elt F) → (⟨S100000x1, .f32⟩ : BufTy).Contents (Elt F)),
    StableHlo.unary main_v141 main_v142 (broadcastInDim S100000x128 ![0, 1] bcast_S100000x1_S100000x128_0_1 : (⟨S100000x1, .f32⟩ : BufTy).Contents (Elt F) → (⟨S100000x128, .f32⟩ : BufTy).Contents (Elt F)),
    StableHlo.binary main_v111 main_v142 main_v143 (mulf : (⟨S100000x128, .f32⟩ : BufTy).Contents (Elt F) → (⟨S100000x128, .f32⟩ : BufTy).Contents (Elt F) → (⟨S100000x128, .f32⟩ : BufTy).Contents (Elt F)),
    StableHlo.binary main_v139 main_v143 main_v144 (addf : (⟨S100000x128, .f32⟩ : BufTy).Contents (Elt F) → (⟨S100000x128, .f32⟩ : BufTy).Contents (Elt F) → (⟨S100000x128, .f32⟩ : BufTy).Contents (Elt F)),
    StableHlo.unary main_v110 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v144 main_v146 main_v147 (addf : (⟨S100000x128, .f32⟩ : BufTy).Contents (Elt F) → (⟨S100000x128, .f32⟩ : BufTy).Contents (Elt F) → (⟨S100000x128, .f32⟩ : BufTy).Contents (Elt F)) ]

theorem segA1_writes : (segA1 : List (HloOp τ sig (Elt F))).Forall (WritesIn (InRange 143 191)) :=
  ⟨unary_writesIn (by decide) .., reshape_writesIn (by decide) .., unary_writesIn (by decide) .., reshape_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., unary_writesIn (by decide) .., unary_writesIn (by decide) .., binary_writesIn (by decide) .., nullary_writesIn (by decide) .., unary_writesIn (by decide) .., unary_writesIn (by decide) .., ternary_writesIn (by decide) .., binary_writesIn (by decide) .., unary_writesIn (by decide) .., unary_writesIn (by decide) .., binary_writesIn (by decide) .., binary_writesIn (by decide) .., unary_writesIn (by decide) .., unary_writesIn (by decide) .., binary_writesIn (by decide) ..⟩

theorem segA1_frame (V : Valuation τ sig (Elt F)) {r : Ref sig .tc} (h : ¬ InRange 143 191 r) :
    after segA1 V (no_index (Proc.devRef .tc r)) = V (Proc.devRef .tc r) :=
  after_of_writesIn segA1 V segA1_writes h

abbrev segB1 : List (HloOp τ sig (Elt F)) :=
  [ StableHlo.unary main_arg5 main_v148 ((extractStridedSlice S1x128 ![1, 0] · slices_S3x128_S1x128_1_0) : (⟨S3x128, .f32⟩ : BufTy).Contents (Elt F) → (⟨S1x128, .f32⟩ : BufTy).Contents (Elt F)),
    StableHlo.reshape main_v148 main_v149 rfl shapeCasts_S1x128_S128,
    StableHlo.unary main_arg6 main_v150 ((extractStridedSlice S1x128 ![1, 0] · slices_S3x128_S1x128_1_0) : (⟨S3x128, .f32⟩ : BufTy).Contents (Elt F) → (⟨S1x128, .f32⟩ : BufTy).Contents (Elt F)),
    StableHlo.reshape main_v150 main_v151 rfl shapeCasts_S1x128_S128,
    StableHlo.unary main_arg7 main_v152 ((extractStridedSlice S1x128 ![1, 0] · slices_S3x128_S1x128_1_0) : (⟨S3x128, .f32⟩ : BufTy).Contents (Elt F) → (⟨S1x128, .f32⟩ : BufTy).Contents (Elt F)),
    StableHlo.reshape main_v152 main_v153 rfl shapeCasts_S1x128_S128,
    StableHlo.nullary main_cst_27 (constant S_ .f32 0x00000000#32),
    StableHlo.unary main_cst_27 main_v154 (broadcastInDim S64x128 ![] bcast_S_S64x128 : (⟨S_, .f32⟩ : BufTy).Contents (Elt F) → (⟨S64x128, .f32⟩ : BufTy).Contents (Elt F)),
    StableHlo.unary main_arg2 main_v155 (broadcastInDim S100000x1 ![0] bcast_S100000_S100000x1_0 : (⟨S100000, .i32⟩ : BufTy).Contents (Elt F) → (⟨S100000x1, .i32⟩ : BufTy).Contents (Elt F)),
    StableHlo.ternary main_v154 main_v155 main_v147 main_v156 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.unary main_v19 main_v157 (broadcastInDim S64x128 ![0, 1] bcast_S64x1_S64x128_0_1 : (⟨S64x1, .f32⟩ : BufTy).Contents (Elt F) → (⟨S64x128, .f32⟩ : BufTy).Contents (Elt F)),
    StableHlo.binary main_v156 main_v157 main_v158 (mulf : (⟨S64x128, .f32⟩ : BufTy).Contents (Elt F) → (⟨S64x128, .f32⟩ : BufTy).Contents (Elt F) → (⟨S64x128, .f32⟩ : BufTy).Contents (Elt F)),
    StableHlo.nullary main_c_28 (constantI S_ 32 0#32),
    StableHlo.unary main_c_28 main_v159 (broadcastInDim S100000 ![] bcast_S_S100000 : (⟨S_, .i32⟩ : BufTy).Contents (Elt F) → (⟨S100000, .i32⟩ : BufTy).Contents (Elt F)),
    StableHlo.binary main_arg2 main_v159 main_v160 (cmpi .slt : (⟨S100000, .i32⟩ : BufTy).Contents (Elt F) → (⟨S100000, .i32⟩ : BufTy).Contents (Elt F) → (⟨S100000, .i1⟩ : BufTy).Contents (Elt F)),
    StableHlo.nullary main_c_29 (constantI S_ 32 64#32),
    StableHlo.unary main_c_29 main_v161 (broadcastInDim S100000 ![] bcast_S_S100000 : (⟨S_, .i32⟩ : BufTy).Contents (Elt F) → (⟨S100000, .i32⟩ : BufTy).Contents (Elt F)),
    StableHlo.binary main_arg2 main_v161 main_v162 (addi : (⟨S100000, .i32⟩ : BufTy).Contents (Elt F) → (⟨S100000, .i32⟩ : BufTy).Contents (Elt F) → (⟨S100000, .i32⟩ : BufTy).Contents (Elt F)),
    StableHlo.ternary main_v160 main_v162 main_arg2 main_v163 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v163 main_v164 (broadcastInDim S100000x1 ![0] bcast_S100000_S100000x1_0 : (⟨S100000, .i32⟩ : BufTy).Contents (Elt F) → (⟨S100000x1, .i32⟩ : BufTy).Contents (Elt F)),
    StableHlo.binary main_v158 main_v164 main_v165 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    StableHlo.unary main_v153 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v167 main_v168 (mulf : (⟨S100000x128, .f32⟩ : BufTy).Contents (Elt F) → (⟨S100000x128, .f32⟩ : BufTy).Contents (Elt F) → (⟨S100000x128, .f32⟩ : BufTy).Contents (Elt F)),
    StableHlo.binary main_v147 main_v168 main_v169 (subf : (⟨S100000x128, .f32⟩ : BufTy).Contents (Elt F) → (⟨S100000x128, .f32⟩ : BufTy).Contents (Elt F) → (⟨S100000x128, .f32⟩ : BufTy).Contents (Elt F)) ]

theorem segB1_writes : (segB1 : List (HloOp τ sig (Elt F))).Forall (WritesIn (InRange 191 216)) :=
  ⟨unary_writesIn (by decide) .., reshape_writesIn (by decide) .., unary_writesIn (by decide) .., reshape_writesIn (by decide) .., unary_writesIn (by decide) .., reshape_writesIn (by decide) .., nullary_writesIn (by decide) .., unary_writesIn (by decide) .., unary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., unary_writesIn (by decide) .., unary_writesIn (by decide) .., binary_writesIn (by decide) .., binary_writesIn (by decide) ..⟩

theorem segB1_frame (V : Valuation τ sig (Elt F)) {r : Ref sig .tc} (h : ¬ InRange 191 216 r) :
    after segB1 V (no_index (Proc.devRef .tc r)) = V (Proc.devRef .tc r) :=
  after_of_writesIn segB1 V segB1_writes h

abbrev segC1 : List (HloOp τ sig (Elt F)) :=
  [ StableHlo.binary main_v169 main_v169 main_v170 (mulf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x00000000#32),
    StableHlo.unary main_cst_30 main_v171 (broadcastInDim S64x128 ![] bcast_S_S64x128 : (⟨S_, .f32⟩ : BufTy).Contents (Elt F) → (⟨S64x128, .f32⟩ : BufTy).Contents (Elt F)),
    StableHlo.unary main_arg2 main_v172 (broadcastInDim S100000x1 ![0] bcast_S100000_S100000x1_0 : (⟨S100000, .i32⟩ : BufTy).Contents (Elt F) → (⟨S100000x1, .i32⟩ : BufTy).Contents (Elt F)),
    StableHlo.ternary main_v171 main_v172 main_v170 main_v173 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.unary main_v19 main_v174 (broadcastInDim S64x128 ![0, 1] bcast_S64x1_S64x128_0_1 : (⟨S64x1, .f32⟩ : BufTy).Contents (Elt F) → (⟨S64x128, .f32⟩ : BufTy).Contents (Elt F)),
    StableHlo.binary main_v173 main_v174 main_v175 (mulf : (⟨S64x128, .f32⟩ : BufTy).Contents (Elt F) → (⟨S64x128, .f32⟩ : BufTy).Contents (Elt F) → (⟨S64x128, .f32⟩ : BufTy).Contents (Elt F)),
    StableHlo.nullary main_c_31 (constantI S_ 32 0#32),
    StableHlo.unary main_c_31 main_v176 (broadcastInDim S100000 ![] bcast_S_S100000 : (⟨S_, .i32⟩ : BufTy).Contents (Elt F) → (⟨S100000, .i32⟩ : BufTy).Contents (Elt F)),
    StableHlo.binary main_arg2 main_v176 main_v177 (cmpi .slt : (⟨S100000, .i32⟩ : BufTy).Contents (Elt F) → (⟨S100000, .i32⟩ : BufTy).Contents (Elt F) → (⟨S100000, .i1⟩ : BufTy).Contents (Elt F)),
    StableHlo.nullary main_c_32 (constantI S_ 32 64#32),
    StableHlo.unary main_c_32 main_v178 (broadcastInDim S100000 ![] bcast_S_S100000 : (⟨S_, .i32⟩ : BufTy).Contents (Elt F) → (⟨S100000, .i32⟩ : BufTy).Contents (Elt F)),
    StableHlo.binary main_arg2 main_v178 main_v179 (addi : (⟨S100000, .i32⟩ : BufTy).Contents (Elt F) → (⟨S100000, .i32⟩ : BufTy).Contents (Elt F) → (⟨S100000, .i32⟩ : BufTy).Contents (Elt F)),
    StableHlo.ternary main_v177 main_v179 main_arg2 main_v180 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v180 main_v181 (broadcastInDim S100000x1 ![0] bcast_S100000_S100000x1_0 : (⟨S100000, .i32⟩ : BufTy).Contents (Elt F) → (⟨S100000x1, .i32⟩ : BufTy).Contents (Elt F)),
    StableHlo.binary main_v175 main_v181 main_v182 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    StableHlo.nullary main_cst_33 (constant S_ .f32 0x3727C5AC#32),
    StableHlo.unary main_cst_33 main_v183 (broadcastInDim S100000x128 ![] bcast_S_S100000x128 : (⟨S_, .f32⟩ : BufTy).Contents (Elt F) → (⟨S100000x128, .f32⟩ : BufTy).Contents (Elt F)),
    StableHlo.binary main_v182 main_v183 main_v184 (addf : (⟨S100000x128, .f32⟩ : BufTy).Contents (Elt F) → (⟨S100000x128, .f32⟩ : BufTy).Contents (Elt F) → (⟨S100000x128, .f32⟩ : BufTy).Contents (Elt F)),
    StableHlo.unary main_v184 main_v185 (Host.rsqrt : (⟨S100000x128, .f32⟩ : BufTy).Contents (Elt F) → (⟨S100000x128, .f32⟩ : BufTy).Contents (Elt F)),
    StableHlo.binary main_v169 main_v185 main_v186 (mulf : (⟨S100000x128, .f32⟩ : BufTy).Contents (Elt F) → (⟨S100000x128, .f32⟩ : BufTy).Contents (Elt F) → (⟨S100000x128, .f32⟩ : BufTy).Contents (Elt F)),
    StableHlo.unary main_v149 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S100000x128 ![0, 1] bcast_S1x128_S100000x128_0_1 : (⟨S1x128, .f32⟩ : BufTy).Contents (Elt F) → (⟨S100000x128, .f32⟩ : BufTy).Contents (Elt F)),
    StableHlo.binary main_v186 main_v188 main_v189 (mulf : (⟨S100000x128, .f32⟩ : BufTy).Contents (Elt F) → (⟨S100000x128, .f32⟩ : BufTy).Contents (Elt F) → (⟨S100000x128, .f32⟩ : BufTy).Contents (Elt F)),
    StableHlo.unary main_v151 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S100000x128 ![0, 1] bcast_S1x128_S100000x128_0_1 : (⟨S1x128, .f32⟩ : BufTy).Contents (Elt F) → (⟨S100000x128, .f32⟩ : BufTy).Contents (Elt F)),
    StableHlo.binary main_v189 main_v191 main_v192 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v192) main_call1.v0 main_call1.v1 (cmpf .oge),
    StableHlo.TRef.unary (.of main_cst_34) main_call1.v2 id,
    StableHlo.TRef.unary main_call1.v2 main_call1.v3 (broadcastInDim S100000x128 ![] bcast_S_S100000x128),
    StableHlo.TRef.binary main_call1.v3 (.of main_v192) main_call1.v4 mulf,
    StableHlo.TRef.ternary main_call1.v1 (.of main_v192) main_call1.v4 main_call1.call0.v0 select ]

theorem segC1_writes : (segC1 : List (HloOp τ sig (Elt F))).Forall (WritesIn (InRange 216 251)) :=
  ⟨binary_writesIn (by decide) .., nullary_writesIn (by decide) .., unary_writesIn (by decide) .., unary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., nullary_writesIn (by decide) .., unary_writesIn (by decide) .., binary_writesIn (by decide) .., unary_writesIn (by decide) .., binary_writesIn (by decide) .., unary_writesIn (by decide) .., unary_writesIn (by decide) .., binary_writesIn (by decide) .., unary_writesIn (by decide) .., unary_writesIn (by decide) .., binary_writesIn (by decide) .., nullary_writesIn (by decide) .., nullary_writesIn (by decide) .., unary_writesIn (by decide) .., binary_writesIn (by decide) .., unary_writesIn (by decide) .., unary_writesIn (by decide) .., binary_writesIn (by decide) .., ternary_writesIn (by decide) ..⟩

theorem segC1_frame (V : Valuation τ sig (Elt F)) {r : Ref sig .tc} (h : ¬ InRange 216 251 r) :
    after segC1 V (no_index (Proc.devRef .tc r)) = V (Proc.devRef .tc r) :=
  after_of_writesIn segC1 V segC1_writes h

theorem segA1_val (V : Valuation τ sig (Elt F)) (ei : IVec S2x1000000 32)
    (h1 : V (Proc.devRef .tc main_v1) = srcT ei) (h3 : V (Proc.devRef .tc main_v3) = dstT ei) (h10 : V (Proc.devRef .tc main_v10) = dinvT (F := F) ei) :
    after segA1 V (Proc.devRef .tc main_v147)
      = gcnT ei (wT1 (V (Proc.devRef .tc main_arg3))) (rowT1 (V (Proc.devRef .tc main_arg4))) (V (Proc.devRef .tc main_v106)) := by
  after_results_simp
  rw [h1, h3, h10]
  rfl

theorem segB1_val (V : Valuation τ sig (Elt F)) (batch : IVec S100000 32) (g : FVec F S100000x128 .f32)
    (h19 : V (Proc.devRef .tc main_v19) = cinvT (F := F) batch) (hb : V (Proc.devRef .tc main_arg2) = batch) (hg : V (Proc.devRef .tc main_v147) = g) :
    after segB1 V (Proc.devRef .tc main_v169)
        = subf g (mulf (backT batch (segT batch g)) (rowB (rowT1 (V (Proc.devRef .tc main_arg7)))))
      ∧ after segB1 V (Proc.devRef .tc main_v149) = rowT1 (V (Proc.devRef .tc main_arg5))
      ∧ after segB1 V (Proc.devRef .tc main_v151) = rowT1 (V (Proc.devRef .tc main_arg6)) := by
  refine ⟨?_, ?_, ?_⟩
  · after_results_simp
    rw [h19, hb, hg]
    rfl
  · after_results_simp
    rfl
  · after_results_simp
    rfl

theorem segC1_val (V : Valuation τ sig (Elt F)) (batch : IVec S100000 32) (o : FVec F S100000x128 .f32) (gw gb : FVec F S128 .f32)
    (h19 : V (Proc.devRef .tc main_v19) = cinvT (F := F) batch) (hb : V (Proc.devRef .tc main_arg2) = batch)
    (ho : V (Proc.devRef .tc main_v169) = o) (hgw : V (Proc.devRef .tc main_v149) = gw) (hgb : V (Proc.devRef .tc main_v151) = gb) :
    after segC1 V (Proc.devRef .tc main_v193)
      = lreluT (addf (mulf (mulf o (Host.rsqrt (addf (backT batch (segT batch (mulf o o)))
            (broadcastInDim S100000x128 ![] bcast_S_S100000x128 (constant S_ .f32 0x3727C5AC#32))))) (rowB gw)) (rowB gb))
          (constant S_ .f32 0x3C23D70A#32) := by
  after_results_simp
  rw [h19, hb, ho, hgw, hgb]
  rfl

abbrev layer1 : List (HloOp τ sig (Elt F)) := segA1 ++ (segB1 ++ segC1)

theorem layer1_val (V : Valuation τ sig (Elt F)) (ei : IVec S2x1000000 32) (batch : IVec S100000 32)
    (h1 : V (Proc.devRef .tc main_v1) = srcT ei) (h3 : V (Proc.devRef .tc main_v3) = dstT ei) (h10 : V (Proc.devRef .tc main_v10) = dinvT (F := F) ei)
    (h19 : V (Proc.devRef .tc main_v19) = cinvT (F := F) batch) (hb : V (Proc.devRef .tc main_arg2) = batch) :
    after layer1 V (Proc.devRef .tc main_v193)
      = layerT ei batch (wT1 (V (Proc.devRef .tc main_arg3))) (rowT1 (V (Proc.devRef .tc main_arg4))) (rowT1 (V (Proc.devRef .tc main_arg5)))
          (rowT1 (V (Proc.devRef .tc main_arg6))) (rowT1 (V (Proc.devRef .tc main_arg7))) (V (Proc.devRef .tc main_v106)) := by
  rw [after_append, after_append]
  have hA := segA1_val V ei h1 h3 h10
  obtain ⟨hB, hB5, hB6⟩ := segB1_val (after segA1 V) batch _
    ((segA1_frame V (by decide)).trans h19) ((segA1_frame V (by decide)).trans hb) hA
  rw [segA1_frame V (by decide)] at hB hB5 hB6
  rw [segC1_val (after segB1 (after segA1 V)) batch _ _ _
    ((segB1_frame _ (by decide)).trans ((segA1_frame V (by decide)).trans h19))
    ((segB1_frame _ (by decide)).trans ((segA1_frame V (by decide)).trans hb)) hB hB5 hB6]
  rfl

theorem layer1_writes : (layer1 : List (HloOp τ sig (Elt F))).Forall (WritesIn (InRange 143 251)) :=
  forall_append (forall_writesIn_mono (fun _ => InRange.mono (by decide) (by decide)) segA1_writes)
    (forall_append (forall_writesIn_mono (fun _ => InRange.mono (by decide) (by decide)) segB1_writes)
      (forall_writesIn_mono (fun _ => InRange.mono (by decide) (by decide)) segC1_writes))
theorem layer1_frame (V : Valuation τ sig (Elt F)) {r : Ref sig .tc} (h : ¬ InRange 143 251 r) :
    after layer1 V (no_index (Proc.devRef .tc r)) = V (Proc.devRef .tc r) :=
  after_of_writesIn layer1 V layer1_writes h

theorem segA1_sub : (segA1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem segA1_fresh : ∀ op ∈ (segA1 : List (HloOp τ sig (Elt F))), op.fresh = ∅ := by
  intro _ h; (repeat (cases h with | head => rfl | tail _ h => ?_)); exact nomatch h

theorem segB1_sub : (segB1 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub ..⟩

theorem segB1_fresh : ∀ op ∈ (segB1 : List (HloOp τ sig (Elt F))), op.fresh = ∅ := by
  intro _ h; (repeat (cases h with | head => rfl | tail _ h => ?_)); exact nomatch h

theorem segC1_sub : (segC1 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem segC1_fresh : ∀ op ∈ (segC1 : List (HloOp τ sig (Elt F))), op.fresh = ∅ := by
  intro _ h; (repeat (cases h with | head => rfl | tail _ h => ?_)); exact nomatch h

theorem layer1_sub : (layer1 : List (HloOp τ sig (Elt F))).Forall fun op => op.bufs ⊆ tcRefs τ sig :=
  forall_append segA1_sub (forall_append segB1_sub segC1_sub)

theorem layer1_fresh : ∀ op ∈ (layer1 : List (HloOp τ sig (Elt F))), op.fresh = ∅ :=
  fresh_append segA1_fresh (fresh_append segB1_fresh segC1_fresh)

end Cert.ReferenceIdeal.H

end
-- ==== Proof.Ref.L2.lean ====
import proofs.«402146_j32049045962863_2_alg».proof.Proof.Ref.Basic
import proofs.«402146_j32049045962863_2_alg».proof.Proof.Ref.Terms

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

abbrev segA2 : List (HloOp τ sig (Elt F)) :=
  [ StableHlo.unary main_arg3 main_v194 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v194 main_v195 rfl shapeCasts_S1x128x128_S128x128,
    StableHlo.unary main_arg4 main_v196 ((extractStridedSlice S1x128 ![2, 0] · slices_S3x128_S1x128_2_0) : (⟨S3x128, .f32⟩ : BufTy).Contents (Elt F) → (⟨S1x128, .f32⟩ : BufTy).Contents (Elt F)),
    StableHlo.reshape main_v196 main_v197 rfl shapeCasts_S1x128_S128,
    StableHlo.binary main_v193 main_v195 main_v198 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_35 (constantI S_ 32 0#32),
    StableHlo.unary main_c_35 main_v199 (broadcastInDim S1000000 ![] bcast_S_S1000000 : (⟨S_, .i32⟩ : BufTy).Contents (Elt F) → (⟨S1000000, .i32⟩ : BufTy).Contents (Elt F)),
    StableHlo.binary main_v1 main_v199 main_v200 (cmpi .slt : (⟨S1000000, .i32⟩ : BufTy).Contents (Elt F) → (⟨S1000000, .i32⟩ : BufTy).Contents (Elt F) → (⟨S1000000, .i1⟩ : BufTy).Contents (Elt F)),
    StableHlo.nullary main_c_36 (constantI S_ 32 100000#32),
    StableHlo.unary main_c_36 main_v201 (broadcastInDim S1000000 ![] bcast_S_S1000000 : (⟨S_, .i32⟩ : BufTy).Contents (Elt F) → (⟨S1000000, .i32⟩ : BufTy).Contents (Elt F)),
    StableHlo.binary main_v1 main_v201 main_v202 (addi : (⟨S1000000, .i32⟩ : BufTy).Contents (Elt F) → (⟨S1000000, .i32⟩ : BufTy).Contents (Elt F) → (⟨S1000000, .i32⟩ : BufTy).Contents (Elt F)),
    StableHlo.ternary main_v200 main_v202 main_v1 main_v203 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v203 main_v204 (broadcastInDim S1000000x1 ![0] bcast_S1000000_S1000000x1_0 : (⟨S1000000, .i32⟩ : BufTy).Contents (Elt F) → (⟨S1000000x1, .i32⟩ : BufTy).Contents (Elt F)),
    StableHlo.binary main_v10 main_v204 main_v205 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_37 (constantI S_ 32 0#32),
    StableHlo.unary main_c_37 main_v206 (broadcastInDim S1000000 ![] bcast_S_S1000000 : (⟨S_, .i32⟩ : BufTy).Contents (Elt F) → (⟨S1000000, .i32⟩ : BufTy).Contents (Elt F)),
    StableHlo.binary main_v3 main_v206 main_v207 (cmpi .slt : (⟨S1000000, .i32⟩ : BufTy).Contents (Elt F) → (⟨S1000000, .i32⟩ : BufTy).Contents (Elt F) → (⟨S1000000, .i1⟩ : BufTy).Contents (Elt F)),
    StableHlo.nullary main_c_38 (constantI S_ 32 100000#32),
    StableHlo.unary main_c_38 main_v208 (broadcastInDim S1000000 ![] bcast_S_S1000000 : (⟨S_, .i32⟩ : BufTy).Contents (Elt F) → (⟨S1000000, .i32⟩ : BufTy).Contents (Elt F)),
    StableHlo.binary main_v3 main_v208 main_v209 (addi : (⟨S1000000, .i32⟩ : BufTy).Contents (Elt F) → (⟨S1000000, .i32⟩ : BufTy).Contents (Elt F) → (⟨S1000000, .i32⟩ : BufTy).Contents (Elt F)),
    StableHlo.ternary main_v207 main_v209 main_v3 main_v210 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v210 main_v211 (broadcastInDim S1000000x1 ![0] bcast_S1000000_S1000000x1_0 : (⟨S1000000, .i32⟩ : BufTy).Contents (Elt F) → (⟨S1000000x1, .i32⟩ : BufTy).Contents (Elt F)),
    StableHlo.binary main_v10 main_v211 main_v212 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.binary main_v205 main_v212 main_v213 (mulf : (⟨S1000000, .f32⟩ : BufTy).Contents (Elt F) → (⟨S1000000, .f32⟩ : BufTy).Contents (Elt F) → (⟨S1000000, .f32⟩ : BufTy).Contents (Elt F)),
    StableHlo.nullary main_c_39 (constantI S_ 32 0#32),
    StableHlo.unary main_c_39 main_v214 (broadcastInDim S1000000 ![] bcast_S_S1000000 : (⟨S_, .i32⟩ : BufTy).Contents (Elt F) → (⟨S1000000, .i32⟩ : BufTy).Contents (Elt F)),
    StableHlo.binary main_v1 main_v214 main_v215 (cmpi .slt : (⟨S1000000, .i32⟩ : BufTy).Contents (Elt F) → (⟨S1000000, .i32⟩ : BufTy).Contents (Elt F) → (⟨S1000000, .i1⟩ : BufTy).Contents (Elt F)),
    StableHlo.nullary main_c_40 (constantI S_ 32 100000#32),
    StableHlo.unary main_c_40 main_v216 (broadcastInDim S1000000 ![] bcast_S_S1000000 : (⟨S_, .i32⟩ : BufTy).Contents (Elt F) → (⟨S1000000, .i32⟩ : BufTy).Contents (Elt F)),
    StableHlo.binary main_v1 main_v216 main_v217 (addi : (⟨S1000000, .i32⟩ : BufTy).Contents (Elt F) → (⟨S1000000, .i32⟩ : BufTy).Contents (Elt F) → (⟨S1000000, .i32⟩ : BufTy).Contents (Elt F)),
    StableHlo.ternary main_v215 main_v217 main_v1 main_v218 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v218 main_v219 (broadcastInDim S1000000x1 ![0] bcast_S1000000_S1000000x1_0 : (⟨S1000000, .i32⟩ : BufTy).Contents (Elt F) → (⟨S1000000x1, .i32⟩ : BufTy).Contents (Elt F)),
    StableHlo.binary main_v198 main_v219 main_v220 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v213 main_v221 (broadcastInDim S1000000x1 ![0] bcast_S1000000_S1000000x1_0 : (⟨S1000000, .f32⟩ : BufTy).Contents (Elt F) → (⟨S1000000x1, .f32⟩ : BufTy).Contents (Elt F)),
    StableHlo.unary main_v221 main_v222 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v220 main_v222 main_v223 (mulf : (⟨S1000000x128, .f32⟩ : BufTy).Contents (Elt F) → (⟨S1000000x128, .f32⟩ : BufTy).Contents (Elt F) → (⟨S1000000x128, .f32⟩ : BufTy).Contents (Elt F)),
    StableHlo.nullary main_cst_41 (constant S_ .f32 0x00000000#32),
    StableHlo.unary main_cst_41 main_v224 (broadcastInDim S100000x128 ![] bcast_S_S100000x128 : (⟨S_, .f32⟩ : BufTy).Contents (Elt F) → (⟨S100000x128, .f32⟩ : BufTy).Contents (Elt F)),
    StableHlo.unary main_v3 main_v225 (broadcastInDim S1000000x1 ![0] bcast_S1000000_S1000000x1_0 : (⟨S1000000, .i32⟩ : BufTy).Contents (Elt F) → (⟨S1000000x1, .i32⟩ : BufTy).Contents (Elt F)),
    StableHlo.ternary main_v224 main_v225 main_v223 main_v226 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.binary main_v10 main_v10 main_v227 (mulf : (⟨S100000, .f32⟩ : BufTy).Contents (Elt F) → (⟨S100000, .f32⟩ : BufTy).Contents (Elt F) → (⟨S100000, .f32⟩ : BufTy).Contents (Elt F)),
    StableHlo.unary main_v227 main_v228 (broadcastInDim S100000x1 ![0] bcast_S100000_S100000x1_0 : (⟨S100000, .f32⟩ : BufTy).Contents (Elt F) → (⟨S100000x1, .f32⟩ : BufTy).Contents (Elt F)),
    StableHlo.unary main_v228 main_v229 (broadcastInDim S100000x128 ![0, 1] bcast_S100000x1_S100000x128_0_1 : (⟨S100000x1, .f32⟩ : BufTy).Contents (Elt F) → (⟨S100000x128, .f32⟩ : BufTy).Contents (Elt F)),
    StableHlo.binary main_v198 main_v229 main_v230 (mulf : (⟨S100000x128, .f32⟩ : BufTy).Contents (Elt F) → (⟨S100000x128, .f32⟩ : BufTy).Contents (Elt F) → (⟨S100000x128, .f32⟩ : BufTy).Contents (Elt F)),
    StableHlo.binary main_v226 main_v230 main_v231 (addf : (⟨S100000x128, .f32⟩ : BufTy).Contents (Elt F) → (⟨S100000x128, .f32⟩ : BufTy).Contents (Elt F) → (⟨S100000x128, .f32⟩ : BufTy).Contents (Elt F)),
    StableHlo.unary main_v197 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S100000x128 ![0, 1] bcast_S1x128_S100000x128_0_1 : (⟨S1x128, .f32⟩ : BufTy).Contents (Elt F) → (⟨S100000x128, .f32⟩ : BufTy).Contents (Elt F)),
    StableHlo.binary main_v231 main_v233 main_v234 (addf : (⟨S100000x128, .f32⟩ : BufTy).Contents (Elt F) → (⟨S100000x128, .f32⟩ : BufTy).Contents (Elt F) → (⟨S100000x128, .f32⟩ : BufTy).Contents (Elt F)) ]

theorem segA2_writes : (segA2 : List (HloOp τ sig (Elt F))).Forall (WritesIn (InRange 251 299)) :=
  ⟨unary_writesIn (by decide) .., reshape_writesIn (by decide) .., unary_writesIn (by decide) .., reshape_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., unary_writesIn (by decide) .., unary_writesIn (by decide) .., binary_writesIn (by decide) .., nullary_writesIn (by decide) .., unary_writesIn (by decide) .., unary_writesIn (by decide) .., ternary_writesIn (by decide) .., binary_writesIn (by decide) .., unary_writesIn (by decide) .., unary_writesIn (by decide) .., binary_writesIn (by decide) .., binary_writesIn (by decide) .., unary_writesIn (by decide) .., unary_writesIn (by decide) .., binary_writesIn (by decide) ..⟩

theorem segA2_frame (V : Valuation τ sig (Elt F)) {r : Ref sig .tc} (h : ¬ InRange 251 299 r) :
    after segA2 V (no_index (Proc.devRef .tc r)) = V (Proc.devRef .tc r) :=
  after_of_writesIn segA2 V segA2_writes h

abbrev segB2 : List (HloOp τ sig (Elt F)) :=
  [ StableHlo.unary main_arg5 main_v235 ((extractStridedSlice S1x128 ![2, 0] · slices_S3x128_S1x128_2_0) : (⟨S3x128, .f32⟩ : BufTy).Contents (Elt F) → (⟨S1x128, .f32⟩ : BufTy).Contents (Elt F)),
    StableHlo.reshape main_v235 main_v236 rfl shapeCasts_S1x128_S128,
    StableHlo.unary main_arg6 main_v237 ((extractStridedSlice S1x128 ![2, 0] · slices_S3x128_S1x128_2_0) : (⟨S3x128, .f32⟩ : BufTy).Contents (Elt F) → (⟨S1x128, .f32⟩ : BufTy).Contents (Elt F)),
    StableHlo.reshape main_v237 main_v238 rfl shapeCasts_S1x128_S128,
    StableHlo.unary main_arg7 main_v239 ((extractStridedSlice S1x128 ![2, 0] · slices_S3x128_S1x128_2_0) : (⟨S3x128, .f32⟩ : BufTy).Contents (Elt F) → (⟨S1x128, .f32⟩ : BufTy).Contents (Elt F)),
    StableHlo.reshape main_v239 main_v240 rfl shapeCasts_S1x128_S128,
    StableHlo.nullary main_cst_42 (constant S_ .f32 0x00000000#32),
    StableHlo.unary main_cst_42 main_v241 (broadcastInDim S64x128 ![] bcast_S_S64x128 : (⟨S_, .f32⟩ : BufTy).Contents (Elt F) → (⟨S64x128, .f32⟩ : BufTy).Contents (Elt F)),
    StableHlo.unary main_arg2 main_v242 (broadcastInDim S100000x1 ![0] bcast_S100000_S100000x1_0 : (⟨S100000, .i32⟩ : BufTy).Contents (Elt F) → (⟨S100000x1, .i32⟩ : BufTy).Contents (Elt F)),
    StableHlo.ternary main_v241 main_v242 main_v234 main_v243 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.unary main_v19 main_v244 (broadcastInDim S64x128 ![0, 1] bcast_S64x1_S64x128_0_1 : (⟨S64x1, .f32⟩ : BufTy).Contents (Elt F) → (⟨S64x128, .f32⟩ : BufTy).Contents (Elt F)),
    StableHlo.binary main_v243 main_v244 main_v245 (mulf : (⟨S64x128, .f32⟩ : BufTy).Contents (Elt F) → (⟨S64x128, .f32⟩ : BufTy).Contents (Elt F) → (⟨S64x128, .f32⟩ : BufTy).Contents (Elt F)),
    StableHlo.nullary main_c_43 (constantI S_ 32 0#32),
    StableHlo.unary main_c_43 main_v246 (broadcastInDim S100000 ![] bcast_S_S100000 : (⟨S_, .i32⟩ : BufTy).Contents (Elt F) → (⟨S100000, .i32⟩ : BufTy).Contents (Elt F)),
    StableHlo.binary main_arg2 main_v246 main_v247 (cmpi .slt : (⟨S100000, .i32⟩ : BufTy).Contents (Elt F) → (⟨S100000, .i32⟩ : BufTy).Contents (Elt F) → (⟨S100000, .i1⟩ : BufTy).Contents (Elt F)),
    StableHlo.nullary main_c_44 (constantI S_ 32 64#32),
    StableHlo.unary main_c_44 main_v248 (broadcastInDim S100000 ![] bcast_S_S100000 : (⟨S_, .i32⟩ : BufTy).Contents (Elt F) → (⟨S100000, .i32⟩ : BufTy).Contents (Elt F)),
    StableHlo.binary main_arg2 main_v248 main_v249 (addi : (⟨S100000, .i32⟩ : BufTy).Contents (Elt F) → (⟨S100000, .i32⟩ : BufTy).Contents (Elt F) → (⟨S100000, .i32⟩ : BufTy).Contents (Elt F)),
    StableHlo.ternary main_v247 main_v249 main_arg2 main_v250 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v250 main_v251 (broadcastInDim S100000x1 ![0] bcast_S100000_S100000x1_0 : (⟨S100000, .i32⟩ : BufTy).Contents (Elt F) → (⟨S100000x1, .i32⟩ : BufTy).Contents (Elt F)),
    StableHlo.binary main_v245 main_v251 main_v252 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    StableHlo.unary main_v240 main_v253 (broadcastInDim S1x128 ![1] bcast_S128_S1x128_1 : (⟨S128, .f32⟩ : BufTy).Contents (Elt F) → (⟨S1x128, .f32⟩ : BufTy).Contents (Elt F)),
    StableHlo.unary main_v253 main_v254 (broadcastInDim S100000x128 ![0, 1] bcast_S1x128_S100000x128_0_1 : (⟨S1x128, .f32⟩ : BufTy).Contents (Elt F) → (⟨S100000x128, .f32⟩ : BufTy).Contents (Elt F)),
    StableHlo.binary main_v252 main_v254 main_v255 (mulf : (⟨S100000x128, .f32⟩ : BufTy).Contents (Elt F) → (⟨S100000x128, .f32⟩ : BufTy).Contents (Elt F) → (⟨S100000x128, .f32⟩ : BufTy).Contents (Elt F)),
    StableHlo.binary main_v234 main_v255 main_v256 (subf : (⟨S100000x128, .f32⟩ : BufTy).Contents (Elt F) → (⟨S100000x128, .f32⟩ : BufTy).Contents (Elt F) → (⟨S100000x128, .f32⟩ : BufTy).Contents (Elt F)) ]

theorem segB2_writes : (segB2 : List (HloOp τ sig (Elt F))).Forall (WritesIn (InRange 299 324)) :=
  ⟨unary_writesIn (by decide) .., reshape_writesIn (by decide) .., unary_writesIn (by decide) .., reshape_writesIn (by decide) .., unary_writesIn (by decide) .., reshape_writesIn (by decide) .., nullary_writesIn (by decide) .., unary_writesIn (by decide) .., unary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., unary_writesIn (by decide) .., unary_writesIn (by decide) .., binary_writesIn (by decide) .., binary_writesIn (by decide) ..⟩

theorem segB2_frame (V : Valuation τ sig (Elt F)) {r : Ref sig .tc} (h : ¬ InRange 299 324 r) :
    after segB2 V (no_index (Proc.devRef .tc r)) = V (Proc.devRef .tc r) :=
  after_of_writesIn segB2 V segB2_writes h

abbrev segC2 : List (HloOp τ sig (Elt F)) :=
  [ StableHlo.binary main_v256 main_v256 main_v257 (mulf : (⟨S100000x128, .f32⟩ : BufTy).Contents (Elt F) → (⟨S100000x128, .f32⟩ : BufTy).Contents (Elt F) → (⟨S100000x128, .f32⟩ : BufTy).Contents (Elt F)),
    StableHlo.nullary main_cst_45 (constant S_ .f32 0x00000000#32),
    StableHlo.unary main_cst_45 main_v258 (broadcastInDim S64x128 ![] bcast_S_S64x128 : (⟨S_, .f32⟩ : BufTy).Contents (Elt F) → (⟨S64x128, .f32⟩ : BufTy).Contents (Elt F)),
    StableHlo.unary main_arg2 main_v259 (broadcastInDim S100000x1 ![0] bcast_S100000_S100000x1_0 : (⟨S100000, .i32⟩ : BufTy).Contents (Elt F) → (⟨S100000x1, .i32⟩ : BufTy).Contents (Elt F)),
    StableHlo.ternary main_v258 main_v259 main_v257 main_v260 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.unary main_v19 main_v261 (broadcastInDim S64x128 ![0, 1] bcast_S64x1_S64x128_0_1 : (⟨S64x1, .f32⟩ : BufTy).Contents (Elt F) → (⟨S64x128, .f32⟩ : BufTy).Contents (Elt F)),
    StableHlo.binary main_v260 main_v261 main_v262 (mulf : (⟨S64x128, .f32⟩ : BufTy).Contents (Elt F) → (⟨S64x128, .f32⟩ : BufTy).Contents (Elt F) → (⟨S64x128, .f32⟩ : BufTy).Contents (Elt F)),
    StableHlo.nullary main_c_46 (constantI S_ 32 0#32),
    StableHlo.unary main_c_46 main_v263 (broadcastInDim S100000 ![] bcast_S_S100000 : (⟨S_, .i32⟩ : BufTy).Contents (Elt F) → (⟨S100000, .i32⟩ : BufTy).Contents (Elt F)),
    StableHlo.binary main_arg2 main_v263 main_v264 (cmpi .slt : (⟨S100000, .i32⟩ : BufTy).Contents (Elt F) → (⟨S100000, .i32⟩ : BufTy).Contents (Elt F) → (⟨S100000, .i1⟩ : BufTy).Contents (Elt F)),
    StableHlo.nullary main_c_47 (constantI S_ 32 64#32),
    StableHlo.unary main_c_47 main_v265 (broadcastInDim S100000 ![] bcast_S_S100000 : (⟨S_, .i32⟩ : BufTy).Contents (Elt F) → (⟨S100000, .i32⟩ : BufTy).Contents (Elt F)),
    StableHlo.binary main_arg2 main_v265 main_v266 (addi : (⟨S100000, .i32⟩ : BufTy).Contents (Elt F) → (⟨S100000, .i32⟩ : BufTy).Contents (Elt F) → (⟨S100000, .i32⟩ : BufTy).Contents (Elt F)),
    StableHlo.ternary main_v264 main_v266 main_arg2 main_v267 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v267 main_v268 (broadcastInDim S100000x1 ![0] bcast_S100000_S100000x1_0 : (⟨S100000, .i32⟩ : BufTy).Contents (Elt F) → (⟨S100000x1, .i32⟩ : BufTy).Contents (Elt F)),
    StableHlo.binary main_v262 main_v268 main_v269 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F)),
    StableHlo.nullary main_cst_48 (constant S_ .f32 0x3727C5AC#32),
    StableHlo.unary main_cst_48 main_v270 (broadcastInDim S100000x128 ![] bcast_S_S100000x128 : (⟨S_, .f32⟩ : BufTy).Contents (Elt F) → (⟨S100000x128, .f32⟩ : BufTy).Contents (Elt F)),
    StableHlo.binary main_v269 main_v270 main_v271 (addf : (⟨S100000x128, .f32⟩ : BufTy).Contents (Elt F) → (⟨S100000x128, .f32⟩ : BufTy).Contents (Elt F) → (⟨S100000x128, .f32⟩ : BufTy).Contents (Elt F)),
    StableHlo.unary main_v271 main_v272 (Host.rsqrt : (⟨S100000x128, .f32⟩ : BufTy).Contents (Elt F) → (⟨S100000x128, .f32⟩ : BufTy).Contents (Elt F)),
    StableHlo.binary main_v256 main_v272 main_v273 (mulf : (⟨S100000x128, .f32⟩ : BufTy).Contents (Elt F) → (⟨S100000x128, .f32⟩ : BufTy).Contents (Elt F) → (⟨S100000x128, .f32⟩ : BufTy).Contents (Elt F)),
    StableHlo.unary main_v236 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S100000x128 ![0, 1] bcast_S1x128_S100000x128_0_1 : (⟨S1x128, .f32⟩ : BufTy).Contents (Elt F) → (⟨S100000x128, .f32⟩ : BufTy).Contents (Elt F)),
    StableHlo.binary main_v273 main_v275 main_v276 (mulf : (⟨S100000x128, .f32⟩ : BufTy).Contents (Elt F) → (⟨S100000x128, .f32⟩ : BufTy).Contents (Elt F) → (⟨S100000x128, .f32⟩ : BufTy).Contents (Elt F)),
    StableHlo.unary main_v238 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S100000x128 ![0, 1] bcast_S1x128_S100000x128_0_1 : (⟨S1x128, .f32⟩ : BufTy).Contents (Elt F) → (⟨S100000x128, .f32⟩ : BufTy).Contents (Elt F)),
    StableHlo.binary main_v276 main_v278 main_v279 (addf : (⟨S100000x128, .f32⟩ : BufTy).Contents (Elt F) → (⟨S100000x128, .f32⟩ : BufTy).Contents (Elt F) → (⟨S100000x128, .f32⟩ : BufTy).Contents (Elt F)),
    StableHlo.nullary main_cst_49 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v279) main_call2.v0 main_call2.v1 (cmpf .oge),
    StableHlo.TRef.unary (.of main_cst_49) main_call2.v2 id,
    StableHlo.TRef.unary main_call2.v2 main_call2.v3 (broadcastInDim S100000x128 ![] bcast_S_S100000x128),
    StableHlo.TRef.binary main_call2.v3 (.of main_v279) main_call2.v4 mulf,
    StableHlo.TRef.ternary main_call2.v1 (.of main_v279) main_call2.v4 main_call2.call0.v0 select ]

theorem segC2_writes : (segC2 : List (HloOp τ sig (Elt F))).Forall (WritesIn (InRange 324 359)) :=
  ⟨binary_writesIn (by decide) .., nullary_writesIn (by decide) .., unary_writesIn (by decide) .., unary_writesIn (by decide) .., ternary_writesIn (by decide) .., unary_writesIn (by decide) .., binary_writesIn (by decide) .., nullary_writesIn (by decide) .., unary_writesIn (by decide) .., binary_writesIn (by decide) .., nullary_writesIn (by decide) .., unary_writesIn (by decide) .., binary_writesIn (by decide) .., ternary_writesIn (by decide) .., unary_writesIn (by decide) .., binary_writesIn (by decide) .., nullary_writesIn (by decide) .., unary_writesIn (by decide) .., binary_writesIn (by decide) .., unary_writesIn (by decide) .., binary_writesIn (by decide) .., unary_writesIn (by decide) .., unary_writesIn (by decide) .., binary_writesIn (by decide) .., unary_writesIn (by decide) .., unary_writesIn (by decide) .., binary_writesIn (by decide) .., nullary_writesIn (by decide) .., nullary_writesIn (by decide) .., unary_writesIn (by decide) .., binary_writesIn (by decide) .., unary_writesIn (by decide) .., unary_writesIn (by decide) .., binary_writesIn (by decide) .., ternary_writesIn (by decide) ..⟩

theorem segC2_frame (V : Valuation τ sig (Elt F)) {r : Ref sig .tc} (h : ¬ InRange 324 359 r) :
    after segC2 V (no_index (Proc.devRef .tc r)) = V (Proc.devRef .tc r) :=
  after_of_writesIn segC2 V segC2_writes h

theorem segA2_val (V : Valuation τ sig (Elt F)) (ei : IVec S2x1000000 32)
    (h1 : V (Proc.devRef .tc main_v1) = srcT ei) (h3 : V (Proc.devRef .tc main_v3) = dstT ei) (h10 : V (Proc.devRef .tc main_v10) = dinvT (F := F) ei) :
    after segA2 V (Proc.devRef .tc main_v234)
      = gcnT ei (wT2 (V (Proc.devRef .tc main_arg3))) (rowT2 (V (Proc.devRef .tc main_arg4))) (V (Proc.devRef .tc main_v193)) := by
  after_results_simp
  rw [h1, h3, h10]
  rfl

theorem segB2_val (V : Valuation τ sig (Elt F)) (batch : IVec S100000 32) (g : FVec F S100000x128 .f32)
    (h19 : V (Proc.devRef .tc main_v19) = cinvT (F := F) batch) (hb : V (Proc.devRef .tc main_arg2) = batch) (hg : V (Proc.devRef .tc main_v234) = g) :
    after segB2 V (Proc.devRef .tc main_v256)
        = subf g (mulf (backT batch (segT batch g)) (rowB (rowT2 (V (Proc.devRef .tc main_arg7)))))
      ∧ after segB2 V (Proc.devRef .tc main_v236) = rowT2 (V (Proc.devRef .tc main_arg5))
      ∧ after segB2 V (Proc.devRef .tc main_v238) = rowT2 (V (Proc.devRef .tc main_arg6)) := by
  refine ⟨?_, ?_, ?_⟩
  · after_results_simp
    rw [h19, hb, hg]
    rfl
  · after_results_simp
    rfl
  · after_results_simp
    rfl

theorem segC2_val (V : Valuation τ sig (Elt F)) (batch : IVec S100000 32) (o : FVec F S100000x128 .f32) (gw gb : FVec F S128 .f32)
    (h19 : V (Proc.devRef .tc main_v19) = cinvT (F := F) batch) (hb : V (Proc.devRef .tc main_arg2) = batch)
    (ho : V (Proc.devRef .tc main_v256) = o) (hgw : V (Proc.devRef .tc main_v236) = gw) (hgb : V (Proc.devRef .tc main_v238) = gb) :
    after segC2 V (Proc.devRef .tc main_v280)
      = lreluT (addf (mulf (mulf o (Host.rsqrt (addf (backT batch (segT batch (mulf o o)))
            (broadcastInDim S100000x128 ![] bcast_S_S100000x128 (constant S_ .f32 0x3727C5AC#32))))) (rowB gw)) (rowB gb))
          (constant S_ .f32 0x3C23D70A#32) := by
  after_results_simp
  rw [h19, hb, ho, hgw, hgb]
  rfl

abbrev layer2 : List (HloOp τ sig (Elt F)) := segA2 ++ (segB2 ++ segC2)

theorem layer2_val (V : Valuation τ sig (Elt F)) (ei : IVec S2x1000000 32) (batch : IVec S100000 32)
    (h1 : V (Proc.devRef .tc main_v1) = srcT ei) (h3 : V (Proc.devRef .tc main_v3) = dstT ei) (h10 : V (Proc.devRef .tc main_v10) = dinvT (F := F) ei)
    (h19 : V (Proc.devRef .tc main_v19) = cinvT (F := F) batch) (hb : V (Proc.devRef .tc main_arg2) = batch) :
    after layer2 V (Proc.devRef .tc main_v280)
      = layerT ei batch (wT2 (V (Proc.devRef .tc main_arg3))) (rowT2 (V (Proc.devRef .tc main_arg4))) (rowT2 (V (Proc.devRef .tc main_arg5)))
          (rowT2 (V (Proc.devRef .tc main_arg6))) (rowT2 (V (Proc.devRef .tc main_arg7))) (V (Proc.devRef .tc main_v193)) := by
  rw [after_append, after_append]
  have hA := segA2_val V ei h1 h3 h10
  obtain ⟨hB, hB5, hB6⟩ := segB2_val (after segA2 V) batch _
    ((segA2_frame V (by decide)).trans h19) ((segA2_frame V (by decide)).trans hb) hA
  rw [segA2_frame V (by decide)] at hB hB5 hB6
  rw [segC2_val (after segB2 (after segA2 V)) batch _ _ _
    ((segB2_frame _ (by decide)).trans ((segA2_frame V (by decide)).trans h19))
    ((segB2_frame _ (by decide)).trans ((segA2_frame V (by decide)).trans hb)) hB hB5 hB6]
  rfl

theorem layer2_writes : (layer2 : List (HloOp τ sig (Elt F))).Forall (WritesIn (InRange 251 359)) :=
  forall_append (forall_writesIn_mono (fun _ => InRange.mono (by decide) (by decide)) segA2_writes)
    (forall_append (forall_writesIn_mono (fun _ => InRange.mono (by decide) (by decide)) segB2_writes)
      (forall_writesIn_mono (fun _ => InRange.mono (by decide) (by decide)) segC2_writes))
theorem layer2_frame (V : Valuation τ sig (Elt F)) {r : Ref sig .tc} (h : ¬ InRange 251 359 r) :
    after layer2 V (no_index (Proc.devRef .tc r)) = V (Proc.devRef .tc r) :=
  after_of_writesIn layer2 V layer2_writes h

theorem segA2_sub : (segA2 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

theorem segA2_fresh : ∀ op ∈ (segA2 : List (HloOp τ sig (Elt F))), op.fresh = ∅ := by
  intro _ h; (repeat (cases h with | head => rfl | tail _ h => ?_)); exact nomatch h

theorem segB2_sub : (segB2 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub ..⟩

theorem segB2_fresh : ∀ op ∈ (segB2 : List (HloOp τ sig (Elt F))), op.fresh = ∅ := by
  intro _ h; (repeat (cases h with | head => rfl | tail _ h => ?_)); exact nomatch h

theorem segC2_sub : (segC2 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem segC2_fresh : ∀ op ∈ (segC2 : List (HloOp τ sig (Elt F))), op.fresh = ∅ := by
  intro _ h; (repeat (cases h with | head => rfl | tail _ h => ?_)); exact nomatch h

theorem layer2_sub : (layer2 : List (HloOp τ sig (Elt F))).Forall fun op => op.bufs ⊆ tcRefs τ sig :=
  forall_append segA2_sub (forall_append segB2_sub segC2_sub)

theorem layer2_fresh : ∀ op ∈ (layer2 : List (HloOp τ sig (Elt F))), op.fresh = ∅ :=
  fresh_append segA2_fresh (fresh_append segB2_fresh segC2_fresh)

end Cert.ReferenceIdeal.H

end
-- ==== Proof.Ref.Ops.lean ====
import proofs.«402146_j32049045962863_2_alg».proof.Proof.Ref.Pre
import proofs.«402146_j32049045962863_2_alg».proof.Proof.Ref.L0
import proofs.«402146_j32049045962863_2_alg».proof.Proof.Ref.L1
import proofs.«402146_j32049045962863_2_alg».proof.Proof.Ref.L2
import Idealize.ShloMosaic.Lib.Pipeline.Regions

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := segP ++ (layer0 ++ (layer1 ++ (layer2 ++ segS)))

theorem main_part0_eq (c : Dev nD) : main_part0 (F := F) c = seq (ops.take 60) := by
  chain_rfl
theorem main_part1_eq (c : Dev nD) : main_part1 (F := F) c = seq ((ops.drop 60).take 60) := by
  chain_rfl
theorem main_part2_eq (c : Dev nD) : main_part2 (F := F) c = seq ((ops.drop 120).take 66) := by
  chain_rfl
theorem main_part3_eq (c : Dev nD) : main_part3 (F := F) c = seq ((ops.drop 186).take 66) := by
  chain_rfl
theorem main_part4_eq (c : Dev nD) : main_part4 (F := F) c = seq ((ops.drop 252).take 60) := by
  chain_rfl
theorem main_part5_eq (c : Dev nD) : main_part5 (F := F) c = seq (ops.drop 312) := by
  chain_rfl

theorem ops_split : (ops : List (HloOp τ sig (Elt F))) = ops.take 60 ++ ((ops.drop 60).take 60 ++ ((ops.drop 120).take 66 ++ ((ops.drop 186).take 66 ++ ((ops.drop 252).take 60 ++ (ops.drop 312))))) := by
  chain_rfl

end Cert.ReferenceIdeal.H

end
-- ==== Proof.Ref.Run.lean ====
import proofs.«402146_j32049045962863_2_alg».proof.Proof.Ref.Ops

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := by
  rw [ops_split, seq_append, seq_append, seq_append, seq_append, seq_append,
    ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append segP_sub (forall_append layer0_sub (forall_append layer1_sub (forall_append layer2_sub segS_sub)))

theorem ops_fresh : ∀ op ∈ (ops : List (HloOp τ sig (Elt F))), op.fresh = ∅ :=
  fresh_append segP_fresh (fresh_append layer0_fresh (fresh_append layer1_fresh (fresh_append layer2_fresh segS_fresh)))

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem ops_writes : (ops : List (HloOp τ sig (Elt F))).Forall (WritesIn (InRange 8 363)) :=
  forall_append (forall_writesIn_mono (fun _ => InRange.mono (by decide) (by decide)) segP_writes) (forall_append (forall_writesIn_mono (fun _ => InRange.mono (by decide) (by decide)) layer0_writes) (forall_append (forall_writesIn_mono (fun _ => InRange.mono (by decide) (by decide)) layer1_writes)
    (forall_append (forall_writesIn_mono (fun _ => InRange.mono (by decide) (by decide)) layer2_writes) (forall_writesIn_mono (fun _ => InRange.mono (by decide) (by decide)) segS_writes))))

theorem after_arg (V : Valuation τ sig (Elt F)) {r : Ref sig .tc} (h : ¬ InRange 8 363 r) :
    after ops V (Proc.devRef .tc r) = V (Proc.devRef .tc r) :=
  after_of_writesIn ops V ops_writes h

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide)),
      (h c main_arg6).trans (after_arg _ (by decide)),
      (h c main_arg7).trans (after_arg _ (by decide))⟩)
    (run_after m ρ)

end Cert.ReferenceIdeal.H

end
-- ==== Proof.Ref.Value.lean ====
import proofs.«402146_j32049045962863_2_alg».proof.Proof.Ref.Run
import proofs.«402146_j32049045962863_2_alg».proof.Proof.Ref.Pre
import proofs.«402146_j32049045962863_2_alg».proof.Proof.Ref.L0
import proofs.«402146_j32049045962863_2_alg».proof.Proof.Ref.L1
import proofs.«402146_j32049045962863_2_alg».proof.Proof.Ref.L2

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]

structure Base (V0 V : Valuation τ sig (Elt F)) : Prop where
  v1 : V (Proc.devRef .tc main_v1) = srcT (V0 (Proc.devRef .tc main_arg1))
  v3 : V (Proc.devRef .tc main_v3) = dstT (V0 (Proc.devRef .tc main_arg1))
  v10 : V (Proc.devRef .tc main_v10) = dinvT (F := F) (V0 (Proc.devRef .tc main_arg1))
  v19 : V (Proc.devRef .tc main_v19) = cinvT (F := F) (V0 (Proc.devRef .tc main_arg2))
  a0 : V (Proc.devRef .tc main_arg0) = V0 (Proc.devRef .tc main_arg0)
  a1 : V (Proc.devRef .tc main_arg1) = V0 (Proc.devRef .tc main_arg1)
  a2 : V (Proc.devRef .tc main_arg2) = V0 (Proc.devRef .tc main_arg2)
  a3 : V (Proc.devRef .tc main_arg3) = V0 (Proc.devRef .tc main_arg3)
  a4 : V (Proc.devRef .tc main_arg4) = V0 (Proc.devRef .tc main_arg4)
  a5 : V (Proc.devRef .tc main_arg5) = V0 (Proc.devRef .tc main_arg5)
  a6 : V (Proc.devRef .tc main_arg6) = V0 (Proc.devRef .tc main_arg6)
  a7 : V (Proc.devRef .tc main_arg7) = V0 (Proc.devRef .tc main_arg7)

theorem Base.step {V0 V : Valuation τ sig (Elt F)} (h : Base V0 V) {lo hi : Nat} (l : List (HloOp τ sig (Elt F)))
    (hl : l.Forall (WritesIn (InRange lo hi))) (hlo : 35 ≤ lo) : Base V0 (after l V) := by
  have out : ∀ {r : Ref sig .tc}, r.idx.val < 35 → after l V (Proc.devRef .tc r) = V (Proc.devRef .tc r) := fun hr =>
    after_of_writesIn l V hl fun hin => absurd (lt_of_lt_of_le hr (hlo.trans hin.1)) (lt_irrefl _)
  exact ⟨(out (r := main_v1) (by decide)).trans h.v1,
    (out (r := main_v3) (by decide)).trans h.v3,
    (out (r := main_v10) (by decide)).trans h.v10,
    (out (r := main_v19) (by decide)).trans h.v19,
    (out (r := main_arg0) (by decide)).trans h.a0,
    (out (r := main_arg1) (by decide)).trans h.a1,
    (out (r := main_arg2) (by decide)).trans h.a2,
    (out (r := main_arg3) (by decide)).trans h.a3,
    (out (r := main_arg4) (by decide)).trans h.a4,
    (out (r := main_arg5) (by decide)).trans h.a5,
    (out (r := main_arg6) (by decide)).trans h.a6,
    (out (r := main_arg7) (by decide)).trans h.a7⟩

theorem value (V : Valuation τ sig (Elt F)) :
    after ops V (Proc.devRef .tc main_v280) = y2T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
      ∧ after ops V (Proc.devRef .tc main_v284)
          = stackT (y0T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)))
              (y1T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)))
              (y2T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  have hP : Base V (after segP V) := by
    obtain ⟨p1, p3, p10, p19⟩ := segP_val V
    exact ⟨p1, p3, p10, p19, segP_frame V (by decide), segP_frame V (by decide), segP_frame V (by decide), segP_frame V (by decide), segP_frame V (by decide), segP_frame V (by decide), segP_frame V (by decide), segP_frame V (by decide)⟩
  have hL0 := hP.step layer0 layer0_writes (by decide)
  have hL1 := hL0.step layer1 layer1_writes (by decide)
  have y0 : after layer0 (after segP V) (Proc.devRef .tc main_v106) = y0T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
    rw [layer0_val _ _ _ hP.v1 hP.v3 hP.v10 hP.v19 hP.a2, hP.a0, hP.a3, hP.a4, hP.a5, hP.a6, hP.a7]
    rfl
  have y1 : after layer1 (after layer0 (after segP V)) (Proc.devRef .tc main_v193) = y1T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
    rw [layer1_val _ _ _ hL0.v1 hL0.v3 hL0.v10 hL0.v19 hL0.a2, hL0.a3, hL0.a4, hL0.a5, hL0.a6, hL0.a7, y0]
    rfl
  have y2 : after layer2 (after layer1 (after layer0 (after segP V))) (Proc.devRef .tc main_v280) = y2T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
    rw [layer2_val _ _ _ hL1.v1 hL1.v3 hL1.v10 hL1.v19 hL1.a2, hL1.a3, hL1.a4, hL1.a5, hL1.a6, hL1.a7, y1]
    rfl
  unfold ops
  rw [after_append, after_append, after_append, after_append]
  refine ⟨?_, ?_⟩
  · rw [segS_frame _ (by decide)]
    exact y2
  · rw [segS_val, y2, layer2_frame _ (r := main_v193) (by decide), y1, layer2_frame _ (r := main_v106) (by decide),
      layer1_frame _ (r := main_v106) (by decide), y0]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v280) = y2T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v284)
          = stackT (y0T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (y1T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (y2T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v280).trans (value _).1, (h c main_v284).trans (value _).2,
      (h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide)),
      (h c main_arg6).trans (after_arg _ (by decide)),
      (h c main_arg7).trans (after_arg _ (by decide))⟩)
    (run_after m ρ)

end Cert.ReferenceIdeal.H

end
-- ==== Proof.Ref.ReadConv.lean ====
import proofs.«402146_j32049045962863_2_alg».proof.Proof.Ref.Terms
import proofs.«402146_j32049045962863_2_alg».proof.Proof.Spec
import proofs.«402146_j32049045962863_2_alg».proof.Proof.Algebra
import proofs.«402146_j32049045962863_2_alg».proof.Proof.LibIdx
import Idealize.ShloMosaic.PureOps.Ideal.Laws
import Idealize.ShloMosaic.Lib.ValueIdx
import Idealize.ShloMosaic.Lib.ValueIdxCoords
import Idealize.ShloMosaic.Lib.Pipeline.Value
import Idealize.ShloMosaic.Lib.ValueLayout

noncomputable section

open scoped BigOperators

namespace Cert.ReferenceIdeal.H

open Idealize.ShloMosaic Idealize.SL.Sem Idealize.ShloMosaic.ValueIdx
open Cert.ReferenceIdeal Cert.Spec Cert.IdxLib

variable [Facts]
open Facts₀ Facts

theorem splatF_apply {t : Shape} (dims : Fin S_.rank → Fin t.rank) (h : S_.BroadcastsInDim t dims) (w : BitVec 32) (j : t.Idx) :
    broadcastInDim t dims h (constant (F := Ideal) S_ .f32 w) j = Ideal.ofBits .f32 w := rfl

theorem splatI_apply {t : Shape} (dims : Fin S_.rank → Fin t.rank) (h : S_.BroadcastsInDim t dims) (w : BitVec 32) (j : t.Idx) :
    broadcastInDim t dims h (constantI S_ 32 w) j = w := rfl

theorem colE_apply (v : IVec S1000000 32) (e : Fin 1000000) : colE v (ix2 e (0 : Fin 1)) = v (ix1 e) := by
  unfold colE
  refine broadcastInDim_apply _ _ v (ix2 e (0 : Fin 1)) (ix1 e) fun a => ?_
  match a with
  | ⟨0, _⟩ => rfl

theorem colN_apply (v : IVec S100000 32) (n : Fin 100000) : colN v (ix2 n (0 : Fin 1)) = v (ix1 n) := by
  unfold colN
  refine broadcastInDim_apply _ _ v (ix2 n (0 : Fin 1)) (ix1 n) fun a => ?_
  match a with
  | ⟨0, _⟩ => rfl

theorem srcT_apply (ei : IVec S2x1000000 32) (e : Fin 1000000) : srcT ei (ix1 e) = ei (ix2 (0 : Fin 2) e) := by
  unfold srcT
  rw [shapeCast_1a_a_apply]
  exact slice2_axis0_apply 0 ei _ (0 : Fin 1) e (0 : Fin 2) rfl

theorem dstT_apply (ei : IVec S2x1000000 32) (e : Fin 1000000) : dstT ei (ix1 e) = ei (ix2 (1 : Fin 2) e) := by
  unfold dstT
  rw [shapeCast_1a_a_apply]
  exact slice2_axis0_apply 1 ei _ (0 : Fin 1) e (1 : Fin 2) rfl

theorem hostRsqrt_apply {s : Shape} {φ : FTy} (x : FVec Ideal s φ) (i : s.Idx) : Host.rsqrt x i = Ideal.rsqrt (x i) := rfl

theorem hostDivf_apply {s : Shape} {φ : FTy} (x y : FVec Ideal s φ) (i : s.Idx) : Host.divf x y i = Ideal.div (x i) (y i) := rfl

open Classical in

theorem dinvT_apply (ei : IVec S2x1000000 32) (n : Fin 100000) :
    dinvT (F := Ideal) ei (ix1 n) = dOf (fun e => ei (ix2 (1 : Fin 2) e)) n := by
  unfold dinvT dOf
  rw [hostRsqrt_apply, addf_apply, scatterAdd_flat_apply _ rfl rfl rfl rfl]
  simp only [colE_apply, dstT_apply, splatF_apply]
  simp only [zeroW, oneW]

open Classical in

theorem cinvT_apply (batch : IVec S100000 32) (g : Fin 64) :
    cinvT (F := Ideal) batch (ix2 g (0 : Fin 1)) = ciOf (fun n => batch (ix1 n)) g := by
  unfold cinvT ciOf
  refine (broadcastInDim_apply _ _ _ (ix2 g (0 : Fin 1)) (ix1 g) fun a => ?_).trans ?_
  · match a with
    | ⟨0, _⟩ => rfl
  rw [hostDivf_apply, maximumf_apply, scatterAdd_flat_apply _ rfl rfl rfl rfl]
  simp only [colN_apply, splatF_apply]
  simp only [zeroW, oneW]

theorem dotD_lhs0 (j : S100000x128.Idx) (k : dot_S100000x128_S128x128_S100000x128_1_0_0_1_n_n.contr.Idx) :
    (dot_S100000x128_S128x128_S100000x128_1_0_0_1_n_n.lhsIdx j k 0).val = (j 0).val := rfl

theorem dotD_lhs1 (j : S100000x128.Idx) (k : dot_S100000x128_S128x128_S100000x128_1_0_0_1_n_n.contr.Idx) :
    (dot_S100000x128_S128x128_S100000x128_1_0_0_1_n_n.lhsIdx j k 1).val = (k ⟨0, Nat.one_pos⟩).val := rfl

theorem dotD_rhs0 (j : S100000x128.Idx) (k : dot_S100000x128_S128x128_S100000x128_1_0_0_1_n_n.contr.Idx) :
    (dot_S100000x128_S128x128_S100000x128_1_0_0_1_n_n.rhsIdx j k 0).val = (k ⟨0, Nat.one_pos⟩).val := rfl

theorem dotD_rhs1 (j : S100000x128.Idx) (k : dot_S100000x128_S128x128_S100000x128_1_0_0_1_n_n.contr.Idx) :
    (dot_S100000x128_S128x128_S100000x128_1_0_0_1_n_n.rhsIdx j k 1).val = (j 1).val := rfl

theorem xwT_apply (w : FVec Ideal S128x128 .f32) (x : FVec Ideal S100000x128 .f32) (n : Fin 100000) (c : Fin 128) :
    xwT (F := Ideal) w x (ix2 n c) = ∑ k : Fin 128, x (ix2 n k) * w (ix2 k c) := by
  unfold xwT
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hl : dot_S100000x128_S128x128_S100000x128_1_0_0_1_n_n.lhsIdx (ix2 n c)
      ((contrEquiv1 dot_S100000x128_S128x128_S100000x128_1_0_0_1_n_n 128 rfl rfl).symm k) = ix2 n k := by
    funext a
    refine Fin.ext ?_
    match a with
    | ⟨0, _⟩ => exact dotD_lhs0 _ _
    | ⟨1, _⟩ => exact (dotD_lhs1 _ _).trans (contrEquiv1_symm_val _ 128 rfl rfl k)
  have hr : dot_S100000x128_S128x128_S100000x128_1_0_0_1_n_n.rhsIdx (ix2 n c)
      ((contrEquiv1 dot_S100000x128_S128x128_S100000x128_1_0_0_1_n_n 128 rfl rfl).symm k) = ix2 k c := by
    funext a
    refine Fin.ext ?_
    match a with
    | ⟨0, _⟩ => exact (dotD_rhs0 _ _).trans (contrEquiv1_symm_val _ 128 rfl rfl k)
    | ⟨1, _⟩ => exact dotD_rhs1 _ _
  rw [hl, hr]

theorem wrapE_apply (v : IVec S1000000 32) (e : Fin 1000000) : wrapE v (ix1 e) = wrapIdx 100000#32 (v (ix1 e)) := by
  unfold wrapE
  exact wrap_select_apply v _ _ 100000#32 (fun _ => rfl) (fun _ => rfl) (ix1 e)

theorem srcWord (ei : IVec S2x1000000 32) (e : Fin 1000000) :
    colE (wrapE (srcT ei)) (ix2 e (0 : Fin 1)) = wrapIdx 100000#32 (ei (ix2 (0 : Fin 2) e)) := by
  rw [colE_apply, wrapE_apply, srcT_apply]

theorem dstWord (ei : IVec S2x1000000 32) (e : Fin 1000000) :
    colE (wrapE (dstT ei)) (ix2 e (0 : Fin 1)) = wrapIdx 100000#32 (ei (ix2 (1 : Fin 2) e)) := by
  rw [colE_apply, wrapE_apply, dstT_apply]

theorem spreadE_apply (v : FVec Ideal S1000000 .f32) (e : Fin 1000000) (c : Fin 128) :
    broadcastInDim S1000000x128 ![0, 1] bcast_S1000000x1_S1000000x128_0_1
      (broadcastInDim S1000000x1 ![0] bcast_S1000000_S1000000x1_0 v) (ix2 e c) = v (ix1 e) := by
  refine (broadcastInDim_apply _ _ _ (ix2 e c) (ix2 e (0 : Fin 1)) fun a => ?_).trans ?_
  · match a with
    | ⟨0, _⟩ => rfl
    | ⟨1, _⟩ => rfl
  · refine broadcastInDim_apply _ _ v _ (ix1 e) fun a => ?_
    match a with
    | ⟨0, _⟩ => rfl

theorem spreadN_apply (v : FVec Ideal S100000 .f32) (n : Fin 100000) (c : Fin 128) :
    broadcastInDim S100000x128 ![0, 1] bcast_S100000x1_S100000x128_0_1
      (broadcastInDim S100000x1 ![0] bcast_S100000_S100000x1_0 v) (ix2 n c) = v (ix1 n) := by
  refine (broadcastInDim_apply _ _ _ (ix2 n c) (ix2 n (0 : Fin 1)) fun a => ?_).trans ?_
  · match a with
    | ⟨0, _⟩ => rfl
    | ⟨1, _⟩ => rfl
  · refine broadcastInDim_apply _ _ v _ (ix1 n) fun a => ?_
    match a with
    | ⟨0, _⟩ => rfl

theorem rowB_apply (b : FVec Ideal S128 .f32) (n : Fin 100000) (c : Fin 128) : rowB b (ix2 n c) = b (ix1 c) := by
  unfold rowB
  refine (broadcastInDim_apply _ _ _ (ix2 n c) (ix2 (0 : Fin 1) c) fun a => ?_).trans ?_
  · match a with
    | ⟨0, _⟩ => rfl
    | ⟨1, _⟩ => rfl
  · refine broadcastInDim_apply _ _ b _ (ix1 c) fun a => ?_
    match a with
    | ⟨0, _⟩ => rfl

theorem normT_apply (ei : IVec S2x1000000 32) (e : Fin 1000000) :
    normT (F := Ideal) ei (ix1 e)
      = dOf (fun e => ei (ix2 (1 : Fin 2) e)) (clampIdx 100000 (by decide) (wrapIdx 100000#32 (ei (ix2 (0 : Fin 2) e))))
        * dOf (fun e => ei (ix2 (1 : Fin 2) e)) (clampIdx 100000 (by decide) (wrapIdx 100000#32 (ei (ix2 (1 : Fin 2) e)))) := by
  unfold normT
  rw [mulf_apply, gather_flat_apply (by decide) _ rfl rfl rfl rfl rfl rfl rfl,
    gather_flat_apply (by decide) _ rfl rfl rfl rfl rfl rfl rfl, srcWord, dstWord, dinvT_apply, dinvT_apply]

theorem msgT_apply (ei : IVec S2x1000000 32) (w : FVec Ideal S128x128 .f32) (x : FVec Ideal S100000x128 .f32)
    (e : Fin 1000000) (c : Fin 128) :
    msgT (F := Ideal) ei w x (ix2 e c)
      = (∑ k : Fin 128, x (ix2 (clampIdx 100000 (by decide) (wrapIdx 100000#32 (ei (ix2 (0 : Fin 2) e)))) k) * w (ix2 k c))
        * (dOf (fun e => ei (ix2 (1 : Fin 2) e)) (clampIdx 100000 (by decide) (wrapIdx 100000#32 (ei (ix2 (0 : Fin 2) e))))
          * dOf (fun e => ei (ix2 (1 : Fin 2) e)) (clampIdx 100000 (by decide) (wrapIdx 100000#32 (ei (ix2 (1 : Fin 2) e))))) := by
  unfold msgT
  rw [mulf_apply, gather_rows_apply (by decide) _ rfl rfl rfl rfl rfl rfl rfl, srcWord, xwT_apply, spreadE_apply,
    normT_apply]

open Classical in

theorem aggT_apply (ei : IVec S2x1000000 32) (w : FVec Ideal S128x128 .f32) (x : FVec Ideal S100000x128 .f32)
    (n : Fin 100000) (c : Fin 128) :
    aggT (F := Ideal) ei w x (ix2 n c)
      = 0 + ∑ e ∈ Finset.univ.filter (fun e : Fin 1000000 => hitIdx 100000 (ei (ix2 (1 : Fin 2) e)) = some n),
          msgT (F := Ideal) ei w x (ix2 e c) := by
  unfold aggT
  rw [scatterAdd_rows_apply _ rfl rfl rfl rfl, splatF_apply, Ideal.ofBits_zero_f32]
  simp only [colE_apply, dstT_apply]

theorem selfT_apply (ei : IVec S2x1000000 32) (w : FVec Ideal S128x128 .f32) (x : FVec Ideal S100000x128 .f32)
    (n : Fin 100000) (c : Fin 128) :
    selfT (F := Ideal) ei w x (ix2 n c)
      = (∑ k : Fin 128, x (ix2 n k) * w (ix2 k c))
        * (dOf (fun e => ei (ix2 (1 : Fin 2) e)) n * dOf (fun e => ei (ix2 (1 : Fin 2) e)) n) := by
  unfold selfT
  rw [mulf_apply, xwT_apply, spreadN_apply, mulf_apply, dinvT_apply]

theorem sum_filter_congr' {ι M : Type*} [AddCommMonoid M] (s : Finset ι) (p q : ι → Prop) [DecidablePred p]
    [DecidablePred q] (f g : ι → M) (hpq : ∀ e, p e ↔ q e) (hfg : ∀ e, q e → f e = g e) :
    ∑ e ∈ s.filter p, f e = ∑ e ∈ s.filter q, g e :=
  Finset.sum_congr (Finset.filter_congr (fun e _ => hpq e)) (fun e he => hfg e (Finset.mem_filter.mp he).2)

open Classical in

theorem gcnT_eq (ei : IVec S2x1000000 32) (batch : IVec S100000 32) (w : FVec Ideal S128x128 .f32)
    (b : FVec Ideal S128 .f32) (x : FVec Ideal S100000x128 .f32) (gw' gb' ms' : Fin 128 → EReal) :
    gcnT (F := Ideal) ei w b x = convR (sharedOf ei batch) ⟨w, fun c => b (ix1 c), gw', gb', ms'⟩ x := by
  funext i
  obtain ⟨n, c, rfl⟩ : ∃ (n : Fin 100000) (c : Fin 128), i = ix2 n c := ⟨i 0, i 1, eq_ix2 i⟩
  unfold gcnT
  rw [addf_apply, addf_apply, aggT_apply, selfT_apply, rowB_apply]
  simp only [convR, ix2_0, ix2_1, sharedOf, Shared.dh, Shared.sg, Shared.dg]
  refine congrArg₂ (· + ·) (congrArg₂ (· + ·) (congrArg (fun z : EReal => 0 + z) ?_) ?_) ?_
  · refine sum_filter_congr' _ _ _ _ _ (fun e => Iff.rfl) (fun e _ => ?_)
    rw [msgT_apply]
  · rfl
  · rfl

end Cert.ReferenceIdeal.H

end
-- ==== Proof.Ref.Read.lean ====
import proofs.«402146_j32049045962863_2_alg».proof.Proof.Ref.Terms
import proofs.«402146_j32049045962863_2_alg».proof.Proof.Ref.ReadConv
import proofs.«402146_j32049045962863_2_alg».proof.Proof.Spec
import proofs.«402146_j32049045962863_2_alg».proof.Proof.Algebra
import proofs.«402146_j32049045962863_2_alg».proof.Proof.LibIdx
import Idealize.ShloMosaic.Lib.Pipeline.Value
import Idealize.ShloMosaic.Lib.ValueLayout
import Idealize.ShloMosaic.PureOps.Ideal.Laws

noncomputable section

open scoped BigOperators

namespace Cert.ReferenceIdeal.H

open Idealize.ShloMosaic Idealize.ShloMosaic.ValueIdx
open Cert.ReferenceIdeal Cert.Spec Cert.IdxLib

variable [Facts]
open Facts₀ Facts

theorem wrapN_apply (v : IVec S100000 32) (i : S100000.Idx) : wrapN v i = wrapIdx 64#32 (v i) := by
  unfold wrapN
  exact wrap_select_apply v _ _ 64#32 (fun _ => rfl) (fun _ => rfl) i

theorem zeros_apply {t : Shape} (h : S_.BroadcastsInDim t (![] : Fin 0 → Fin t.rank)) (j : t.Idx) :
    broadcastInDim t ![] h (constant (F := Ideal) S_ .f32 0x00000000#32) j = 0 := Ideal.ofBits_zero_f32

open Classical in

def segR (P : Shared) (v : SNC.Idx → EReal) : SGC.Idx → EReal := fun j =>
  0 + ∑ n ∈ Finset.univ.filter (fun n => P.bh n = some (j 0 : Fin 64)), v (ix2 n (j 1 : Fin 128))

def meanR (P : Shared) (v : SNC.Idx → EReal) : SGC.Idx → EReal := fun j => segR P v j * P.ci (j 0 : Fin 64)

def cenR (P : Shared) (ms : Fin 128 → EReal) (g : SNC.Idx → EReal) : SNC.Idx → EReal := fun i =>
  g i - meanR P g (ix2 (P.bg (i 0 : Fin 100000)) (i 1 : Fin 128)) * ms (i 1 : Fin 128)

def msqR (P : Shared) (ms : Fin 128 → EReal) (g : SNC.Idx → EReal) : SGC.Idx → EReal :=
  meanR P (fun i => cenR P ms g i * cenR P ms g i)

theorem normR_eq (P : Shared) (L : Layer) (g : SNC.Idx → EReal) :
    normR P L g = fun i => lreluR P.slope
      (cenR P L.ms g i * Ideal.rsqrt (msqR P L.ms g (ix2 (P.bg (i 0 : Fin 100000)) (i 1 : Fin 128)) + P.eps) * L.gw (i 1 : Fin 128)
        + L.gb (i 1 : Fin 128)) := rfl

theorem cenR_at (P : Shared) (ms : Fin 128 → EReal) (g : SNC.Idx → EReal) (i : SNC.Idx) (n : Fin 100000) (c : Fin 128)
    (h0 : (i 0 : Fin 100000) = n) (h1 : (i 1 : Fin 128) = c) :
    cenR P ms g i = g i - meanR P g (ix2 (P.bg n) c) * ms c := by
  subst h0 h1; rfl

theorem cenR_apply (P : Shared) (ms : Fin 128 → EReal) (g : SNC.Idx → EReal) (n : Fin 100000) (c : Fin 128) :
    cenR P ms g (ix2 n c) = g (ix2 n c) - meanR P g (ix2 (P.bg n) c) * ms c :=
  cenR_at P ms g (ix2 n c) n c rfl rfl

theorem normR_at (P : Shared) (w : SCC.Idx → EReal) (b gw gb ms : Fin 128 → EReal) (g : SNC.Idx → EReal)
    (i : SNC.Idx) (n : Fin 100000) (c : Fin 128) (h0 : (i 0 : Fin 100000) = n) (h1 : (i 1 : Fin 128) = c) :
    normR P ⟨w, b, gw, gb, ms⟩ g i
      = lreluR P.slope (cenR P ms g i * Ideal.rsqrt (msqR P ms g (ix2 (P.bg n) c) + P.eps) * gw c + gb c) := by
  subst h0 h1; simp only [normR_eq]

theorem normR_apply (P : Shared) (w : SCC.Idx → EReal) (b gw gb ms : Fin 128 → EReal) (g : SNC.Idx → EReal)
    (n : Fin 100000) (c : Fin 128) :
    normR P ⟨w, b, gw, gb, ms⟩ g (ix2 n c)
      = lreluR P.slope (cenR P ms g (ix2 n c) * Ideal.rsqrt (msqR P ms g (ix2 (P.bg n) c) + P.eps) * gw c + gb c) :=
  normR_at P w b gw gb ms g (ix2 n c) n c rfl rfl

theorem sum_filter_bridge {ι : Type} [Fintype ι] {p q : ι → Prop} (ip : DecidablePred p) (iq : DecidablePred q)
    (f g : ι → EReal) (hpq : ∀ n, p n ↔ q n) (hfg : ∀ n, f n = g n) :
    (∑ n ∈ @Finset.filter ι p ip Finset.univ, f n) = ∑ n ∈ @Finset.filter ι q iq Finset.univ, g n := by
  have hp : p = q := funext fun n => propext (hpq n)
  subst hp
  have hi : ip = iq := Subsingleton.elim _ _
  subst hi
  exact Finset.sum_congr rfl fun n _ => hfg n

theorem segT_eq (P : Shared) (batch : IVec S100000 32) (hb : ∀ n, P.batch n = batch (ix1 n))
    (hci : ∀ g, P.ci g = ciOf (fun n => batch (ix1 n)) g) (v : FVec Ideal S100000x128 .f32) :
    segT (F := Ideal) batch v = meanR P v := by
  funext j
  obtain ⟨g, c, rfl⟩ : ∃ (g : Fin 64) (c : Fin 128), j = ix2 g c := ⟨j 0, j 1, eq_ix2 j⟩
  unfold segT
  rw [mulf_apply, scatterAdd_rows_apply _ rfl rfl rfl rfl]
  unfold meanR segR
  refine congrArg₂ (· * ·) (congrArg₂ (· + ·) (zeros_apply _ _)
    (sum_filter_bridge _ _ _ _ (fun n => ?_) fun n => rfl)) ?_
  · rw [colN_apply, ← hb]; exact Iff.rfl
  · refine (broadcastInDim_apply _ _ _ _ (ix2 g (0 : Fin 1)) (fun a => match a with
      | ⟨0, _⟩ => rfl
      | ⟨1, _⟩ => rfl)).trans ?_
    exact (cinvT_apply batch g).trans (hci g).symm

theorem backT_apply (P : Shared) (batch : IVec S100000 32) (hb : ∀ n, P.batch n = batch (ix1 n))
    (t : FVec Ideal S64x128 .f32) (n : Fin 100000) (c : Fin 128) :
    backT batch t (ix2 n c) = t (ix2 (P.bg n) c) := by
  unfold backT
  rw [gather_rows_apply (by decide) _ rfl rfl rfl rfl rfl rfl rfl, colN_apply, wrapN_apply]
  unfold Shared.bg
  rw [hb]

theorem outT_eq (P : Shared) (batch : IVec S100000 32) (hb : ∀ n, P.batch n = batch (ix1 n))
    (hci : ∀ g, P.ci g = ciOf (fun n => batch (ix1 n)) g)
    (ei : IVec S2x1000000 32) (w : FVec Ideal S128x128 .f32) (b ms : FVec Ideal S128 .f32) (x : FVec Ideal S100000x128 .f32) :
    outT (F := Ideal) ei batch w b ms x = cenR P (fun c => ms (ix1 c)) (gcnT (F := Ideal) ei w b x) := by
  funext i
  obtain ⟨n, c, rfl⟩ : ∃ (n : Fin 100000) (c : Fin 128), i = ix2 n c := ⟨i 0, i 1, eq_ix2 i⟩
  unfold outT
  generalize gcnT (F := Ideal) ei w b x = g
  rw [subf_apply, mulf_apply, backT_apply P batch hb, segT_eq P batch hb hci, rowB_apply, cenR_apply]

theorem varT_eq (P : Shared) (batch : IVec S100000 32) (hb : ∀ n, P.batch n = batch (ix1 n))
    (hci : ∀ g, P.ci g = ciOf (fun n => batch (ix1 n)) g)
    (ei : IVec S2x1000000 32) (w : FVec Ideal S128x128 .f32) (b ms : FVec Ideal S128 .f32) (x : FVec Ideal S100000x128 .f32) :
    varT (F := Ideal) ei batch w b ms x = msqR P (fun c => ms (ix1 c)) (gcnT (F := Ideal) ei w b x) := by
  unfold varT msqR
  rw [segT_eq P batch hb hci, outT_eq P batch hb hci]
  exact congrArg (meanR P) rfl

theorem normedT_apply (P : Shared) (batch : IVec S100000 32) (hb : ∀ n, P.batch n = batch (ix1 n))
    (hci : ∀ g, P.ci g = ciOf (fun n => batch (ix1 n)) g)
    (ei : IVec S2x1000000 32) (w : FVec Ideal S128x128 .f32) (b gw gb ms : FVec Ideal S128 .f32) (x : FVec Ideal S100000x128 .f32)
    (n : Fin 100000) (c : Fin 128) :
    normedT (F := Ideal) ei batch w b gw gb ms x (ix2 n c)
      = cenR P (fun c => ms (ix1 c)) (gcnT (F := Ideal) ei w b x) (ix2 n c)
          * Ideal.rsqrt (msqR P (fun c => ms (ix1 c)) (gcnT (F := Ideal) ei w b x) (ix2 (P.bg n) c) + epsW)
          * gw (ix1 c) + gb (ix1 c) := by
  unfold normedT
  rw [addf_apply, mulf_apply, mulf_apply, hostRsqrt_apply, addf_apply, backT_apply P batch hb,
    varT_eq P batch hb hci, outT_eq P batch hb hci, rowB_apply, rowB_apply]
  rfl

theorem lreluT_apply (v : FVec Ideal S100000x128 .f32) (s : BitVec 32) (i : S100000x128.Idx) :
    lreluT v (constant (F := Ideal) S_ .f32 s) i = lreluR (Ideal.ofBits .f32 s) (v i) := by
  unfold lreluT lreluR
  rw [select_apply, cmpf_apply, mulf_apply]
  show Scalar.select (Ideal.cmp .oge (v i) (Ideal.ofBits .f32 0x00000000#32)) (v i) (Ideal.ofBits .f32 s * v i) = _
  rw [Ideal.ofBits_zero_f32]
  unfold Ideal.cmp Scalar.select
  by_cases h : 0 ≤ v i
  · simp [h]
  · simp [h]

theorem layerT_norm (P : Shared) (batch : IVec S100000 32) (hb : ∀ n, P.batch n = batch (ix1 n))
    (hci : ∀ g, P.ci g = ciOf (fun n => batch (ix1 n)) g) (heps : P.eps = epsW) (hsl : P.slope = slopeW)
    (ei : IVec S2x1000000 32) (w : FVec Ideal S128x128 .f32) (b gw gb ms : FVec Ideal S128 .f32) (x : FVec Ideal S100000x128 .f32) :
    layerT (F := Ideal) ei batch w b gw gb ms x
      = normR P ⟨w, fun c => b (ix1 c), fun c => gw (ix1 c), fun c => gb (ix1 c), fun c => ms (ix1 c)⟩
          (gcnT (F := Ideal) ei w b x) := by
  funext i
  obtain ⟨n, c, rfl⟩ : ∃ (n : Fin 100000) (c : Fin 128), i = ix2 n c := ⟨i 0, i 1, eq_ix2 i⟩
  rw [normR_apply]
  unfold layerT
  rw [lreluT_apply, normedT_apply P batch hb hci, heps, hsl]
  rfl

theorem layerT_norm_shared (ei : IVec S2x1000000 32) (batch : IVec S100000 32) (w : FVec Ideal S128x128 .f32)
    (b gw gb ms : FVec Ideal S128 .f32) (x : FVec Ideal S100000x128 .f32) :
    layerT (F := Ideal) ei batch w b gw gb ms x
      = normR (sharedOf ei batch) ⟨w, fun c => b (ix1 c), fun c => gw (ix1 c), fun c => gb (ix1 c), fun c => ms (ix1 c)⟩
          (gcnT (F := Ideal) ei w b x) :=
  layerT_norm (sharedOf ei batch) batch (fun _ => rfl) (fun g => by simp only [sharedOf]) rfl rfl ei w b gw gb ms x

theorem wT0_apply {F : FTy → Type} (w3 : FVec F S3x128x128 .f32) (k c : Fin 128) :
    wT0 w3 (ix2 k c) = w3 (ix3 (0 : Fin 3) k c) := by
  unfold wT0
  refine (shapeCast_apply _ _ (ix2 k c) (ix3 (0 : Fin 1) k c) ?_).trans ?_
  · rw [Shape.rowMajor_val_three, Shape.rowMajor_val_two]
    show (0 * 128 + k.val) * 128 + c.val = k.val * 128 + c.val
    omega
  · exact extractStridedSlice_apply _ _ _ _ (ix3 (0 : Fin 3) k c) (fun a => match a with
      | ⟨0, _⟩ => rfl
      | ⟨1, _⟩ => by show k.val = 0 + k.val; omega
      | ⟨2, _⟩ => by show c.val = 0 + c.val; omega)

theorem rowT0_apply {F : FTy → Type} (a : FVec F S3x128 .f32) (c : Fin 128) :
    rowT0 a (ix1 c) = a (ix2 (0 : Fin 3) c) := by
  unfold rowT0
  refine (shapeCast_apply _ _ (ix1 c) (ix2 (0 : Fin 1) c) ?_).trans ?_
  · rw [Shape.rowMajor_val_two, Shape.rowMajor_val_one]
    show 0 * 128 + c.val = c.val
    omega
  · exact extractStridedSlice_apply _ _ _ _ (ix2 (0 : Fin 3) c) (fun a => match a with
      | ⟨0, _⟩ => rfl
      | ⟨1, _⟩ => by show c.val = 0 + c.val; omega)

theorem layerT0_params (w3 : FVec Ideal S3x128x128 .f32) (b3 gw3 gb3 ms3 : FVec Ideal S3x128 .f32) :
    (⟨wT0 w3, fun c => rowT0 b3 (ix1 c), fun c => rowT0 gw3 (ix1 c), fun c => rowT0 gb3 (ix1 c),
        fun c => rowT0 ms3 (ix1 c)⟩ : Layer) = layerOf (0 : Fin 3) w3 b3 gw3 gb3 ms3 := by
  have hw : wT0 w3 = fun i : SCC.Idx => w3 (ix3 (0 : Fin 3) (i 0 : Fin 128) (i 1 : Fin 128)) := by
    funext i
    obtain ⟨k, c, rfl⟩ : ∃ (k c : Fin 128), i = ix2 k c := ⟨i 0, i 1, eq_ix2 i⟩
    exact wT0_apply w3 k c
  simp only [hw, rowT0_apply]
  rfl

theorem wT1_apply {F : FTy → Type} (w3 : FVec F S3x128x128 .f32) (k c : Fin 128) :
    wT1 w3 (ix2 k c) = w3 (ix3 (1 : Fin 3) k c) := by
  unfold wT1
  refine (shapeCast_apply _ _ (ix2 k c) (ix3 (0 : Fin 1) k c) ?_).trans ?_
  · rw [Shape.rowMajor_val_three, Shape.rowMajor_val_two]
    show (0 * 128 + k.val) * 128 + c.val = k.val * 128 + c.val
    omega
  · exact extractStridedSlice_apply _ _ _ _ (ix3 (1 : Fin 3) k c) (fun a => match a with
      | ⟨0, _⟩ => rfl
      | ⟨1, _⟩ => by show k.val = 0 + k.val; omega
      | ⟨2, _⟩ => by show c.val = 0 + c.val; omega)

theorem rowT1_apply {F : FTy → Type} (a : FVec F S3x128 .f32) (c : Fin 128) :
    rowT1 a (ix1 c) = a (ix2 (1 : Fin 3) c) := by
  unfold rowT1
  refine (shapeCast_apply _ _ (ix1 c) (ix2 (0 : Fin 1) c) ?_).trans ?_
  · rw [Shape.rowMajor_val_two, Shape.rowMajor_val_one]
    show 0 * 128 + c.val = c.val
    omega
  · exact extractStridedSlice_apply _ _ _ _ (ix2 (1 : Fin 3) c) (fun a => match a with
      | ⟨0, _⟩ => rfl
      | ⟨1, _⟩ => by show c.val = 0 + c.val; omega)

theorem layerT1_params (w3 : FVec Ideal S3x128x128 .f32) (b3 gw3 gb3 ms3 : FVec Ideal S3x128 .f32) :
    (⟨wT1 w3, fun c => rowT1 b3 (ix1 c), fun c => rowT1 gw3 (ix1 c), fun c => rowT1 gb3 (ix1 c),
        fun c => rowT1 ms3 (ix1 c)⟩ : Layer) = layerOf (1 : Fin 3) w3 b3 gw3 gb3 ms3 := by
  have hw : wT1 w3 = fun i : SCC.Idx => w3 (ix3 (1 : Fin 3) (i 0 : Fin 128) (i 1 : Fin 128)) := by
    funext i
    obtain ⟨k, c, rfl⟩ : ∃ (k c : Fin 128), i = ix2 k c := ⟨i 0, i 1, eq_ix2 i⟩
    exact wT1_apply w3 k c
  simp only [hw, rowT1_apply]
  rfl

theorem wT2_apply {F : FTy → Type} (w3 : FVec F S3x128x128 .f32) (k c : Fin 128) :
    wT2 w3 (ix2 k c) = w3 (ix3 (2 : Fin 3) k c) := by
  unfold wT2
  refine (shapeCast_apply _ _ (ix2 k c) (ix3 (0 : Fin 1) k c) ?_).trans ?_
  · rw [Shape.rowMajor_val_three, Shape.rowMajor_val_two]
    show (0 * 128 + k.val) * 128 + c.val = k.val * 128 + c.val
    omega
  · exact extractStridedSlice_apply _ _ _ _ (ix3 (2 : Fin 3) k c) (fun a => match a with
      | ⟨0, _⟩ => rfl
      | ⟨1, _⟩ => by show k.val = 0 + k.val; omega
      | ⟨2, _⟩ => by show c.val = 0 + c.val; omega)

theorem rowT2_apply {F : FTy → Type} (a : FVec F S3x128 .f32) (c : Fin 128) :
    rowT2 a (ix1 c) = a (ix2 (2 : Fin 3) c) := by
  unfold rowT2
  refine (shapeCast_apply _ _ (ix1 c) (ix2 (0 : Fin 1) c) ?_).trans ?_
  · rw [Shape.rowMajor_val_two, Shape.rowMajor_val_one]
    show 0 * 128 + c.val = c.val
    omega
  · exact extractStridedSlice_apply _ _ _ _ (ix2 (2 : Fin 3) c) (fun a => match a with
      | ⟨0, _⟩ => rfl
      | ⟨1, _⟩ => by show c.val = 0 + c.val; omega)

theorem layerT2_params (w3 : FVec Ideal S3x128x128 .f32) (b3 gw3 gb3 ms3 : FVec Ideal S3x128 .f32) :
    (⟨wT2 w3, fun c => rowT2 b3 (ix1 c), fun c => rowT2 gw3 (ix1 c), fun c => rowT2 gb3 (ix1 c),
        fun c => rowT2 ms3 (ix1 c)⟩ : Layer) = layerOf (2 : Fin 3) w3 b3 gw3 gb3 ms3 := by
  have hw : wT2 w3 = fun i : SCC.Idx => w3 (ix3 (2 : Fin 3) (i 0 : Fin 128) (i 1 : Fin 128)) := by
    funext i
    obtain ⟨k, c, rfl⟩ : ∃ (k c : Fin 128), i = ix2 k c := ⟨i 0, i 1, eq_ix2 i⟩
    exact wT2_apply w3 k c
  simp only [hw, rowT2_apply]
  rfl

theorem layerT_eq (ei : IVec S2x1000000 32) (batch : IVec S100000 32) (w : FVec Ideal S128x128 .f32)
    (b gw gb ms : FVec Ideal S128 .f32) (x : FVec Ideal S100000x128 .f32) :
    layerT (F := Ideal) ei batch w b gw gb ms x
      = layerR (sharedOf ei batch) ⟨w, fun c => b (ix1 c), fun c => gw (ix1 c), fun c => gb (ix1 c), fun c => ms (ix1 c)⟩ x := by
  refine (layerT_norm_shared ei batch w b gw gb ms x).trans ?_
  rw [layerR_split, gcnT_eq ei batch w b x (fun c => gw (ix1 c)) (fun c => gb (ix1 c)) (fun c => ms (ix1 c))]

theorem y0T_eq (x : FVec Ideal S100000x128 .f32) (ei : IVec S2x1000000 32) (batch : IVec S100000 32)
    (w3 : FVec Ideal S3x128x128 .f32) (b3 gw3 gb3 ms3 : FVec Ideal S3x128 .f32) :
    y0T (F := Ideal) x ei batch w3 b3 gw3 gb3 ms3
      = layerR (sharedOf ei batch) (layerOf (0 : Fin 3) w3 b3 gw3 gb3 ms3) x := by
  unfold y0T
  rw [layerT_eq, layerT0_params]

theorem y1T_eq (x : FVec Ideal S100000x128 .f32) (ei : IVec S2x1000000 32) (batch : IVec S100000 32)
    (w3 : FVec Ideal S3x128x128 .f32) (b3 gw3 gb3 ms3 : FVec Ideal S3x128 .f32) :
    y1T (F := Ideal) x ei batch w3 b3 gw3 gb3 ms3
      = layerR (sharedOf ei batch) (layerOf (1 : Fin 3) w3 b3 gw3 gb3 ms3) (y0T (F := Ideal) x ei batch w3 b3 gw3 gb3 ms3) := by
  unfold y1T
  rw [layerT_eq, layerT1_params]

theorem y2T_eq (x : FVec Ideal S100000x128 .f32) (ei : IVec S2x1000000 32) (batch : IVec S100000 32)
    (w3 : FVec Ideal S3x128x128 .f32) (b3 gw3 gb3 ms3 : FVec Ideal S3x128 .f32) :
    y2T (F := Ideal) x ei batch w3 b3 gw3 gb3 ms3
      = layerR (sharedOf ei batch) (layerOf (2 : Fin 3) w3 b3 gw3 gb3 ms3) (y1T (F := Ideal) x ei batch w3 b3 gw3 gb3 ms3) := by
  unfold y2T
  rw [layerT_eq, layerT2_params]

theorem stackT_apply0 {F : FTy → Type} (y0 y1 y2 : FVec F S100000x128 .f32) (n : Fin 100000) (c : Fin 128) :
    stackT y0 y1 y2 (ix3 (0 : Fin 3) n c) = y0 (ix2 n c) := by
  unfold stackT
  refine (concatenate_apply_piece (t := S3x100000x128) (0 : Fin S3x100000x128.rank)
    [⟨S1x100000x128, broadcastInDim S1x100000x128 ![1, 2] bcast_S100000x128_S1x100000x128_1_2 y0⟩,
     ⟨S1x100000x128, broadcastInDim S1x100000x128 ![1, 2] bcast_S100000x128_S1x100000x128_1_2 y1⟩,
     ⟨S1x100000x128, broadcastInDim S1x100000x128 ![1, 2] bcast_S100000x128_S1x100000x128_1_2 y2⟩]
    concatenates_S1x100000x128_S1x100000x128_S1x100000x128_S3x100000x128_d0
    (ix3 (0 : Fin 3) n c) 0 (by show (0 : Nat) < 3; omega) S1x100000x128 _ rfl rfl 0 rfl
    (ix3 (0 : Fin 1) n c) (fun b hb => ?_) rfl).trans ?_
  · match b with
    | ⟨0, _⟩ => exact absurd rfl hb
    | ⟨1, _⟩ => rfl
    | ⟨2, _⟩ => rfl
  · exact broadcastInDim_apply _ _ _ _ (ix2 n c) (fun a => match a with
      | ⟨0, _⟩ => rfl
      | ⟨1, _⟩ => rfl)

theorem stackT_apply1 {F : FTy → Type} (y0 y1 y2 : FVec F S100000x128 .f32) (n : Fin 100000) (c : Fin 128) :
    stackT y0 y1 y2 (ix3 (1 : Fin 3) n c) = y1 (ix2 n c) := by
  unfold stackT
  refine (concatenate_apply_piece (t := S3x100000x128) (0 : Fin S3x100000x128.rank)
    [⟨S1x100000x128, broadcastInDim S1x100000x128 ![1, 2] bcast_S100000x128_S1x100000x128_1_2 y0⟩,
     ⟨S1x100000x128, broadcastInDim S1x100000x128 ![1, 2] bcast_S100000x128_S1x100000x128_1_2 y1⟩,
     ⟨S1x100000x128, broadcastInDim S1x100000x128 ![1, 2] bcast_S100000x128_S1x100000x128_1_2 y2⟩]
    concatenates_S1x100000x128_S1x100000x128_S1x100000x128_S3x100000x128_d0
    (ix3 (1 : Fin 3) n c) 1 (by show (1 : Nat) < 3; omega) S1x100000x128 _ rfl rfl 1 rfl
    (ix3 (0 : Fin 1) n c) (fun b hb => ?_) rfl).trans ?_
  · match b with
    | ⟨0, _⟩ => exact absurd rfl hb
    | ⟨1, _⟩ => rfl
    | ⟨2, _⟩ => rfl
  · exact broadcastInDim_apply _ _ _ _ (ix2 n c) (fun a => match a with
      | ⟨0, _⟩ => rfl
      | ⟨1, _⟩ => rfl)

theorem stackT_apply2 {F : FTy → Type} (y0 y1 y2 : FVec F S100000x128 .f32) (n : Fin 100000) (c : Fin 128) :
    stackT y0 y1 y2 (ix3 (2 : Fin 3) n c) = y2 (ix2 n c) := by
  unfold stackT
  refine (concatenate_apply_piece (t := S3x100000x128) (0 : Fin S3x100000x128.rank)
    [⟨S1x100000x128, broadcastInDim S1x100000x128 ![1, 2] bcast_S100000x128_S1x100000x128_1_2 y0⟩,
     ⟨S1x100000x128, broadcastInDim S1x100000x128 ![1, 2] bcast_S100000x128_S1x100000x128_1_2 y1⟩,
     ⟨S1x100000x128, broadcastInDim S1x100000x128 ![1, 2] bcast_S100000x128_S1x100000x128_1_2 y2⟩]
    concatenates_S1x100000x128_S1x100000x128_S1x100000x128_S3x100000x128_d0
    (ix3 (2 : Fin 3) n c) 2 (by show (2 : Nat) < 3; omega) S1x100000x128 _ rfl rfl 2 rfl
    (ix3 (0 : Fin 1) n c) (fun b hb => ?_) rfl).trans ?_
  · match b with
    | ⟨0, _⟩ => exact absurd rfl hb
    | ⟨1, _⟩ => rfl
    | ⟨2, _⟩ => rfl
  · exact broadcastInDim_apply _ _ _ _ (ix2 n c) (fun a => match a with
      | ⟨0, _⟩ => rfl
      | ⟨1, _⟩ => rfl)

end Cert.ReferenceIdeal.H

end
-- ==== Proof.SharedOk.lean ====
import proofs.«402146_j32049045962863_2_alg».proof.Proof.Spec
import proofs.«402146_j32049045962863_2_alg».proof.Proof.LibIdx

noncomputable section

namespace Cert.Spec

open Idealize.ShloMosaic Idealize.ShloMosaic.ValueIdx

theorem zeroW_eq : zeroW = 0 := Ideal.ofBits_zero_f32
theorem oneW_eq : oneW = 1 := Cert.IdxLib.ofBits_one_f32

open Classical in

theorem dOf_eq (dst : Fin 1000000 → BitVec 32) (n : Fin 100000) :
    dOf dst n = Ideal.rsqrt (((0 : EReal) + ∑ _e ∈ Finset.univ.filter (fun e => hitIdx 100000 (dst e) = some n), (1 : EReal)) + 1) := by
  unfold dOf; rw [zeroW_eq, oneW_eq]

theorem dOf_nonneg (dst : Fin 1000000 → BitVec 32) (n : Fin 100000) : 0 ≤ dOf dst n := by
  rw [dOf_eq]; exact Cert.IdxLib.rsqrt_deg_nonneg _

theorem dOf_ne_top (dst : Fin 1000000 → BitVec 32) (n : Fin 100000) : dOf dst n ≠ ⊤ := by
  rw [dOf_eq]; exact Cert.IdxLib.rsqrt_deg_ne_top _

theorem sharedOf_d (ei : S2E.Idx → BitVec 32) (batch : SN.Idx → BitVec 32) :
    (sharedOf ei batch).d = dOf (fun e => ei (ix2 (1 : Fin 2) e)) := by
  unfold sharedOf; dsimp only

theorem sharedOf_batch (ei : S2E.Idx → BitVec 32) (batch : SN.Idx → BitVec 32) (n : Fin 100000) :
    (sharedOf ei batch).batch n = batch (ix1 n) := by
  unfold sharedOf; rfl

theorem sharedOf_ok (ei : S2E.Idx → BitVec 32) (batch : SN.Idx → BitVec 32)
    (hb : ∀ i, 0 ≤ (batch i).toInt ∧ (batch i).toInt < 64) : (sharedOf ei batch).Ok := by
  constructor
  · intro n; rw [sharedOf_d]; exact dOf_nonneg _ n
  · intro n; rw [sharedOf_d]; exact dOf_ne_top _ n
  · intro n; rw [sharedOf_batch]; exact (hb (ix1 n)).1
  · intro n; rw [sharedOf_batch]; exact (hb (ix1 n)).2

theorem sharedOf_eps (ei : S2E.Idx → BitVec 32) (batch : SN.Idx → BitVec 32) : (sharedOf ei batch).eps = epsW := by
  unfold sharedOf; rfl

theorem sharedOf_slope (ei : S2E.Idx → BitVec 32) (batch : SN.Idx → BitVec 32) : (sharedOf ei batch).slope = slopeW := by
  unfold sharedOf; rfl

end Cert.Spec

end
-- ==== Proof.LibMask.lean ====
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

theorem constantI_apply {S : Shape} {w : Nat} (k : BitVec w) (i : S.Idx) : constantI S w k i = k := rfl

theorem broadcastInDim_const {s t : Shape} {α : Type} (dims : Fin s.rank → Fin t.rank) (h : s.BroadcastsInDim t dims)
    (v : α) : broadcastInDim t dims h (fun _ : s.Idx => v) = fun _ => v := rfl

theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

theorem select_ones {S : Shape} {α : Type} (a b : S.Idx → α) : select (fun _ => 1#1) a b = a := by
  funext i
  show Scalar.select 1#1 (a i) (b i) = a i
  unfold Scalar.select
  exact if_pos rfl

theorem select_of_ones {S : Shape} {α : Type} (c : IVec S 1) (a b : S.Idx → α) (hc : ∀ i, c i = 1#1) :
    select c a b = a := by
  have : c = fun _ => 1#1 := funext hc
  rw [this]; exact select_ones a b

theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

theorem andi_apply_eq_one {S : Shape} (x y : IVec S 1) (j : S.Idx) (e : andi x y j = 1#1) : x j = 1#1 ∧ y j = 1#1 :=
  IntOp.andi_eq_one.1 e

end Cert.MaskLib
-- ==== Proof.PreRead.lean ====
import proofs.«402146_j32049045962863_2_alg».proof.Pre_finite_inputs
import proofs.«402146_j32049045962863_2_alg».proof.Proof.LibMask
import Idealize.ShloMosaic.Lib.ValueIdx
import Idealize.ShloMosaic.Lib.ReduceAll

namespace Cert.PreRead

open Idealize.ShloMosaic Idealize.ShloMosaic.ValueIdx Cert.Pre_finite_inputs

instance : Subsingleton S_.Idx := ⟨fun a b => funext fun d => d.elim0⟩

theorem batch_range {F : FTy → Type} [FloatOps F] [hF : Cert.Pre_finite_inputs.Facts]
    (a0 : FVec F S100000x128 .f32) (a1 : IVec S2x1000000 32) (a2 : IVec S100000 32) (a3 : FVec F S3x128x128 .f32)
    (a4 a5 a6 a7 : FVec F S3x128 .f32)
    (h : Cert.Pre_finite_inputs.fn (F := F) a0 a1 a2 a3 a4 a5 a6 a7 = fun _ => 1#1) (i : S100000.Idx) :
    0 ≤ (a2 i).toInt ∧ (a2 i).toInt < 64 := by
  have h0 := congrFun h ix0
  unfold Cert.Pre_finite_inputs.fn Cert.Pre_finite_inputs.fn_part1 Cert.Pre_finite_inputs.fn_part2 at h0
  dsimp only at h0
  obtain ⟨h32, h35⟩ := Cert.MaskLib.andi_apply_eq_one _ _ _ h0
  obtain ⟨-, h31⟩ := Cert.MaskLib.andi_apply_eq_one _ _ _ h32
  constructor
  · have := Cert.MaskLib.all_sge_const a2 _ 0#32 (fun _ => rfl) _ _ _ ix0 h31 i
    simpa using this
  · have := Cert.MaskLib.all_slt_const a2 _ 64#32 (fun _ => rfl) _ _ _ ix0 h35 i
    have e : (64#32 : BitVec 32).toInt = 64 := by decide
    omega

end Cert.PreRead
-- ==== Proof.lean ====
import proofs.«402146_j32049045962863_2_alg».proof.Defs
import proofs.«402146_j32049045962863_2_alg».proof.Proof.Gen.Kernel
import proofs.«402146_j32049045962863_2_alg».proof.Proof.Gen.KernelIdeal
import proofs.«402146_j32049045962863_2_alg».proof.Proof.Gen.ReferenceIdeal
import proofs.«402146_j32049045962863_2_alg».proof.Proof.Gen.Pre_finite_inputs
import proofs.«402146_j32049045962863_2_alg».proof.Proof.K.Run
import proofs.«402146_j32049045962863_2_alg».proof.Proof.KI.Run
import proofs.«402146_j32049045962863_2_alg».proof.Proof.KI.Result
import proofs.«402146_j32049045962863_2_alg».proof.Proof.KI.StackBridge
import proofs.«402146_j32049045962863_2_alg».proof.Proof.Ref.Value
import proofs.«402146_j32049045962863_2_alg».proof.Proof.Ref.Read
import proofs.«402146_j32049045962863_2_alg».proof.Proof.Algebra
import proofs.«402146_j32049045962863_2_alg».proof.Proof.SharedOk
import proofs.«402146_j32049045962863_2_alg».proof.Proof.PreRead

noncomputable section

namespace Cert.Proof

open Idealize.ShloMosaic Idealize.ShloMosaic.TcCoe Idealize.SL.Sem Idealize.ShloMosaic.ValueIdx

theorem frame_k : Cert.frame_Kernel := fun m ρ _ => Cert.Kernel.H.frame m ρ

theorem frame_ki : Cert.frame_KernelIdeal := fun m ρ _ => Cert.KernelIdeal.H.frame m ρ

theorem frame_ri : Cert.frame_ReferenceIdeal := fun m ρ _ => Cert.ReferenceIdeal.H.frame m ρ

open Cert.KernelIdeal Cert.KernelIdeal.Gen Cert.KernelIdeal.H in

theorem algebraic : Cert.algebraic_KernelIdeal_ReferenceIdeal := by
  intro m ρ m' ρ' hpre hagree
  obtain ⟨outs, hO⟩ := Cert.KernelIdeal.H.exists_outs (F := Ideal) m
  refine ⟨fun c => V25 m outs c main_v138, fun c => V25 m outs c main_v142, Cert.KernelIdeal.H.run m ρ outs hO, ?_⟩
  refine (θ_run Cert.ReferenceIdeal.defs _ _).mono (fun r h c => ?_) (Cert.ReferenceIdeal.H.run (F := Ideal) m' ρ')
  obtain ⟨h280, h284, hargs⟩ := h c
  obtain ⟨a0, a1, a2, a3, a4, a5, a6, a7⟩ := hagree c
  have hb := Cert.PreRead.batch_range _ _ _ _ _ _ _ _ (hpre c)
  have hP : (PA m c).Ok := Cert.Spec.sharedOf_ok (eiA m c) (batchA m c) hb
  obtain ⟨k138, k142⟩ := Cert.KernelIdeal.H.kernel_value m outs hO c
  have h0 : y0A m c = Cert.Spec.layerR (PA m c) (LA m 0 c) (x0A m c) := Cert.Spec.layer_eq (PA m c) hP (LA m 0 c) _
  have h1 : y1A m c = Cert.Spec.layerR (PA m c) (LA m 1 c) (Cert.Spec.layerR (PA m c) (LA m 0 c) (x0A m c)) :=
    (Cert.Spec.layer_eq (PA m c) hP (LA m 1 c) _).trans (congrArg _ h0)
  have h2 : y2A m c = Cert.Spec.layerR (PA m c) (LA m 2 c)
      (Cert.Spec.layerR (PA m c) (LA m 1 c) (Cert.Spec.layerR (PA m c) (LA m 0 c) (x0A m c))) :=
    (Cert.Spec.layer_eq (PA m c) hP (LA m 2 c) _).trans (congrArg _ h1)
  refine ⟨h280.trans ?_, h284.trans ?_, hargs⟩
  · rw [a0, a1, a2, a3, a4, a5, a6, a7, Cert.ReferenceIdeal.H.y2T_eq, Cert.ReferenceIdeal.H.y1T_eq, Cert.ReferenceIdeal.H.y0T_eq]
    exact h2.symm.trans k138.symm
  · rw [a0, a1, a2, a3, a4, a5, a6, a7, Cert.ReferenceIdeal.H.y2T_eq, Cert.ReferenceIdeal.H.y1T_eq, Cert.ReferenceIdeal.H.y0T_eq]
    refine Eq.trans ?_ k142.symm
    rw [Cert.KernelIdeal.H.stackK_eq_stackT, h2, h1, h0]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
